-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v308)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v308) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v675) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S1048576 : Shape := ⟨1, ![1048576]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16777216 .f32) (main_arg1 : IVec S1048576 32) (main_arg2 : FVec F S1048576 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg1 main_v9
  let main_c_3 : IVec S_ 1 := constantI S_ 1 1#1
  let main_v11 : IVec S_ 1 := (fun x v => Host.reduce IntOp.andi x v reducesTo_S1048576_S_d0 h_S_) main_v10 main_c_3
  let main_v12 : IVec S_ 1 := andi main_v8 main_v11
  let main_c_4 : IVec S_ 32 := constantI S_ 32 8388608#32
  let main_v13 : IVec S1048576 32 := broadcastInDim S1048576 ![] bcast_S_S1048576 main_c_4
  let main_v14 : IVec S1048576 1 := cmpi .slt main_arg1 main_v13
  let main_c_5 : IVec S_ 1 := constantI S_ 1 1#1
  let main_v15 : IVec S_ 1 := (fun x v => Host.reduce IntOp.andi x v reducesTo_S1048576_S_d0 h_S_) main_v14 main_c_5
  fn_part1 (F := F) main_v12 main_v15
-- ==== Kernel.lean ====
abbrev S16777216 : Shape := ⟨1, ![16777216]⟩
abbrev S1048576 : Shape := ⟨1, ![1048576]⟩
abbrev S8388608 : Shape := ⟨1, ![8388608]⟩
abbrev S_ : Shape := ⟨0, ![]⟩
abbrev S1048576x1 : Shape := ⟨2, ![1048576, 1]⟩
abbrev S65536x128 : Shape := ⟨2, ![65536, 128]⟩
abbrev S4194304 : Shape := ⟨1, ![4194304]⟩
abbrev S65536x64 : Shape := ⟨2, ![65536, 64]⟩
abbrev S2048x128 : Shape := ⟨2, ![2048, 128]⟩
abbrev S2048x64 : Shape := ⟨2, ![2048, 64]⟩
abbrev S128x64 : Shape := ⟨2, ![128, 64]⟩
abbrev S2097152 : Shape := ⟨1, ![2097152]⟩
abbrev S65536x32 : Shape := ⟨2, ![65536, 32]⟩
abbrev S2048x32 : Shape := ⟨2, ![2048, 32]⟩
abbrev S64x32 : Shape := ⟨2, ![64, 32]⟩
abbrev S65536x16 : Shape := ⟨2, ![65536, 16]⟩
abbrev S2048x16 : Shape := ⟨2, ![2048, 16]⟩
abbrev S32x16 : Shape := ⟨2, ![32, 16]⟩
abbrev S524288 : Shape := ⟨1, ![524288]⟩
abbrev S65536x8 : Shape := ⟨2, ![65536, 8]⟩
abbrev S2048x8 : Shape := ⟨2, ![2048, 8]⟩
abbrev S16x8 : Shape := ⟨2, ![16, 8]⟩
abbrev S262144 : Shape := ⟨1, ![262144]⟩
abbrev S65536x4 : Shape := ⟨2, ![65536, 4]⟩
abbrev S2048x4 : Shape := ⟨2, ![2048, 4]⟩
abbrev S8x4 : Shape := ⟨2, ![8, 4]⟩
abbrev S131072 : Shape := ⟨1, ![131072]⟩
abbrev S65536x2 : Shape := ⟨2, ![65536, 2]⟩
abbrev S2048x2 : Shape := ⟨2, ![2048, 2]⟩
abbrev S4x2 : Shape := ⟨2, ![4, 2]⟩
abbrev S65536 : Shape := ⟨1, ![65536]⟩
abbrev S65536x1 : Shape := ⟨2, ![65536, 1]⟩
abbrev S2048x1 : Shape := ⟨2, ![2048, 1]⟩
abbrev S2x1 : Shape := ⟨2, ![2, 1]⟩
abbrev S32768 : Shape := ⟨1, ![32768]⟩
abbrev S32768x2 : Shape := ⟨2, ![32768, 2]⟩
abbrev S32768x1 : Shape := ⟨2, ![32768, 1]⟩
abbrev S16384 : Shape := ⟨1, ![16384]⟩
abbrev S16384x2 : Shape := ⟨2, ![16384, 2]⟩
abbrev S16384x1 : Shape := ⟨2, ![16384, 1]⟩
abbrev S8192 : Shape := ⟨1, ![8192]⟩
abbrev S8192x2 : Shape := ⟨2, ![8192, 2]⟩
abbrev S8192x1 : Shape := ⟨2, ![8192, 1]⟩
abbrev S4096 : Shape := ⟨1, ![4096]⟩
abbrev S4096x2 : Shape := ⟨2, ![4096, 2]⟩
abbrev S4096x1 : Shape := ⟨2, ![4096, 1]⟩
abbrev S2048 : Shape := ⟨1, ![2048]⟩
abbrev S1024 : Shape := ⟨1, ![1024]⟩
abbrev S1024x2 : Shape := ⟨2, ![1024, 2]⟩
abbrev S1024x1 : Shape := ⟨2, ![1024, 1]⟩
abbrev S512 : Shape := ⟨1, ![512]⟩
abbrev S512x2 : Shape := ⟨2, ![512, 2]⟩
abbrev S512x1 : Shape := ⟨2, ![512, 1]⟩
abbrev S256 : Shape := ⟨1, ![256]⟩
abbrev S256x2 : Shape := ⟨2, ![256, 2]⟩
abbrev S256x1 : Shape := ⟨2, ![256, 1]⟩
abbrev S128 : Shape := ⟨1, ![128]⟩
abbrev S128x2 : Shape := ⟨2, ![128, 2]⟩
abbrev S128x1 : Shape := ⟨2, ![128, 1]⟩
abbrev S64 : Shape := ⟨1, ![64]⟩
abbrev S64x2 : Shape := ⟨2, ![64, 2]⟩
abbrev S64x1 : Shape := ⟨2, ![64, 1]⟩
abbrev S32 : Shape := ⟨1, ![32]⟩
abbrev S32x2 : Shape := ⟨2, ![32, 2]⟩
abbrev S32x1 : Shape := ⟨2, ![32, 1]⟩
abbrev S16 : Shape := ⟨1, ![16]⟩
abbrev S16x2 : Shape := ⟨2, ![16, 2]⟩
abbrev S16x1 : Shape := ⟨2, ![16, 1]⟩
abbrev S8 : Shape := ⟨1, ![8]⟩
abbrev S8x2 : Shape := ⟨2, ![8, 2]⟩
abbrev S8x1 : Shape := ⟨2, ![8, 1]⟩
abbrev S4 : Shape := ⟨1, ![4]⟩
abbrev S4x1 : Shape := ⟨2, ![4, 1]⟩
abbrev S2 : Shape := ⟨1, ![2]⟩
abbrev S2x2 : Shape := ⟨2, ![2, 2]⟩
abbrev S1 : Shape := ⟨1, ![1]⟩
abbrev S1x2 : Shape := ⟨2, ![1, 2]⟩
abbrev S1x1 : Shape := ⟨2, ![1, 1]⟩
abbrev S16744448 : Shape := ⟨1, ![16744448]⟩

abbrev nBuf : Space → Nat
  | .hbm => 341
  | .vmem => 70
  | .smem => 0
  | _ => 0

abbrev hbmTy0_0 (i : Nat) : BufTy := match i % 128 with
  | 0 => ⟨S16777216, .f32⟩
  | 1 => ⟨S1048576, .i32⟩
  | 2 => ⟨S1048576, .f32⟩
  | 3 => ⟨S8388608, .f32⟩
  | 4 => ⟨S_, .i32⟩
  | 5 => ⟨S1048576, .i32⟩
  | 6 => ⟨S1048576, .i1⟩
  | 7 => ⟨S_, .i32⟩
  | 8 => ⟨S1048576, .i32⟩
  | 9 => ⟨S1048576, .i32⟩
  | 10 => ⟨S1048576, .i32⟩
  | 11 => ⟨S1048576x1, .i32⟩
  | 12 => ⟨S8388608, .f32⟩
  | 13 => ⟨S_, .f32⟩
  | 14 => ⟨S8388608, .f32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S_, .f32⟩
  | 24 => ⟨S1048576, .f32⟩
  | 25 => ⟨S8388608, .f32⟩
  | 26 => ⟨S65536x128, .f32⟩
  | 27 => ⟨S65536x128, .f32⟩
  | 28 => ⟨S4194304, .f32⟩
  | 29 => ⟨S65536x64, .f32⟩
  | 30 => ⟨S65536x64, .f32⟩
  | 31 => ⟨S65536x64, .f32⟩
  | 32 => ⟨S4194304, .f32⟩
  | 33 => ⟨S2097152, .f32⟩
  | 34 => ⟨S65536x32, .f32⟩
  | 35 => ⟨S65536x32, .f32⟩
  | 36 => ⟨S65536x32, .f32⟩
  | 37 => ⟨S2097152, .f32⟩
  | 38 => ⟨S1048576, .f32⟩
  | 39 => ⟨S65536x16, .f32⟩
  | 40 => ⟨S65536x16, .f32⟩
  | 41 => ⟨S65536x16, .f32⟩
  | 42 => ⟨S1048576, .f32⟩
  | 43 => ⟨S524288, .f32⟩
  | 44 => ⟨S65536x8, .f32⟩
  | 45 => ⟨S65536x8, .f32⟩
  | 46 => ⟨S65536x8, .f32⟩
  | 47 => ⟨S524288, .f32⟩
  | 48 => ⟨S262144, .f32⟩
  | 49 => ⟨S65536x4, .f32⟩
  | 50 => ⟨S65536x4, .f32⟩
  | 51 => ⟨S65536x4, .f32⟩
  | 52 => ⟨S262144, .f32⟩
  | 53 => ⟨S131072, .f32⟩
  | 54 => ⟨S65536x2, .f32⟩
  | 55 => ⟨S65536x2, .f32⟩
  | 56 => ⟨S65536x2, .f32⟩
  | 57 => ⟨S131072, .f32⟩
  | 58 => ⟨S65536, .f32⟩
  | 59 => ⟨S65536x1, .f32⟩
  | 60 => ⟨S65536x1, .f32⟩
  | 61 => ⟨S65536x1, .f32⟩
  | 62 => ⟨S65536, .f32⟩
  | 63 => ⟨S65536, .f32⟩
  | 64 => ⟨S65536, .f32⟩
  | 65 => ⟨S32768, .f32⟩
  | 66 => ⟨S32768x2, .f32⟩
  | 67 => ⟨S32768x2, .f32⟩
  | 68 => ⟨S32768x1, .f32⟩
  | 69 => ⟨S32768, .f32⟩
  | 70 => ⟨S32768x1, .f32⟩
  | 71 => ⟨S32768, .f32⟩
  | 72 => ⟨S32768, .f32⟩
  | 73 => ⟨S32768x1, .f32⟩
  | 74 => ⟨S32768, .f32⟩
  | 75 => ⟨S32768x1, .f32⟩
  | 76 => ⟨S32768, .f32⟩
  | 77 => ⟨S32768, .f32⟩
  | 78 => ⟨S_, .f32⟩
  | 79 => ⟨S32768, .f32⟩
  | 80 => ⟨S32768, .i1⟩
  | 81 => ⟨S32768, .f32⟩
  | 82 => ⟨S16384, .f32⟩
  | 83 => ⟨S16384x2, .f32⟩
  | 84 => ⟨S16384x2, .f32⟩
  | 85 => ⟨S16384x1, .f32⟩
  | 86 => ⟨S16384, .f32⟩
  | 87 => ⟨S16384x1, .f32⟩
  | 88 => ⟨S16384, .f32⟩
  | 89 => ⟨S16384, .f32⟩
  | 90 => ⟨S16384x1, .f32⟩
  | 91 => ⟨S16384, .f32⟩
  | 92 => ⟨S16384x1, .f32⟩
  | 93 => ⟨S16384, .f32⟩
  | 94 => ⟨S16384, .f32⟩
  | 95 => ⟨S_, .f32⟩
  | 96 => ⟨S16384, .f32⟩
  | 97 => ⟨S16384, .i1⟩
  | 98 => ⟨S16384, .f32⟩
  | 99 => ⟨S8192, .f32⟩
  | 100 => ⟨S8192x2, .f32⟩
  | 101 => ⟨S8192x2, .f32⟩
  | 102 => ⟨S8192x1, .f32⟩
  | 103 => ⟨S8192, .f32⟩
  | 104 => ⟨S8192x1, .f32⟩
  | 105 => ⟨S8192, .f32⟩
  | 106 => ⟨S8192, .f32⟩
  | 107 => ⟨S8192x1, .f32⟩
  | 108 => ⟨S8192, .f32⟩
  | 109 => ⟨S8192x1, .f32⟩
  | 110 => ⟨S8192, .f32⟩
  | 111 => ⟨S8192, .f32⟩
  | 112 => ⟨S_, .f32⟩
  | 113 => ⟨S8192, .f32⟩
  | 114 => ⟨S8192, .i1⟩
  | 115 => ⟨S8192, .f32⟩
  | 116 => ⟨S4096, .f32⟩
  | 117 => ⟨S4096x2, .f32⟩
  | 118 => ⟨S4096x2, .f32⟩
  | 119 => ⟨S4096x1, .f32⟩
  | 120 => ⟨S4096, .f32⟩
  | 121 => ⟨S4096x1, .f32⟩
  | 122 => ⟨S4096, .f32⟩
  | 123 => ⟨S4096, .f32⟩
  | 124 => ⟨S4096x1, .f32⟩
  | 125 => ⟨S4096, .f32⟩
  | 126 => ⟨S4096x1, .f32⟩
  | 127 => ⟨S4096, .f32⟩
  | _ => ⟨S16777216, .f32⟩

abbrev hbmTy0_1 (i : Nat) : BufTy := match i % 128 with
  | 0 => ⟨S4096, .f32⟩
  | 1 => ⟨S_, .f32⟩
  | 2 => ⟨S4096, .f32⟩
  | 3 => ⟨S4096, .i1⟩
  | 4 => ⟨S4096, .f32⟩
  | 5 => ⟨S2048, .f32⟩
  | 6 => ⟨S2048x2, .f32⟩
  | 7 => ⟨S2048x2, .f32⟩
  | 8 => ⟨S2048x1, .f32⟩
  | 9 => ⟨S2048, .f32⟩
  | 10 => ⟨S2048x1, .f32⟩
  | 11 => ⟨S2048, .f32⟩
  | 12 => ⟨S2048, .f32⟩
  | 13 => ⟨S2048x1, .f32⟩
  | 14 => ⟨S2048, .f32⟩
  | 15 => ⟨S2048x1, .f32⟩
  | 16 => ⟨S2048, .f32⟩
  | 17 => ⟨S2048, .f32⟩
  | 18 => ⟨S_, .f32⟩
  | 19 => ⟨S2048, .f32⟩
  | 20 => ⟨S2048, .i1⟩
  | 21 => ⟨S2048, .f32⟩
  | 22 => ⟨S1024, .f32⟩
  | 23 => ⟨S1024x2, .f32⟩
  | 24 => ⟨S1024x2, .f32⟩
  | 25 => ⟨S1024x1, .f32⟩
  | 26 => ⟨S1024, .f32⟩
  | 27 => ⟨S1024x1, .f32⟩
  | 28 => ⟨S1024, .f32⟩
  | 29 => ⟨S1024, .f32⟩
  | 30 => ⟨S1024x1, .f32⟩
  | 31 => ⟨S1024, .f32⟩
  | 32 => ⟨S1024x1, .f32⟩
  | 33 => ⟨S1024, .f32⟩
  | 34 => ⟨S1024, .f32⟩
  | 35 => ⟨S_, .f32⟩
  | 36 => ⟨S1024, .f32⟩
  | 37 => ⟨S1024, .i1⟩
  | 38 => ⟨S1024, .f32⟩
  | 39 => ⟨S512, .f32⟩
  | 40 => ⟨S512x2, .f32⟩
  | 41 => ⟨S512x2, .f32⟩
  | 42 => ⟨S512x1, .f32⟩
  | 43 => ⟨S512, .f32⟩
  | 44 => ⟨S512x1, .f32⟩
  | 45 => ⟨S512, .f32⟩
  | 46 => ⟨S512, .f32⟩
  | 47 => ⟨S512x1, .f32⟩
  | 48 => ⟨S512, .f32⟩
  | 49 => ⟨S512x1, .f32⟩
  | 50 => ⟨S512, .f32⟩
  | 51 => ⟨S512, .f32⟩
  | 52 => ⟨S_, .f32⟩
  | 53 => ⟨S512, .f32⟩
  | 54 => ⟨S512, .i1⟩
  | 55 => ⟨S512, .f32⟩
  | 56 => ⟨S256, .f32⟩
  | 57 => ⟨S256x2, .f32⟩
  | 58 => ⟨S256x2, .f32⟩
  | 59 => ⟨S256x1, .f32⟩
  | 60 => ⟨S256, .f32⟩
  | 61 => ⟨S256x1, .f32⟩
  | 62 => ⟨S256, .f32⟩
  | 63 => ⟨S256, .f32⟩
  | 64 => ⟨S256x1, .f32⟩
  | 65 => ⟨S256, .f32⟩
  | 66 => ⟨S256x1, .f32⟩
  | 67 => ⟨S256, .f32⟩
  | 68 => ⟨S256, .f32⟩
  | 69 => ⟨S_, .f32⟩
  | 70 => ⟨S256, .f32⟩
  | 71 => ⟨S256, .i1⟩
  | 72 => ⟨S256, .f32⟩
  | 73 => ⟨S128, .f32⟩
  | 74 => ⟨S128x2, .f32⟩
  | 75 => ⟨S128x2, .f32⟩
  | 76 => ⟨S128x1, .f32⟩
  | 77 => ⟨S128, .f32⟩
  | 78 => ⟨S128x1, .f32⟩
  | 79 => ⟨S128, .f32⟩
  | 80 => ⟨S128, .f32⟩
  | 81 => ⟨S128x1, .f32⟩
  | 82 => ⟨S128, .f32⟩
  | 83 => ⟨S128x1, .f32⟩
  | 84 => ⟨S128, .f32⟩
  | 85 => ⟨S128, .f32⟩
  | 86 => ⟨S_, .f32⟩
  | 87 => ⟨S128, .f32⟩
  | 88 => ⟨S128, .i1⟩
  | 89 => ⟨S128, .f32⟩
  | 90 => ⟨S64, .f32⟩
  | 91 => ⟨S64x2, .f32⟩
  | 92 => ⟨S64x2, .f32⟩
  | 93 => ⟨S64x1, .f32⟩
  | 94 => ⟨S64, .f32⟩
  | 95 => ⟨S64x1, .f32⟩
  | 96 => ⟨S64, .f32⟩
  | 97 => ⟨S64, .f32⟩
  | 98 => ⟨S64x1, .f32⟩
  | 99 => ⟨S64, .f32⟩
  | 100 => ⟨S64x1, .f32⟩
  | 101 => ⟨S64, .f32⟩
  | 102 => ⟨S64, .f32⟩
  | 103 => ⟨S_, .f32⟩
  | 104 => ⟨S64, .f32⟩
  | 105 => ⟨S64, .i1⟩
  | 106 => ⟨S64, .f32⟩
  | 107 => ⟨S32, .f32⟩
  | 108 => ⟨S32x2, .f32⟩
  | 109 => ⟨S32x2, .f32⟩
  | 110 => ⟨S32x1, .f32⟩
  | 111 => ⟨S32, .f32⟩
  | 112 => ⟨S32x1, .f32⟩
  | 113 => ⟨S32, .f32⟩
  | 114 => ⟨S32, .f32⟩
  | 115 => ⟨S32x1, .f32⟩
  | 116 => ⟨S32, .f32⟩
  | 117 => ⟨S32x1, .f32⟩
  | 118 => ⟨S32, .f32⟩
  | 119 => ⟨S32, .f32⟩
  | 120 => ⟨S_, .f32⟩
  | 121 => ⟨S32, .f32⟩
  | 122 => ⟨S32, .i1⟩
  | 123 => ⟨S32, .f32⟩
  | 124 => ⟨S16, .f32⟩
  | 125 => ⟨S16x2, .f32⟩
  | 126 => ⟨S16x2, .f32⟩
  | 127 => ⟨S16x1, .f32⟩
  | _ => ⟨S16777216, .f32⟩

abbrev hbmTy0_2 (i : Nat) : BufTy := match i % 128 with
  | 0 => ⟨S16, .f32⟩
  | 1 => ⟨S16x1, .f32⟩
  | 2 => ⟨S16, .f32⟩
  | 3 => ⟨S16, .f32⟩
  | 4 => ⟨S16x1, .f32⟩
  | 5 => ⟨S16, .f32⟩
  | 6 => ⟨S16x1, .f32⟩
  | 7 => ⟨S16, .f32⟩
  | 8 => ⟨S16, .f32⟩
  | 9 => ⟨S_, .f32⟩
  | 10 => ⟨S16, .f32⟩
  | 11 => ⟨S16, .i1⟩
  | 12 => ⟨S16, .f32⟩
  | 13 => ⟨S8, .f32⟩
  | 14 => ⟨S8x2, .f32⟩
  | 15 => ⟨S8x2, .f32⟩
  | 16 => ⟨S8x1, .f32⟩
  | 17 => ⟨S8, .f32⟩
  | 18 => ⟨S8x1, .f32⟩
  | 19 => ⟨S8, .f32⟩
  | 20 => ⟨S8, .f32⟩
  | 21 => ⟨S8x1, .f32⟩
  | 22 => ⟨S8, .f32⟩
  | 23 => ⟨S8x1, .f32⟩
  | 24 => ⟨S8, .f32⟩
  | 25 => ⟨S8, .f32⟩
  | 26 => ⟨S_, .f32⟩
  | 27 => ⟨S8, .f32⟩
  | 28 => ⟨S8, .i1⟩
  | 29 => ⟨S8, .f32⟩
  | 30 => ⟨S4, .f32⟩
  | 31 => ⟨S4x2, .f32⟩
  | 32 => ⟨S4x2, .f32⟩
  | 33 => ⟨S4x1, .f32⟩
  | 34 => ⟨S4, .f32⟩
  | 35 => ⟨S4x1, .f32⟩
  | 36 => ⟨S4, .f32⟩
  | 37 => ⟨S4, .f32⟩
  | 38 => ⟨S4x1, .f32⟩
  | 39 => ⟨S4, .f32⟩
  | 40 => ⟨S4x1, .f32⟩
  | 41 => ⟨S4, .f32⟩
  | 42 => ⟨S4, .f32⟩
  | 43 => ⟨S_, .f32⟩
  | 44 => ⟨S4, .f32⟩
  | 45 => ⟨S4, .i1⟩
  | 46 => ⟨S4, .f32⟩
  | 47 => ⟨S2, .f32⟩
  | 48 => ⟨S2x2, .f32⟩
  | 49 => ⟨S2x2, .f32⟩
  | 50 => ⟨S2x1, .f32⟩
  | 51 => ⟨S2, .f32⟩
  | 52 => ⟨S2x1, .f32⟩
  | 53 => ⟨S2, .f32⟩
  | 54 => ⟨S2, .f32⟩
  | 55 => ⟨S2x1, .f32⟩
  | 56 => ⟨S2, .f32⟩
  | 57 => ⟨S2x1, .f32⟩
  | 58 => ⟨S2, .f32⟩
  | 59 => ⟨S2, .f32⟩
  | 60 => ⟨S_, .f32⟩
  | 61 => ⟨S2, .f32⟩
  | 62 => ⟨S2, .i1⟩
  | 63 => ⟨S2, .f32⟩
  | 64 => ⟨S1, .f32⟩
  | 65 => ⟨S1x2, .f32⟩
  | 66 => ⟨S1x2, .f32⟩
  | 67 => ⟨S1x1, .f32⟩
  | 68 => ⟨S1, .f32⟩
  | 69 => ⟨S1x1, .f32⟩
  | 70 => ⟨S1, .f32⟩
  | 71 => ⟨S1, .f32⟩
  | 72 => ⟨S1x1, .f32⟩
  | 73 => ⟨S1, .f32⟩
  | 74 => ⟨S1x1, .f32⟩
  | 75 => ⟨S1, .f32⟩
  | 76 => ⟨S1, .f32⟩
  | 77 => ⟨S_, .f32⟩
  | 78 => ⟨S1, .f32⟩
  | 79 => ⟨S1, .i1⟩
  | 80 => ⟨S1, .f32⟩
  | 81 => ⟨S1, .f32⟩
  | 82 => ⟨S32768, .f32⟩
  | 83 => ⟨S16744448, .f32⟩
  | 84 => ⟨S16777216, .f32⟩
  | _ => ⟨S16777216, .f32⟩

abbrev hbmTy (i : Nat) : BufTy := match i / 128 with
  | 0 => hbmTy0_0 i
  | 1 => hbmTy0_1 i
  | 2 => hbmTy0_2 i
  | _ => ⟨S16777216, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x32, .f32⟩
  | .local _ .vmem, ⟨15, _⟩ => ⟨S2048x32, .f32⟩
  | .local _ .vmem, ⟨16, _⟩ => ⟨S2048x32, .f32⟩
  | .local _ .vmem, ⟨17, _⟩ => ⟨S2048x32, .f32⟩
  | .local _ .vmem, ⟨18, _⟩ => ⟨S2048x32, .f32⟩
  | .local _ .vmem, ⟨19, _⟩ => ⟨S2048x32, .f32⟩
  | .local _ .vmem, ⟨20, _⟩ => ⟨S2048x32, .f32⟩
  | .local _ .vmem, ⟨21, _⟩ => ⟨S2048x32, .f32⟩
  | .local _ .vmem, ⟨22, _⟩ => ⟨S2048x32, .f32⟩
  | .local _ .vmem, ⟨23, _⟩ => ⟨S2048x32, .f32⟩
  | .local _ .vmem, ⟨24, _⟩ => ⟨S2048x16, .f32⟩
  | .local _ .vmem, ⟨25, _⟩ => ⟨S2048x16, .f32⟩
  | .local _ .vmem, ⟨26, _⟩ => ⟨S2048x16, .f32⟩
  | .local _ .vmem, ⟨27, _⟩ => ⟨S2048x16, .f32⟩
  | .local _ .vmem, ⟨28, _⟩ => ⟨S2048x16, .f32⟩
  | .local _ .vmem, ⟨29, _⟩ => ⟨S2048x16, .f32⟩
  | .local _ .vmem, ⟨30, _⟩ => ⟨S2048x16, .f32⟩
  | .local _ .vmem, ⟨31, _⟩ => ⟨S2048x16, .f32⟩
  | .local _ .vmem, ⟨32, _⟩ => ⟨S2048x16, .f32⟩
  | .local _ .vmem, ⟨33, _⟩ => ⟨S2048x16, .f32⟩
  | .local _ .vmem, ⟨34, _⟩ => ⟨S2048x8, .f32⟩
  | .local _ .vmem, ⟨35, _⟩ => ⟨S2048x8, .f32⟩
  | .local _ .vmem, ⟨36, _⟩ => ⟨S2048x8, .f32⟩
  | .local _ .vmem, ⟨37, _⟩ => ⟨S2048x8, .f32⟩
  | .local _ .vmem, ⟨38, _⟩ => ⟨S2048x8, .f32⟩
  | .local _ .vmem, ⟨39, _⟩ => ⟨S2048x8, .f32⟩
  | .local _ .vmem, ⟨40, _⟩ => ⟨S2048x8, .f32⟩
  | .local _ .vmem, ⟨41, _⟩ => ⟨S2048x8, .f32⟩
  | .local _ .vmem, ⟨42, _⟩ => ⟨S2048x8, .f32⟩
  | .local _ .vmem, ⟨43, _⟩ => ⟨S2048x8, .f32⟩
  | .local _ .vmem, ⟨44, _⟩ => ⟨S2048x4, .f32⟩
  | .local _ .vmem, ⟨45, _⟩ => ⟨S2048x4, .f32⟩
  | .local _ .vmem, ⟨46, _⟩ => ⟨S2048x4, .f32⟩
  | .local _ .vmem, ⟨47, _⟩ => ⟨S2048x4, .f32⟩
  | .local _ .vmem, ⟨48, _⟩ => ⟨S2048x4, .f32⟩
  | .local _ .vmem, ⟨49, _⟩ => ⟨S2048x4, .f32⟩
  | .local _ .vmem, ⟨50, _⟩ => ⟨S2048x4, .f32⟩
  | .local _ .vmem, ⟨51, _⟩ => ⟨S2048x4, .f32⟩
  | .local _ .vmem, ⟨52, _⟩ => ⟨S2048x4, .f32⟩
  | .local _ .vmem, ⟨53, _⟩ => ⟨S2048x4, .f32⟩
  | .local _ .vmem, ⟨54, _⟩ => ⟨S2048x2, .f32⟩
  | .local _ .vmem, ⟨55, _⟩ => ⟨S2048x2, .f32⟩
  | .local _ .vmem, ⟨56, _⟩ => ⟨S2048x2, .f32⟩
  | .local _ .vmem, ⟨57, _⟩ => ⟨S2048x2, .f32⟩
  | .local _ .vmem, ⟨58, _⟩ => ⟨S2048x2, .f32⟩
  | .local _ .vmem, ⟨59, _⟩ => ⟨S2048x2, .f32⟩
  | .local _ .vmem, ⟨60, _⟩ => ⟨S2048x2, .f32⟩
  | .local _ .vmem, ⟨61, _⟩ => ⟨S2048x2, .f32⟩
  | .local _ .vmem, ⟨62, _⟩ => ⟨S2048x2, .f32⟩
  | .local _ .vmem, ⟨63, _⟩ => ⟨S2048x2, .f32⟩
  | .local _ .vmem, ⟨64, _⟩ => ⟨S2048x1, .f32⟩
  | .local _ .vmem, ⟨65, _⟩ => ⟨S2048x1, .f32⟩
  | .local _ .vmem, ⟨66, _⟩ => ⟨S2048x1, .f32⟩
  | .local _ .vmem, ⟨67, _⟩ => ⟨S2048x1, .f32⟩
  | .local _ .vmem, ⟨68, _⟩ => ⟨S2048x1, .f32⟩
  | .local _ .vmem, ⟨69, _⟩ => ⟨S2048x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_4 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_5 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_6 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_7 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_8 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_cst_9 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_cst_10 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_cst_11 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_cst_12 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_cst_13 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_cst_14 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_cst_15 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_cst_16 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_cst_17 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_cst_18 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_cst_19 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg3_1 : Ref sig .tc := ⟨.vmem, 67, rfl⟩
abbrev cc6_stg4_0 : Ref sig .tc := ⟨.vmem, 68, rfl⟩
abbrev cc6_stg4_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2048x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x8 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x4 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x4 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x4 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x4 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2048x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x2 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2048x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2048x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S16777216_S8388608_8388608 : S16777216.Slices ![8388608] S8388608
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S8388608 : S_.BroadcastsInDim S8388608 (![] : Fin 0 → Fin S8388608.rank)
  shapeCasts_S8388608_S65536x128 : S8388608.ShapeCasts S65536x128
  slices_S16777216_S4194304_4194304 : S16777216.Slices ![4194304] S4194304
  shapeCasts_S4194304_S65536x64 : S4194304.ShapeCasts S65536x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S128x64_d0_w32 : S128x64.Iotas .tc 32 [0]
  iota_S128x64_d1_w32 : S128x64.Iotas .tc 32 [1]
  natLt_1_32 : 1 < 32
  shapeCasts_S65536x64_S4194304 : S65536x64.ShapeCasts S4194304
  slices_S16777216_S2097152_2097152 : S16777216.Slices ![2097152] S2097152
  shapeCasts_S2097152_S65536x32 : S2097152.ShapeCasts S65536x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  iota_S64x32_d0_w32 : S64x32.Iotas .tc 32 [0]
  iota_S64x32_d1_w32 : S64x32.Iotas .tc 32 [1]
  shapeCasts_S65536x32_S2097152 : S65536x32.ShapeCasts S2097152
  slices_S16777216_S1048576_1048576 : S16777216.Slices ![1048576] S1048576
  shapeCasts_S1048576_S65536x16 : S1048576.ShapeCasts S65536x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  iota_S32x16_d0_w32 : S32x16.Iotas .tc 32 [0]
  iota_S32x16_d1_w32 : S32x16.Iotas .tc 32 [1]
  shapeCasts_S65536x16_S1048576 : S65536x16.ShapeCasts S1048576
  slices_S16777216_S524288_524288 : S16777216.Slices ![524288] S524288
  shapeCasts_S524288_S65536x8 : S524288.ShapeCasts S65536x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  iota_S16x8_d0_w32 : S16x8.Iotas .tc 32 [0]
  iota_S16x8_d1_w32 : S16x8.Iotas .tc 32 [1]
  shapeCasts_S65536x8_S524288 : S65536x8.ShapeCasts S524288
  slices_S16777216_S262144_262144 : S16777216.Slices ![262144] S262144
  shapeCasts_S262144_S65536x4 : S262144.ShapeCasts S65536x4
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  iota_S8x4_d0_w32 : S8x4.Iotas .tc 32 [0]
  iota_S8x4_d1_w32 : S8x4.Iotas .tc 32 [1]
  shapeCasts_S65536x4_S262144 : S65536x4.ShapeCasts S262144
  slices_S16777216_S131072_131072 : S16777216.Slices ![131072] S131072
  shapeCasts_S131072_S65536x2 : S131072.ShapeCasts S65536x2
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  iota_S4x2_d0_w32 : S4x2.Iotas .tc 32 [0]
  iota_S4x2_d1_w32 : S4x2.Iotas .tc 32 [1]
  shapeCasts_S65536x2_S131072 : S65536x2.ShapeCasts S131072
  slices_S16777216_S65536_65536 : S16777216.Slices ![65536] S65536
  shapeCasts_S65536_S65536x1 : S65536.ShapeCasts S65536x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2x1_d0_w32 : S2x1.Iotas .tc 32 [0]
  iota_S2x1_d1_w32 : S2x1.Iotas .tc 32 [1]
  shapeCasts_S65536x1_S65536 : S65536x1.ShapeCasts S65536
  slices_S16777216_S32768_32768 : S16777216.Slices ![32768] S32768
  shapeCasts_S65536_S32768x2 : S65536.ShapeCasts S32768x2
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)
  slices_S16777216_S16384_16384 : S16777216.Slices ![16384] S16384
  shapeCasts_S32768_S16384x2 : S32768.ShapeCasts S16384x2
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  slices_S16777216_S8192_8192 : S16777216.Slices ![8192] S8192
  shapeCasts_S16384_S8192x2 : S16384.ShapeCasts S8192x2
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  slices_S16777216_S4096_4096 : S16777216.Slices ![4096] S4096
  shapeCasts_S8192_S4096x2 : S8192.ShapeCasts S4096x2
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  slices_S16777216_S2048_2048 : S16777216.Slices ![2048] S2048
  shapeCasts_S4096_S2048x2 : S4096.ShapeCasts S2048x2
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  slices_S16777216_S1024_1024 : S16777216.Slices ![1024] S1024
  shapeCasts_S2048_S1024x2 : S2048.ShapeCasts S1024x2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  slices_S16777216_S512_512 : S16777216.Slices ![512] S512
  shapeCasts_S1024_S512x2 : S1024.ShapeCasts S512x2
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  slices_S16777216_S256_256 : S16777216.Slices ![256] S256
  shapeCasts_S512_S256x2 : S512.ShapeCasts S256x2
  slices_S256x2_S256x1_0_0 : S256x2.Slices ![0, 0] S256x1
  shapeCasts_S256x1_S256 : S256x1.ShapeCasts S256
  slices_S256x2_S256x1_0_1 : S256x2.Slices ![0, 1] S256x1
  bcast_S_S256 : S_.BroadcastsInDim S256 (![] : Fin 0 → Fin S256.rank)
  slices_S16777216_S128_128 : S16777216.Slices ![128] S128
  shapeCasts_S256_S128x2 : S256.ShapeCasts S128x2
  slices_S128x2_S128x1_0_0 : S128x2.Slices ![0, 0] S128x1
  shapeCasts_S128x1_S128 : S128x1.ShapeCasts S128
  slices_S128x2_S128x1_0_1 : S128x2.Slices ![0, 1] S128x1
  bcast_S_S128 : S_.BroadcastsInDim S128 (![] : Fin 0 → Fin S128.rank)
  slices_S16777216_S64_64 : S16777216.Slices ![64] S64
  shapeCasts_S128_S64x2 : S128.ShapeCasts S64x2
  slices_S64x2_S64x1_0_0 : S64x2.Slices ![0, 0] S64x1
  shapeCasts_S64x1_S64 : S64x1.ShapeCasts S64
  slices_S64x2_S64x1_0_1 : S64x2.Slices ![0, 1] S64x1
  bcast_S_S64 : S_.BroadcastsInDim S64 (![] : Fin 0 → Fin S64.rank)
  slices_S16777216_S32_32 : S16777216.Slices ![32] S32
  shapeCasts_S64_S32x2 : S64.ShapeCasts S32x2
  slices_S32x2_S32x1_0_0 : S32x2.Slices ![0, 0] S32x1
  shapeCasts_S32x1_S32 : S32x1.ShapeCasts S32
  slices_S32x2_S32x1_0_1 : S32x2.Slices ![0, 1] S32x1
  bcast_S_S32 : S_.BroadcastsInDim S32 (![] : Fin 0 → Fin S32.rank)
  slices_S16777216_S16_16 : S16777216.Slices ![16] S16
  shapeCasts_S32_S16x2 : S32.ShapeCasts S16x2
  slices_S16x2_S16x1_0_0 : S16x2.Slices ![0, 0] S16x1
  shapeCasts_S16x1_S16 : S16x1.ShapeCasts S16
  slices_S16x2_S16x1_0_1 : S16x2.Slices ![0, 1] S16x1
  bcast_S_S16 : S_.BroadcastsInDim S16 (![] : Fin 0 → Fin S16.rank)
  slices_S16777216_S8_8 : S16777216.Slices ![8] S8
  shapeCasts_S16_S8x2 : S16.ShapeCasts S8x2
  slices_S8x2_S8x1_0_0 : S8x2.Slices ![0, 0] S8x1
  shapeCasts_S8x1_S8 : S8x1.ShapeCasts S8
  slices_S8x2_S8x1_0_1 : S8x2.Slices ![0, 1] S8x1
  bcast_S_S8 : S_.BroadcastsInDim S8 (![] : Fin 0 → Fin S8.rank)
  slices_S16777216_S4_4 : S16777216.Slices ![4] S4
  shapeCasts_S8_S4x2 : S8.ShapeCasts S4x2
  slices_S4x2_S4x1_0_0 : S4x2.Slices ![0, 0] S4x1
  shapeCasts_S4x1_S4 : S4x1.ShapeCasts S4
  slices_S4x2_S4x1_0_1 : S4x2.Slices ![0, 1] S4x1
  bcast_S_S4 : S_.BroadcastsInDim S4 (![] : Fin 0 → Fin S4.rank)
  slices_S16777216_S2_2 : S16777216.Slices ![2] S2
  shapeCasts_S4_S2x2 : S4.ShapeCasts S2x2
  slices_S2x2_S2x1_0_0 : S2x2.Slices ![0, 0] S2x1
  shapeCasts_S2x1_S2 : S2x1.ShapeCasts S2
  slices_S2x2_S2x1_0_1 : S2x2.Slices ![0, 1] S2x1
  bcast_S_S2 : S_.BroadcastsInDim S2 (![] : Fin 0 → Fin S2.rank)
  slices_S16777216_S1_1 : S16777216.Slices ![1] S1
  shapeCasts_S2_S1x2 : S2.ShapeCasts S1x2
  slices_S1x2_S1x1_0_0 : S1x2.Slices ![0, 0] S1x1
  shapeCasts_S1x1_S1 : S1x1.ShapeCasts S1
  slices_S1x2_S1x1_0_1 : S1x2.Slices ![0, 1] S1x1
  bcast_S_S1 : S_.BroadcastsInDim S1 (![] : Fin 0 → Fin S1.rank)
  slices_S16777216_S1_0 : S16777216.Slices ![0] S1
  concatenates_S1_S1_S2_S4_S8_S16_S32_S64_S128_S256_S512_S1024_S2048_S4096_S8192_S16384_S32768_d0 : Shape.Concatenates [S1, S1, S2, S4, S8, S16, S32, S64, S128, S256, S512, S1024, S2048, S4096, S8192, S16384] S32768 0
  concatenates_S32768_S65536_S131072_S262144_S524288_S1048576_S2097152_S4194304_S8388608_S16744448_d0 : Shape.Concatenates [S32768, S65536, S131072, S262144, S524288, S1048576, S2097152, S4194304, S8388608] S16744448 0
  concatenates_S32768_S16744448_S16777216_d0 : Shape.Concatenates [S32768, S16744448] S16777216 0
  scatter_S8388608_S1048576x1_S1048576_n_0_0_1_wf : ScatterDims.WF S8388608 S1048576x1 S1048576 [] [0] [0] 1
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x8_S2048x8_1_0_0_1_n_n_wf : DotDims.WF S2048x16 S16x8 S2048x8 [1] [0] [0] [1] [] []
  dot_S2048x8_S8x4_S2048x4_1_0_0_1_n_n_wf : DotDims.WF S2048x8 S8x4 S2048x4 [1] [0] [0] [1] [] []
  dot_S2048x4_S4x2_S2048x2_1_0_0_1_n_n_wf : DotDims.WF S2048x4 S4x2 S2048x2 [1] [0] [0] [1] [] []
  dot_S2048x2_S2x1_S2048x1_1_0_0_1_n_n_wf : DotDims.WF S2048x2 S2x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S65536x64.size a
  hwx0_2 : ∀ i : grid0.Coords, EltTy.bits .f32 = 32 ∨ (Rect.block (s := S65536x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S65536x64.size a
  hwx0_3 : ∀ i : grid0.Coords, EltTy.bits .f32 = 32 ∨ (Rect.block (s := S65536x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S65536x64.size a
  hwx0_4 : ∀ i : grid0.Coords, EltTy.bits .f32 = 32 ∨ (Rect.block (s := S65536x64) S2048x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S65536x64.size a
  hwx1_0 : ∀ i : grid1.Coords, EltTy.bits .f32 = 32 ∨ (Rect.block (s := S65536x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S65536x64.size a
  hwx1_1 : ∀ i : grid1.Coords, EltTy.bits .f32 = 32 ∨ (Rect.block (s := S65536x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S65536x32.size a
  hwx1_2 : ∀ i : grid1.Coords, EltTy.bits .f32 = 32 ∨ (Rect.block (s := S65536x32) S2048x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S65536x32.size a
  hwx1_3 : ∀ i : grid1.Coords, EltTy.bits .f32 = 32 ∨ (Rect.block (s := S65536x32) S2048x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x32.size a ≤ S65536x32.size a
  hwx1_4 : ∀ i : grid1.Coords, EltTy.bits .f32 = 32 ∨ (Rect.block (s := S65536x32) S2048x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S65536x32.size a
  hwx2_0 : ∀ i : grid2.Coords, EltTy.bits .f32 = 32 ∨ (Rect.block (s := S65536x32) S2048x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x32.size a ≤ S65536x32.size a
  hwx2_1 : ∀ i : grid2.Coords, EltTy.bits .f32 = 32 ∨ (Rect.block (s := S65536x32) S2048x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S65536x16.size a
  hwx2_2 : ∀ i : grid2.Coords, EltTy.bits .f32 = 32 ∨ (Rect.block (s := S65536x16) S2048x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S65536x16.size a
  hwx2_3 : ∀ i : grid2.Coords, EltTy.bits .f32 = 32 ∨ (Rect.block (s := S65536x16) S2048x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S65536x16.size a
  hwx2_4 : ∀ i : grid2.Coords, EltTy.bits .f32 = 32 ∨ (Rect.block (s := S65536x16) S2048x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x16.size a ≤ S65536x16.size a
  hwx3_0 : ∀ i : grid3.Coords, EltTy.bits .f32 = 32 ∨ (Rect.block (s := S65536x16) S2048x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x16.size a ≤ S65536x16.size a
  hwx3_1 : ∀ i : grid3.Coords, EltTy.bits .f32 = 32 ∨ (Rect.block (s := S65536x16) S2048x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x8.size a ≤ S65536x8.size a
  hwx3_2 : ∀ i : grid3.Coords, EltTy.bits .f32 = 32 ∨ (Rect.block (s := S65536x8) S2048x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x8.size a ≤ S65536x8.size a
  hwx3_3 : ∀ i : grid3.Coords, EltTy.bits .f32 = 32 ∨ (Rect.block (s := S65536x8) S2048x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x8.size a ≤ S65536x8.size a
  hwx3_4 : ∀ i : grid3.Coords, EltTy.bits .f32 = 32 ∨ (Rect.block (s := S65536x8) S2048x8.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x8.size a ≤ S65536x8.size a
  hwx4_0 : ∀ i : grid4.Coords, EltTy.bits .f32 = 32 ∨ (Rect.block (s := S65536x8) S2048x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x8.size a ≤ S65536x8.size a
  hwx4_1 : ∀ i : grid4.Coords, EltTy.bits .f32 = 32 ∨ (Rect.block (s := S65536x8) S2048x8.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x4.size a ≤ S65536x4.size a
  hwx4_2 : ∀ i : grid4.Coords, EltTy.bits .f32 = 32 ∨ (Rect.block (s := S65536x4) S2048x4.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x4.size a ≤ S65536x4.size a
  hwx4_3 : ∀ i : grid4.Coords, EltTy.bits .f32 = 32 ∨ (Rect.block (s := S65536x4) S2048x4.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x4.size a ≤ S65536x4.size a
  hwx4_4 : ∀ i : grid4.Coords, EltTy.bits .f32 = 32 ∨ (Rect.block (s := S65536x4) S2048x4.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x4.size a ≤ S65536x4.size a
  hwx5_0 : ∀ i : grid5.Coords, EltTy.bits .f32 = 32 ∨ (Rect.block (s := S65536x4) S2048x4.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x4.size a ≤ S65536x4.size a
  hwx5_1 : ∀ i : grid5.Coords, EltTy.bits .f32 = 32 ∨ (Rect.block (s := S65536x4) S2048x4.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x2.size a ≤ S65536x2.size a
  hwx5_2 : ∀ i : grid5.Coords, EltTy.bits .f32 = 32 ∨ (Rect.block (s := S65536x2) S2048x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x2.size a ≤ S65536x2.size a
  hwx5_3 : ∀ i : grid5.Coords, EltTy.bits .f32 = 32 ∨ (Rect.block (s := S65536x2) S2048x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x2.size a ≤ S65536x2.size a
  hwx5_4 : ∀ i : grid5.Coords, EltTy.bits .f32 = 32 ∨ (Rect.block (s := S65536x2) S2048x2.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x2.size a ≤ S65536x2.size a
  hwx6_0 : ∀ i : grid6.Coords, EltTy.bits .f32 = 32 ∨ (Rect.block (s := S65536x2) S2048x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x2.size a ≤ S65536x2.size a
  hwx6_1 : ∀ i : grid6.Coords, EltTy.bits .f32 = 32 ∨ (Rect.block (s := S65536x2) S2048x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x1.size a ≤ S65536x1.size a
  hwx6_2 : ∀ i : grid6.Coords, EltTy.bits .f32 = 32 ∨ (Rect.block (s := S65536x1) S2048x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x1.size a ≤ S65536x1.size a
  hwx6_3 : ∀ i : grid6.Coords, EltTy.bits .f32 = 32 ∨ (Rect.block (s := S65536x1) S2048x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x1.size a ≤ S65536x1.size a
  hwx6_4 : ∀ i : grid6.Coords, EltTy.bits .f32 = 32 ∨ (Rect.block (s := S65536x1) S2048x1.size (cc6_transform_4 i) (hinb6_4 i)).WholeWords (EltTy.packing .f32)

variable [Facts₀]

def scatter_S8388608_S1048576x1_S1048576_n_0_0_1 : ScatterDims S8388608 S1048576x1 S1048576 where
  updateWindowDims := []
  insertedWindowDims := [0]
  scatterDimsToOperandDims := [0]
  indexVectorDim := 1
  wf := scatter_S8388608_S1048576x1_S1048576_n_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x8_S2048x8_1_0_0_1_n_n : DotDims S2048x16 S16x8 S2048x8 where
  lhsContracting := [1]
  rhsContracting := [0]
  lhsNonContracting := [0]
  rhsNonContracting := [1]
  lhsBatch := []
  rhsBatch := []
  wf := dot_S2048x16_S16x8_S2048x8_1_0_0_1_n_n_wf
def dot_S2048x8_S8x4_S2048x4_1_0_0_1_n_n : DotDims S2048x8 S8x4 S2048x4 where
  lhsContracting := [1]
  rhsContracting := [0]
  lhsNonContracting := [0]
  rhsNonContracting := [1]
  lhsBatch := []
  rhsBatch := []
  wf := dot_S2048x8_S8x4_S2048x4_1_0_0_1_n_n_wf
def dot_S2048x4_S4x2_S2048x2_1_0_0_1_n_n : DotDims S2048x4 S4x2 S2048x2 where
  lhsContracting := [1]
  rhsContracting := [0]
  lhsNonContracting := [0]
  rhsNonContracting := [1]
  lhsBatch := []
  rhsBatch := []
  wf := dot_S2048x4_S4x2_S2048x2_1_0_0_1_n_n_wf
def dot_S2048x2_S2x1_S2048x1_1_0_0_1_n_n : DotDims S2048x2 S2x1 S2048x1 where
  lhsContracting := [1]
  rhsContracting := [0]
  lhsNonContracting := [0]
  rhsNonContracting := [1]
  lhsBatch := []
  rhsBatch := []
  wf := dot_S2048x2_S2x1_S2048x1_1_0_0_1_n_n_wf

abbrev win0_0 : Pipeline.Window sig grid0 :=
  Pipeline.Window.ofSpec (Memref.whole main_v17) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21_0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2048x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_0) S2048x32.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25_1) S2048x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25_0) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_1) S2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2048x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29_0) S2048x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29_1) S2048x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v29_0) S2048x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_1) S2048x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2048x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v33_0) S2048x8.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v33_1) S2048x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v33_0) S2048x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33_1) S2048x8.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S2048x4.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37_0) S2048x4.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v37_1) S2048x4.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v37_0) S2048x4.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37_1) S2048x4.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40) S2048x2.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v41_0) S2048x2.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v41_1) S2048x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v41_0) S2048x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v41_1) S2048x2.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v44) S2048x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v45_0) S2048x1.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v45_1) S2048x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S16777216 : Shape := ⟨1, ![16777216]⟩
abbrev S1048576 : Shape := ⟨1, ![1048576]⟩
abbrev S_ : Shape := ⟨0, ![]⟩
abbrev S1048576x1 : Shape := ⟨2, ![1048576, 1]⟩

abbrev nBuf : Space → Nat
  | .hbm => 1280
  | .vmem => 0
  | .smem => 0
  | _ => 0

abbrev hbmTy0_0 (i : Nat) : BufTy := match i % 128 with
  | 0 => ⟨S16777216, .f32⟩
  | 1 => ⟨S1048576, .i32⟩
  | 2 => ⟨S1048576, .f32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S16777216, .f32⟩
  | 15 => ⟨S_, .i32⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S1048576, .i32⟩
  | 24 => ⟨S1048576, .i32⟩
  | 25 => ⟨S_, .i32⟩
  | 26 => ⟨S1048576, .i32⟩
  | 27 => ⟨S1048576, .i1⟩
  | 28 => ⟨S1048576, .i1⟩
  | 29 => ⟨S_, .i32⟩
  | 30 => ⟨S1048576, .i32⟩
  | 31 => ⟨S1048576, .i32⟩
  | 32 => ⟨S1048576, .i32⟩
  | 33 => ⟨S_, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S1048576x1, .i32⟩
  | 44 => ⟨S1048576, .f32⟩
  | 45 => ⟨S_, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i32⟩
  | 57 => ⟨S1048576, .i32⟩
  | 58 => ⟨S1048576x1, .i32⟩
  | 59 => ⟨S1048576, .f32⟩
  | 60 => ⟨S1048576, .f32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S1048576x1, .i32⟩
  | 69 => ⟨S16777216, .f32⟩
  | 70 => ⟨S_, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S1048576x1, .i32⟩
  | 99 => ⟨S1048576, .f32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S1048576x1, .i32⟩
  | 114 => ⟨S1048576, .f32⟩
  | 115 => ⟨S1048576, .f32⟩
  | 116 => ⟨S_, .i32⟩
  | 117 => ⟨S1048576, .i32⟩
  | 118 => ⟨S1048576, .i1⟩
  | 119 => ⟨S_, .i32⟩
  | 120 => ⟨S1048576, .i32⟩
  | 121 => ⟨S1048576, .i32⟩
  | 122 => ⟨S1048576, .i32⟩
  | 123 => ⟨S1048576x1, .i32⟩
  | 124 => ⟨S16777216, .f32⟩
  | 125 => ⟨S_, .i32⟩
  | 126 => ⟨S_, .i32⟩
  | 127 => ⟨S1048576, .i32⟩
  | _ => ⟨S16777216, .f32⟩

abbrev hbmTy0_1 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S1048576, .i32⟩
  | 6 => ⟨S1048576, .i32⟩
  | 7 => ⟨S_, .i32⟩
  | 8 => ⟨S1048576, .i32⟩
  | 9 => ⟨S1048576, .i1⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S1048576, .f32⟩
  | 27 => ⟨S_, .i32⟩
  | 28 => ⟨S1048576, .i32⟩
  | 29 => ⟨S1048576, .i32⟩
  | 30 => ⟨S_, .i32⟩
  | 31 => ⟨S1048576, .i32⟩
  | 32 => ⟨S1048576, .i32⟩
  | 33 => ⟨S_, .i32⟩
  | 34 => ⟨S1048576, .i32⟩
  | 35 => ⟨S1048576, .i1⟩
  | 36 => ⟨S_, .i32⟩
  | 37 => ⟨S1048576, .i32⟩
  | 38 => ⟨S1048576, .i32⟩
  | 39 => ⟨S1048576, .i32⟩
  | 40 => ⟨S1048576x1, .i32⟩
  | 41 => ⟨S1048576, .f32⟩
  | 42 => ⟨S1048576, .f32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S1048576x1, .i32⟩
  | 51 => ⟨S16777216, .f32⟩
  | 52 => ⟨S_, .i32⟩
  | 53 => ⟨S_, .i32⟩
  | 54 => ⟨S1048576, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S1048576, .i32⟩
  | 61 => ⟨S1048576, .i32⟩
  | 62 => ⟨S_, .i32⟩
  | 63 => ⟨S1048576, .i32⟩
  | 64 => ⟨S1048576, .i1⟩
  | 65 => ⟨S1048576, .i1⟩
  | 66 => ⟨S_, .i32⟩
  | 67 => ⟨S1048576, .i32⟩
  | 68 => ⟨S1048576, .i32⟩
  | 69 => ⟨S1048576, .i32⟩
  | 70 => ⟨S_, .i32⟩
  | 71 => ⟨S1048576, .i32⟩
  | 72 => ⟨S1048576, .i32⟩
  | 73 => ⟨S_, .i32⟩
  | 74 => ⟨S1048576, .i32⟩
  | 75 => ⟨S1048576, .i1⟩
  | 76 => ⟨S_, .i32⟩
  | 77 => ⟨S1048576, .i32⟩
  | 78 => ⟨S1048576, .i32⟩
  | 79 => ⟨S1048576, .i32⟩
  | 80 => ⟨S1048576x1, .i32⟩
  | 81 => ⟨S1048576, .f32⟩
  | 82 => ⟨S_, .i32⟩
  | 83 => ⟨S1048576, .i32⟩
  | 84 => ⟨S1048576, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S1048576x1, .i32⟩
  | 96 => ⟨S1048576, .f32⟩
  | 97 => ⟨S1048576, .f32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S16777216, .f32⟩
  | 107 => ⟨S_, .i32⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S1048576, .i32⟩
  | 116 => ⟨S1048576, .i32⟩
  | 117 => ⟨S_, .i32⟩
  | 118 => ⟨S1048576, .i32⟩
  | 119 => ⟨S1048576, .i1⟩
  | 120 => ⟨S1048576, .i1⟩
  | 121 => ⟨S_, .i32⟩
  | 122 => ⟨S1048576, .i32⟩
  | 123 => ⟨S1048576, .i32⟩
  | 124 => ⟨S1048576, .i32⟩
  | 125 => ⟨S_, .i32⟩
  | 126 => ⟨S1048576, .i32⟩
  | 127 => ⟨S1048576, .i32⟩
  | _ => ⟨S16777216, .f32⟩

abbrev hbmTy0_2 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S1048576x1, .i32⟩
  | 8 => ⟨S1048576, .f32⟩
  | 9 => ⟨S_, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S1048576, .f32⟩
  | 24 => ⟨S1048576, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S16777216, .f32⟩
  | 34 => ⟨S_, .i32⟩
  | 35 => ⟨S_, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S1048576, .i32⟩
  | 43 => ⟨S1048576, .i32⟩
  | 44 => ⟨S_, .i32⟩
  | 45 => ⟨S1048576, .i32⟩
  | 46 => ⟨S1048576, .i1⟩
  | 47 => ⟨S1048576, .i1⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S1048576x1, .i32⟩
  | 63 => ⟨S1048576, .f32⟩
  | 64 => ⟨S_, .i32⟩
  | 65 => ⟨S1048576, .i32⟩
  | 66 => ⟨S1048576, .i32⟩
  | 67 => ⟨S_, .i32⟩
  | 68 => ⟨S1048576, .i32⟩
  | 69 => ⟨S1048576, .i32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576, .f32⟩
  | 79 => ⟨S1048576, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S16777216, .f32⟩
  | 89 => ⟨S_, .i32⟩
  | 90 => ⟨S_, .i32⟩
  | 91 => ⟨S1048576, .i32⟩
  | 92 => ⟨S1048576, .i32⟩
  | 93 => ⟨S1048576, .i32⟩
  | 94 => ⟨S_, .i32⟩
  | 95 => ⟨S1048576, .i32⟩
  | 96 => ⟨S1048576, .i1⟩
  | 97 => ⟨S1048576, .i32⟩
  | 98 => ⟨S1048576, .i32⟩
  | 99 => ⟨S_, .i32⟩
  | 100 => ⟨S1048576, .i32⟩
  | 101 => ⟨S1048576, .i1⟩
  | 102 => ⟨S1048576, .i1⟩
  | 103 => ⟨S_, .i32⟩
  | 104 => ⟨S1048576, .i32⟩
  | 105 => ⟨S1048576, .i32⟩
  | 106 => ⟨S1048576, .i32⟩
  | 107 => ⟨S_, .i32⟩
  | 108 => ⟨S1048576, .i32⟩
  | 109 => ⟨S1048576, .i32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S1048576x1, .i32⟩
  | 118 => ⟨S1048576, .f32⟩
  | 119 => ⟨S_, .i32⟩
  | 120 => ⟨S1048576, .i32⟩
  | 121 => ⟨S1048576, .i32⟩
  | 122 => ⟨S_, .i32⟩
  | 123 => ⟨S1048576, .i32⟩
  | 124 => ⟨S1048576, .i32⟩
  | 125 => ⟨S_, .i32⟩
  | 126 => ⟨S1048576, .i32⟩
  | 127 => ⟨S1048576, .i1⟩
  | _ => ⟨S16777216, .f32⟩

abbrev hbmTy0_3 (i : Nat) : BufTy := match i % 128 with
  | 0 => ⟨S_, .i32⟩
  | 1 => ⟨S1048576, .i32⟩
  | 2 => ⟨S1048576, .i32⟩
  | 3 => ⟨S1048576, .i32⟩
  | 4 => ⟨S1048576x1, .i32⟩
  | 5 => ⟨S1048576, .f32⟩
  | 6 => ⟨S1048576, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S16777216, .f32⟩
  | 16 => ⟨S_, .i32⟩
  | 17 => ⟨S_, .i32⟩
  | 18 => ⟨S1048576, .i32⟩
  | 19 => ⟨S1048576, .i32⟩
  | 20 => ⟨S1048576, .i32⟩
  | 21 => ⟨S_, .i32⟩
  | 22 => ⟨S1048576, .i32⟩
  | 23 => ⟨S1048576, .i1⟩
  | 24 => ⟨S1048576, .i32⟩
  | 25 => ⟨S1048576, .i32⟩
  | 26 => ⟨S_, .i32⟩
  | 27 => ⟨S1048576, .i32⟩
  | 28 => ⟨S1048576, .i1⟩
  | 29 => ⟨S1048576, .i1⟩
  | 30 => ⟨S_, .i32⟩
  | 31 => ⟨S1048576, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S1048576, .f32⟩
  | 46 => ⟨S_, .i32⟩
  | 47 => ⟨S1048576, .i32⟩
  | 48 => ⟨S1048576, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S1048576, .f32⟩
  | 61 => ⟨S1048576, .f32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S16777216, .f32⟩
  | 71 => ⟨S_, .i32⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S1048576, .i32⟩
  | 80 => ⟨S1048576, .i32⟩
  | 81 => ⟨S_, .i32⟩
  | 82 => ⟨S1048576, .i32⟩
  | 83 => ⟨S1048576, .i1⟩
  | 84 => ⟨S1048576, .i1⟩
  | 85 => ⟨S_, .i32⟩
  | 86 => ⟨S1048576, .i32⟩
  | 87 => ⟨S1048576, .i32⟩
  | 88 => ⟨S1048576, .i32⟩
  | 89 => ⟨S_, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S1048576x1, .i32⟩
  | 100 => ⟨S1048576, .f32⟩
  | 101 => ⟨S_, .i32⟩
  | 102 => ⟨S1048576, .i32⟩
  | 103 => ⟨S1048576, .i32⟩
  | 104 => ⟨S_, .i32⟩
  | 105 => ⟨S1048576, .i32⟩
  | 106 => ⟨S1048576, .i32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S1048576x1, .i32⟩
  | 115 => ⟨S1048576, .f32⟩
  | 116 => ⟨S1048576, .f32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S1048576x1, .i32⟩
  | 125 => ⟨S16777216, .f32⟩
  | 126 => ⟨S_, .i32⟩
  | 127 => ⟨S_, .i32⟩
  | _ => ⟨S16777216, .f32⟩

abbrev hbmTy0_4 (i : Nat) : BufTy := match i % 128 with
  | 0 => ⟨S1048576, .i32⟩
  | 1 => ⟨S1048576, .i32⟩
  | 2 => ⟨S1048576, .i32⟩
  | 3 => ⟨S_, .i32⟩
  | 4 => ⟨S1048576, .i32⟩
  | 5 => ⟨S1048576, .i1⟩
  | 6 => ⟨S1048576, .i32⟩
  | 7 => ⟨S1048576, .i32⟩
  | 8 => ⟨S_, .i32⟩
  | 9 => ⟨S1048576, .i32⟩
  | 10 => ⟨S1048576, .i1⟩
  | 11 => ⟨S1048576, .i1⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S_, .i32⟩
  | 20 => ⟨S1048576, .i32⟩
  | 21 => ⟨S1048576, .i1⟩
  | 22 => ⟨S_, .i32⟩
  | 23 => ⟨S1048576, .i32⟩
  | 24 => ⟨S1048576, .i32⟩
  | 25 => ⟨S1048576, .i32⟩
  | 26 => ⟨S1048576x1, .i32⟩
  | 27 => ⟨S1048576, .f32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576, .f32⟩
  | 43 => ⟨S1048576, .f32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S16777216, .f32⟩
  | 53 => ⟨S_, .i32⟩
  | 54 => ⟨S_, .i32⟩
  | 55 => ⟨S1048576, .i32⟩
  | 56 => ⟨S1048576, .i32⟩
  | 57 => ⟨S1048576, .i32⟩
  | 58 => ⟨S_, .i32⟩
  | 59 => ⟨S1048576, .i32⟩
  | 60 => ⟨S1048576, .i1⟩
  | 61 => ⟨S1048576, .i32⟩
  | 62 => ⟨S1048576, .i32⟩
  | 63 => ⟨S_, .i32⟩
  | 64 => ⟨S1048576, .i32⟩
  | 65 => ⟨S1048576, .i1⟩
  | 66 => ⟨S1048576, .i1⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1048576, .f32⟩
  | 83 => ⟨S_, .i32⟩
  | 84 => ⟨S1048576, .i32⟩
  | 85 => ⟨S1048576, .i32⟩
  | 86 => ⟨S_, .i32⟩
  | 87 => ⟨S1048576, .i32⟩
  | 88 => ⟨S1048576, .i32⟩
  | 89 => ⟨S_, .i32⟩
  | 90 => ⟨S1048576, .i32⟩
  | 91 => ⟨S1048576, .i1⟩
  | 92 => ⟨S_, .i32⟩
  | 93 => ⟨S1048576, .i32⟩
  | 94 => ⟨S1048576, .i32⟩
  | 95 => ⟨S1048576, .i32⟩
  | 96 => ⟨S1048576x1, .i32⟩
  | 97 => ⟨S1048576, .f32⟩
  | 98 => ⟨S1048576, .f32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S16777216, .f32⟩
  | 108 => ⟨S_, .i32⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S1048576, .i32⟩
  | 117 => ⟨S1048576, .i32⟩
  | 118 => ⟨S_, .i32⟩
  | 119 => ⟨S1048576, .i32⟩
  | 120 => ⟨S1048576, .i1⟩
  | 121 => ⟨S1048576, .i1⟩
  | 122 => ⟨S_, .i32⟩
  | 123 => ⟨S1048576, .i32⟩
  | 124 => ⟨S1048576, .i32⟩
  | 125 => ⟨S1048576, .i32⟩
  | 126 => ⟨S_, .i32⟩
  | 127 => ⟨S1048576, .i32⟩
  | _ => ⟨S16777216, .f32⟩

abbrev hbmTy0_5 (i : Nat) : BufTy := match i % 128 with
  | 0 => ⟨S1048576, .i32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S1048576x1, .i32⟩
  | 9 => ⟨S1048576, .f32⟩
  | 10 => ⟨S_, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S_, .i32⟩
  | 17 => ⟨S1048576, .i32⟩
  | 18 => ⟨S1048576, .i1⟩
  | 19 => ⟨S_, .i32⟩
  | 20 => ⟨S1048576, .i32⟩
  | 21 => ⟨S1048576, .i32⟩
  | 22 => ⟨S1048576, .i32⟩
  | 23 => ⟨S1048576x1, .i32⟩
  | 24 => ⟨S1048576, .f32⟩
  | 25 => ⟨S1048576, .f32⟩
  | 26 => ⟨S_, .i32⟩
  | 27 => ⟨S1048576, .i32⟩
  | 28 => ⟨S1048576, .i1⟩
  | 29 => ⟨S_, .i32⟩
  | 30 => ⟨S1048576, .i32⟩
  | 31 => ⟨S1048576, .i32⟩
  | 32 => ⟨S1048576, .i32⟩
  | 33 => ⟨S1048576x1, .i32⟩
  | 34 => ⟨S16777216, .f32⟩
  | 35 => ⟨S_, .i32⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i1⟩
  | 43 => ⟨S1048576, .i32⟩
  | 44 => ⟨S1048576, .i32⟩
  | 45 => ⟨S_, .i32⟩
  | 46 => ⟨S1048576, .i32⟩
  | 47 => ⟨S1048576, .i1⟩
  | 48 => ⟨S1048576, .i1⟩
  | 49 => ⟨S_, .i32⟩
  | 50 => ⟨S1048576, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576, .f32⟩
  | 65 => ⟨S_, .i32⟩
  | 66 => ⟨S1048576, .i32⟩
  | 67 => ⟨S1048576, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S1048576x1, .i32⟩
  | 79 => ⟨S1048576, .f32⟩
  | 80 => ⟨S1048576, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S1048576x1, .i32⟩
  | 89 => ⟨S16777216, .f32⟩
  | 90 => ⟨S_, .i32⟩
  | 91 => ⟨S_, .i32⟩
  | 92 => ⟨S1048576, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S1048576, .i32⟩
  | 99 => ⟨S1048576, .i32⟩
  | 100 => ⟨S_, .i32⟩
  | 101 => ⟨S1048576, .i32⟩
  | 102 => ⟨S1048576, .i1⟩
  | 103 => ⟨S1048576, .i1⟩
  | 104 => ⟨S_, .i32⟩
  | 105 => ⟨S1048576, .i32⟩
  | 106 => ⟨S1048576, .i32⟩
  | 107 => ⟨S1048576, .i32⟩
  | 108 => ⟨S_, .i32⟩
  | 109 => ⟨S1048576, .i32⟩
  | 110 => ⟨S1048576, .i32⟩
  | 111 => ⟨S_, .i32⟩
  | 112 => ⟨S1048576, .i32⟩
  | 113 => ⟨S1048576, .i1⟩
  | 114 => ⟨S_, .i32⟩
  | 115 => ⟨S1048576, .i32⟩
  | 116 => ⟨S1048576, .i32⟩
  | 117 => ⟨S1048576, .i32⟩
  | 118 => ⟨S1048576x1, .i32⟩
  | 119 => ⟨S1048576, .f32⟩
  | 120 => ⟨S_, .i32⟩
  | 121 => ⟨S1048576, .i32⟩
  | 122 => ⟨S1048576, .i32⟩
  | 123 => ⟨S_, .i32⟩
  | 124 => ⟨S1048576, .i32⟩
  | 125 => ⟨S1048576, .i32⟩
  | 126 => ⟨S_, .i32⟩
  | 127 => ⟨S1048576, .i32⟩
  | _ => ⟨S16777216, .f32⟩

abbrev hbmTy0_6 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S1048576x1, .i32⟩
  | 6 => ⟨S1048576, .f32⟩
  | 7 => ⟨S1048576, .f32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S1048576x1, .i32⟩
  | 16 => ⟨S16777216, .f32⟩
  | 17 => ⟨S_, .i32⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S1048576, .i32⟩
  | 26 => ⟨S1048576, .i32⟩
  | 27 => ⟨S_, .i32⟩
  | 28 => ⟨S1048576, .i32⟩
  | 29 => ⟨S1048576, .i1⟩
  | 30 => ⟨S1048576, .i1⟩
  | 31 => ⟨S_, .i32⟩
  | 32 => ⟨S1048576, .i32⟩
  | 33 => ⟨S1048576, .i32⟩
  | 34 => ⟨S1048576, .i32⟩
  | 35 => ⟨S_, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576, .f32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576, .f32⟩
  | 62 => ⟨S1048576, .f32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S1048576x1, .i32⟩
  | 71 => ⟨S16777216, .f32⟩
  | 72 => ⟨S_, .i32⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S1048576, .i32⟩
  | 81 => ⟨S1048576, .i32⟩
  | 82 => ⟨S_, .i32⟩
  | 83 => ⟨S1048576, .i32⟩
  | 84 => ⟨S1048576, .i1⟩
  | 85 => ⟨S1048576, .i1⟩
  | 86 => ⟨S_, .i32⟩
  | 87 => ⟨S1048576, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S1048576x1, .i32⟩
  | 101 => ⟨S1048576, .f32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S1048576x1, .i32⟩
  | 116 => ⟨S1048576, .f32⟩
  | 117 => ⟨S1048576, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S16777216, .f32⟩
  | 127 => ⟨S_, .i32⟩
  | _ => ⟨S16777216, .f32⟩

abbrev hbmTy0_7 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i1⟩
  | 7 => ⟨S1048576, .i32⟩
  | 8 => ⟨S1048576, .i32⟩
  | 9 => ⟨S_, .i32⟩
  | 10 => ⟨S1048576, .i32⟩
  | 11 => ⟨S1048576, .i1⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576, .f32⟩
  | 29 => ⟨S_, .i32⟩
  | 30 => ⟨S1048576, .i32⟩
  | 31 => ⟨S1048576, .i32⟩
  | 32 => ⟨S_, .i32⟩
  | 33 => ⟨S1048576, .i32⟩
  | 34 => ⟨S1048576, .i32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i32⟩
  | 41 => ⟨S1048576, .i32⟩
  | 42 => ⟨S1048576x1, .i32⟩
  | 43 => ⟨S1048576, .f32⟩
  | 44 => ⟨S1048576, .f32⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i32⟩
  | 51 => ⟨S1048576, .i32⟩
  | 52 => ⟨S1048576x1, .i32⟩
  | 53 => ⟨S16777216, .f32⟩
  | 54 => ⟨S_, .i32⟩
  | 55 => ⟨S_, .i32⟩
  | 56 => ⟨S1048576, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S1048576, .i32⟩
  | 63 => ⟨S1048576, .i32⟩
  | 64 => ⟨S_, .i32⟩
  | 65 => ⟨S1048576, .i32⟩
  | 66 => ⟨S1048576, .i1⟩
  | 67 => ⟨S1048576, .i1⟩
  | 68 => ⟨S_, .i32⟩
  | 69 => ⟨S1048576, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S1048576, .f32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S1048576x1, .i32⟩
  | 98 => ⟨S1048576, .f32⟩
  | 99 => ⟨S1048576, .f32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S16777216, .f32⟩
  | 109 => ⟨S_, .i32⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i1⟩
  | 117 => ⟨S1048576, .i32⟩
  | 118 => ⟨S1048576, .i32⟩
  | 119 => ⟨S_, .i32⟩
  | 120 => ⟨S1048576, .i32⟩
  | 121 => ⟨S1048576, .i1⟩
  | 122 => ⟨S1048576, .i1⟩
  | 123 => ⟨S_, .i32⟩
  | 124 => ⟨S1048576, .i32⟩
  | 125 => ⟨S1048576, .i32⟩
  | 126 => ⟨S1048576, .i32⟩
  | 127 => ⟨S_, .i32⟩
  | _ => ⟨S16777216, .f32⟩

abbrev hbmTy0_8 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576, .f32⟩
  | 11 => ⟨S_, .i32⟩
  | 12 => ⟨S1048576, .i32⟩
  | 13 => ⟨S1048576, .i32⟩
  | 14 => ⟨S_, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576, .f32⟩
  | 26 => ⟨S1048576, .f32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S16777216, .f32⟩
  | 36 => ⟨S_, .i32⟩
  | 37 => ⟨S_, .i32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i32⟩
  | 45 => ⟨S1048576, .i32⟩
  | 46 => ⟨S_, .i32⟩
  | 47 => ⟨S1048576, .i32⟩
  | 48 => ⟨S1048576, .i1⟩
  | 49 => ⟨S1048576, .i1⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S1048576x1, .i32⟩
  | 65 => ⟨S1048576, .f32⟩
  | 66 => ⟨S_, .i32⟩
  | 67 => ⟨S1048576, .i32⟩
  | 68 => ⟨S1048576, .i32⟩
  | 69 => ⟨S_, .i32⟩
  | 70 => ⟨S1048576, .i32⟩
  | 71 => ⟨S1048576, .i32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S1048576, .f32⟩
  | 81 => ⟨S1048576, .f32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S16777216, .f32⟩
  | 91 => ⟨S_, .i32⟩
  | 92 => ⟨S_, .i32⟩
  | 93 => ⟨S1048576, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S1048576, .i32⟩
  | 100 => ⟨S1048576, .i32⟩
  | 101 => ⟨S_, .i32⟩
  | 102 => ⟨S1048576, .i32⟩
  | 103 => ⟨S1048576, .i1⟩
  | 104 => ⟨S1048576, .i1⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576, .f32⟩
  | 121 => ⟨S_, .i32⟩
  | 122 => ⟨S1048576, .i32⟩
  | 123 => ⟨S1048576, .i32⟩
  | 124 => ⟨S_, .i32⟩
  | 125 => ⟨S1048576, .i32⟩
  | 126 => ⟨S1048576, .i32⟩
  | 127 => ⟨S_, .i32⟩
  | _ => ⟨S16777216, .f32⟩

abbrev hbmTy0_9 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i32⟩
  | 5 => ⟨S1048576, .i32⟩
  | 6 => ⟨S1048576x1, .i32⟩
  | 7 => ⟨S1048576, .f32⟩
  | 8 => ⟨S1048576, .f32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S1048576x1, .i32⟩
  | 17 => ⟨S16777216, .f32⟩
  | 18 => ⟨S_, .i32⟩
  | 19 => ⟨S_, .i32⟩
  | 20 => ⟨S1048576, .i32⟩
  | 21 => ⟨S1048576, .i32⟩
  | 22 => ⟨S1048576, .i32⟩
  | 23 => ⟨S_, .i32⟩
  | 24 => ⟨S1048576, .i32⟩
  | 25 => ⟨S1048576, .i1⟩
  | 26 => ⟨S1048576, .i32⟩
  | 27 => ⟨S1048576, .i32⟩
  | 28 => ⟨S_, .i32⟩
  | 29 => ⟨S1048576, .i32⟩
  | 30 => ⟨S1048576, .i1⟩
  | 31 => ⟨S1048576, .i1⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S1048576, .f32⟩
  | 48 => ⟨S_, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S_, .i32⟩
  | 55 => ⟨S1048576, .i32⟩
  | 56 => ⟨S1048576, .i1⟩
  | 57 => ⟨S_, .i32⟩
  | 58 => ⟨S1048576, .i32⟩
  | 59 => ⟨S1048576, .i32⟩
  | 60 => ⟨S1048576, .i32⟩
  | 61 => ⟨S1048576x1, .i32⟩
  | 62 => ⟨S1048576, .f32⟩
  | 63 => ⟨S1048576, .f32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S16777216, .f32⟩
  | 73 => ⟨S_, .i32⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S1048576, .i32⟩
  | 82 => ⟨S1048576, .i32⟩
  | 83 => ⟨S_, .i32⟩
  | 84 => ⟨S1048576, .i32⟩
  | 85 => ⟨S1048576, .i1⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i1⟩
  | 97 => ⟨S_, .i32⟩
  | 98 => ⟨S1048576, .i32⟩
  | 99 => ⟨S1048576, .i32⟩
  | 100 => ⟨S1048576, .i32⟩
  | 101 => ⟨S1048576x1, .i32⟩
  | 102 => ⟨S1048576, .f32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S_, .i32⟩
  | 110 => ⟨S1048576, .i32⟩
  | 111 => ⟨S1048576, .i1⟩
  | 112 => ⟨S_, .i32⟩
  | 113 => ⟨S1048576, .i32⟩
  | 114 => ⟨S1048576, .i32⟩
  | 115 => ⟨S1048576, .i32⟩
  | 116 => ⟨S1048576x1, .i32⟩
  | 117 => ⟨S1048576, .f32⟩
  | 118 => ⟨S1048576, .f32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S16777216, .f32⟩
  | _ => ⟨S16777216, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16777216, .f32⟩

abbrev bufTy : (tb : Table) → Fin (tcTables nBuf tb) → BufTy
  | .hbm, ⟨i, _⟩ => hbmTy i
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_c_3 : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_c_5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_6 : Ref sig .tc := ⟨.hbm, 45, rfl⟩
abbrev main_v19 : Ref sig .tc := ⟨.hbm, 46, rfl⟩
abbrev main_v20 : Ref sig .tc := ⟨.hbm, 47, rfl⟩
abbrev main_c_7 : Ref sig .tc := ⟨.hbm, 48, rfl⟩
abbrev main_v21 : Ref sig .tc := ⟨.hbm, 49, rfl⟩
abbrev main_v22 : Ref sig .tc := ⟨.hbm, 50, rfl⟩
abbrev main_c_8 : Ref sig .tc := ⟨.hbm, 51, rfl⟩
abbrev main_v23 : Ref sig .tc := ⟨.hbm, 52, rfl⟩
abbrev main_v24 : Ref sig .tc := ⟨.hbm, 53, rfl⟩
abbrev main_c_9 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_10 : Ref sig .tc := ⟨.hbm, 61, rfl⟩
abbrev main_v31 : Ref sig .tc := ⟨.hbm, 62, rfl⟩
abbrev main_v32 : Ref sig .tc := ⟨.hbm, 63, rfl⟩
abbrev main_c_11 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_12 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v38 : Ref sig .tc := ⟨.hbm, 87, rfl⟩
abbrev main_c_13 : Ref sig .tc := ⟨.hbm, 88, rfl⟩
abbrev main_v39 : Ref sig .tc := ⟨.hbm, 89, rfl⟩
abbrev main_v40 : Ref sig .tc := ⟨.hbm, 90, rfl⟩
abbrev main_c_14 : Ref sig .tc := ⟨.hbm, 91, rfl⟩
abbrev main_v41 : Ref sig .tc := ⟨.hbm, 92, rfl⟩
abbrev main_v42 : Ref sig .tc := ⟨.hbm, 93, rfl⟩
abbrev main_c_15 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_16 : Ref sig .tc := ⟨.hbm, 100, rfl⟩
abbrev main_v48 : Ref sig .tc := ⟨.hbm, 101, rfl⟩
abbrev main_v49 : Ref sig .tc := ⟨.hbm, 102, rfl⟩
abbrev main_c_17 : Ref sig .tc := ⟨.hbm, 103, rfl⟩
abbrev main_v50 : Ref sig .tc := ⟨.hbm, 104, rfl⟩
abbrev main_v51 : Ref sig .tc := ⟨.hbm, 105, rfl⟩
abbrev main_c_18 : Ref sig .tc := ⟨.hbm, 106, rfl⟩
abbrev main_v52 : Ref sig .tc := ⟨.hbm, 107, rfl⟩
abbrev main_v53 : Ref sig .tc := ⟨.hbm, 108, rfl⟩
abbrev main_c_19 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_20 : Ref sig .tc := ⟨.hbm, 116, rfl⟩
abbrev main_v60 : Ref sig .tc := ⟨.hbm, 117, rfl⟩
abbrev main_v61 : Ref sig .tc := ⟨.hbm, 118, rfl⟩
abbrev main_c_21 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_c_22 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_c : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_0 : Ref sig .tc := ⟨.hbm, 139, rfl⟩
abbrev main_call2_v12 : Ref sig .tc := ⟨.hbm, 140, rfl⟩
abbrev main_call2_v13 : Ref sig .tc := ⟨.hbm, 141, rfl⟩
abbrev main_v67 : Ref sig .tc := ⟨.hbm, 142, rfl⟩
abbrev main_c_23 : Ref sig .tc := ⟨.hbm, 143, rfl⟩
abbrev main_v68 : Ref sig .tc := ⟨.hbm, 144, rfl⟩
abbrev main_v69 : Ref sig .tc := ⟨.hbm, 145, rfl⟩
abbrev main_c_24 : Ref sig .tc := ⟨.hbm, 146, rfl⟩
abbrev main_v70 : Ref sig .tc := ⟨.hbm, 147, rfl⟩
abbrev main_v71 : Ref sig .tc := ⟨.hbm, 148, rfl⟩
abbrev main_c_25 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_c_26 : Ref sig .tc := ⟨.hbm, 155, rfl⟩
abbrev main_v77 : Ref sig .tc := ⟨.hbm, 156, rfl⟩
abbrev main_v78 : Ref sig .tc := ⟨.hbm, 157, rfl⟩
abbrev main_c_27 : Ref sig .tc := ⟨.hbm, 158, rfl⟩
abbrev main_v79 : Ref sig .tc := ⟨.hbm, 159, rfl⟩
abbrev main_v80 : Ref sig .tc := ⟨.hbm, 160, rfl⟩
abbrev main_c_28 : Ref sig .tc := ⟨.hbm, 161, rfl⟩
abbrev main_v81 : Ref sig .tc := ⟨.hbm, 162, rfl⟩
abbrev main_v82 : Ref sig .tc := ⟨.hbm, 163, rfl⟩
abbrev main_c_29 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_30 : Ref sig .tc := ⟨.hbm, 171, rfl⟩
abbrev main_v89 : Ref sig .tc := ⟨.hbm, 172, rfl⟩
abbrev main_v90 : Ref sig .tc := ⟨.hbm, 173, rfl⟩
abbrev main_c_31 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_c_32 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_v5 : Ref sig .tc := ⟨.hbm, 186, rfl⟩
abbrev main_call3_v6 : Ref sig .tc := ⟨.hbm, 187, rfl⟩
abbrev main_call3_v7 : Ref sig .tc := ⟨.hbm, 188, rfl⟩
abbrev main_call3_v8 : Ref sig .tc := ⟨.hbm, 189, rfl⟩
abbrev main_call3_c : Ref sig .tc := ⟨.hbm, 190, rfl⟩
abbrev main_call3_v9 : Ref sig .tc := ⟨.hbm, 191, rfl⟩
abbrev main_call3_v10 : Ref sig .tc := ⟨.hbm, 192, rfl⟩
abbrev main_call3_v11 : Ref sig .tc := ⟨.hbm, 193, rfl⟩
abbrev main_call3_c_0 : Ref sig .tc := ⟨.hbm, 194, rfl⟩
abbrev main_call3_v12 : Ref sig .tc := ⟨.hbm, 195, rfl⟩
abbrev main_call3_v13 : Ref sig .tc := ⟨.hbm, 196, rfl⟩
abbrev main_v96 : Ref sig .tc := ⟨.hbm, 197, rfl⟩
abbrev main_c_33 : Ref sig .tc := ⟨.hbm, 198, rfl⟩
abbrev main_v97 : Ref sig .tc := ⟨.hbm, 199, rfl⟩
abbrev main_v98 : Ref sig .tc := ⟨.hbm, 200, rfl⟩
abbrev main_c_34 : Ref sig .tc := ⟨.hbm, 201, rfl⟩
abbrev main_v99 : Ref sig .tc := ⟨.hbm, 202, rfl⟩
abbrev main_v100 : Ref sig .tc := ⟨.hbm, 203, rfl⟩
abbrev main_c_35 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_c_36 : Ref sig .tc := ⟨.hbm, 210, rfl⟩
abbrev main_v106 : Ref sig .tc := ⟨.hbm, 211, rfl⟩
abbrev main_v107 : Ref sig .tc := ⟨.hbm, 212, rfl⟩
abbrev main_c_37 : Ref sig .tc := ⟨.hbm, 213, rfl⟩
abbrev main_v108 : Ref sig .tc := ⟨.hbm, 214, rfl⟩
abbrev main_v109 : Ref sig .tc := ⟨.hbm, 215, rfl⟩
abbrev main_c_38 : Ref sig .tc := ⟨.hbm, 216, rfl⟩
abbrev main_v110 : Ref sig .tc := ⟨.hbm, 217, rfl⟩
abbrev main_v111 : Ref sig .tc := ⟨.hbm, 218, rfl⟩
abbrev main_c_39 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_c_40 : Ref sig .tc := ⟨.hbm, 226, rfl⟩
abbrev main_v118 : Ref sig .tc := ⟨.hbm, 227, rfl⟩
abbrev main_v119 : Ref sig .tc := ⟨.hbm, 228, rfl⟩
abbrev main_c_41 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_c_42 : Ref sig .tc := ⟨.hbm, 235, rfl⟩
abbrev main_call4_v0 : Ref sig .tc := ⟨.hbm, 236, rfl⟩
abbrev main_call4_v1 : Ref sig .tc := ⟨.hbm, 237, rfl⟩
abbrev main_call4_v2 : Ref sig .tc := ⟨.hbm, 238, rfl⟩
abbrev main_call4_v3 : Ref sig .tc := ⟨.hbm, 239, rfl⟩
abbrev main_call4_v4 : Ref sig .tc := ⟨.hbm, 240, rfl⟩
abbrev main_call4_v5 : Ref sig .tc := ⟨.hbm, 241, rfl⟩
abbrev main_call4_v6 : Ref sig .tc := ⟨.hbm, 242, rfl⟩
abbrev main_call4_v7 : Ref sig .tc := ⟨.hbm, 243, rfl⟩
abbrev main_call4_v8 : Ref sig .tc := ⟨.hbm, 244, rfl⟩
abbrev main_call4_c : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_c_0 : Ref sig .tc := ⟨.hbm, 249, rfl⟩
abbrev main_call4_v12 : Ref sig .tc := ⟨.hbm, 250, rfl⟩
abbrev main_call4_v13 : Ref sig .tc := ⟨.hbm, 251, rfl⟩
abbrev main_v125 : Ref sig .tc := ⟨.hbm, 252, rfl⟩
abbrev main_c_43 : Ref sig .tc := ⟨.hbm, 253, rfl⟩
abbrev main_v126 : Ref sig .tc := ⟨.hbm, 254, rfl⟩
abbrev main_v127 : Ref sig .tc := ⟨.hbm, 255, rfl⟩
abbrev main_c_44 : Ref sig .tc := ⟨.hbm, 256, rfl⟩
abbrev main_v128 : Ref sig .tc := ⟨.hbm, 257, rfl⟩
abbrev main_v129 : Ref sig .tc := ⟨.hbm, 258, rfl⟩
abbrev main_c_45 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_c_46 : Ref sig .tc := ⟨.hbm, 265, rfl⟩
abbrev main_v135 : Ref sig .tc := ⟨.hbm, 266, rfl⟩
abbrev main_v136 : Ref sig .tc := ⟨.hbm, 267, rfl⟩
abbrev main_c_47 : Ref sig .tc := ⟨.hbm, 268, rfl⟩
abbrev main_v137 : Ref sig .tc := ⟨.hbm, 269, rfl⟩
abbrev main_v138 : Ref sig .tc := ⟨.hbm, 270, rfl⟩
abbrev main_c_48 : Ref sig .tc := ⟨.hbm, 271, rfl⟩
abbrev main_v139 : Ref sig .tc := ⟨.hbm, 272, rfl⟩
abbrev main_v140 : Ref sig .tc := ⟨.hbm, 273, rfl⟩
abbrev main_c_49 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_c_50 : Ref sig .tc := ⟨.hbm, 281, rfl⟩
abbrev main_v147 : Ref sig .tc := ⟨.hbm, 282, rfl⟩
abbrev main_v148 : Ref sig .tc := ⟨.hbm, 283, rfl⟩
abbrev main_c_51 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_c_52 : Ref sig .tc := ⟨.hbm, 290, rfl⟩
abbrev main_call5_v0 : Ref sig .tc := ⟨.hbm, 291, rfl⟩
abbrev main_call5_v1 : Ref sig .tc := ⟨.hbm, 292, rfl⟩
abbrev main_call5_v2 : Ref sig .tc := ⟨.hbm, 293, rfl⟩
abbrev main_call5_v3 : Ref sig .tc := ⟨.hbm, 294, rfl⟩
abbrev main_call5_v4 : Ref sig .tc := ⟨.hbm, 295, rfl⟩
abbrev main_call5_v5 : Ref sig .tc := ⟨.hbm, 296, rfl⟩
abbrev main_call5_v6 : Ref sig .tc := ⟨.hbm, 297, rfl⟩
abbrev main_call5_v7 : Ref sig .tc := ⟨.hbm, 298, rfl⟩
abbrev main_call5_v8 : Ref sig .tc := ⟨.hbm, 299, rfl⟩
abbrev main_call5_c : Ref sig .tc := ⟨.hbm, 300, rfl⟩
abbrev main_call5_v9 : Ref sig .tc := ⟨.hbm, 301, rfl⟩
abbrev main_call5_v10 : Ref sig .tc := ⟨.hbm, 302, rfl⟩
abbrev main_call5_v11 : Ref sig .tc := ⟨.hbm, 303, rfl⟩
abbrev main_call5_c_0 : Ref sig .tc := ⟨.hbm, 304, rfl⟩
abbrev main_call5_v12 : Ref sig .tc := ⟨.hbm, 305, rfl⟩
abbrev main_call5_v13 : Ref sig .tc := ⟨.hbm, 306, rfl⟩
abbrev main_v154 : Ref sig .tc := ⟨.hbm, 307, rfl⟩
abbrev main_c_53 : Ref sig .tc := ⟨.hbm, 308, rfl⟩
abbrev main_v155 : Ref sig .tc := ⟨.hbm, 309, rfl⟩
abbrev main_v156 : Ref sig .tc := ⟨.hbm, 310, rfl⟩
abbrev main_c_54 : Ref sig .tc := ⟨.hbm, 311, rfl⟩
abbrev main_v157 : Ref sig .tc := ⟨.hbm, 312, rfl⟩
abbrev main_v158 : Ref sig .tc := ⟨.hbm, 313, rfl⟩
abbrev main_c_55 : Ref sig .tc := ⟨.hbm, 314, rfl⟩
abbrev main_v159 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_c_56 : Ref sig .tc := ⟨.hbm, 320, rfl⟩
abbrev main_v164 : Ref sig .tc := ⟨.hbm, 321, rfl⟩
abbrev main_v165 : Ref sig .tc := ⟨.hbm, 322, rfl⟩
abbrev main_c_57 : Ref sig .tc := ⟨.hbm, 323, rfl⟩
abbrev main_v166 : Ref sig .tc := ⟨.hbm, 324, rfl⟩
abbrev main_v167 : Ref sig .tc := ⟨.hbm, 325, rfl⟩
abbrev main_c_58 : Ref sig .tc := ⟨.hbm, 326, rfl⟩
abbrev main_v168 : Ref sig .tc := ⟨.hbm, 327, rfl⟩
abbrev main_v169 : Ref sig .tc := ⟨.hbm, 328, rfl⟩
abbrev main_c_59 : Ref sig .tc := ⟨.hbm, 329, rfl⟩
abbrev main_v170 : Ref sig .tc := ⟨.hbm, 330, rfl⟩
abbrev main_v171 : Ref sig .tc := ⟨.hbm, 331, rfl⟩
abbrev main_v172 : Ref sig .tc := ⟨.hbm, 332, rfl⟩
abbrev main_v173 : Ref sig .tc := ⟨.hbm, 333, rfl⟩
abbrev main_v174 : Ref sig .tc := ⟨.hbm, 334, rfl⟩
abbrev main_v175 : Ref sig .tc := ⟨.hbm, 335, rfl⟩
abbrev main_c_60 : Ref sig .tc := ⟨.hbm, 336, rfl⟩
abbrev main_v176 : Ref sig .tc := ⟨.hbm, 337, rfl⟩
abbrev main_v177 : Ref sig .tc := ⟨.hbm, 338, rfl⟩
abbrev main_c_61 : Ref sig .tc := ⟨.hbm, 339, rfl⟩
abbrev main_v178 : Ref sig .tc := ⟨.hbm, 340, rfl⟩
abbrev main_v179 : Ref sig .tc := ⟨.hbm, 341, rfl⟩
abbrev main_v180 : Ref sig .tc := ⟨.hbm, 342, rfl⟩
abbrev main_v181 : Ref sig .tc := ⟨.hbm, 343, rfl⟩
abbrev main_v182 : Ref sig .tc := ⟨.hbm, 344, rfl⟩
abbrev main_c_62 : Ref sig .tc := ⟨.hbm, 345, rfl⟩
abbrev main_call6_v0 : Ref sig .tc := ⟨.hbm, 346, rfl⟩
abbrev main_call6_v1 : Ref sig .tc := ⟨.hbm, 347, rfl⟩
abbrev main_call6_v2 : Ref sig .tc := ⟨.hbm, 348, rfl⟩
abbrev main_call6_v3 : Ref sig .tc := ⟨.hbm, 349, rfl⟩
abbrev main_call6_v4 : Ref sig .tc := ⟨.hbm, 350, rfl⟩
abbrev main_call6_v5 : Ref sig .tc := ⟨.hbm, 351, rfl⟩
abbrev main_call6_v6 : Ref sig .tc := ⟨.hbm, 352, rfl⟩
abbrev main_call6_v7 : Ref sig .tc := ⟨.hbm, 353, rfl⟩
abbrev main_call6_v8 : Ref sig .tc := ⟨.hbm, 354, rfl⟩
abbrev main_call6_c : Ref sig .tc := ⟨.hbm, 355, rfl⟩
abbrev main_call6_v9 : Ref sig .tc := ⟨.hbm, 356, rfl⟩
abbrev main_call6_v10 : Ref sig .tc := ⟨.hbm, 357, rfl⟩
abbrev main_call6_v11 : Ref sig .tc := ⟨.hbm, 358, rfl⟩
abbrev main_call6_c_0 : Ref sig .tc := ⟨.hbm, 359, rfl⟩
abbrev main_call6_v12 : Ref sig .tc := ⟨.hbm, 360, rfl⟩
abbrev main_call6_v13 : Ref sig .tc := ⟨.hbm, 361, rfl⟩
abbrev main_v183 : Ref sig .tc := ⟨.hbm, 362, rfl⟩
abbrev main_c_63 : Ref sig .tc := ⟨.hbm, 363, rfl⟩
abbrev main_v184 : Ref sig .tc := ⟨.hbm, 364, rfl⟩
abbrev main_v185 : Ref sig .tc := ⟨.hbm, 365, rfl⟩
abbrev main_c_64 : Ref sig .tc := ⟨.hbm, 366, rfl⟩
abbrev main_v186 : Ref sig .tc := ⟨.hbm, 367, rfl⟩
abbrev main_v187 : Ref sig .tc := ⟨.hbm, 368, rfl⟩
abbrev main_c_65 : Ref sig .tc := ⟨.hbm, 369, rfl⟩
abbrev main_v188 : Ref sig .tc := ⟨.hbm, 370, rfl⟩
abbrev main_v189 : Ref sig .tc := ⟨.hbm, 371, rfl⟩
abbrev main_v190 : Ref sig .tc := ⟨.hbm, 372, rfl⟩
abbrev main_v191 : Ref sig .tc := ⟨.hbm, 373, rfl⟩
abbrev main_v192 : Ref sig .tc := ⟨.hbm, 374, rfl⟩
abbrev main_c_66 : Ref sig .tc := ⟨.hbm, 375, rfl⟩
abbrev main_v193 : Ref sig .tc := ⟨.hbm, 376, rfl⟩
abbrev main_v194 : Ref sig .tc := ⟨.hbm, 377, rfl⟩
abbrev main_c_67 : Ref sig .tc := ⟨.hbm, 378, rfl⟩
abbrev main_v195 : Ref sig .tc := ⟨.hbm, 379, rfl⟩
abbrev main_v196 : Ref sig .tc := ⟨.hbm, 380, rfl⟩
abbrev main_c_68 : Ref sig .tc := ⟨.hbm, 381, rfl⟩
abbrev main_v197 : Ref sig .tc := ⟨.hbm, 382, rfl⟩
abbrev main_v198 : Ref sig .tc := ⟨.hbm, 383, rfl⟩
abbrev main_c_69 : Ref sig .tc := ⟨.hbm, 384, rfl⟩
abbrev main_v199 : Ref sig .tc := ⟨.hbm, 385, rfl⟩
abbrev main_v200 : Ref sig .tc := ⟨.hbm, 386, rfl⟩
abbrev main_v201 : Ref sig .tc := ⟨.hbm, 387, rfl⟩
abbrev main_v202 : Ref sig .tc := ⟨.hbm, 388, rfl⟩
abbrev main_v203 : Ref sig .tc := ⟨.hbm, 389, rfl⟩
abbrev main_v204 : Ref sig .tc := ⟨.hbm, 390, rfl⟩
abbrev main_c_70 : Ref sig .tc := ⟨.hbm, 391, rfl⟩
abbrev main_v205 : Ref sig .tc := ⟨.hbm, 392, rfl⟩
abbrev main_v206 : Ref sig .tc := ⟨.hbm, 393, rfl⟩
abbrev main_c_71 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_v211 : Ref sig .tc := ⟨.hbm, 399, rfl⟩
abbrev main_c_72 : Ref sig .tc := ⟨.hbm, 400, rfl⟩
abbrev main_call7_v0 : Ref sig .tc := ⟨.hbm, 401, rfl⟩
abbrev main_call7_v1 : Ref sig .tc := ⟨.hbm, 402, rfl⟩
abbrev main_call7_v2 : Ref sig .tc := ⟨.hbm, 403, rfl⟩
abbrev main_call7_v3 : Ref sig .tc := ⟨.hbm, 404, rfl⟩
abbrev main_call7_v4 : Ref sig .tc := ⟨.hbm, 405, rfl⟩
abbrev main_call7_v5 : Ref sig .tc := ⟨.hbm, 406, rfl⟩
abbrev main_call7_v6 : Ref sig .tc := ⟨.hbm, 407, rfl⟩
abbrev main_call7_v7 : Ref sig .tc := ⟨.hbm, 408, rfl⟩
abbrev main_call7_v8 : Ref sig .tc := ⟨.hbm, 409, rfl⟩
abbrev main_call7_c : Ref sig .tc := ⟨.hbm, 410, rfl⟩
abbrev main_call7_v9 : Ref sig .tc := ⟨.hbm, 411, rfl⟩
abbrev main_call7_v10 : Ref sig .tc := ⟨.hbm, 412, rfl⟩
abbrev main_call7_v11 : Ref sig .tc := ⟨.hbm, 413, rfl⟩
abbrev main_call7_c_0 : Ref sig .tc := ⟨.hbm, 414, rfl⟩
abbrev main_call7_v12 : Ref sig .tc := ⟨.hbm, 415, rfl⟩
abbrev main_call7_v13 : Ref sig .tc := ⟨.hbm, 416, rfl⟩
abbrev main_v212 : Ref sig .tc := ⟨.hbm, 417, rfl⟩
abbrev main_c_73 : Ref sig .tc := ⟨.hbm, 418, rfl⟩
abbrev main_v213 : Ref sig .tc := ⟨.hbm, 419, rfl⟩
abbrev main_v214 : Ref sig .tc := ⟨.hbm, 420, rfl⟩
abbrev main_c_74 : Ref sig .tc := ⟨.hbm, 421, rfl⟩
abbrev main_v215 : Ref sig .tc := ⟨.hbm, 422, rfl⟩
abbrev main_v216 : Ref sig .tc := ⟨.hbm, 423, rfl⟩
abbrev main_c_75 : Ref sig .tc := ⟨.hbm, 424, rfl⟩
abbrev main_v217 : Ref sig .tc := ⟨.hbm, 425, rfl⟩
abbrev main_v218 : Ref sig .tc := ⟨.hbm, 426, rfl⟩
abbrev main_v219 : Ref sig .tc := ⟨.hbm, 427, rfl⟩
abbrev main_v220 : Ref sig .tc := ⟨.hbm, 428, rfl⟩
abbrev main_v221 : Ref sig .tc := ⟨.hbm, 429, rfl⟩
abbrev main_c_76 : Ref sig .tc := ⟨.hbm, 430, rfl⟩
abbrev main_v222 : Ref sig .tc := ⟨.hbm, 431, rfl⟩
abbrev main_v223 : Ref sig .tc := ⟨.hbm, 432, rfl⟩
abbrev main_c_77 : Ref sig .tc := ⟨.hbm, 433, rfl⟩
abbrev main_v224 : Ref sig .tc := ⟨.hbm, 434, rfl⟩
abbrev main_v225 : Ref sig .tc := ⟨.hbm, 435, rfl⟩
abbrev main_c_78 : Ref sig .tc := ⟨.hbm, 436, rfl⟩
abbrev main_v226 : Ref sig .tc := ⟨.hbm, 437, rfl⟩
abbrev main_v227 : Ref sig .tc := ⟨.hbm, 438, rfl⟩
abbrev main_c_79 : Ref sig .tc := ⟨.hbm, 439, rfl⟩
abbrev main_v228 : Ref sig .tc := ⟨.hbm, 440, rfl⟩
abbrev main_v229 : Ref sig .tc := ⟨.hbm, 441, rfl⟩
abbrev main_v230 : Ref sig .tc := ⟨.hbm, 442, rfl⟩
abbrev main_v231 : Ref sig .tc := ⟨.hbm, 443, rfl⟩
abbrev main_v232 : Ref sig .tc := ⟨.hbm, 444, rfl⟩
abbrev main_v233 : Ref sig .tc := ⟨.hbm, 445, rfl⟩
abbrev main_c_80 : Ref sig .tc := ⟨.hbm, 446, rfl⟩
abbrev main_v234 : Ref sig .tc := ⟨.hbm, 447, rfl⟩
abbrev main_v235 : Ref sig .tc := ⟨.hbm, 448, rfl⟩
abbrev main_c_81 : Ref sig .tc := ⟨.hbm, 449, rfl⟩
abbrev main_v236 : Ref sig .tc := ⟨.hbm, 450, rfl⟩
abbrev main_v237 : Ref sig .tc := ⟨.hbm, 451, rfl⟩
abbrev main_v238 : Ref sig .tc := ⟨.hbm, 452, rfl⟩
abbrev main_v239 : Ref sig .tc := ⟨.hbm, 453, rfl⟩
abbrev main_v240 : Ref sig .tc := ⟨.hbm, 454, rfl⟩
abbrev main_c_82 : Ref sig .tc := ⟨.hbm, 455, rfl⟩
abbrev main_call8_v0 : Ref sig .tc := ⟨.hbm, 456, rfl⟩
abbrev main_call8_v1 : Ref sig .tc := ⟨.hbm, 457, rfl⟩
abbrev main_call8_v2 : Ref sig .tc := ⟨.hbm, 458, rfl⟩
abbrev main_call8_v3 : Ref sig .tc := ⟨.hbm, 459, rfl⟩
abbrev main_call8_v4 : Ref sig .tc := ⟨.hbm, 460, rfl⟩
abbrev main_call8_v5 : Ref sig .tc := ⟨.hbm, 461, rfl⟩
abbrev main_call8_v6 : Ref sig .tc := ⟨.hbm, 462, rfl⟩
abbrev main_call8_v7 : Ref sig .tc := ⟨.hbm, 463, rfl⟩
abbrev main_call8_v8 : Ref sig .tc := ⟨.hbm, 464, rfl⟩
abbrev main_call8_c : Ref sig .tc := ⟨.hbm, 465, rfl⟩
abbrev main_call8_v9 : Ref sig .tc := ⟨.hbm, 466, rfl⟩
abbrev main_call8_v10 : Ref sig .tc := ⟨.hbm, 467, rfl⟩
abbrev main_call8_v11 : Ref sig .tc := ⟨.hbm, 468, rfl⟩
abbrev main_call8_c_0 : Ref sig .tc := ⟨.hbm, 469, rfl⟩
abbrev main_call8_v12 : Ref sig .tc := ⟨.hbm, 470, rfl⟩
abbrev main_call8_v13 : Ref sig .tc := ⟨.hbm, 471, rfl⟩
abbrev main_v241 : Ref sig .tc := ⟨.hbm, 472, rfl⟩
abbrev main_c_83 : Ref sig .tc := ⟨.hbm, 473, rfl⟩
abbrev main_v242 : Ref sig .tc := ⟨.hbm, 474, rfl⟩
abbrev main_v243 : Ref sig .tc := ⟨.hbm, 475, rfl⟩
abbrev main_c_84 : Ref sig .tc := ⟨.hbm, 476, rfl⟩
abbrev main_v244 : Ref sig .tc := ⟨.hbm, 477, rfl⟩
abbrev main_v245 : Ref sig .tc := ⟨.hbm, 478, rfl⟩
abbrev main_c_85 : Ref sig .tc := ⟨.hbm, 479, rfl⟩
abbrev main_v246 : Ref sig .tc := ⟨.hbm, 480, rfl⟩
abbrev main_v247 : Ref sig .tc := ⟨.hbm, 481, rfl⟩
abbrev main_v248 : Ref sig .tc := ⟨.hbm, 482, rfl⟩
abbrev main_v249 : Ref sig .tc := ⟨.hbm, 483, rfl⟩
abbrev main_v250 : Ref sig .tc := ⟨.hbm, 484, rfl⟩
abbrev main_c_86 : Ref sig .tc := ⟨.hbm, 485, rfl⟩
abbrev main_v251 : Ref sig .tc := ⟨.hbm, 486, rfl⟩
abbrev main_v252 : Ref sig .tc := ⟨.hbm, 487, rfl⟩
abbrev main_c_87 : Ref sig .tc := ⟨.hbm, 488, rfl⟩
abbrev main_v253 : Ref sig .tc := ⟨.hbm, 489, rfl⟩
abbrev main_v254 : Ref sig .tc := ⟨.hbm, 490, rfl⟩
abbrev main_c_88 : Ref sig .tc := ⟨.hbm, 491, rfl⟩
abbrev main_v255 : Ref sig .tc := ⟨.hbm, 492, rfl⟩
abbrev main_v256 : Ref sig .tc := ⟨.hbm, 493, rfl⟩
abbrev main_c_89 : Ref sig .tc := ⟨.hbm, 494, rfl⟩
abbrev main_v257 : Ref sig .tc := ⟨.hbm, 495, rfl⟩
abbrev main_v258 : Ref sig .tc := ⟨.hbm, 496, rfl⟩
abbrev main_v259 : Ref sig .tc := ⟨.hbm, 497, rfl⟩
abbrev main_v260 : Ref sig .tc := ⟨.hbm, 498, rfl⟩
abbrev main_v261 : Ref sig .tc := ⟨.hbm, 499, rfl⟩
abbrev main_v262 : Ref sig .tc := ⟨.hbm, 500, rfl⟩
abbrev main_c_90 : Ref sig .tc := ⟨.hbm, 501, rfl⟩
abbrev main_v263 : Ref sig .tc := ⟨.hbm, 502, rfl⟩
abbrev main_v264 : Ref sig .tc := ⟨.hbm, 503, rfl⟩
abbrev main_c_91 : Ref sig .tc := ⟨.hbm, 504, rfl⟩
abbrev main_v265 : Ref sig .tc := ⟨.hbm, 505, rfl⟩
abbrev main_v266 : Ref sig .tc := ⟨.hbm, 506, rfl⟩
abbrev main_v267 : Ref sig .tc := ⟨.hbm, 507, rfl⟩
abbrev main_v268 : Ref sig .tc := ⟨.hbm, 508, rfl⟩
abbrev main_v269 : Ref sig .tc := ⟨.hbm, 509, rfl⟩
abbrev main_c_92 : Ref sig .tc := ⟨.hbm, 510, rfl⟩
abbrev main_call9_v0 : Ref sig .tc := ⟨.hbm, 511, rfl⟩
abbrev main_call9_v1 : Ref sig .tc := ⟨.hbm, 512, rfl⟩
abbrev main_call9_v2 : Ref sig .tc := ⟨.hbm, 513, rfl⟩
abbrev main_call9_v3 : Ref sig .tc := ⟨.hbm, 514, rfl⟩
abbrev main_call9_v4 : Ref sig .tc := ⟨.hbm, 515, rfl⟩
abbrev main_call9_v5 : Ref sig .tc := ⟨.hbm, 516, rfl⟩
abbrev main_call9_v6 : Ref sig .tc := ⟨.hbm, 517, rfl⟩
abbrev main_call9_v7 : Ref sig .tc := ⟨.hbm, 518, rfl⟩
abbrev main_call9_v8 : Ref sig .tc := ⟨.hbm, 519, rfl⟩
abbrev main_call9_c : Ref sig .tc := ⟨.hbm, 520, rfl⟩
abbrev main_call9_v9 : Ref sig .tc := ⟨.hbm, 521, rfl⟩
abbrev main_call9_v10 : Ref sig .tc := ⟨.hbm, 522, rfl⟩
abbrev main_call9_v11 : Ref sig .tc := ⟨.hbm, 523, rfl⟩
abbrev main_call9_c_0 : Ref sig .tc := ⟨.hbm, 524, rfl⟩
abbrev main_call9_v12 : Ref sig .tc := ⟨.hbm, 525, rfl⟩
abbrev main_call9_v13 : Ref sig .tc := ⟨.hbm, 526, rfl⟩
abbrev main_v270 : Ref sig .tc := ⟨.hbm, 527, rfl⟩
abbrev main_c_93 : Ref sig .tc := ⟨.hbm, 528, rfl⟩
abbrev main_v271 : Ref sig .tc := ⟨.hbm, 529, rfl⟩
abbrev main_v272 : Ref sig .tc := ⟨.hbm, 530, rfl⟩
abbrev main_c_94 : Ref sig .tc := ⟨.hbm, 531, rfl⟩
abbrev main_v273 : Ref sig .tc := ⟨.hbm, 532, rfl⟩
abbrev main_v274 : Ref sig .tc := ⟨.hbm, 533, rfl⟩
abbrev main_c_95 : Ref sig .tc := ⟨.hbm, 534, rfl⟩
abbrev main_v275 : Ref sig .tc := ⟨.hbm, 535, rfl⟩
abbrev main_v276 : Ref sig .tc := ⟨.hbm, 536, rfl⟩
abbrev main_v277 : Ref sig .tc := ⟨.hbm, 537, rfl⟩
abbrev main_v278 : Ref sig .tc := ⟨.hbm, 538, rfl⟩
abbrev main_v279 : Ref sig .tc := ⟨.hbm, 539, rfl⟩
abbrev main_c_96 : Ref sig .tc := ⟨.hbm, 540, rfl⟩
abbrev main_v280 : Ref sig .tc := ⟨.hbm, 541, rfl⟩
abbrev main_v281 : Ref sig .tc := ⟨.hbm, 542, rfl⟩
abbrev main_c_97 : Ref sig .tc := ⟨.hbm, 543, rfl⟩
abbrev main_v282 : Ref sig .tc := ⟨.hbm, 544, rfl⟩
abbrev main_v283 : Ref sig .tc := ⟨.hbm, 545, rfl⟩
abbrev main_c_98 : Ref sig .tc := ⟨.hbm, 546, rfl⟩
abbrev main_v284 : Ref sig .tc := ⟨.hbm, 547, rfl⟩
abbrev main_v285 : Ref sig .tc := ⟨.hbm, 548, rfl⟩
abbrev main_c_99 : Ref sig .tc := ⟨.hbm, 549, rfl⟩
abbrev main_v286 : Ref sig .tc := ⟨.hbm, 550, rfl⟩
abbrev main_v287 : Ref sig .tc := ⟨.hbm, 551, rfl⟩
abbrev main_v288 : Ref sig .tc := ⟨.hbm, 552, rfl⟩
abbrev main_v289 : Ref sig .tc := ⟨.hbm, 553, rfl⟩
abbrev main_v290 : Ref sig .tc := ⟨.hbm, 554, rfl⟩
abbrev main_v291 : Ref sig .tc := ⟨.hbm, 555, rfl⟩
abbrev main_c_100 : Ref sig .tc := ⟨.hbm, 556, rfl⟩
abbrev main_v292 : Ref sig .tc := ⟨.hbm, 557, rfl⟩
abbrev main_v293 : Ref sig .tc := ⟨.hbm, 558, rfl⟩
abbrev main_c_101 : Ref sig .tc := ⟨.hbm, 559, rfl⟩
abbrev main_v294 : Ref sig .tc := ⟨.hbm, 560, rfl⟩
abbrev main_v295 : Ref sig .tc := ⟨.hbm, 561, rfl⟩
abbrev main_v296 : Ref sig .tc := ⟨.hbm, 562, rfl⟩
abbrev main_v297 : Ref sig .tc := ⟨.hbm, 563, rfl⟩
abbrev main_v298 : Ref sig .tc := ⟨.hbm, 564, rfl⟩
abbrev main_c_102 : Ref sig .tc := ⟨.hbm, 565, rfl⟩
abbrev main_call10_v0 : Ref sig .tc := ⟨.hbm, 566, rfl⟩
abbrev main_call10_v1 : Ref sig .tc := ⟨.hbm, 567, rfl⟩
abbrev main_call10_v2 : Ref sig .tc := ⟨.hbm, 568, rfl⟩
abbrev main_call10_v3 : Ref sig .tc := ⟨.hbm, 569, rfl⟩
abbrev main_call10_v4 : Ref sig .tc := ⟨.hbm, 570, rfl⟩
abbrev main_call10_v5 : Ref sig .tc := ⟨.hbm, 571, rfl⟩
abbrev main_call10_v6 : Ref sig .tc := ⟨.hbm, 572, rfl⟩
abbrev main_call10_v7 : Ref sig .tc := ⟨.hbm, 573, rfl⟩
abbrev main_call10_v8 : Ref sig .tc := ⟨.hbm, 574, rfl⟩
abbrev main_call10_c : Ref sig .tc := ⟨.hbm, 575, rfl⟩
abbrev main_call10_v9 : Ref sig .tc := ⟨.hbm, 576, rfl⟩
abbrev main_call10_v10 : Ref sig .tc := ⟨.hbm, 577, rfl⟩
abbrev main_call10_v11 : Ref sig .tc := ⟨.hbm, 578, rfl⟩
abbrev main_call10_c_0 : Ref sig .tc := ⟨.hbm, 579, rfl⟩
abbrev main_call10_v12 : Ref sig .tc := ⟨.hbm, 580, rfl⟩
abbrev main_call10_v13 : Ref sig .tc := ⟨.hbm, 581, rfl⟩
abbrev main_v299 : Ref sig .tc := ⟨.hbm, 582, rfl⟩
abbrev main_c_103 : Ref sig .tc := ⟨.hbm, 583, rfl⟩
abbrev main_v300 : Ref sig .tc := ⟨.hbm, 584, rfl⟩
abbrev main_v301 : Ref sig .tc := ⟨.hbm, 585, rfl⟩
abbrev main_c_104 : Ref sig .tc := ⟨.hbm, 586, rfl⟩
abbrev main_v302 : Ref sig .tc := ⟨.hbm, 587, rfl⟩
abbrev main_v303 : Ref sig .tc := ⟨.hbm, 588, rfl⟩
abbrev main_c_105 : Ref sig .tc := ⟨.hbm, 589, rfl⟩
abbrev main_v304 : Ref sig .tc := ⟨.hbm, 590, rfl⟩
abbrev main_v305 : Ref sig .tc := ⟨.hbm, 591, rfl⟩
abbrev main_v306 : Ref sig .tc := ⟨.hbm, 592, rfl⟩
abbrev main_v307 : Ref sig .tc := ⟨.hbm, 593, rfl⟩
abbrev main_v308 : Ref sig .tc := ⟨.hbm, 594, rfl⟩
abbrev main_c_106 : Ref sig .tc := ⟨.hbm, 595, rfl⟩
abbrev main_v309 : Ref sig .tc := ⟨.hbm, 596, rfl⟩
abbrev main_v310 : Ref sig .tc := ⟨.hbm, 597, rfl⟩
abbrev main_c_107 : Ref sig .tc := ⟨.hbm, 598, rfl⟩
abbrev main_v311 : Ref sig .tc := ⟨.hbm, 599, rfl⟩
abbrev main_v312 : Ref sig .tc := ⟨.hbm, 600, rfl⟩
abbrev main_c_108 : Ref sig .tc := ⟨.hbm, 601, rfl⟩
abbrev main_v313 : Ref sig .tc := ⟨.hbm, 602, rfl⟩
abbrev main_v314 : Ref sig .tc := ⟨.hbm, 603, rfl⟩
abbrev main_c_109 : Ref sig .tc := ⟨.hbm, 604, rfl⟩
abbrev main_v315 : Ref sig .tc := ⟨.hbm, 605, rfl⟩
abbrev main_v316 : Ref sig .tc := ⟨.hbm, 606, rfl⟩
abbrev main_v317 : Ref sig .tc := ⟨.hbm, 607, rfl⟩
abbrev main_v318 : Ref sig .tc := ⟨.hbm, 608, rfl⟩
abbrev main_v319 : Ref sig .tc := ⟨.hbm, 609, rfl⟩
abbrev main_v320 : Ref sig .tc := ⟨.hbm, 610, rfl⟩
abbrev main_c_110 : Ref sig .tc := ⟨.hbm, 611, rfl⟩
abbrev main_v321 : Ref sig .tc := ⟨.hbm, 612, rfl⟩
abbrev main_v322 : Ref sig .tc := ⟨.hbm, 613, rfl⟩
abbrev main_c_111 : Ref sig .tc := ⟨.hbm, 614, rfl⟩
abbrev main_v323 : Ref sig .tc := ⟨.hbm, 615, rfl⟩
abbrev main_v324 : Ref sig .tc := ⟨.hbm, 616, rfl⟩
abbrev main_v325 : Ref sig .tc := ⟨.hbm, 617, rfl⟩
abbrev main_v326 : Ref sig .tc := ⟨.hbm, 618, rfl⟩
abbrev main_v327 : Ref sig .tc := ⟨.hbm, 619, rfl⟩
abbrev main_c_112 : Ref sig .tc := ⟨.hbm, 620, rfl⟩
abbrev main_call11_v0 : Ref sig .tc := ⟨.hbm, 621, rfl⟩
abbrev main_call11_v1 : Ref sig .tc := ⟨.hbm, 622, rfl⟩
abbrev main_call11_v2 : Ref sig .tc := ⟨.hbm, 623, rfl⟩
abbrev main_call11_v3 : Ref sig .tc := ⟨.hbm, 624, rfl⟩
abbrev main_call11_v4 : Ref sig .tc := ⟨.hbm, 625, rfl⟩
abbrev main_call11_v5 : Ref sig .tc := ⟨.hbm, 626, rfl⟩
abbrev main_call11_v6 : Ref sig .tc := ⟨.hbm, 627, rfl⟩
abbrev main_call11_v7 : Ref sig .tc := ⟨.hbm, 628, rfl⟩
abbrev main_call11_v8 : Ref sig .tc := ⟨.hbm, 629, rfl⟩
abbrev main_call11_c : Ref sig .tc := ⟨.hbm, 630, rfl⟩
abbrev main_call11_v9 : Ref sig .tc := ⟨.hbm, 631, rfl⟩
abbrev main_call11_v10 : Ref sig .tc := ⟨.hbm, 632, rfl⟩
abbrev main_call11_v11 : Ref sig .tc := ⟨.hbm, 633, rfl⟩
abbrev main_call11_c_0 : Ref sig .tc := ⟨.hbm, 634, rfl⟩
abbrev main_call11_v12 : Ref sig .tc := ⟨.hbm, 635, rfl⟩
abbrev main_call11_v13 : Ref sig .tc := ⟨.hbm, 636, rfl⟩
abbrev main_v328 : Ref sig .tc := ⟨.hbm, 637, rfl⟩
abbrev main_c_113 : Ref sig .tc := ⟨.hbm, 638, rfl⟩
abbrev main_v329 : Ref sig .tc := ⟨.hbm, 639, rfl⟩
abbrev main_v330 : Ref sig .tc := ⟨.hbm, 640, rfl⟩
abbrev main_c_114 : Ref sig .tc := ⟨.hbm, 641, rfl⟩
abbrev main_v331 : Ref sig .tc := ⟨.hbm, 642, rfl⟩
abbrev main_v332 : Ref sig .tc := ⟨.hbm, 643, rfl⟩
abbrev main_c_115 : Ref sig .tc := ⟨.hbm, 644, rfl⟩
abbrev main_v333 : Ref sig .tc := ⟨.hbm, 645, rfl⟩
abbrev main_v334 : Ref sig .tc := ⟨.hbm, 646, rfl⟩
abbrev main_v335 : Ref sig .tc := ⟨.hbm, 647, rfl⟩
abbrev main_v336 : Ref sig .tc := ⟨.hbm, 648, rfl⟩
abbrev main_v337 : Ref sig .tc := ⟨.hbm, 649, rfl⟩
abbrev main_c_116 : Ref sig .tc := ⟨.hbm, 650, rfl⟩
abbrev main_v338 : Ref sig .tc := ⟨.hbm, 651, rfl⟩
abbrev main_v339 : Ref sig .tc := ⟨.hbm, 652, rfl⟩
abbrev main_c_117 : Ref sig .tc := ⟨.hbm, 653, rfl⟩
abbrev main_v340 : Ref sig .tc := ⟨.hbm, 654, rfl⟩
abbrev main_v341 : Ref sig .tc := ⟨.hbm, 655, rfl⟩
abbrev main_c_118 : Ref sig .tc := ⟨.hbm, 656, rfl⟩
abbrev main_v342 : Ref sig .tc := ⟨.hbm, 657, rfl⟩
abbrev main_v343 : Ref sig .tc := ⟨.hbm, 658, rfl⟩
abbrev main_c_119 : Ref sig .tc := ⟨.hbm, 659, rfl⟩
abbrev main_v344 : Ref sig .tc := ⟨.hbm, 660, rfl⟩
abbrev main_v345 : Ref sig .tc := ⟨.hbm, 661, rfl⟩
abbrev main_v346 : Ref sig .tc := ⟨.hbm, 662, rfl⟩
abbrev main_v347 : Ref sig .tc := ⟨.hbm, 663, rfl⟩
abbrev main_v348 : Ref sig .tc := ⟨.hbm, 664, rfl⟩
abbrev main_v349 : Ref sig .tc := ⟨.hbm, 665, rfl⟩
abbrev main_c_120 : Ref sig .tc := ⟨.hbm, 666, rfl⟩
abbrev main_v350 : Ref sig .tc := ⟨.hbm, 667, rfl⟩
abbrev main_v351 : Ref sig .tc := ⟨.hbm, 668, rfl⟩
abbrev main_c_121 : Ref sig .tc := ⟨.hbm, 669, rfl⟩
abbrev main_v352 : Ref sig .tc := ⟨.hbm, 670, rfl⟩
abbrev main_v353 : Ref sig .tc := ⟨.hbm, 671, rfl⟩
abbrev main_v354 : Ref sig .tc := ⟨.hbm, 672, rfl⟩
abbrev main_v355 : Ref sig .tc := ⟨.hbm, 673, rfl⟩
abbrev main_v356 : Ref sig .tc := ⟨.hbm, 674, rfl⟩
abbrev main_c_122 : Ref sig .tc := ⟨.hbm, 675, rfl⟩
abbrev main_call12_v0 : Ref sig .tc := ⟨.hbm, 676, rfl⟩
abbrev main_call12_v1 : Ref sig .tc := ⟨.hbm, 677, rfl⟩
abbrev main_call12_v2 : Ref sig .tc := ⟨.hbm, 678, rfl⟩
abbrev main_call12_v3 : Ref sig .tc := ⟨.hbm, 679, rfl⟩
abbrev main_call12_v4 : Ref sig .tc := ⟨.hbm, 680, rfl⟩
abbrev main_call12_v5 : Ref sig .tc := ⟨.hbm, 681, rfl⟩
abbrev main_call12_v6 : Ref sig .tc := ⟨.hbm, 682, rfl⟩
abbrev main_call12_v7 : Ref sig .tc := ⟨.hbm, 683, rfl⟩
abbrev main_call12_v8 : Ref sig .tc := ⟨.hbm, 684, rfl⟩
abbrev main_call12_c : Ref sig .tc := ⟨.hbm, 685, rfl⟩
abbrev main_call12_v9 : Ref sig .tc := ⟨.hbm, 686, rfl⟩
abbrev main_call12_v10 : Ref sig .tc := ⟨.hbm, 687, rfl⟩
abbrev main_call12_v11 : Ref sig .tc := ⟨.hbm, 688, rfl⟩
abbrev main_call12_c_0 : Ref sig .tc := ⟨.hbm, 689, rfl⟩
abbrev main_call12_v12 : Ref sig .tc := ⟨.hbm, 690, rfl⟩
abbrev main_call12_v13 : Ref sig .tc := ⟨.hbm, 691, rfl⟩
abbrev main_v357 : Ref sig .tc := ⟨.hbm, 692, rfl⟩
abbrev main_c_123 : Ref sig .tc := ⟨.hbm, 693, rfl⟩
abbrev main_v358 : Ref sig .tc := ⟨.hbm, 694, rfl⟩
abbrev main_v359 : Ref sig .tc := ⟨.hbm, 695, rfl⟩
abbrev main_c_124 : Ref sig .tc := ⟨.hbm, 696, rfl⟩
abbrev main_v360 : Ref sig .tc := ⟨.hbm, 697, rfl⟩
abbrev main_v361 : Ref sig .tc := ⟨.hbm, 698, rfl⟩
abbrev main_c_125 : Ref sig .tc := ⟨.hbm, 699, rfl⟩
abbrev main_v362 : Ref sig .tc := ⟨.hbm, 700, rfl⟩
abbrev main_v363 : Ref sig .tc := ⟨.hbm, 701, rfl⟩
abbrev main_v364 : Ref sig .tc := ⟨.hbm, 702, rfl⟩
abbrev main_v365 : Ref sig .tc := ⟨.hbm, 703, rfl⟩
abbrev main_v366 : Ref sig .tc := ⟨.hbm, 704, rfl⟩
abbrev main_c_126 : Ref sig .tc := ⟨.hbm, 705, rfl⟩
abbrev main_v367 : Ref sig .tc := ⟨.hbm, 706, rfl⟩
abbrev main_v368 : Ref sig .tc := ⟨.hbm, 707, rfl⟩
abbrev main_c_127 : Ref sig .tc := ⟨.hbm, 708, rfl⟩
abbrev main_v369 : Ref sig .tc := ⟨.hbm, 709, rfl⟩
abbrev main_v370 : Ref sig .tc := ⟨.hbm, 710, rfl⟩
abbrev main_c_128 : Ref sig .tc := ⟨.hbm, 711, rfl⟩
abbrev main_v371 : Ref sig .tc := ⟨.hbm, 712, rfl⟩
abbrev main_v372 : Ref sig .tc := ⟨.hbm, 713, rfl⟩
abbrev main_c_129 : Ref sig .tc := ⟨.hbm, 714, rfl⟩
abbrev main_v373 : Ref sig .tc := ⟨.hbm, 715, rfl⟩
abbrev main_v374 : Ref sig .tc := ⟨.hbm, 716, rfl⟩
abbrev main_v375 : Ref sig .tc := ⟨.hbm, 717, rfl⟩
abbrev main_v376 : Ref sig .tc := ⟨.hbm, 718, rfl⟩
abbrev main_v377 : Ref sig .tc := ⟨.hbm, 719, rfl⟩
abbrev main_v378 : Ref sig .tc := ⟨.hbm, 720, rfl⟩
abbrev main_c_130 : Ref sig .tc := ⟨.hbm, 721, rfl⟩
abbrev main_v379 : Ref sig .tc := ⟨.hbm, 722, rfl⟩
abbrev main_v380 : Ref sig .tc := ⟨.hbm, 723, rfl⟩
abbrev main_c_131 : Ref sig .tc := ⟨.hbm, 724, rfl⟩
abbrev main_v381 : Ref sig .tc := ⟨.hbm, 725, rfl⟩
abbrev main_v382 : Ref sig .tc := ⟨.hbm, 726, rfl⟩
abbrev main_v383 : Ref sig .tc := ⟨.hbm, 727, rfl⟩
abbrev main_v384 : Ref sig .tc := ⟨.hbm, 728, rfl⟩
abbrev main_v385 : Ref sig .tc := ⟨.hbm, 729, rfl⟩
abbrev main_c_132 : Ref sig .tc := ⟨.hbm, 730, rfl⟩
abbrev main_call13_v0 : Ref sig .tc := ⟨.hbm, 731, rfl⟩
abbrev main_call13_v1 : Ref sig .tc := ⟨.hbm, 732, rfl⟩
abbrev main_call13_v2 : Ref sig .tc := ⟨.hbm, 733, rfl⟩
abbrev main_call13_v3 : Ref sig .tc := ⟨.hbm, 734, rfl⟩
abbrev main_call13_v4 : Ref sig .tc := ⟨.hbm, 735, rfl⟩
abbrev main_call13_v5 : Ref sig .tc := ⟨.hbm, 736, rfl⟩
abbrev main_call13_v6 : Ref sig .tc := ⟨.hbm, 737, rfl⟩
abbrev main_call13_v7 : Ref sig .tc := ⟨.hbm, 738, rfl⟩
abbrev main_call13_v8 : Ref sig .tc := ⟨.hbm, 739, rfl⟩
abbrev main_call13_c : Ref sig .tc := ⟨.hbm, 740, rfl⟩
abbrev main_call13_v9 : Ref sig .tc := ⟨.hbm, 741, rfl⟩
abbrev main_call13_v10 : Ref sig .tc := ⟨.hbm, 742, rfl⟩
abbrev main_call13_v11 : Ref sig .tc := ⟨.hbm, 743, rfl⟩
abbrev main_call13_c_0 : Ref sig .tc := ⟨.hbm, 744, rfl⟩
abbrev main_call13_v12 : Ref sig .tc := ⟨.hbm, 745, rfl⟩
abbrev main_call13_v13 : Ref sig .tc := ⟨.hbm, 746, rfl⟩
abbrev main_v386 : Ref sig .tc := ⟨.hbm, 747, rfl⟩
abbrev main_c_133 : Ref sig .tc := ⟨.hbm, 748, rfl⟩
abbrev main_v387 : Ref sig .tc := ⟨.hbm, 749, rfl⟩
abbrev main_v388 : Ref sig .tc := ⟨.hbm, 750, rfl⟩
abbrev main_c_134 : Ref sig .tc := ⟨.hbm, 751, rfl⟩
abbrev main_v389 : Ref sig .tc := ⟨.hbm, 752, rfl⟩
abbrev main_v390 : Ref sig .tc := ⟨.hbm, 753, rfl⟩
abbrev main_c_135 : Ref sig .tc := ⟨.hbm, 754, rfl⟩
abbrev main_v391 : Ref sig .tc := ⟨.hbm, 755, rfl⟩
abbrev main_v392 : Ref sig .tc := ⟨.hbm, 756, rfl⟩
abbrev main_v393 : Ref sig .tc := ⟨.hbm, 757, rfl⟩
abbrev main_v394 : Ref sig .tc := ⟨.hbm, 758, rfl⟩
abbrev main_v395 : Ref sig .tc := ⟨.hbm, 759, rfl⟩
abbrev main_c_136 : Ref sig .tc := ⟨.hbm, 760, rfl⟩
abbrev main_v396 : Ref sig .tc := ⟨.hbm, 761, rfl⟩
abbrev main_v397 : Ref sig .tc := ⟨.hbm, 762, rfl⟩
abbrev main_c_137 : Ref sig .tc := ⟨.hbm, 763, rfl⟩
abbrev main_v398 : Ref sig .tc := ⟨.hbm, 764, rfl⟩
abbrev main_v399 : Ref sig .tc := ⟨.hbm, 765, rfl⟩
abbrev main_c_138 : Ref sig .tc := ⟨.hbm, 766, rfl⟩
abbrev main_v400 : Ref sig .tc := ⟨.hbm, 767, rfl⟩
abbrev main_v401 : Ref sig .tc := ⟨.hbm, 768, rfl⟩
abbrev main_c_139 : Ref sig .tc := ⟨.hbm, 769, rfl⟩
abbrev main_v402 : Ref sig .tc := ⟨.hbm, 770, rfl⟩
abbrev main_v403 : Ref sig .tc := ⟨.hbm, 771, rfl⟩
abbrev main_v404 : Ref sig .tc := ⟨.hbm, 772, rfl⟩
abbrev main_v405 : Ref sig .tc := ⟨.hbm, 773, rfl⟩
abbrev main_v406 : Ref sig .tc := ⟨.hbm, 774, rfl⟩
abbrev main_v407 : Ref sig .tc := ⟨.hbm, 775, rfl⟩
abbrev main_c_140 : Ref sig .tc := ⟨.hbm, 776, rfl⟩
abbrev main_v408 : Ref sig .tc := ⟨.hbm, 777, rfl⟩
abbrev main_v409 : Ref sig .tc := ⟨.hbm, 778, rfl⟩
abbrev main_c_141 : Ref sig .tc := ⟨.hbm, 779, rfl⟩
abbrev main_v410 : Ref sig .tc := ⟨.hbm, 780, rfl⟩
abbrev main_v411 : Ref sig .tc := ⟨.hbm, 781, rfl⟩
abbrev main_v412 : Ref sig .tc := ⟨.hbm, 782, rfl⟩
abbrev main_v413 : Ref sig .tc := ⟨.hbm, 783, rfl⟩
abbrev main_v414 : Ref sig .tc := ⟨.hbm, 784, rfl⟩
abbrev main_c_142 : Ref sig .tc := ⟨.hbm, 785, rfl⟩
abbrev main_call14_v0 : Ref sig .tc := ⟨.hbm, 786, rfl⟩
abbrev main_call14_v1 : Ref sig .tc := ⟨.hbm, 787, rfl⟩
abbrev main_call14_v2 : Ref sig .tc := ⟨.hbm, 788, rfl⟩
abbrev main_call14_v3 : Ref sig .tc := ⟨.hbm, 789, rfl⟩
abbrev main_call14_v4 : Ref sig .tc := ⟨.hbm, 790, rfl⟩
abbrev main_call14_v5 : Ref sig .tc := ⟨.hbm, 791, rfl⟩
abbrev main_call14_v6 : Ref sig .tc := ⟨.hbm, 792, rfl⟩
abbrev main_call14_v7 : Ref sig .tc := ⟨.hbm, 793, rfl⟩
abbrev main_call14_v8 : Ref sig .tc := ⟨.hbm, 794, rfl⟩
abbrev main_call14_c : Ref sig .tc := ⟨.hbm, 795, rfl⟩
abbrev main_call14_v9 : Ref sig .tc := ⟨.hbm, 796, rfl⟩
abbrev main_call14_v10 : Ref sig .tc := ⟨.hbm, 797, rfl⟩
abbrev main_call14_v11 : Ref sig .tc := ⟨.hbm, 798, rfl⟩
abbrev main_call14_c_0 : Ref sig .tc := ⟨.hbm, 799, rfl⟩
abbrev main_call14_v12 : Ref sig .tc := ⟨.hbm, 800, rfl⟩
abbrev main_call14_v13 : Ref sig .tc := ⟨.hbm, 801, rfl⟩
abbrev main_v415 : Ref sig .tc := ⟨.hbm, 802, rfl⟩
abbrev main_c_143 : Ref sig .tc := ⟨.hbm, 803, rfl⟩
abbrev main_v416 : Ref sig .tc := ⟨.hbm, 804, rfl⟩
abbrev main_v417 : Ref sig .tc := ⟨.hbm, 805, rfl⟩
abbrev main_c_144 : Ref sig .tc := ⟨.hbm, 806, rfl⟩
abbrev main_v418 : Ref sig .tc := ⟨.hbm, 807, rfl⟩
abbrev main_v419 : Ref sig .tc := ⟨.hbm, 808, rfl⟩
abbrev main_c_145 : Ref sig .tc := ⟨.hbm, 809, rfl⟩
abbrev main_v420 : Ref sig .tc := ⟨.hbm, 810, rfl⟩
abbrev main_v421 : Ref sig .tc := ⟨.hbm, 811, rfl⟩
abbrev main_v422 : Ref sig .tc := ⟨.hbm, 812, rfl⟩
abbrev main_v423 : Ref sig .tc := ⟨.hbm, 813, rfl⟩
abbrev main_v424 : Ref sig .tc := ⟨.hbm, 814, rfl⟩
abbrev main_c_146 : Ref sig .tc := ⟨.hbm, 815, rfl⟩
abbrev main_v425 : Ref sig .tc := ⟨.hbm, 816, rfl⟩
abbrev main_v426 : Ref sig .tc := ⟨.hbm, 817, rfl⟩
abbrev main_c_147 : Ref sig .tc := ⟨.hbm, 818, rfl⟩
abbrev main_v427 : Ref sig .tc := ⟨.hbm, 819, rfl⟩
abbrev main_v428 : Ref sig .tc := ⟨.hbm, 820, rfl⟩
abbrev main_c_148 : Ref sig .tc := ⟨.hbm, 821, rfl⟩
abbrev main_v429 : Ref sig .tc := ⟨.hbm, 822, rfl⟩
abbrev main_v430 : Ref sig .tc := ⟨.hbm, 823, rfl⟩
abbrev main_c_149 : Ref sig .tc := ⟨.hbm, 824, rfl⟩
abbrev main_v431 : Ref sig .tc := ⟨.hbm, 825, rfl⟩
abbrev main_v432 : Ref sig .tc := ⟨.hbm, 826, rfl⟩
abbrev main_v433 : Ref sig .tc := ⟨.hbm, 827, rfl⟩
abbrev main_v434 : Ref sig .tc := ⟨.hbm, 828, rfl⟩
abbrev main_v435 : Ref sig .tc := ⟨.hbm, 829, rfl⟩
abbrev main_v436 : Ref sig .tc := ⟨.hbm, 830, rfl⟩
abbrev main_c_150 : Ref sig .tc := ⟨.hbm, 831, rfl⟩
abbrev main_v437 : Ref sig .tc := ⟨.hbm, 832, rfl⟩
abbrev main_v438 : Ref sig .tc := ⟨.hbm, 833, rfl⟩
abbrev main_c_151 : Ref sig .tc := ⟨.hbm, 834, rfl⟩
abbrev main_v439 : Ref sig .tc := ⟨.hbm, 835, rfl⟩
abbrev main_v440 : Ref sig .tc := ⟨.hbm, 836, rfl⟩
abbrev main_v441 : Ref sig .tc := ⟨.hbm, 837, rfl⟩
abbrev main_v442 : Ref sig .tc := ⟨.hbm, 838, rfl⟩
abbrev main_v443 : Ref sig .tc := ⟨.hbm, 839, rfl⟩
abbrev main_c_152 : Ref sig .tc := ⟨.hbm, 840, rfl⟩
abbrev main_call15_v0 : Ref sig .tc := ⟨.hbm, 841, rfl⟩
abbrev main_call15_v1 : Ref sig .tc := ⟨.hbm, 842, rfl⟩
abbrev main_call15_v2 : Ref sig .tc := ⟨.hbm, 843, rfl⟩
abbrev main_call15_v3 : Ref sig .tc := ⟨.hbm, 844, rfl⟩
abbrev main_call15_v4 : Ref sig .tc := ⟨.hbm, 845, rfl⟩
abbrev main_call15_v5 : Ref sig .tc := ⟨.hbm, 846, rfl⟩
abbrev main_call15_v6 : Ref sig .tc := ⟨.hbm, 847, rfl⟩
abbrev main_call15_v7 : Ref sig .tc := ⟨.hbm, 848, rfl⟩
abbrev main_call15_v8 : Ref sig .tc := ⟨.hbm, 849, rfl⟩
abbrev main_call15_c : Ref sig .tc := ⟨.hbm, 850, rfl⟩
abbrev main_call15_v9 : Ref sig .tc := ⟨.hbm, 851, rfl⟩
abbrev main_call15_v10 : Ref sig .tc := ⟨.hbm, 852, rfl⟩
abbrev main_call15_v11 : Ref sig .tc := ⟨.hbm, 853, rfl⟩
abbrev main_call15_c_0 : Ref sig .tc := ⟨.hbm, 854, rfl⟩
abbrev main_call15_v12 : Ref sig .tc := ⟨.hbm, 855, rfl⟩
abbrev main_call15_v13 : Ref sig .tc := ⟨.hbm, 856, rfl⟩
abbrev main_v444 : Ref sig .tc := ⟨.hbm, 857, rfl⟩
abbrev main_c_153 : Ref sig .tc := ⟨.hbm, 858, rfl⟩
abbrev main_v445 : Ref sig .tc := ⟨.hbm, 859, rfl⟩
abbrev main_v446 : Ref sig .tc := ⟨.hbm, 860, rfl⟩
abbrev main_c_154 : Ref sig .tc := ⟨.hbm, 861, rfl⟩
abbrev main_v447 : Ref sig .tc := ⟨.hbm, 862, rfl⟩
abbrev main_v448 : Ref sig .tc := ⟨.hbm, 863, rfl⟩
abbrev main_c_155 : Ref sig .tc := ⟨.hbm, 864, rfl⟩
abbrev main_v449 : Ref sig .tc := ⟨.hbm, 865, rfl⟩
abbrev main_v450 : Ref sig .tc := ⟨.hbm, 866, rfl⟩
abbrev main_v451 : Ref sig .tc := ⟨.hbm, 867, rfl⟩
abbrev main_v452 : Ref sig .tc := ⟨.hbm, 868, rfl⟩
abbrev main_v453 : Ref sig .tc := ⟨.hbm, 869, rfl⟩
abbrev main_c_156 : Ref sig .tc := ⟨.hbm, 870, rfl⟩
abbrev main_v454 : Ref sig .tc := ⟨.hbm, 871, rfl⟩
abbrev main_v455 : Ref sig .tc := ⟨.hbm, 872, rfl⟩
abbrev main_c_157 : Ref sig .tc := ⟨.hbm, 873, rfl⟩
abbrev main_v456 : Ref sig .tc := ⟨.hbm, 874, rfl⟩
abbrev main_v457 : Ref sig .tc := ⟨.hbm, 875, rfl⟩
abbrev main_c_158 : Ref sig .tc := ⟨.hbm, 876, rfl⟩
abbrev main_v458 : Ref sig .tc := ⟨.hbm, 877, rfl⟩
abbrev main_v459 : Ref sig .tc := ⟨.hbm, 878, rfl⟩
abbrev main_c_159 : Ref sig .tc := ⟨.hbm, 879, rfl⟩
abbrev main_v460 : Ref sig .tc := ⟨.hbm, 880, rfl⟩
abbrev main_v461 : Ref sig .tc := ⟨.hbm, 881, rfl⟩
abbrev main_v462 : Ref sig .tc := ⟨.hbm, 882, rfl⟩
abbrev main_v463 : Ref sig .tc := ⟨.hbm, 883, rfl⟩
abbrev main_v464 : Ref sig .tc := ⟨.hbm, 884, rfl⟩
abbrev main_v465 : Ref sig .tc := ⟨.hbm, 885, rfl⟩
abbrev main_c_160 : Ref sig .tc := ⟨.hbm, 886, rfl⟩
abbrev main_v466 : Ref sig .tc := ⟨.hbm, 887, rfl⟩
abbrev main_v467 : Ref sig .tc := ⟨.hbm, 888, rfl⟩
abbrev main_c_161 : Ref sig .tc := ⟨.hbm, 889, rfl⟩
abbrev main_v468 : Ref sig .tc := ⟨.hbm, 890, rfl⟩
abbrev main_v469 : Ref sig .tc := ⟨.hbm, 891, rfl⟩
abbrev main_v470 : Ref sig .tc := ⟨.hbm, 892, rfl⟩
abbrev main_v471 : Ref sig .tc := ⟨.hbm, 893, rfl⟩
abbrev main_v472 : Ref sig .tc := ⟨.hbm, 894, rfl⟩
abbrev main_c_162 : Ref sig .tc := ⟨.hbm, 895, rfl⟩
abbrev main_call16_v0 : Ref sig .tc := ⟨.hbm, 896, rfl⟩
abbrev main_call16_v1 : Ref sig .tc := ⟨.hbm, 897, rfl⟩
abbrev main_call16_v2 : Ref sig .tc := ⟨.hbm, 898, rfl⟩
abbrev main_call16_v3 : Ref sig .tc := ⟨.hbm, 899, rfl⟩
abbrev main_call16_v4 : Ref sig .tc := ⟨.hbm, 900, rfl⟩
abbrev main_call16_v5 : Ref sig .tc := ⟨.hbm, 901, rfl⟩
abbrev main_call16_v6 : Ref sig .tc := ⟨.hbm, 902, rfl⟩
abbrev main_call16_v7 : Ref sig .tc := ⟨.hbm, 903, rfl⟩
abbrev main_call16_v8 : Ref sig .tc := ⟨.hbm, 904, rfl⟩
abbrev main_call16_c : Ref sig .tc := ⟨.hbm, 905, rfl⟩
abbrev main_call16_v9 : Ref sig .tc := ⟨.hbm, 906, rfl⟩
abbrev main_call16_v10 : Ref sig .tc := ⟨.hbm, 907, rfl⟩
abbrev main_call16_v11 : Ref sig .tc := ⟨.hbm, 908, rfl⟩
abbrev main_call16_c_0 : Ref sig .tc := ⟨.hbm, 909, rfl⟩
abbrev main_call16_v12 : Ref sig .tc := ⟨.hbm, 910, rfl⟩
abbrev main_call16_v13 : Ref sig .tc := ⟨.hbm, 911, rfl⟩
abbrev main_v473 : Ref sig .tc := ⟨.hbm, 912, rfl⟩
abbrev main_c_163 : Ref sig .tc := ⟨.hbm, 913, rfl⟩
abbrev main_v474 : Ref sig .tc := ⟨.hbm, 914, rfl⟩
abbrev main_v475 : Ref sig .tc := ⟨.hbm, 915, rfl⟩
abbrev main_c_164 : Ref sig .tc := ⟨.hbm, 916, rfl⟩
abbrev main_v476 : Ref sig .tc := ⟨.hbm, 917, rfl⟩
abbrev main_v477 : Ref sig .tc := ⟨.hbm, 918, rfl⟩
abbrev main_c_165 : Ref sig .tc := ⟨.hbm, 919, rfl⟩
abbrev main_v478 : Ref sig .tc := ⟨.hbm, 920, rfl⟩
abbrev main_v479 : Ref sig .tc := ⟨.hbm, 921, rfl⟩
abbrev main_v480 : Ref sig .tc := ⟨.hbm, 922, rfl⟩
abbrev main_v481 : Ref sig .tc := ⟨.hbm, 923, rfl⟩
abbrev main_v482 : Ref sig .tc := ⟨.hbm, 924, rfl⟩
abbrev main_c_166 : Ref sig .tc := ⟨.hbm, 925, rfl⟩
abbrev main_v483 : Ref sig .tc := ⟨.hbm, 926, rfl⟩
abbrev main_v484 : Ref sig .tc := ⟨.hbm, 927, rfl⟩
abbrev main_c_167 : Ref sig .tc := ⟨.hbm, 928, rfl⟩
abbrev main_v485 : Ref sig .tc := ⟨.hbm, 929, rfl⟩
abbrev main_v486 : Ref sig .tc := ⟨.hbm, 930, rfl⟩
abbrev main_c_168 : Ref sig .tc := ⟨.hbm, 931, rfl⟩
abbrev main_v487 : Ref sig .tc := ⟨.hbm, 932, rfl⟩
abbrev main_v488 : Ref sig .tc := ⟨.hbm, 933, rfl⟩
abbrev main_c_169 : Ref sig .tc := ⟨.hbm, 934, rfl⟩
abbrev main_v489 : Ref sig .tc := ⟨.hbm, 935, rfl⟩
abbrev main_v490 : Ref sig .tc := ⟨.hbm, 936, rfl⟩
abbrev main_v491 : Ref sig .tc := ⟨.hbm, 937, rfl⟩
abbrev main_v492 : Ref sig .tc := ⟨.hbm, 938, rfl⟩
abbrev main_v493 : Ref sig .tc := ⟨.hbm, 939, rfl⟩
abbrev main_v494 : Ref sig .tc := ⟨.hbm, 940, rfl⟩
abbrev main_c_170 : Ref sig .tc := ⟨.hbm, 941, rfl⟩
abbrev main_v495 : Ref sig .tc := ⟨.hbm, 942, rfl⟩
abbrev main_v496 : Ref sig .tc := ⟨.hbm, 943, rfl⟩
abbrev main_c_171 : Ref sig .tc := ⟨.hbm, 944, rfl⟩
abbrev main_v497 : Ref sig .tc := ⟨.hbm, 945, rfl⟩
abbrev main_v498 : Ref sig .tc := ⟨.hbm, 946, rfl⟩
abbrev main_v499 : Ref sig .tc := ⟨.hbm, 947, rfl⟩
abbrev main_v500 : Ref sig .tc := ⟨.hbm, 948, rfl⟩
abbrev main_v501 : Ref sig .tc := ⟨.hbm, 949, rfl⟩
abbrev main_c_172 : Ref sig .tc := ⟨.hbm, 950, rfl⟩
abbrev main_call17_v0 : Ref sig .tc := ⟨.hbm, 951, rfl⟩
abbrev main_call17_v1 : Ref sig .tc := ⟨.hbm, 952, rfl⟩
abbrev main_call17_v2 : Ref sig .tc := ⟨.hbm, 953, rfl⟩
abbrev main_call17_v3 : Ref sig .tc := ⟨.hbm, 954, rfl⟩
abbrev main_call17_v4 : Ref sig .tc := ⟨.hbm, 955, rfl⟩
abbrev main_call17_v5 : Ref sig .tc := ⟨.hbm, 956, rfl⟩
abbrev main_call17_v6 : Ref sig .tc := ⟨.hbm, 957, rfl⟩
abbrev main_call17_v7 : Ref sig .tc := ⟨.hbm, 958, rfl⟩
abbrev main_call17_v8 : Ref sig .tc := ⟨.hbm, 959, rfl⟩
abbrev main_call17_c : Ref sig .tc := ⟨.hbm, 960, rfl⟩
abbrev main_call17_v9 : Ref sig .tc := ⟨.hbm, 961, rfl⟩
abbrev main_call17_v10 : Ref sig .tc := ⟨.hbm, 962, rfl⟩
abbrev main_call17_v11 : Ref sig .tc := ⟨.hbm, 963, rfl⟩
abbrev main_call17_c_0 : Ref sig .tc := ⟨.hbm, 964, rfl⟩
abbrev main_call17_v12 : Ref sig .tc := ⟨.hbm, 965, rfl⟩
abbrev main_call17_v13 : Ref sig .tc := ⟨.hbm, 966, rfl⟩
abbrev main_v502 : Ref sig .tc := ⟨.hbm, 967, rfl⟩
abbrev main_c_173 : Ref sig .tc := ⟨.hbm, 968, rfl⟩
abbrev main_v503 : Ref sig .tc := ⟨.hbm, 969, rfl⟩
abbrev main_v504 : Ref sig .tc := ⟨.hbm, 970, rfl⟩
abbrev main_c_174 : Ref sig .tc := ⟨.hbm, 971, rfl⟩
abbrev main_v505 : Ref sig .tc := ⟨.hbm, 972, rfl⟩
abbrev main_v506 : Ref sig .tc := ⟨.hbm, 973, rfl⟩
abbrev main_c_175 : Ref sig .tc := ⟨.hbm, 974, rfl⟩
abbrev main_v507 : Ref sig .tc := ⟨.hbm, 975, rfl⟩
abbrev main_v508 : Ref sig .tc := ⟨.hbm, 976, rfl⟩
abbrev main_v509 : Ref sig .tc := ⟨.hbm, 977, rfl⟩
abbrev main_v510 : Ref sig .tc := ⟨.hbm, 978, rfl⟩
abbrev main_v511 : Ref sig .tc := ⟨.hbm, 979, rfl⟩
abbrev main_c_176 : Ref sig .tc := ⟨.hbm, 980, rfl⟩
abbrev main_v512 : Ref sig .tc := ⟨.hbm, 981, rfl⟩
abbrev main_v513 : Ref sig .tc := ⟨.hbm, 982, rfl⟩
abbrev main_c_177 : Ref sig .tc := ⟨.hbm, 983, rfl⟩
abbrev main_v514 : Ref sig .tc := ⟨.hbm, 984, rfl⟩
abbrev main_v515 : Ref sig .tc := ⟨.hbm, 985, rfl⟩
abbrev main_c_178 : Ref sig .tc := ⟨.hbm, 986, rfl⟩
abbrev main_v516 : Ref sig .tc := ⟨.hbm, 987, rfl⟩
abbrev main_v517 : Ref sig .tc := ⟨.hbm, 988, rfl⟩
abbrev main_c_179 : Ref sig .tc := ⟨.hbm, 989, rfl⟩
abbrev main_v518 : Ref sig .tc := ⟨.hbm, 990, rfl⟩
abbrev main_v519 : Ref sig .tc := ⟨.hbm, 991, rfl⟩
abbrev main_v520 : Ref sig .tc := ⟨.hbm, 992, rfl⟩
abbrev main_v521 : Ref sig .tc := ⟨.hbm, 993, rfl⟩
abbrev main_v522 : Ref sig .tc := ⟨.hbm, 994, rfl⟩
abbrev main_v523 : Ref sig .tc := ⟨.hbm, 995, rfl⟩
abbrev main_c_180 : Ref sig .tc := ⟨.hbm, 996, rfl⟩
abbrev main_v524 : Ref sig .tc := ⟨.hbm, 997, rfl⟩
abbrev main_v525 : Ref sig .tc := ⟨.hbm, 998, rfl⟩
abbrev main_c_181 : Ref sig .tc := ⟨.hbm, 999, rfl⟩
abbrev main_v526 : Ref sig .tc := ⟨.hbm, 1000, rfl⟩
abbrev main_v527 : Ref sig .tc := ⟨.hbm, 1001, rfl⟩
abbrev main_v528 : Ref sig .tc := ⟨.hbm, 1002, rfl⟩
abbrev main_v529 : Ref sig .tc := ⟨.hbm, 1003, rfl⟩
abbrev main_v530 : Ref sig .tc := ⟨.hbm, 1004, rfl⟩
abbrev main_c_182 : Ref sig .tc := ⟨.hbm, 1005, rfl⟩
abbrev main_call18_v0 : Ref sig .tc := ⟨.hbm, 1006, rfl⟩
abbrev main_call18_v1 : Ref sig .tc := ⟨.hbm, 1007, rfl⟩
abbrev main_call18_v2 : Ref sig .tc := ⟨.hbm, 1008, rfl⟩
abbrev main_call18_v3 : Ref sig .tc := ⟨.hbm, 1009, rfl⟩
abbrev main_call18_v4 : Ref sig .tc := ⟨.hbm, 1010, rfl⟩
abbrev main_call18_v5 : Ref sig .tc := ⟨.hbm, 1011, rfl⟩
abbrev main_call18_v6 : Ref sig .tc := ⟨.hbm, 1012, rfl⟩
abbrev main_call18_v7 : Ref sig .tc := ⟨.hbm, 1013, rfl⟩
abbrev main_call18_v8 : Ref sig .tc := ⟨.hbm, 1014, rfl⟩
abbrev main_call18_c : Ref sig .tc := ⟨.hbm, 1015, rfl⟩
abbrev main_call18_v9 : Ref sig .tc := ⟨.hbm, 1016, rfl⟩
abbrev main_call18_v10 : Ref sig .tc := ⟨.hbm, 1017, rfl⟩
abbrev main_call18_v11 : Ref sig .tc := ⟨.hbm, 1018, rfl⟩
abbrev main_call18_c_0 : Ref sig .tc := ⟨.hbm, 1019, rfl⟩
abbrev main_call18_v12 : Ref sig .tc := ⟨.hbm, 1020, rfl⟩
abbrev main_call18_v13 : Ref sig .tc := ⟨.hbm, 1021, rfl⟩
abbrev main_v531 : Ref sig .tc := ⟨.hbm, 1022, rfl⟩
abbrev main_c_183 : Ref sig .tc := ⟨.hbm, 1023, rfl⟩
abbrev main_v532 : Ref sig .tc := ⟨.hbm, 1024, rfl⟩
abbrev main_v533 : Ref sig .tc := ⟨.hbm, 1025, rfl⟩
abbrev main_c_184 : Ref sig .tc := ⟨.hbm, 1026, rfl⟩
abbrev main_v534 : Ref sig .tc := ⟨.hbm, 1027, rfl⟩
abbrev main_v535 : Ref sig .tc := ⟨.hbm, 1028, rfl⟩
abbrev main_c_185 : Ref sig .tc := ⟨.hbm, 1029, rfl⟩
abbrev main_v536 : Ref sig .tc := ⟨.hbm, 1030, rfl⟩
abbrev main_v537 : Ref sig .tc := ⟨.hbm, 1031, rfl⟩
abbrev main_v538 : Ref sig .tc := ⟨.hbm, 1032, rfl⟩
abbrev main_v539 : Ref sig .tc := ⟨.hbm, 1033, rfl⟩
abbrev main_v540 : Ref sig .tc := ⟨.hbm, 1034, rfl⟩
abbrev main_c_186 : Ref sig .tc := ⟨.hbm, 1035, rfl⟩
abbrev main_v541 : Ref sig .tc := ⟨.hbm, 1036, rfl⟩
abbrev main_v542 : Ref sig .tc := ⟨.hbm, 1037, rfl⟩
abbrev main_c_187 : Ref sig .tc := ⟨.hbm, 1038, rfl⟩
abbrev main_v543 : Ref sig .tc := ⟨.hbm, 1039, rfl⟩
abbrev main_v544 : Ref sig .tc := ⟨.hbm, 1040, rfl⟩
abbrev main_c_188 : Ref sig .tc := ⟨.hbm, 1041, rfl⟩
abbrev main_v545 : Ref sig .tc := ⟨.hbm, 1042, rfl⟩
abbrev main_v546 : Ref sig .tc := ⟨.hbm, 1043, rfl⟩
abbrev main_c_189 : Ref sig .tc := ⟨.hbm, 1044, rfl⟩
abbrev main_v547 : Ref sig .tc := ⟨.hbm, 1045, rfl⟩
abbrev main_v548 : Ref sig .tc := ⟨.hbm, 1046, rfl⟩
abbrev main_v549 : Ref sig .tc := ⟨.hbm, 1047, rfl⟩
abbrev main_v550 : Ref sig .tc := ⟨.hbm, 1048, rfl⟩
abbrev main_v551 : Ref sig .tc := ⟨.hbm, 1049, rfl⟩
abbrev main_v552 : Ref sig .tc := ⟨.hbm, 1050, rfl⟩
abbrev main_c_190 : Ref sig .tc := ⟨.hbm, 1051, rfl⟩
abbrev main_v553 : Ref sig .tc := ⟨.hbm, 1052, rfl⟩
abbrev main_v554 : Ref sig .tc := ⟨.hbm, 1053, rfl⟩
abbrev main_c_191 : Ref sig .tc := ⟨.hbm, 1054, rfl⟩
abbrev main_v555 : Ref sig .tc := ⟨.hbm, 1055, rfl⟩
abbrev main_v556 : Ref sig .tc := ⟨.hbm, 1056, rfl⟩
abbrev main_v557 : Ref sig .tc := ⟨.hbm, 1057, rfl⟩
abbrev main_v558 : Ref sig .tc := ⟨.hbm, 1058, rfl⟩
abbrev main_v559 : Ref sig .tc := ⟨.hbm, 1059, rfl⟩
abbrev main_c_192 : Ref sig .tc := ⟨.hbm, 1060, rfl⟩
abbrev main_call19_v0 : Ref sig .tc := ⟨.hbm, 1061, rfl⟩
abbrev main_call19_v1 : Ref sig .tc := ⟨.hbm, 1062, rfl⟩
abbrev main_call19_v2 : Ref sig .tc := ⟨.hbm, 1063, rfl⟩
abbrev main_call19_v3 : Ref sig .tc := ⟨.hbm, 1064, rfl⟩
abbrev main_call19_v4 : Ref sig .tc := ⟨.hbm, 1065, rfl⟩
abbrev main_call19_v5 : Ref sig .tc := ⟨.hbm, 1066, rfl⟩
abbrev main_call19_v6 : Ref sig .tc := ⟨.hbm, 1067, rfl⟩
abbrev main_call19_v7 : Ref sig .tc := ⟨.hbm, 1068, rfl⟩
abbrev main_call19_v8 : Ref sig .tc := ⟨.hbm, 1069, rfl⟩
abbrev main_call19_c : Ref sig .tc := ⟨.hbm, 1070, rfl⟩
abbrev main_call19_v9 : Ref sig .tc := ⟨.hbm, 1071, rfl⟩
abbrev main_call19_v10 : Ref sig .tc := ⟨.hbm, 1072, rfl⟩
abbrev main_call19_v11 : Ref sig .tc := ⟨.hbm, 1073, rfl⟩
abbrev main_call19_c_0 : Ref sig .tc := ⟨.hbm, 1074, rfl⟩
abbrev main_call19_v12 : Ref sig .tc := ⟨.hbm, 1075, rfl⟩
abbrev main_call19_v13 : Ref sig .tc := ⟨.hbm, 1076, rfl⟩
abbrev main_v560 : Ref sig .tc := ⟨.hbm, 1077, rfl⟩
abbrev main_c_193 : Ref sig .tc := ⟨.hbm, 1078, rfl⟩
abbrev main_v561 : Ref sig .tc := ⟨.hbm, 1079, rfl⟩
abbrev main_v562 : Ref sig .tc := ⟨.hbm, 1080, rfl⟩
abbrev main_c_194 : Ref sig .tc := ⟨.hbm, 1081, rfl⟩
abbrev main_v563 : Ref sig .tc := ⟨.hbm, 1082, rfl⟩
abbrev main_v564 : Ref sig .tc := ⟨.hbm, 1083, rfl⟩
abbrev main_c_195 : Ref sig .tc := ⟨.hbm, 1084, rfl⟩
abbrev main_v565 : Ref sig .tc := ⟨.hbm, 1085, rfl⟩
abbrev main_v566 : Ref sig .tc := ⟨.hbm, 1086, rfl⟩
abbrev main_v567 : Ref sig .tc := ⟨.hbm, 1087, rfl⟩
abbrev main_v568 : Ref sig .tc := ⟨.hbm, 1088, rfl⟩
abbrev main_v569 : Ref sig .tc := ⟨.hbm, 1089, rfl⟩
abbrev main_c_196 : Ref sig .tc := ⟨.hbm, 1090, rfl⟩
abbrev main_v570 : Ref sig .tc := ⟨.hbm, 1091, rfl⟩
abbrev main_v571 : Ref sig .tc := ⟨.hbm, 1092, rfl⟩
abbrev main_c_197 : Ref sig .tc := ⟨.hbm, 1093, rfl⟩
abbrev main_v572 : Ref sig .tc := ⟨.hbm, 1094, rfl⟩
abbrev main_v573 : Ref sig .tc := ⟨.hbm, 1095, rfl⟩
abbrev main_c_198 : Ref sig .tc := ⟨.hbm, 1096, rfl⟩
abbrev main_v574 : Ref sig .tc := ⟨.hbm, 1097, rfl⟩
abbrev main_v575 : Ref sig .tc := ⟨.hbm, 1098, rfl⟩
abbrev main_c_199 : Ref sig .tc := ⟨.hbm, 1099, rfl⟩
abbrev main_v576 : Ref sig .tc := ⟨.hbm, 1100, rfl⟩
abbrev main_v577 : Ref sig .tc := ⟨.hbm, 1101, rfl⟩
abbrev main_v578 : Ref sig .tc := ⟨.hbm, 1102, rfl⟩
abbrev main_v579 : Ref sig .tc := ⟨.hbm, 1103, rfl⟩
abbrev main_v580 : Ref sig .tc := ⟨.hbm, 1104, rfl⟩
abbrev main_v581 : Ref sig .tc := ⟨.hbm, 1105, rfl⟩
abbrev main_c_200 : Ref sig .tc := ⟨.hbm, 1106, rfl⟩
abbrev main_v582 : Ref sig .tc := ⟨.hbm, 1107, rfl⟩
abbrev main_v583 : Ref sig .tc := ⟨.hbm, 1108, rfl⟩
abbrev main_c_201 : Ref sig .tc := ⟨.hbm, 1109, rfl⟩
abbrev main_v584 : Ref sig .tc := ⟨.hbm, 1110, rfl⟩
abbrev main_v585 : Ref sig .tc := ⟨.hbm, 1111, rfl⟩
abbrev main_v586 : Ref sig .tc := ⟨.hbm, 1112, rfl⟩
abbrev main_v587 : Ref sig .tc := ⟨.hbm, 1113, rfl⟩
abbrev main_v588 : Ref sig .tc := ⟨.hbm, 1114, rfl⟩
abbrev main_c_202 : Ref sig .tc := ⟨.hbm, 1115, rfl⟩
abbrev main_call20_v0 : Ref sig .tc := ⟨.hbm, 1116, rfl⟩
abbrev main_call20_v1 : Ref sig .tc := ⟨.hbm, 1117, rfl⟩
abbrev main_call20_v2 : Ref sig .tc := ⟨.hbm, 1118, rfl⟩
abbrev main_call20_v3 : Ref sig .tc := ⟨.hbm, 1119, rfl⟩
abbrev main_call20_v4 : Ref sig .tc := ⟨.hbm, 1120, rfl⟩
abbrev main_call20_v5 : Ref sig .tc := ⟨.hbm, 1121, rfl⟩
abbrev main_call20_v6 : Ref sig .tc := ⟨.hbm, 1122, rfl⟩
abbrev main_call20_v7 : Ref sig .tc := ⟨.hbm, 1123, rfl⟩
abbrev main_call20_v8 : Ref sig .tc := ⟨.hbm, 1124, rfl⟩
abbrev main_call20_c : Ref sig .tc := ⟨.hbm, 1125, rfl⟩
abbrev main_call20_v9 : Ref sig .tc := ⟨.hbm, 1126, rfl⟩
abbrev main_call20_v10 : Ref sig .tc := ⟨.hbm, 1127, rfl⟩
abbrev main_call20_v11 : Ref sig .tc := ⟨.hbm, 1128, rfl⟩
abbrev main_call20_c_0 : Ref sig .tc := ⟨.hbm, 1129, rfl⟩
abbrev main_call20_v12 : Ref sig .tc := ⟨.hbm, 1130, rfl⟩
abbrev main_call20_v13 : Ref sig .tc := ⟨.hbm, 1131, rfl⟩
abbrev main_v589 : Ref sig .tc := ⟨.hbm, 1132, rfl⟩
abbrev main_c_203 : Ref sig .tc := ⟨.hbm, 1133, rfl⟩
abbrev main_v590 : Ref sig .tc := ⟨.hbm, 1134, rfl⟩
abbrev main_v591 : Ref sig .tc := ⟨.hbm, 1135, rfl⟩
abbrev main_c_204 : Ref sig .tc := ⟨.hbm, 1136, rfl⟩
abbrev main_v592 : Ref sig .tc := ⟨.hbm, 1137, rfl⟩
abbrev main_v593 : Ref sig .tc := ⟨.hbm, 1138, rfl⟩
abbrev main_c_205 : Ref sig .tc := ⟨.hbm, 1139, rfl⟩
abbrev main_v594 : Ref sig .tc := ⟨.hbm, 1140, rfl⟩
abbrev main_v595 : Ref sig .tc := ⟨.hbm, 1141, rfl⟩
abbrev main_v596 : Ref sig .tc := ⟨.hbm, 1142, rfl⟩
abbrev main_v597 : Ref sig .tc := ⟨.hbm, 1143, rfl⟩
abbrev main_v598 : Ref sig .tc := ⟨.hbm, 1144, rfl⟩
abbrev main_c_206 : Ref sig .tc := ⟨.hbm, 1145, rfl⟩
abbrev main_v599 : Ref sig .tc := ⟨.hbm, 1146, rfl⟩
abbrev main_v600 : Ref sig .tc := ⟨.hbm, 1147, rfl⟩
abbrev main_c_207 : Ref sig .tc := ⟨.hbm, 1148, rfl⟩
abbrev main_v601 : Ref sig .tc := ⟨.hbm, 1149, rfl⟩
abbrev main_v602 : Ref sig .tc := ⟨.hbm, 1150, rfl⟩
abbrev main_c_208 : Ref sig .tc := ⟨.hbm, 1151, rfl⟩
abbrev main_v603 : Ref sig .tc := ⟨.hbm, 1152, rfl⟩
abbrev main_v604 : Ref sig .tc := ⟨.hbm, 1153, rfl⟩
abbrev main_c_209 : Ref sig .tc := ⟨.hbm, 1154, rfl⟩
abbrev main_v605 : Ref sig .tc := ⟨.hbm, 1155, rfl⟩
abbrev main_v606 : Ref sig .tc := ⟨.hbm, 1156, rfl⟩
abbrev main_v607 : Ref sig .tc := ⟨.hbm, 1157, rfl⟩
abbrev main_v608 : Ref sig .tc := ⟨.hbm, 1158, rfl⟩
abbrev main_v609 : Ref sig .tc := ⟨.hbm, 1159, rfl⟩
abbrev main_v610 : Ref sig .tc := ⟨.hbm, 1160, rfl⟩
abbrev main_c_210 : Ref sig .tc := ⟨.hbm, 1161, rfl⟩
abbrev main_v611 : Ref sig .tc := ⟨.hbm, 1162, rfl⟩
abbrev main_v612 : Ref sig .tc := ⟨.hbm, 1163, rfl⟩
abbrev main_c_211 : Ref sig .tc := ⟨.hbm, 1164, rfl⟩
abbrev main_v613 : Ref sig .tc := ⟨.hbm, 1165, rfl⟩
abbrev main_v614 : Ref sig .tc := ⟨.hbm, 1166, rfl⟩
abbrev main_v615 : Ref sig .tc := ⟨.hbm, 1167, rfl⟩
abbrev main_v616 : Ref sig .tc := ⟨.hbm, 1168, rfl⟩
abbrev main_v617 : Ref sig .tc := ⟨.hbm, 1169, rfl⟩
abbrev main_c_212 : Ref sig .tc := ⟨.hbm, 1170, rfl⟩
abbrev main_call21_v0 : Ref sig .tc := ⟨.hbm, 1171, rfl⟩
abbrev main_call21_v1 : Ref sig .tc := ⟨.hbm, 1172, rfl⟩
abbrev main_call21_v2 : Ref sig .tc := ⟨.hbm, 1173, rfl⟩
abbrev main_call21_v3 : Ref sig .tc := ⟨.hbm, 1174, rfl⟩
abbrev main_call21_v4 : Ref sig .tc := ⟨.hbm, 1175, rfl⟩
abbrev main_call21_v5 : Ref sig .tc := ⟨.hbm, 1176, rfl⟩
abbrev main_call21_v6 : Ref sig .tc := ⟨.hbm, 1177, rfl⟩
abbrev main_call21_v7 : Ref sig .tc := ⟨.hbm, 1178, rfl⟩
abbrev main_call21_v8 : Ref sig .tc := ⟨.hbm, 1179, rfl⟩
abbrev main_call21_c : Ref sig .tc := ⟨.hbm, 1180, rfl⟩
abbrev main_call21_v9 : Ref sig .tc := ⟨.hbm, 1181, rfl⟩
abbrev main_call21_v10 : Ref sig .tc := ⟨.hbm, 1182, rfl⟩
abbrev main_call21_v11 : Ref sig .tc := ⟨.hbm, 1183, rfl⟩
abbrev main_call21_c_0 : Ref sig .tc := ⟨.hbm, 1184, rfl⟩
abbrev main_call21_v12 : Ref sig .tc := ⟨.hbm, 1185, rfl⟩
abbrev main_call21_v13 : Ref sig .tc := ⟨.hbm, 1186, rfl⟩
abbrev main_v618 : Ref sig .tc := ⟨.hbm, 1187, rfl⟩
abbrev main_c_213 : Ref sig .tc := ⟨.hbm, 1188, rfl⟩
abbrev main_v619 : Ref sig .tc := ⟨.hbm, 1189, rfl⟩
abbrev main_v620 : Ref sig .tc := ⟨.hbm, 1190, rfl⟩
abbrev main_c_214 : Ref sig .tc := ⟨.hbm, 1191, rfl⟩
abbrev main_v621 : Ref sig .tc := ⟨.hbm, 1192, rfl⟩
abbrev main_v622 : Ref sig .tc := ⟨.hbm, 1193, rfl⟩
abbrev main_c_215 : Ref sig .tc := ⟨.hbm, 1194, rfl⟩
abbrev main_v623 : Ref sig .tc := ⟨.hbm, 1195, rfl⟩
abbrev main_v624 : Ref sig .tc := ⟨.hbm, 1196, rfl⟩
abbrev main_v625 : Ref sig .tc := ⟨.hbm, 1197, rfl⟩
abbrev main_v626 : Ref sig .tc := ⟨.hbm, 1198, rfl⟩
abbrev main_v627 : Ref sig .tc := ⟨.hbm, 1199, rfl⟩
abbrev main_c_216 : Ref sig .tc := ⟨.hbm, 1200, rfl⟩
abbrev main_v628 : Ref sig .tc := ⟨.hbm, 1201, rfl⟩
abbrev main_v629 : Ref sig .tc := ⟨.hbm, 1202, rfl⟩
abbrev main_c_217 : Ref sig .tc := ⟨.hbm, 1203, rfl⟩
abbrev main_v630 : Ref sig .tc := ⟨.hbm, 1204, rfl⟩
abbrev main_v631 : Ref sig .tc := ⟨.hbm, 1205, rfl⟩
abbrev main_c_218 : Ref sig .tc := ⟨.hbm, 1206, rfl⟩
abbrev main_v632 : Ref sig .tc := ⟨.hbm, 1207, rfl⟩
abbrev main_v633 : Ref sig .tc := ⟨.hbm, 1208, rfl⟩
abbrev main_c_219 : Ref sig .tc := ⟨.hbm, 1209, rfl⟩
abbrev main_v634 : Ref sig .tc := ⟨.hbm, 1210, rfl⟩
abbrev main_v635 : Ref sig .tc := ⟨.hbm, 1211, rfl⟩
abbrev main_v636 : Ref sig .tc := ⟨.hbm, 1212, rfl⟩
abbrev main_v637 : Ref sig .tc := ⟨.hbm, 1213, rfl⟩
abbrev main_v638 : Ref sig .tc := ⟨.hbm, 1214, rfl⟩
abbrev main_v639 : Ref sig .tc := ⟨.hbm, 1215, rfl⟩
abbrev main_c_220 : Ref sig .tc := ⟨.hbm, 1216, rfl⟩
abbrev main_v640 : Ref sig .tc := ⟨.hbm, 1217, rfl⟩
abbrev main_v641 : Ref sig .tc := ⟨.hbm, 1218, rfl⟩
abbrev main_c_221 : Ref sig .tc := ⟨.hbm, 1219, rfl⟩
abbrev main_v642 : Ref sig .tc := ⟨.hbm, 1220, rfl⟩
abbrev main_v643 : Ref sig .tc := ⟨.hbm, 1221, rfl⟩
abbrev main_v644 : Ref sig .tc := ⟨.hbm, 1222, rfl⟩
abbrev main_v645 : Ref sig .tc := ⟨.hbm, 1223, rfl⟩
abbrev main_v646 : Ref sig .tc := ⟨.hbm, 1224, rfl⟩
abbrev main_c_222 : Ref sig .tc := ⟨.hbm, 1225, rfl⟩
abbrev main_call22_v0 : Ref sig .tc := ⟨.hbm, 1226, rfl⟩
abbrev main_call22_v1 : Ref sig .tc := ⟨.hbm, 1227, rfl⟩
abbrev main_call22_v2 : Ref sig .tc := ⟨.hbm, 1228, rfl⟩
abbrev main_call22_v3 : Ref sig .tc := ⟨.hbm, 1229, rfl⟩
abbrev main_call22_v4 : Ref sig .tc := ⟨.hbm, 1230, rfl⟩
abbrev main_call22_v5 : Ref sig .tc := ⟨.hbm, 1231, rfl⟩
abbrev main_call22_v6 : Ref sig .tc := ⟨.hbm, 1232, rfl⟩
abbrev main_call22_v7 : Ref sig .tc := ⟨.hbm, 1233, rfl⟩
abbrev main_call22_v8 : Ref sig .tc := ⟨.hbm, 1234, rfl⟩
abbrev main_call22_c : Ref sig .tc := ⟨.hbm, 1235, rfl⟩
abbrev main_call22_v9 : Ref sig .tc := ⟨.hbm, 1236, rfl⟩
abbrev main_call22_v10 : Ref sig .tc := ⟨.hbm, 1237, rfl⟩
abbrev main_call22_v11 : Ref sig .tc := ⟨.hbm, 1238, rfl⟩
abbrev main_call22_c_0 : Ref sig .tc := ⟨.hbm, 1239, rfl⟩
abbrev main_call22_v12 : Ref sig .tc := ⟨.hbm, 1240, rfl⟩
abbrev main_call22_v13 : Ref sig .tc := ⟨.hbm, 1241, rfl⟩
abbrev main_v647 : Ref sig .tc := ⟨.hbm, 1242, rfl⟩
abbrev main_c_223 : Ref sig .tc := ⟨.hbm, 1243, rfl⟩
abbrev main_v648 : Ref sig .tc := ⟨.hbm, 1244, rfl⟩
abbrev main_v649 : Ref sig .tc := ⟨.hbm, 1245, rfl⟩
abbrev main_c_224 : Ref sig .tc := ⟨.hbm, 1246, rfl⟩
abbrev main_v650 : Ref sig .tc := ⟨.hbm, 1247, rfl⟩
abbrev main_v651 : Ref sig .tc := ⟨.hbm, 1248, rfl⟩
abbrev main_c_225 : Ref sig .tc := ⟨.hbm, 1249, rfl⟩
abbrev main_v652 : Ref sig .tc := ⟨.hbm, 1250, rfl⟩
abbrev main_v653 : Ref sig .tc := ⟨.hbm, 1251, rfl⟩
abbrev main_v654 : Ref sig .tc := ⟨.hbm, 1252, rfl⟩
abbrev main_v655 : Ref sig .tc := ⟨.hbm, 1253, rfl⟩
abbrev main_v656 : Ref sig .tc := ⟨.hbm, 1254, rfl⟩
abbrev main_c_226 : Ref sig .tc := ⟨.hbm, 1255, rfl⟩
abbrev main_v657 : Ref sig .tc := ⟨.hbm, 1256, rfl⟩
abbrev main_v658 : Ref sig .tc := ⟨.hbm, 1257, rfl⟩
abbrev main_c_227 : Ref sig .tc := ⟨.hbm, 1258, rfl⟩
abbrev main_v659 : Ref sig .tc := ⟨.hbm, 1259, rfl⟩
abbrev main_v660 : Ref sig .tc := ⟨.hbm, 1260, rfl⟩
abbrev main_c_228 : Ref sig .tc := ⟨.hbm, 1261, rfl⟩
abbrev main_v661 : Ref sig .tc := ⟨.hbm, 1262, rfl⟩
abbrev main_v662 : Ref sig .tc := ⟨.hbm, 1263, rfl⟩
abbrev main_c_229 : Ref sig .tc := ⟨.hbm, 1264, rfl⟩
abbrev main_v663 : Ref sig .tc := ⟨.hbm, 1265, rfl⟩
abbrev main_v664 : Ref sig .tc := ⟨.hbm, 1266, rfl⟩
abbrev main_v665 : Ref sig .tc := ⟨.hbm, 1267, rfl⟩
abbrev main_v666 : Ref sig .tc := ⟨.hbm, 1268, rfl⟩
abbrev main_v667 : Ref sig .tc := ⟨.hbm, 1269, rfl⟩
abbrev main_v668 : Ref sig .tc := ⟨.hbm, 1270, rfl⟩
abbrev main_c_230 : Ref sig .tc := ⟨.hbm, 1271, rfl⟩
abbrev main_v669 : Ref sig .tc := ⟨.hbm, 1272, rfl⟩
abbrev main_v670 : Ref sig .tc := ⟨.hbm, 1273, rfl⟩
abbrev main_c_231 : Ref sig .tc := ⟨.hbm, 1274, rfl⟩
abbrev main_v671 : Ref sig .tc := ⟨.hbm, 1275, rfl⟩
abbrev main_v672 : Ref sig .tc := ⟨.hbm, 1276, rfl⟩
abbrev main_v673 : Ref sig .tc := ⟨.hbm, 1277, rfl⟩
abbrev main_v674 : Ref sig .tc := ⟨.hbm, 1278, rfl⟩
abbrev main_v675 : Ref sig .tc := ⟨.hbm, 1279, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  scatter_S16777216_S1048576x1_S1048576_n_0_0_1_wf : ScatterDims.WF S16777216 S1048576x1 S1048576 [] [0] [0] 1
  gather_S16777216_S1048576x1_S1048576_n_0_n_n_0_1_1_wf : GatherDims.WF S16777216 S1048576x1 S1048576 [] [0] [] [0] [] 1 ![1]

variable [Facts₀]

def scatter_S16777216_S1048576x1_S1048576_n_0_0_1 : ScatterDims S16777216 S1048576x1 S1048576 where
  updateWindowDims := []
  insertedWindowDims := [0]
  scatterDimsToOperandDims := [0]
  indexVectorDim := 1
  wf := scatter_S16777216_S1048576x1_S1048576_n_0_0_1_wf
def gather_S16777216_S1048576x1_S1048576_n_0_n_n_0_1_1 : GatherDims S16777216 S1048576x1 S1048576 where
  offsetDims := []
  collapsedSliceDims := [0]
  operandBatchingDims := []
  startIndicesBatchingDims := []
  startIndexMap := [0]
  indexVectorDim := 1
  sliceSizes := ![1]
  wf := gather_S16777216_S1048576x1_S1048576_n_0_n_n_0_1_1_wf

class Facts : Prop extends Facts₀ where

variable [Facts]
-- ==== Proof.K.Reg0.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S2048x128 := Rect.unit (s := S2048x128) ![0, 0] S2048x128.size inb_S2048x128_S2048x128_0_0
abbrev r0_b : Rect S2048x64 := Rect.unit (s := S2048x64) ![0, 0] S2048x64.size inb_S2048x64_S2048x64_0_0

def out0_3 (x0 : Vec F S2048x128 .f32) (x1 : Vec F S2048x128 .f32) (x2 : Vec F S2048x64 .f32) : Vec F S2048x64 .f32 :=
  View.canon [⟨r0_b, k0_pay4 (View.ld x0 r0_a) (View.ld x1 r0_a) (View.ld x2 r0_b)⟩]

def out0_4 (x0 : Vec F S2048x128 .f32) (x1 : Vec F S2048x128 .f32) (x2 : Vec F S2048x64 .f32) : Vec F S2048x64 .f32 :=
  View.canon [⟨r0_b, k0_pay1 (k0_pay3 (View.ld x1 r0_a))⟩]

theorem cover0_b (p0 : Vec F S2048x64 .f32) (y : S2048x64.Idx) :
    ∃ pc ∈ ([⟨r0_b, p0⟩] : List (View.Piece (Elt F) S2048x64 .f32)), y ∈ pc.1.set :=
  View.cover_of_tiled [⟨r0_b, p0⟩] S2048x64.size (by rfl) y

set_option maxHeartbeats 1000000 in

theorem sound_kernel0 (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole)
    (x0 : Vec F S2048x128 .f32) (x1 : Vec F S2048x128 .f32) (x2 : Vec F S2048x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__level_step_kernel i arg1 harg1 arg2 harg2 arg3 harg3 arg4 harg4 arg5 harg5) K := by
  simp only [cc0__level_step_kernel_eq_skeleton]; unfold cc0__level_step_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_b _)
  iexists _; isplitr
  swap; · iexact H4
  ipureintro
  exact View.read_writes_eq_canon _ _ _ (cover0_b _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S2048x64 := Rect.unit (s := S2048x64) ![0, 0] S2048x64.size inb_S2048x64_S2048x64_0_0
abbrev r1_b : Rect S2048x32 := Rect.unit (s := S2048x32) ![0, 0] S2048x32.size inb_S2048x32_S2048x32_0_0

def out1_3 (x0 : Vec F S2048x64 .f32) (x1 : Vec F S2048x64 .f32) (x2 : Vec F S2048x32 .f32) : Vec F S2048x32 .f32 :=
  View.canon [⟨r1_b, k1_pay4 (View.ld x0 r1_a) (View.ld x1 r1_a) (View.ld x2 r1_b)⟩]

def out1_4 (x0 : Vec F S2048x64 .f32) (x1 : Vec F S2048x64 .f32) (x2 : Vec F S2048x32 .f32) : Vec F S2048x32 .f32 :=
  View.canon [⟨r1_b, k1_pay1 (k1_pay3 (View.ld x1 r1_a))⟩]

theorem cover1_b (p0 : Vec F S2048x32 .f32) (y : S2048x32.Idx) :
    ∃ pc ∈ ([⟨r1_b, p0⟩] : List (View.Piece (Elt F) S2048x32 .f32)), y ∈ pc.1.set :=
  View.cover_of_tiled [⟨r1_b, p0⟩] S2048x32.size (by rfl) y

set_option maxHeartbeats 1000000 in

theorem sound_kernel1 (c : Dev nD) (E : Set ℕ) (i : grid1.Coords)
    (arg1 : Memref sig .tc .vmem S2048x64 .f32) (harg1 : arg1.IsWhole) (arg2 : Memref sig .tc .vmem S2048x64 .f32) (harg2 : arg2.IsWhole)
    (arg3 : Memref sig .tc .vmem S2048x32 .f32) (harg3 : arg3.IsWhole) (arg4 : Memref sig .tc .vmem S2048x32 .f32) (harg4 : arg4.IsWhole)
    (arg5 : Memref sig .tc .vmem S2048x32 .f32) (harg5 : arg5.IsWhole)
    (x0 : Vec F S2048x64 .f32) (x1 : Vec F S2048x64 .f32) (x2 : Vec F S2048x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__level_step_kernel i arg1 harg1 arg2 harg2 arg3 harg3 arg4 harg4 arg5 harg5) K := by
  simp only [cc1__level_step_kernel_eq_skeleton]; unfold cc1__level_step_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_b _)
  iexists _; isplitr
  swap; · iexact H4
  ipureintro
  exact View.read_writes_eq_canon _ _ _ (cover1_b _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S2048x32 := Rect.unit (s := S2048x32) ![0, 0] S2048x32.size inb_S2048x32_S2048x32_0_0
abbrev r2_b : Rect S2048x16 := Rect.unit (s := S2048x16) ![0, 0] S2048x16.size inb_S2048x16_S2048x16_0_0

def out2_3 (x0 : Vec F S2048x32 .f32) (x1 : Vec F S2048x32 .f32) (x2 : Vec F S2048x16 .f32) : Vec F S2048x16 .f32 :=
  View.canon [⟨r2_b, k2_pay4 (View.ld x0 r2_a) (View.ld x1 r2_a) (View.ld x2 r2_b)⟩]

def out2_4 (x0 : Vec F S2048x32 .f32) (x1 : Vec F S2048x32 .f32) (x2 : Vec F S2048x16 .f32) : Vec F S2048x16 .f32 :=
  View.canon [⟨r2_b, k2_pay1 (k2_pay3 (View.ld x1 r2_a))⟩]

theorem cover2_b (p0 : Vec F S2048x16 .f32) (y : S2048x16.Idx) :
    ∃ pc ∈ ([⟨r2_b, p0⟩] : List (View.Piece (Elt F) S2048x16 .f32)), y ∈ pc.1.set :=
  View.cover_of_tiled [⟨r2_b, p0⟩] S2048x16.size (by rfl) y

set_option maxHeartbeats 1000000 in

theorem sound_kernel2 (c : Dev nD) (E : Set ℕ) (i : grid2.Coords)
    (arg1 : Memref sig .tc .vmem S2048x32 .f32) (harg1 : arg1.IsWhole) (arg2 : Memref sig .tc .vmem S2048x32 .f32) (harg2 : arg2.IsWhole)
    (arg3 : Memref sig .tc .vmem S2048x16 .f32) (harg3 : arg3.IsWhole) (arg4 : Memref sig .tc .vmem S2048x16 .f32) (harg4 : arg4.IsWhole)
    (arg5 : Memref sig .tc .vmem S2048x16 .f32) (harg5 : arg5.IsWhole)
    (x0 : Vec F S2048x32 .f32) (x1 : Vec F S2048x32 .f32) (x2 : Vec F S2048x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__level_step_kernel i arg1 harg1 arg2 harg2 arg3 harg3 arg4 harg4 arg5 harg5) K := by
  simp only [cc2__level_step_kernel_eq_skeleton]; unfold cc2__level_step_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_b _)
  iexists _; isplitr
  swap; · iexact H4
  ipureintro
  exact View.read_writes_eq_canon _ _ _ (cover2_b _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Reg3.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2048x16 := Rect.unit (s := S2048x16) ![0, 0] S2048x16.size inb_S2048x16_S2048x16_0_0
abbrev r3_b : Rect S2048x8 := Rect.unit (s := S2048x8) ![0, 0] S2048x8.size inb_S2048x8_S2048x8_0_0

def out3_3 (x0 : Vec F S2048x16 .f32) (x1 : Vec F S2048x16 .f32) (x2 : Vec F S2048x8 .f32) : Vec F S2048x8 .f32 :=
  View.canon [⟨r3_b, k3_pay4 (View.ld x0 r3_a) (View.ld x1 r3_a) (View.ld x2 r3_b)⟩]

def out3_4 (x0 : Vec F S2048x16 .f32) (x1 : Vec F S2048x16 .f32) (x2 : Vec F S2048x8 .f32) : Vec F S2048x8 .f32 :=
  View.canon [⟨r3_b, k3_pay1 (k3_pay3 (View.ld x1 r3_a))⟩]

theorem cover3_b (p0 : Vec F S2048x8 .f32) (y : S2048x8.Idx) :
    ∃ pc ∈ ([⟨r3_b, p0⟩] : List (View.Piece (Elt F) S2048x8 .f32)), y ∈ pc.1.set :=
  View.cover_of_tiled [⟨r3_b, p0⟩] S2048x8.size (by rfl) y

set_option maxHeartbeats 1000000 in

theorem sound_kernel3 (c : Dev nD) (E : Set ℕ) (i : grid3.Coords)
    (arg1 : Memref sig .tc .vmem S2048x16 .f32) (harg1 : arg1.IsWhole) (arg2 : Memref sig .tc .vmem S2048x16 .f32) (harg2 : arg2.IsWhole)
    (arg3 : Memref sig .tc .vmem S2048x8 .f32) (harg3 : arg3.IsWhole) (arg4 : Memref sig .tc .vmem S2048x8 .f32) (harg4 : arg4.IsWhole)
    (arg5 : Memref sig .tc .vmem S2048x8 .f32) (harg5 : arg5.IsWhole)
    (x0 : Vec F S2048x16 .f32) (x1 : Vec F S2048x16 .f32) (x2 : Vec F S2048x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2) ∗ owns (c : Thread nD τ) arg5 fullShare (out3_4 x0 x1 x2)) -∗ K ⟨⟩))
      ⊢ wp frame (wpE (defs₀ (F := F)) Variants.none c none) E (cc3__level_step_kernel i arg1 harg1 arg2 harg2 arg3 harg3 arg4 harg4 arg5 harg5) K := by
  simp only [cc3__level_step_kernel_eq_skeleton]; unfold cc3__level_step_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_b _)
  iexists _; isplitr
  swap; · iexact H4
  ipureintro
  exact View.read_writes_eq_canon _ _ _ (cover3_b _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Reg4.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S2048x8 := Rect.unit (s := S2048x8) ![0, 0] S2048x8.size inb_S2048x8_S2048x8_0_0
abbrev r4_b : Rect S2048x4 := Rect.unit (s := S2048x4) ![0, 0] S2048x4.size inb_S2048x4_S2048x4_0_0

def out4_3 (x0 : Vec F S2048x8 .f32) (x1 : Vec F S2048x8 .f32) (x2 : Vec F S2048x4 .f32) : Vec F S2048x4 .f32 :=
  View.canon [⟨r4_b, k4_pay4 (View.ld x0 r4_a) (View.ld x1 r4_a) (View.ld x2 r4_b)⟩]

def out4_4 (x0 : Vec F S2048x8 .f32) (x1 : Vec F S2048x8 .f32) (x2 : Vec F S2048x4 .f32) : Vec F S2048x4 .f32 :=
  View.canon [⟨r4_b, k4_pay1 (k4_pay3 (View.ld x1 r4_a))⟩]

theorem cover4_b (p0 : Vec F S2048x4 .f32) (y : S2048x4.Idx) :
    ∃ pc ∈ ([⟨r4_b, p0⟩] : List (View.Piece (Elt F) S2048x4 .f32)), y ∈ pc.1.set :=
  View.cover_of_tiled [⟨r4_b, p0⟩] S2048x4.size (by rfl) y

set_option maxHeartbeats 1000000 in

theorem sound_kernel4 (c : Dev nD) (E : Set ℕ) (i : grid4.Coords)
    (arg1 : Memref sig .tc .vmem S2048x8 .f32) (harg1 : arg1.IsWhole) (arg2 : Memref sig .tc .vmem S2048x8 .f32) (harg2 : arg2.IsWhole)
    (arg3 : Memref sig .tc .vmem S2048x4 .f32) (harg3 : arg3.IsWhole) (arg4 : Memref sig .tc .vmem S2048x4 .f32) (harg4 : arg4.IsWhole)
    (arg5 : Memref sig .tc .vmem S2048x4 .f32) (harg5 : arg5.IsWhole)
    (x0 : Vec F S2048x8 .f32) (x1 : Vec F S2048x8 .f32) (x2 : Vec F S2048x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__level_step_kernel i arg1 harg1 arg2 harg2 arg3 harg3 arg4 harg4 arg5 harg5) K := by
  simp only [cc4__level_step_kernel_eq_skeleton]; unfold cc4__level_step_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_b _)
  iexists _; isplitr
  swap; · iexact H4
  ipureintro
  exact View.read_writes_eq_canon _ _ _ (cover4_b _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.Reg5.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_a : Rect S2048x4 := Rect.unit (s := S2048x4) ![0, 0] S2048x4.size inb_S2048x4_S2048x4_0_0
abbrev r5_b : Rect S2048x2 := Rect.unit (s := S2048x2) ![0, 0] S2048x2.size inb_S2048x2_S2048x2_0_0

def out5_3 (x0 : Vec F S2048x4 .f32) (x1 : Vec F S2048x4 .f32) (x2 : Vec F S2048x2 .f32) : Vec F S2048x2 .f32 :=
  View.canon [⟨r5_b, k5_pay4 (View.ld x0 r5_a) (View.ld x1 r5_a) (View.ld x2 r5_b)⟩]

def out5_4 (x0 : Vec F S2048x4 .f32) (x1 : Vec F S2048x4 .f32) (x2 : Vec F S2048x2 .f32) : Vec F S2048x2 .f32 :=
  View.canon [⟨r5_b, k5_pay1 (k5_pay3 (View.ld x1 r5_a))⟩]

theorem cover5_b (p0 : Vec F S2048x2 .f32) (y : S2048x2.Idx) :
    ∃ pc ∈ ([⟨r5_b, p0⟩] : List (View.Piece (Elt F) S2048x2 .f32)), y ∈ pc.1.set :=
  View.cover_of_tiled [⟨r5_b, p0⟩] S2048x2.size (by rfl) y

set_option maxHeartbeats 1000000 in

theorem sound_kernel5 (c : Dev nD) (E : Set ℕ) (i : grid5.Coords)
    (arg1 : Memref sig .tc .vmem S2048x4 .f32) (harg1 : arg1.IsWhole) (arg2 : Memref sig .tc .vmem S2048x4 .f32) (harg2 : arg2.IsWhole)
    (arg3 : Memref sig .tc .vmem S2048x2 .f32) (harg3 : arg3.IsWhole) (arg4 : Memref sig .tc .vmem S2048x2 .f32) (harg4 : arg4.IsWhole)
    (arg5 : Memref sig .tc .vmem S2048x2 .f32) (harg5 : arg5.IsWhole)
    (x0 : Vec F S2048x4 .f32) (x1 : Vec F S2048x4 .f32) (x2 : Vec F S2048x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2) ∗ owns (c : Thread nD τ) arg5 fullShare (out5_4 x0 x1 x2)) -∗ K ⟨⟩))
      ⊢ wp frame (wpE (defs₀ (F := F)) Variants.none c none) E (cc5__level_step_kernel i arg1 harg1 arg2 harg2 arg3 harg3 arg4 harg4 arg5 harg5) K := by
  simp only [cc5__level_step_kernel_eq_skeleton]; unfold cc5__level_step_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_b _)
  iexists _; isplitr
  swap; · iexact H4
  ipureintro
  exact View.read_writes_eq_canon _ _ _ (cover5_b _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.Reg6.lean ====
import proofs.«417949_j89438398972173_1_alg».proof.Proof.Gen.Kernel.Launch
import proofs.«417949_j89438398972173_1_alg».proof.Proof.Gen.Kernel.Skeleton
import proofs.«417949_j89438398972173_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S2048x2 := Rect.unit (s := S2048x2) ![0, 0] S2048x2.size inb_S2048x2_S2048x2_0_0
abbrev r6_b : Rect S2048x1 := Rect.unit (s := S2048x1) ![0, 0] S2048x1.size inb_S2048x1_S2048x1_0_0

def out6_3 (x0 : Vec F S2048x2 .f32) (x1 : Vec F S2048x2 .f32) (x2 : Vec F S2048x1 .f32) : Vec F S2048x1 .f32 :=
  View.canon [⟨r6_b, k6_pay4 (View.ld x0 r6_a) (View.ld x1 r6_a) (View.ld x2 r6_b)⟩]

def out6_4 (x0 : Vec F S2048x2 .f32) (x1 : Vec F S2048x2 .f32) (x2 : Vec F S2048x1 .f32) : Vec F S2048x1 .f32 :=
  View.canon [⟨r6_b, k6_pay1 (k6_pay3 (View.ld x1 r6_a))⟩]

theorem cover6_b (p0 : Vec F S2048x1 .f32) (y : S2048x1.Idx) :
    ∃ pc ∈ ([⟨r6_b, p0⟩] : List (View.Piece (Elt F) S2048x1 .f32)), y ∈ pc.1.set :=
  View.cover_of_tiled [⟨r6_b, p0⟩] S2048x1.size (by rfl) y

set_option maxHeartbeats 1000000 in

theorem sound_kernel6 (c : Dev nD) (E : Set ℕ) (i : grid6.Coords)
    (arg1 : Memref sig .tc .vmem S2048x2 .f32) (harg1 : arg1.IsWhole) (arg2 : Memref sig .tc .vmem S2048x2 .f32) (harg2 : arg2.IsWhole)
    (arg3 : Memref sig .tc .vmem S2048x1 .f32) (harg3 : arg3.IsWhole) (arg4 : Memref sig .tc .vmem S2048x1 .f32) (harg4 : arg4.IsWhole)
    (arg5 : Memref sig .tc .vmem S2048x1 .f32) (harg5 : arg5.IsWhole)
    (x0 : Vec F S2048x2 .f32) (x1 : Vec F S2048x2 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2) ∗ owns (c : Thread nD τ) arg5 fullShare (out6_4 x0 x1 x2)) -∗ K ⟨⟩))
      ⊢ wp frame (wpE (defs₀ (F := F)) Variants.none c none) E (cc6__level_step_kernel i arg1 harg1 arg2 harg2 arg3 harg3 arg4 harg4 arg5 harg5) K := by
  simp only [cc6__level_step_kernel_eq_skeleton]; unfold cc6__level_step_kernel_skel
  simp only [k6_part1_eq_skeleton]; unfold k6_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_b _)
  iexists _; isplitr
  swap; · iexact H4
  ipureintro
  exact View.read_writes_eq_canon _ _ _ (cover6_b _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.KernelRegions.lean ====
import proofs.«417949_j89438398972173_1_alg».proof.Proof.Gen.Kernel.Launch
import Idealize.ShloMosaic.Lib.Pipeline.Frame
import Idealize.ShloMosaic.Lib.Pipeline.Regions

set_option maxRecDepth 2156

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (Function.update (V1 m c) main_v21_0 (outs 2 main_v21_0 c)) main_v21_1 (outs 2 main_v21_1 c)

abbrev V3 (c : Dev nD) : Valuation τ sig (Elt F) := StableHlo.after hostOps1 (V2 m outs c)

abbrev V4 (c : Dev nD) : Valuation τ sig (Elt F) := Function.update (Function.update (V3 m outs c) main_v25_0 (outs 4 main_v25_0 c)) main_v25_1 (outs 4 main_v25_1 c)

abbrev V5 (c : Dev nD) : Valuation τ sig (Elt F) := StableHlo.after hostOps2 (V4 m outs c)

abbrev V6 (c : Dev nD) : Valuation τ sig (Elt F) := Function.update (Function.update (V5 m outs c) main_v29_0 (outs 6 main_v29_0 c)) main_v29_1 (outs 6 main_v29_1 c)

abbrev V7 (c : Dev nD) : Valuation τ sig (Elt F) := StableHlo.after hostOps3 (V6 m outs c)

abbrev V8 (c : Dev nD) : Valuation τ sig (Elt F) := Function.update (Function.update (V7 m outs c) main_v33_0 (outs 8 main_v33_0 c)) main_v33_1 (outs 8 main_v33_1 c)

abbrev V9 (c : Dev nD) : Valuation τ sig (Elt F) := StableHlo.after hostOps4 (V8 m outs c)

abbrev V10 (c : Dev nD) : Valuation τ sig (Elt F) := Function.update (Function.update (V9 m outs c) main_v37_0 (outs 10 main_v37_0 c)) main_v37_1 (outs 10 main_v37_1 c)

abbrev V11 (c : Dev nD) : Valuation τ sig (Elt F) := StableHlo.after hostOps5 (V10 m outs c)

abbrev V12 (c : Dev nD) : Valuation τ sig (Elt F) := Function.update (Function.update (V11 m outs c) main_v41_0 (outs 12 main_v41_0 c)) main_v41_1 (outs 12 main_v41_1 c)

abbrev V13 (c : Dev nD) : Valuation τ sig (Elt F) := StableHlo.after hostOps6 (V12 m outs c)

abbrev V14 (c : Dev nD) : Valuation τ sig (Elt F) := Function.update (Function.update (V13 m outs c) main_v45_0 (outs 14 main_v45_0 c)) main_v45_1 (outs 14 main_v45_1 c)

abbrev V15 (c : Dev nD) : Valuation τ sig (Elt F) := StableHlo.after hostOps7 (V14 m outs c)

abbrev V16 (c : Dev nD) : Valuation τ sig (Elt F) := StableHlo.after hostOps7_1 (V15 m outs c)

abbrev V17 (c : Dev nD) : Valuation τ sig (Elt F) := StableHlo.after hostOps7_2 (V16 m outs c)

abbrev V18 (c : Dev nD) : Valuation τ sig (Elt F) := StableHlo.after hostOps7_3 (V17 m outs c)

abbrev V19 (c : Dev nD) : Valuation τ sig (Elt F) := StableHlo.after hostOps7_4 (V18 m outs c)

abbrev V20 (c : Dev nD) : Valuation τ sig (Elt F) := StableHlo.after hostOps7_5 (V19 m outs c)

abbrev V21 (c : Dev nD) : Valuation τ sig (Elt F) := StableHlo.after hostOps7_6 (V20 m outs c)

abbrev V22 (c : Dev nD) : Valuation τ sig (Elt F) := StableHlo.after hostOps7_7 (V21 m outs c)

abbrev V23 (c : Dev nD) : Valuation τ sig (Elt F) := StableHlo.after hostOps7_8 (V22 m outs c)

abbrev V24 (c : Dev nD) : Valuation τ sig (Elt F) := StableHlo.after hostOps7_9 (V23 m outs c)

abbrev V25 (c : Dev nD) : Valuation τ sig (Elt F) := StableHlo.after hostOps7_10 (V24 m outs c)

abbrev V26 (c : Dev nD) : Valuation τ sig (Elt F) := StableHlo.after hostOps7_11 (V25 m outs c)

abbrev V27 (c : Dev nD) : Valuation τ sig (Elt F) := StableHlo.after hostOps7_12 (V26 m outs c)

abbrev V28 (c : Dev nD) : Valuation τ sig (Elt F) := StableHlo.after hostOps7_13 (V27 m outs c)

abbrev V29 (c : Dev nD) : Valuation τ sig (Elt F) := StableHlo.after hostOps7_14 (V28 m outs c)

abbrev V30 (c : Dev nD) : Valuation τ sig (Elt F) := StableHlo.after hostOps7_15 (V29 m outs c)

abbrev V31 (c : Dev nD) : Valuation τ sig (Elt F) := StableHlo.after hostOps7_16 (V30 m outs c)

abbrev V32 (c : Dev nD) : Valuation τ sig (Elt F) := StableHlo.after hostOps7_17 (V31 m outs c)

abbrev V33 (c : Dev nD) : Valuation τ sig (Elt F) := StableHlo.after hostOps7_18 (V32 m outs c)

abbrev V34 (c : Dev nD) : Valuation τ sig (Elt F) := StableHlo.after hostOps7_19 (V33 m outs c)

abbrev V35 (c : Dev nD) : Valuation τ sig (Elt F) := StableHlo.after hostOps7_20 (V34 m outs c)

abbrev V36 (c : Dev nD) : Valuation τ sig (Elt F) := StableHlo.after hostOps7_21 (V35 m outs c)

abbrev V37 (c : Dev nD) : Valuation τ sig (Elt F) := StableHlo.after hostOps7_22 (V36 m outs c)

abbrev V38 (c : Dev nD) : Valuation τ sig (Elt F) := StableHlo.after hostOps7_23 (V37 m outs c)

abbrev V39 (c : Dev nD) : Valuation τ sig (Elt F) := StableHlo.after hostOps7_24 (V38 m outs c)

abbrev V40 (c : Dev nD) : Valuation τ sig (Elt F) := StableHlo.after hostOps7_25 (V39 m outs c)

abbrev V41 (c : Dev nD) : Valuation τ sig (Elt F) := StableHlo.after hostOps7_26 (V40 m outs c)

abbrev V42 (c : Dev nD) : Valuation τ sig (Elt F) := StableHlo.after hostOps7_27 (V41 m outs c)

abbrev V43 (c : Dev nD) : Valuation τ sig (Elt F) := StableHlo.after hostOps7_28 (V42 m outs c)

abbrev V44 (c : Dev nD) : Valuation τ sig (Elt F) := StableHlo.after hostOps7_29 (V43 m outs c)

abbrev V45 (c : Dev nD) : Valuation τ sig (Elt F) := StableHlo.after hostOps7_30 (V44 m outs c)

abbrev V46 (c : Dev nD) : Valuation τ sig (Elt F) := StableHlo.after hostOps7_31 (V45 m outs c)

abbrev V47 (c : Dev nD) : Valuation τ sig (Elt F) := StableHlo.after hostOps7_32 (V46 m outs c)

theorem hostOps0_fresh : (hostOps0 : List (HloOp τ sig (Elt F))).Forall fun op => op.fresh = ∅ := by
  simp only [List.Forall]; repeat' constructor

abbrev hostOps0_W : List (Ref sig .tc) := [main_v0, main_c, main_v1, main_v2, main_c_0, main_v3, main_v4, main_v5, main_v6, main_v7, main_cst, main_v8, main_c_1, main_v9, main_v10, main_c_2, main_v11, main_v12, main_v13, main_v14, main_cst_3, main_v15, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_v22, main_v23, main_v24]
theorem hostOps1_writes : (hostOps1 : List (HloOp τ sig (Elt F))).Forall fun op => op.writes ⊆ (hostOps1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_v26, main_v27, main_v28]
theorem hostOps2_writes : (hostOps2 : List (HloOp τ sig (Elt F))).Forall fun op => op.writes ⊆ (hostOps2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_v30, main_v31, main_v32]
theorem hostOps3_writes : (hostOps3 : List (HloOp τ sig (Elt F))).Forall fun op => op.writes ⊆ (hostOps3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_v34, main_v35, main_v36]
theorem hostOps4_writes : (hostOps4 : List (HloOp τ sig (Elt F))).Forall fun op => op.writes ⊆ (hostOps4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_v38, main_v39, main_v40]
theorem hostOps5_writes : (hostOps5 : List (HloOp τ sig (Elt F))).Forall fun op => op.writes ⊆ (hostOps5_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor

abbrev hostOps6_W : List (Ref sig .tc) := [main_v42, main_v43, main_v44]
theorem hostOps6_writes : (hostOps6 : List (HloOp τ sig (Elt F))).Forall fun op => op.writes ⊆ (hostOps6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_v46, main_v47, main_v48, main_v49, main_v50, main_v51, main_v52, main_v53, main_v54, main_v55, main_v56, main_v57, main_v58, main_v59, main_v60, main_v61, main_cst_4, main_v62, main_v63]
theorem hostOps7_writes : (hostOps7 : List (HloOp τ sig (Elt F))).Forall fun op => op.writes ⊆ (hostOps7_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_1_fresh : (hostOps7_1 : List (HloOp τ sig (Elt F))).Forall fun op => op.fresh = ∅ := by
  simp only [List.Forall]; repeat' constructor

abbrev hostOps7_1_W : List (Ref sig .tc) := [main_v64]
theorem hostOps7_1_writes : (hostOps7_1 : List (HloOp τ sig (Elt F))).Forall fun op => op.writes ⊆ (hostOps7_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_2_fresh : (hostOps7_2 : List (HloOp τ sig (Elt F))).Forall fun op => op.fresh = ∅ := by
  simp only [List.Forall]; repeat' constructor

abbrev hostOps7_2_W : List (Ref sig .tc) := [main_v65, main_v66, main_v67, main_v68, main_v69, main_v70, main_v71, main_v72, main_v73, main_v74, main_v75, main_v76, main_v77, main_cst_5, main_v78, main_v79]
theorem hostOps7_2_writes : (hostOps7_2 : List (HloOp τ sig (Elt F))).Forall fun op => op.writes ⊆ (hostOps7_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_3_fresh : (hostOps7_3 : List (HloOp τ sig (Elt F))).Forall fun op => op.fresh = ∅ := by
  simp only [List.Forall]; repeat' constructor

abbrev hostOps7_3_W : List (Ref sig .tc) := [main_v80]
theorem hostOps7_3_writes : (hostOps7_3 : List (HloOp τ sig (Elt F))).Forall fun op => op.writes ⊆ (hostOps7_3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_4_fresh : (hostOps7_4 : List (HloOp τ sig (Elt F))).Forall fun op => op.fresh = ∅ := by
  simp only [List.Forall]; repeat' constructor

abbrev hostOps7_4_W : List (Ref sig .tc) := [main_v81, main_v82, main_v83, main_v84, main_v85, main_v86, main_v87, main_v88, main_v89, main_v90, main_v91, main_v92, main_v93, main_cst_6, main_v94, main_v95]
theorem hostOps7_4_writes : (hostOps7_4 : List (HloOp τ sig (Elt F))).Forall fun op => op.writes ⊆ (hostOps7_4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_5_fresh : (hostOps7_5 : List (HloOp τ sig (Elt F))).Forall fun op => op.fresh = ∅ := by
  simp only [List.Forall]; repeat' constructor

abbrev hostOps7_5_W : List (Ref sig .tc) := [main_v96]
theorem hostOps7_5_writes : (hostOps7_5 : List (HloOp τ sig (Elt F))).Forall fun op => op.writes ⊆ (hostOps7_5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_6_fresh : (hostOps7_6 : List (HloOp τ sig (Elt F))).Forall fun op => op.fresh = ∅ := by
  simp only [List.Forall]; repeat' constructor

abbrev hostOps7_6_W : List (Ref sig .tc) := [main_v97, main_v98, main_v99, main_v100, main_v101, main_v102, main_v103, main_v104, main_v105, main_v106, main_v107, main_v108, main_v109, main_cst_7, main_v110, main_v111]
theorem hostOps7_6_writes : (hostOps7_6 : List (HloOp τ sig (Elt F))).Forall fun op => op.writes ⊆ (hostOps7_6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_7_fresh : (hostOps7_7 : List (HloOp τ sig (Elt F))).Forall fun op => op.fresh = ∅ := by
  simp only [List.Forall]; repeat' constructor

abbrev hostOps7_7_W : List (Ref sig .tc) := [main_v112]
theorem hostOps7_7_writes : (hostOps7_7 : List (HloOp τ sig (Elt F))).Forall fun op => op.writes ⊆ (hostOps7_7_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_8_fresh : (hostOps7_8 : List (HloOp τ sig (Elt F))).Forall fun op => op.fresh = ∅ := by
  simp only [List.Forall]; repeat' constructor

abbrev hostOps7_8_W : List (Ref sig .tc) := [main_v113, main_v114, main_v115, main_v116, main_v117, main_v118, main_v119, main_v120, main_v121, main_v122, main_v123, main_v124, main_v125, main_cst_8, main_v126, main_v127]
theorem hostOps7_8_writes : (hostOps7_8 : List (HloOp τ sig (Elt F))).Forall fun op => op.writes ⊆ (hostOps7_8_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_9_fresh : (hostOps7_9 : List (HloOp τ sig (Elt F))).Forall fun op => op.fresh = ∅ := by
  simp only [List.Forall]; repeat' constructor

abbrev hostOps7_9_W : List (Ref sig .tc) := [main_v128]
theorem hostOps7_9_writes : (hostOps7_9 : List (HloOp τ sig (Elt F))).Forall fun op => op.writes ⊆ (hostOps7_9_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_10_fresh : (hostOps7_10 : List (HloOp τ sig (Elt F))).Forall fun op => op.fresh = ∅ := by
  simp only [List.Forall]; repeat' constructor

abbrev hostOps7_10_W : List (Ref sig .tc) := [main_v129, main_v130, main_v131, main_v132, main_v133, main_v134, main_v135, main_v136, main_v137, main_v138, main_v139, main_v140, main_v141, main_cst_9, main_v142, main_v143]
theorem hostOps7_10_writes : (hostOps7_10 : List (HloOp τ sig (Elt F))).Forall fun op => op.writes ⊆ (hostOps7_10_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_11_fresh : (hostOps7_11 : List (HloOp τ sig (Elt F))).Forall fun op => op.fresh = ∅ := by
  simp only [List.Forall]; repeat' constructor

abbrev hostOps7_11_W : List (Ref sig .tc) := [main_v144]
theorem hostOps7_11_writes : (hostOps7_11 : List (HloOp τ sig (Elt F))).Forall fun op => op.writes ⊆ (hostOps7_11_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_12_fresh : (hostOps7_12 : List (HloOp τ sig (Elt F))).Forall fun op => op.fresh = ∅ := by
  simp only [List.Forall]; repeat' constructor

abbrev hostOps7_12_W : List (Ref sig .tc) := [main_v145, main_v146, main_v147, main_v148, main_v149, main_v150, main_v151, main_v152, main_v153, main_v154, main_v155, main_v156, main_v157, main_cst_10, main_v158, main_v159]
theorem hostOps7_12_writes : (hostOps7_12 : List (HloOp τ sig (Elt F))).Forall fun op => op.writes ⊆ (hostOps7_12_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_13_fresh : (hostOps7_13 : List (HloOp τ sig (Elt F))).Forall fun op => op.fresh = ∅ := by
  simp only [List.Forall]; repeat' constructor

abbrev hostOps7_13_W : List (Ref sig .tc) := [main_v160]
theorem hostOps7_13_writes : (hostOps7_13 : List (HloOp τ sig (Elt F))).Forall fun op => op.writes ⊆ (hostOps7_13_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_14_fresh : (hostOps7_14 : List (HloOp τ sig (Elt F))).Forall fun op => op.fresh = ∅ := by
  simp only [List.Forall]; repeat' constructor

abbrev hostOps7_14_W : List (Ref sig .tc) := [main_v161, main_v162, main_v163, main_v164, main_v165, main_v166, main_v167, main_v168, main_v169, main_v170, main_v171, main_v172, main_v173, main_cst_11, main_v174, main_v175]
theorem hostOps7_14_writes : (hostOps7_14 : List (HloOp τ sig (Elt F))).Forall fun op => op.writes ⊆ (hostOps7_14_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_15_fresh : (hostOps7_15 : List (HloOp τ sig (Elt F))).Forall fun op => op.fresh = ∅ := by
  simp only [List.Forall]; repeat' constructor

abbrev hostOps7_15_W : List (Ref sig .tc) := [main_v176]
theorem hostOps7_15_writes : (hostOps7_15 : List (HloOp τ sig (Elt F))).Forall fun op => op.writes ⊆ (hostOps7_15_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_16_fresh : (hostOps7_16 : List (HloOp τ sig (Elt F))).Forall fun op => op.fresh = ∅ := by
  simp only [List.Forall]; repeat' constructor

abbrev hostOps7_16_W : List (Ref sig .tc) := [main_v177, main_v178, main_v179, main_v180, main_v181, main_v182, main_v183, main_v184, main_v185, main_v186, main_v187, main_v188, main_v189, main_cst_12, main_v190, main_v191]
theorem hostOps7_16_writes : (hostOps7_16 : List (HloOp τ sig (Elt F))).Forall fun op => op.writes ⊆ (hostOps7_16_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_17_fresh : (hostOps7_17 : List (HloOp τ sig (Elt F))).Forall fun op => op.fresh = ∅ := by
  simp only [List.Forall]; repeat' constructor

abbrev hostOps7_17_W : List (Ref sig .tc) := [main_v192]
theorem hostOps7_17_writes : (hostOps7_17 : List (HloOp τ sig (Elt F))).Forall fun op => op.writes ⊆ (hostOps7_17_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_18_fresh : (hostOps7_18 : List (HloOp τ sig (Elt F))).Forall fun op => op.fresh = ∅ := by
  simp only [List.Forall]; repeat' constructor

abbrev hostOps7_18_W : List (Ref sig .tc) := [main_v193, main_v194, main_v195, main_v196, main_v197, main_v198, main_v199, main_v200, main_v201, main_v202, main_v203, main_v204, main_v205, main_cst_13, main_v206, main_v207]
theorem hostOps7_18_writes : (hostOps7_18 : List (HloOp τ sig (Elt F))).Forall fun op => op.writes ⊆ (hostOps7_18_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_19_fresh : (hostOps7_19 : List (HloOp τ sig (Elt F))).Forall fun op => op.fresh = ∅ := by
  simp only [List.Forall]; repeat' constructor

abbrev hostOps7_19_W : List (Ref sig .tc) := [main_v208]
theorem hostOps7_19_writes : (hostOps7_19 : List (HloOp τ sig (Elt F))).Forall fun op => op.writes ⊆ (hostOps7_19_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_20_fresh : (hostOps7_20 : List (HloOp τ sig (Elt F))).Forall fun op => op.fresh = ∅ := by
  simp only [List.Forall]; repeat' constructor

abbrev hostOps7_20_W : List (Ref sig .tc) := [main_v209, main_v210, main_v211, main_v212, main_v213, main_v214, main_v215, main_v216, main_v217, main_v218, main_v219, main_v220, main_v221, main_cst_14, main_v222, main_v223]
theorem hostOps7_20_writes : (hostOps7_20 : List (HloOp τ sig (Elt F))).Forall fun op => op.writes ⊆ (hostOps7_20_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_21_fresh : (hostOps7_21 : List (HloOp τ sig (Elt F))).Forall fun op => op.fresh = ∅ := by
  simp only [List.Forall]; repeat' constructor

abbrev hostOps7_21_W : List (Ref sig .tc) := [main_v224]
theorem hostOps7_21_writes : (hostOps7_21 : List (HloOp τ sig (Elt F))).Forall fun op => op.writes ⊆ (hostOps7_21_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_22_fresh : (hostOps7_22 : List (HloOp τ sig (Elt F))).Forall fun op => op.fresh = ∅ := by
  simp only [List.Forall]; repeat' constructor

abbrev hostOps7_22_W : List (Ref sig .tc) := [main_v225, main_v226, main_v227, main_v228, main_v229, main_v230, main_v231, main_v232, main_v233, main_v234, main_v235, main_v236, main_v237, main_cst_15, main_v238, main_v239]
theorem hostOps7_22_writes : (hostOps7_22 : List (HloOp τ sig (Elt F))).Forall fun op => op.writes ⊆ (hostOps7_22_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_23_fresh : (hostOps7_23 : List (HloOp τ sig (Elt F))).Forall fun op => op.fresh = ∅ := by
  simp only [List.Forall]; repeat' constructor

abbrev hostOps7_23_W : List (Ref sig .tc) := [main_v240]
theorem hostOps7_23_writes : (hostOps7_23 : List (HloOp τ sig (Elt F))).Forall fun op => op.writes ⊆ (hostOps7_23_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_24_fresh : (hostOps7_24 : List (HloOp τ sig (Elt F))).Forall fun op => op.fresh = ∅ := by
  simp only [List.Forall]; repeat' constructor

abbrev hostOps7_24_W : List (Ref sig .tc) := [main_v241, main_v242, main_v243, main_v244, main_v245, main_v246, main_v247, main_v248, main_v249, main_v250, main_v251, main_v252, main_v253, main_cst_16, main_v254, main_v255]
theorem hostOps7_24_writes : (hostOps7_24 : List (HloOp τ sig (Elt F))).Forall fun op => op.writes ⊆ (hostOps7_24_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_25_fresh : (hostOps7_25 : List (HloOp τ sig (Elt F))).Forall fun op => op.fresh = ∅ := by
  simp only [List.Forall]; repeat' constructor

abbrev hostOps7_25_W : List (Ref sig .tc) := [main_v256]
theorem hostOps7_25_writes : (hostOps7_25 : List (HloOp τ sig (Elt F))).Forall fun op => op.writes ⊆ (hostOps7_25_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_26_fresh : (hostOps7_26 : List (HloOp τ sig (Elt F))).Forall fun op => op.fresh = ∅ := by
  simp only [List.Forall]; repeat' constructor

abbrev hostOps7_26_W : List (Ref sig .tc) := [main_v257, main_v258, main_v259, main_v260, main_v261, main_v262, main_v263, main_v264, main_v265, main_v266, main_v267, main_v268, main_v269, main_cst_17, main_v270, main_v271]
theorem hostOps7_26_writes : (hostOps7_26 : List (HloOp τ sig (Elt F))).Forall fun op => op.writes ⊆ (hostOps7_26_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_27_fresh : (hostOps7_27 : List (HloOp τ sig (Elt F))).Forall fun op => op.fresh = ∅ := by
  simp only [List.Forall]; repeat' constructor

abbrev hostOps7_27_W : List (Ref sig .tc) := [main_v272]
theorem hostOps7_27_writes : (hostOps7_27 : List (HloOp τ sig (Elt F))).Forall fun op => op.writes ⊆ (hostOps7_27_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_28_fresh : (hostOps7_28 : List (HloOp τ sig (Elt F))).Forall fun op => op.fresh = ∅ := by
  simp only [List.Forall]; repeat' constructor

abbrev hostOps7_28_W : List (Ref sig .tc) := [main_v273, main_v274, main_v275, main_v276, main_v277, main_v278, main_v279, main_v280, main_v281, main_v282, main_v283, main_v284, main_v285, main_cst_18, main_v286, main_v287]
theorem hostOps7_28_writes : (hostOps7_28 : List (HloOp τ sig (Elt F))).Forall fun op => op.writes ⊆ (hostOps7_28_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_29_fresh : (hostOps7_29 : List (HloOp τ sig (Elt F))).Forall fun op => op.fresh = ∅ := by
  simp only [List.Forall]; repeat' constructor

abbrev hostOps7_29_W : List (Ref sig .tc) := [main_v288]
theorem hostOps7_29_writes : (hostOps7_29 : List (HloOp τ sig (Elt F))).Forall fun op => op.writes ⊆ (hostOps7_29_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_30_fresh : (hostOps7_30 : List (HloOp τ sig (Elt F))).Forall fun op => op.fresh = ∅ := by
  simp only [List.Forall]; repeat' constructor

abbrev hostOps7_30_W : List (Ref sig .tc) := [main_v289, main_v290, main_v291, main_v292, main_v293, main_v294, main_v295, main_v296, main_v297, main_v298, main_v299, main_v300, main_v301, main_cst_19, main_v302, main_v303]
theorem hostOps7_30_writes : (hostOps7_30 : List (HloOp τ sig (Elt F))).Forall fun op => op.writes ⊆ (hostOps7_30_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_31_fresh : (hostOps7_31 : List (HloOp τ sig (Elt F))).Forall fun op => op.fresh = ∅ := by
  simp only [List.Forall]; repeat' constructor

abbrev hostOps7_31_W : List (Ref sig .tc) := [main_v304]
theorem hostOps7_31_writes : (hostOps7_31 : List (HloOp τ sig (Elt F))).Forall fun op => op.writes ⊆ (hostOps7_31_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_32_fresh : (hostOps7_32 : List (HloOp τ sig (Elt F))).Forall fun op => op.fresh = ∅ := by
  simp only [List.Forall]; repeat' constructor

abbrev hostOps7_32_W : List (Ref sig .tc) := [main_v305, main_v306, main_v307, main_v308]
theorem hostOps7_32_writes : (hostOps7_32 : List (HloOp τ sig (Elt F))).Forall fun op => op.writes ⊆ (hostOps7_32_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v21_0, main_v21_1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v21_0), Function.update_of_ne (StableHlo.devRef_ne_of_ne (List.ne_of_not_mem_cons (List.not_mem_of_not_mem_cons h)) : (Proc.devRef .tc r : DevRef τ sig) ≠ Proc.devRef .tc main_v21_1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v25_0, main_v25_1] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v25_0), Function.update_of_ne (StableHlo.devRef_ne_of_ne (List.ne_of_not_mem_cons (List.not_mem_of_not_mem_cons h)) : (Proc.devRef .tc r : DevRef τ sig) ≠ Proc.devRef .tc main_v25_1)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v29_0, main_v29_1] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v29_0), Function.update_of_ne (StableHlo.devRef_ne_of_ne (List.ne_of_not_mem_cons (List.not_mem_of_not_mem_cons h)) : (Proc.devRef .tc r : DevRef τ sig) ≠ Proc.devRef .tc main_v29_1)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v33_0, main_v33_1] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v33_0), Function.update_of_ne (StableHlo.devRef_ne_of_ne (List.ne_of_not_mem_cons (List.not_mem_of_not_mem_cons h)) : (Proc.devRef .tc r : DevRef τ sig) ≠ Proc.devRef .tc main_v33_1)]
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v37_0, main_v37_1] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v37_0), Function.update_of_ne (StableHlo.devRef_ne_of_ne (List.ne_of_not_mem_cons (List.not_mem_of_not_mem_cons h)) : (Proc.devRef .tc r : DevRef τ sig) ≠ Proc.devRef .tc main_v37_1)]
theorem V11_of (c : Dev nD) (r : Ref sig .tc) (h : r ∉ hostOps5_W) : V11 m outs c r = V10 m outs c r :=
  StableHlo.after_of_writes_sub hostOps5 _ hostOps5_writes h
theorem V12_of (c : Dev nD) (r : Ref sig .tc) (h : r ∉ ([main_v41_0, main_v41_1] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v41_0), Function.update_of_ne (StableHlo.devRef_ne_of_ne (List.ne_of_not_mem_cons (List.not_mem_of_not_mem_cons h)) : (Proc.devRef .tc r : DevRef τ sig) ≠ Proc.devRef .tc main_v41_1)]
theorem V13_of (c : Dev nD) (r : Ref sig .tc) (h : r ∉ hostOps6_W) : V13 m outs c r = V12 m outs c r :=
  StableHlo.after_of_writes_sub hostOps6 _ hostOps6_writes h
theorem V14_of (c : Dev nD) (r : Ref sig .tc) (h : r ∉ ([main_v45_0, main_v45_1] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v45_0), Function.update_of_ne (StableHlo.devRef_ne_of_ne (List.ne_of_not_mem_cons (List.not_mem_of_not_mem_cons h)) : (Proc.devRef .tc r : DevRef τ sig) ≠ Proc.devRef .tc main_v45_1)]
theorem V15_of (c : Dev nD) (r : Ref sig .tc) (h : r ∉ hostOps7_W) : V15 m outs c r = V14 m outs c r :=
  StableHlo.after_of_writes_sub hostOps7 _ hostOps7_writes h
theorem V16_of (c : Dev nD) (r : Ref sig .tc) (h : r ∉ hostOps7_1_W) : V16 m outs c r = V15 m outs c r :=
  StableHlo.after_of_writes_sub hostOps7_1 _ hostOps7_1_writes h
theorem V17_of (c : Dev nD) (r : Ref sig .tc) (h : r ∉ hostOps7_2_W) : V17 m outs c r = V16 m outs c r :=
  StableHlo.after_of_writes_sub hostOps7_2 _ hostOps7_2_writes h
theorem V18_of (c : Dev nD) (r : Ref sig .tc) (h : r ∉ hostOps7_3_W) : V18 m outs c r = V17 m outs c r :=
  StableHlo.after_of_writes_sub hostOps7_3 _ hostOps7_3_writes h
theorem V19_of (c : Dev nD) (r : Ref sig .tc) (h : r ∉ hostOps7_4_W) : V19 m outs c r = V18 m outs c r :=
  StableHlo.after_of_writes_sub hostOps7_4 _ hostOps7_4_writes h
theorem V20_of (c : Dev nD) (r : Ref sig .tc) (h : r ∉ hostOps7_5_W) : V20 m outs c r = V19 m outs c r :=
  StableHlo.after_of_writes_sub hostOps7_5 _ hostOps7_5_writes h
theorem V21_of (c : Dev nD) (r : Ref sig .tc) (h : r ∉ hostOps7_6_W) : V21 m outs c r = V20 m outs c r :=
  StableHlo.after_of_writes_sub hostOps7_6 _ hostOps7_6_writes h
theorem V22_of (c : Dev nD) (r : Ref sig .tc) (h : r ∉ hostOps7_7_W) : V22 m outs c r = V21 m outs c r :=
  StableHlo.after_of_writes_sub hostOps7_7 _ hostOps7_7_writes h
theorem V23_of (c : Dev nD) (r : Ref sig .tc) (h : r ∉ hostOps7_8_W) : V23 m outs c r = V22 m outs c r :=
  StableHlo.after_of_writes_sub hostOps7_8 _ hostOps7_8_writes h
theorem V24_of (c : Dev nD) (r : Ref sig .tc) (h : r ∉ hostOps7_9_W) : V24 m outs c r = V23 m outs c r :=
  StableHlo.after_of_writes_sub hostOps7_9 _ hostOps7_9_writes h
theorem V25_of (c : Dev nD) (r : Ref sig .tc) (h : r ∉ hostOps7_10_W) : V25 m outs c r = V24 m outs c r :=
  StableHlo.after_of_writes_sub hostOps7_10 _ hostOps7_10_writes h
theorem V26_of (c : Dev nD) (r : Ref sig .tc) (h : r ∉ hostOps7_11_W) : V26 m outs c r = V25 m outs c r :=
  StableHlo.after_of_writes_sub hostOps7_11 _ hostOps7_11_writes h
theorem V27_of (c : Dev nD) (r : Ref sig .tc) (h : r ∉ hostOps7_12_W) : V27 m outs c r = V26 m outs c r :=
  StableHlo.after_of_writes_sub hostOps7_12 _ hostOps7_12_writes h
theorem V28_of (c : Dev nD) (r : Ref sig .tc) (h : r ∉ hostOps7_13_W) : V28 m outs c r = V27 m outs c r :=
  StableHlo.after_of_writes_sub hostOps7_13 _ hostOps7_13_writes h
theorem V29_of (c : Dev nD) (r : Ref sig .tc) (h : r ∉ hostOps7_14_W) : V29 m outs c r = V28 m outs c r :=
  StableHlo.after_of_writes_sub hostOps7_14 _ hostOps7_14_writes h
theorem V30_of (c : Dev nD) (r : Ref sig .tc) (h : r ∉ hostOps7_15_W) : V30 m outs c r = V29 m outs c r :=
  StableHlo.after_of_writes_sub hostOps7_15 _ hostOps7_15_writes h
theorem V31_of (c : Dev nD) (r : Ref sig .tc) (h : r ∉ hostOps7_16_W) : V31 m outs c r = V30 m outs c r :=
  StableHlo.after_of_writes_sub hostOps7_16 _ hostOps7_16_writes h
theorem V32_of (c : Dev nD) (r : Ref sig .tc) (h : r ∉ hostOps7_17_W) : V32 m outs c r = V31 m outs c r :=
  StableHlo.after_of_writes_sub hostOps7_17 _ hostOps7_17_writes h
theorem V33_of (c : Dev nD) (r : Ref sig .tc) (h : r ∉ hostOps7_18_W) : V33 m outs c r = V32 m outs c r :=
  StableHlo.after_of_writes_sub hostOps7_18 _ hostOps7_18_writes h
theorem V34_of (c : Dev nD) (r : Ref sig .tc) (h : r ∉ hostOps7_19_W) : V34 m outs c r = V33 m outs c r :=
  StableHlo.after_of_writes_sub hostOps7_19 _ hostOps7_19_writes h
theorem V35_of (c : Dev nD) (r : Ref sig .tc) (h : r ∉ hostOps7_20_W) : V35 m outs c r = V34 m outs c r :=
  StableHlo.after_of_writes_sub hostOps7_20 _ hostOps7_20_writes h
theorem V36_of (c : Dev nD) (r : Ref sig .tc) (h : r ∉ hostOps7_21_W) : V36 m outs c r = V35 m outs c r :=
  StableHlo.after_of_writes_sub hostOps7_21 _ hostOps7_21_writes h
theorem V37_of (c : Dev nD) (r : Ref sig .tc) (h : r ∉ hostOps7_22_W) : V37 m outs c r = V36 m outs c r :=
  StableHlo.after_of_writes_sub hostOps7_22 _ hostOps7_22_writes h
theorem V38_of (c : Dev nD) (r : Ref sig .tc) (h : r ∉ hostOps7_23_W) : V38 m outs c r = V37 m outs c r :=
  StableHlo.after_of_writes_sub hostOps7_23 _ hostOps7_23_writes h
theorem V39_of (c : Dev nD) (r : Ref sig .tc) (h : r ∉ hostOps7_24_W) : V39 m outs c r = V38 m outs c r :=
  StableHlo.after_of_writes_sub hostOps7_24 _ hostOps7_24_writes h
theorem V40_of (c : Dev nD) (r : Ref sig .tc) (h : r ∉ hostOps7_25_W) : V40 m outs c r = V39 m outs c r :=
  StableHlo.after_of_writes_sub hostOps7_25 _ hostOps7_25_writes h
theorem V41_of (c : Dev nD) (r : Ref sig .tc) (h : r ∉ hostOps7_26_W) : V41 m outs c r = V40 m outs c r :=
  StableHlo.after_of_writes_sub hostOps7_26 _ hostOps7_26_writes h
theorem V42_of (c : Dev nD) (r : Ref sig .tc) (h : r ∉ hostOps7_27_W) : V42 m outs c r = V41 m outs c r :=
  StableHlo.after_of_writes_sub hostOps7_27 _ hostOps7_27_writes h
theorem V43_of (c : Dev nD) (r : Ref sig .tc) (h : r ∉ hostOps7_28_W) : V43 m outs c r = V42 m outs c r :=
  StableHlo.after_of_writes_sub hostOps7_28 _ hostOps7_28_writes h
theorem V44_of (c : Dev nD) (r : Ref sig .tc) (h : r ∉ hostOps7_29_W) : V44 m outs c r = V43 m outs c r :=
  StableHlo.after_of_writes_sub hostOps7_29 _ hostOps7_29_writes h
theorem V45_of (c : Dev nD) (r : Ref sig .tc) (h : r ∉ hostOps7_30_W) : V45 m outs c r = V44 m outs c r :=
  StableHlo.after_of_writes_sub hostOps7_30 _ hostOps7_30_writes h
theorem V46_of (c : Dev nD) (r : Ref sig .tc) (h : r ∉ hostOps7_31_W) : V46 m outs c r = V45 m outs c r :=
  StableHlo.after_of_writes_sub hostOps7_31 _ hostOps7_31_writes h
theorem V47_of (c : Dev nD) (r : Ref sig .tc) (h : r ∉ hostOps7_32_W) : V47 m outs c r = V46 m outs c r :=
  StableHlo.after_of_writes_sub hostOps7_32 _ hostOps7_32_writes h

theorem V47_main_arg0 (c : Dev nD) : V47 m outs c main_arg0 = m ((c : Thread nD τ).loc main_arg0) :=
  (V47_of m outs c main_arg0 (by decide)).trans <| (V46_of m outs c main_arg0 (by decide)).trans <| (V45_of m outs c main_arg0 (by decide)).trans <| (V44_of m outs c main_arg0 (by decide)).trans <| (V43_of m outs c main_arg0 (by decide)).trans <| (V42_of m outs c main_arg0 (by decide)).trans <| (V41_of m outs c main_arg0 (by decide)).trans <| (V40_of m outs c main_arg0 (by decide)).trans <| (V39_of m outs c main_arg0 (by decide)).trans <| (V38_of m outs c main_arg0 (by decide)).trans <| (V37_of m outs c main_arg0 (by decide)).trans <| (V36_of m outs c main_arg0 (by decide)).trans <| (V35_of m outs c main_arg0 (by decide)).trans <| (V34_of m outs c main_arg0 (by decide)).trans <| (V33_of m outs c main_arg0 (by decide)).trans <| (V32_of m outs c main_arg0 (by decide)).trans <| (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

theorem V47_main_arg1 (c : Dev nD) : V47 m outs c main_arg1 = m ((c : Thread nD τ).loc main_arg1) :=
  (V47_of m outs c main_arg1 (by decide)).trans <| (V46_of m outs c main_arg1 (by decide)).trans <| (V45_of m outs c main_arg1 (by decide)).trans <| (V44_of m outs c main_arg1 (by decide)).trans <| (V43_of m outs c main_arg1 (by decide)).trans <| (V42_of m outs c main_arg1 (by decide)).trans <| (V41_of m outs c main_arg1 (by decide)).trans <| (V40_of m outs c main_arg1 (by decide)).trans <| (V39_of m outs c main_arg1 (by decide)).trans <| (V38_of m outs c main_arg1 (by decide)).trans <| (V37_of m outs c main_arg1 (by decide)).trans <| (V36_of m outs c main_arg1 (by decide)).trans <| (V35_of m outs c main_arg1 (by decide)).trans <| (V34_of m outs c main_arg1 (by decide)).trans <| (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans rfl

theorem V47_main_arg2 (c : Dev nD) : V47 m outs c main_arg2 = m ((c : Thread nD τ).loc main_arg2) :=
  (V47_of m outs c main_arg2 (by decide)).trans <| (V46_of m outs c main_arg2 (by decide)).trans <| (V45_of m outs c main_arg2 (by decide)).trans <| (V44_of m outs c main_arg2 (by decide)).trans <| (V43_of m outs c main_arg2 (by decide)).trans <| (V42_of m outs c main_arg2 (by decide)).trans <| (V41_of m outs c main_arg2 (by decide)).trans <| (V40_of m outs c main_arg2 (by decide)).trans <| (V39_of m outs c main_arg2 (by decide)).trans <| (V38_of m outs c main_arg2 (by decide)).trans <| (V37_of m outs c main_arg2 (by decide)).trans <| (V36_of m outs c main_arg2 (by decide)).trans <| (V35_of m outs c main_arg2 (by decide)).trans <| (V34_of m outs c main_arg2 (by decide)).trans <| (V33_of m outs c main_arg2 (by decide)).trans <| (V32_of m outs c main_arg2 (by decide)).trans <| (V31_of m outs c main_arg2 (by decide)).trans <| (V30_of m outs c main_arg2 (by decide)).trans <| (V29_of m outs c main_arg2 (by decide)).trans <| (V28_of m outs c main_arg2 (by decide)).trans <| (V27_of m outs c main_arg2 (by decide)).trans <| (V26_of m outs c main_arg2 (by decide)).trans <| (V25_of m outs c main_arg2 (by decide)).trans <| (V24_of m outs c main_arg2 (by decide)).trans <| (V23_of m outs c main_arg2 (by decide)).trans <| (V22_of m outs c main_arg2 (by decide)).trans <| (V21_of m outs c main_arg2 (by decide)).trans <| (V20_of m outs c main_arg2 (by decide)).trans <| (V19_of m outs c main_arg2 (by decide)).trans <| (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 8 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

def seg10 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V10 m outs) (E 5)

def seg12 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V12 m outs) (E 6)

def seg14 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V14 m outs) (E 7)

def seg15 : HostSeg (Ix := Ix) (Name := ℕ) (U := U) (Lvl := Lvl) (pcfgs (F := F)) defs₀ 𝒱₀ L lv :=
  HostSeg.ofOps _ _ _ _ _ (Pipeline.ucRefs τ sig) hostOps7_1
    (fun op h => Pipeline.sub_ucRefs op ((List.forall_iff_forall_mem.mp hostOps7_1_sub) op h))
    (fun op h => (List.forall_iff_forall_mem.mp hostOps7_1_fresh) op h) (V15 m outs) (E 7)

def seg16 : HostSeg (Ix := Ix) (Name := ℕ) (U := U) (Lvl := Lvl) (pcfgs (F := F)) defs₀ 𝒱₀ L lv :=
  HostSeg.ofOps _ _ _ _ _ (Pipeline.ucRefs τ sig) hostOps7_2
    (fun op h => Pipeline.sub_ucRefs op ((List.forall_iff_forall_mem.mp hostOps7_2_sub) op h))
    (fun op h => (List.forall_iff_forall_mem.mp hostOps7_2_fresh) op h) (V16 m outs) (E 7)

def seg17 : HostSeg (Ix := Ix) (Name := ℕ) (U := U) (Lvl := Lvl) (pcfgs (F := F)) defs₀ 𝒱₀ L lv :=
  HostSeg.ofOps _ _ _ _ _ (Pipeline.ucRefs τ sig) hostOps7_3
    (fun op h => Pipeline.sub_ucRefs op ((List.forall_iff_forall_mem.mp hostOps7_3_sub) op h))
    (fun op h => (List.forall_iff_forall_mem.mp hostOps7_3_fresh) op h) (V17 m outs) (E 7)

def seg18 : HostSeg (Ix := Ix) (Name := ℕ) (U := U) (Lvl := Lvl) (pcfgs (F := F)) defs₀ 𝒱₀ L lv :=
  HostSeg.ofOps _ _ _ _ _ (Pipeline.ucRefs τ sig) hostOps7_4
    (fun op h => Pipeline.sub_ucRefs op ((List.forall_iff_forall_mem.mp hostOps7_4_sub) op h))
    (fun op h => (List.forall_iff_forall_mem.mp hostOps7_4_fresh) op h) (V18 m outs) (E 7)

def seg19 : HostSeg (Ix := Ix) (Name := ℕ) (U := U) (Lvl := Lvl) (pcfgs (F := F)) defs₀ 𝒱₀ L lv :=
  HostSeg.ofOps _ _ _ _ _ (Pipeline.ucRefs τ sig) hostOps7_5
    (fun op h => Pipeline.sub_ucRefs op ((List.forall_iff_forall_mem.mp hostOps7_5_sub) op h))
    (fun op h => (List.forall_iff_forall_mem.mp hostOps7_5_fresh) op h) (V19 m outs) (E 7)

def seg20 : HostSeg (Ix := Ix) (Name := ℕ) (U := U) (Lvl := Lvl) (pcfgs (F := F)) defs₀ 𝒱₀ L lv :=
  HostSeg.ofOps _ _ _ _ _ (Pipeline.ucRefs τ sig) hostOps7_6
    (fun op h => Pipeline.sub_ucRefs op ((List.forall_iff_forall_mem.mp hostOps7_6_sub) op h))
    (fun op h => (List.forall_iff_forall_mem.mp hostOps7_6_fresh) op h) (V20 m outs) (E 7)

def seg21 : HostSeg (Ix := Ix) (Name := ℕ) (U := U) (Lvl := Lvl) (pcfgs (F := F)) defs₀ 𝒱₀ L lv :=
  HostSeg.ofOps _ _ _ _ _ (Pipeline.ucRefs τ sig) hostOps7_7
    (fun op h => Pipeline.sub_ucRefs op ((List.forall_iff_forall_mem.mp hostOps7_7_sub) op h))
    (fun op h => (List.forall_iff_forall_mem.mp hostOps7_7_fresh) op h) (V21 m outs) (E 7)

def seg22 : HostSeg (Ix := Ix) (Name := ℕ) (U := U) (Lvl := Lvl) (pcfgs (F := F)) defs₀ 𝒱₀ L lv :=
  HostSeg.ofOps _ _ _ _ _ (Pipeline.ucRefs τ sig) hostOps7_8
    (fun op h => Pipeline.sub_ucRefs op ((List.forall_iff_forall_mem.mp hostOps7_8_sub) op h))
    (fun op h => (List.forall_iff_forall_mem.mp hostOps7_8_fresh) op h) (V22 m outs) (E 7)

def seg23 : HostSeg (Ix := Ix) (Name := ℕ) (U := U) (Lvl := Lvl) (pcfgs (F := F)) defs₀ 𝒱₀ L lv :=
  HostSeg.ofOps _ _ _ _ _ (Pipeline.ucRefs τ sig) hostOps7_9
    (fun op h => Pipeline.sub_ucRefs op ((List.forall_iff_forall_mem.mp hostOps7_9_sub) op h))
    (fun op h => (List.forall_iff_forall_mem.mp hostOps7_9_fresh) op h) (V23 m outs) (E 7)

def seg24 : HostSeg (Ix := Ix) (Name := ℕ) (U := U) (Lvl := Lvl) (pcfgs (F := F)) defs₀ 𝒱₀ L lv :=
  HostSeg.ofOps _ _ _ _ _ (Pipeline.ucRefs τ sig) hostOps7_10
    (fun op h => Pipeline.sub_ucRefs op ((List.forall_iff_forall_mem.mp hostOps7_10_sub) op h))
    (fun op h => (List.forall_iff_forall_mem.mp hostOps7_10_fresh) op h) (V24 m outs) (E 7)

def seg25 : HostSeg (Ix := Ix) (Name := ℕ) (U := U) (Lvl := Lvl) (pcfgs (F := F)) defs₀ 𝒱₀ L lv :=
  HostSeg.ofOps _ _ _ _ _ (Pipeline.ucRefs τ sig) hostOps7_11
    (fun op h => Pipeline.sub_ucRefs op ((List.forall_iff_forall_mem.mp hostOps7_11_sub) op h))
    (fun op h => (List.forall_iff_forall_mem.mp hostOps7_11_fresh) op h) (V25 m outs) (E 7)

def seg26 : HostSeg (Ix := Ix) (Name := ℕ) (U := U) (Lvl := Lvl) (pcfgs (F := F)) defs₀ 𝒱₀ L lv :=
  HostSeg.ofOps _ _ _ _ _ (Pipeline.ucRefs τ sig) hostOps7_12
    (fun op h => Pipeline.sub_ucRefs op ((List.forall_iff_forall_mem.mp hostOps7_12_sub) op h))
    (fun op h => (List.forall_iff_forall_mem.mp hostOps7_12_fresh) op h) (V26 m outs) (E 7)

def seg27 : HostSeg (Ix := Ix) (Name := ℕ) (U := U) (Lvl := Lvl) (pcfgs (F := F)) defs₀ 𝒱₀ L lv :=
  HostSeg.ofOps _ _ _ _ _ (Pipeline.ucRefs τ sig) hostOps7_13
    (fun op h => Pipeline.sub_ucRefs op ((List.forall_iff_forall_mem.mp hostOps7_13_sub) op h))
    (fun op h => (List.forall_iff_forall_mem.mp hostOps7_13_fresh) op h) (V27 m outs) (E 7)

def seg28 : HostSeg (Ix := Ix) (Name := ℕ) (U := U) (Lvl := Lvl) (pcfgs (F := F)) defs₀ 𝒱₀ L lv :=
  HostSeg.ofOps _ _ _ _ _ (Pipeline.ucRefs τ sig) hostOps7_14
    (fun op h => Pipeline.sub_ucRefs op ((List.forall_iff_forall_mem.mp hostOps7_14_sub) op h))
    (fun op h => (List.forall_iff_forall_mem.mp hostOps7_14_fresh) op h) (V28 m outs) (E 7)

def seg29 : HostSeg (Ix := Ix) (Name := ℕ) (U := U) (Lvl := Lvl) (pcfgs (F := F)) defs₀ 𝒱₀ L lv :=
  HostSeg.ofOps _ _ _ _ _ (Pipeline.ucRefs τ sig) hostOps7_15
    (fun op h => Pipeline.sub_ucRefs op ((List.forall_iff_forall_mem.mp hostOps7_15_sub) op h))
    (fun op h => (List.forall_iff_forall_mem.mp hostOps7_15_fresh) op h) (V29 m outs) (E 7)

def seg30 : HostSeg (Ix := Ix) (Name := ℕ) (U := U) (Lvl := Lvl) (pcfgs (F := F)) defs₀ 𝒱₀ L lv :=
  HostSeg.ofOps _ _ _ _ _ (Pipeline.ucRefs τ sig) hostOps7_16
    (fun op h => Pipeline.sub_ucRefs op ((List.forall_iff_forall_mem.mp hostOps7_16_sub) op h))
    (fun op h => (List.forall_iff_forall_mem.mp hostOps7_16_fresh) op h) (V30 m outs) (E 7)

def seg31 : HostSeg (Ix := Ix) (Name := ℕ) (U := U) (Lvl := Lvl) (pcfgs (F := F)) defs₀ 𝒱₀ L lv :=
  HostSeg.ofOps _ _ _ _ _ (Pipeline.ucRefs τ sig) hostOps7_17
    (fun op h => Pipeline.sub_ucRefs op ((List.forall_iff_forall_mem.mp hostOps7_17_sub) op h))
    (fun op h => (List.forall_iff_forall_mem.mp hostOps7_17_fresh) op h) (V31 m outs) (E 7)

def seg32 : HostSeg (Ix := Ix) (Name := ℕ) (U := U) (Lvl := Lvl) (pcfgs (F := F)) defs₀ 𝒱₀ L lv :=
  HostSeg.ofOps _ _ _ _ _ (Pipeline.ucRefs τ sig) hostOps7_18
    (fun op h => Pipeline.sub_ucRefs op ((List.forall_iff_forall_mem.mp hostOps7_18_sub) op h))
    (fun op h => (List.forall_iff_forall_mem.mp hostOps7_18_fresh) op h) (V32 m outs) (E 7)

def seg33 : HostSeg (Ix := Ix) (Name := ℕ) (U := U) (Lvl := Lvl) (pcfgs (F := F)) defs₀ 𝒱₀ L lv :=
  HostSeg.ofOps _ _ _ _ _ (Pipeline.ucRefs τ sig) hostOps7_19
    (fun op h => Pipeline.sub_ucRefs op ((List.forall_iff_forall_mem.mp hostOps7_19_sub) op h))
    (fun op h => (List.forall_iff_forall_mem.mp hostOps7_19_fresh) op h) (V33 m outs) (E 7)

def seg34 : HostSeg (Ix := Ix) (Name := ℕ) (U := U) (Lvl := Lvl) (pcfgs (F := F)) defs₀ 𝒱₀ L lv :=
  HostSeg.ofOps _ _ _ _ _ (Pipeline.ucRefs τ sig) hostOps7_20
    (fun op h => Pipeline.sub_ucRefs op ((List.forall_iff_forall_mem.mp hostOps7_20_sub) op h))
    (fun op h => (List.forall_iff_forall_mem.mp hostOps7_20_fresh) op h) (V34 m outs) (E 7)

def seg35 : HostSeg (Ix := Ix) (Name := ℕ) (U := U) (Lvl := Lvl) (pcfgs (F := F)) defs₀ 𝒱₀ L lv :=
  HostSeg.ofOps _ _ _ _ _ (Pipeline.ucRefs τ sig) hostOps7_21
    (fun op h => Pipeline.sub_ucRefs op ((List.forall_iff_forall_mem.mp hostOps7_21_sub) op h))
    (fun op h => (List.forall_iff_forall_mem.mp hostOps7_21_fresh) op h) (V35 m outs) (E 7)

def seg36 : HostSeg (Ix := Ix) (Name := ℕ) (U := U) (Lvl := Lvl) (pcfgs (F := F)) defs₀ 𝒱₀ L lv :=
  HostSeg.ofOps _ _ _ _ _ (Pipeline.ucRefs τ sig) hostOps7_22
    (fun op h => Pipeline.sub_ucRefs op ((List.forall_iff_forall_mem.mp hostOps7_22_sub) op h))
    (fun op h => (List.forall_iff_forall_mem.mp hostOps7_22_fresh) op h) (V36 m outs) (E 7)

def seg37 : HostSeg (Ix := Ix) (Name := ℕ) (U := U) (Lvl := Lvl) (pcfgs (F := F)) defs₀ 𝒱₀ L lv :=
  HostSeg.ofOps _ _ _ _ _ (Pipeline.ucRefs τ sig) hostOps7_23
    (fun op h => Pipeline.sub_ucRefs op ((List.forall_iff_forall_mem.mp hostOps7_23_sub) op h))
    (fun op h => (List.forall_iff_forall_mem.mp hostOps7_23_fresh) op h) (V37 m outs) (E 7)

def seg38 : HostSeg (Ix := Ix) (Name := ℕ) (U := U) (Lvl := Lvl) (pcfgs (F := F)) defs₀ 𝒱₀ L lv :=
  HostSeg.ofOps _ _ _ _ _ (Pipeline.ucRefs τ sig) hostOps7_24
    (fun op h => Pipeline.sub_ucRefs op ((List.forall_iff_forall_mem.mp hostOps7_24_sub) op h))
    (fun op h => (List.forall_iff_forall_mem.mp hostOps7_24_fresh) op h) (V38 m outs) (E 7)

def seg39 : HostSeg (Ix := Ix) (Name := ℕ) (U := U) (Lvl := Lvl) (pcfgs (F := F)) defs₀ 𝒱₀ L lv :=
  HostSeg.ofOps _ _ _ _ _ (Pipeline.ucRefs τ sig) hostOps7_25
    (fun op h => Pipeline.sub_ucRefs op ((List.forall_iff_forall_mem.mp hostOps7_25_sub) op h))
    (fun op h => (List.forall_iff_forall_mem.mp hostOps7_25_fresh) op h) (V39 m outs) (E 7)

def seg40 : HostSeg (Ix := Ix) (Name := ℕ) (U := U) (Lvl := Lvl) (pcfgs (F := F)) defs₀ 𝒱₀ L lv :=
  HostSeg.ofOps _ _ _ _ _ (Pipeline.ucRefs τ sig) hostOps7_26
    (fun op h => Pipeline.sub_ucRefs op ((List.forall_iff_forall_mem.mp hostOps7_26_sub) op h))
    (fun op h => (List.forall_iff_forall_mem.mp hostOps7_26_fresh) op h) (V40 m outs) (E 7)

def seg41 : HostSeg (Ix := Ix) (Name := ℕ) (U := U) (Lvl := Lvl) (pcfgs (F := F)) defs₀ 𝒱₀ L lv :=
  HostSeg.ofOps _ _ _ _ _ (Pipeline.ucRefs τ sig) hostOps7_27
    (fun op h => Pipeline.sub_ucRefs op ((List.forall_iff_forall_mem.mp hostOps7_27_sub) op h))
    (fun op h => (List.forall_iff_forall_mem.mp hostOps7_27_fresh) op h) (V41 m outs) (E 7)

def seg42 : HostSeg (Ix := Ix) (Name := ℕ) (U := U) (Lvl := Lvl) (pcfgs (F := F)) defs₀ 𝒱₀ L lv :=
  HostSeg.ofOps _ _ _ _ _ (Pipeline.ucRefs τ sig) hostOps7_28
    (fun op h => Pipeline.sub_ucRefs op ((List.forall_iff_forall_mem.mp hostOps7_28_sub) op h))
    (fun op h => (List.forall_iff_forall_mem.mp hostOps7_28_fresh) op h) (V42 m outs) (E 7)

def seg43 : HostSeg (Ix := Ix) (Name := ℕ) (U := U) (Lvl := Lvl) (pcfgs (F := F)) defs₀ 𝒱₀ L lv :=
  HostSeg.ofOps _ _ _ _ _ (Pipeline.ucRefs τ sig) hostOps7_29
    (fun op h => Pipeline.sub_ucRefs op ((List.forall_iff_forall_mem.mp hostOps7_29_sub) op h))
    (fun op h => (List.forall_iff_forall_mem.mp hostOps7_29_fresh) op h) (V43 m outs) (E 7)

def seg44 : HostSeg (Ix := Ix) (Name := ℕ) (U := U) (Lvl := Lvl) (pcfgs (F := F)) defs₀ 𝒱₀ L lv :=
  HostSeg.ofOps _ _ _ _ _ (Pipeline.ucRefs τ sig) hostOps7_30
    (fun op h => Pipeline.sub_ucRefs op ((List.forall_iff_forall_mem.mp hostOps7_30_sub) op h))
    (fun op h => (List.forall_iff_forall_mem.mp hostOps7_30_fresh) op h) (V44 m outs) (E 7)

def seg45 : HostSeg (Ix := Ix) (Name := ℕ) (U := U) (Lvl := Lvl) (pcfgs (F := F)) defs₀ 𝒱₀ L lv :=
  HostSeg.ofOps _ _ _ _ _ (Pipeline.ucRefs τ sig) hostOps7_31
    (fun op h => Pipeline.sub_ucRefs op ((List.forall_iff_forall_mem.mp hostOps7_31_sub) op h))
    (fun op h => (List.forall_iff_forall_mem.mp hostOps7_31_fresh) op h) (V45 m outs) (E 7)

def seg46 : HostSeg (Ix := Ix) (Name := ℕ) (U := U) (Lvl := Lvl) (pcfgs (F := F)) defs₀ 𝒱₀ L lv :=
  HostSeg.ofOps _ _ _ _ _ (Pipeline.ucRefs τ sig) hostOps7_32
    (fun op h => Pipeline.sub_ucRefs op ((List.forall_iff_forall_mem.mp hostOps7_32_sub) op h))
    (fun op h => (List.forall_iff_forall_mem.mp hostOps7_32_fresh) op h) (V46 m outs) (E 7)

end Segs

section

variable {Ix : Type} [DecidableEq Ix] {U : Type} [URA U] {Lvl : Type} [Preorder Lvl]

abbrev adm : (p : Fin 7) → (pcfgs (F := F) p).Adm := fun p => (cfgs p).toPCfg_adm

abbrev segs (𝒱₀ : Variants) (L : GSem nD τ sig → Finset Ix) (lv : GSem nD τ sig → Ix → Lvl) (E : Fin 8 → Dev nD → sProp (MT nD τ sig Ix (Elt F) ℕ U Lvl)) (ι : Ix)
    (pdats : (p : Fin 7) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E), .region R4, .host (seg10 m outs 𝒱₀ L lv E), .region R5, .host (seg12 m outs 𝒱₀ L lv E), .region R6, .host (seg14 m outs 𝒱₀ L lv E), .host (seg15 m outs 𝒱₀ L lv E), .host (seg16 m outs 𝒱₀ L lv E), .host (seg17 m outs 𝒱₀ L lv E), .host (seg18 m outs 𝒱₀ L lv E), .host (seg19 m outs 𝒱₀ L lv E), .host (seg20 m outs 𝒱₀ L lv E), .host (seg21 m outs 𝒱₀ L lv E), .host (seg22 m outs 𝒱₀ L lv E), .host (seg23 m outs 𝒱₀ L lv E), .host (seg24 m outs 𝒱₀ L lv E), .host (seg25 m outs 𝒱₀ L lv E), .host (seg26 m outs 𝒱₀ L lv E), .host (seg27 m outs 𝒱₀ L lv E), .host (seg28 m outs 𝒱₀ L lv E), .host (seg29 m outs 𝒱₀ L lv E), .host (seg30 m outs 𝒱₀ L lv E), .host (seg31 m outs 𝒱₀ L lv E), .host (seg32 m outs 𝒱₀ L lv E), .host (seg33 m outs 𝒱₀ L lv E), .host (seg34 m outs 𝒱₀ L lv E), .host (seg35 m outs 𝒱₀ L lv E), .host (seg36 m outs 𝒱₀ L lv E), .host (seg37 m outs 𝒱₀ L lv E), .host (seg38 m outs 𝒱₀ L lv E), .host (seg39 m outs 𝒱₀ L lv E), .host (seg40 m outs 𝒱₀ L lv E), .host (seg41 m outs 𝒱₀ L lv E), .host (seg42 m outs 𝒱₀ L lv E), .host (seg43 m outs 𝒱₀ L lv E), .host (seg44 m outs 𝒱₀ L lv E), .host (seg45 m outs 𝒱₀ L lv E), .host (seg46 m outs 𝒱₀ L lv E)]

end

set_option backward.isDefEq.respectTransparency.types false in

theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          StableHlo.seq hostOps7_4,
          StableHlo.seq hostOps7_5,
          StableHlo.seq hostOps7_6,
          StableHlo.seq hostOps7_7,
          StableHlo.seq hostOps7_8,
          StableHlo.seq hostOps7_9,
          StableHlo.seq hostOps7_10,
          StableHlo.seq hostOps7_11,
          StableHlo.seq hostOps7_12,
          StableHlo.seq hostOps7_13,
          StableHlo.seq hostOps7_14,
          StableHlo.seq hostOps7_15,
          StableHlo.seq hostOps7_16,
          StableHlo.seq hostOps7_17,
          StableHlo.seq hostOps7_18,
          StableHlo.seq hostOps7_19,
          StableHlo.seq hostOps7_20,
          StableHlo.seq hostOps7_21,
          StableHlo.seq hostOps7_22,
          StableHlo.seq hostOps7_23,
          StableHlo.seq hostOps7_24,
          StableHlo.seq hostOps7_25,
          StableHlo.seq hostOps7_26,
          StableHlo.seq hostOps7_27,
          StableHlo.seq hostOps7_28,
          StableHlo.seq hostOps7_29,
          StableHlo.seq hostOps7_30,
          StableHlo.seq hostOps7_31,
          StableHlo.seq hostOps7_32 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V47 m outs c))
    (hch := fun c => ⟨.rfl, hpre0 c, hpost0 c, hpre1 c, hpost1 c, hpre2 c, hpost2 c, hpre3 c, hpost3 c, hpre4 c, hpost4 c, hpre5 c, hpost5 c, hpre6 c, hpost6 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V47 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V47_main_arg0 m outs c),
        (h (Proc.devRef .tc main_arg1) (Finset.mem_filter.mpr ⟨StableHlo.devRef_mem_tcRefs main_arg1, by decide⟩)).trans (V47_main_arg1 m outs c),
        (h (Proc.devRef .tc main_arg2) (Finset.mem_filter.mpr ⟨StableHlo.devRef_mem_tcRefs main_arg2, by decide⟩)).trans (V47_main_arg2 m outs c)⟩
    · iexact HSI

end Cert.Kernel.GenP

end
-- ==== Proof.K.Run.lean ====
import proofs.«417949_j89438398972173_1_alg».proof.Proof.K.Reg0
import proofs.«417949_j89438398972173_1_alg».proof.Proof.K.Reg1
import proofs.«417949_j89438398972173_1_alg».proof.Proof.K.Reg2
import proofs.«417949_j89438398972173_1_alg».proof.Proof.K.Reg3
import proofs.«417949_j89438398972173_1_alg».proof.Proof.K.Reg4
import proofs.«417949_j89438398972173_1_alg».proof.Proof.K.Reg5
import proofs.«417949_j89438398972173_1_alg».proof.Proof.K.Reg6
import proofs.«417949_j89438398972173_1_alg».proof.Proof.KernelRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.FinCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

abbrev W3 (c : Dev nD) : Valuation τ sig (Elt F) := StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt F) ((c : Thread nD τ).loc b) := fun c b => W4 m c b

theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

abbrev W5 (c : Dev nD) : Valuation τ sig (Elt F) := StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev V6 : (c : Dev nD) → (b : Ref sig .tc) → Buf (Elt F) ((c : Thread nD τ).loc b) := fun c b => W6 m c b

theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))

abbrev W7 (c : Dev nD) : Valuation τ sig (Elt F) := StableHlo.after hostOps3 (W6 m c)

abbrev V7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

abbrev V8 : (c : Dev nD) → (b : Ref sig .tc) → Buf (Elt F) ((c : Thread nD τ).loc b) := fun c b => W8 m c b

theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))

abbrev W9 (c : Dev nD) : Valuation τ sig (Elt F) := StableHlo.after hostOps4 (W8 m c)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

abbrev V10 : (c : Dev nD) → (b : Ref sig .tc) → Buf (Elt F) ((c : Thread nD τ).loc b) := fun c b => W10 m c b

theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

theorem W10_in (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))

abbrev W11 (c : Dev nD) : Valuation τ sig (Elt F) := StableHlo.after hostOps5 (W10 m c)

abbrev V11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

abbrev V12 : (c : Dev nD) → (b : Ref sig .tc) → Buf (Elt F) ((c : Thread nD τ).loc b) := fun c b => W12 m c b

theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

theorem W12_in (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))

abbrev W13 (c : Dev nD) : Valuation τ sig (Elt F) := StableHlo.after hostOps6 (W12 m c)

abbrev V13 : (c : Dev nD) → (b : Ref sig .tc) → Buf (Elt F) ((c : Thread nD τ).loc b) := fun c b => W13 m c b

def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb

abbrev V14 : (c : Dev nD) → (b : Ref sig .tc) → Buf (Elt F) ((c : Thread nD τ).loc b) := fun c b => W14 m c b

theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)

theorem W14_in (c : Dev nD) (w : Fin cfg6.W) (hw : (cfg6.win w).isOut = false) :
    W14 m c (Proc.devRef .tc (Pipeline.arrRef spec6 w)) = W13 m c (Proc.devRef .tc (Pipeline.arrRef spec6 w)) :=
  (W14_arr m c w).trans (((dat6 (V13 m) c).arrAt_in w hw _).trans (A_eq6 (V13 m) c w))

abbrev W15 (c : Dev nD) : Valuation τ sig (Elt F) := StableHlo.after hostOps7 (W14 m c)

abbrev W16 (c : Dev nD) : Valuation τ sig (Elt F) := StableHlo.after hostOps7_1 (W15 m c)

abbrev W17 (c : Dev nD) : Valuation τ sig (Elt F) := StableHlo.after hostOps7_2 (W16 m c)

abbrev W18 (c : Dev nD) : Valuation τ sig (Elt F) := StableHlo.after hostOps7_3 (W17 m c)

abbrev W19 (c : Dev nD) : Valuation τ sig (Elt F) := StableHlo.after hostOps7_4 (W18 m c)

abbrev W20 (c : Dev nD) : Valuation τ sig (Elt F) := StableHlo.after hostOps7_5 (W19 m c)

abbrev W21 (c : Dev nD) : Valuation τ sig (Elt F) := StableHlo.after hostOps7_6 (W20 m c)

abbrev W22 (c : Dev nD) : Valuation τ sig (Elt F) := StableHlo.after hostOps7_7 (W21 m c)

abbrev W23 (c : Dev nD) : Valuation τ sig (Elt F) := StableHlo.after hostOps7_8 (W22 m c)

abbrev W24 (c : Dev nD) : Valuation τ sig (Elt F) := StableHlo.after hostOps7_9 (W23 m c)

abbrev W25 (c : Dev nD) : Valuation τ sig (Elt F) := StableHlo.after hostOps7_10 (W24 m c)

abbrev W26 (c : Dev nD) : Valuation τ sig (Elt F) := StableHlo.after hostOps7_11 (W25 m c)

abbrev W27 (c : Dev nD) : Valuation τ sig (Elt F) := StableHlo.after hostOps7_12 (W26 m c)

abbrev W28 (c : Dev nD) : Valuation τ sig (Elt F) := StableHlo.after hostOps7_13 (W27 m c)

abbrev W29 (c : Dev nD) : Valuation τ sig (Elt F) := StableHlo.after hostOps7_14 (W28 m c)

abbrev W30 (c : Dev nD) : Valuation τ sig (Elt F) := StableHlo.after hostOps7_15 (W29 m c)

abbrev W31 (c : Dev nD) : Valuation τ sig (Elt F) := StableHlo.after hostOps7_16 (W30 m c)

abbrev W32 (c : Dev nD) : Valuation τ sig (Elt F) := StableHlo.after hostOps7_17 (W31 m c)

abbrev W33 (c : Dev nD) : Valuation τ sig (Elt F) := StableHlo.after hostOps7_18 (W32 m c)

abbrev W34 (c : Dev nD) : Valuation τ sig (Elt F) := StableHlo.after hostOps7_19 (W33 m c)

abbrev W35 (c : Dev nD) : Valuation τ sig (Elt F) := StableHlo.after hostOps7_20 (W34 m c)

abbrev W36 (c : Dev nD) : Valuation τ sig (Elt F) := StableHlo.after hostOps7_21 (W35 m c)

abbrev W37 (c : Dev nD) : Valuation τ sig (Elt F) := StableHlo.after hostOps7_22 (W36 m c)

abbrev W38 (c : Dev nD) : Valuation τ sig (Elt F) := StableHlo.after hostOps7_23 (W37 m c)

abbrev W39 (c : Dev nD) : Valuation τ sig (Elt F) := StableHlo.after hostOps7_24 (W38 m c)

abbrev W40 (c : Dev nD) : Valuation τ sig (Elt F) := StableHlo.after hostOps7_25 (W39 m c)

abbrev W41 (c : Dev nD) : Valuation τ sig (Elt F) := StableHlo.after hostOps7_26 (W40 m c)

abbrev W42 (c : Dev nD) : Valuation τ sig (Elt F) := StableHlo.after hostOps7_27 (W41 m c)

abbrev W43 (c : Dev nD) : Valuation τ sig (Elt F) := StableHlo.after hostOps7_28 (W42 m c)

abbrev W44 (c : Dev nD) : Valuation τ sig (Elt F) := StableHlo.after hostOps7_29 (W43 m c)

abbrev W45 (c : Dev nD) : Valuation τ sig (Elt F) := StableHlo.after hostOps7_30 (W44 m c)

abbrev W46 (c : Dev nD) : Valuation τ sig (Elt F) := StableHlo.after hostOps7_31 (W45 m c)

abbrev W47 (c : Dev nD) : Valuation τ sig (Elt F) := StableHlo.after hostOps7_32 (W46 m c)

def outs : GenP.Outs (F := F) := fun J r c =>
  match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | 14 => W14 m c (Proc.devRef .tc r)
  | _ => W0 m c (Proc.devRef .tc r)

theorem V1_eq (c : Dev nD) : GenP.V1 m c = W1 m c := rfl
theorem V2_eq (c : Dev nD) : GenP.V2 m (outs m) c = W2 m c := by
  funext r
  show Function.update (Function.update (GenP.V1 m c) main_v21_0 (W2 m c main_v21_0)) main_v21_1 (W2 m c main_v21_1) r = W2 m c r
  rw [V1_eq]
  by_cases h1 : r = (main_v21_1 : DevRef τ sig)
  · subst h1; rw [Function.update_self]
  rw [Function.update_of_ne h1]
  by_cases h0 : r = (main_v21_0 : DevRef τ sig)
  · subst h0; rw [Function.update_self]
  rw [Function.update_of_ne h0]
  by_cases h : ∃ w : Fin 5, Proc.devRef .tc (Pipeline.arrRef spec0 w) = r
  · obtain ⟨w, rfl⟩ := h
    fin_cases w
    · exact (W2_in m c 0 rfl).symm
    · exact (W2_in m c 1 rfl).symm
    · exact (W2_in m c 2 rfl).symm
    · exact absurd rfl h0
    · exact absurd rfl h1
  · unfold W2 Pipeline.withArrays; rw [dif_neg h]
theorem V3_eq (c : Dev nD) : GenP.V3 m (outs m) c = W3 m c :=
  congrArg (StableHlo.after hostOps1) (V2_eq m c)
theorem V4_eq (c : Dev nD) : GenP.V4 m (outs m) c = W4 m c := by
  funext r
  show Function.update (Function.update (GenP.V3 m (outs m) c) main_v25_0 (W4 m c main_v25_0)) main_v25_1 (W4 m c main_v25_1) r = W4 m c r
  rw [V3_eq]
  by_cases h1 : r = (main_v25_1 : DevRef τ sig)
  · subst h1; rw [Function.update_self]
  rw [Function.update_of_ne h1]
  by_cases h0 : r = (main_v25_0 : DevRef τ sig)
  · subst h0; rw [Function.update_self]
  rw [Function.update_of_ne h0]
  by_cases h : ∃ w : Fin 5, Proc.devRef .tc (Pipeline.arrRef spec1 w) = r
  · obtain ⟨w, rfl⟩ := h
    fin_cases w
    · exact (W4_in m c 0 rfl).symm
    · exact (W4_in m c 1 rfl).symm
    · exact (W4_in m c 2 rfl).symm
    · exact absurd rfl h0
    · exact absurd rfl h1
  · unfold W4 Pipeline.withArrays; rw [dif_neg h]
theorem V5_eq (c : Dev nD) : GenP.V5 m (outs m) c = W5 m c :=
  congrArg (StableHlo.after hostOps2) (V4_eq m c)
theorem V6_eq (c : Dev nD) : GenP.V6 m (outs m) c = W6 m c := by
  funext r
  show Function.update (Function.update (GenP.V5 m (outs m) c) main_v29_0 (W6 m c main_v29_0)) main_v29_1 (W6 m c main_v29_1) r = W6 m c r
  rw [V5_eq]
  by_cases h1 : r = (main_v29_1 : DevRef τ sig)
  · subst h1; rw [Function.update_self]
  rw [Function.update_of_ne h1]
  by_cases h0 : r = (main_v29_0 : DevRef τ sig)
  · subst h0; rw [Function.update_self]
  rw [Function.update_of_ne h0]
  by_cases h : ∃ w : Fin 5, Proc.devRef .tc (Pipeline.arrRef spec2 w) = r
  · obtain ⟨w, rfl⟩ := h
    fin_cases w
    · exact (W6_in m c 0 rfl).symm
    · exact (W6_in m c 1 rfl).symm
    · exact (W6_in m c 2 rfl).symm
    · exact absurd rfl h0
    · exact absurd rfl h1
  · unfold W6 Pipeline.withArrays; rw [dif_neg h]
theorem V7_eq (c : Dev nD) : GenP.V7 m (outs m) c = W7 m c :=
  congrArg (StableHlo.after hostOps3) (V6_eq m c)
theorem V8_eq (c : Dev nD) : GenP.V8 m (outs m) c = W8 m c := by
  funext r
  show Function.update (Function.update (GenP.V7 m (outs m) c) main_v33_0 (W8 m c main_v33_0)) main_v33_1 (W8 m c main_v33_1) r = W8 m c r
  rw [V7_eq]
  by_cases h1 : r = (main_v33_1 : DevRef τ sig)
  · subst h1; rw [Function.update_self]
  rw [Function.update_of_ne h1]
  by_cases h0 : r = (main_v33_0 : DevRef τ sig)
  · subst h0; rw [Function.update_self]
  rw [Function.update_of_ne h0]
  by_cases h : ∃ w : Fin 5, Proc.devRef .tc (Pipeline.arrRef spec3 w) = r
  · obtain ⟨w, rfl⟩ := h
    fin_cases w
    · exact (W8_in m c 0 rfl).symm
    · exact (W8_in m c 1 rfl).symm
    · exact (W8_in m c 2 rfl).symm
    · exact absurd rfl h0
    · exact absurd rfl h1
  · unfold W8 Pipeline.withArrays; rw [dif_neg h]
theorem V9_eq (c : Dev nD) : GenP.V9 m (outs m) c = W9 m c :=
  congrArg (StableHlo.after hostOps4) (V8_eq m c)
theorem V10_eq (c : Dev nD) : GenP.V10 m (outs m) c = W10 m c := by
  funext r
  show Function.update (Function.update (GenP.V9 m (outs m) c) main_v37_0 (W10 m c main_v37_0)) main_v37_1 (W10 m c main_v37_1) r = W10 m c r
  rw [V9_eq]
  by_cases h1 : r = (main_v37_1 : DevRef τ sig)
  · subst h1; rw [Function.update_self]
  rw [Function.update_of_ne h1]
  by_cases h0 : r = (main_v37_0 : DevRef τ sig)
  · subst h0; rw [Function.update_self]
  rw [Function.update_of_ne h0]
  by_cases h : ∃ w : Fin 5, Proc.devRef .tc (Pipeline.arrRef spec4 w) = r
  · obtain ⟨w, rfl⟩ := h
    fin_cases w
    · exact (W10_in m c 0 rfl).symm
    · exact (W10_in m c 1 rfl).symm
    · exact (W10_in m c 2 rfl).symm
    · exact absurd rfl h0
    · exact absurd rfl h1
  · unfold W10 Pipeline.withArrays; rw [dif_neg h]
theorem V11_eq (c : Dev nD) : GenP.V11 m (outs m) c = W11 m c :=
  congrArg (StableHlo.after hostOps5) (V10_eq m c)
theorem V12_eq (c : Dev nD) : GenP.V12 m (outs m) c = W12 m c := by
  funext r
  show Function.update (Function.update (GenP.V11 m (outs m) c) main_v41_0 (W12 m c main_v41_0)) main_v41_1 (W12 m c main_v41_1) r = W12 m c r
  rw [V11_eq]
  by_cases h1 : r = (main_v41_1 : DevRef τ sig)
  · subst h1; rw [Function.update_self]
  rw [Function.update_of_ne h1]
  by_cases h0 : r = (main_v41_0 : DevRef τ sig)
  · subst h0; rw [Function.update_self]
  rw [Function.update_of_ne h0]
  by_cases h : ∃ w : Fin 5, Proc.devRef .tc (Pipeline.arrRef spec5 w) = r
  · obtain ⟨w, rfl⟩ := h
    fin_cases w
    · exact (W12_in m c 0 rfl).symm
    · exact (W12_in m c 1 rfl).symm
    · exact (W12_in m c 2 rfl).symm
    · exact absurd rfl h0
    · exact absurd rfl h1
  · unfold W12 Pipeline.withArrays; rw [dif_neg h]
theorem V13_eq (c : Dev nD) : GenP.V13 m (outs m) c = W13 m c :=
  congrArg (StableHlo.after hostOps6) (V12_eq m c)
theorem V14_eq (c : Dev nD) : GenP.V14 m (outs m) c = W14 m c := by
  funext r
  show Function.update (Function.update (GenP.V13 m (outs m) c) main_v45_0 (W14 m c main_v45_0)) main_v45_1 (W14 m c main_v45_1) r = W14 m c r
  rw [V13_eq]
  by_cases h1 : r = (main_v45_1 : DevRef τ sig)
  · subst h1; rw [Function.update_self]
  rw [Function.update_of_ne h1]
  by_cases h0 : r = (main_v45_0 : DevRef τ sig)
  · subst h0; rw [Function.update_self]
  rw [Function.update_of_ne h0]
  by_cases h : ∃ w : Fin 5, Proc.devRef .tc (Pipeline.arrRef spec6 w) = r
  · obtain ⟨w, rfl⟩ := h
    fin_cases w
    · exact (W14_in m c 0 rfl).symm
    · exact (W14_in m c 1 rfl).symm
    · exact (W14_in m c 2 rfl).symm
    · exact absurd rfl h0
    · exact absurd rfl h1
  · unfold W14 Pipeline.withArrays; rw [dif_neg h]
theorem V15_eq (c : Dev nD) : GenP.V15 m (outs m) c = W15 m c :=
  congrArg (StableHlo.after hostOps7) (V14_eq m c)
theorem V16_eq (c : Dev nD) : GenP.V16 m (outs m) c = W16 m c :=
  congrArg (StableHlo.after hostOps7_1) (V15_eq m c)
theorem V17_eq (c : Dev nD) : GenP.V17 m (outs m) c = W17 m c :=
  congrArg (StableHlo.after hostOps7_2) (V16_eq m c)
theorem V18_eq (c : Dev nD) : GenP.V18 m (outs m) c = W18 m c :=
  congrArg (StableHlo.after hostOps7_3) (V17_eq m c)
theorem V19_eq (c : Dev nD) : GenP.V19 m (outs m) c = W19 m c :=
  congrArg (StableHlo.after hostOps7_4) (V18_eq m c)
theorem V20_eq (c : Dev nD) : GenP.V20 m (outs m) c = W20 m c :=
  congrArg (StableHlo.after hostOps7_5) (V19_eq m c)
theorem V21_eq (c : Dev nD) : GenP.V21 m (outs m) c = W21 m c :=
  congrArg (StableHlo.after hostOps7_6) (V20_eq m c)
theorem V22_eq (c : Dev nD) : GenP.V22 m (outs m) c = W22 m c :=
  congrArg (StableHlo.after hostOps7_7) (V21_eq m c)
theorem V23_eq (c : Dev nD) : GenP.V23 m (outs m) c = W23 m c :=
  congrArg (StableHlo.after hostOps7_8) (V22_eq m c)
theorem V24_eq (c : Dev nD) : GenP.V24 m (outs m) c = W24 m c :=
  congrArg (StableHlo.after hostOps7_9) (V23_eq m c)
theorem V25_eq (c : Dev nD) : GenP.V25 m (outs m) c = W25 m c :=
  congrArg (StableHlo.after hostOps7_10) (V24_eq m c)
theorem V26_eq (c : Dev nD) : GenP.V26 m (outs m) c = W26 m c :=
  congrArg (StableHlo.after hostOps7_11) (V25_eq m c)
theorem V27_eq (c : Dev nD) : GenP.V27 m (outs m) c = W27 m c :=
  congrArg (StableHlo.after hostOps7_12) (V26_eq m c)
theorem V28_eq (c : Dev nD) : GenP.V28 m (outs m) c = W28 m c :=
  congrArg (StableHlo.after hostOps7_13) (V27_eq m c)
theorem V29_eq (c : Dev nD) : GenP.V29 m (outs m) c = W29 m c :=
  congrArg (StableHlo.after hostOps7_14) (V28_eq m c)
theorem V30_eq (c : Dev nD) : GenP.V30 m (outs m) c = W30 m c :=
  congrArg (StableHlo.after hostOps7_15) (V29_eq m c)
theorem V31_eq (c : Dev nD) : GenP.V31 m (outs m) c = W31 m c :=
  congrArg (StableHlo.after hostOps7_16) (V30_eq m c)
theorem V32_eq (c : Dev nD) : GenP.V32 m (outs m) c = W32 m c :=
  congrArg (StableHlo.after hostOps7_17) (V31_eq m c)
theorem V33_eq (c : Dev nD) : GenP.V33 m (outs m) c = W33 m c :=
  congrArg (StableHlo.after hostOps7_18) (V32_eq m c)
theorem V34_eq (c : Dev nD) : GenP.V34 m (outs m) c = W34 m c :=
  congrArg (StableHlo.after hostOps7_19) (V33_eq m c)
theorem V35_eq (c : Dev nD) : GenP.V35 m (outs m) c = W35 m c :=
  congrArg (StableHlo.after hostOps7_20) (V34_eq m c)
theorem V36_eq (c : Dev nD) : GenP.V36 m (outs m) c = W36 m c :=
  congrArg (StableHlo.after hostOps7_21) (V35_eq m c)
theorem V37_eq (c : Dev nD) : GenP.V37 m (outs m) c = W37 m c :=
  congrArg (StableHlo.after hostOps7_22) (V36_eq m c)
theorem V38_eq (c : Dev nD) : GenP.V38 m (outs m) c = W38 m c :=
  congrArg (StableHlo.after hostOps7_23) (V37_eq m c)
theorem V39_eq (c : Dev nD) : GenP.V39 m (outs m) c = W39 m c :=
  congrArg (StableHlo.after hostOps7_24) (V38_eq m c)
theorem V40_eq (c : Dev nD) : GenP.V40 m (outs m) c = W40 m c :=
  congrArg (StableHlo.after hostOps7_25) (V39_eq m c)
theorem V41_eq (c : Dev nD) : GenP.V41 m (outs m) c = W41 m c :=
  congrArg (StableHlo.after hostOps7_26) (V40_eq m c)
theorem V42_eq (c : Dev nD) : GenP.V42 m (outs m) c = W42 m c :=
  congrArg (StableHlo.after hostOps7_27) (V41_eq m c)
theorem V43_eq (c : Dev nD) : GenP.V43 m (outs m) c = W43 m c :=
  congrArg (StableHlo.after hostOps7_28) (V42_eq m c)
theorem V44_eq (c : Dev nD) : GenP.V44 m (outs m) c = W44 m c :=
  congrArg (StableHlo.after hostOps7_29) (V43_eq m c)
theorem V45_eq (c : Dev nD) : GenP.V45 m (outs m) c = W45 m c :=
  congrArg (StableHlo.after hostOps7_30) (V44_eq m c)
theorem V46_eq (c : Dev nD) : GenP.V46 m (outs m) c = W46 m c :=
  congrArg (StableHlo.after hostOps7_31) (V45_eq m c)
theorem V47_eq (c : Dev nD) : GenP.V47 m (outs m) c = W47 m c :=
  congrArg (StableHlo.after hostOps7_32) (V46_eq m c)

def pdats : (p : Fin 7) → (c : Dev nD) → Dat τ (Elt F) Unit ℕ (UR sig nD τ) ℕ (Pipeline.pin (pcfgs (F := F)) GenP.adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hu₀ : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (URounds (GSem nD τ sig) Unit) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : (R (F := F) c) ⊢ (iprop(∃ W, owes (c : Thread nD τ) (0 : CellTallies nD τ sig Unit) W) : sProp 𝕄) := by
  iintro ⟨-, HO⟩; iexact HO

set_option backward.isDefEq.respectTransparency.types false in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  GenP.frame_cond (m := m) (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE7 := hE7)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)

end Cert.Kernel.Hand

end
-- ==== Proof.KI.Reg0.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S2048x128 := Rect.unit (s := S2048x128) ![0, 0] S2048x128.size inb_S2048x128_S2048x128_0_0
abbrev r0_b : Rect S2048x64 := Rect.unit (s := S2048x64) ![0, 0] S2048x64.size inb_S2048x64_S2048x64_0_0

def out0_3 (x0 : Vec F S2048x128 .f32) (x1 : Vec F S2048x128 .f32) (x2 : Vec F S2048x64 .f32) : Vec F S2048x64 .f32 :=
  View.canon [⟨r0_b, k0_pay4 (View.ld x0 r0_a) (View.ld x1 r0_a) (View.ld x2 r0_b)⟩]

def out0_4 (x0 : Vec F S2048x128 .f32) (x1 : Vec F S2048x128 .f32) (x2 : Vec F S2048x64 .f32) : Vec F S2048x64 .f32 :=
  View.canon [⟨r0_b, k0_pay1 (k0_pay3 (View.ld x1 r0_a))⟩]

theorem cover0_b (p0 : Vec F S2048x64 .f32) (y : S2048x64.Idx) :
    ∃ pc ∈ ([⟨r0_b, p0⟩] : List (View.Piece (Elt F) S2048x64 .f32)), y ∈ pc.1.set :=
  View.cover_of_tiled [⟨r0_b, p0⟩] S2048x64.size (by rfl) y

set_option maxHeartbeats 1000000 in

theorem sound_kernel0 (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole)
    (x0 : Vec F S2048x128 .f32) (x1 : Vec F S2048x128 .f32) (x2 : Vec F S2048x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__level_step_kernel i arg1 harg1 arg2 harg2 arg3 harg3 arg4 harg4 arg5 harg5) K := by
  simp only [cc0__level_step_kernel_eq_skeleton]; unfold cc0__level_step_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_b _)
  iexists _; isplitr
  swap; · iexact H4
  ipureintro
  exact View.read_writes_eq_canon _ _ _ (cover0_b _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S2048x64 := Rect.unit (s := S2048x64) ![0, 0] S2048x64.size inb_S2048x64_S2048x64_0_0
abbrev r1_b : Rect S2048x32 := Rect.unit (s := S2048x32) ![0, 0] S2048x32.size inb_S2048x32_S2048x32_0_0

def out1_3 (x0 : Vec F S2048x64 .f32) (x1 : Vec F S2048x64 .f32) (x2 : Vec F S2048x32 .f32) : Vec F S2048x32 .f32 :=
  View.canon [⟨r1_b, k1_pay4 (View.ld x0 r1_a) (View.ld x1 r1_a) (View.ld x2 r1_b)⟩]

def out1_4 (x0 : Vec F S2048x64 .f32) (x1 : Vec F S2048x64 .f32) (x2 : Vec F S2048x32 .f32) : Vec F S2048x32 .f32 :=
  View.canon [⟨r1_b, k1_pay1 (k1_pay3 (View.ld x1 r1_a))⟩]

theorem cover1_b (p0 : Vec F S2048x32 .f32) (y : S2048x32.Idx) :
    ∃ pc ∈ ([⟨r1_b, p0⟩] : List (View.Piece (Elt F) S2048x32 .f32)), y ∈ pc.1.set :=
  View.cover_of_tiled [⟨r1_b, p0⟩] S2048x32.size (by rfl) y

set_option maxHeartbeats 1000000 in

theorem sound_kernel1 (c : Dev nD) (E : Set ℕ) (i : grid1.Coords)
    (arg1 : Memref sig .tc .vmem S2048x64 .f32) (harg1 : arg1.IsWhole) (arg2 : Memref sig .tc .vmem S2048x64 .f32) (harg2 : arg2.IsWhole)
    (arg3 : Memref sig .tc .vmem S2048x32 .f32) (harg3 : arg3.IsWhole) (arg4 : Memref sig .tc .vmem S2048x32 .f32) (harg4 : arg4.IsWhole)
    (arg5 : Memref sig .tc .vmem S2048x32 .f32) (harg5 : arg5.IsWhole)
    (x0 : Vec F S2048x64 .f32) (x1 : Vec F S2048x64 .f32) (x2 : Vec F S2048x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__level_step_kernel i arg1 harg1 arg2 harg2 arg3 harg3 arg4 harg4 arg5 harg5) K := by
  simp only [cc1__level_step_kernel_eq_skeleton]; unfold cc1__level_step_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_b _)
  iexists _; isplitr
  swap; · iexact H4
  ipureintro
  exact View.read_writes_eq_canon _ _ _ (cover1_b _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S2048x32 := Rect.unit (s := S2048x32) ![0, 0] S2048x32.size inb_S2048x32_S2048x32_0_0
abbrev r2_b : Rect S2048x16 := Rect.unit (s := S2048x16) ![0, 0] S2048x16.size inb_S2048x16_S2048x16_0_0

def out2_3 (x0 : Vec F S2048x32 .f32) (x1 : Vec F S2048x32 .f32) (x2 : Vec F S2048x16 .f32) : Vec F S2048x16 .f32 :=
  View.canon [⟨r2_b, k2_pay4 (View.ld x0 r2_a) (View.ld x1 r2_a) (View.ld x2 r2_b)⟩]

def out2_4 (x0 : Vec F S2048x32 .f32) (x1 : Vec F S2048x32 .f32) (x2 : Vec F S2048x16 .f32) : Vec F S2048x16 .f32 :=
  View.canon [⟨r2_b, k2_pay1 (k2_pay3 (View.ld x1 r2_a))⟩]

theorem cover2_b (p0 : Vec F S2048x16 .f32) (y : S2048x16.Idx) :
    ∃ pc ∈ ([⟨r2_b, p0⟩] : List (View.Piece (Elt F) S2048x16 .f32)), y ∈ pc.1.set :=
  View.cover_of_tiled [⟨r2_b, p0⟩] S2048x16.size (by rfl) y

set_option maxHeartbeats 1000000 in

theorem sound_kernel2 (c : Dev nD) (E : Set ℕ) (i : grid2.Coords)
    (arg1 : Memref sig .tc .vmem S2048x32 .f32) (harg1 : arg1.IsWhole) (arg2 : Memref sig .tc .vmem S2048x32 .f32) (harg2 : arg2.IsWhole)
    (arg3 : Memref sig .tc .vmem S2048x16 .f32) (harg3 : arg3.IsWhole) (arg4 : Memref sig .tc .vmem S2048x16 .f32) (harg4 : arg4.IsWhole)
    (arg5 : Memref sig .tc .vmem S2048x16 .f32) (harg5 : arg5.IsWhole)
    (x0 : Vec F S2048x32 .f32) (x1 : Vec F S2048x32 .f32) (x2 : Vec F S2048x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__level_step_kernel i arg1 harg1 arg2 harg2 arg3 harg3 arg4 harg4 arg5 harg5) K := by
  simp only [cc2__level_step_kernel_eq_skeleton]; unfold cc2__level_step_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_b _)
  iexists _; isplitr
  swap; · iexact H4
  ipureintro
  exact View.read_writes_eq_canon _ _ _ (cover2_b _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Reg3.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2048x16 := Rect.unit (s := S2048x16) ![0, 0] S2048x16.size inb_S2048x16_S2048x16_0_0
abbrev r3_b : Rect S2048x8 := Rect.unit (s := S2048x8) ![0, 0] S2048x8.size inb_S2048x8_S2048x8_0_0

def out3_3 (x0 : Vec F S2048x16 .f32) (x1 : Vec F S2048x16 .f32) (x2 : Vec F S2048x8 .f32) : Vec F S2048x8 .f32 :=
  View.canon [⟨r3_b, k3_pay4 (View.ld x0 r3_a) (View.ld x1 r3_a) (View.ld x2 r3_b)⟩]

def out3_4 (x0 : Vec F S2048x16 .f32) (x1 : Vec F S2048x16 .f32) (x2 : Vec F S2048x8 .f32) : Vec F S2048x8 .f32 :=
  View.canon [⟨r3_b, k3_pay1 (k3_pay3 (View.ld x1 r3_a))⟩]

theorem cover3_b (p0 : Vec F S2048x8 .f32) (y : S2048x8.Idx) :
    ∃ pc ∈ ([⟨r3_b, p0⟩] : List (View.Piece (Elt F) S2048x8 .f32)), y ∈ pc.1.set :=
  View.cover_of_tiled [⟨r3_b, p0⟩] S2048x8.size (by rfl) y

set_option maxHeartbeats 1000000 in

theorem sound_kernel3 (c : Dev nD) (E : Set ℕ) (i : grid3.Coords)
    (arg1 : Memref sig .tc .vmem S2048x16 .f32) (harg1 : arg1.IsWhole) (arg2 : Memref sig .tc .vmem S2048x16 .f32) (harg2 : arg2.IsWhole)
    (arg3 : Memref sig .tc .vmem S2048x8 .f32) (harg3 : arg3.IsWhole) (arg4 : Memref sig .tc .vmem S2048x8 .f32) (harg4 : arg4.IsWhole)
    (arg5 : Memref sig .tc .vmem S2048x8 .f32) (harg5 : arg5.IsWhole)
    (x0 : Vec F S2048x16 .f32) (x1 : Vec F S2048x16 .f32) (x2 : Vec F S2048x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2) ∗ owns (c : Thread nD τ) arg5 fullShare (out3_4 x0 x1 x2)) -∗ K ⟨⟩))
      ⊢ wp frame (wpE (defs₀ (F := F)) Variants.none c none) E (cc3__level_step_kernel i arg1 harg1 arg2 harg2 arg3 harg3 arg4 harg4 arg5 harg5) K := by
  simp only [cc3__level_step_kernel_eq_skeleton]; unfold cc3__level_step_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_b _)
  iexists _; isplitr
  swap; · iexact H4
  ipureintro
  exact View.read_writes_eq_canon _ _ _ (cover3_b _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Reg4.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S2048x8 := Rect.unit (s := S2048x8) ![0, 0] S2048x8.size inb_S2048x8_S2048x8_0_0
abbrev r4_b : Rect S2048x4 := Rect.unit (s := S2048x4) ![0, 0] S2048x4.size inb_S2048x4_S2048x4_0_0

def out4_3 (x0 : Vec F S2048x8 .f32) (x1 : Vec F S2048x8 .f32) (x2 : Vec F S2048x4 .f32) : Vec F S2048x4 .f32 :=
  View.canon [⟨r4_b, k4_pay4 (View.ld x0 r4_a) (View.ld x1 r4_a) (View.ld x2 r4_b)⟩]

def out4_4 (x0 : Vec F S2048x8 .f32) (x1 : Vec F S2048x8 .f32) (x2 : Vec F S2048x4 .f32) : Vec F S2048x4 .f32 :=
  View.canon [⟨r4_b, k4_pay1 (k4_pay3 (View.ld x1 r4_a))⟩]

theorem cover4_b (p0 : Vec F S2048x4 .f32) (y : S2048x4.Idx) :
    ∃ pc ∈ ([⟨r4_b, p0⟩] : List (View.Piece (Elt F) S2048x4 .f32)), y ∈ pc.1.set :=
  View.cover_of_tiled [⟨r4_b, p0⟩] S2048x4.size (by rfl) y

set_option maxHeartbeats 1000000 in

theorem sound_kernel4 (c : Dev nD) (E : Set ℕ) (i : grid4.Coords)
    (arg1 : Memref sig .tc .vmem S2048x8 .f32) (harg1 : arg1.IsWhole) (arg2 : Memref sig .tc .vmem S2048x8 .f32) (harg2 : arg2.IsWhole)
    (arg3 : Memref sig .tc .vmem S2048x4 .f32) (harg3 : arg3.IsWhole) (arg4 : Memref sig .tc .vmem S2048x4 .f32) (harg4 : arg4.IsWhole)
    (arg5 : Memref sig .tc .vmem S2048x4 .f32) (harg5 : arg5.IsWhole)
    (x0 : Vec F S2048x8 .f32) (x1 : Vec F S2048x8 .f32) (x2 : Vec F S2048x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__level_step_kernel i arg1 harg1 arg2 harg2 arg3 harg3 arg4 harg4 arg5 harg5) K := by
  simp only [cc4__level_step_kernel_eq_skeleton]; unfold cc4__level_step_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_b _)
  iexists _; isplitr
  swap; · iexact H4
  ipureintro
  exact View.read_writes_eq_canon _ _ _ (cover4_b _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.Reg5.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_a : Rect S2048x4 := Rect.unit (s := S2048x4) ![0, 0] S2048x4.size inb_S2048x4_S2048x4_0_0
abbrev r5_b : Rect S2048x2 := Rect.unit (s := S2048x2) ![0, 0] S2048x2.size inb_S2048x2_S2048x2_0_0

def out5_3 (x0 : Vec F S2048x4 .f32) (x1 : Vec F S2048x4 .f32) (x2 : Vec F S2048x2 .f32) : Vec F S2048x2 .f32 :=
  View.canon [⟨r5_b, k5_pay4 (View.ld x0 r5_a) (View.ld x1 r5_a) (View.ld x2 r5_b)⟩]

def out5_4 (x0 : Vec F S2048x4 .f32) (x1 : Vec F S2048x4 .f32) (x2 : Vec F S2048x2 .f32) : Vec F S2048x2 .f32 :=
  View.canon [⟨r5_b, k5_pay1 (k5_pay3 (View.ld x1 r5_a))⟩]

theorem cover5_b (p0 : Vec F S2048x2 .f32) (y : S2048x2.Idx) :
    ∃ pc ∈ ([⟨r5_b, p0⟩] : List (View.Piece (Elt F) S2048x2 .f32)), y ∈ pc.1.set :=
  View.cover_of_tiled [⟨r5_b, p0⟩] S2048x2.size (by rfl) y

set_option maxHeartbeats 1000000 in

theorem sound_kernel5 (c : Dev nD) (E : Set ℕ) (i : grid5.Coords)
    (arg1 : Memref sig .tc .vmem S2048x4 .f32) (harg1 : arg1.IsWhole) (arg2 : Memref sig .tc .vmem S2048x4 .f32) (harg2 : arg2.IsWhole)
    (arg3 : Memref sig .tc .vmem S2048x2 .f32) (harg3 : arg3.IsWhole) (arg4 : Memref sig .tc .vmem S2048x2 .f32) (harg4 : arg4.IsWhole)
    (arg5 : Memref sig .tc .vmem S2048x2 .f32) (harg5 : arg5.IsWhole)
    (x0 : Vec F S2048x4 .f32) (x1 : Vec F S2048x4 .f32) (x2 : Vec F S2048x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2) ∗ owns (c : Thread nD τ) arg5 fullShare (out5_4 x0 x1 x2)) -∗ K ⟨⟩))
      ⊢ wp frame (wpE (defs₀ (F := F)) Variants.none c none) E (cc5__level_step_kernel i arg1 harg1 arg2 harg2 arg3 harg3 arg4 harg4 arg5 harg5) K := by
  simp only [cc5__level_step_kernel_eq_skeleton]; unfold cc5__level_step_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_b _)
  iexists _; isplitr
  swap; · iexact H4
  ipureintro
  exact View.read_writes_eq_canon _ _ _ (cover5_b _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.Reg6.lean ====
import proofs.«417949_j89438398972173_1_alg».proof.Proof.Gen.KernelIdeal.Launch
import proofs.«417949_j89438398972173_1_alg».proof.Proof.Gen.KernelIdeal.Skeleton
import proofs.«417949_j89438398972173_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S2048x2 := Rect.unit (s := S2048x2) ![0, 0] S2048x2.size inb_S2048x2_S2048x2_0_0
abbrev r6_b : Rect S2048x1 := Rect.unit (s := S2048x1) ![0, 0] S2048x1.size inb_S2048x1_S2048x1_0_0

def out6_3 (x0 : Vec F S2048x2 .f32) (x1 : Vec F S2048x2 .f32) (x2 : Vec F S2048x1 .f32) : Vec F S2048x1 .f32 :=
  View.canon [⟨r6_b, k6_pay4 (View.ld x0 r6_a) (View.ld x1 r6_a) (View.ld x2 r6_b)⟩]

def out6_4 (x0 : Vec F S2048x2 .f32) (x1 : Vec F S2048x2 .f32) (x2 : Vec F S2048x1 .f32) : Vec F S2048x1 .f32 :=
  View.canon [⟨r6_b, k6_pay1 (k6_pay3 (View.ld x1 r6_a))⟩]

theorem cover6_b (p0 : Vec F S2048x1 .f32) (y : S2048x1.Idx) :
    ∃ pc ∈ ([⟨r6_b, p0⟩] : List (View.Piece (Elt F) S2048x1 .f32)), y ∈ pc.1.set :=
  View.cover_of_tiled [⟨r6_b, p0⟩] S2048x1.size (by rfl) y

set_option maxHeartbeats 1000000 in

theorem sound_kernel6 (c : Dev nD) (E : Set ℕ) (i : grid6.Coords)
    (arg1 : Memref sig .tc .vmem S2048x2 .f32) (harg1 : arg1.IsWhole) (arg2 : Memref sig .tc .vmem S2048x2 .f32) (harg2 : arg2.IsWhole)
    (arg3 : Memref sig .tc .vmem S2048x1 .f32) (harg3 : arg3.IsWhole) (arg4 : Memref sig .tc .vmem S2048x1 .f32) (harg4 : arg4.IsWhole)
    (arg5 : Memref sig .tc .vmem S2048x1 .f32) (harg5 : arg5.IsWhole)
    (x0 : Vec F S2048x2 .f32) (x1 : Vec F S2048x2 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2) ∗ owns (c : Thread nD τ) arg5 fullShare (out6_4 x0 x1 x2)) -∗ K ⟨⟩))
      ⊢ wp frame (wpE (defs₀ (F := F)) Variants.none c none) E (cc6__level_step_kernel i arg1 harg1 arg2 harg2 arg3 harg3 arg4 harg4 arg5 harg5) K := by
  simp only [cc6__level_step_kernel_eq_skeleton]; unfold cc6__level_step_kernel_skel
  simp only [k6_part1_eq_skeleton]; unfold k6_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_b _)
  iexists _; isplitr
  swap; · iexact H4
  ipureintro
  exact View.read_writes_eq_canon _ _ _ (cover6_b _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KernelIdealRegions.lean ====
import proofs.«417949_j89438398972173_1_alg».proof.Proof.Gen.KernelIdeal.Launch
import Idealize.ShloMosaic.Lib.Pipeline.Frame
import Idealize.ShloMosaic.Lib.Pipeline.Regions

set_option maxRecDepth 2156

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := Function.update (Function.update (V1 m c) main_v21_0 (outs 2 main_v21_0 c)) main_v21_1 (outs 2 main_v21_1 c)

abbrev V3 (c : Dev nD) : Valuation τ sig (Elt F) := StableHlo.after hostOps1 (V2 m outs c)

abbrev V4 (c : Dev nD) : Valuation τ sig (Elt F) := Function.update (Function.update (V3 m outs c) main_v25_0 (outs 4 main_v25_0 c)) main_v25_1 (outs 4 main_v25_1 c)

abbrev V5 (c : Dev nD) : Valuation τ sig (Elt F) := StableHlo.after hostOps2 (V4 m outs c)

abbrev V6 (c : Dev nD) : Valuation τ sig (Elt F) := Function.update (Function.update (V5 m outs c) main_v29_0 (outs 6 main_v29_0 c)) main_v29_1 (outs 6 main_v29_1 c)

abbrev V7 (c : Dev nD) : Valuation τ sig (Elt F) := StableHlo.after hostOps3 (V6 m outs c)

abbrev V8 (c : Dev nD) : Valuation τ sig (Elt F) := Function.update (Function.update (V7 m outs c) main_v33_0 (outs 8 main_v33_0 c)) main_v33_1 (outs 8 main_v33_1 c)

abbrev V9 (c : Dev nD) : Valuation τ sig (Elt F) := StableHlo.after hostOps4 (V8 m outs c)

abbrev V10 (c : Dev nD) : Valuation τ sig (Elt F) := Function.update (Function.update (V9 m outs c) main_v37_0 (outs 10 main_v37_0 c)) main_v37_1 (outs 10 main_v37_1 c)

abbrev V11 (c : Dev nD) : Valuation τ sig (Elt F) := StableHlo.after hostOps5 (V10 m outs c)

abbrev V12 (c : Dev nD) : Valuation τ sig (Elt F) := Function.update (Function.update (V11 m outs c) main_v41_0 (outs 12 main_v41_0 c)) main_v41_1 (outs 12 main_v41_1 c)

abbrev V13 (c : Dev nD) : Valuation τ sig (Elt F) := StableHlo.after hostOps6 (V12 m outs c)

abbrev V14 (c : Dev nD) : Valuation τ sig (Elt F) := Function.update (Function.update (V13 m outs c) main_v45_0 (outs 14 main_v45_0 c)) main_v45_1 (outs 14 main_v45_1 c)

abbrev V15 (c : Dev nD) : Valuation τ sig (Elt F) := StableHlo.after hostOps7 (V14 m outs c)

abbrev V16 (c : Dev nD) : Valuation τ sig (Elt F) := StableHlo.after hostOps7_1 (V15 m outs c)

abbrev V17 (c : Dev nD) : Valuation τ sig (Elt F) := StableHlo.after hostOps7_2 (V16 m outs c)

abbrev V18 (c : Dev nD) : Valuation τ sig (Elt F) := StableHlo.after hostOps7_3 (V17 m outs c)

abbrev V19 (c : Dev nD) : Valuation τ sig (Elt F) := StableHlo.after hostOps7_4 (V18 m outs c)

abbrev V20 (c : Dev nD) : Valuation τ sig (Elt F) := StableHlo.after hostOps7_5 (V19 m outs c)

abbrev V21 (c : Dev nD) : Valuation τ sig (Elt F) := StableHlo.after hostOps7_6 (V20 m outs c)

abbrev V22 (c : Dev nD) : Valuation τ sig (Elt F) := StableHlo.after hostOps7_7 (V21 m outs c)

abbrev V23 (c : Dev nD) : Valuation τ sig (Elt F) := StableHlo.after hostOps7_8 (V22 m outs c)

abbrev V24 (c : Dev nD) : Valuation τ sig (Elt F) := StableHlo.after hostOps7_9 (V23 m outs c)

abbrev V25 (c : Dev nD) : Valuation τ sig (Elt F) := StableHlo.after hostOps7_10 (V24 m outs c)

abbrev V26 (c : Dev nD) : Valuation τ sig (Elt F) := StableHlo.after hostOps7_11 (V25 m outs c)

abbrev V27 (c : Dev nD) : Valuation τ sig (Elt F) := StableHlo.after hostOps7_12 (V26 m outs c)

abbrev V28 (c : Dev nD) : Valuation τ sig (Elt F) := StableHlo.after hostOps7_13 (V27 m outs c)

abbrev V29 (c : Dev nD) : Valuation τ sig (Elt F) := StableHlo.after hostOps7_14 (V28 m outs c)

abbrev V30 (c : Dev nD) : Valuation τ sig (Elt F) := StableHlo.after hostOps7_15 (V29 m outs c)

abbrev V31 (c : Dev nD) : Valuation τ sig (Elt F) := StableHlo.after hostOps7_16 (V30 m outs c)

abbrev V32 (c : Dev nD) : Valuation τ sig (Elt F) := StableHlo.after hostOps7_17 (V31 m outs c)

abbrev V33 (c : Dev nD) : Valuation τ sig (Elt F) := StableHlo.after hostOps7_18 (V32 m outs c)

abbrev V34 (c : Dev nD) : Valuation τ sig (Elt F) := StableHlo.after hostOps7_19 (V33 m outs c)

abbrev V35 (c : Dev nD) : Valuation τ sig (Elt F) := StableHlo.after hostOps7_20 (V34 m outs c)

abbrev V36 (c : Dev nD) : Valuation τ sig (Elt F) := StableHlo.after hostOps7_21 (V35 m outs c)

abbrev V37 (c : Dev nD) : Valuation τ sig (Elt F) := StableHlo.after hostOps7_22 (V36 m outs c)

abbrev V38 (c : Dev nD) : Valuation τ sig (Elt F) := StableHlo.after hostOps7_23 (V37 m outs c)

abbrev V39 (c : Dev nD) : Valuation τ sig (Elt F) := StableHlo.after hostOps7_24 (V38 m outs c)

abbrev V40 (c : Dev nD) : Valuation τ sig (Elt F) := StableHlo.after hostOps7_25 (V39 m outs c)

abbrev V41 (c : Dev nD) : Valuation τ sig (Elt F) := StableHlo.after hostOps7_26 (V40 m outs c)

abbrev V42 (c : Dev nD) : Valuation τ sig (Elt F) := StableHlo.after hostOps7_27 (V41 m outs c)

abbrev V43 (c : Dev nD) : Valuation τ sig (Elt F) := StableHlo.after hostOps7_28 (V42 m outs c)

abbrev V44 (c : Dev nD) : Valuation τ sig (Elt F) := StableHlo.after hostOps7_29 (V43 m outs c)

abbrev V45 (c : Dev nD) : Valuation τ sig (Elt F) := StableHlo.after hostOps7_30 (V44 m outs c)

abbrev V46 (c : Dev nD) : Valuation τ sig (Elt F) := StableHlo.after hostOps7_31 (V45 m outs c)

abbrev V47 (c : Dev nD) : Valuation τ sig (Elt F) := StableHlo.after hostOps7_32 (V46 m outs c)

theorem hostOps0_fresh : (hostOps0 : List (HloOp τ sig (Elt F))).Forall fun op => op.fresh = ∅ := by
  simp only [List.Forall]; repeat' constructor

abbrev hostOps0_W : List (Ref sig .tc) := [main_v0, main_c, main_v1, main_v2, main_c_0, main_v3, main_v4, main_v5, main_v6, main_v7, main_cst, main_v8, main_c_1, main_v9, main_v10, main_c_2, main_v11, main_v12, main_v13, main_v14, main_cst_3, main_v15, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_v22, main_v23, main_v24]
theorem hostOps1_writes : (hostOps1 : List (HloOp τ sig (Elt F))).Forall fun op => op.writes ⊆ (hostOps1_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_v26, main_v27, main_v28]
theorem hostOps2_writes : (hostOps2 : List (HloOp τ sig (Elt F))).Forall fun op => op.writes ⊆ (hostOps2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_v30, main_v31, main_v32]
theorem hostOps3_writes : (hostOps3 : List (HloOp τ sig (Elt F))).Forall fun op => op.writes ⊆ (hostOps3_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_v34, main_v35, main_v36]
theorem hostOps4_writes : (hostOps4 : List (HloOp τ sig (Elt F))).Forall fun op => op.writes ⊆ (hostOps4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_v38, main_v39, main_v40]
theorem hostOps5_writes : (hostOps5 : List (HloOp τ sig (Elt F))).Forall fun op => op.writes ⊆ (hostOps5_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_fresh : (hostOps6 : List (HloOp τ sig (Elt F))).Forall fun op => op.fresh = ∅ := by
  simp only [List.Forall]; repeat' constructor

abbrev hostOps6_W : List (Ref sig .tc) := [main_v42, main_v43, main_v44]
theorem hostOps6_writes : (hostOps6 : List (HloOp τ sig (Elt F))).Forall fun op => op.writes ⊆ (hostOps6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_fresh : (hostOps7 : List (HloOp τ sig (Elt F))).Forall fun op => op.fresh = ∅ := by
  simp only [List.Forall]; repeat' constructor

abbrev hostOps7_W : List (Ref sig .tc) := [main_v46, main_v47, main_v48, main_v49, main_v50, main_v51, main_v52, main_v53, main_v54, main_v55, main_v56, main_v57, main_v58, main_v59, main_v60, main_v61, main_cst_4, main_v62, main_v63]
theorem hostOps7_writes : (hostOps7 : List (HloOp τ sig (Elt F))).Forall fun op => op.writes ⊆ (hostOps7_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_1_fresh : (hostOps7_1 : List (HloOp τ sig (Elt F))).Forall fun op => op.fresh = ∅ := by
  simp only [List.Forall]; repeat' constructor

abbrev hostOps7_1_W : List (Ref sig .tc) := [main_v64]
theorem hostOps7_1_writes : (hostOps7_1 : List (HloOp τ sig (Elt F))).Forall fun op => op.writes ⊆ (hostOps7_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_2_fresh : (hostOps7_2 : List (HloOp τ sig (Elt F))).Forall fun op => op.fresh = ∅ := by
  simp only [List.Forall]; repeat' constructor

abbrev hostOps7_2_W : List (Ref sig .tc) := [main_v65, main_v66, main_v67, main_v68, main_v69, main_v70, main_v71, main_v72, main_v73, main_v74, main_v75, main_v76, main_v77, main_cst_5, main_v78, main_v79]
theorem hostOps7_2_writes : (hostOps7_2 : List (HloOp τ sig (Elt F))).Forall fun op => op.writes ⊆ (hostOps7_2_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_3_fresh : (hostOps7_3 : List (HloOp τ sig (Elt F))).Forall fun op => op.fresh = ∅ := by
  simp only [List.Forall]; repeat' constructor

abbrev hostOps7_3_W : List (Ref sig .tc) := [main_v80]
theorem hostOps7_3_writes : (hostOps7_3 : List (HloOp τ sig (Elt F))).Forall fun op => op.writes ⊆ (hostOps7_3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_4_fresh : (hostOps7_4 : List (HloOp τ sig (Elt F))).Forall fun op => op.fresh = ∅ := by
  simp only [List.Forall]; repeat' constructor

abbrev hostOps7_4_W : List (Ref sig .tc) := [main_v81, main_v82, main_v83, main_v84, main_v85, main_v86, main_v87, main_v88, main_v89, main_v90, main_v91, main_v92, main_v93, main_cst_6, main_v94, main_v95]
theorem hostOps7_4_writes : (hostOps7_4 : List (HloOp τ sig (Elt F))).Forall fun op => op.writes ⊆ (hostOps7_4_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_5_fresh : (hostOps7_5 : List (HloOp τ sig (Elt F))).Forall fun op => op.fresh = ∅ := by
  simp only [List.Forall]; repeat' constructor

abbrev hostOps7_5_W : List (Ref sig .tc) := [main_v96]
theorem hostOps7_5_writes : (hostOps7_5 : List (HloOp τ sig (Elt F))).Forall fun op => op.writes ⊆ (hostOps7_5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_6_fresh : (hostOps7_6 : List (HloOp τ sig (Elt F))).Forall fun op => op.fresh = ∅ := by
  simp only [List.Forall]; repeat' constructor

abbrev hostOps7_6_W : List (Ref sig .tc) := [main_v97, main_v98, main_v99, main_v100, main_v101, main_v102, main_v103, main_v104, main_v105, main_v106, main_v107, main_v108, main_v109, main_cst_7, main_v110, main_v111]
theorem hostOps7_6_writes : (hostOps7_6 : List (HloOp τ sig (Elt F))).Forall fun op => op.writes ⊆ (hostOps7_6_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_7_fresh : (hostOps7_7 : List (HloOp τ sig (Elt F))).Forall fun op => op.fresh = ∅ := by
  simp only [List.Forall]; repeat' constructor

abbrev hostOps7_7_W : List (Ref sig .tc) := [main_v112]
theorem hostOps7_7_writes : (hostOps7_7 : List (HloOp τ sig (Elt F))).Forall fun op => op.writes ⊆ (hostOps7_7_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_8_fresh : (hostOps7_8 : List (HloOp τ sig (Elt F))).Forall fun op => op.fresh = ∅ := by
  simp only [List.Forall]; repeat' constructor

abbrev hostOps7_8_W : List (Ref sig .tc) := [main_v113, main_v114, main_v115, main_v116, main_v117, main_v118, main_v119, main_v120, main_v121, main_v122, main_v123, main_v124, main_v125, main_cst_8, main_v126, main_v127]
theorem hostOps7_8_writes : (hostOps7_8 : List (HloOp τ sig (Elt F))).Forall fun op => op.writes ⊆ (hostOps7_8_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_9_fresh : (hostOps7_9 : List (HloOp τ sig (Elt F))).Forall fun op => op.fresh = ∅ := by
  simp only [List.Forall]; repeat' constructor

abbrev hostOps7_9_W : List (Ref sig .tc) := [main_v128]
theorem hostOps7_9_writes : (hostOps7_9 : List (HloOp τ sig (Elt F))).Forall fun op => op.writes ⊆ (hostOps7_9_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_10_fresh : (hostOps7_10 : List (HloOp τ sig (Elt F))).Forall fun op => op.fresh = ∅ := by
  simp only [List.Forall]; repeat' constructor

abbrev hostOps7_10_W : List (Ref sig .tc) := [main_v129, main_v130, main_v131, main_v132, main_v133, main_v134, main_v135, main_v136, main_v137, main_v138, main_v139, main_v140, main_v141, main_cst_9, main_v142, main_v143]
theorem hostOps7_10_writes : (hostOps7_10 : List (HloOp τ sig (Elt F))).Forall fun op => op.writes ⊆ (hostOps7_10_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_11_fresh : (hostOps7_11 : List (HloOp τ sig (Elt F))).Forall fun op => op.fresh = ∅ := by
  simp only [List.Forall]; repeat' constructor

abbrev hostOps7_11_W : List (Ref sig .tc) := [main_v144]
theorem hostOps7_11_writes : (hostOps7_11 : List (HloOp τ sig (Elt F))).Forall fun op => op.writes ⊆ (hostOps7_11_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_12_fresh : (hostOps7_12 : List (HloOp τ sig (Elt F))).Forall fun op => op.fresh = ∅ := by
  simp only [List.Forall]; repeat' constructor

abbrev hostOps7_12_W : List (Ref sig .tc) := [main_v145, main_v146, main_v147, main_v148, main_v149, main_v150, main_v151, main_v152, main_v153, main_v154, main_v155, main_v156, main_v157, main_cst_10, main_v158, main_v159]
theorem hostOps7_12_writes : (hostOps7_12 : List (HloOp τ sig (Elt F))).Forall fun op => op.writes ⊆ (hostOps7_12_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_13_fresh : (hostOps7_13 : List (HloOp τ sig (Elt F))).Forall fun op => op.fresh = ∅ := by
  simp only [List.Forall]; repeat' constructor

abbrev hostOps7_13_W : List (Ref sig .tc) := [main_v160]
theorem hostOps7_13_writes : (hostOps7_13 : List (HloOp τ sig (Elt F))).Forall fun op => op.writes ⊆ (hostOps7_13_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_14_fresh : (hostOps7_14 : List (HloOp τ sig (Elt F))).Forall fun op => op.fresh = ∅ := by
  simp only [List.Forall]; repeat' constructor

abbrev hostOps7_14_W : List (Ref sig .tc) := [main_v161, main_v162, main_v163, main_v164, main_v165, main_v166, main_v167, main_v168, main_v169, main_v170, main_v171, main_v172, main_v173, main_cst_11, main_v174, main_v175]
theorem hostOps7_14_writes : (hostOps7_14 : List (HloOp τ sig (Elt F))).Forall fun op => op.writes ⊆ (hostOps7_14_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_15_fresh : (hostOps7_15 : List (HloOp τ sig (Elt F))).Forall fun op => op.fresh = ∅ := by
  simp only [List.Forall]; repeat' constructor

abbrev hostOps7_15_W : List (Ref sig .tc) := [main_v176]
theorem hostOps7_15_writes : (hostOps7_15 : List (HloOp τ sig (Elt F))).Forall fun op => op.writes ⊆ (hostOps7_15_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_16_fresh : (hostOps7_16 : List (HloOp τ sig (Elt F))).Forall fun op => op.fresh = ∅ := by
  simp only [List.Forall]; repeat' constructor

abbrev hostOps7_16_W : List (Ref sig .tc) := [main_v177, main_v178, main_v179, main_v180, main_v181, main_v182, main_v183, main_v184, main_v185, main_v186, main_v187, main_v188, main_v189, main_cst_12, main_v190, main_v191]
theorem hostOps7_16_writes : (hostOps7_16 : List (HloOp τ sig (Elt F))).Forall fun op => op.writes ⊆ (hostOps7_16_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_17_fresh : (hostOps7_17 : List (HloOp τ sig (Elt F))).Forall fun op => op.fresh = ∅ := by
  simp only [List.Forall]; repeat' constructor

abbrev hostOps7_17_W : List (Ref sig .tc) := [main_v192]
theorem hostOps7_17_writes : (hostOps7_17 : List (HloOp τ sig (Elt F))).Forall fun op => op.writes ⊆ (hostOps7_17_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_18_fresh : (hostOps7_18 : List (HloOp τ sig (Elt F))).Forall fun op => op.fresh = ∅ := by
  simp only [List.Forall]; repeat' constructor

abbrev hostOps7_18_W : List (Ref sig .tc) := [main_v193, main_v194, main_v195, main_v196, main_v197, main_v198, main_v199, main_v200, main_v201, main_v202, main_v203, main_v204, main_v205, main_cst_13, main_v206, main_v207]
theorem hostOps7_18_writes : (hostOps7_18 : List (HloOp τ sig (Elt F))).Forall fun op => op.writes ⊆ (hostOps7_18_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_19_fresh : (hostOps7_19 : List (HloOp τ sig (Elt F))).Forall fun op => op.fresh = ∅ := by
  simp only [List.Forall]; repeat' constructor

abbrev hostOps7_19_W : List (Ref sig .tc) := [main_v208]
theorem hostOps7_19_writes : (hostOps7_19 : List (HloOp τ sig (Elt F))).Forall fun op => op.writes ⊆ (hostOps7_19_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_20_fresh : (hostOps7_20 : List (HloOp τ sig (Elt F))).Forall fun op => op.fresh = ∅ := by
  simp only [List.Forall]; repeat' constructor

abbrev hostOps7_20_W : List (Ref sig .tc) := [main_v209, main_v210, main_v211, main_v212, main_v213, main_v214, main_v215, main_v216, main_v217, main_v218, main_v219, main_v220, main_v221, main_cst_14, main_v222, main_v223]
theorem hostOps7_20_writes : (hostOps7_20 : List (HloOp τ sig (Elt F))).Forall fun op => op.writes ⊆ (hostOps7_20_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_21_fresh : (hostOps7_21 : List (HloOp τ sig (Elt F))).Forall fun op => op.fresh = ∅ := by
  simp only [List.Forall]; repeat' constructor

abbrev hostOps7_21_W : List (Ref sig .tc) := [main_v224]
theorem hostOps7_21_writes : (hostOps7_21 : List (HloOp τ sig (Elt F))).Forall fun op => op.writes ⊆ (hostOps7_21_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_22_fresh : (hostOps7_22 : List (HloOp τ sig (Elt F))).Forall fun op => op.fresh = ∅ := by
  simp only [List.Forall]; repeat' constructor

abbrev hostOps7_22_W : List (Ref sig .tc) := [main_v225, main_v226, main_v227, main_v228, main_v229, main_v230, main_v231, main_v232, main_v233, main_v234, main_v235, main_v236, main_v237, main_cst_15, main_v238, main_v239]
theorem hostOps7_22_writes : (hostOps7_22 : List (HloOp τ sig (Elt F))).Forall fun op => op.writes ⊆ (hostOps7_22_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_23_fresh : (hostOps7_23 : List (HloOp τ sig (Elt F))).Forall fun op => op.fresh = ∅ := by
  simp only [List.Forall]; repeat' constructor

abbrev hostOps7_23_W : List (Ref sig .tc) := [main_v240]
theorem hostOps7_23_writes : (hostOps7_23 : List (HloOp τ sig (Elt F))).Forall fun op => op.writes ⊆ (hostOps7_23_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_24_fresh : (hostOps7_24 : List (HloOp τ sig (Elt F))).Forall fun op => op.fresh = ∅ := by
  simp only [List.Forall]; repeat' constructor

abbrev hostOps7_24_W : List (Ref sig .tc) := [main_v241, main_v242, main_v243, main_v244, main_v245, main_v246, main_v247, main_v248, main_v249, main_v250, main_v251, main_v252, main_v253, main_cst_16, main_v254, main_v255]
theorem hostOps7_24_writes : (hostOps7_24 : List (HloOp τ sig (Elt F))).Forall fun op => op.writes ⊆ (hostOps7_24_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_25_fresh : (hostOps7_25 : List (HloOp τ sig (Elt F))).Forall fun op => op.fresh = ∅ := by
  simp only [List.Forall]; repeat' constructor

abbrev hostOps7_25_W : List (Ref sig .tc) := [main_v256]
theorem hostOps7_25_writes : (hostOps7_25 : List (HloOp τ sig (Elt F))).Forall fun op => op.writes ⊆ (hostOps7_25_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_26_fresh : (hostOps7_26 : List (HloOp τ sig (Elt F))).Forall fun op => op.fresh = ∅ := by
  simp only [List.Forall]; repeat' constructor

abbrev hostOps7_26_W : List (Ref sig .tc) := [main_v257, main_v258, main_v259, main_v260, main_v261, main_v262, main_v263, main_v264, main_v265, main_v266, main_v267, main_v268, main_v269, main_cst_17, main_v270, main_v271]
theorem hostOps7_26_writes : (hostOps7_26 : List (HloOp τ sig (Elt F))).Forall fun op => op.writes ⊆ (hostOps7_26_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_27_fresh : (hostOps7_27 : List (HloOp τ sig (Elt F))).Forall fun op => op.fresh = ∅ := by
  simp only [List.Forall]; repeat' constructor

abbrev hostOps7_27_W : List (Ref sig .tc) := [main_v272]
theorem hostOps7_27_writes : (hostOps7_27 : List (HloOp τ sig (Elt F))).Forall fun op => op.writes ⊆ (hostOps7_27_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_28_fresh : (hostOps7_28 : List (HloOp τ sig (Elt F))).Forall fun op => op.fresh = ∅ := by
  simp only [List.Forall]; repeat' constructor

abbrev hostOps7_28_W : List (Ref sig .tc) := [main_v273, main_v274, main_v275, main_v276, main_v277, main_v278, main_v279, main_v280, main_v281, main_v282, main_v283, main_v284, main_v285, main_cst_18, main_v286, main_v287]
theorem hostOps7_28_writes : (hostOps7_28 : List (HloOp τ sig (Elt F))).Forall fun op => op.writes ⊆ (hostOps7_28_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_29_fresh : (hostOps7_29 : List (HloOp τ sig (Elt F))).Forall fun op => op.fresh = ∅ := by
  simp only [List.Forall]; repeat' constructor

abbrev hostOps7_29_W : List (Ref sig .tc) := [main_v288]
theorem hostOps7_29_writes : (hostOps7_29 : List (HloOp τ sig (Elt F))).Forall fun op => op.writes ⊆ (hostOps7_29_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_30_fresh : (hostOps7_30 : List (HloOp τ sig (Elt F))).Forall fun op => op.fresh = ∅ := by
  simp only [List.Forall]; repeat' constructor

abbrev hostOps7_30_W : List (Ref sig .tc) := [main_v289, main_v290, main_v291, main_v292, main_v293, main_v294, main_v295, main_v296, main_v297, main_v298, main_v299, main_v300, main_v301, main_cst_19, main_v302, main_v303]
theorem hostOps7_30_writes : (hostOps7_30 : List (HloOp τ sig (Elt F))).Forall fun op => op.writes ⊆ (hostOps7_30_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_31_fresh : (hostOps7_31 : List (HloOp τ sig (Elt F))).Forall fun op => op.fresh = ∅ := by
  simp only [List.Forall]; repeat' constructor

abbrev hostOps7_31_W : List (Ref sig .tc) := [main_v304]
theorem hostOps7_31_writes : (hostOps7_31 : List (HloOp τ sig (Elt F))).Forall fun op => op.writes ⊆ (hostOps7_31_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_32_fresh : (hostOps7_32 : List (HloOp τ sig (Elt F))).Forall fun op => op.fresh = ∅ := by
  simp only [List.Forall]; repeat' constructor

abbrev hostOps7_32_W : List (Ref sig .tc) := [main_v305, main_v306, main_v307, main_v308]
theorem hostOps7_32_writes : (hostOps7_32 : List (HloOp τ sig (Elt F))).Forall fun op => op.writes ⊆ (hostOps7_32_W.map (Proc.devRef (τ := τ) .tc)).toFinset := by
  simp only [List.Forall]; and_intros <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v21_0, main_v21_1] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v21_0), Function.update_of_ne (StableHlo.devRef_ne_of_ne (List.ne_of_not_mem_cons (List.not_mem_of_not_mem_cons h)) : (Proc.devRef .tc r : DevRef τ sig) ≠ Proc.devRef .tc main_v21_1)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v25_0, main_v25_1] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v25_0), Function.update_of_ne (StableHlo.devRef_ne_of_ne (List.ne_of_not_mem_cons (List.not_mem_of_not_mem_cons h)) : (Proc.devRef .tc r : DevRef τ sig) ≠ Proc.devRef .tc main_v25_1)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v29_0, main_v29_1] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v29_0), Function.update_of_ne (StableHlo.devRef_ne_of_ne (List.ne_of_not_mem_cons (List.not_mem_of_not_mem_cons h)) : (Proc.devRef .tc r : DevRef τ sig) ≠ Proc.devRef .tc main_v29_1)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v33_0, main_v33_1] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v33_0), Function.update_of_ne (StableHlo.devRef_ne_of_ne (List.ne_of_not_mem_cons (List.not_mem_of_not_mem_cons h)) : (Proc.devRef .tc r : DevRef τ sig) ≠ Proc.devRef .tc main_v33_1)]
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v37_0, main_v37_1] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v37_0), Function.update_of_ne (StableHlo.devRef_ne_of_ne (List.ne_of_not_mem_cons (List.not_mem_of_not_mem_cons h)) : (Proc.devRef .tc r : DevRef τ sig) ≠ Proc.devRef .tc main_v37_1)]
theorem V11_of (c : Dev nD) (r : Ref sig .tc) (h : r ∉ hostOps5_W) : V11 m outs c r = V10 m outs c r :=
  StableHlo.after_of_writes_sub hostOps5 _ hostOps5_writes h
theorem V12_of (c : Dev nD) (r : Ref sig .tc) (h : r ∉ ([main_v41_0, main_v41_1] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v41_0), Function.update_of_ne (StableHlo.devRef_ne_of_ne (List.ne_of_not_mem_cons (List.not_mem_of_not_mem_cons h)) : (Proc.devRef .tc r : DevRef τ sig) ≠ Proc.devRef .tc main_v41_1)]
theorem V13_of (c : Dev nD) (r : Ref sig .tc) (h : r ∉ hostOps6_W) : V13 m outs c r = V12 m outs c r :=
  StableHlo.after_of_writes_sub hostOps6 _ hostOps6_writes h
theorem V14_of (c : Dev nD) (r : Ref sig .tc) (h : r ∉ ([main_v45_0, main_v45_1] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v45_0), Function.update_of_ne (StableHlo.devRef_ne_of_ne (List.ne_of_not_mem_cons (List.not_mem_of_not_mem_cons h)) : (Proc.devRef .tc r : DevRef τ sig) ≠ Proc.devRef .tc main_v45_1)]
theorem V15_of (c : Dev nD) (r : Ref sig .tc) (h : r ∉ hostOps7_W) : V15 m outs c r = V14 m outs c r :=
  StableHlo.after_of_writes_sub hostOps7 _ hostOps7_writes h
theorem V16_of (c : Dev nD) (r : Ref sig .tc) (h : r ∉ hostOps7_1_W) : V16 m outs c r = V15 m outs c r :=
  StableHlo.after_of_writes_sub hostOps7_1 _ hostOps7_1_writes h
theorem V17_of (c : Dev nD) (r : Ref sig .tc) (h : r ∉ hostOps7_2_W) : V17 m outs c r = V16 m outs c r :=
  StableHlo.after_of_writes_sub hostOps7_2 _ hostOps7_2_writes h
theorem V18_of (c : Dev nD) (r : Ref sig .tc) (h : r ∉ hostOps7_3_W) : V18 m outs c r = V17 m outs c r :=
  StableHlo.after_of_writes_sub hostOps7_3 _ hostOps7_3_writes h
theorem V19_of (c : Dev nD) (r : Ref sig .tc) (h : r ∉ hostOps7_4_W) : V19 m outs c r = V18 m outs c r :=
  StableHlo.after_of_writes_sub hostOps7_4 _ hostOps7_4_writes h
theorem V20_of (c : Dev nD) (r : Ref sig .tc) (h : r ∉ hostOps7_5_W) : V20 m outs c r = V19 m outs c r :=
  StableHlo.after_of_writes_sub hostOps7_5 _ hostOps7_5_writes h
theorem V21_of (c : Dev nD) (r : Ref sig .tc) (h : r ∉ hostOps7_6_W) : V21 m outs c r = V20 m outs c r :=
  StableHlo.after_of_writes_sub hostOps7_6 _ hostOps7_6_writes h
theorem V22_of (c : Dev nD) (r : Ref sig .tc) (h : r ∉ hostOps7_7_W) : V22 m outs c r = V21 m outs c r :=
  StableHlo.after_of_writes_sub hostOps7_7 _ hostOps7_7_writes h
theorem V23_of (c : Dev nD) (r : Ref sig .tc) (h : r ∉ hostOps7_8_W) : V23 m outs c r = V22 m outs c r :=
  StableHlo.after_of_writes_sub hostOps7_8 _ hostOps7_8_writes h
theorem V24_of (c : Dev nD) (r : Ref sig .tc) (h : r ∉ hostOps7_9_W) : V24 m outs c r = V23 m outs c r :=
  StableHlo.after_of_writes_sub hostOps7_9 _ hostOps7_9_writes h
theorem V25_of (c : Dev nD) (r : Ref sig .tc) (h : r ∉ hostOps7_10_W) : V25 m outs c r = V24 m outs c r :=
  StableHlo.after_of_writes_sub hostOps7_10 _ hostOps7_10_writes h
theorem V26_of (c : Dev nD) (r : Ref sig .tc) (h : r ∉ hostOps7_11_W) : V26 m outs c r = V25 m outs c r :=
  StableHlo.after_of_writes_sub hostOps7_11 _ hostOps7_11_writes h
theorem V27_of (c : Dev nD) (r : Ref sig .tc) (h : r ∉ hostOps7_12_W) : V27 m outs c r = V26 m outs c r :=
  StableHlo.after_of_writes_sub hostOps7_12 _ hostOps7_12_writes h
theorem V28_of (c : Dev nD) (r : Ref sig .tc) (h : r ∉ hostOps7_13_W) : V28 m outs c r = V27 m outs c r :=
  StableHlo.after_of_writes_sub hostOps7_13 _ hostOps7_13_writes h
theorem V29_of (c : Dev nD) (r : Ref sig .tc) (h : r ∉ hostOps7_14_W) : V29 m outs c r = V28 m outs c r :=
  StableHlo.after_of_writes_sub hostOps7_14 _ hostOps7_14_writes h
theorem V30_of (c : Dev nD) (r : Ref sig .tc) (h : r ∉ hostOps7_15_W) : V30 m outs c r = V29 m outs c r :=
  StableHlo.after_of_writes_sub hostOps7_15 _ hostOps7_15_writes h
theorem V31_of (c : Dev nD) (r : Ref sig .tc) (h : r ∉ hostOps7_16_W) : V31 m outs c r = V30 m outs c r :=
  StableHlo.after_of_writes_sub hostOps7_16 _ hostOps7_16_writes h
theorem V32_of (c : Dev nD) (r : Ref sig .tc) (h : r ∉ hostOps7_17_W) : V32 m outs c r = V31 m outs c r :=
  StableHlo.after_of_writes_sub hostOps7_17 _ hostOps7_17_writes h
theorem V33_of (c : Dev nD) (r : Ref sig .tc) (h : r ∉ hostOps7_18_W) : V33 m outs c r = V32 m outs c r :=
  StableHlo.after_of_writes_sub hostOps7_18 _ hostOps7_18_writes h
theorem V34_of (c : Dev nD) (r : Ref sig .tc) (h : r ∉ hostOps7_19_W) : V34 m outs c r = V33 m outs c r :=
  StableHlo.after_of_writes_sub hostOps7_19 _ hostOps7_19_writes h
theorem V35_of (c : Dev nD) (r : Ref sig .tc) (h : r ∉ hostOps7_20_W) : V35 m outs c r = V34 m outs c r :=
  StableHlo.after_of_writes_sub hostOps7_20 _ hostOps7_20_writes h
theorem V36_of (c : Dev nD) (r : Ref sig .tc) (h : r ∉ hostOps7_21_W) : V36 m outs c r = V35 m outs c r :=
  StableHlo.after_of_writes_sub hostOps7_21 _ hostOps7_21_writes h
theorem V37_of (c : Dev nD) (r : Ref sig .tc) (h : r ∉ hostOps7_22_W) : V37 m outs c r = V36 m outs c r :=
  StableHlo.after_of_writes_sub hostOps7_22 _ hostOps7_22_writes h
theorem V38_of (c : Dev nD) (r : Ref sig .tc) (h : r ∉ hostOps7_23_W) : V38 m outs c r = V37 m outs c r :=
  StableHlo.after_of_writes_sub hostOps7_23 _ hostOps7_23_writes h
theorem V39_of (c : Dev nD) (r : Ref sig .tc) (h : r ∉ hostOps7_24_W) : V39 m outs c r = V38 m outs c r :=
  StableHlo.after_of_writes_sub hostOps7_24 _ hostOps7_24_writes h
theorem V40_of (c : Dev nD) (r : Ref sig .tc) (h : r ∉ hostOps7_25_W) : V40 m outs c r = V39 m outs c r :=
  StableHlo.after_of_writes_sub hostOps7_25 _ hostOps7_25_writes h
theorem V41_of (c : Dev nD) (r : Ref sig .tc) (h : r ∉ hostOps7_26_W) : V41 m outs c r = V40 m outs c r :=
  StableHlo.after_of_writes_sub hostOps7_26 _ hostOps7_26_writes h
theorem V42_of (c : Dev nD) (r : Ref sig .tc) (h : r ∉ hostOps7_27_W) : V42 m outs c r = V41 m outs c r :=
  StableHlo.after_of_writes_sub hostOps7_27 _ hostOps7_27_writes h
theorem V43_of (c : Dev nD) (r : Ref sig .tc) (h : r ∉ hostOps7_28_W) : V43 m outs c r = V42 m outs c r :=
  StableHlo.after_of_writes_sub hostOps7_28 _ hostOps7_28_writes h
theorem V44_of (c : Dev nD) (r : Ref sig .tc) (h : r ∉ hostOps7_29_W) : V44 m outs c r = V43 m outs c r :=
  StableHlo.after_of_writes_sub hostOps7_29 _ hostOps7_29_writes h
theorem V45_of (c : Dev nD) (r : Ref sig .tc) (h : r ∉ hostOps7_30_W) : V45 m outs c r = V44 m outs c r :=
  StableHlo.after_of_writes_sub hostOps7_30 _ hostOps7_30_writes h
theorem V46_of (c : Dev nD) (r : Ref sig .tc) (h : r ∉ hostOps7_31_W) : V46 m outs c r = V45 m outs c r :=
  StableHlo.after_of_writes_sub hostOps7_31 _ hostOps7_31_writes h
theorem V47_of (c : Dev nD) (r : Ref sig .tc) (h : r ∉ hostOps7_32_W) : V47 m outs c r = V46 m outs c r :=
  StableHlo.after_of_writes_sub hostOps7_32 _ hostOps7_32_writes h

theorem V47_main_arg0 (c : Dev nD) : V47 m outs c main_arg0 = m ((c : Thread nD τ).loc main_arg0) :=
  (V47_of m outs c main_arg0 (by decide)).trans <| (V46_of m outs c main_arg0 (by decide)).trans <| (V45_of m outs c main_arg0 (by decide)).trans <| (V44_of m outs c main_arg0 (by decide)).trans <| (V43_of m outs c main_arg0 (by decide)).trans <| (V42_of m outs c main_arg0 (by decide)).trans <| (V41_of m outs c main_arg0 (by decide)).trans <| (V40_of m outs c main_arg0 (by decide)).trans <| (V39_of m outs c main_arg0 (by decide)).trans <| (V38_of m outs c main_arg0 (by decide)).trans <| (V37_of m outs c main_arg0 (by decide)).trans <| (V36_of m outs c main_arg0 (by decide)).trans <| (V35_of m outs c main_arg0 (by decide)).trans <| (V34_of m outs c main_arg0 (by decide)).trans <| (V33_of m outs c main_arg0 (by decide)).trans <| (V32_of m outs c main_arg0 (by decide)).trans <| (V31_of m outs c main_arg0 (by decide)).trans <| (V30_of m outs c main_arg0 (by decide)).trans <| (V29_of m outs c main_arg0 (by decide)).trans <| (V28_of m outs c main_arg0 (by decide)).trans <| (V27_of m outs c main_arg0 (by decide)).trans <| (V26_of m outs c main_arg0 (by decide)).trans <| (V25_of m outs c main_arg0 (by decide)).trans <| (V24_of m outs c main_arg0 (by decide)).trans <| (V23_of m outs c main_arg0 (by decide)).trans <| (V22_of m outs c main_arg0 (by decide)).trans <| (V21_of m outs c main_arg0 (by decide)).trans <| (V20_of m outs c main_arg0 (by decide)).trans <| (V19_of m outs c main_arg0 (by decide)).trans <| (V18_of m outs c main_arg0 (by decide)).trans <| (V17_of m outs c main_arg0 (by decide)).trans <| (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

theorem V47_main_arg1 (c : Dev nD) : V47 m outs c main_arg1 = m ((c : Thread nD τ).loc main_arg1) :=
  (V47_of m outs c main_arg1 (by decide)).trans <| (V46_of m outs c main_arg1 (by decide)).trans <| (V45_of m outs c main_arg1 (by decide)).trans <| (V44_of m outs c main_arg1 (by decide)).trans <| (V43_of m outs c main_arg1 (by decide)).trans <| (V42_of m outs c main_arg1 (by decide)).trans <| (V41_of m outs c main_arg1 (by decide)).trans <| (V40_of m outs c main_arg1 (by decide)).trans <| (V39_of m outs c main_arg1 (by decide)).trans <| (V38_of m outs c main_arg1 (by decide)).trans <| (V37_of m outs c main_arg1 (by decide)).trans <| (V36_of m outs c main_arg1 (by decide)).trans <| (V35_of m outs c main_arg1 (by decide)).trans <| (V34_of m outs c main_arg1 (by decide)).trans <| (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans rfl

theorem V47_main_arg2 (c : Dev nD) : V47 m outs c main_arg2 = m ((c : Thread nD τ).loc main_arg2) :=
  (V47_of m outs c main_arg2 (by decide)).trans <| (V46_of m outs c main_arg2 (by decide)).trans <| (V45_of m outs c main_arg2 (by decide)).trans <| (V44_of m outs c main_arg2 (by decide)).trans <| (V43_of m outs c main_arg2 (by decide)).trans <| (V42_of m outs c main_arg2 (by decide)).trans <| (V41_of m outs c main_arg2 (by decide)).trans <| (V40_of m outs c main_arg2 (by decide)).trans <| (V39_of m outs c main_arg2 (by decide)).trans <| (V38_of m outs c main_arg2 (by decide)).trans <| (V37_of m outs c main_arg2 (by decide)).trans <| (V36_of m outs c main_arg2 (by decide)).trans <| (V35_of m outs c main_arg2 (by decide)).trans <| (V34_of m outs c main_arg2 (by decide)).trans <| (V33_of m outs c main_arg2 (by decide)).trans <| (V32_of m outs c main_arg2 (by decide)).trans <| (V31_of m outs c main_arg2 (by decide)).trans <| (V30_of m outs c main_arg2 (by decide)).trans <| (V29_of m outs c main_arg2 (by decide)).trans <| (V28_of m outs c main_arg2 (by decide)).trans <| (V27_of m outs c main_arg2 (by decide)).trans <| (V26_of m outs c main_arg2 (by decide)).trans <| (V25_of m outs c main_arg2 (by decide)).trans <| (V24_of m outs c main_arg2 (by decide)).trans <| (V23_of m outs c main_arg2 (by decide)).trans <| (V22_of m outs c main_arg2 (by decide)).trans <| (V21_of m outs c main_arg2 (by decide)).trans <| (V20_of m outs c main_arg2 (by decide)).trans <| (V19_of m outs c main_arg2 (by decide)).trans <| (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 8 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)

def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)

def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

def seg10 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V10 m outs) (E 5)

def seg12 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V12 m outs) (E 6)

def seg14 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V14 m outs) (E 7)

def seg15 : HostSeg (Ix := Ix) (Name := ℕ) (U := U) (Lvl := Lvl) (pcfgs (F := F)) defs₀ 𝒱₀ L lv :=
  HostSeg.ofOps _ _ _ _ _ (Pipeline.ucRefs τ sig) hostOps7_1
    (fun op h => Pipeline.sub_ucRefs op ((List.forall_iff_forall_mem.mp hostOps7_1_sub) op h))
    (fun op h => (List.forall_iff_forall_mem.mp hostOps7_1_fresh) op h) (V15 m outs) (E 7)

def seg16 : HostSeg (Ix := Ix) (Name := ℕ) (U := U) (Lvl := Lvl) (pcfgs (F := F)) defs₀ 𝒱₀ L lv :=
  HostSeg.ofOps _ _ _ _ _ (Pipeline.ucRefs τ sig) hostOps7_2
    (fun op h => Pipeline.sub_ucRefs op ((List.forall_iff_forall_mem.mp hostOps7_2_sub) op h))
    (fun op h => (List.forall_iff_forall_mem.mp hostOps7_2_fresh) op h) (V16 m outs) (E 7)

def seg17 : HostSeg (Ix := Ix) (Name := ℕ) (U := U) (Lvl := Lvl) (pcfgs (F := F)) defs₀ 𝒱₀ L lv :=
  HostSeg.ofOps _ _ _ _ _ (Pipeline.ucRefs τ sig) hostOps7_3
    (fun op h => Pipeline.sub_ucRefs op ((List.forall_iff_forall_mem.mp hostOps7_3_sub) op h))
    (fun op h => (List.forall_iff_forall_mem.mp hostOps7_3_fresh) op h) (V17 m outs) (E 7)

def seg18 : HostSeg (Ix := Ix) (Name := ℕ) (U := U) (Lvl := Lvl) (pcfgs (F := F)) defs₀ 𝒱₀ L lv :=
  HostSeg.ofOps _ _ _ _ _ (Pipeline.ucRefs τ sig) hostOps7_4
    (fun op h => Pipeline.sub_ucRefs op ((List.forall_iff_forall_mem.mp hostOps7_4_sub) op h))
    (fun op h => (List.forall_iff_forall_mem.mp hostOps7_4_fresh) op h) (V18 m outs) (E 7)

def seg19 : HostSeg (Ix := Ix) (Name := ℕ) (U := U) (Lvl := Lvl) (pcfgs (F := F)) defs₀ 𝒱₀ L lv :=
  HostSeg.ofOps _ _ _ _ _ (Pipeline.ucRefs τ sig) hostOps7_5
    (fun op h => Pipeline.sub_ucRefs op ((List.forall_iff_forall_mem.mp hostOps7_5_sub) op h))
    (fun op h => (List.forall_iff_forall_mem.mp hostOps7_5_fresh) op h) (V19 m outs) (E 7)

def seg20 : HostSeg (Ix := Ix) (Name := ℕ) (U := U) (Lvl := Lvl) (pcfgs (F := F)) defs₀ 𝒱₀ L lv :=
  HostSeg.ofOps _ _ _ _ _ (Pipeline.ucRefs τ sig) hostOps7_6
    (fun op h => Pipeline.sub_ucRefs op ((List.forall_iff_forall_mem.mp hostOps7_6_sub) op h))
    (fun op h => (List.forall_iff_forall_mem.mp hostOps7_6_fresh) op h) (V20 m outs) (E 7)

def seg21 : HostSeg (Ix := Ix) (Name := ℕ) (U := U) (Lvl := Lvl) (pcfgs (F := F)) defs₀ 𝒱₀ L lv :=
  HostSeg.ofOps _ _ _ _ _ (Pipeline.ucRefs τ sig) hostOps7_7
    (fun op h => Pipeline.sub_ucRefs op ((List.forall_iff_forall_mem.mp hostOps7_7_sub) op h))
    (fun op h => (List.forall_iff_forall_mem.mp hostOps7_7_fresh) op h) (V21 m outs) (E 7)

def seg22 : HostSeg (Ix := Ix) (Name := ℕ) (U := U) (Lvl := Lvl) (pcfgs (F := F)) defs₀ 𝒱₀ L lv :=
  HostSeg.ofOps _ _ _ _ _ (Pipeline.ucRefs τ sig) hostOps7_8
    (fun op h => Pipeline.sub_ucRefs op ((List.forall_iff_forall_mem.mp hostOps7_8_sub) op h))
    (fun op h => (List.forall_iff_forall_mem.mp hostOps7_8_fresh) op h) (V22 m outs) (E 7)

def seg23 : HostSeg (Ix := Ix) (Name := ℕ) (U := U) (Lvl := Lvl) (pcfgs (F := F)) defs₀ 𝒱₀ L lv :=
  HostSeg.ofOps _ _ _ _ _ (Pipeline.ucRefs τ sig) hostOps7_9
    (fun op h => Pipeline.sub_ucRefs op ((List.forall_iff_forall_mem.mp hostOps7_9_sub) op h))
    (fun op h => (List.forall_iff_forall_mem.mp hostOps7_9_fresh) op h) (V23 m outs) (E 7)

def seg24 : HostSeg (Ix := Ix) (Name := ℕ) (U := U) (Lvl := Lvl) (pcfgs (F := F)) defs₀ 𝒱₀ L lv :=
  HostSeg.ofOps _ _ _ _ _ (Pipeline.ucRefs τ sig) hostOps7_10
    (fun op h => Pipeline.sub_ucRefs op ((List.forall_iff_forall_mem.mp hostOps7_10_sub) op h))
    (fun op h => (List.forall_iff_forall_mem.mp hostOps7_10_fresh) op h) (V24 m outs) (E 7)

def seg25 : HostSeg (Ix := Ix) (Name := ℕ) (U := U) (Lvl := Lvl) (pcfgs (F := F)) defs₀ 𝒱₀ L lv :=
  HostSeg.ofOps _ _ _ _ _ (Pipeline.ucRefs τ sig) hostOps7_11
    (fun op h => Pipeline.sub_ucRefs op ((List.forall_iff_forall_mem.mp hostOps7_11_sub) op h))
    (fun op h => (List.forall_iff_forall_mem.mp hostOps7_11_fresh) op h) (V25 m outs) (E 7)

def seg26 : HostSeg (Ix := Ix) (Name := ℕ) (U := U) (Lvl := Lvl) (pcfgs (F := F)) defs₀ 𝒱₀ L lv :=
  HostSeg.ofOps _ _ _ _ _ (Pipeline.ucRefs τ sig) hostOps7_12
    (fun op h => Pipeline.sub_ucRefs op ((List.forall_iff_forall_mem.mp hostOps7_12_sub) op h))
    (fun op h => (List.forall_iff_forall_mem.mp hostOps7_12_fresh) op h) (V26 m outs) (E 7)

def seg27 : HostSeg (Ix := Ix) (Name := ℕ) (U := U) (Lvl := Lvl) (pcfgs (F := F)) defs₀ 𝒱₀ L lv :=
  HostSeg.ofOps _ _ _ _ _ (Pipeline.ucRefs τ sig) hostOps7_13
    (fun op h => Pipeline.sub_ucRefs op ((List.forall_iff_forall_mem.mp hostOps7_13_sub) op h))
    (fun op h => (List.forall_iff_forall_mem.mp hostOps7_13_fresh) op h) (V27 m outs) (E 7)

def seg28 : HostSeg (Ix := Ix) (Name := ℕ) (U := U) (Lvl := Lvl) (pcfgs (F := F)) defs₀ 𝒱₀ L lv :=
  HostSeg.ofOps _ _ _ _ _ (Pipeline.ucRefs τ sig) hostOps7_14
    (fun op h => Pipeline.sub_ucRefs op ((List.forall_iff_forall_mem.mp hostOps7_14_sub) op h))
    (fun op h => (List.forall_iff_forall_mem.mp hostOps7_14_fresh) op h) (V28 m outs) (E 7)

def seg29 : HostSeg (Ix := Ix) (Name := ℕ) (U := U) (Lvl := Lvl) (pcfgs (F := F)) defs₀ 𝒱₀ L lv :=
  HostSeg.ofOps _ _ _ _ _ (Pipeline.ucRefs τ sig) hostOps7_15
    (fun op h => Pipeline.sub_ucRefs op ((List.forall_iff_forall_mem.mp hostOps7_15_sub) op h))
    (fun op h => (List.forall_iff_forall_mem.mp hostOps7_15_fresh) op h) (V29 m outs) (E 7)

def seg30 : HostSeg (Ix := Ix) (Name := ℕ) (U := U) (Lvl := Lvl) (pcfgs (F := F)) defs₀ 𝒱₀ L lv :=
  HostSeg.ofOps _ _ _ _ _ (Pipeline.ucRefs τ sig) hostOps7_16
    (fun op h => Pipeline.sub_ucRefs op ((List.forall_iff_forall_mem.mp hostOps7_16_sub) op h))
    (fun op h => (List.forall_iff_forall_mem.mp hostOps7_16_fresh) op h) (V30 m outs) (E 7)

def seg31 : HostSeg (Ix := Ix) (Name := ℕ) (U := U) (Lvl := Lvl) (pcfgs (F := F)) defs₀ 𝒱₀ L lv :=
  HostSeg.ofOps _ _ _ _ _ (Pipeline.ucRefs τ sig) hostOps7_17
    (fun op h => Pipeline.sub_ucRefs op ((List.forall_iff_forall_mem.mp hostOps7_17_sub) op h))
    (fun op h => (List.forall_iff_forall_mem.mp hostOps7_17_fresh) op h) (V31 m outs) (E 7)

def seg32 : HostSeg (Ix := Ix) (Name := ℕ) (U := U) (Lvl := Lvl) (pcfgs (F := F)) defs₀ 𝒱₀ L lv :=
  HostSeg.ofOps _ _ _ _ _ (Pipeline.ucRefs τ sig) hostOps7_18
    (fun op h => Pipeline.sub_ucRefs op ((List.forall_iff_forall_mem.mp hostOps7_18_sub) op h))
    (fun op h => (List.forall_iff_forall_mem.mp hostOps7_18_fresh) op h) (V32 m outs) (E 7)

def seg33 : HostSeg (Ix := Ix) (Name := ℕ) (U := U) (Lvl := Lvl) (pcfgs (F := F)) defs₀ 𝒱₀ L lv :=
  HostSeg.ofOps _ _ _ _ _ (Pipeline.ucRefs τ sig) hostOps7_19
    (fun op h => Pipeline.sub_ucRefs op ((List.forall_iff_forall_mem.mp hostOps7_19_sub) op h))
    (fun op h => (List.forall_iff_forall_mem.mp hostOps7_19_fresh) op h) (V33 m outs) (E 7)

def seg34 : HostSeg (Ix := Ix) (Name := ℕ) (U := U) (Lvl := Lvl) (pcfgs (F := F)) defs₀ 𝒱₀ L lv :=
  HostSeg.ofOps _ _ _ _ _ (Pipeline.ucRefs τ sig) hostOps7_20
    (fun op h => Pipeline.sub_ucRefs op ((List.forall_iff_forall_mem.mp hostOps7_20_sub) op h))
    (fun op h => (List.forall_iff_forall_mem.mp hostOps7_20_fresh) op h) (V34 m outs) (E 7)

def seg35 : HostSeg (Ix := Ix) (Name := ℕ) (U := U) (Lvl := Lvl) (pcfgs (F := F)) defs₀ 𝒱₀ L lv :=
  HostSeg.ofOps _ _ _ _ _ (Pipeline.ucRefs τ sig) hostOps7_21
    (fun op h => Pipeline.sub_ucRefs op ((List.forall_iff_forall_mem.mp hostOps7_21_sub) op h))
    (fun op h => (List.forall_iff_forall_mem.mp hostOps7_21_fresh) op h) (V35 m outs) (E 7)

def seg36 : HostSeg (Ix := Ix) (Name := ℕ) (U := U) (Lvl := Lvl) (pcfgs (F := F)) defs₀ 𝒱₀ L lv :=
  HostSeg.ofOps _ _ _ _ _ (Pipeline.ucRefs τ sig) hostOps7_22
    (fun op h => Pipeline.sub_ucRefs op ((List.forall_iff_forall_mem.mp hostOps7_22_sub) op h))
    (fun op h => (List.forall_iff_forall_mem.mp hostOps7_22_fresh) op h) (V36 m outs) (E 7)

def seg37 : HostSeg (Ix := Ix) (Name := ℕ) (U := U) (Lvl := Lvl) (pcfgs (F := F)) defs₀ 𝒱₀ L lv :=
  HostSeg.ofOps _ _ _ _ _ (Pipeline.ucRefs τ sig) hostOps7_23
    (fun op h => Pipeline.sub_ucRefs op ((List.forall_iff_forall_mem.mp hostOps7_23_sub) op h))
    (fun op h => (List.forall_iff_forall_mem.mp hostOps7_23_fresh) op h) (V37 m outs) (E 7)

def seg38 : HostSeg (Ix := Ix) (Name := ℕ) (U := U) (Lvl := Lvl) (pcfgs (F := F)) defs₀ 𝒱₀ L lv :=
  HostSeg.ofOps _ _ _ _ _ (Pipeline.ucRefs τ sig) hostOps7_24
    (fun op h => Pipeline.sub_ucRefs op ((List.forall_iff_forall_mem.mp hostOps7_24_sub) op h))
    (fun op h => (List.forall_iff_forall_mem.mp hostOps7_24_fresh) op h) (V38 m outs) (E 7)

def seg39 : HostSeg (Ix := Ix) (Name := ℕ) (U := U) (Lvl := Lvl) (pcfgs (F := F)) defs₀ 𝒱₀ L lv :=
  HostSeg.ofOps _ _ _ _ _ (Pipeline.ucRefs τ sig) hostOps7_25
    (fun op h => Pipeline.sub_ucRefs op ((List.forall_iff_forall_mem.mp hostOps7_25_sub) op h))
    (fun op h => (List.forall_iff_forall_mem.mp hostOps7_25_fresh) op h) (V39 m outs) (E 7)

def seg40 : HostSeg (Ix := Ix) (Name := ℕ) (U := U) (Lvl := Lvl) (pcfgs (F := F)) defs₀ 𝒱₀ L lv :=
  HostSeg.ofOps _ _ _ _ _ (Pipeline.ucRefs τ sig) hostOps7_26
    (fun op h => Pipeline.sub_ucRefs op ((List.forall_iff_forall_mem.mp hostOps7_26_sub) op h))
    (fun op h => (List.forall_iff_forall_mem.mp hostOps7_26_fresh) op h) (V40 m outs) (E 7)

def seg41 : HostSeg (Ix := Ix) (Name := ℕ) (U := U) (Lvl := Lvl) (pcfgs (F := F)) defs₀ 𝒱₀ L lv :=
  HostSeg.ofOps _ _ _ _ _ (Pipeline.ucRefs τ sig) hostOps7_27
    (fun op h => Pipeline.sub_ucRefs op ((List.forall_iff_forall_mem.mp hostOps7_27_sub) op h))
    (fun op h => (List.forall_iff_forall_mem.mp hostOps7_27_fresh) op h) (V41 m outs) (E 7)

def seg42 : HostSeg (Ix := Ix) (Name := ℕ) (U := U) (Lvl := Lvl) (pcfgs (F := F)) defs₀ 𝒱₀ L lv :=
  HostSeg.ofOps _ _ _ _ _ (Pipeline.ucRefs τ sig) hostOps7_28
    (fun op h => Pipeline.sub_ucRefs op ((List.forall_iff_forall_mem.mp hostOps7_28_sub) op h))
    (fun op h => (List.forall_iff_forall_mem.mp hostOps7_28_fresh) op h) (V42 m outs) (E 7)

def seg43 : HostSeg (Ix := Ix) (Name := ℕ) (U := U) (Lvl := Lvl) (pcfgs (F := F)) defs₀ 𝒱₀ L lv :=
  HostSeg.ofOps _ _ _ _ _ (Pipeline.ucRefs τ sig) hostOps7_29
    (fun op h => Pipeline.sub_ucRefs op ((List.forall_iff_forall_mem.mp hostOps7_29_sub) op h))
    (fun op h => (List.forall_iff_forall_mem.mp hostOps7_29_fresh) op h) (V43 m outs) (E 7)

def seg44 : HostSeg (Ix := Ix) (Name := ℕ) (U := U) (Lvl := Lvl) (pcfgs (F := F)) defs₀ 𝒱₀ L lv :=
  HostSeg.ofOps _ _ _ _ _ (Pipeline.ucRefs τ sig) hostOps7_30
    (fun op h => Pipeline.sub_ucRefs op ((List.forall_iff_forall_mem.mp hostOps7_30_sub) op h))
    (fun op h => (List.forall_iff_forall_mem.mp hostOps7_30_fresh) op h) (V44 m outs) (E 7)

def seg45 : HostSeg (Ix := Ix) (Name := ℕ) (U := U) (Lvl := Lvl) (pcfgs (F := F)) defs₀ 𝒱₀ L lv :=
  HostSeg.ofOps _ _ _ _ _ (Pipeline.ucRefs τ sig) hostOps7_31
    (fun op h => Pipeline.sub_ucRefs op ((List.forall_iff_forall_mem.mp hostOps7_31_sub) op h))
    (fun op h => (List.forall_iff_forall_mem.mp hostOps7_31_fresh) op h) (V45 m outs) (E 7)

def seg46 : HostSeg (Ix := Ix) (Name := ℕ) (U := U) (Lvl := Lvl) (pcfgs (F := F)) defs₀ 𝒱₀ L lv :=
  HostSeg.ofOps _ _ _ _ _ (Pipeline.ucRefs τ sig) hostOps7_32
    (fun op h => Pipeline.sub_ucRefs op ((List.forall_iff_forall_mem.mp hostOps7_32_sub) op h))
    (fun op h => (List.forall_iff_forall_mem.mp hostOps7_32_fresh) op h) (V46 m outs) (E 7)

end Segs

section

variable {Ix : Type} [DecidableEq Ix] {U : Type} [URA U] {Lvl : Type} [Preorder Lvl]

abbrev adm : (p : Fin 7) → (pcfgs (F := F) p).Adm := fun p => (cfgs p).toPCfg_adm

abbrev segs (𝒱₀ : Variants) (L : GSem nD τ sig → Finset Ix) (lv : GSem nD τ sig → Ix → Lvl) (E : Fin 8 → Dev nD → sProp (MT nD τ sig Ix (Elt F) ℕ U Lvl)) (ι : Ix)
    (pdats : (p : Fin 7) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E), .region R4, .host (seg10 m outs 𝒱₀ L lv E), .region R5, .host (seg12 m outs 𝒱₀ L lv E), .region R6, .host (seg14 m outs 𝒱₀ L lv E), .host (seg15 m outs 𝒱₀ L lv E), .host (seg16 m outs 𝒱₀ L lv E), .host (seg17 m outs 𝒱₀ L lv E), .host (seg18 m outs 𝒱₀ L lv E), .host (seg19 m outs 𝒱₀ L lv E), .host (seg20 m outs 𝒱₀ L lv E), .host (seg21 m outs 𝒱₀ L lv E), .host (seg22 m outs 𝒱₀ L lv E), .host (seg23 m outs 𝒱₀ L lv E), .host (seg24 m outs 𝒱₀ L lv E), .host (seg25 m outs 𝒱₀ L lv E), .host (seg26 m outs 𝒱₀ L lv E), .host (seg27 m outs 𝒱₀ L lv E), .host (seg28 m outs 𝒱₀ L lv E), .host (seg29 m outs 𝒱₀ L lv E), .host (seg30 m outs 𝒱₀ L lv E), .host (seg31 m outs 𝒱₀ L lv E), .host (seg32 m outs 𝒱₀ L lv E), .host (seg33 m outs 𝒱₀ L lv E), .host (seg34 m outs 𝒱₀ L lv E), .host (seg35 m outs 𝒱₀ L lv E), .host (seg36 m outs 𝒱₀ L lv E), .host (seg37 m outs 𝒱₀ L lv E), .host (seg38 m outs 𝒱₀ L lv E), .host (seg39 m outs 𝒱₀ L lv E), .host (seg40 m outs 𝒱₀ L lv E), .host (seg41 m outs 𝒱₀ L lv E), .host (seg42 m outs 𝒱₀ L lv E), .host (seg43 m outs 𝒱₀ L lv E), .host (seg44 m outs 𝒱₀ L lv E), .host (seg45 m outs 𝒱₀ L lv E), .host (seg46 m outs 𝒱₀ L lv E)]

end

set_option backward.isDefEq.respectTransparency.types false in

theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          StableHlo.seq hostOps7_4,
          StableHlo.seq hostOps7_5,
          StableHlo.seq hostOps7_6,
          StableHlo.seq hostOps7_7,
          StableHlo.seq hostOps7_8,
          StableHlo.seq hostOps7_9,
          StableHlo.seq hostOps7_10,
          StableHlo.seq hostOps7_11,
          StableHlo.seq hostOps7_12,
          StableHlo.seq hostOps7_13,
          StableHlo.seq hostOps7_14,
          StableHlo.seq hostOps7_15,
          StableHlo.seq hostOps7_16,
          StableHlo.seq hostOps7_17,
          StableHlo.seq hostOps7_18,
          StableHlo.seq hostOps7_19,
          StableHlo.seq hostOps7_20,
          StableHlo.seq hostOps7_21,
          StableHlo.seq hostOps7_22,
          StableHlo.seq hostOps7_23,
          StableHlo.seq hostOps7_24,
          StableHlo.seq hostOps7_25,
          StableHlo.seq hostOps7_26,
          StableHlo.seq hostOps7_27,
          StableHlo.seq hostOps7_28,
          StableHlo.seq hostOps7_29,
          StableHlo.seq hostOps7_30,
          StableHlo.seq hostOps7_31,
          StableHlo.seq hostOps7_32 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V47 m outs c))
    (hch := fun c => ⟨.rfl, hpre0 c, hpost0 c, hpre1 c, hpost1 c, hpre2 c, hpost2 c, hpre3 c, hpost3 c, hpre4 c, hpost4 c, hpre5 c, hpost5 c, hpre6 c, hpost6 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V47 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V47_main_arg0 m outs c),
        (h (Proc.devRef .tc main_arg1) (Finset.mem_filter.mpr ⟨StableHlo.devRef_mem_tcRefs main_arg1, by decide⟩)).trans (V47_main_arg1 m outs c),
        (h (Proc.devRef .tc main_arg2) (Finset.mem_filter.mpr ⟨StableHlo.devRef_mem_tcRefs main_arg2, by decide⟩)).trans (V47_main_arg2 m outs c)⟩
    · iexact HSI

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v308) = V47 m outs c main_v308
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          StableHlo.seq hostOps7_4,
          StableHlo.seq hostOps7_5,
          StableHlo.seq hostOps7_6,
          StableHlo.seq hostOps7_7,
          StableHlo.seq hostOps7_8,
          StableHlo.seq hostOps7_9,
          StableHlo.seq hostOps7_10,
          StableHlo.seq hostOps7_11,
          StableHlo.seq hostOps7_12,
          StableHlo.seq hostOps7_13,
          StableHlo.seq hostOps7_14,
          StableHlo.seq hostOps7_15,
          StableHlo.seq hostOps7_16,
          StableHlo.seq hostOps7_17,
          StableHlo.seq hostOps7_18,
          StableHlo.seq hostOps7_19,
          StableHlo.seq hostOps7_20,
          StableHlo.seq hostOps7_21,
          StableHlo.seq hostOps7_22,
          StableHlo.seq hostOps7_23,
          StableHlo.seq hostOps7_24,
          StableHlo.seq hostOps7_25,
          StableHlo.seq hostOps7_26,
          StableHlo.seq hostOps7_27,
          StableHlo.seq hostOps7_28,
          StableHlo.seq hostOps7_29,
          StableHlo.seq hostOps7_30,
          StableHlo.seq hostOps7_31,
          StableHlo.seq hostOps7_32 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V47 m outs c))
    (hch := fun c => ⟨.rfl, hpre0 c, hpost0 c, hpre1 c, hpost1 c, hpre2 c, hpost2 c, hpre3 c, hpost3 c, hpre4 c, hpost4 c, hpre5 c, hpost5 c, hpre6 c, hpost6 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => s.mem ((c.tc : Thread nD τ).loc main_v308) = V47 m outs c main_v308 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V47 m outs c) s') $$ [Hh HSI]
    · isplitl [Hh] <;> iassumption
    icases Hr with ⟨%h, HSI⟩
    imodintro
    isplitr
    · ipureintro
      exact ⟨h (Proc.devRef .tc main_v308) (Finset.mem_filter.mpr ⟨StableHlo.devRef_mem_tcRefs main_v308, by decide⟩),
        (h (Proc.devRef .tc main_arg0) (Finset.mem_filter.mpr ⟨StableHlo.devRef_mem_tcRefs main_arg0, by decide⟩)).trans (V47_main_arg0 m outs c),
        (h (Proc.devRef .tc main_arg1) (Finset.mem_filter.mpr ⟨StableHlo.devRef_mem_tcRefs main_arg1, by decide⟩)).trans (V47_main_arg1 m outs c),
        (h (Proc.devRef .tc main_arg2) (Finset.mem_filter.mpr ⟨StableHlo.devRef_mem_tcRefs main_arg2, by decide⟩)).trans (V47_main_arg2 m outs c)⟩
    · iexact HSI

end Cert.KernelIdeal.GenP

end
-- ==== Proof.KI.Run.lean ====
import proofs.«417949_j89438398972173_1_alg».proof.Proof.KI.Reg0
import proofs.«417949_j89438398972173_1_alg».proof.Proof.KI.Reg1
import proofs.«417949_j89438398972173_1_alg».proof.Proof.KI.Reg2
import proofs.«417949_j89438398972173_1_alg».proof.Proof.KI.Reg3
import proofs.«417949_j89438398972173_1_alg».proof.Proof.KI.Reg4
import proofs.«417949_j89438398972173_1_alg».proof.Proof.KI.Reg5
import proofs.«417949_j89438398972173_1_alg».proof.Proof.KI.Reg6
import proofs.«417949_j89438398972173_1_alg».proof.Proof.KernelIdealRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.FinCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

abbrev W3 (c : Dev nD) : Valuation τ sig (Elt F) := StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt F) ((c : Thread nD τ).loc b) := fun c b => W4 m c b

theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

abbrev W5 (c : Dev nD) : Valuation τ sig (Elt F) := StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev V6 : (c : Dev nD) → (b : Ref sig .tc) → Buf (Elt F) ((c : Thread nD τ).loc b) := fun c b => W6 m c b

theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))

abbrev W7 (c : Dev nD) : Valuation τ sig (Elt F) := StableHlo.after hostOps3 (W6 m c)

abbrev V7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

abbrev V8 : (c : Dev nD) → (b : Ref sig .tc) → Buf (Elt F) ((c : Thread nD τ).loc b) := fun c b => W8 m c b

theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))

abbrev W9 (c : Dev nD) : Valuation τ sig (Elt F) := StableHlo.after hostOps4 (W8 m c)

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

abbrev V10 : (c : Dev nD) → (b : Ref sig .tc) → Buf (Elt F) ((c : Thread nD τ).loc b) := fun c b => W10 m c b

theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

theorem W10_in (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))

abbrev W11 (c : Dev nD) : Valuation τ sig (Elt F) := StableHlo.after hostOps5 (W10 m c)

abbrev V11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb

abbrev V12 : (c : Dev nD) → (b : Ref sig .tc) → Buf (Elt F) ((c : Thread nD τ).loc b) := fun c b => W12 m c b

theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

theorem W12_in (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))

abbrev W13 (c : Dev nD) : Valuation τ sig (Elt F) := StableHlo.after hostOps6 (W12 m c)

abbrev V13 : (c : Dev nD) → (b : Ref sig .tc) → Buf (Elt F) ((c : Thread nD τ).loc b) := fun c b => W13 m c b

def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb

abbrev V14 : (c : Dev nD) → (b : Ref sig .tc) → Buf (Elt F) ((c : Thread nD τ).loc b) := fun c b => W14 m c b

theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)

theorem W14_in (c : Dev nD) (w : Fin cfg6.W) (hw : (cfg6.win w).isOut = false) :
    W14 m c (Proc.devRef .tc (Pipeline.arrRef spec6 w)) = W13 m c (Proc.devRef .tc (Pipeline.arrRef spec6 w)) :=
  (W14_arr m c w).trans (((dat6 (V13 m) c).arrAt_in w hw _).trans (A_eq6 (V13 m) c w))

abbrev W15 (c : Dev nD) : Valuation τ sig (Elt F) := StableHlo.after hostOps7 (W14 m c)

abbrev W16 (c : Dev nD) : Valuation τ sig (Elt F) := StableHlo.after hostOps7_1 (W15 m c)

abbrev W17 (c : Dev nD) : Valuation τ sig (Elt F) := StableHlo.after hostOps7_2 (W16 m c)

abbrev W18 (c : Dev nD) : Valuation τ sig (Elt F) := StableHlo.after hostOps7_3 (W17 m c)

abbrev W19 (c : Dev nD) : Valuation τ sig (Elt F) := StableHlo.after hostOps7_4 (W18 m c)

abbrev W20 (c : Dev nD) : Valuation τ sig (Elt F) := StableHlo.after hostOps7_5 (W19 m c)

abbrev W21 (c : Dev nD) : Valuation τ sig (Elt F) := StableHlo.after hostOps7_6 (W20 m c)

abbrev W22 (c : Dev nD) : Valuation τ sig (Elt F) := StableHlo.after hostOps7_7 (W21 m c)

abbrev W23 (c : Dev nD) : Valuation τ sig (Elt F) := StableHlo.after hostOps7_8 (W22 m c)

abbrev W24 (c : Dev nD) : Valuation τ sig (Elt F) := StableHlo.after hostOps7_9 (W23 m c)

abbrev W25 (c : Dev nD) : Valuation τ sig (Elt F) := StableHlo.after hostOps7_10 (W24 m c)

abbrev W26 (c : Dev nD) : Valuation τ sig (Elt F) := StableHlo.after hostOps7_11 (W25 m c)

abbrev W27 (c : Dev nD) : Valuation τ sig (Elt F) := StableHlo.after hostOps7_12 (W26 m c)

abbrev W28 (c : Dev nD) : Valuation τ sig (Elt F) := StableHlo.after hostOps7_13 (W27 m c)

abbrev W29 (c : Dev nD) : Valuation τ sig (Elt F) := StableHlo.after hostOps7_14 (W28 m c)

abbrev W30 (c : Dev nD) : Valuation τ sig (Elt F) := StableHlo.after hostOps7_15 (W29 m c)

abbrev W31 (c : Dev nD) : Valuation τ sig (Elt F) := StableHlo.after hostOps7_16 (W30 m c)

abbrev W32 (c : Dev nD) : Valuation τ sig (Elt F) := StableHlo.after hostOps7_17 (W31 m c)

abbrev W33 (c : Dev nD) : Valuation τ sig (Elt F) := StableHlo.after hostOps7_18 (W32 m c)

abbrev W34 (c : Dev nD) : Valuation τ sig (Elt F) := StableHlo.after hostOps7_19 (W33 m c)

abbrev W35 (c : Dev nD) : Valuation τ sig (Elt F) := StableHlo.after hostOps7_20 (W34 m c)

abbrev W36 (c : Dev nD) : Valuation τ sig (Elt F) := StableHlo.after hostOps7_21 (W35 m c)

abbrev W37 (c : Dev nD) : Valuation τ sig (Elt F) := StableHlo.after hostOps7_22 (W36 m c)

abbrev W38 (c : Dev nD) : Valuation τ sig (Elt F) := StableHlo.after hostOps7_23 (W37 m c)

abbrev W39 (c : Dev nD) : Valuation τ sig (Elt F) := StableHlo.after hostOps7_24 (W38 m c)

abbrev W40 (c : Dev nD) : Valuation τ sig (Elt F) := StableHlo.after hostOps7_25 (W39 m c)

abbrev W41 (c : Dev nD) : Valuation τ sig (Elt F) := StableHlo.after hostOps7_26 (W40 m c)

abbrev W42 (c : Dev nD) : Valuation τ sig (Elt F) := StableHlo.after hostOps7_27 (W41 m c)

abbrev W43 (c : Dev nD) : Valuation τ sig (Elt F) := StableHlo.after hostOps7_28 (W42 m c)

abbrev W44 (c : Dev nD) : Valuation τ sig (Elt F) := StableHlo.after hostOps7_29 (W43 m c)

abbrev W45 (c : Dev nD) : Valuation τ sig (Elt F) := StableHlo.after hostOps7_30 (W44 m c)

abbrev W46 (c : Dev nD) : Valuation τ sig (Elt F) := StableHlo.after hostOps7_31 (W45 m c)

abbrev W47 (c : Dev nD) : Valuation τ sig (Elt F) := StableHlo.after hostOps7_32 (W46 m c)

def outs : GenP.Outs (F := F) := fun J r c =>
  match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | 14 => W14 m c (Proc.devRef .tc r)
  | _ => W0 m c (Proc.devRef .tc r)

theorem V1_eq (c : Dev nD) : GenP.V1 m c = W1 m c := rfl
theorem V2_eq (c : Dev nD) : GenP.V2 m (outs m) c = W2 m c := by
  funext r
  show Function.update (Function.update (GenP.V1 m c) main_v21_0 (W2 m c main_v21_0)) main_v21_1 (W2 m c main_v21_1) r = W2 m c r
  rw [V1_eq]
  by_cases h1 : r = (main_v21_1 : DevRef τ sig)
  · subst h1; rw [Function.update_self]
  rw [Function.update_of_ne h1]
  by_cases h0 : r = (main_v21_0 : DevRef τ sig)
  · subst h0; rw [Function.update_self]
  rw [Function.update_of_ne h0]
  by_cases h : ∃ w : Fin 5, Proc.devRef .tc (Pipeline.arrRef spec0 w) = r
  · obtain ⟨w, rfl⟩ := h
    fin_cases w
    · exact (W2_in m c 0 rfl).symm
    · exact (W2_in m c 1 rfl).symm
    · exact (W2_in m c 2 rfl).symm
    · exact absurd rfl h0
    · exact absurd rfl h1
  · unfold W2 Pipeline.withArrays; rw [dif_neg h]
theorem V3_eq (c : Dev nD) : GenP.V3 m (outs m) c = W3 m c :=
  congrArg (StableHlo.after hostOps1) (V2_eq m c)
theorem V4_eq (c : Dev nD) : GenP.V4 m (outs m) c = W4 m c := by
  funext r
  show Function.update (Function.update (GenP.V3 m (outs m) c) main_v25_0 (W4 m c main_v25_0)) main_v25_1 (W4 m c main_v25_1) r = W4 m c r
  rw [V3_eq]
  by_cases h1 : r = (main_v25_1 : DevRef τ sig)
  · subst h1; rw [Function.update_self]
  rw [Function.update_of_ne h1]
  by_cases h0 : r = (main_v25_0 : DevRef τ sig)
  · subst h0; rw [Function.update_self]
  rw [Function.update_of_ne h0]
  by_cases h : ∃ w : Fin 5, Proc.devRef .tc (Pipeline.arrRef spec1 w) = r
  · obtain ⟨w, rfl⟩ := h
    fin_cases w
    · exact (W4_in m c 0 rfl).symm
    · exact (W4_in m c 1 rfl).symm
    · exact (W4_in m c 2 rfl).symm
    · exact absurd rfl h0
    · exact absurd rfl h1
  · unfold W4 Pipeline.withArrays; rw [dif_neg h]
theorem V5_eq (c : Dev nD) : GenP.V5 m (outs m) c = W5 m c :=
  congrArg (StableHlo.after hostOps2) (V4_eq m c)
theorem V6_eq (c : Dev nD) : GenP.V6 m (outs m) c = W6 m c := by
  funext r
  show Function.update (Function.update (GenP.V5 m (outs m) c) main_v29_0 (W6 m c main_v29_0)) main_v29_1 (W6 m c main_v29_1) r = W6 m c r
  rw [V5_eq]
  by_cases h1 : r = (main_v29_1 : DevRef τ sig)
  · subst h1; rw [Function.update_self]
  rw [Function.update_of_ne h1]
  by_cases h0 : r = (main_v29_0 : DevRef τ sig)
  · subst h0; rw [Function.update_self]
  rw [Function.update_of_ne h0]
  by_cases h : ∃ w : Fin 5, Proc.devRef .tc (Pipeline.arrRef spec2 w) = r
  · obtain ⟨w, rfl⟩ := h
    fin_cases w
    · exact (W6_in m c 0 rfl).symm
    · exact (W6_in m c 1 rfl).symm
    · exact (W6_in m c 2 rfl).symm
    · exact absurd rfl h0
    · exact absurd rfl h1
  · unfold W6 Pipeline.withArrays; rw [dif_neg h]
theorem V7_eq (c : Dev nD) : GenP.V7 m (outs m) c = W7 m c :=
  congrArg (StableHlo.after hostOps3) (V6_eq m c)
theorem V8_eq (c : Dev nD) : GenP.V8 m (outs m) c = W8 m c := by
  funext r
  show Function.update (Function.update (GenP.V7 m (outs m) c) main_v33_0 (W8 m c main_v33_0)) main_v33_1 (W8 m c main_v33_1) r = W8 m c r
  rw [V7_eq]
  by_cases h1 : r = (main_v33_1 : DevRef τ sig)
  · subst h1; rw [Function.update_self]
  rw [Function.update_of_ne h1]
  by_cases h0 : r = (main_v33_0 : DevRef τ sig)
  · subst h0; rw [Function.update_self]
  rw [Function.update_of_ne h0]
  by_cases h : ∃ w : Fin 5, Proc.devRef .tc (Pipeline.arrRef spec3 w) = r
  · obtain ⟨w, rfl⟩ := h
    fin_cases w
    · exact (W8_in m c 0 rfl).symm
    · exact (W8_in m c 1 rfl).symm
    · exact (W8_in m c 2 rfl).symm
    · exact absurd rfl h0
    · exact absurd rfl h1
  · unfold W8 Pipeline.withArrays; rw [dif_neg h]
theorem V9_eq (c : Dev nD) : GenP.V9 m (outs m) c = W9 m c :=
  congrArg (StableHlo.after hostOps4) (V8_eq m c)
theorem V10_eq (c : Dev nD) : GenP.V10 m (outs m) c = W10 m c := by
  funext r
  show Function.update (Function.update (GenP.V9 m (outs m) c) main_v37_0 (W10 m c main_v37_0)) main_v37_1 (W10 m c main_v37_1) r = W10 m c r
  rw [V9_eq]
  by_cases h1 : r = (main_v37_1 : DevRef τ sig)
  · subst h1; rw [Function.update_self]
  rw [Function.update_of_ne h1]
  by_cases h0 : r = (main_v37_0 : DevRef τ sig)
  · subst h0; rw [Function.update_self]
  rw [Function.update_of_ne h0]
  by_cases h : ∃ w : Fin 5, Proc.devRef .tc (Pipeline.arrRef spec4 w) = r
  · obtain ⟨w, rfl⟩ := h
    fin_cases w
    · exact (W10_in m c 0 rfl).symm
    · exact (W10_in m c 1 rfl).symm
    · exact (W10_in m c 2 rfl).symm
    · exact absurd rfl h0
    · exact absurd rfl h1
  · unfold W10 Pipeline.withArrays; rw [dif_neg h]
theorem V11_eq (c : Dev nD) : GenP.V11 m (outs m) c = W11 m c :=
  congrArg (StableHlo.after hostOps5) (V10_eq m c)
theorem V12_eq (c : Dev nD) : GenP.V12 m (outs m) c = W12 m c := by
  funext r
  show Function.update (Function.update (GenP.V11 m (outs m) c) main_v41_0 (W12 m c main_v41_0)) main_v41_1 (W12 m c main_v41_1) r = W12 m c r
  rw [V11_eq]
  by_cases h1 : r = (main_v41_1 : DevRef τ sig)
  · subst h1; rw [Function.update_self]
  rw [Function.update_of_ne h1]
  by_cases h0 : r = (main_v41_0 : DevRef τ sig)
  · subst h0; rw [Function.update_self]
  rw [Function.update_of_ne h0]
  by_cases h : ∃ w : Fin 5, Proc.devRef .tc (Pipeline.arrRef spec5 w) = r
  · obtain ⟨w, rfl⟩ := h
    fin_cases w
    · exact (W12_in m c 0 rfl).symm
    · exact (W12_in m c 1 rfl).symm
    · exact (W12_in m c 2 rfl).symm
    · exact absurd rfl h0
    · exact absurd rfl h1
  · unfold W12 Pipeline.withArrays; rw [dif_neg h]
theorem V13_eq (c : Dev nD) : GenP.V13 m (outs m) c = W13 m c :=
  congrArg (StableHlo.after hostOps6) (V12_eq m c)
theorem V14_eq (c : Dev nD) : GenP.V14 m (outs m) c = W14 m c := by
  funext r
  show Function.update (Function.update (GenP.V13 m (outs m) c) main_v45_0 (W14 m c main_v45_0)) main_v45_1 (W14 m c main_v45_1) r = W14 m c r
  rw [V13_eq]
  by_cases h1 : r = (main_v45_1 : DevRef τ sig)
  · subst h1; rw [Function.update_self]
  rw [Function.update_of_ne h1]
  by_cases h0 : r = (main_v45_0 : DevRef τ sig)
  · subst h0; rw [Function.update_self]
  rw [Function.update_of_ne h0]
  by_cases h : ∃ w : Fin 5, Proc.devRef .tc (Pipeline.arrRef spec6 w) = r
  · obtain ⟨w, rfl⟩ := h
    fin_cases w
    · exact (W14_in m c 0 rfl).symm
    · exact (W14_in m c 1 rfl).symm
    · exact (W14_in m c 2 rfl).symm
    · exact absurd rfl h0
    · exact absurd rfl h1
  · unfold W14 Pipeline.withArrays; rw [dif_neg h]
theorem V15_eq (c : Dev nD) : GenP.V15 m (outs m) c = W15 m c :=
  congrArg (StableHlo.after hostOps7) (V14_eq m c)
theorem V16_eq (c : Dev nD) : GenP.V16 m (outs m) c = W16 m c :=
  congrArg (StableHlo.after hostOps7_1) (V15_eq m c)
theorem V17_eq (c : Dev nD) : GenP.V17 m (outs m) c = W17 m c :=
  congrArg (StableHlo.after hostOps7_2) (V16_eq m c)
theorem V18_eq (c : Dev nD) : GenP.V18 m (outs m) c = W18 m c :=
  congrArg (StableHlo.after hostOps7_3) (V17_eq m c)
theorem V19_eq (c : Dev nD) : GenP.V19 m (outs m) c = W19 m c :=
  congrArg (StableHlo.after hostOps7_4) (V18_eq m c)
theorem V20_eq (c : Dev nD) : GenP.V20 m (outs m) c = W20 m c :=
  congrArg (StableHlo.after hostOps7_5) (V19_eq m c)
theorem V21_eq (c : Dev nD) : GenP.V21 m (outs m) c = W21 m c :=
  congrArg (StableHlo.after hostOps7_6) (V20_eq m c)
theorem V22_eq (c : Dev nD) : GenP.V22 m (outs m) c = W22 m c :=
  congrArg (StableHlo.after hostOps7_7) (V21_eq m c)
theorem V23_eq (c : Dev nD) : GenP.V23 m (outs m) c = W23 m c :=
  congrArg (StableHlo.after hostOps7_8) (V22_eq m c)
theorem V24_eq (c : Dev nD) : GenP.V24 m (outs m) c = W24 m c :=
  congrArg (StableHlo.after hostOps7_9) (V23_eq m c)
theorem V25_eq (c : Dev nD) : GenP.V25 m (outs m) c = W25 m c :=
  congrArg (StableHlo.after hostOps7_10) (V24_eq m c)
theorem V26_eq (c : Dev nD) : GenP.V26 m (outs m) c = W26 m c :=
  congrArg (StableHlo.after hostOps7_11) (V25_eq m c)
theorem V27_eq (c : Dev nD) : GenP.V27 m (outs m) c = W27 m c :=
  congrArg (StableHlo.after hostOps7_12) (V26_eq m c)
theorem V28_eq (c : Dev nD) : GenP.V28 m (outs m) c = W28 m c :=
  congrArg (StableHlo.after hostOps7_13) (V27_eq m c)
theorem V29_eq (c : Dev nD) : GenP.V29 m (outs m) c = W29 m c :=
  congrArg (StableHlo.after hostOps7_14) (V28_eq m c)
theorem V30_eq (c : Dev nD) : GenP.V30 m (outs m) c = W30 m c :=
  congrArg (StableHlo.after hostOps7_15) (V29_eq m c)
theorem V31_eq (c : Dev nD) : GenP.V31 m (outs m) c = W31 m c :=
  congrArg (StableHlo.after hostOps7_16) (V30_eq m c)
theorem V32_eq (c : Dev nD) : GenP.V32 m (outs m) c = W32 m c :=
  congrArg (StableHlo.after hostOps7_17) (V31_eq m c)
theorem V33_eq (c : Dev nD) : GenP.V33 m (outs m) c = W33 m c :=
  congrArg (StableHlo.after hostOps7_18) (V32_eq m c)
theorem V34_eq (c : Dev nD) : GenP.V34 m (outs m) c = W34 m c :=
  congrArg (StableHlo.after hostOps7_19) (V33_eq m c)
theorem V35_eq (c : Dev nD) : GenP.V35 m (outs m) c = W35 m c :=
  congrArg (StableHlo.after hostOps7_20) (V34_eq m c)
theorem V36_eq (c : Dev nD) : GenP.V36 m (outs m) c = W36 m c :=
  congrArg (StableHlo.after hostOps7_21) (V35_eq m c)
theorem V37_eq (c : Dev nD) : GenP.V37 m (outs m) c = W37 m c :=
  congrArg (StableHlo.after hostOps7_22) (V36_eq m c)
theorem V38_eq (c : Dev nD) : GenP.V38 m (outs m) c = W38 m c :=
  congrArg (StableHlo.after hostOps7_23) (V37_eq m c)
theorem V39_eq (c : Dev nD) : GenP.V39 m (outs m) c = W39 m c :=
  congrArg (StableHlo.after hostOps7_24) (V38_eq m c)
theorem V40_eq (c : Dev nD) : GenP.V40 m (outs m) c = W40 m c :=
  congrArg (StableHlo.after hostOps7_25) (V39_eq m c)
theorem V41_eq (c : Dev nD) : GenP.V41 m (outs m) c = W41 m c :=
  congrArg (StableHlo.after hostOps7_26) (V40_eq m c)
theorem V42_eq (c : Dev nD) : GenP.V42 m (outs m) c = W42 m c :=
  congrArg (StableHlo.after hostOps7_27) (V41_eq m c)
theorem V43_eq (c : Dev nD) : GenP.V43 m (outs m) c = W43 m c :=
  congrArg (StableHlo.after hostOps7_28) (V42_eq m c)
theorem V44_eq (c : Dev nD) : GenP.V44 m (outs m) c = W44 m c :=
  congrArg (StableHlo.after hostOps7_29) (V43_eq m c)
theorem V45_eq (c : Dev nD) : GenP.V45 m (outs m) c = W45 m c :=
  congrArg (StableHlo.after hostOps7_30) (V44_eq m c)
theorem V46_eq (c : Dev nD) : GenP.V46 m (outs m) c = W46 m c :=
  congrArg (StableHlo.after hostOps7_31) (V45_eq m c)
theorem V47_eq (c : Dev nD) : GenP.V47 m (outs m) c = W47 m c :=
  congrArg (StableHlo.after hostOps7_32) (V46_eq m c)

def pdats : (p : Fin 7) → (c : Dev nD) → Dat τ (Elt F) Unit ℕ (UR sig nD τ) ℕ (Pipeline.pin (pcfgs (F := F)) GenP.adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hu₀ : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (URounds (GSem nD τ sig) Unit) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : (R (F := F) c) ⊢ (iprop(∃ W, owes (c : Thread nD τ) (0 : CellTallies nD τ sig Unit) W) : sProp 𝕄) := by
  iintro ⟨-, HO⟩; iexact HO

set_option backward.isDefEq.respectTransparency.types false in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  GenP.frame_cond (m := m) (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE7 := hE7)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)

set_option backward.isDefEq.respectTransparency.types false in

theorem run_value (ρ : Dev nD → PrngReg) : θ_run defs (onTc (τ := τ) (main (F := F))) ⟨m, fun _ => 0, ρ⟩ (fun r => ∀ c : Dev nD,
      r.2.mem ((c.tc : Thread nD τ).loc main_v308) = W47 m c (Proc.devRef .tc main_v308)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := GenP.run_cond (m := m) (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE7 := hE7)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)

  rw [show GenP.V47 m (outs m) = W47 m from funext (V47_eq m)] at h
  exact h

end Cert.KernelIdeal.Hand

end
-- ==== Proof.TreeMath.lean ====
import Mathlib.Data.List.Range
import Mathlib.Logic.Function.Basic
import Mathlib.Algebra.Group.Defs

namespace SegTree

variable {α : Type}

def foldSet (x : ℕ → α) (tgt : ℕ → ℕ) (upd : ℕ → α) (len : ℕ) : ℕ → α :=
  (List.range len).foldl (fun r n => Function.update r (tgt n) (upd n)) x

theorem foldSet_succ (x : ℕ → α) (tgt : ℕ → ℕ) (upd : ℕ → α) (len : ℕ) :
    foldSet x tgt upd (len + 1) = Function.update (foldSet x tgt upd len) (tgt len) (upd len) := by
  simp [foldSet, List.range_succ, List.foldl_append]

theorem foldSet_eq_of_not_mem (x : ℕ → α) (tgt : ℕ → ℕ) (upd : ℕ → α) (len p : ℕ)
    (h : ∀ n, n < len → tgt n ≠ p) : foldSet x tgt upd len p = x p := by
  induction len with
  | zero => rfl
  | succ k ih =>
    rw [foldSet_succ, Function.update_of_ne (h k (Nat.lt_succ_self k)).symm]
    exact ih (fun n hn => h n (Nat.lt_succ_of_lt hn))

theorem foldSet_eq_of_mem_const (x : ℕ → α) (tgt : ℕ → ℕ) (upd : ℕ → α) (len p : ℕ) (v : α)
    (hex : ∃ n, n < len ∧ tgt n = p) (hv : ∀ n, n < len → tgt n = p → upd n = v) :
    foldSet x tgt upd len p = v := by
  induction len with
  | zero =>
    obtain ⟨n, hn, _⟩ := hex
    exact absurd hn (Nat.not_lt_zero n)
  | succ k ih =>
    rw [foldSet_succ]
    by_cases hk : tgt k = p
    · rw [← hk, Function.update_self]
      exact hv k (Nat.lt_succ_self k) hk
    · rw [Function.update_of_ne (Ne.symm hk)]
      apply ih
      · obtain ⟨n, hn, hnp⟩ := hex
        refine ⟨n, ?_, hnp⟩
        have hne : n ≠ k := fun e => hk (e ▸ hnp)
        omega
      · exact fun n hn hnp => hv n (Nat.lt_succ_of_lt hn) hnp

theorem foldSet_shift (x : ℕ → α) (tgt : ℕ → ℕ) (upd : ℕ → α) (len k j : ℕ) :
    foldSet x (fun n => tgt n + k) upd len (k + j) = foldSet (fun q => x (k + q)) tgt upd len j := by
  induction len with
  | zero => rfl
  | succ m ih =>
    rw [foldSet_succ, foldSet_succ]
    by_cases h : tgt m = j
    · subst h
      rw [Nat.add_comm (tgt m) k, Function.update_self, Function.update_self]
    · have e : k + j ≠ tgt m + k := by omega
      rw [Function.update_of_ne e, Function.update_of_ne (Ne.symm h)]
      exact ih

theorem foldSet_shift_low (x : ℕ → α) (tgt : ℕ → ℕ) (upd : ℕ → α) (len k p : ℕ) (hp : p < k) :
    foldSet x (fun n => tgt n + k) upd len p = x p := by
  apply foldSet_eq_of_not_mem
  intro n _
  show tgt n + k ≠ p
  omega

section Tree

variable [Add α] (D nU : ℕ) (tree : ℕ → α) (ind : ℕ → ℕ) (vals : ℕ → α)

def touched (t p : ℕ) : Prop := ∃ n, n < nU ∧ (ind n + 2 ^ D) / 2 ^ t = p

open Classical in

noncomputable def T : ℕ → ℕ → α
  | 0 => foldSet tree (fun n => ind n + 2 ^ D) vals nU
  | t + 1 => fun p => if touched D nU ind (t + 1) p then T t (2 * p) + T t (2 * p + 1) else T t p

theorem T_succ_apply (t p : ℕ) :
    T D nU tree ind vals (t + 1) p =
      (open Classical in if touched D nU ind (t + 1) p
        then T D nU tree ind vals t (2 * p) + T D nU tree ind vals t (2 * p + 1)
        else T D nU tree ind vals t p) := rfl

theorem T_succ_eq_foldSet (t : ℕ) :
    T D nU tree ind vals (t + 1) =
      foldSet (T D nU tree ind vals t) (fun n => (ind n + 2 ^ D) / 2 ^ (t + 1))
        (fun n => T D nU tree ind vals t (2 * ((ind n + 2 ^ D) / 2 ^ (t + 1)))
          + T D nU tree ind vals t (2 * ((ind n + 2 ^ D) / 2 ^ (t + 1)) + 1)) nU := by
  funext p
  rw [T_succ_apply]
  by_cases h : touched D nU ind (t + 1) p
  · rw [if_pos h]
    symm
    apply foldSet_eq_of_mem_const
    · exact h
    · intro n _ hn
      have hn' : (ind n + 2 ^ D) / 2 ^ (t + 1) = p := hn
      subst hn'
      rfl
  · rw [if_neg h]
    symm
    apply foldSet_eq_of_not_mem
    intro n hn hnp
    exact h ⟨n, hn, hnp⟩

theorem two_pow_sub_eq (D t : ℕ) (ht : t < D) : 2 ^ (D - t) = 2 * 2 ^ (D - t - 1) := by
  have h : D - t = (D - t - 1) + 1 := by omega
  calc 2 ^ (D - t) = 2 ^ ((D - t - 1) + 1) := by rw [← h]
    _ = 2 * 2 ^ (D - t - 1) := by rw [Nat.pow_succ, Nat.mul_comm]

theorem div_two_pow_bounds (D t a : ℕ) (ht : t ≤ D) (h1 : 2 ^ D ≤ a) (h2 : a < 2 ^ (D + 1)) :
    2 ^ (D - t) ≤ a / 2 ^ t ∧ a / 2 ^ t < 2 ^ (D - t + 1) := by
  have hpos : 0 < 2 ^ t := Nat.two_pow_pos t
  have e1 : 2 ^ (D - t) * 2 ^ t = 2 ^ D := by rw [← Nat.pow_add, Nat.sub_add_cancel ht]
  have e2 : 2 ^ (D - t + 1) * 2 ^ t = 2 ^ (D + 1) := by
    rw [← Nat.pow_add]
    congr 1
    omega
  constructor
  · rw [Nat.le_div_iff_mul_le hpos, e1]
    exact h1
  · rw [Nat.div_lt_iff_lt_mul hpos, e2]
    exact h2

variable (hind : ∀ n, n < nU → ind n < 2 ^ D)
include hind

theorem touched_bounds (t p : ℕ) (ht : t ≤ D) (h : touched D nU ind t p) :
    2 ^ (D - t) ≤ p ∧ p < 2 ^ (D - t + 1) := by
  obtain ⟨n, hn, rfl⟩ := h
  have h1 : ind n < 2 ^ D := hind n hn
  have h2 : 2 ^ (D + 1) = 2 ^ D * 2 := by rw [Nat.pow_succ]
  exact div_two_pow_bounds D t _ ht (Nat.le_add_left _ _) (by omega)

theorem T_zero_leaf (j : ℕ) :
    T D nU tree ind vals 0 (2 ^ D + j) = foldSet (fun q => tree (2 ^ D + q)) ind vals nU j := by
  have _ := hind
  exact foldSet_shift tree ind vals nU (2 ^ D) j

theorem T_zero_low (p : ℕ) (hp : p < 2 ^ D) : T D nU tree ind vals 0 p = tree p := by
  have _ := hind
  exact foldSet_shift_low tree ind vals nU (2 ^ D) p hp

theorem T_low (s p : ℕ) (hs : s ≤ D) (hp : p < 2 ^ (D - s)) :
    T D nU tree ind vals s p = tree p := by
  induction s with
  | zero => exact T_zero_low D nU tree ind vals hind p (by simpa using hp)
  | succ s ih =>
    have hnt : ¬ touched D nU ind (s + 1) p := fun h => by
      have := (touched_bounds D nU ind hind (s + 1) p hs h).1
      omega
    rw [T_succ_apply, if_neg hnt]
    apply ih (by omega)
    calc p < 2 ^ (D - (s + 1)) := hp
      _ ≤ 2 ^ (D - s) := Nat.pow_le_pow_right (by omega) (by omega)

theorem T_high (t s p : ℕ) (hts : t ≤ s) (hs : s ≤ D) (hp : 2 ^ (D - t) ≤ p) :
    T D nU tree ind vals s p = T D nU tree ind vals t p := by
  induction s with
  | zero =>
    have h0 : t = 0 := by omega
    subst h0
    rfl
  | succ s ih =>
    by_cases h : t = s + 1
    · subst h
      rfl
    · have hnt : ¬ touched D nU ind (s + 1) p := fun h' => by
        have h1 := (touched_bounds D nU ind hind (s + 1) p hs h').2
        have h2 : 2 ^ (D - (s + 1) + 1) ≤ 2 ^ (D - t) :=
          Nat.pow_le_pow_right (by omega) (by omega)
        omega
      rw [T_succ_apply, if_neg hnt]
      exact ih (by omega) (by omega)

theorem touched_zero_iff (j : ℕ) : touched D nU ind 0 (2 ^ D + j) ↔ ∃ n, n < nU ∧ ind n = j := by
  have _ := hind
  unfold touched
  simp only [Nat.pow_zero, Nat.div_one]
  constructor
  · rintro ⟨n, hn, h⟩
    exact ⟨n, hn, by omega⟩
  · rintro ⟨n, hn, h⟩
    exact ⟨n, hn, by omega⟩

theorem T_succ_level (t : ℕ) (ht : t < D) (j : ℕ) (hj : j < 2 ^ (D - t - 1)) :
    T D nU tree ind vals (t + 1) (2 ^ (D - t - 1) + j) =
      (open Classical in if touched D nU ind (t + 1) (2 ^ (D - t - 1) + j)
        then T D nU tree ind vals t (2 ^ (D - t) + 2 * j) + T D nU tree ind vals t (2 ^ (D - t) + 2 * j + 1)
        else tree (2 ^ (D - t - 1) + j)) := by
  have hpow := two_pow_sub_eq D t ht
  have e1 : 2 * (2 ^ (D - t - 1) + j) = 2 ^ (D - t) + 2 * j := by omega
  rw [T_succ_apply]
  by_cases h : touched D nU ind (t + 1) (2 ^ (D - t - 1) + j)
  · simp only [if_pos h, e1]
  · simp only [if_neg h]
    exact T_low D nU tree ind vals hind t _ (by omega) (by omega)

theorem touched_succ_iff (t : ℕ) (ht : t < D) (j : ℕ) (hj : j < 2 ^ (D - t - 1)) :
    touched D nU ind (t + 1) (2 ^ (D - t - 1) + j) ↔
      touched D nU ind t (2 ^ (D - t) + 2 * j) ∨ touched D nU ind t (2 ^ (D - t) + 2 * j + 1) := by
  have _ := hind
  have _ := hj
  have hpow := two_pow_sub_eq D t ht
  have hdiv : ∀ a : ℕ, a / 2 ^ (t + 1) = a / 2 ^ t / 2 := fun a => by
    rw [Nat.div_div_eq_div_mul, ← Nat.pow_succ]
  unfold touched
  constructor
  · rintro ⟨n, hn, h⟩
    rw [hdiv] at h
    have hc : (ind n + 2 ^ D) / 2 ^ t = 2 ^ (D - t) + 2 * j ∨
        (ind n + 2 ^ D) / 2 ^ t = 2 ^ (D - t) + 2 * j + 1 := by omega
    rcases hc with hc | hc
    · exact Or.inl ⟨n, hn, hc⟩
    · exact Or.inr ⟨n, hn, hc⟩
  · rintro (⟨n, hn, h⟩ | ⟨n, hn, h⟩)
    · exact ⟨n, hn, by rw [hdiv, h]; omega⟩
    · exact ⟨n, hn, by rw [hdiv, h]; omega⟩

theorem T_final_level (t : ℕ) (ht : t ≤ D) (j : ℕ) (hj : j < 2 ^ (D - t)) :
    T D nU tree ind vals D (2 ^ (D - t) + j) = T D nU tree ind vals t (2 ^ (D - t) + j) := by
  have _ := hj
  exact T_high D nU tree ind vals hind t D _ ht (Nat.le_refl D) (Nat.le_add_right _ _)

theorem T_final_zero : T D nU tree ind vals D 0 = tree 0 := by
  exact T_low D nU tree ind vals hind D 0 (Nat.le_refl D) (by simp)

end Tree

end SegTree
-- ==== Proof.KernelMath.lean ====
import proofs.«417949_j89438398972173_1_alg».proof.Proof.TreeMath
import Mathlib.Data.EReal.Basic

noncomputable section

namespace SegTree

variable (D nU : ℕ) (tree : ℕ → EReal) (ind : ℕ → ℕ) (vals : ℕ → EReal)

def kMsk : ℕ → ℕ → EReal
  | 0 => foldSet (fun _ => (0 : EReal)) ind (fun _ => (1 : EReal)) nU
  | t + 1 => fun j => if 0 < kMsk t (2 * j) + kMsk t (2 * j + 1) then 1 else 0

def kLvl : ℕ → ℕ → EReal
  | 0 => foldSet (fun q => tree (2 ^ D + q)) ind vals nU
  | t + 1 => fun j => if 0 < kMsk nU ind t (2 * j) + kMsk nU ind t (2 * j + 1)
      then kLvl t (2 * j) + kLvl t (2 * j + 1) else tree (2 ^ (D - t - 1) + j)

theorem kMsk_succ_apply (t j : ℕ) :
    kMsk nU ind (t + 1) j = if 0 < kMsk nU ind t (2 * j) + kMsk nU ind t (2 * j + 1) then 1 else 0 := rfl

theorem kLvl_succ_apply (t j : ℕ) :
    kLvl D nU tree ind vals (t + 1) j =
      if 0 < kMsk nU ind t (2 * j) + kMsk nU ind t (2 * j + 1)
        then kLvl D nU tree ind vals t (2 * j) + kLvl D nU tree ind vals t (2 * j + 1)
        else tree (2 ^ (D - t - 1) + j) := rfl

theorem kMsk_zero_or_one (t j : ℕ) : kMsk nU ind t j = 0 ∨ kMsk nU ind t j = 1 := by
  cases t with
  | zero =>
    show foldSet (fun _ => (0 : EReal)) ind (fun _ => (1 : EReal)) nU j = 0 ∨
      foldSet (fun _ => (0 : EReal)) ind (fun _ => (1 : EReal)) nU j = 1
    by_cases h : ∃ n, n < nU ∧ ind n = j
    · exact Or.inr (foldSet_eq_of_mem_const _ _ _ _ _ 1 h (fun _ _ _ => rfl))
    · refine Or.inl (foldSet_eq_of_not_mem _ _ _ _ _ ?_)
      intro n hn hnj
      exact h ⟨n, hn, hnj⟩
  | succ t =>
    rw [kMsk_succ_apply]
    by_cases c : 0 < kMsk nU ind t (2 * j) + kMsk nU ind t (2 * j + 1)
    · exact Or.inr (if_pos c)
    · exact Or.inl (if_neg c)

theorem ereal_one_add_one_pos : (0 : EReal) < 1 + 1 :=
  add_pos_of_pos_of_nonneg zero_lt_one zero_le_one

theorem kMsk_max_pos_iff (t j : ℕ) :
    0 < max (kMsk nU ind t (2 * j)) (kMsk nU ind t (2 * j + 1)) ↔ 0 < kMsk nU ind t (2 * j) + kMsk nU ind t (2 * j + 1) := by
  rcases kMsk_zero_or_one nU ind t (2 * j) with ha | ha <;>
    rcases kMsk_zero_or_one nU ind t (2 * j + 1) with hb | hb <;>
    rw [ha, hb] <;> simp [ereal_one_add_one_pos]

theorem kMsk_succ_eq_max (t j : ℕ) :
    kMsk nU ind (t + 1) j = max (kMsk nU ind t (2 * j)) (kMsk nU ind t (2 * j + 1)) := by
  rw [kMsk_succ_apply]
  rcases kMsk_zero_or_one nU ind t (2 * j) with ha | ha <;>
    rcases kMsk_zero_or_one nU ind t (2 * j + 1) with hb | hb <;>
    rw [ha, hb] <;> simp [ereal_one_add_one_pos]

variable (hind : ∀ n, n < nU → ind n < 2 ^ D)
include hind

theorem kMsk_eq (t : ℕ) (ht : t ≤ D) (j : ℕ) (hj : j < 2 ^ (D - t)) :
    kMsk nU ind t j = (open Classical in if touched D nU ind t (2 ^ (D - t) + j) then (1 : EReal) else 0) := by
  induction t generalizing j with
  | zero =>
    have hiff := touched_zero_iff D nU ind hind j
    rw [Nat.sub_zero]
    show foldSet (fun _ => (0 : EReal)) ind (fun _ => (1 : EReal)) nU j = _
    by_cases h : ∃ n, n < nU ∧ ind n = j
    · rw [if_pos (hiff.mpr h)]
      exact foldSet_eq_of_mem_const _ _ _ _ _ 1 h (fun _ _ _ => rfl)
    · rw [if_neg (fun ht' => h (hiff.mp ht'))]
      apply foldSet_eq_of_not_mem
      intro n hn hnj
      exact h ⟨n, hn, hnj⟩
  | succ t ih =>
    have ht' : t < D := by omega
    have hpow := two_pow_sub_eq D t ht'
    have hsub : D - (t + 1) = D - t - 1 := by omega
    rw [hsub] at hj ⊢
    have hiff := touched_succ_iff D nU ind hind t ht' j hj
    have iha := ih (by omega) (2 * j) (by omega)
    have ihb := ih (by omega) (2 * j + 1) (by omega)
    rw [← Nat.add_assoc] at ihb
    rw [kMsk_succ_apply, iha, ihb]
    by_cases A : touched D nU ind t (2 ^ (D - t) + 2 * j) <;>
      by_cases B : touched D nU ind t (2 ^ (D - t) + 2 * j + 1) <;>
      simp [A, B, hiff, ereal_one_add_one_pos]

theorem kMsk_pair_pos_iff (t : ℕ) (ht : t < D) (j : ℕ) (hj : j < 2 ^ (D - t - 1)) :
    0 < kMsk nU ind t (2 * j) + kMsk nU ind t (2 * j + 1) ↔ touched D nU ind (t + 1) (2 ^ (D - t - 1) + j) := by
  have hsub : D - (t + 1) = D - t - 1 := by omega
  have h := kMsk_eq D nU ind hind (t + 1) (by omega) j (by rw [hsub]; exact hj)
  rw [hsub, kMsk_succ_apply] at h
  by_cases c : 0 < kMsk nU ind t (2 * j) + kMsk nU ind t (2 * j + 1) <;>
    by_cases d : touched D nU ind (t + 1) (2 ^ (D - t - 1) + j) <;>
    simp [c, d] at h ⊢

theorem kLvl_eq_T (t : ℕ) (ht : t ≤ D) (j : ℕ) (hj : j < 2 ^ (D - t)) :
    kLvl D nU tree ind vals t j = T D nU tree ind vals t (2 ^ (D - t) + j) := by
  induction t generalizing j with
  | zero =>
    rw [Nat.sub_zero]
    exact (T_zero_leaf D nU tree ind vals hind j).symm
  | succ t ih =>
    have ht' : t < D := by omega
    have hpow := two_pow_sub_eq D t ht'
    have hsub : D - (t + 1) = D - t - 1 := by omega
    rw [hsub] at hj ⊢
    have hiff := kMsk_pair_pos_iff D nU ind hind t ht' j hj
    have iha := ih (by omega) (2 * j) (by omega)
    have ihb := ih (by omega) (2 * j + 1) (by omega)
    rw [← Nat.add_assoc] at ihb
    rw [kLvl_succ_apply, T_succ_level D nU tree ind vals hind t ht' j hj, iha, ihb]
    by_cases d : touched D nU ind (t + 1) (2 ^ (D - t - 1) + j)
    · rw [if_pos d, if_pos (hiff.mpr d)]
    · rw [if_neg d, if_neg (fun c => d (hiff.mp c))]

theorem T_final_eq_kLvl (t : ℕ) (ht : t ≤ D) (j : ℕ) (hj : j < 2 ^ (D - t)) :
    T D nU tree ind vals D (2 ^ (D - t) + j) = kLvl D nU tree ind vals t j := by
  rw [T_final_level D nU tree ind vals hind t ht j hj]
  exact (kLvl_eq_T D nU tree ind vals hind t ht j hj).symm

end SegTree

end
-- ==== Proof.Spec.lean ====
import proofs.«417949_j89438398972173_1_alg».proof.Proof.TreeMath
import Idealize.ShloMosaic.PureOps.Ideal
import Idealize.ShloMosaic.Lib.ValueIdx

noncomputable section

namespace SegTree

open Idealize.ShloMosaic

abbrev STree : Shape := ⟨1, ![16777216]⟩
abbrev SUpd : Shape := ⟨1, ![1048576]⟩

def ofVec {n : ℕ} {α : Type} [Zero α] (x : (⟨1, ![n]⟩ : Shape).Idx → α) : ℕ → α :=
  fun p => if h : p < n then x (ValueIdx.ix1 ⟨p, h⟩) else 0

def indOf (idx : IVec SUpd 32) : ℕ → ℕ :=
  fun n => if h : n < 1048576 then (idx (ValueIdx.ix1 ⟨n, h⟩)).toNat else 0

def specOut (tree : FVec Ideal STree .f32) (idx : IVec SUpd 32) (vals : FVec Ideal SUpd .f32) : FVec Ideal STree .f32 :=
  fun i => T 23 1048576 (ofVec tree) (indOf idx) (ofVec vals) 23 (i 0).val

end SegTree

end
-- ==== Proof.LibSegOps.lean ====
import Idealize.ShloMosaic.PureOps
import Idealize.ShloMosaic.Lib.ValueIdx
import Idealize.ShloMosaic.Lib.StableHlo.Predicate
import proofs.«417949_j89438398972173_1_alg».proof.Proof.TreeMath

namespace SegOps

open Idealize.ShloMosaic Idealize.ShloMosaic.ValueIdx Idealize.ShloMosaic.StableHlo.Predicate

variable {α : Type}

abbrev setDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

theorem setDims_siIdx {N n : Nat} (wf : ScatterDims.WF ⟨1, ![N]⟩ ⟨2, ![n, 1]⟩ ⟨1, ![n]⟩ [] [0] [0] 1)
    (j : (⟨1, ![n]⟩ : Shape).Idx) :
    (setDims N n wf).siIdx j ⟨List.idxOf (0 : Fin 1) (setDims N n wf).scatterDimsToOperandDims,
      List.idxOf_lt_length_iff.2 (List.mem_singleton.mpr rfl)⟩ = ixP (j 0) := by
  funext b; refine Fin.ext ?_
  match b with
  | ⟨0, _⟩ => rfl
  | ⟨1, _⟩ => rfl

theorem setDims_start {N n : Nat} (wf : ScatterDims.WF ⟨1, ![N]⟩ ⟨2, ![n, 1]⟩ ⟨1, ![n]⟩ [] [0] [0] 1)
    (idx : IVec ⟨2, ![n, 1]⟩ 32) (j : (⟨1, ![n]⟩ : Shape).Idx) :
    (setDims N n wf).start j idx 0 = (idx (ixP (j 0))).toInt := by
  unfold ScatterDims.start
  rw [dif_pos (show (0 : Fin 1) ∈ (setDims N n wf).scatterDimsToOperandDims from List.mem_singleton.mpr rfl),
    setDims_siIdx wf j]
  rfl

theorem setDims_window {N n : Nat} (wf : ScatterDims.WF ⟨1, ![N]⟩ ⟨2, ![n, 1]⟩ ⟨1, ![n]⟩ [] [0] [0] 1)
    (j : (⟨1, ![n]⟩ : Shape).Idx) : (setDims N n wf).window j 0 = 0 := rfl

theorem setDims_resultIdx? {N n : Nat} (wf : ScatterDims.WF ⟨1, ![N]⟩ ⟨2, ![n, 1]⟩ ⟨1, ![n]⟩ [] [0] [0] 1)
    (idx : IVec ⟨2, ![n, 1]⟩ 32) (j : (⟨1, ![n]⟩ : Shape).Idx) (a : Fin N)
    (hv : (idx (ixP (j 0))).toInt = (a.val : Int)) :
    (setDims N n wf).resultIdx? j idx = some (ix1 a) := by
  have hs := setDims_start wf idx j
  have hw := setDims_window wf j
  unfold ScatterDims.resultIdx?
  have hin : ∀ a' : Fin 1, 0 ≤ (setDims N n wf).start j idx a' + (setDims N n wf).window j a'
      ∧ (setDims N n wf).start j idx a' + (setDims N n wf).window j a' < (⟨1, ![N]⟩ : Shape).size a' := by
    intro a'
    match a' with
    | ⟨0, _⟩ =>
      show 0 ≤ (setDims N n wf).start j idx 0 + (setDims N n wf).window j 0
        ∧ (setDims N n wf).start j idx 0 + (setDims N n wf).window j 0 < (N : Int)
      rw [hs, hw, hv]; have := a.isLt; constructor <;> omega
  rw [dif_pos hin]
  congr 1
  funext a'
  refine Fin.ext ?_
  match a' with
  | ⟨0, _⟩ =>
    show ((setDims N n wf).start j idx 0 + (setDims N n wf).window j 0).toNat = a.val
    rw [hs, hw, hv]; omega

def natFn {N : Nat} (x0 : α) (r : (⟨1, ![N]⟩ : Shape).Idx → α) : ℕ → α :=
  fun p => if h : p < N then r (ix1 ⟨p, h⟩) else x0

theorem natFn_set {N : Nat} (x0 : α) (r : (⟨1, ![N]⟩ : Shape).Idx → α) (a : Fin N) (v : α) :
    natFn x0 (fun i' => if i' = ix1 a then v else r i') = Function.update (natFn x0 r) a.val v := by
  funext p
  unfold natFn
  by_cases hp : p < N
  · rw [dif_pos hp]
    by_cases hpa : p = a.val
    · subst hpa
      rw [Function.update_self]
      show (if (ix1 ⟨a.val, hp⟩ : (⟨1, ![N]⟩ : Shape).Idx) = ix1 a then v else r (ix1 ⟨a.val, hp⟩)) = v
      rw [if_pos rfl]
    · rw [Function.update_of_ne hpa, dif_pos hp]
      show (if (ix1 ⟨p, hp⟩ : (⟨1, ![N]⟩ : Shape).Idx) = ix1 a then v else r (ix1 ⟨p, hp⟩)) = r (ix1 ⟨p, hp⟩)
      rw [if_neg]
      intro h
      exact hpa (congrArg (fun f : (⟨1, ![N]⟩ : Shape).Idx => (f 0).val) h)
  · rw [dif_neg hp, Function.update_of_ne (by have := a.isLt; omega), dif_neg hp]

theorem foldl_corr {ι β γ : Type} (T : β → γ) (G : β → ι → β) (H : γ → ℕ → γ) (v : ι → ℕ)
    (hstep : ∀ r m, T (G r m) = H (T r) (v m)) :
    ∀ (l : List ι) (r : β), T (l.foldl G r) = (l.map v).foldl H (T r)
  | [], _ => rfl
  | m :: l, r => by
    rw [List.foldl_cons, List.map_cons, List.foldl_cons, foldl_corr T G H v hstep l, hstep]

theorem map_val_finRange (n : Nat) : (List.finRange n).map (fun m : Fin n => m.val) = List.range n := by
  apply List.ext_getElem
  · simp
  · intro i h1 h2
    simp

theorem numel_one (n : Nat) : (⟨1, ![n]⟩ : Shape).numel = n := by
  simp [Shape.numel, Shape.size]

theorem setDims_scatter_apply {N n : Nat} (wf : ScatterDims.WF ⟨1, ![N]⟩ ⟨2, ![n, 1]⟩ ⟨1, ![n]⟩ [] [0] [0] 1)
    (x : (⟨1, ![N]⟩ : Shape).Idx → α) (idx : IVec ⟨2, ![n, 1]⟩ 32) (upd : (⟨1, ![n]⟩ : Shape).Idx → α)
    (hin : ∀ k : Fin n, 0 ≤ (idx (ixP k)).toInt ∧ (idx (ixP k)).toInt < N) (x0 : α) (i : (⟨1, ![N]⟩ : Shape).Idx) :
    Host.scatter (setDims N n wf) (fun _ b => b) x idx upd i
      = SegTree.foldSet (fun p => if h : p < N then x (ix1 ⟨p, h⟩) else x0)
          (fun k => if h : k < n then (idx (ixP ⟨k, h⟩)).toNat else 0)
          (fun k => if h : k < n then upd (ix1 ⟨k, h⟩) else x0) n (i 0).val := by
  have hnum := numel_one n

  have hread : ∀ r : (⟨1, ![N]⟩ : Shape).Idx → α, r i = natFn x0 r (i 0).val := by
    intro r
    unfold natFn
    rw [dif_pos (show (i 0).val < N from (i 0).isLt)]
    exact congrArg r (eq_ix1 i)
  refine (hread _).trans ?_
  unfold Host.scatter

  refine (congrFun (foldl_corr (natFn x0) _
    (fun R k => Function.update R ((fun k => if h : k < n then (idx (ixP ⟨k, h⟩)).toNat else 0) k)
      ((fun k => if h : k < n then upd (ix1 ⟨k, h⟩) else x0) k))
    (fun m : Fin (⟨1, ![n]⟩ : Shape).numel => m.val) ?_ _ _) _).trans ?_
  ·
    intro r m
    beta_reduce
    have hm : m.val < n := by have := m.isLt; omega

    have hj : (⟨1, ![n]⟩ : Shape).rowMajor.symm m = ix1 ⟨m.val, hm⟩ := by
      rw [eq_ix1 ((⟨1, ![n]⟩ : Shape).rowMajor.symm m)]
      congr 1
      apply Fin.ext
      rw [← Shape.rowMajor_val_one, Equiv.apply_symm_apply]
    rw [hj]
    obtain ⟨h0, hN⟩ := hin ⟨m.val, hm⟩
    have hcond := @BitVec.toInt_eq_toNat_cond 32 (idx (ixP ⟨m.val, hm⟩))
    have hlt : (idx (ixP ⟨m.val, hm⟩)).toNat < N := by split at hcond <;> omega
    have hv : (idx (ixP ((ix1 ⟨m.val, hm⟩ : (⟨1, ![n]⟩ : Shape).Idx) 0))).toInt
        = ((⟨(idx (ixP ⟨m.val, hm⟩)).toNat, hlt⟩ : Fin N).val : Int) := by
      show (idx (ixP ⟨m.val, hm⟩)).toInt = ((idx (ixP ⟨m.val, hm⟩)).toNat : Int)
      split at hcond <;> omega
    rw [setDims_resultIdx? wf idx (ix1 ⟨m.val, hm⟩) ⟨(idx (ixP ⟨m.val, hm⟩)).toNat, hlt⟩ hv]
    show natFn x0 (fun i' => if i' = ix1 ⟨(idx (ixP ⟨m.val, hm⟩)).toNat, hlt⟩ then upd (ix1 ⟨m.val, hm⟩) else r i') = _
    rw [natFn_set]
    show _ = Function.update (natFn x0 r) (if h : m.val < n then (idx (ixP ⟨m.val, h⟩)).toNat else 0)
      (if h : m.val < n then upd (ix1 ⟨m.val, h⟩) else x0)
    rw [dif_pos hm, dif_pos hm]
  · rw [map_val_finRange, hnum]
    rfl

theorem scatterSet_apply {N n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → α) (idx : IVec ⟨2, ![n, 1]⟩ 32) (upd : (⟨1, ![n]⟩ : Shape).Idx → α)
    (hin : ∀ k : Fin n, 0 ≤ (idx (ixP k)).toInt ∧ (idx (ixP k)).toInt < N) (x0 : α) (i : (⟨1, ![N]⟩ : Shape).Idx) :
    Host.scatter d (fun _ b => b) x idx upd i
      = SegTree.foldSet (fun p => if h : p < N then x (ix1 ⟨p, h⟩) else x0)
          (fun k => if h : k < n then (idx (ixP ⟨k, h⟩)).toNat else 0)
          (fun k => if h : k < n then upd (ix1 ⟨k, h⟩) else x0) n (i 0).val := by
  obtain ⟨uw, iw, sd, iv, wf⟩ := d
  dsimp only at huw hiw hsd hiv
  subst huw hiw hsd hiv
  exact setDims_scatter_apply wf x idx upd hin x0 i

theorem gather_take_small {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n)
    (hN : N ≤ 2 ^ 31) (hlt : (idx (ixP p)).toNat < N) :
    Host.gather d x idx (Shape.Idx.ofFin p) = x (Shape.Idx.ofFin ⟨(idx (ixP p)).toNat, hlt⟩) := by
  rw [gather_take d hcoll hob hsim hivd x idx p (by omega)]
  congr 2
  apply Fin.ext
  show min (idx (ixP p)).toInt.toNat (N - 1) = (idx (ixP p)).toNat
  rw [toInt_eq_toNat_of_lt (by omega)]
  omega

theorem gather_take_inrange {N n : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n)
    (h0 : 0 ≤ (idx (ixP p)).toInt) (hN : (idx (ixP p)).toInt < N) :
    Host.gather d x idx (Shape.Idx.ofFin p)
      = x (Shape.Idx.ofFin ⟨(idx (ixP p)).toNat, by
          have := @BitVec.toInt_eq_toNat_cond 32 (idx (ixP p)); split at this <;> omega⟩) := by
  rw [gather_take d hcoll hob hsim hivd x idx p (by omega)]
  congr 2
  apply Fin.ext
  show min (idx (ixP p)).toInt.toNat (N - 1) = (idx (ixP p)).toNat
  have := @BitVec.toInt_eq_toNat_cond 32 (idx (ixP p))
  split at this <;> omega

theorem toInt_of_small (v : BitVec 32) (hv : v.toNat < 2 ^ 24) : v.toInt = (v.toNat : Int) :=
  toInt_eq_toNat_of_lt (by omega)

theorem slt_zero_of_small (v : BitVec 32) (hv : v.toNat < 2 ^ 24) : IntOp.cmpi .slt v 0#32 = 0#1 := by
  have h := toInt_of_small v hv
  have hs : v.slt 0#32 = false := by
    rw [BitVec.slt, h]; simp
  simp only [IntOp.cmpi, hs]; rfl

theorem wrap_word (v : BitVec 32) (hv : v.toNat < 2 ^ 24) (c : BitVec 32) :
    Scalar.select (IntOp.cmpi .slt v 0#32) (IntOp.addi v c) v = v := by
  rw [slt_zero_of_small v hv]; rfl

theorem wrap_apply {s : Shape} (x zero len : IVec s 32) (i : s.Idx) (hx : (x i).toNat < 2 ^ 24) (h0 : zero i = 0#32) :
    select (cmpi .slt x zero) (addi x len) x i = x i := by
  show Scalar.select (IntOp.cmpi .slt (x i) (zero i)) (IntOp.addi (x i) (len i)) (x i) = x i
  rw [h0]; exact wrap_word (x i) hx (len i)

theorem toNat_ofNat_half (a : Nat) (ha : a < 2 ^ 24) : (BitVec.ofNat 32 (a / 2)).toNat = a / 2 := by
  rw [BitVec.toNat_ofNat]; omega

theorem floorDiv2_word (v : BitVec 32) (hv : v.toNat < 2 ^ 24) :
    Scalar.select
        (IntOp.andi (IntOp.cmpi .ne (if v = 0 then 0 else if v.msb then -1 else 1) 1#32)
          (IntOp.cmpi .ne (IntOp.remsi .host v 2#32) 0#32))
        (IntOp.subi (IntOp.divsi .host v 2#32) 1#32) (IntOp.divsi .host v 2#32)
      = BitVec.ofNat 32 (v.toNat / 2) := by
  have hd : IntOp.divsi .host v 2#32 = BitVec.ofNat 32 (v.toNat / 2) := by
    apply BitVec.eq_of_toNat_eq
    rw [divsi_two .host v (by omega), toNat_ofNat_half _ hv]
  by_cases h0 : v = 0
  · subst h0
    decide
  · have hm : v.msb = false := BitVec.msb_eq_false_iff_two_mul_lt.mpr (by omega)
    rw [if_neg h0, hm]
    have hc : IntOp.cmpi .ne (if false = true then (-1 : BitVec 32) else 1) 1#32 = 0#1 := by decide
    rw [hc]
    have ha : ∀ b : BitVec 1, IntOp.andi 0#1 b = 0#1 := by decide
    rw [ha, hd]; rfl

theorem signi_two {s : Shape} (x : IVec s 32) (i : s.Idx) (h : x i = 2#32) : signi x i = 1#32 := by
  show (if x i = 0 then (0 : BitVec 32) else if (x i).msb then -1 else 1) = 1#32
  rw [h]; decide

theorem floorDiv2_apply {s : Shape} (x two two' sgn zero one : IVec s 32) (i : s.Idx) (hx : (x i).toNat < 2 ^ 24)
    (h2 : two i = 2#32) (h2' : two' i = 2#32) (hs : sgn i = 1#32) (h0 : zero i = 0#32) (h1 : one i = 1#32) :
    select (andi (cmpi .ne (signi x) sgn) (cmpi .ne (Host.remsi x two') zero)) (subi (Host.divsi x two) one)
        (Host.divsi x two) i
      = BitVec.ofNat 32 ((x i).toNat / 2) := by
  show Scalar.select
        (IntOp.andi (IntOp.cmpi .ne (if x i = 0 then 0 else if (x i).msb then -1 else 1) (sgn i))
          (IntOp.cmpi .ne (IntOp.remsi .host (x i) (two' i)) (zero i)))
        (IntOp.subi (IntOp.divsi .host (x i) (two i)) (one i)) (IntOp.divsi .host (x i) (two i)) = _
  rw [h2, h2', hs, h0, h1]
  exact floorDiv2_word (x i) hx

theorem toNat_muli_two (w : BitVec 32) (hw : w.toNat < 2 ^ 23) : (IntOp.muli 2#32 w).toNat = 2 * w.toNat := by
  show (2#32 * w).toNat = _
  rw [BitVec.toNat_mul]
  have : (2#32 : BitVec 32).toNat = 2 := rfl
  rw [this]; omega

theorem toNat_muli_two_add_one (w : BitVec 32) (hw : w.toNat < 2 ^ 23) :
    (IntOp.addi (IntOp.muli 2#32 w) 1#32).toNat = 2 * w.toNat + 1 := by
  show (IntOp.muli 2#32 w + 1#32).toNat = _
  rw [BitVec.toNat_add, toNat_muli_two w hw]
  have : (1#32 : BitVec 32).toNat = 1 := rfl
  rw [this]; omega

theorem toNat_addi_half (v : BitVec 32) (hv : v.toNat < 2 ^ 23) : (IntOp.addi v 8388608#32).toNat = v.toNat + 8388608 := by
  show (v + 8388608#32).toNat = _
  rw [BitVec.toNat_add]
  have : (8388608#32 : BitVec 32).toNat = 8388608 := rfl
  rw [this]; omega

end SegOps
-- ==== Proof.LibRowDims.lean ====
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

theorem plain_lhsIdx_row {M K N : Nat} (p : Fin M) (q : Fin N) (k : (DotDims.plain M K N).contr.Idx) :
    ((DotDims.plain M K N).lhsIdx (ix2 p q) k 0).val = p.val := rfl

theorem plain_rhsIdx_col {M K N : Nat} (p : Fin M) (q : Fin N) (k : (DotDims.plain M K N).contr.Idx) :
    ((DotDims.plain M K N).rhsIdx (ix2 p q) k 1).val = q.val := rfl

theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by

  rw [← Equiv.sum_comp (contrEquiv1 (DotDims.plain M K N) K rfl rfl).symm]
  refine Finset.sum_congr rfl fun k _ => ?_

  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)

  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (v : BitVec w) : Fin N := ⟨min v.toInt.toNat (N - 1), by omega⟩

theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  ·
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  ·
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1

  rw [Finset.sum_filter, sum_idx2]
  refine Finset.sum_congr rfl fun r _ => ?_
  simp only [rowScatter_resultIdx?_eq_some_iff]

  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KI.SegStep.lean ====
import proofs.«417949_j89438398972173_1_alg».proof.Proof.LibRowDims
import Idealize.ShloMosaic.PureOps.Ideal
import Idealize.ShloMosaic.PureOps.Ideal.Laws
import Idealize.ShloMosaic.Lib.ValueIdx
import Idealize.ShloMosaic.Lib.IdealHost
import Mathlib.Algebra.BigOperators.Group.Finset.Basic
import Mathlib.Data.EReal.Basic

noncomputable section

open scoped BigOperators

namespace Cert.KernelIdeal.Hand.SegStep

open Idealize.ShloMosaic Idealize.ShloMosaic.ValueIdx

def colL {C : Nat} (c : Fin C) : Fin (2 * C) := ⟨2 * c.val, by have := c.isLt; omega⟩

def colR {C : Nat} (c : Fin C) : Fin (2 * C) := ⟨2 * c.val + 1, by have := c.isLt; omega⟩

def pairLvl (R C : Nat) (x m : (⟨2, ![R, 2 * C]⟩ : Shape).Idx → EReal) (o : (⟨2, ![R, C]⟩ : Shape).Idx → EReal) :
    (⟨2, ![R, C]⟩ : Shape).Idx → EReal :=
  fun i => if 0 < m (ix2 (i 0) (colL (i 1))) + m (ix2 (i 0) (colR (i 1)))
    then x (ix2 (i 0) (colL (i 1))) + x (ix2 (i 0) (colR (i 1))) else o i

def pairMsk (R C : Nat) (m : (⟨2, ![R, 2 * C]⟩ : Shape).Idx → EReal) : (⟨2, ![R, C]⟩ : Shape).Idx → EReal :=
  fun i => if 0 < m (ix2 (i 0) (colL (i 1))) + m (ix2 (i 0) (colR (i 1))) then 1 else 0

theorem pair_sum {C : Nat} (f : Fin (2 * C) → EReal) (q : Fin C) :
    ∑ k : Fin (2 * C), f k * (if k.val / 2 = q.val then (1 : EReal) else 0) = f (colL q) + f (colR q) := by
  have h : ∀ k : Fin (2 * C), f k * (if k.val / 2 = q.val then (1 : EReal) else 0)
      = if k ∈ ({colL q, colR q} : Finset (Fin (2 * C))) then f k else 0 := by
    intro k
    have hk : (k.val / 2 = q.val) ↔ k ∈ ({colL q, colR q} : Finset (Fin (2 * C))) := by
      simp only [Finset.mem_insert, Finset.mem_singleton, Fin.ext_iff, colL, colR]
      omega
    by_cases hq : k.val / 2 = q.val
    · rw [if_pos hq, if_pos (hk.1 hq), mul_one]
    · rw [if_neg hq, if_neg (fun h => hq (hk.2 h)), mul_zero]
  simp only [h]
  rw [Finset.sum_ite_mem, Finset.univ_inter, Finset.sum_pair]
  intro h
  have := congrArg Fin.val h
  simp only [colL, colR] at this
  omega

theorem floordiv2_word (a : Nat) (ha : a < 2 ^ 31) :
    Scalar.select
      (IntOp.andi
        (IntOp.cmpi .ne
          (IntOp.subi ((IntOp.cmpi .sgt (BitVec.ofNat 32 a) 0#32).setWidth 32) ((IntOp.cmpi .slt (BitVec.ofNat 32 a) 0#32).setWidth 32))
          (Scalar.subi (Scalar.extui (Scalar.cmpi .sgt 2#32 0#32)) (Scalar.extui (Scalar.cmpi .slt 2#32 0#32))))
        (IntOp.cmpi .ne (IntOp.remsi .vector (BitVec.ofNat 32 a) 2#32) 0#32))
      (IntOp.subi (IntOp.divsi .vector (BitVec.ofNat 32 a) 2#32) 1#32)
      (IntOp.divsi .vector (BitVec.ofNat 32 a) 2#32)
    = BitVec.ofNat 32 (a / 2) := by
  have hn : (BitVec.ofNat 32 a).toNat = a := by
    rw [BitVec.toNat_ofNat]; exact Nat.mod_eq_of_lt (by omega)
  have hmsb : (BitVec.ofNat 32 a).msb = false := by
    rw [BitVec.msb_eq_false_iff_two_mul_lt, hn]; omega

  have hdiv : IntOp.divsi .vector (BitVec.ofNat 32 a) 2#32 = BitVec.ofNat 32 (a / 2) := by
    unfold IntOp.divsi
    rw [if_neg (fun h : IntOp.SDivCorner (BitVec.ofNat 32 a) 2#32 =>
      h.elim (by decide) (fun h' => absurd h'.2 (by decide)))]
    rw [BitVec.sdiv_eq, hmsb]
    show BitVec.udiv (BitVec.ofNat 32 a) 2#32 = _
    apply BitVec.eq_of_toNat_eq
    rw [BitVec.udiv_eq, BitVec.toNat_udiv, hn, BitVec.toNat_ofNat]
    show a / 2 = a / 2 % 2 ^ 32
    exact (Nat.mod_eq_of_lt (by omega)).symm
  rw [hdiv]
  rcases Nat.eq_zero_or_pos a with rfl | hpos
  · decide
  ·
    have hint : (BitVec.ofNat 32 a).toInt = (a : Int) := by
      rw [BitVec.toInt_eq_toNat_of_lt (by rw [hn]; omega), hn]
    have h1 : IntOp.cmpi .sgt (BitVec.ofNat 32 a) 0#32 = 1#1 := by
      show BitVec.ofBool ((0#32).slt (BitVec.ofNat 32 a)) = 1#1
      rw [BitVec.slt_eq_decide, hint]
      have : ((0#32).toInt < (a : Int)) := by show (0 : Int) < a; omega
      rw [decide_eq_true this]; rfl
    have h2 : IntOp.cmpi .slt (BitVec.ofNat 32 a) 0#32 = 0#1 := by
      show BitVec.ofBool ((BitVec.ofNat 32 a).slt 0#32) = 0#1
      rw [BitVec.slt_eq_decide, hint]
      have : ¬ ((a : Int) < (0#32).toInt) := by show ¬ ((a : Int) < 0); omega
      rw [decide_eq_false this]; rfl
    rw [h1, h2]
    have h3 : IntOp.cmpi .ne (IntOp.subi (BitVec.setWidth 32 1#1) (BitVec.setWidth 32 0#1))
        (Scalar.subi (Scalar.extui (Scalar.cmpi .sgt 2#32 0#32)) (Scalar.extui (Scalar.cmpi .slt 2#32 0#32))) = 0#1 := by
      decide
    rw [h3]
    show Scalar.select (0#1 &&& _) _ _ = _
    rw [BitVec.zero_and]
    rfl

def sel (K N : Nat) (h0 : (⟨2, ![K, N]⟩ : Shape).Iotas .tc 32 [0]) (h1 : (⟨2, ![K, N]⟩ : Shape).Iotas .tc 32 [1])
    (h32 : 1 < 32) : FVec Ideal ⟨2, ![K, N]⟩ .f32 :=
  have v6 : IVec ⟨2, ![K, N]⟩ 32 := iota .tc ⟨2, ![K, N]⟩ 32 [0] h0
  have v7 : IVec ⟨2, ![K, N]⟩ 32 := iota .tc ⟨2, ![K, N]⟩ 32 [1] h1
  have v8 : IVec ⟨2, ![K, N]⟩ 32 := broadcast ⟨2, ![K, N]⟩ 2#32
  have v9 : IVec ⟨2, ![K, N]⟩ 32 := divsi v6 v8
  have v10 : IVec ⟨2, ![K, N]⟩ 32 := broadcast ⟨2, ![K, N]⟩ 0#32
  have v11 : IVec ⟨2, ![K, N]⟩ 1 := cmpi .sgt v6 v10
  have v12 : IVec ⟨2, ![K, N]⟩ 32 := extui 32 v11 h32
  have v13 : IVec ⟨2, ![K, N]⟩ 32 := broadcast ⟨2, ![K, N]⟩ 0#32
  have v14 : IVec ⟨2, ![K, N]⟩ 1 := cmpi .slt v6 v13
  have v15 : IVec ⟨2, ![K, N]⟩ 32 := extui 32 v14 h32
  have v16 : IVec ⟨2, ![K, N]⟩ 32 := subi v12 v15
  let v17 : BitVec 1 := Scalar.cmpi .sgt 2#32 0#32
  let v18 : BitVec 32 := Scalar.extui v17
  let v19 : BitVec 1 := Scalar.cmpi .slt 2#32 0#32
  let v20 : BitVec 32 := Scalar.extui v19
  let v21 : BitVec 32 := Scalar.subi v18 v20
  have v22 : IVec ⟨2, ![K, N]⟩ 32 := broadcast ⟨2, ![K, N]⟩ v21
  have v23 : IVec ⟨2, ![K, N]⟩ 1 := cmpi .ne v16 v22
  have v24 : IVec ⟨2, ![K, N]⟩ 32 := broadcast ⟨2, ![K, N]⟩ 2#32
  have v25 : IVec ⟨2, ![K, N]⟩ 32 := remsi v6 v24
  have v26 : IVec ⟨2, ![K, N]⟩ 32 := broadcast ⟨2, ![K, N]⟩ 0#32
  have v27 : IVec ⟨2, ![K, N]⟩ 1 := cmpi .ne v25 v26
  have v28 : IVec ⟨2, ![K, N]⟩ 1 := andi v23 v27
  have v29 : IVec ⟨2, ![K, N]⟩ 32 := broadcast ⟨2, ![K, N]⟩ 1#32
  have v30 : IVec ⟨2, ![K, N]⟩ 32 := subi v9 v29
  have v31 : IVec ⟨2, ![K, N]⟩ 32 := select v28 v30 v9
  have v32 : IVec ⟨2, ![K, N]⟩ 1 := cmpi .eq v31 v7
  have cst : Ideal .f32 := Scalar.ofBits .f32 0x3F800000#32
  have cst_9 : Ideal .f32 := Scalar.ofBits .f32 0x00000000#32
  have v33 : FVec Ideal ⟨2, ![K, N]⟩ .f32 := broadcast ⟨2, ![K, N]⟩ cst
  have v34 : FVec Ideal ⟨2, ![K, N]⟩ .f32 := broadcast ⟨2, ![K, N]⟩ cst_9
  have v35 : FVec Ideal ⟨2, ![K, N]⟩ .f32 := select v32 v33 v34
  v35

theorem ofNat32_inj {a b : Nat} (ha : a < 2 ^ 32) (hb : b < 2 ^ 32) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

theorem sel_apply {K N : Nat} (hK : K ≤ 2 ^ 31) (hN : N ≤ 2 ^ 32)
    (h0 : (⟨2, ![K, N]⟩ : Shape).Iotas .tc 32 [0]) (h1 : (⟨2, ![K, N]⟩ : Shape).Iotas .tc 32 [1]) (h32 : 1 < 32)
    (k : Fin K) (q : Fin N) :
    sel K N h0 h1 h32 (ix2 k q) = if k.val / 2 = q.val then (1 : EReal) else 0 := by
  have hk := k.isLt
  have hq := q.isLt
  have e0 : iota .tc ⟨2, ![K, N]⟩ 32 [0] h0 (ix2 k q) = BitVec.ofNat 32 k.val := by
    show BitVec.ofNat 32 (0 * K + k.val) = _
    rw [Nat.zero_mul, Nat.zero_add]
  have e1 : iota .tc ⟨2, ![K, N]⟩ 32 [1] h1 (ix2 k q) = BitVec.ofNat 32 q.val := by
    show BitVec.ofNat 32 (0 * N + q.val) = _
    rw [Nat.zero_mul, Nat.zero_add]
  show Scalar.select
      (IntOp.cmpi .eq
        (Scalar.select
          (IntOp.andi
            (IntOp.cmpi .ne
              (IntOp.subi ((IntOp.cmpi .sgt (iota .tc ⟨2, ![K, N]⟩ 32 [0] h0 (ix2 k q)) 0#32).setWidth 32)
                ((IntOp.cmpi .slt (iota .tc ⟨2, ![K, N]⟩ 32 [0] h0 (ix2 k q)) 0#32).setWidth 32))
              (Scalar.subi (Scalar.extui (Scalar.cmpi .sgt 2#32 0#32)) (Scalar.extui (Scalar.cmpi .slt 2#32 0#32))))
            (IntOp.cmpi .ne (IntOp.remsi .vector (iota .tc ⟨2, ![K, N]⟩ 32 [0] h0 (ix2 k q)) 2#32) 0#32))
          (IntOp.subi (IntOp.divsi .vector (iota .tc ⟨2, ![K, N]⟩ 32 [0] h0 (ix2 k q)) 2#32) 1#32)
          (IntOp.divsi .vector (iota .tc ⟨2, ![K, N]⟩ 32 [0] h0 (ix2 k q)) 2#32))
        (iota .tc ⟨2, ![K, N]⟩ 32 [1] h1 (ix2 k q)))
      (Ideal.ofBits .f32 0x3F800000#32) (Ideal.ofBits .f32 0x00000000#32) = _
  rw [e0, e1, floordiv2_word k.val (by omega)]
  by_cases h : k.val / 2 = q.val
  · rw [if_pos h, h]
    show Scalar.select (BitVec.ofBool (BitVec.ofNat 32 q.val == BitVec.ofNat 32 q.val)) _ _ = _
    rw [beq_self_eq_true]
    exact (select_one _ _).trans Ideal.ofBits_one_f32
  · rw [if_neg h]
    show Scalar.select (BitVec.ofBool (BitVec.ofNat 32 (k.val / 2) == BitVec.ofNat 32 q.val)) _ _ = _
    rw [beq_eq_false_iff_ne.2 (fun e => h (ofNat32_inj (by omega) (by omega) e))]
    exact (select_zero _ _).trans Ideal.ofBits_zero_f32

theorem matmul_sel_apply {R C : Nat} (hC : 2 * C ≤ 2 ^ 31)
    (h0 : (⟨2, ![2 * C, C]⟩ : Shape).Iotas .tc 32 [0]) (h1 : (⟨2, ![2 * C, C]⟩ : Shape).Iotas .tc 32 [1]) (h32 : 1 < 32)
    (prec : Option ContractPrecision) (x : FVec Ideal ⟨2, ![R, 2 * C]⟩ .f32) (p : Fin R) (q : Fin C) :
    FloatOps.matmul (DotDims.plain R (2 * C) C) prec x (sel (2 * C) C h0 h1 h32)
        (constant ⟨2, ![R, C]⟩ .f32 0x00000000#32) (ix2 p q)
      = x (ix2 p (colL q)) + x (ix2 p (colR q)) := by
  rw [RowDims.matmul_plain_zero_apply]
  simp only [sel_apply hC (by omega) h0 h1 h32]
  exact pair_sum (fun k => x (ix2 p k)) q

theorem lvl_block {R C : Nat} (hC : 2 * C ≤ 2 ^ 31)
    (h0 : (⟨2, ![2 * C, C]⟩ : Shape).Iotas .tc 32 [0]) (h1 : (⟨2, ![2 * C, C]⟩ : Shape).Iotas .tc 32 [1]) (h32 : 1 < 32)
    (prec₁ prec₂ : Option ContractPrecision) (x m : FVec Ideal ⟨2, ![R, 2 * C]⟩ .f32) (o : FVec Ideal ⟨2, ![R, C]⟩ .f32) :
    select
        (cmpf .ogt
          (matmul (DotDims.plain R (2 * C) C) prec₁ m (sel (2 * C) C h0 h1 h32) (constant ⟨2, ![R, C]⟩ .f32 0x00000000#32))
          (broadcast ⟨2, ![R, C]⟩ (Scalar.ofBits (F := Ideal) .f32 0x00000000#32)))
        (matmul (DotDims.plain R (2 * C) C) prec₂ x (sel (2 * C) C h0 h1 h32) (constant ⟨2, ![R, C]⟩ .f32 0x00000000#32))
        o
      = pairLvl R C x m o := by
  funext j
  obtain ⟨p, q, rfl⟩ : ∃ (p : Fin R) (q : Fin C), j = ix2 p q := ⟨j 0, j 1, eq_ix2 j⟩
  show Scalar.select
      (Ideal.cmp .ogt
        (FloatOps.matmul (DotDims.plain R (2 * C) C) prec₁ m (sel (2 * C) C h0 h1 h32)
          (constant ⟨2, ![R, C]⟩ .f32 0x00000000#32) (ix2 p q))
        (Ideal.ofBits .f32 0x00000000#32))
      (FloatOps.matmul (DotDims.plain R (2 * C) C) prec₂ x (sel (2 * C) C h0 h1 h32)
        (constant ⟨2, ![R, C]⟩ .f32 0x00000000#32) (ix2 p q))
      (o (ix2 p q))
    = if 0 < m (ix2 p (colL q)) + m (ix2 p (colR q)) then x (ix2 p (colL q)) + x (ix2 p (colR q)) else o (ix2 p q)
  rw [matmul_sel_apply hC, matmul_sel_apply hC, Ideal.ofBits_zero_f32]
  show Scalar.select (BitVec.ofBool (decide (0 < m (ix2 p (colL q)) + m (ix2 p (colR q))))) _ _ = _
  by_cases h : 0 < m (ix2 p (colL q)) + m (ix2 p (colR q))
  · rw [decide_eq_true h, if_pos h]; exact select_one _ _
  · rw [decide_eq_false h, if_neg h]; exact select_zero _ _

theorem msk_block {R C : Nat} (hC : 2 * C ≤ 2 ^ 31)
    (h0 : (⟨2, ![2 * C, C]⟩ : Shape).Iotas .tc 32 [0]) (h1 : (⟨2, ![2 * C, C]⟩ : Shape).Iotas .tc 32 [1]) (h32 : 1 < 32)
    (prec : Option ContractPrecision) (m : FVec Ideal ⟨2, ![R, 2 * C]⟩ .f32) :
    select
        (cmpf .ogt
          (matmul (DotDims.plain R (2 * C) C) prec m (sel (2 * C) C h0 h1 h32) (constant ⟨2, ![R, C]⟩ .f32 0x00000000#32))
          (broadcast ⟨2, ![R, C]⟩ (Scalar.ofBits (F := Ideal) .f32 0x00000000#32)))
        (broadcast ⟨2, ![R, C]⟩ (Scalar.ofBits (F := Ideal) .f32 0x3F800000#32))
        (broadcast ⟨2, ![R, C]⟩ (Scalar.ofBits (F := Ideal) .f32 0x00000000#32))
      = pairMsk R C m := by
  funext j
  obtain ⟨p, q, rfl⟩ : ∃ (p : Fin R) (q : Fin C), j = ix2 p q := ⟨j 0, j 1, eq_ix2 j⟩
  show Scalar.select
      (Ideal.cmp .ogt
        (FloatOps.matmul (DotDims.plain R (2 * C) C) prec m (sel (2 * C) C h0 h1 h32)
          (constant ⟨2, ![R, C]⟩ .f32 0x00000000#32) (ix2 p q))
        (Ideal.ofBits .f32 0x00000000#32))
      (Ideal.ofBits .f32 0x3F800000#32) (Ideal.ofBits .f32 0x00000000#32)
    = if 0 < m (ix2 p (colL q)) + m (ix2 p (colR q)) then (1 : EReal) else 0
  rw [matmul_sel_apply hC, Ideal.ofBits_zero_f32, Ideal.ofBits_one_f32]
  show Scalar.select (BitVec.ofBool (decide (0 < m (ix2 p (colL q)) + m (ix2 p (colR q))))) _ _ = _
  by_cases h : 0 < m (ix2 p (colL q)) + m (ix2 p (colR q))
  · rw [decide_eq_true h, if_pos h]; exact select_one _ _
  · rw [decide_eq_false h, if_neg h]; exact select_zero _ _

theorem pairLvl_rows {R R' C : Nat} (X M : (⟨2, ![R', 2 * C]⟩ : Shape).Idx → EReal) (O : (⟨2, ![R', C]⟩ : Shape).Idx → EReal)
    (x m : (⟨2, ![R, 2 * C]⟩ : Shape).Idx → EReal) (o : (⟨2, ![R, C]⟩ : Shape).Idx → EReal)
    (j : (⟨2, ![R, C]⟩ : Shape).Idx) (i : (⟨2, ![R', C]⟩ : Shape).Idx) (hi : (i 1).val = (j 1).val)
    (hx : ∀ k : Fin (2 * C), x (ix2 (j 0) k) = X (ix2 (i 0) k)) (hm : ∀ k : Fin (2 * C), m (ix2 (j 0) k) = M (ix2 (i 0) k))
    (ho : o j = O i) :
    pairLvl R C x m o j = pairLvl R' C X M O i := by
  have e : (i 1 : Fin C) = (j 1 : Fin C) := Fin.ext hi
  show (if 0 < m (ix2 (j 0) (colL (j 1 : Fin C))) + m (ix2 (j 0) (colR (j 1 : Fin C)))
      then x (ix2 (j 0) (colL (j 1 : Fin C))) + x (ix2 (j 0) (colR (j 1 : Fin C))) else o j)
    = (if 0 < M (ix2 (i 0) (colL (i 1 : Fin C))) + M (ix2 (i 0) (colR (i 1 : Fin C)))
      then X (ix2 (i 0) (colL (i 1 : Fin C))) + X (ix2 (i 0) (colR (i 1 : Fin C))) else O i)
  rw [e, hx, hx, hm, hm, ho]

theorem pairMsk_rows {R R' C : Nat} (M : (⟨2, ![R', 2 * C]⟩ : Shape).Idx → EReal)
    (m : (⟨2, ![R, 2 * C]⟩ : Shape).Idx → EReal)
    (j : (⟨2, ![R, C]⟩ : Shape).Idx) (i : (⟨2, ![R', C]⟩ : Shape).Idx) (hi : (i 1).val = (j 1).val)
    (hm : ∀ k : Fin (2 * C), m (ix2 (j 0) k) = M (ix2 (i 0) k)) :
    pairMsk R C m j = pairMsk R' C M i := by
  have e : (i 1 : Fin C) = (j 1 : Fin C) := Fin.ext hi
  show (if 0 < m (ix2 (j 0) (colL (j 1 : Fin C))) + m (ix2 (j 0) (colR (j 1 : Fin C))) then (1 : EReal) else 0)
    = (if 0 < M (ix2 (i 0) (colL (i 1 : Fin C))) + M (ix2 (i 0) (colR (i 1 : Fin C))) then (1 : EReal) else 0)
  rw [e, hm, hm]

end Cert.KernelIdeal.Hand.SegStep

end
-- ==== Proof.KI.Persist.lean ====
import proofs.«417949_j89438398972173_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

theorem W1_keep (c : Dev nD) (b : Ref sig .tc) (h : b ∉ GenP.hostOps0_W) :
    W1 m c (Proc.devRef .tc b) = W0 m c (Proc.devRef .tc b) :=
  StableHlo.after_of_writes_sub hostOps0 _ GenP.hostOps0_writes h
theorem W3_keep (c : Dev nD) (b : Ref sig .tc) (h : b ∉ GenP.hostOps1_W) :
    W3 m c (Proc.devRef .tc b) = W2 m c (Proc.devRef .tc b) :=
  StableHlo.after_of_writes_sub hostOps1 _ GenP.hostOps1_writes h
theorem W5_keep (c : Dev nD) (b : Ref sig .tc) (h : b ∉ GenP.hostOps2_W) :
    W5 m c (Proc.devRef .tc b) = W4 m c (Proc.devRef .tc b) :=
  StableHlo.after_of_writes_sub hostOps2 _ GenP.hostOps2_writes h
theorem W7_keep (c : Dev nD) (b : Ref sig .tc) (h : b ∉ GenP.hostOps3_W) :
    W7 m c (Proc.devRef .tc b) = W6 m c (Proc.devRef .tc b) :=
  StableHlo.after_of_writes_sub hostOps3 _ GenP.hostOps3_writes h
theorem W9_keep (c : Dev nD) (b : Ref sig .tc) (h : b ∉ GenP.hostOps4_W) :
    W9 m c (Proc.devRef .tc b) = W8 m c (Proc.devRef .tc b) :=
  StableHlo.after_of_writes_sub hostOps4 _ GenP.hostOps4_writes h
theorem W11_keep (c : Dev nD) (b : Ref sig .tc) (h : b ∉ GenP.hostOps5_W) :
    W11 m c (Proc.devRef .tc b) = W10 m c (Proc.devRef .tc b) :=
  StableHlo.after_of_writes_sub hostOps5 _ GenP.hostOps5_writes h
theorem W13_keep (c : Dev nD) (b : Ref sig .tc) (h : b ∉ GenP.hostOps6_W) :
    W13 m c (Proc.devRef .tc b) = W12 m c (Proc.devRef .tc b) :=
  StableHlo.after_of_writes_sub hostOps6 _ GenP.hostOps6_writes h
theorem W15_keep (c : Dev nD) (b : Ref sig .tc) (h : b ∉ GenP.hostOps7_W) :
    W15 m c (Proc.devRef .tc b) = W14 m c (Proc.devRef .tc b) :=
  StableHlo.after_of_writes_sub hostOps7 _ GenP.hostOps7_writes h
theorem W16_keep (c : Dev nD) (b : Ref sig .tc) (h : b ∉ GenP.hostOps7_1_W) :
    W16 m c (Proc.devRef .tc b) = W15 m c (Proc.devRef .tc b) :=
  StableHlo.after_of_writes_sub hostOps7_1 _ GenP.hostOps7_1_writes h
theorem W17_keep (c : Dev nD) (b : Ref sig .tc) (h : b ∉ GenP.hostOps7_2_W) :
    W17 m c (Proc.devRef .tc b) = W16 m c (Proc.devRef .tc b) :=
  StableHlo.after_of_writes_sub hostOps7_2 _ GenP.hostOps7_2_writes h
theorem W18_keep (c : Dev nD) (b : Ref sig .tc) (h : b ∉ GenP.hostOps7_3_W) :
    W18 m c (Proc.devRef .tc b) = W17 m c (Proc.devRef .tc b) :=
  StableHlo.after_of_writes_sub hostOps7_3 _ GenP.hostOps7_3_writes h
theorem W19_keep (c : Dev nD) (b : Ref sig .tc) (h : b ∉ GenP.hostOps7_4_W) :
    W19 m c (Proc.devRef .tc b) = W18 m c (Proc.devRef .tc b) :=
  StableHlo.after_of_writes_sub hostOps7_4 _ GenP.hostOps7_4_writes h
theorem W20_keep (c : Dev nD) (b : Ref sig .tc) (h : b ∉ GenP.hostOps7_5_W) :
    W20 m c (Proc.devRef .tc b) = W19 m c (Proc.devRef .tc b) :=
  StableHlo.after_of_writes_sub hostOps7_5 _ GenP.hostOps7_5_writes h
theorem W21_keep (c : Dev nD) (b : Ref sig .tc) (h : b ∉ GenP.hostOps7_6_W) :
    W21 m c (Proc.devRef .tc b) = W20 m c (Proc.devRef .tc b) :=
  StableHlo.after_of_writes_sub hostOps7_6 _ GenP.hostOps7_6_writes h
theorem W22_keep (c : Dev nD) (b : Ref sig .tc) (h : b ∉ GenP.hostOps7_7_W) :
    W22 m c (Proc.devRef .tc b) = W21 m c (Proc.devRef .tc b) :=
  StableHlo.after_of_writes_sub hostOps7_7 _ GenP.hostOps7_7_writes h
theorem W23_keep (c : Dev nD) (b : Ref sig .tc) (h : b ∉ GenP.hostOps7_8_W) :
    W23 m c (Proc.devRef .tc b) = W22 m c (Proc.devRef .tc b) :=
  StableHlo.after_of_writes_sub hostOps7_8 _ GenP.hostOps7_8_writes h
theorem W24_keep (c : Dev nD) (b : Ref sig .tc) (h : b ∉ GenP.hostOps7_9_W) :
    W24 m c (Proc.devRef .tc b) = W23 m c (Proc.devRef .tc b) :=
  StableHlo.after_of_writes_sub hostOps7_9 _ GenP.hostOps7_9_writes h
theorem W25_keep (c : Dev nD) (b : Ref sig .tc) (h : b ∉ GenP.hostOps7_10_W) :
    W25 m c (Proc.devRef .tc b) = W24 m c (Proc.devRef .tc b) :=
  StableHlo.after_of_writes_sub hostOps7_10 _ GenP.hostOps7_10_writes h
theorem W26_keep (c : Dev nD) (b : Ref sig .tc) (h : b ∉ GenP.hostOps7_11_W) :
    W26 m c (Proc.devRef .tc b) = W25 m c (Proc.devRef .tc b) :=
  StableHlo.after_of_writes_sub hostOps7_11 _ GenP.hostOps7_11_writes h
theorem W27_keep (c : Dev nD) (b : Ref sig .tc) (h : b ∉ GenP.hostOps7_12_W) :
    W27 m c (Proc.devRef .tc b) = W26 m c (Proc.devRef .tc b) :=
  StableHlo.after_of_writes_sub hostOps7_12 _ GenP.hostOps7_12_writes h
theorem W28_keep (c : Dev nD) (b : Ref sig .tc) (h : b ∉ GenP.hostOps7_13_W) :
    W28 m c (Proc.devRef .tc b) = W27 m c (Proc.devRef .tc b) :=
  StableHlo.after_of_writes_sub hostOps7_13 _ GenP.hostOps7_13_writes h
theorem W29_keep (c : Dev nD) (b : Ref sig .tc) (h : b ∉ GenP.hostOps7_14_W) :
    W29 m c (Proc.devRef .tc b) = W28 m c (Proc.devRef .tc b) :=
  StableHlo.after_of_writes_sub hostOps7_14 _ GenP.hostOps7_14_writes h
theorem W30_keep (c : Dev nD) (b : Ref sig .tc) (h : b ∉ GenP.hostOps7_15_W) :
    W30 m c (Proc.devRef .tc b) = W29 m c (Proc.devRef .tc b) :=
  StableHlo.after_of_writes_sub hostOps7_15 _ GenP.hostOps7_15_writes h
theorem W31_keep (c : Dev nD) (b : Ref sig .tc) (h : b ∉ GenP.hostOps7_16_W) :
    W31 m c (Proc.devRef .tc b) = W30 m c (Proc.devRef .tc b) :=
  StableHlo.after_of_writes_sub hostOps7_16 _ GenP.hostOps7_16_writes h
theorem W32_keep (c : Dev nD) (b : Ref sig .tc) (h : b ∉ GenP.hostOps7_17_W) :
    W32 m c (Proc.devRef .tc b) = W31 m c (Proc.devRef .tc b) :=
  StableHlo.after_of_writes_sub hostOps7_17 _ GenP.hostOps7_17_writes h
theorem W33_keep (c : Dev nD) (b : Ref sig .tc) (h : b ∉ GenP.hostOps7_18_W) :
    W33 m c (Proc.devRef .tc b) = W32 m c (Proc.devRef .tc b) :=
  StableHlo.after_of_writes_sub hostOps7_18 _ GenP.hostOps7_18_writes h
theorem W34_keep (c : Dev nD) (b : Ref sig .tc) (h : b ∉ GenP.hostOps7_19_W) :
    W34 m c (Proc.devRef .tc b) = W33 m c (Proc.devRef .tc b) :=
  StableHlo.after_of_writes_sub hostOps7_19 _ GenP.hostOps7_19_writes h
theorem W35_keep (c : Dev nD) (b : Ref sig .tc) (h : b ∉ GenP.hostOps7_20_W) :
    W35 m c (Proc.devRef .tc b) = W34 m c (Proc.devRef .tc b) :=
  StableHlo.after_of_writes_sub hostOps7_20 _ GenP.hostOps7_20_writes h
theorem W36_keep (c : Dev nD) (b : Ref sig .tc) (h : b ∉ GenP.hostOps7_21_W) :
    W36 m c (Proc.devRef .tc b) = W35 m c (Proc.devRef .tc b) :=
  StableHlo.after_of_writes_sub hostOps7_21 _ GenP.hostOps7_21_writes h
theorem W37_keep (c : Dev nD) (b : Ref sig .tc) (h : b ∉ GenP.hostOps7_22_W) :
    W37 m c (Proc.devRef .tc b) = W36 m c (Proc.devRef .tc b) :=
  StableHlo.after_of_writes_sub hostOps7_22 _ GenP.hostOps7_22_writes h
theorem W38_keep (c : Dev nD) (b : Ref sig .tc) (h : b ∉ GenP.hostOps7_23_W) :
    W38 m c (Proc.devRef .tc b) = W37 m c (Proc.devRef .tc b) :=
  StableHlo.after_of_writes_sub hostOps7_23 _ GenP.hostOps7_23_writes h
theorem W39_keep (c : Dev nD) (b : Ref sig .tc) (h : b ∉ GenP.hostOps7_24_W) :
    W39 m c (Proc.devRef .tc b) = W38 m c (Proc.devRef .tc b) :=
  StableHlo.after_of_writes_sub hostOps7_24 _ GenP.hostOps7_24_writes h
theorem W40_keep (c : Dev nD) (b : Ref sig .tc) (h : b ∉ GenP.hostOps7_25_W) :
    W40 m c (Proc.devRef .tc b) = W39 m c (Proc.devRef .tc b) :=
  StableHlo.after_of_writes_sub hostOps7_25 _ GenP.hostOps7_25_writes h
theorem W41_keep (c : Dev nD) (b : Ref sig .tc) (h : b ∉ GenP.hostOps7_26_W) :
    W41 m c (Proc.devRef .tc b) = W40 m c (Proc.devRef .tc b) :=
  StableHlo.after_of_writes_sub hostOps7_26 _ GenP.hostOps7_26_writes h
theorem W42_keep (c : Dev nD) (b : Ref sig .tc) (h : b ∉ GenP.hostOps7_27_W) :
    W42 m c (Proc.devRef .tc b) = W41 m c (Proc.devRef .tc b) :=
  StableHlo.after_of_writes_sub hostOps7_27 _ GenP.hostOps7_27_writes h
theorem W43_keep (c : Dev nD) (b : Ref sig .tc) (h : b ∉ GenP.hostOps7_28_W) :
    W43 m c (Proc.devRef .tc b) = W42 m c (Proc.devRef .tc b) :=
  StableHlo.after_of_writes_sub hostOps7_28 _ GenP.hostOps7_28_writes h
theorem W44_keep (c : Dev nD) (b : Ref sig .tc) (h : b ∉ GenP.hostOps7_29_W) :
    W44 m c (Proc.devRef .tc b) = W43 m c (Proc.devRef .tc b) :=
  StableHlo.after_of_writes_sub hostOps7_29 _ GenP.hostOps7_29_writes h
theorem W45_keep (c : Dev nD) (b : Ref sig .tc) (h : b ∉ GenP.hostOps7_30_W) :
    W45 m c (Proc.devRef .tc b) = W44 m c (Proc.devRef .tc b) :=
  StableHlo.after_of_writes_sub hostOps7_30 _ GenP.hostOps7_30_writes h
theorem W46_keep (c : Dev nD) (b : Ref sig .tc) (h : b ∉ GenP.hostOps7_31_W) :
    W46 m c (Proc.devRef .tc b) = W45 m c (Proc.devRef .tc b) :=
  StableHlo.after_of_writes_sub hostOps7_31 _ GenP.hostOps7_31_writes h
theorem W47_keep (c : Dev nD) (b : Ref sig .tc) (h : b ∉ GenP.hostOps7_32_W) :
    W47 m c (Proc.devRef .tc b) = W46 m c (Proc.devRef .tc b) :=
  StableHlo.after_of_writes_sub hostOps7_32 _ GenP.hostOps7_32_writes h

theorem keep_main_v7 (c : Dev nD) : W46 m c (Proc.devRef .tc main_v7) = W1 m c (Proc.devRef .tc main_v7) :=
  (W46_keep m c main_v7 (by decide)).trans <|
  (W45_keep m c main_v7 (by decide)).trans <|
  (W44_keep m c main_v7 (by decide)).trans <|
  (W43_keep m c main_v7 (by decide)).trans <|
  (W42_keep m c main_v7 (by decide)).trans <|
  (W41_keep m c main_v7 (by decide)).trans <|
  (W40_keep m c main_v7 (by decide)).trans <|
  (W39_keep m c main_v7 (by decide)).trans <|
  (W38_keep m c main_v7 (by decide)).trans <|
  (W37_keep m c main_v7 (by decide)).trans <|
  (W36_keep m c main_v7 (by decide)).trans <|
  (W35_keep m c main_v7 (by decide)).trans <|
  (W34_keep m c main_v7 (by decide)).trans <|
  (W33_keep m c main_v7 (by decide)).trans <|
  (W32_keep m c main_v7 (by decide)).trans <|
  (W31_keep m c main_v7 (by decide)).trans <|
  (W30_keep m c main_v7 (by decide)).trans <|
  (W29_keep m c main_v7 (by decide)).trans <|
  (W28_keep m c main_v7 (by decide)).trans <|
  (W27_keep m c main_v7 (by decide)).trans <|
  (W26_keep m c main_v7 (by decide)).trans <|
  (W25_keep m c main_v7 (by decide)).trans <|
  (W24_keep m c main_v7 (by decide)).trans <|
  (W23_keep m c main_v7 (by decide)).trans <|
  (W22_keep m c main_v7 (by decide)).trans <|
  (W21_keep m c main_v7 (by decide)).trans <|
  (W20_keep m c main_v7 (by decide)).trans <|
  (W19_keep m c main_v7 (by decide)).trans <|
  (W18_keep m c main_v7 (by decide)).trans <|
  (W17_keep m c main_v7 (by decide)).trans <|
  (W16_keep m c main_v7 (by decide)).trans <|
  (W15_keep m c main_v7 (by decide)).trans <|
  (W14_of_ne m c main_v7 (by decide)).trans <|
  (W13_keep m c main_v7 (by decide)).trans <|
  (W12_of_ne m c main_v7 (by decide)).trans <|
  (W11_keep m c main_v7 (by decide)).trans <|
  (W10_of_ne m c main_v7 (by decide)).trans <|
  (W9_keep m c main_v7 (by decide)).trans <|
  (W8_of_ne m c main_v7 (by decide)).trans <|
  (W7_keep m c main_v7 (by decide)).trans <|
  (W6_of_ne m c main_v7 (by decide)).trans <|
  (W5_keep m c main_v7 (by decide)).trans <|
  (W4_of_ne m c main_v7 (by decide)).trans <|
  (W3_keep m c main_v7 (by decide)).trans <|
  W2_of_ne m c main_v7 (by decide)
theorem keep_main_v22 (c : Dev nD) : W46 m c (Proc.devRef .tc main_v22) = W3 m c (Proc.devRef .tc main_v22) :=
  (W46_keep m c main_v22 (by decide)).trans <|
  (W45_keep m c main_v22 (by decide)).trans <|
  (W44_keep m c main_v22 (by decide)).trans <|
  (W43_keep m c main_v22 (by decide)).trans <|
  (W42_keep m c main_v22 (by decide)).trans <|
  (W41_keep m c main_v22 (by decide)).trans <|
  (W40_keep m c main_v22 (by decide)).trans <|
  (W39_keep m c main_v22 (by decide)).trans <|
  (W38_keep m c main_v22 (by decide)).trans <|
  (W37_keep m c main_v22 (by decide)).trans <|
  (W36_keep m c main_v22 (by decide)).trans <|
  (W35_keep m c main_v22 (by decide)).trans <|
  (W34_keep m c main_v22 (by decide)).trans <|
  (W33_keep m c main_v22 (by decide)).trans <|
  (W32_keep m c main_v22 (by decide)).trans <|
  (W31_keep m c main_v22 (by decide)).trans <|
  (W30_keep m c main_v22 (by decide)).trans <|
  (W29_keep m c main_v22 (by decide)).trans <|
  (W28_keep m c main_v22 (by decide)).trans <|
  (W27_keep m c main_v22 (by decide)).trans <|
  (W26_keep m c main_v22 (by decide)).trans <|
  (W25_keep m c main_v22 (by decide)).trans <|
  (W24_keep m c main_v22 (by decide)).trans <|
  (W23_keep m c main_v22 (by decide)).trans <|
  (W22_keep m c main_v22 (by decide)).trans <|
  (W21_keep m c main_v22 (by decide)).trans <|
  (W20_keep m c main_v22 (by decide)).trans <|
  (W19_keep m c main_v22 (by decide)).trans <|
  (W18_keep m c main_v22 (by decide)).trans <|
  (W17_keep m c main_v22 (by decide)).trans <|
  (W16_keep m c main_v22 (by decide)).trans <|
  (W15_keep m c main_v22 (by decide)).trans <|
  (W14_of_ne m c main_v22 (by decide)).trans <|
  (W13_keep m c main_v22 (by decide)).trans <|
  (W12_of_ne m c main_v22 (by decide)).trans <|
  (W11_keep m c main_v22 (by decide)).trans <|
  (W10_of_ne m c main_v22 (by decide)).trans <|
  (W9_keep m c main_v22 (by decide)).trans <|
  (W8_of_ne m c main_v22 (by decide)).trans <|
  (W7_keep m c main_v22 (by decide)).trans <|
  (W6_of_ne m c main_v22 (by decide)).trans <|
  (W5_keep m c main_v22 (by decide)).trans <|
  W4_of_ne m c main_v22 (by decide)
theorem keep_main_v26 (c : Dev nD) : W46 m c (Proc.devRef .tc main_v26) = W5 m c (Proc.devRef .tc main_v26) :=
  (W46_keep m c main_v26 (by decide)).trans <|
  (W45_keep m c main_v26 (by decide)).trans <|
  (W44_keep m c main_v26 (by decide)).trans <|
  (W43_keep m c main_v26 (by decide)).trans <|
  (W42_keep m c main_v26 (by decide)).trans <|
  (W41_keep m c main_v26 (by decide)).trans <|
  (W40_keep m c main_v26 (by decide)).trans <|
  (W39_keep m c main_v26 (by decide)).trans <|
  (W38_keep m c main_v26 (by decide)).trans <|
  (W37_keep m c main_v26 (by decide)).trans <|
  (W36_keep m c main_v26 (by decide)).trans <|
  (W35_keep m c main_v26 (by decide)).trans <|
  (W34_keep m c main_v26 (by decide)).trans <|
  (W33_keep m c main_v26 (by decide)).trans <|
  (W32_keep m c main_v26 (by decide)).trans <|
  (W31_keep m c main_v26 (by decide)).trans <|
  (W30_keep m c main_v26 (by decide)).trans <|
  (W29_keep m c main_v26 (by decide)).trans <|
  (W28_keep m c main_v26 (by decide)).trans <|
  (W27_keep m c main_v26 (by decide)).trans <|
  (W26_keep m c main_v26 (by decide)).trans <|
  (W25_keep m c main_v26 (by decide)).trans <|
  (W24_keep m c main_v26 (by decide)).trans <|
  (W23_keep m c main_v26 (by decide)).trans <|
  (W22_keep m c main_v26 (by decide)).trans <|
  (W21_keep m c main_v26 (by decide)).trans <|
  (W20_keep m c main_v26 (by decide)).trans <|
  (W19_keep m c main_v26 (by decide)).trans <|
  (W18_keep m c main_v26 (by decide)).trans <|
  (W17_keep m c main_v26 (by decide)).trans <|
  (W16_keep m c main_v26 (by decide)).trans <|
  (W15_keep m c main_v26 (by decide)).trans <|
  (W14_of_ne m c main_v26 (by decide)).trans <|
  (W13_keep m c main_v26 (by decide)).trans <|
  (W12_of_ne m c main_v26 (by decide)).trans <|
  (W11_keep m c main_v26 (by decide)).trans <|
  (W10_of_ne m c main_v26 (by decide)).trans <|
  (W9_keep m c main_v26 (by decide)).trans <|
  (W8_of_ne m c main_v26 (by decide)).trans <|
  (W7_keep m c main_v26 (by decide)).trans <|
  W6_of_ne m c main_v26 (by decide)
theorem keep_main_v30 (c : Dev nD) : W46 m c (Proc.devRef .tc main_v30) = W7 m c (Proc.devRef .tc main_v30) :=
  (W46_keep m c main_v30 (by decide)).trans <|
  (W45_keep m c main_v30 (by decide)).trans <|
  (W44_keep m c main_v30 (by decide)).trans <|
  (W43_keep m c main_v30 (by decide)).trans <|
  (W42_keep m c main_v30 (by decide)).trans <|
  (W41_keep m c main_v30 (by decide)).trans <|
  (W40_keep m c main_v30 (by decide)).trans <|
  (W39_keep m c main_v30 (by decide)).trans <|
  (W38_keep m c main_v30 (by decide)).trans <|
  (W37_keep m c main_v30 (by decide)).trans <|
  (W36_keep m c main_v30 (by decide)).trans <|
  (W35_keep m c main_v30 (by decide)).trans <|
  (W34_keep m c main_v30 (by decide)).trans <|
  (W33_keep m c main_v30 (by decide)).trans <|
  (W32_keep m c main_v30 (by decide)).trans <|
  (W31_keep m c main_v30 (by decide)).trans <|
  (W30_keep m c main_v30 (by decide)).trans <|
  (W29_keep m c main_v30 (by decide)).trans <|
  (W28_keep m c main_v30 (by decide)).trans <|
  (W27_keep m c main_v30 (by decide)).trans <|
  (W26_keep m c main_v30 (by decide)).trans <|
  (W25_keep m c main_v30 (by decide)).trans <|
  (W24_keep m c main_v30 (by decide)).trans <|
  (W23_keep m c main_v30 (by decide)).trans <|
  (W22_keep m c main_v30 (by decide)).trans <|
  (W21_keep m c main_v30 (by decide)).trans <|
  (W20_keep m c main_v30 (by decide)).trans <|
  (W19_keep m c main_v30 (by decide)).trans <|
  (W18_keep m c main_v30 (by decide)).trans <|
  (W17_keep m c main_v30 (by decide)).trans <|
  (W16_keep m c main_v30 (by decide)).trans <|
  (W15_keep m c main_v30 (by decide)).trans <|
  (W14_of_ne m c main_v30 (by decide)).trans <|
  (W13_keep m c main_v30 (by decide)).trans <|
  (W12_of_ne m c main_v30 (by decide)).trans <|
  (W11_keep m c main_v30 (by decide)).trans <|
  (W10_of_ne m c main_v30 (by decide)).trans <|
  (W9_keep m c main_v30 (by decide)).trans <|
  W8_of_ne m c main_v30 (by decide)
theorem keep_main_v34 (c : Dev nD) : W46 m c (Proc.devRef .tc main_v34) = W9 m c (Proc.devRef .tc main_v34) :=
  (W46_keep m c main_v34 (by decide)).trans <|
  (W45_keep m c main_v34 (by decide)).trans <|
  (W44_keep m c main_v34 (by decide)).trans <|
  (W43_keep m c main_v34 (by decide)).trans <|
  (W42_keep m c main_v34 (by decide)).trans <|
  (W41_keep m c main_v34 (by decide)).trans <|
  (W40_keep m c main_v34 (by decide)).trans <|
  (W39_keep m c main_v34 (by decide)).trans <|
  (W38_keep m c main_v34 (by decide)).trans <|
  (W37_keep m c main_v34 (by decide)).trans <|
  (W36_keep m c main_v34 (by decide)).trans <|
  (W35_keep m c main_v34 (by decide)).trans <|
  (W34_keep m c main_v34 (by decide)).trans <|
  (W33_keep m c main_v34 (by decide)).trans <|
  (W32_keep m c main_v34 (by decide)).trans <|
  (W31_keep m c main_v34 (by decide)).trans <|
  (W30_keep m c main_v34 (by decide)).trans <|
  (W29_keep m c main_v34 (by decide)).trans <|
  (W28_keep m c main_v34 (by decide)).trans <|
  (W27_keep m c main_v34 (by decide)).trans <|
  (W26_keep m c main_v34 (by decide)).trans <|
  (W25_keep m c main_v34 (by decide)).trans <|
  (W24_keep m c main_v34 (by decide)).trans <|
  (W23_keep m c main_v34 (by decide)).trans <|
  (W22_keep m c main_v34 (by decide)).trans <|
  (W21_keep m c main_v34 (by decide)).trans <|
  (W20_keep m c main_v34 (by decide)).trans <|
  (W19_keep m c main_v34 (by decide)).trans <|
  (W18_keep m c main_v34 (by decide)).trans <|
  (W17_keep m c main_v34 (by decide)).trans <|
  (W16_keep m c main_v34 (by decide)).trans <|
  (W15_keep m c main_v34 (by decide)).trans <|
  (W14_of_ne m c main_v34 (by decide)).trans <|
  (W13_keep m c main_v34 (by decide)).trans <|
  (W12_of_ne m c main_v34 (by decide)).trans <|
  (W11_keep m c main_v34 (by decide)).trans <|
  W10_of_ne m c main_v34 (by decide)
theorem keep_main_v38 (c : Dev nD) : W46 m c (Proc.devRef .tc main_v38) = W11 m c (Proc.devRef .tc main_v38) :=
  (W46_keep m c main_v38 (by decide)).trans <|
  (W45_keep m c main_v38 (by decide)).trans <|
  (W44_keep m c main_v38 (by decide)).trans <|
  (W43_keep m c main_v38 (by decide)).trans <|
  (W42_keep m c main_v38 (by decide)).trans <|
  (W41_keep m c main_v38 (by decide)).trans <|
  (W40_keep m c main_v38 (by decide)).trans <|
  (W39_keep m c main_v38 (by decide)).trans <|
  (W38_keep m c main_v38 (by decide)).trans <|
  (W37_keep m c main_v38 (by decide)).trans <|
  (W36_keep m c main_v38 (by decide)).trans <|
  (W35_keep m c main_v38 (by decide)).trans <|
  (W34_keep m c main_v38 (by decide)).trans <|
  (W33_keep m c main_v38 (by decide)).trans <|
  (W32_keep m c main_v38 (by decide)).trans <|
  (W31_keep m c main_v38 (by decide)).trans <|
  (W30_keep m c main_v38 (by decide)).trans <|
  (W29_keep m c main_v38 (by decide)).trans <|
  (W28_keep m c main_v38 (by decide)).trans <|
  (W27_keep m c main_v38 (by decide)).trans <|
  (W26_keep m c main_v38 (by decide)).trans <|
  (W25_keep m c main_v38 (by decide)).trans <|
  (W24_keep m c main_v38 (by decide)).trans <|
  (W23_keep m c main_v38 (by decide)).trans <|
  (W22_keep m c main_v38 (by decide)).trans <|
  (W21_keep m c main_v38 (by decide)).trans <|
  (W20_keep m c main_v38 (by decide)).trans <|
  (W19_keep m c main_v38 (by decide)).trans <|
  (W18_keep m c main_v38 (by decide)).trans <|
  (W17_keep m c main_v38 (by decide)).trans <|
  (W16_keep m c main_v38 (by decide)).trans <|
  (W15_keep m c main_v38 (by decide)).trans <|
  (W14_of_ne m c main_v38 (by decide)).trans <|
  (W13_keep m c main_v38 (by decide)).trans <|
  W12_of_ne m c main_v38 (by decide)
theorem keep_main_v42 (c : Dev nD) : W46 m c (Proc.devRef .tc main_v42) = W13 m c (Proc.devRef .tc main_v42) :=
  (W46_keep m c main_v42 (by decide)).trans <|
  (W45_keep m c main_v42 (by decide)).trans <|
  (W44_keep m c main_v42 (by decide)).trans <|
  (W43_keep m c main_v42 (by decide)).trans <|
  (W42_keep m c main_v42 (by decide)).trans <|
  (W41_keep m c main_v42 (by decide)).trans <|
  (W40_keep m c main_v42 (by decide)).trans <|
  (W39_keep m c main_v42 (by decide)).trans <|
  (W38_keep m c main_v42 (by decide)).trans <|
  (W37_keep m c main_v42 (by decide)).trans <|
  (W36_keep m c main_v42 (by decide)).trans <|
  (W35_keep m c main_v42 (by decide)).trans <|
  (W34_keep m c main_v42 (by decide)).trans <|
  (W33_keep m c main_v42 (by decide)).trans <|
  (W32_keep m c main_v42 (by decide)).trans <|
  (W31_keep m c main_v42 (by decide)).trans <|
  (W30_keep m c main_v42 (by decide)).trans <|
  (W29_keep m c main_v42 (by decide)).trans <|
  (W28_keep m c main_v42 (by decide)).trans <|
  (W27_keep m c main_v42 (by decide)).trans <|
  (W26_keep m c main_v42 (by decide)).trans <|
  (W25_keep m c main_v42 (by decide)).trans <|
  (W24_keep m c main_v42 (by decide)).trans <|
  (W23_keep m c main_v42 (by decide)).trans <|
  (W22_keep m c main_v42 (by decide)).trans <|
  (W21_keep m c main_v42 (by decide)).trans <|
  (W20_keep m c main_v42 (by decide)).trans <|
  (W19_keep m c main_v42 (by decide)).trans <|
  (W18_keep m c main_v42 (by decide)).trans <|
  (W17_keep m c main_v42 (by decide)).trans <|
  (W16_keep m c main_v42 (by decide)).trans <|
  (W15_keep m c main_v42 (by decide)).trans <|
  W14_of_ne m c main_v42 (by decide)
theorem keep_main_v46 (c : Dev nD) : W46 m c (Proc.devRef .tc main_v46) = W15 m c (Proc.devRef .tc main_v46) :=
  (W46_keep m c main_v46 (by decide)).trans <|
  (W45_keep m c main_v46 (by decide)).trans <|
  (W44_keep m c main_v46 (by decide)).trans <|
  (W43_keep m c main_v46 (by decide)).trans <|
  (W42_keep m c main_v46 (by decide)).trans <|
  (W41_keep m c main_v46 (by decide)).trans <|
  (W40_keep m c main_v46 (by decide)).trans <|
  (W39_keep m c main_v46 (by decide)).trans <|
  (W38_keep m c main_v46 (by decide)).trans <|
  (W37_keep m c main_v46 (by decide)).trans <|
  (W36_keep m c main_v46 (by decide)).trans <|
  (W35_keep m c main_v46 (by decide)).trans <|
  (W34_keep m c main_v46 (by decide)).trans <|
  (W33_keep m c main_v46 (by decide)).trans <|
  (W32_keep m c main_v46 (by decide)).trans <|
  (W31_keep m c main_v46 (by decide)).trans <|
  (W30_keep m c main_v46 (by decide)).trans <|
  (W29_keep m c main_v46 (by decide)).trans <|
  (W28_keep m c main_v46 (by decide)).trans <|
  (W27_keep m c main_v46 (by decide)).trans <|
  (W26_keep m c main_v46 (by decide)).trans <|
  (W25_keep m c main_v46 (by decide)).trans <|
  (W24_keep m c main_v46 (by decide)).trans <|
  (W23_keep m c main_v46 (by decide)).trans <|
  (W22_keep m c main_v46 (by decide)).trans <|
  (W21_keep m c main_v46 (by decide)).trans <|
  (W20_keep m c main_v46 (by decide)).trans <|
  (W19_keep m c main_v46 (by decide)).trans <|
  (W18_keep m c main_v46 (by decide)).trans <|
  (W17_keep m c main_v46 (by decide)).trans <|
  W16_keep m c main_v46 (by decide)
theorem keep_main_v64 (c : Dev nD) : W46 m c (Proc.devRef .tc main_v64) = W16 m c (Proc.devRef .tc main_v64) :=
  (W46_keep m c main_v64 (by decide)).trans <|
  (W45_keep m c main_v64 (by decide)).trans <|
  (W44_keep m c main_v64 (by decide)).trans <|
  (W43_keep m c main_v64 (by decide)).trans <|
  (W42_keep m c main_v64 (by decide)).trans <|
  (W41_keep m c main_v64 (by decide)).trans <|
  (W40_keep m c main_v64 (by decide)).trans <|
  (W39_keep m c main_v64 (by decide)).trans <|
  (W38_keep m c main_v64 (by decide)).trans <|
  (W37_keep m c main_v64 (by decide)).trans <|
  (W36_keep m c main_v64 (by decide)).trans <|
  (W35_keep m c main_v64 (by decide)).trans <|
  (W34_keep m c main_v64 (by decide)).trans <|
  (W33_keep m c main_v64 (by decide)).trans <|
  (W32_keep m c main_v64 (by decide)).trans <|
  (W31_keep m c main_v64 (by decide)).trans <|
  (W30_keep m c main_v64 (by decide)).trans <|
  (W29_keep m c main_v64 (by decide)).trans <|
  (W28_keep m c main_v64 (by decide)).trans <|
  (W27_keep m c main_v64 (by decide)).trans <|
  (W26_keep m c main_v64 (by decide)).trans <|
  (W25_keep m c main_v64 (by decide)).trans <|
  (W24_keep m c main_v64 (by decide)).trans <|
  (W23_keep m c main_v64 (by decide)).trans <|
  (W22_keep m c main_v64 (by decide)).trans <|
  (W21_keep m c main_v64 (by decide)).trans <|
  (W20_keep m c main_v64 (by decide)).trans <|
  (W19_keep m c main_v64 (by decide)).trans <|
  (W18_keep m c main_v64 (by decide)).trans <|
  W17_keep m c main_v64 (by decide)
theorem keep_main_v80 (c : Dev nD) : W46 m c (Proc.devRef .tc main_v80) = W18 m c (Proc.devRef .tc main_v80) :=
  (W46_keep m c main_v80 (by decide)).trans <|
  (W45_keep m c main_v80 (by decide)).trans <|
  (W44_keep m c main_v80 (by decide)).trans <|
  (W43_keep m c main_v80 (by decide)).trans <|
  (W42_keep m c main_v80 (by decide)).trans <|
  (W41_keep m c main_v80 (by decide)).trans <|
  (W40_keep m c main_v80 (by decide)).trans <|
  (W39_keep m c main_v80 (by decide)).trans <|
  (W38_keep m c main_v80 (by decide)).trans <|
  (W37_keep m c main_v80 (by decide)).trans <|
  (W36_keep m c main_v80 (by decide)).trans <|
  (W35_keep m c main_v80 (by decide)).trans <|
  (W34_keep m c main_v80 (by decide)).trans <|
  (W33_keep m c main_v80 (by decide)).trans <|
  (W32_keep m c main_v80 (by decide)).trans <|
  (W31_keep m c main_v80 (by decide)).trans <|
  (W30_keep m c main_v80 (by decide)).trans <|
  (W29_keep m c main_v80 (by decide)).trans <|
  (W28_keep m c main_v80 (by decide)).trans <|
  (W27_keep m c main_v80 (by decide)).trans <|
  (W26_keep m c main_v80 (by decide)).trans <|
  (W25_keep m c main_v80 (by decide)).trans <|
  (W24_keep m c main_v80 (by decide)).trans <|
  (W23_keep m c main_v80 (by decide)).trans <|
  (W22_keep m c main_v80 (by decide)).trans <|
  (W21_keep m c main_v80 (by decide)).trans <|
  (W20_keep m c main_v80 (by decide)).trans <|
  W19_keep m c main_v80 (by decide)
theorem keep_main_v96 (c : Dev nD) : W46 m c (Proc.devRef .tc main_v96) = W20 m c (Proc.devRef .tc main_v96) :=
  (W46_keep m c main_v96 (by decide)).trans <|
  (W45_keep m c main_v96 (by decide)).trans <|
  (W44_keep m c main_v96 (by decide)).trans <|
  (W43_keep m c main_v96 (by decide)).trans <|
  (W42_keep m c main_v96 (by decide)).trans <|
  (W41_keep m c main_v96 (by decide)).trans <|
  (W40_keep m c main_v96 (by decide)).trans <|
  (W39_keep m c main_v96 (by decide)).trans <|
  (W38_keep m c main_v96 (by decide)).trans <|
  (W37_keep m c main_v96 (by decide)).trans <|
  (W36_keep m c main_v96 (by decide)).trans <|
  (W35_keep m c main_v96 (by decide)).trans <|
  (W34_keep m c main_v96 (by decide)).trans <|
  (W33_keep m c main_v96 (by decide)).trans <|
  (W32_keep m c main_v96 (by decide)).trans <|
  (W31_keep m c main_v96 (by decide)).trans <|
  (W30_keep m c main_v96 (by decide)).trans <|
  (W29_keep m c main_v96 (by decide)).trans <|
  (W28_keep m c main_v96 (by decide)).trans <|
  (W27_keep m c main_v96 (by decide)).trans <|
  (W26_keep m c main_v96 (by decide)).trans <|
  (W25_keep m c main_v96 (by decide)).trans <|
  (W24_keep m c main_v96 (by decide)).trans <|
  (W23_keep m c main_v96 (by decide)).trans <|
  (W22_keep m c main_v96 (by decide)).trans <|
  W21_keep m c main_v96 (by decide)
theorem keep_main_v112 (c : Dev nD) : W46 m c (Proc.devRef .tc main_v112) = W22 m c (Proc.devRef .tc main_v112) :=
  (W46_keep m c main_v112 (by decide)).trans <|
  (W45_keep m c main_v112 (by decide)).trans <|
  (W44_keep m c main_v112 (by decide)).trans <|
  (W43_keep m c main_v112 (by decide)).trans <|
  (W42_keep m c main_v112 (by decide)).trans <|
  (W41_keep m c main_v112 (by decide)).trans <|
  (W40_keep m c main_v112 (by decide)).trans <|
  (W39_keep m c main_v112 (by decide)).trans <|
  (W38_keep m c main_v112 (by decide)).trans <|
  (W37_keep m c main_v112 (by decide)).trans <|
  (W36_keep m c main_v112 (by decide)).trans <|
  (W35_keep m c main_v112 (by decide)).trans <|
  (W34_keep m c main_v112 (by decide)).trans <|
  (W33_keep m c main_v112 (by decide)).trans <|
  (W32_keep m c main_v112 (by decide)).trans <|
  (W31_keep m c main_v112 (by decide)).trans <|
  (W30_keep m c main_v112 (by decide)).trans <|
  (W29_keep m c main_v112 (by decide)).trans <|
  (W28_keep m c main_v112 (by decide)).trans <|
  (W27_keep m c main_v112 (by decide)).trans <|
  (W26_keep m c main_v112 (by decide)).trans <|
  (W25_keep m c main_v112 (by decide)).trans <|
  (W24_keep m c main_v112 (by decide)).trans <|
  W23_keep m c main_v112 (by decide)
theorem keep_main_v128 (c : Dev nD) : W46 m c (Proc.devRef .tc main_v128) = W24 m c (Proc.devRef .tc main_v128) :=
  (W46_keep m c main_v128 (by decide)).trans <|
  (W45_keep m c main_v128 (by decide)).trans <|
  (W44_keep m c main_v128 (by decide)).trans <|
  (W43_keep m c main_v128 (by decide)).trans <|
  (W42_keep m c main_v128 (by decide)).trans <|
  (W41_keep m c main_v128 (by decide)).trans <|
  (W40_keep m c main_v128 (by decide)).trans <|
  (W39_keep m c main_v128 (by decide)).trans <|
  (W38_keep m c main_v128 (by decide)).trans <|
  (W37_keep m c main_v128 (by decide)).trans <|
  (W36_keep m c main_v128 (by decide)).trans <|
  (W35_keep m c main_v128 (by decide)).trans <|
  (W34_keep m c main_v128 (by decide)).trans <|
  (W33_keep m c main_v128 (by decide)).trans <|
  (W32_keep m c main_v128 (by decide)).trans <|
  (W31_keep m c main_v128 (by decide)).trans <|
  (W30_keep m c main_v128 (by decide)).trans <|
  (W29_keep m c main_v128 (by decide)).trans <|
  (W28_keep m c main_v128 (by decide)).trans <|
  (W27_keep m c main_v128 (by decide)).trans <|
  (W26_keep m c main_v128 (by decide)).trans <|
  W25_keep m c main_v128 (by decide)
theorem keep_main_v144 (c : Dev nD) : W46 m c (Proc.devRef .tc main_v144) = W26 m c (Proc.devRef .tc main_v144) :=
  (W46_keep m c main_v144 (by decide)).trans <|
  (W45_keep m c main_v144 (by decide)).trans <|
  (W44_keep m c main_v144 (by decide)).trans <|
  (W43_keep m c main_v144 (by decide)).trans <|
  (W42_keep m c main_v144 (by decide)).trans <|
  (W41_keep m c main_v144 (by decide)).trans <|
  (W40_keep m c main_v144 (by decide)).trans <|
  (W39_keep m c main_v144 (by decide)).trans <|
  (W38_keep m c main_v144 (by decide)).trans <|
  (W37_keep m c main_v144 (by decide)).trans <|
  (W36_keep m c main_v144 (by decide)).trans <|
  (W35_keep m c main_v144 (by decide)).trans <|
  (W34_keep m c main_v144 (by decide)).trans <|
  (W33_keep m c main_v144 (by decide)).trans <|
  (W32_keep m c main_v144 (by decide)).trans <|
  (W31_keep m c main_v144 (by decide)).trans <|
  (W30_keep m c main_v144 (by decide)).trans <|
  (W29_keep m c main_v144 (by decide)).trans <|
  (W28_keep m c main_v144 (by decide)).trans <|
  W27_keep m c main_v144 (by decide)
theorem keep_main_v160 (c : Dev nD) : W46 m c (Proc.devRef .tc main_v160) = W28 m c (Proc.devRef .tc main_v160) :=
  (W46_keep m c main_v160 (by decide)).trans <|
  (W45_keep m c main_v160 (by decide)).trans <|
  (W44_keep m c main_v160 (by decide)).trans <|
  (W43_keep m c main_v160 (by decide)).trans <|
  (W42_keep m c main_v160 (by decide)).trans <|
  (W41_keep m c main_v160 (by decide)).trans <|
  (W40_keep m c main_v160 (by decide)).trans <|
  (W39_keep m c main_v160 (by decide)).trans <|
  (W38_keep m c main_v160 (by decide)).trans <|
  (W37_keep m c main_v160 (by decide)).trans <|
  (W36_keep m c main_v160 (by decide)).trans <|
  (W35_keep m c main_v160 (by decide)).trans <|
  (W34_keep m c main_v160 (by decide)).trans <|
  (W33_keep m c main_v160 (by decide)).trans <|
  (W32_keep m c main_v160 (by decide)).trans <|
  (W31_keep m c main_v160 (by decide)).trans <|
  (W30_keep m c main_v160 (by decide)).trans <|
  W29_keep m c main_v160 (by decide)
theorem keep_main_v176 (c : Dev nD) : W46 m c (Proc.devRef .tc main_v176) = W30 m c (Proc.devRef .tc main_v176) :=
  (W46_keep m c main_v176 (by decide)).trans <|
  (W45_keep m c main_v176 (by decide)).trans <|
  (W44_keep m c main_v176 (by decide)).trans <|
  (W43_keep m c main_v176 (by decide)).trans <|
  (W42_keep m c main_v176 (by decide)).trans <|
  (W41_keep m c main_v176 (by decide)).trans <|
  (W40_keep m c main_v176 (by decide)).trans <|
  (W39_keep m c main_v176 (by decide)).trans <|
  (W38_keep m c main_v176 (by decide)).trans <|
  (W37_keep m c main_v176 (by decide)).trans <|
  (W36_keep m c main_v176 (by decide)).trans <|
  (W35_keep m c main_v176 (by decide)).trans <|
  (W34_keep m c main_v176 (by decide)).trans <|
  (W33_keep m c main_v176 (by decide)).trans <|
  (W32_keep m c main_v176 (by decide)).trans <|
  W31_keep m c main_v176 (by decide)
theorem keep_main_v192 (c : Dev nD) : W46 m c (Proc.devRef .tc main_v192) = W32 m c (Proc.devRef .tc main_v192) :=
  (W46_keep m c main_v192 (by decide)).trans <|
  (W45_keep m c main_v192 (by decide)).trans <|
  (W44_keep m c main_v192 (by decide)).trans <|
  (W43_keep m c main_v192 (by decide)).trans <|
  (W42_keep m c main_v192 (by decide)).trans <|
  (W41_keep m c main_v192 (by decide)).trans <|
  (W40_keep m c main_v192 (by decide)).trans <|
  (W39_keep m c main_v192 (by decide)).trans <|
  (W38_keep m c main_v192 (by decide)).trans <|
  (W37_keep m c main_v192 (by decide)).trans <|
  (W36_keep m c main_v192 (by decide)).trans <|
  (W35_keep m c main_v192 (by decide)).trans <|
  (W34_keep m c main_v192 (by decide)).trans <|
  W33_keep m c main_v192 (by decide)
theorem keep_main_v208 (c : Dev nD) : W46 m c (Proc.devRef .tc main_v208) = W34 m c (Proc.devRef .tc main_v208) :=
  (W46_keep m c main_v208 (by decide)).trans <|
  (W45_keep m c main_v208 (by decide)).trans <|
  (W44_keep m c main_v208 (by decide)).trans <|
  (W43_keep m c main_v208 (by decide)).trans <|
  (W42_keep m c main_v208 (by decide)).trans <|
  (W41_keep m c main_v208 (by decide)).trans <|
  (W40_keep m c main_v208 (by decide)).trans <|
  (W39_keep m c main_v208 (by decide)).trans <|
  (W38_keep m c main_v208 (by decide)).trans <|
  (W37_keep m c main_v208 (by decide)).trans <|
  (W36_keep m c main_v208 (by decide)).trans <|
  W35_keep m c main_v208 (by decide)
theorem keep_main_v224 (c : Dev nD) : W46 m c (Proc.devRef .tc main_v224) = W36 m c (Proc.devRef .tc main_v224) :=
  (W46_keep m c main_v224 (by decide)).trans <|
  (W45_keep m c main_v224 (by decide)).trans <|
  (W44_keep m c main_v224 (by decide)).trans <|
  (W43_keep m c main_v224 (by decide)).trans <|
  (W42_keep m c main_v224 (by decide)).trans <|
  (W41_keep m c main_v224 (by decide)).trans <|
  (W40_keep m c main_v224 (by decide)).trans <|
  (W39_keep m c main_v224 (by decide)).trans <|
  (W38_keep m c main_v224 (by decide)).trans <|
  W37_keep m c main_v224 (by decide)
theorem keep_main_v240 (c : Dev nD) : W46 m c (Proc.devRef .tc main_v240) = W38 m c (Proc.devRef .tc main_v240) :=
  (W46_keep m c main_v240 (by decide)).trans <|
  (W45_keep m c main_v240 (by decide)).trans <|
  (W44_keep m c main_v240 (by decide)).trans <|
  (W43_keep m c main_v240 (by decide)).trans <|
  (W42_keep m c main_v240 (by decide)).trans <|
  (W41_keep m c main_v240 (by decide)).trans <|
  (W40_keep m c main_v240 (by decide)).trans <|
  W39_keep m c main_v240 (by decide)
theorem keep_main_v256 (c : Dev nD) : W46 m c (Proc.devRef .tc main_v256) = W40 m c (Proc.devRef .tc main_v256) :=
  (W46_keep m c main_v256 (by decide)).trans <|
  (W45_keep m c main_v256 (by decide)).trans <|
  (W44_keep m c main_v256 (by decide)).trans <|
  (W43_keep m c main_v256 (by decide)).trans <|
  (W42_keep m c main_v256 (by decide)).trans <|
  W41_keep m c main_v256 (by decide)
theorem keep_main_v272 (c : Dev nD) : W46 m c (Proc.devRef .tc main_v272) = W42 m c (Proc.devRef .tc main_v272) :=
  (W46_keep m c main_v272 (by decide)).trans <|
  (W45_keep m c main_v272 (by decide)).trans <|
  (W44_keep m c main_v272 (by decide)).trans <|
  W43_keep m c main_v272 (by decide)
theorem keep_main_v288 (c : Dev nD) : W46 m c (Proc.devRef .tc main_v288) = W44 m c (Proc.devRef .tc main_v288) :=
  (W46_keep m c main_v288 (by decide)).trans <|
  W45_keep m c main_v288 (by decide)
theorem keep_main_v304 (c : Dev nD) : W46 m c (Proc.devRef .tc main_v304) = W46 m c (Proc.devRef .tc main_v304) :=
  rfl

theorem arg0_W1 (c : Dev nD) : W1 m c (Proc.devRef .tc main_arg0) = m (c, Proc.devRef .tc main_arg0) :=
  (W1_keep m c main_arg0 (by decide)).trans (rfl)
theorem arg0_W2 (c : Dev nD) : W2 m c (Proc.devRef .tc main_arg0) = m (c, Proc.devRef .tc main_arg0) :=
  (W2_of_ne m c main_arg0 (by decide)).trans (arg0_W1 m c)
theorem arg0_W3 (c : Dev nD) : W3 m c (Proc.devRef .tc main_arg0) = m (c, Proc.devRef .tc main_arg0) :=
  (W3_keep m c main_arg0 (by decide)).trans (arg0_W2 m c)
theorem arg0_W4 (c : Dev nD) : W4 m c (Proc.devRef .tc main_arg0) = m (c, Proc.devRef .tc main_arg0) :=
  (W4_of_ne m c main_arg0 (by decide)).trans (arg0_W3 m c)
theorem arg0_W5 (c : Dev nD) : W5 m c (Proc.devRef .tc main_arg0) = m (c, Proc.devRef .tc main_arg0) :=
  (W5_keep m c main_arg0 (by decide)).trans (arg0_W4 m c)
theorem arg0_W6 (c : Dev nD) : W6 m c (Proc.devRef .tc main_arg0) = m (c, Proc.devRef .tc main_arg0) :=
  (W6_of_ne m c main_arg0 (by decide)).trans (arg0_W5 m c)
theorem arg0_W7 (c : Dev nD) : W7 m c (Proc.devRef .tc main_arg0) = m (c, Proc.devRef .tc main_arg0) :=
  (W7_keep m c main_arg0 (by decide)).trans (arg0_W6 m c)
theorem arg0_W8 (c : Dev nD) : W8 m c (Proc.devRef .tc main_arg0) = m (c, Proc.devRef .tc main_arg0) :=
  (W8_of_ne m c main_arg0 (by decide)).trans (arg0_W7 m c)
theorem arg0_W9 (c : Dev nD) : W9 m c (Proc.devRef .tc main_arg0) = m (c, Proc.devRef .tc main_arg0) :=
  (W9_keep m c main_arg0 (by decide)).trans (arg0_W8 m c)
theorem arg0_W10 (c : Dev nD) : W10 m c (Proc.devRef .tc main_arg0) = m (c, Proc.devRef .tc main_arg0) :=
  (W10_of_ne m c main_arg0 (by decide)).trans (arg0_W9 m c)
theorem arg0_W11 (c : Dev nD) : W11 m c (Proc.devRef .tc main_arg0) = m (c, Proc.devRef .tc main_arg0) :=
  (W11_keep m c main_arg0 (by decide)).trans (arg0_W10 m c)
theorem arg0_W12 (c : Dev nD) : W12 m c (Proc.devRef .tc main_arg0) = m (c, Proc.devRef .tc main_arg0) :=
  (W12_of_ne m c main_arg0 (by decide)).trans (arg0_W11 m c)
theorem arg0_W13 (c : Dev nD) : W13 m c (Proc.devRef .tc main_arg0) = m (c, Proc.devRef .tc main_arg0) :=
  (W13_keep m c main_arg0 (by decide)).trans (arg0_W12 m c)
theorem arg0_W14 (c : Dev nD) : W14 m c (Proc.devRef .tc main_arg0) = m (c, Proc.devRef .tc main_arg0) :=
  (W14_of_ne m c main_arg0 (by decide)).trans (arg0_W13 m c)
theorem arg0_W15 (c : Dev nD) : W15 m c (Proc.devRef .tc main_arg0) = m (c, Proc.devRef .tc main_arg0) :=
  (W15_keep m c main_arg0 (by decide)).trans (arg0_W14 m c)
theorem arg0_W16 (c : Dev nD) : W16 m c (Proc.devRef .tc main_arg0) = m (c, Proc.devRef .tc main_arg0) :=
  (W16_keep m c main_arg0 (by decide)).trans (arg0_W15 m c)
theorem arg0_W17 (c : Dev nD) : W17 m c (Proc.devRef .tc main_arg0) = m (c, Proc.devRef .tc main_arg0) :=
  (W17_keep m c main_arg0 (by decide)).trans (arg0_W16 m c)
theorem arg0_W18 (c : Dev nD) : W18 m c (Proc.devRef .tc main_arg0) = m (c, Proc.devRef .tc main_arg0) :=
  (W18_keep m c main_arg0 (by decide)).trans (arg0_W17 m c)
theorem arg0_W19 (c : Dev nD) : W19 m c (Proc.devRef .tc main_arg0) = m (c, Proc.devRef .tc main_arg0) :=
  (W19_keep m c main_arg0 (by decide)).trans (arg0_W18 m c)
theorem arg0_W20 (c : Dev nD) : W20 m c (Proc.devRef .tc main_arg0) = m (c, Proc.devRef .tc main_arg0) :=
  (W20_keep m c main_arg0 (by decide)).trans (arg0_W19 m c)
theorem arg0_W21 (c : Dev nD) : W21 m c (Proc.devRef .tc main_arg0) = m (c, Proc.devRef .tc main_arg0) :=
  (W21_keep m c main_arg0 (by decide)).trans (arg0_W20 m c)
theorem arg0_W22 (c : Dev nD) : W22 m c (Proc.devRef .tc main_arg0) = m (c, Proc.devRef .tc main_arg0) :=
  (W22_keep m c main_arg0 (by decide)).trans (arg0_W21 m c)
theorem arg0_W23 (c : Dev nD) : W23 m c (Proc.devRef .tc main_arg0) = m (c, Proc.devRef .tc main_arg0) :=
  (W23_keep m c main_arg0 (by decide)).trans (arg0_W22 m c)
theorem arg0_W24 (c : Dev nD) : W24 m c (Proc.devRef .tc main_arg0) = m (c, Proc.devRef .tc main_arg0) :=
  (W24_keep m c main_arg0 (by decide)).trans (arg0_W23 m c)
theorem arg0_W25 (c : Dev nD) : W25 m c (Proc.devRef .tc main_arg0) = m (c, Proc.devRef .tc main_arg0) :=
  (W25_keep m c main_arg0 (by decide)).trans (arg0_W24 m c)
theorem arg0_W26 (c : Dev nD) : W26 m c (Proc.devRef .tc main_arg0) = m (c, Proc.devRef .tc main_arg0) :=
  (W26_keep m c main_arg0 (by decide)).trans (arg0_W25 m c)
theorem arg0_W27 (c : Dev nD) : W27 m c (Proc.devRef .tc main_arg0) = m (c, Proc.devRef .tc main_arg0) :=
  (W27_keep m c main_arg0 (by decide)).trans (arg0_W26 m c)
theorem arg0_W28 (c : Dev nD) : W28 m c (Proc.devRef .tc main_arg0) = m (c, Proc.devRef .tc main_arg0) :=
  (W28_keep m c main_arg0 (by decide)).trans (arg0_W27 m c)
theorem arg0_W29 (c : Dev nD) : W29 m c (Proc.devRef .tc main_arg0) = m (c, Proc.devRef .tc main_arg0) :=
  (W29_keep m c main_arg0 (by decide)).trans (arg0_W28 m c)
theorem arg0_W30 (c : Dev nD) : W30 m c (Proc.devRef .tc main_arg0) = m (c, Proc.devRef .tc main_arg0) :=
  (W30_keep m c main_arg0 (by decide)).trans (arg0_W29 m c)
theorem arg0_W31 (c : Dev nD) : W31 m c (Proc.devRef .tc main_arg0) = m (c, Proc.devRef .tc main_arg0) :=
  (W31_keep m c main_arg0 (by decide)).trans (arg0_W30 m c)
theorem arg0_W32 (c : Dev nD) : W32 m c (Proc.devRef .tc main_arg0) = m (c, Proc.devRef .tc main_arg0) :=
  (W32_keep m c main_arg0 (by decide)).trans (arg0_W31 m c)
theorem arg0_W33 (c : Dev nD) : W33 m c (Proc.devRef .tc main_arg0) = m (c, Proc.devRef .tc main_arg0) :=
  (W33_keep m c main_arg0 (by decide)).trans (arg0_W32 m c)
theorem arg0_W34 (c : Dev nD) : W34 m c (Proc.devRef .tc main_arg0) = m (c, Proc.devRef .tc main_arg0) :=
  (W34_keep m c main_arg0 (by decide)).trans (arg0_W33 m c)
theorem arg0_W35 (c : Dev nD) : W35 m c (Proc.devRef .tc main_arg0) = m (c, Proc.devRef .tc main_arg0) :=
  (W35_keep m c main_arg0 (by decide)).trans (arg0_W34 m c)
theorem arg0_W36 (c : Dev nD) : W36 m c (Proc.devRef .tc main_arg0) = m (c, Proc.devRef .tc main_arg0) :=
  (W36_keep m c main_arg0 (by decide)).trans (arg0_W35 m c)
theorem arg0_W37 (c : Dev nD) : W37 m c (Proc.devRef .tc main_arg0) = m (c, Proc.devRef .tc main_arg0) :=
  (W37_keep m c main_arg0 (by decide)).trans (arg0_W36 m c)
theorem arg0_W38 (c : Dev nD) : W38 m c (Proc.devRef .tc main_arg0) = m (c, Proc.devRef .tc main_arg0) :=
  (W38_keep m c main_arg0 (by decide)).trans (arg0_W37 m c)
theorem arg0_W39 (c : Dev nD) : W39 m c (Proc.devRef .tc main_arg0) = m (c, Proc.devRef .tc main_arg0) :=
  (W39_keep m c main_arg0 (by decide)).trans (arg0_W38 m c)
theorem arg0_W40 (c : Dev nD) : W40 m c (Proc.devRef .tc main_arg0) = m (c, Proc.devRef .tc main_arg0) :=
  (W40_keep m c main_arg0 (by decide)).trans (arg0_W39 m c)
theorem arg0_W41 (c : Dev nD) : W41 m c (Proc.devRef .tc main_arg0) = m (c, Proc.devRef .tc main_arg0) :=
  (W41_keep m c main_arg0 (by decide)).trans (arg0_W40 m c)
theorem arg0_W42 (c : Dev nD) : W42 m c (Proc.devRef .tc main_arg0) = m (c, Proc.devRef .tc main_arg0) :=
  (W42_keep m c main_arg0 (by decide)).trans (arg0_W41 m c)
theorem arg0_W43 (c : Dev nD) : W43 m c (Proc.devRef .tc main_arg0) = m (c, Proc.devRef .tc main_arg0) :=
  (W43_keep m c main_arg0 (by decide)).trans (arg0_W42 m c)
theorem arg0_W44 (c : Dev nD) : W44 m c (Proc.devRef .tc main_arg0) = m (c, Proc.devRef .tc main_arg0) :=
  (W44_keep m c main_arg0 (by decide)).trans (arg0_W43 m c)
theorem arg0_W45 (c : Dev nD) : W45 m c (Proc.devRef .tc main_arg0) = m (c, Proc.devRef .tc main_arg0) :=
  (W45_keep m c main_arg0 (by decide)).trans (arg0_W44 m c)
theorem arg0_W46 (c : Dev nD) : W46 m c (Proc.devRef .tc main_arg0) = m (c, Proc.devRef .tc main_arg0) :=
  (W46_keep m c main_arg0 (by decide)).trans (arg0_W45 m c)
theorem arg0_W47 (c : Dev nD) : W47 m c (Proc.devRef .tc main_arg0) = m (c, Proc.devRef .tc main_arg0) :=
  (W47_keep m c main_arg0 (by decide)).trans (arg0_W46 m c)
theorem arg1_W1 (c : Dev nD) : W1 m c (Proc.devRef .tc main_arg1) = m (c, Proc.devRef .tc main_arg1) :=
  (W1_keep m c main_arg1 (by decide)).trans (rfl)
theorem arg1_W2 (c : Dev nD) : W2 m c (Proc.devRef .tc main_arg1) = m (c, Proc.devRef .tc main_arg1) :=
  (W2_of_ne m c main_arg1 (by decide)).trans (arg1_W1 m c)
theorem arg1_W3 (c : Dev nD) : W3 m c (Proc.devRef .tc main_arg1) = m (c, Proc.devRef .tc main_arg1) :=
  (W3_keep m c main_arg1 (by decide)).trans (arg1_W2 m c)
theorem arg1_W4 (c : Dev nD) : W4 m c (Proc.devRef .tc main_arg1) = m (c, Proc.devRef .tc main_arg1) :=
  (W4_of_ne m c main_arg1 (by decide)).trans (arg1_W3 m c)
theorem arg1_W5 (c : Dev nD) : W5 m c (Proc.devRef .tc main_arg1) = m (c, Proc.devRef .tc main_arg1) :=
  (W5_keep m c main_arg1 (by decide)).trans (arg1_W4 m c)
theorem arg1_W6 (c : Dev nD) : W6 m c (Proc.devRef .tc main_arg1) = m (c, Proc.devRef .tc main_arg1) :=
  (W6_of_ne m c main_arg1 (by decide)).trans (arg1_W5 m c)
theorem arg1_W7 (c : Dev nD) : W7 m c (Proc.devRef .tc main_arg1) = m (c, Proc.devRef .tc main_arg1) :=
  (W7_keep m c main_arg1 (by decide)).trans (arg1_W6 m c)
theorem arg1_W8 (c : Dev nD) : W8 m c (Proc.devRef .tc main_arg1) = m (c, Proc.devRef .tc main_arg1) :=
  (W8_of_ne m c main_arg1 (by decide)).trans (arg1_W7 m c)
theorem arg1_W9 (c : Dev nD) : W9 m c (Proc.devRef .tc main_arg1) = m (c, Proc.devRef .tc main_arg1) :=
  (W9_keep m c main_arg1 (by decide)).trans (arg1_W8 m c)
theorem arg1_W10 (c : Dev nD) : W10 m c (Proc.devRef .tc main_arg1) = m (c, Proc.devRef .tc main_arg1) :=
  (W10_of_ne m c main_arg1 (by decide)).trans (arg1_W9 m c)
theorem arg1_W11 (c : Dev nD) : W11 m c (Proc.devRef .tc main_arg1) = m (c, Proc.devRef .tc main_arg1) :=
  (W11_keep m c main_arg1 (by decide)).trans (arg1_W10 m c)
theorem arg1_W12 (c : Dev nD) : W12 m c (Proc.devRef .tc main_arg1) = m (c, Proc.devRef .tc main_arg1) :=
  (W12_of_ne m c main_arg1 (by decide)).trans (arg1_W11 m c)
theorem arg1_W13 (c : Dev nD) : W13 m c (Proc.devRef .tc main_arg1) = m (c, Proc.devRef .tc main_arg1) :=
  (W13_keep m c main_arg1 (by decide)).trans (arg1_W12 m c)
theorem arg1_W14 (c : Dev nD) : W14 m c (Proc.devRef .tc main_arg1) = m (c, Proc.devRef .tc main_arg1) :=
  (W14_of_ne m c main_arg1 (by decide)).trans (arg1_W13 m c)
theorem arg1_W15 (c : Dev nD) : W15 m c (Proc.devRef .tc main_arg1) = m (c, Proc.devRef .tc main_arg1) :=
  (W15_keep m c main_arg1 (by decide)).trans (arg1_W14 m c)
theorem arg1_W16 (c : Dev nD) : W16 m c (Proc.devRef .tc main_arg1) = m (c, Proc.devRef .tc main_arg1) :=
  (W16_keep m c main_arg1 (by decide)).trans (arg1_W15 m c)
theorem arg1_W17 (c : Dev nD) : W17 m c (Proc.devRef .tc main_arg1) = m (c, Proc.devRef .tc main_arg1) :=
  (W17_keep m c main_arg1 (by decide)).trans (arg1_W16 m c)
theorem arg1_W18 (c : Dev nD) : W18 m c (Proc.devRef .tc main_arg1) = m (c, Proc.devRef .tc main_arg1) :=
  (W18_keep m c main_arg1 (by decide)).trans (arg1_W17 m c)
theorem arg1_W19 (c : Dev nD) : W19 m c (Proc.devRef .tc main_arg1) = m (c, Proc.devRef .tc main_arg1) :=
  (W19_keep m c main_arg1 (by decide)).trans (arg1_W18 m c)
theorem arg1_W20 (c : Dev nD) : W20 m c (Proc.devRef .tc main_arg1) = m (c, Proc.devRef .tc main_arg1) :=
  (W20_keep m c main_arg1 (by decide)).trans (arg1_W19 m c)
theorem arg1_W21 (c : Dev nD) : W21 m c (Proc.devRef .tc main_arg1) = m (c, Proc.devRef .tc main_arg1) :=
  (W21_keep m c main_arg1 (by decide)).trans (arg1_W20 m c)
theorem arg1_W22 (c : Dev nD) : W22 m c (Proc.devRef .tc main_arg1) = m (c, Proc.devRef .tc main_arg1) :=
  (W22_keep m c main_arg1 (by decide)).trans (arg1_W21 m c)
theorem arg1_W23 (c : Dev nD) : W23 m c (Proc.devRef .tc main_arg1) = m (c, Proc.devRef .tc main_arg1) :=
  (W23_keep m c main_arg1 (by decide)).trans (arg1_W22 m c)
theorem arg1_W24 (c : Dev nD) : W24 m c (Proc.devRef .tc main_arg1) = m (c, Proc.devRef .tc main_arg1) :=
  (W24_keep m c main_arg1 (by decide)).trans (arg1_W23 m c)
theorem arg1_W25 (c : Dev nD) : W25 m c (Proc.devRef .tc main_arg1) = m (c, Proc.devRef .tc main_arg1) :=
  (W25_keep m c main_arg1 (by decide)).trans (arg1_W24 m c)
theorem arg1_W26 (c : Dev nD) : W26 m c (Proc.devRef .tc main_arg1) = m (c, Proc.devRef .tc main_arg1) :=
  (W26_keep m c main_arg1 (by decide)).trans (arg1_W25 m c)
theorem arg1_W27 (c : Dev nD) : W27 m c (Proc.devRef .tc main_arg1) = m (c, Proc.devRef .tc main_arg1) :=
  (W27_keep m c main_arg1 (by decide)).trans (arg1_W26 m c)
theorem arg1_W28 (c : Dev nD) : W28 m c (Proc.devRef .tc main_arg1) = m (c, Proc.devRef .tc main_arg1) :=
  (W28_keep m c main_arg1 (by decide)).trans (arg1_W27 m c)
theorem arg1_W29 (c : Dev nD) : W29 m c (Proc.devRef .tc main_arg1) = m (c, Proc.devRef .tc main_arg1) :=
  (W29_keep m c main_arg1 (by decide)).trans (arg1_W28 m c)
theorem arg1_W30 (c : Dev nD) : W30 m c (Proc.devRef .tc main_arg1) = m (c, Proc.devRef .tc main_arg1) :=
  (W30_keep m c main_arg1 (by decide)).trans (arg1_W29 m c)
theorem arg1_W31 (c : Dev nD) : W31 m c (Proc.devRef .tc main_arg1) = m (c, Proc.devRef .tc main_arg1) :=
  (W31_keep m c main_arg1 (by decide)).trans (arg1_W30 m c)
theorem arg1_W32 (c : Dev nD) : W32 m c (Proc.devRef .tc main_arg1) = m (c, Proc.devRef .tc main_arg1) :=
  (W32_keep m c main_arg1 (by decide)).trans (arg1_W31 m c)
theorem arg1_W33 (c : Dev nD) : W33 m c (Proc.devRef .tc main_arg1) = m (c, Proc.devRef .tc main_arg1) :=
  (W33_keep m c main_arg1 (by decide)).trans (arg1_W32 m c)
theorem arg1_W34 (c : Dev nD) : W34 m c (Proc.devRef .tc main_arg1) = m (c, Proc.devRef .tc main_arg1) :=
  (W34_keep m c main_arg1 (by decide)).trans (arg1_W33 m c)
theorem arg1_W35 (c : Dev nD) : W35 m c (Proc.devRef .tc main_arg1) = m (c, Proc.devRef .tc main_arg1) :=
  (W35_keep m c main_arg1 (by decide)).trans (arg1_W34 m c)
theorem arg1_W36 (c : Dev nD) : W36 m c (Proc.devRef .tc main_arg1) = m (c, Proc.devRef .tc main_arg1) :=
  (W36_keep m c main_arg1 (by decide)).trans (arg1_W35 m c)
theorem arg1_W37 (c : Dev nD) : W37 m c (Proc.devRef .tc main_arg1) = m (c, Proc.devRef .tc main_arg1) :=
  (W37_keep m c main_arg1 (by decide)).trans (arg1_W36 m c)
theorem arg1_W38 (c : Dev nD) : W38 m c (Proc.devRef .tc main_arg1) = m (c, Proc.devRef .tc main_arg1) :=
  (W38_keep m c main_arg1 (by decide)).trans (arg1_W37 m c)
theorem arg1_W39 (c : Dev nD) : W39 m c (Proc.devRef .tc main_arg1) = m (c, Proc.devRef .tc main_arg1) :=
  (W39_keep m c main_arg1 (by decide)).trans (arg1_W38 m c)
theorem arg1_W40 (c : Dev nD) : W40 m c (Proc.devRef .tc main_arg1) = m (c, Proc.devRef .tc main_arg1) :=
  (W40_keep m c main_arg1 (by decide)).trans (arg1_W39 m c)
theorem arg1_W41 (c : Dev nD) : W41 m c (Proc.devRef .tc main_arg1) = m (c, Proc.devRef .tc main_arg1) :=
  (W41_keep m c main_arg1 (by decide)).trans (arg1_W40 m c)
theorem arg1_W42 (c : Dev nD) : W42 m c (Proc.devRef .tc main_arg1) = m (c, Proc.devRef .tc main_arg1) :=
  (W42_keep m c main_arg1 (by decide)).trans (arg1_W41 m c)
theorem arg1_W43 (c : Dev nD) : W43 m c (Proc.devRef .tc main_arg1) = m (c, Proc.devRef .tc main_arg1) :=
  (W43_keep m c main_arg1 (by decide)).trans (arg1_W42 m c)
theorem arg1_W44 (c : Dev nD) : W44 m c (Proc.devRef .tc main_arg1) = m (c, Proc.devRef .tc main_arg1) :=
  (W44_keep m c main_arg1 (by decide)).trans (arg1_W43 m c)
theorem arg1_W45 (c : Dev nD) : W45 m c (Proc.devRef .tc main_arg1) = m (c, Proc.devRef .tc main_arg1) :=
  (W45_keep m c main_arg1 (by decide)).trans (arg1_W44 m c)
theorem arg1_W46 (c : Dev nD) : W46 m c (Proc.devRef .tc main_arg1) = m (c, Proc.devRef .tc main_arg1) :=
  (W46_keep m c main_arg1 (by decide)).trans (arg1_W45 m c)
theorem arg1_W47 (c : Dev nD) : W47 m c (Proc.devRef .tc main_arg1) = m (c, Proc.devRef .tc main_arg1) :=
  (W47_keep m c main_arg1 (by decide)).trans (arg1_W46 m c)
theorem arg2_W1 (c : Dev nD) : W1 m c (Proc.devRef .tc main_arg2) = m (c, Proc.devRef .tc main_arg2) :=
  (W1_keep m c main_arg2 (by decide)).trans (rfl)
theorem arg2_W2 (c : Dev nD) : W2 m c (Proc.devRef .tc main_arg2) = m (c, Proc.devRef .tc main_arg2) :=
  (W2_of_ne m c main_arg2 (by decide)).trans (arg2_W1 m c)
theorem arg2_W3 (c : Dev nD) : W3 m c (Proc.devRef .tc main_arg2) = m (c, Proc.devRef .tc main_arg2) :=
  (W3_keep m c main_arg2 (by decide)).trans (arg2_W2 m c)
theorem arg2_W4 (c : Dev nD) : W4 m c (Proc.devRef .tc main_arg2) = m (c, Proc.devRef .tc main_arg2) :=
  (W4_of_ne m c main_arg2 (by decide)).trans (arg2_W3 m c)
theorem arg2_W5 (c : Dev nD) : W5 m c (Proc.devRef .tc main_arg2) = m (c, Proc.devRef .tc main_arg2) :=
  (W5_keep m c main_arg2 (by decide)).trans (arg2_W4 m c)
theorem arg2_W6 (c : Dev nD) : W6 m c (Proc.devRef .tc main_arg2) = m (c, Proc.devRef .tc main_arg2) :=
  (W6_of_ne m c main_arg2 (by decide)).trans (arg2_W5 m c)
theorem arg2_W7 (c : Dev nD) : W7 m c (Proc.devRef .tc main_arg2) = m (c, Proc.devRef .tc main_arg2) :=
  (W7_keep m c main_arg2 (by decide)).trans (arg2_W6 m c)
theorem arg2_W8 (c : Dev nD) : W8 m c (Proc.devRef .tc main_arg2) = m (c, Proc.devRef .tc main_arg2) :=
  (W8_of_ne m c main_arg2 (by decide)).trans (arg2_W7 m c)
theorem arg2_W9 (c : Dev nD) : W9 m c (Proc.devRef .tc main_arg2) = m (c, Proc.devRef .tc main_arg2) :=
  (W9_keep m c main_arg2 (by decide)).trans (arg2_W8 m c)
theorem arg2_W10 (c : Dev nD) : W10 m c (Proc.devRef .tc main_arg2) = m (c, Proc.devRef .tc main_arg2) :=
  (W10_of_ne m c main_arg2 (by decide)).trans (arg2_W9 m c)
theorem arg2_W11 (c : Dev nD) : W11 m c (Proc.devRef .tc main_arg2) = m (c, Proc.devRef .tc main_arg2) :=
  (W11_keep m c main_arg2 (by decide)).trans (arg2_W10 m c)
theorem arg2_W12 (c : Dev nD) : W12 m c (Proc.devRef .tc main_arg2) = m (c, Proc.devRef .tc main_arg2) :=
  (W12_of_ne m c main_arg2 (by decide)).trans (arg2_W11 m c)
theorem arg2_W13 (c : Dev nD) : W13 m c (Proc.devRef .tc main_arg2) = m (c, Proc.devRef .tc main_arg2) :=
  (W13_keep m c main_arg2 (by decide)).trans (arg2_W12 m c)
theorem arg2_W14 (c : Dev nD) : W14 m c (Proc.devRef .tc main_arg2) = m (c, Proc.devRef .tc main_arg2) :=
  (W14_of_ne m c main_arg2 (by decide)).trans (arg2_W13 m c)
theorem arg2_W15 (c : Dev nD) : W15 m c (Proc.devRef .tc main_arg2) = m (c, Proc.devRef .tc main_arg2) :=
  (W15_keep m c main_arg2 (by decide)).trans (arg2_W14 m c)
theorem arg2_W16 (c : Dev nD) : W16 m c (Proc.devRef .tc main_arg2) = m (c, Proc.devRef .tc main_arg2) :=
  (W16_keep m c main_arg2 (by decide)).trans (arg2_W15 m c)
theorem arg2_W17 (c : Dev nD) : W17 m c (Proc.devRef .tc main_arg2) = m (c, Proc.devRef .tc main_arg2) :=
  (W17_keep m c main_arg2 (by decide)).trans (arg2_W16 m c)
theorem arg2_W18 (c : Dev nD) : W18 m c (Proc.devRef .tc main_arg2) = m (c, Proc.devRef .tc main_arg2) :=
  (W18_keep m c main_arg2 (by decide)).trans (arg2_W17 m c)
theorem arg2_W19 (c : Dev nD) : W19 m c (Proc.devRef .tc main_arg2) = m (c, Proc.devRef .tc main_arg2) :=
  (W19_keep m c main_arg2 (by decide)).trans (arg2_W18 m c)
theorem arg2_W20 (c : Dev nD) : W20 m c (Proc.devRef .tc main_arg2) = m (c, Proc.devRef .tc main_arg2) :=
  (W20_keep m c main_arg2 (by decide)).trans (arg2_W19 m c)
theorem arg2_W21 (c : Dev nD) : W21 m c (Proc.devRef .tc main_arg2) = m (c, Proc.devRef .tc main_arg2) :=
  (W21_keep m c main_arg2 (by decide)).trans (arg2_W20 m c)
theorem arg2_W22 (c : Dev nD) : W22 m c (Proc.devRef .tc main_arg2) = m (c, Proc.devRef .tc main_arg2) :=
  (W22_keep m c main_arg2 (by decide)).trans (arg2_W21 m c)
theorem arg2_W23 (c : Dev nD) : W23 m c (Proc.devRef .tc main_arg2) = m (c, Proc.devRef .tc main_arg2) :=
  (W23_keep m c main_arg2 (by decide)).trans (arg2_W22 m c)
theorem arg2_W24 (c : Dev nD) : W24 m c (Proc.devRef .tc main_arg2) = m (c, Proc.devRef .tc main_arg2) :=
  (W24_keep m c main_arg2 (by decide)).trans (arg2_W23 m c)
theorem arg2_W25 (c : Dev nD) : W25 m c (Proc.devRef .tc main_arg2) = m (c, Proc.devRef .tc main_arg2) :=
  (W25_keep m c main_arg2 (by decide)).trans (arg2_W24 m c)
theorem arg2_W26 (c : Dev nD) : W26 m c (Proc.devRef .tc main_arg2) = m (c, Proc.devRef .tc main_arg2) :=
  (W26_keep m c main_arg2 (by decide)).trans (arg2_W25 m c)
theorem arg2_W27 (c : Dev nD) : W27 m c (Proc.devRef .tc main_arg2) = m (c, Proc.devRef .tc main_arg2) :=
  (W27_keep m c main_arg2 (by decide)).trans (arg2_W26 m c)
theorem arg2_W28 (c : Dev nD) : W28 m c (Proc.devRef .tc main_arg2) = m (c, Proc.devRef .tc main_arg2) :=
  (W28_keep m c main_arg2 (by decide)).trans (arg2_W27 m c)
theorem arg2_W29 (c : Dev nD) : W29 m c (Proc.devRef .tc main_arg2) = m (c, Proc.devRef .tc main_arg2) :=
  (W29_keep m c main_arg2 (by decide)).trans (arg2_W28 m c)
theorem arg2_W30 (c : Dev nD) : W30 m c (Proc.devRef .tc main_arg2) = m (c, Proc.devRef .tc main_arg2) :=
  (W30_keep m c main_arg2 (by decide)).trans (arg2_W29 m c)
theorem arg2_W31 (c : Dev nD) : W31 m c (Proc.devRef .tc main_arg2) = m (c, Proc.devRef .tc main_arg2) :=
  (W31_keep m c main_arg2 (by decide)).trans (arg2_W30 m c)
theorem arg2_W32 (c : Dev nD) : W32 m c (Proc.devRef .tc main_arg2) = m (c, Proc.devRef .tc main_arg2) :=
  (W32_keep m c main_arg2 (by decide)).trans (arg2_W31 m c)
theorem arg2_W33 (c : Dev nD) : W33 m c (Proc.devRef .tc main_arg2) = m (c, Proc.devRef .tc main_arg2) :=
  (W33_keep m c main_arg2 (by decide)).trans (arg2_W32 m c)
theorem arg2_W34 (c : Dev nD) : W34 m c (Proc.devRef .tc main_arg2) = m (c, Proc.devRef .tc main_arg2) :=
  (W34_keep m c main_arg2 (by decide)).trans (arg2_W33 m c)
theorem arg2_W35 (c : Dev nD) : W35 m c (Proc.devRef .tc main_arg2) = m (c, Proc.devRef .tc main_arg2) :=
  (W35_keep m c main_arg2 (by decide)).trans (arg2_W34 m c)
theorem arg2_W36 (c : Dev nD) : W36 m c (Proc.devRef .tc main_arg2) = m (c, Proc.devRef .tc main_arg2) :=
  (W36_keep m c main_arg2 (by decide)).trans (arg2_W35 m c)
theorem arg2_W37 (c : Dev nD) : W37 m c (Proc.devRef .tc main_arg2) = m (c, Proc.devRef .tc main_arg2) :=
  (W37_keep m c main_arg2 (by decide)).trans (arg2_W36 m c)
theorem arg2_W38 (c : Dev nD) : W38 m c (Proc.devRef .tc main_arg2) = m (c, Proc.devRef .tc main_arg2) :=
  (W38_keep m c main_arg2 (by decide)).trans (arg2_W37 m c)
theorem arg2_W39 (c : Dev nD) : W39 m c (Proc.devRef .tc main_arg2) = m (c, Proc.devRef .tc main_arg2) :=
  (W39_keep m c main_arg2 (by decide)).trans (arg2_W38 m c)
theorem arg2_W40 (c : Dev nD) : W40 m c (Proc.devRef .tc main_arg2) = m (c, Proc.devRef .tc main_arg2) :=
  (W40_keep m c main_arg2 (by decide)).trans (arg2_W39 m c)
theorem arg2_W41 (c : Dev nD) : W41 m c (Proc.devRef .tc main_arg2) = m (c, Proc.devRef .tc main_arg2) :=
  (W41_keep m c main_arg2 (by decide)).trans (arg2_W40 m c)
theorem arg2_W42 (c : Dev nD) : W42 m c (Proc.devRef .tc main_arg2) = m (c, Proc.devRef .tc main_arg2) :=
  (W42_keep m c main_arg2 (by decide)).trans (arg2_W41 m c)
theorem arg2_W43 (c : Dev nD) : W43 m c (Proc.devRef .tc main_arg2) = m (c, Proc.devRef .tc main_arg2) :=
  (W43_keep m c main_arg2 (by decide)).trans (arg2_W42 m c)
theorem arg2_W44 (c : Dev nD) : W44 m c (Proc.devRef .tc main_arg2) = m (c, Proc.devRef .tc main_arg2) :=
  (W44_keep m c main_arg2 (by decide)).trans (arg2_W43 m c)
theorem arg2_W45 (c : Dev nD) : W45 m c (Proc.devRef .tc main_arg2) = m (c, Proc.devRef .tc main_arg2) :=
  (W45_keep m c main_arg2 (by decide)).trans (arg2_W44 m c)
theorem arg2_W46 (c : Dev nD) : W46 m c (Proc.devRef .tc main_arg2) = m (c, Proc.devRef .tc main_arg2) :=
  (W46_keep m c main_arg2 (by decide)).trans (arg2_W45 m c)
theorem arg2_W47 (c : Dev nD) : W47 m c (Proc.devRef .tc main_arg2) = m (c, Proc.devRef .tc main_arg2) :=
  (W47_keep m c main_arg2 (by decide)).trans (arg2_W46 m c)

end Cert.KernelIdeal.Hand

end
-- ==== Proof.KI.Lvl0.lean ====
import proofs.«417949_j89438398972173_1_alg».proof.Proof.KI.Reg0
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl0

variable (V : (c : Dev nD) → (b : Ref sig .tc) → Buf (Elt Ideal) ((c : Thread nD τ).loc b))

theorem hz0 : (![0, 0] : Fin 2 → Nat) = fun _ => 0 := funext fun a => by fin_cases a <;> rfl

theorem pay_sel0 : k0_pay2 (F := Ideal) = SegStep.sel (2 * 64) 64 Facts₀.iota_S128x64_d0_w32 Facts₀.iota_S128x64_d1_w32 Facts₀.natLt_1_32 := rfl

theorem dot0_eq : dot_S2048x128_S128x64_S2048x64_1_0_0_1_n_n = DotDims.plain 2048 (2 * 64) 64 := rfl

theorem pay_lvl0 (x0 x1 : Vec Ideal S2048x128 .f32) (x2 : Vec Ideal S2048x64 .f32) :
    k0_pay4 x0 x1 x2 = SegStep.pairLvl 2048 64 x0 x1 x2 := by
  unfold k0_pay4 k0_pay3
  simp only [shapeCast_self]
  rw [pay_sel0, dot0_eq]
  exact SegStep.lvl_block (R := 2048) (C := 64) (by norm_num) _ _ _ _ _ x0 x1 x2

theorem pay_msk0 (x1 : Vec Ideal S2048x128 .f32) :
    k0_pay1 (F := Ideal) (k0_pay3 x1) = SegStep.pairMsk 2048 64 x1 := by
  unfold k0_pay1 k0_pay3
  simp only [shapeCast_self]
  rw [pay_sel0, dot0_eq]
  exact SegStep.msk_block (R := 2048) (C := 64) (by norm_num) _ _ _ _ x1

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem iblk0_0_apply (c : Dev nD) (t : Fin cfg0.N) (y : Fin 2048) (k : Fin 128) (r : Fin 65536) (hr : r.val = t.val * 2048 + y.val) :
    (iblk0 V c 0 t : Vec Ideal S2048x128 .f32) (ix2 y k) = (V c (Pipeline.arrRef spec0 0) : S65536x128.Idx → EReal) (ix2 r k) := by
  obtain ⟨e0, e1, -⟩ := idx_facts0 t
  unfold iblk0
  rw [View.read_apply]
  refine congrArg (V c (Pipeline.arrRef spec0 0)) ?_
  funext a
  apply Fin.ext
  match a with
  | ⟨0, _⟩ => show win0_0.index t 0 * 2048 + 1 * y.val = r.val; rw [e0, hr]; omega
  | ⟨1, _⟩ => show win0_0.index t 1 * 128 + 1 * k.val = k.val; rw [e1]; omega

theorem iblk0_1_apply (c : Dev nD) (t : Fin cfg0.N) (y : Fin 2048) (k : Fin 128) (r : Fin 65536) (hr : r.val = t.val * 2048 + y.val) :
    (iblk0 V c 1 t : Vec Ideal S2048x128 .f32) (ix2 y k) = (V c (Pipeline.arrRef spec0 1) : S65536x128.Idx → EReal) (ix2 r k) := by
  obtain ⟨-, -, e0, e1, -⟩ := idx_facts0 t
  unfold iblk0
  rw [View.read_apply]
  refine congrArg (V c (Pipeline.arrRef spec0 1)) ?_
  funext a
  apply Fin.ext
  match a with
  | ⟨0, _⟩ => show win0_1.index t 0 * 2048 + 1 * y.val = r.val; rw [e0, hr]; omega
  | ⟨1, _⟩ => show win0_1.index t 1 * 128 + 1 * k.val = k.val; rw [e1]; omega

theorem iblk0_2_apply (c : Dev nD) (t : Fin cfg0.N) (y : S2048x64.Idx) (i : S65536x64.Idx)
    (h0 : (i 0).val = t.val * 2048 + (y 0).val) (h1 : (i 1).val = (y 1).val) :
    (iblk0 V c 2 t : Vec Ideal S2048x64 .f32) y = (V c (Pipeline.arrRef spec0 2) : S65536x64.Idx → EReal) i := by
  obtain ⟨-, -, -, -, e0, e1, -⟩ := idx_facts0 t
  unfold iblk0
  rw [View.read_apply]
  refine congrArg (V c (Pipeline.arrRef spec0 2)) ?_
  funext a
  apply Fin.ext
  match a with
  | ⟨0, _⟩ => show win0_2.index t 0 * 2048 + 1 * (y 0).val = (i 0).val; rw [e0, h0]; omega
  | ⟨1, _⟩ => show win0_2.index t 1 * 64 + 1 * (y 1).val = (i 1).val; rw [e1, h1]; omega

theorem emb0_3 (t : Fin cfg0.N) (j : S2048x64.Idx) :
    ((((cfg0.win 3).blk t).view.emb j : S65536x64.Idx) 0).val = t.val * 2048 + (j 0).val
    ∧ ((((cfg0.win 3).blk t).view.emb j : S65536x64.Idx) 1).val = (j 1).val := by
  obtain ⟨-, -, -, -, -, -, e0, e1, -⟩ := idx_facts0 t
  constructor
  · show win0_3.index t 0 * 2048 + 1 * (j 0).val = _; rw [e0]; omega
  · show win0_3.index t 1 * 64 + 1 * (j 1).val = _; rw [e1]; omega

theorem emb0_4 (t : Fin cfg0.N) (j : S2048x64.Idx) :
    ((((cfg0.win 4).blk t).view.emb j : S65536x64.Idx) 0).val = t.val * 2048 + (j 0).val
    ∧ ((((cfg0.win 4).blk t).view.emb j : S65536x64.Idx) 1).val = (j 1).val := by
  obtain ⟨-, -, -, -, -, -, -, -, e0, e1⟩ := idx_facts0 t
  constructor
  · show win0_4.index t 0 * 2048 + 1 * (j 0).val = _; rw [e0]; omega
  · show win0_4.index t 1 * 64 + 1 * (j 1).val = _; rw [e1]; omega

theorem flushed0_3_eq (c : Dev nD) (t : Fin cfg0.N) :
    (dat0 V c).flushed 3 t = ((cfg0.win 3).blk t).view.read (Elt Ideal)
      (SegStep.pairLvl 65536 64 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S2048x128) hz0, View.ld_unit_zero (S := S2048x64) hz0]
  rw [pay_lvl0]
  funext j
  obtain ⟨h0, h1⟩ := emb0_3 t j
  show SegStep.pairLvl 2048 64 (iblk0 V c 0 t) (iblk0 V c 1 t) (iblk0 V c 2 t) j
    = SegStep.pairLvl 65536 64 (V c (Pipeline.arrRef spec0 0)) (V c (Pipeline.arrRef spec0 1)) (V c (Pipeline.arrRef spec0 2))
        (((cfg0.win 3).blk t).view.emb j)
  refine SegStep.pairLvl_rows _ _ _ _ _ _ j _ h1 (fun k => ?_) (fun k => ?_) ?_
  · exact iblk0_0_apply V c t (j 0) k _ h0
  · exact iblk0_1_apply V c t (j 0) k _ h0
  · exact iblk0_2_apply V c t j _ h0 h1

theorem flushed0_4_eq (c : Dev nD) (t : Fin cfg0.N) :
    (dat0 V c).flushed 4 t = ((cfg0.win 4).blk t).view.read (Elt Ideal)
      (SegStep.pairMsk 65536 64 (V c (Pipeline.arrRef spec0 1))) := by
  show (cfg0.win 4).cut (grid0.coords t) ((dat0 V c).after 4 t) = _
  rw [after0_4]
  unfold out0_4
  rw [View.canon_unit_zero hz0]
  simp only [View.ld_unit_zero (S := S2048x128) hz0]
  rw [pay_msk0]
  funext j
  obtain ⟨h0, h1⟩ := emb0_4 t j
  show SegStep.pairMsk 2048 64 (iblk0 V c 1 t) j
    = SegStep.pairMsk 65536 64 (V c (Pipeline.arrRef spec0 1)) (((cfg0.win 4).blk t).view.emb j)
  refine SegStep.pairMsk_rows _ _ j _ h1 (fun k => ?_)
  exact iblk0_1_apply V c t (j 0) k _ h0

theorem mem_blk0_3 (t : Fin cfg0.N) (i : S65536x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v21_0).slice (win0_3.rect t)).set ↔ _
  rw [View.set_slice_whole, Rect.mem_set_unit]
  exact Iff.rfl

theorem mem_blk0_4 (t : Fin cfg0.N) (i : S65536x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v21_1).slice (win0_4.rect t)).set ↔ _
  rw [View.set_slice_whole, Rect.mem_set_unit]
  exact Iff.rfl

theorem cover0_3 (i : S65536x64.Idx) : ∃ t : Fin cfg0.N, (cfg0.win 3).flush t = true ∧ i ∈ ((cfg0.win 3).blk t).view.set := by
  have hi0 : (i 0).val < 65536 := (i 0).isLt
  have hi1 : (i 1).val < 64 := (i 1).isLt
  refine ⟨⟨(i 0).val / 2048, by show (i 0).val / 2048 < 32; omega⟩, flush0_3 _, ?_⟩
  rw [mem_blk0_3]
  obtain ⟨-, -, -, -, -, -, e0, e1, -⟩ := idx_facts0 ⟨(i 0).val / 2048, by show (i 0).val / 2048 < 32; omega⟩
  intro a
  match a with
  | ⟨0, _⟩ =>
    show win0_3.index _ (0 : Fin 2) * 2048 ≤ (i 0).val ∧ (i 0).val < win0_3.index _ (0 : Fin 2) * 2048 + 2048
    rw [e0]; show (i 0).val / 2048 * 2048 ≤ (i 0).val ∧ (i 0).val < (i 0).val / 2048 * 2048 + 2048; omega
  | ⟨1, _⟩ =>
    show win0_3.index _ (1 : Fin 2) * 64 ≤ (i 1).val ∧ (i 1).val < win0_3.index _ (1 : Fin 2) * 64 + 64
    rw [e1]; omega

theorem cover0_4 (i : S65536x64.Idx) : ∃ t : Fin cfg0.N, (cfg0.win 4).flush t = true ∧ i ∈ ((cfg0.win 4).blk t).view.set := by
  have hi0 : (i 0).val < 65536 := (i 0).isLt
  have hi1 : (i 1).val < 64 := (i 1).isLt
  refine ⟨⟨(i 0).val / 2048, by show (i 0).val / 2048 < 32; omega⟩, flush0_4 _, ?_⟩
  rw [mem_blk0_4]
  obtain ⟨-, -, -, -, -, -, -, -, e0, e1⟩ := idx_facts0 ⟨(i 0).val / 2048, by show (i 0).val / 2048 < 32; omega⟩
  intro a
  match a with
  | ⟨0, _⟩ =>
    show win0_4.index _ (0 : Fin 2) * 2048 ≤ (i 0).val ∧ (i 0).val < win0_4.index _ (0 : Fin 2) * 2048 + 2048
    rw [e0]; show (i 0).val / 2048 * 2048 ≤ (i 0).val ∧ (i 0).val < (i 0).val / 2048 * 2048 + 2048; omega
  | ⟨1, _⟩ =>
    show win0_4.index _ (1 : Fin 2) * 64 ≤ (i 1).val ∧ (i 1).val < win0_4.index _ (1 : Fin 2) * 64 + 64
    rw [e1]; omega

theorem lvl0 (c : Dev nD) :
    (dat0 (F := Ideal) V c).arrAt 3 cfg0.N
      = SegStep.pairLvl 65536 64 (V c (Pipeline.arrRef spec0 0)) (V c (Pipeline.arrRef spec0 1)) (V c (Pipeline.arrRef spec0 2)) :=
  (dat0 V c).arrAt_eq_of_cover 3 _ (fun t _ => flushed0_3_eq V c t) cover0_3

theorem msk0 (c : Dev nD) :
    (dat0 (F := Ideal) V c).arrAt 4 cfg0.N = SegStep.pairMsk 65536 64 (V c (Pipeline.arrRef spec0 1)) :=
  (dat0 V c).arrAt_eq_of_cover 4 _ (fun t _ => flushed0_4_eq V c t) cover0_4

end Lvl0

end Cert.KernelIdeal.Hand

end
-- ==== Proof.KI.Lvl1.lean ====
import proofs.«417949_j89438398972173_1_alg».proof.Proof.KI.Reg1
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl1

variable (V : (c : Dev nD) → (b : Ref sig .tc) → Buf (Elt Ideal) ((c : Thread nD τ).loc b))

theorem hz1 : (![0, 0] : Fin 2 → Nat) = fun _ => 0 := funext fun a => by fin_cases a <;> rfl

theorem pay_sel1 : k1_pay2 (F := Ideal) = SegStep.sel (2 * 32) 32 Facts₀.iota_S64x32_d0_w32 Facts₀.iota_S64x32_d1_w32 Facts₀.natLt_1_32 := rfl

theorem dot1_eq : dot_S2048x64_S64x32_S2048x32_1_0_0_1_n_n = DotDims.plain 2048 (2 * 32) 32 := rfl

theorem pay_lvl1 (x0 x1 : Vec Ideal S2048x64 .f32) (x2 : Vec Ideal S2048x32 .f32) :
    k1_pay4 x0 x1 x2 = SegStep.pairLvl 2048 32 x0 x1 x2 := by
  unfold k1_pay4 k1_pay3
  simp only [shapeCast_self]
  rw [pay_sel1, dot1_eq]
  exact SegStep.lvl_block (R := 2048) (C := 32) (by norm_num) _ _ _ _ _ x0 x1 x2

theorem pay_msk1 (x1 : Vec Ideal S2048x64 .f32) :
    k1_pay1 (F := Ideal) (k1_pay3 x1) = SegStep.pairMsk 2048 32 x1 := by
  unfold k1_pay1 k1_pay3
  simp only [shapeCast_self]
  rw [pay_sel1, dot1_eq]
  exact SegStep.msk_block (R := 2048) (C := 32) (by norm_num) _ _ _ _ x1

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (y : Fin 2048) (k : Fin 64) (r : Fin 65536) (hr : r.val = t.val * 2048 + y.val) :
    (iblk1 V c 0 t : Vec Ideal S2048x64 .f32) (ix2 y k) = (V c (Pipeline.arrRef spec1 0) : S65536x64.Idx → EReal) (ix2 r k) := by
  obtain ⟨e0, e1, -⟩ := idx_facts1 t
  unfold iblk1
  rw [View.read_apply]
  refine congrArg (V c (Pipeline.arrRef spec1 0)) ?_
  funext a
  apply Fin.ext
  match a with
  | ⟨0, _⟩ => show win1_0.index t 0 * 2048 + 1 * y.val = r.val; rw [e0, hr]; omega
  | ⟨1, _⟩ => show win1_0.index t 1 * 64 + 1 * k.val = k.val; rw [e1]; omega

theorem iblk1_1_apply (c : Dev nD) (t : Fin cfg1.N) (y : Fin 2048) (k : Fin 64) (r : Fin 65536) (hr : r.val = t.val * 2048 + y.val) :
    (iblk1 V c 1 t : Vec Ideal S2048x64 .f32) (ix2 y k) = (V c (Pipeline.arrRef spec1 1) : S65536x64.Idx → EReal) (ix2 r k) := by
  obtain ⟨-, -, e0, e1, -⟩ := idx_facts1 t
  unfold iblk1
  rw [View.read_apply]
  refine congrArg (V c (Pipeline.arrRef spec1 1)) ?_
  funext a
  apply Fin.ext
  match a with
  | ⟨0, _⟩ => show win1_1.index t 0 * 2048 + 1 * y.val = r.val; rw [e0, hr]; omega
  | ⟨1, _⟩ => show win1_1.index t 1 * 64 + 1 * k.val = k.val; rw [e1]; omega

theorem iblk1_2_apply (c : Dev nD) (t : Fin cfg1.N) (y : S2048x32.Idx) (i : S65536x32.Idx)
    (h0 : (i 0).val = t.val * 2048 + (y 0).val) (h1 : (i 1).val = (y 1).val) :
    (iblk1 V c 2 t : Vec Ideal S2048x32 .f32) y = (V c (Pipeline.arrRef spec1 2) : S65536x32.Idx → EReal) i := by
  obtain ⟨-, -, -, -, e0, e1, -⟩ := idx_facts1 t
  unfold iblk1
  rw [View.read_apply]
  refine congrArg (V c (Pipeline.arrRef spec1 2)) ?_
  funext a
  apply Fin.ext
  match a with
  | ⟨0, _⟩ => show win1_2.index t 0 * 2048 + 1 * (y 0).val = (i 0).val; rw [e0, h0]; omega
  | ⟨1, _⟩ => show win1_2.index t 1 * 32 + 1 * (y 1).val = (i 1).val; rw [e1, h1]; omega

theorem emb1_3 (t : Fin cfg1.N) (j : S2048x32.Idx) :
    ((((cfg1.win 3).blk t).view.emb j : S65536x32.Idx) 0).val = t.val * 2048 + (j 0).val
    ∧ ((((cfg1.win 3).blk t).view.emb j : S65536x32.Idx) 1).val = (j 1).val := by
  obtain ⟨-, -, -, -, -, -, e0, e1, -⟩ := idx_facts1 t
  constructor
  · show win1_3.index t 0 * 2048 + 1 * (j 0).val = _; rw [e0]; omega
  · show win1_3.index t 1 * 32 + 1 * (j 1).val = _; rw [e1]; omega

theorem emb1_4 (t : Fin cfg1.N) (j : S2048x32.Idx) :
    ((((cfg1.win 4).blk t).view.emb j : S65536x32.Idx) 0).val = t.val * 2048 + (j 0).val
    ∧ ((((cfg1.win 4).blk t).view.emb j : S65536x32.Idx) 1).val = (j 1).val := by
  obtain ⟨-, -, -, -, -, -, -, -, e0, e1⟩ := idx_facts1 t
  constructor
  · show win1_4.index t 0 * 2048 + 1 * (j 0).val = _; rw [e0]; omega
  · show win1_4.index t 1 * 32 + 1 * (j 1).val = _; rw [e1]; omega

theorem flushed1_3_eq (c : Dev nD) (t : Fin cfg1.N) :
    (dat1 V c).flushed 3 t = ((cfg1.win 3).blk t).view.read (Elt Ideal)
      (SegStep.pairLvl 65536 32 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S2048x64) hz1, View.ld_unit_zero (S := S2048x32) hz1]
  rw [pay_lvl1]
  funext j
  obtain ⟨h0, h1⟩ := emb1_3 t j
  show SegStep.pairLvl 2048 32 (iblk1 V c 0 t) (iblk1 V c 1 t) (iblk1 V c 2 t) j
    = SegStep.pairLvl 65536 32 (V c (Pipeline.arrRef spec1 0)) (V c (Pipeline.arrRef spec1 1)) (V c (Pipeline.arrRef spec1 2))
        (((cfg1.win 3).blk t).view.emb j)
  refine SegStep.pairLvl_rows _ _ _ _ _ _ j _ h1 (fun k => ?_) (fun k => ?_) ?_
  · exact iblk1_0_apply V c t (j 0) k _ h0
  · exact iblk1_1_apply V c t (j 0) k _ h0
  · exact iblk1_2_apply V c t j _ h0 h1

theorem flushed1_4_eq (c : Dev nD) (t : Fin cfg1.N) :
    (dat1 V c).flushed 4 t = ((cfg1.win 4).blk t).view.read (Elt Ideal)
      (SegStep.pairMsk 65536 32 (V c (Pipeline.arrRef spec1 1))) := by
  show (cfg1.win 4).cut (grid1.coords t) ((dat1 V c).after 4 t) = _
  rw [after1_4]
  unfold out1_4
  rw [View.canon_unit_zero hz1]
  simp only [View.ld_unit_zero (S := S2048x64) hz1]
  rw [pay_msk1]
  funext j
  obtain ⟨h0, h1⟩ := emb1_4 t j
  show SegStep.pairMsk 2048 32 (iblk1 V c 1 t) j
    = SegStep.pairMsk 65536 32 (V c (Pipeline.arrRef spec1 1)) (((cfg1.win 4).blk t).view.emb j)
  refine SegStep.pairMsk_rows _ _ j _ h1 (fun k => ?_)
  exact iblk1_1_apply V c t (j 0) k _ h0

theorem mem_blk1_3 (t : Fin cfg1.N) (i : S65536x32.Idx) :
    i ∈ ((cfg1.win 3).blk t).view.set ↔ ∀ a : Fin 2, win1_3.index t a * S2048x32.size a ≤ (i a).val ∧ (i a).val < win1_3.index t a * S2048x32.size a + S2048x32.size a := by
  show i ∈ ((View.whole main_v25_0).slice (win1_3.rect t)).set ↔ _
  rw [View.set_slice_whole, Rect.mem_set_unit]
  exact Iff.rfl

theorem mem_blk1_4 (t : Fin cfg1.N) (i : S65536x32.Idx) :
    i ∈ ((cfg1.win 4).blk t).view.set ↔ ∀ a : Fin 2, win1_4.index t a * S2048x32.size a ≤ (i a).val ∧ (i a).val < win1_4.index t a * S2048x32.size a + S2048x32.size a := by
  show i ∈ ((View.whole main_v25_1).slice (win1_4.rect t)).set ↔ _
  rw [View.set_slice_whole, Rect.mem_set_unit]
  exact Iff.rfl

theorem cover1_3 (i : S65536x32.Idx) : ∃ t : Fin cfg1.N, (cfg1.win 3).flush t = true ∧ i ∈ ((cfg1.win 3).blk t).view.set := by
  have hi0 : (i 0).val < 65536 := (i 0).isLt
  have hi1 : (i 1).val < 32 := (i 1).isLt
  refine ⟨⟨(i 0).val / 2048, by show (i 0).val / 2048 < 32; omega⟩, flush1_3 _, ?_⟩
  rw [mem_blk1_3]
  obtain ⟨-, -, -, -, -, -, e0, e1, -⟩ := idx_facts1 ⟨(i 0).val / 2048, by show (i 0).val / 2048 < 32; omega⟩
  intro a
  match a with
  | ⟨0, _⟩ =>
    show win1_3.index _ (0 : Fin 2) * 2048 ≤ (i 0).val ∧ (i 0).val < win1_3.index _ (0 : Fin 2) * 2048 + 2048
    rw [e0]; show (i 0).val / 2048 * 2048 ≤ (i 0).val ∧ (i 0).val < (i 0).val / 2048 * 2048 + 2048; omega
  | ⟨1, _⟩ =>
    show win1_3.index _ (1 : Fin 2) * 32 ≤ (i 1).val ∧ (i 1).val < win1_3.index _ (1 : Fin 2) * 32 + 32
    rw [e1]; omega

theorem cover1_4 (i : S65536x32.Idx) : ∃ t : Fin cfg1.N, (cfg1.win 4).flush t = true ∧ i ∈ ((cfg1.win 4).blk t).view.set := by
  have hi0 : (i 0).val < 65536 := (i 0).isLt
  have hi1 : (i 1).val < 32 := (i 1).isLt
  refine ⟨⟨(i 0).val / 2048, by show (i 0).val / 2048 < 32; omega⟩, flush1_4 _, ?_⟩
  rw [mem_blk1_4]
  obtain ⟨-, -, -, -, -, -, -, -, e0, e1⟩ := idx_facts1 ⟨(i 0).val / 2048, by show (i 0).val / 2048 < 32; omega⟩
  intro a
  match a with
  | ⟨0, _⟩ =>
    show win1_4.index _ (0 : Fin 2) * 2048 ≤ (i 0).val ∧ (i 0).val < win1_4.index _ (0 : Fin 2) * 2048 + 2048
    rw [e0]; show (i 0).val / 2048 * 2048 ≤ (i 0).val ∧ (i 0).val < (i 0).val / 2048 * 2048 + 2048; omega
  | ⟨1, _⟩ =>
    show win1_4.index _ (1 : Fin 2) * 32 ≤ (i 1).val ∧ (i 1).val < win1_4.index _ (1 : Fin 2) * 32 + 32
    rw [e1]; omega

theorem lvl1 (c : Dev nD) :
    (dat1 (F := Ideal) V c).arrAt 3 cfg1.N
      = SegStep.pairLvl 65536 32 (V c (Pipeline.arrRef spec1 0)) (V c (Pipeline.arrRef spec1 1)) (V c (Pipeline.arrRef spec1 2)) :=
  (dat1 V c).arrAt_eq_of_cover 3 _ (fun t _ => flushed1_3_eq V c t) cover1_3

theorem msk1 (c : Dev nD) :
    (dat1 (F := Ideal) V c).arrAt 4 cfg1.N = SegStep.pairMsk 65536 32 (V c (Pipeline.arrRef spec1 1)) :=
  (dat1 V c).arrAt_eq_of_cover 4 _ (fun t _ => flushed1_4_eq V c t) cover1_4

end Lvl1

end Cert.KernelIdeal.Hand

end
-- ==== Proof.KI.Lvl2.lean ====
import proofs.«417949_j89438398972173_1_alg».proof.Proof.KI.Reg2
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl2

variable (V : (c : Dev nD) → (b : Ref sig .tc) → Buf (Elt Ideal) ((c : Thread nD τ).loc b))

theorem hz2 : (![0, 0] : Fin 2 → Nat) = fun _ => 0 := funext fun a => by fin_cases a <;> rfl

theorem pay_sel2 : k2_pay2 (F := Ideal) = SegStep.sel (2 * 16) 16 Facts₀.iota_S32x16_d0_w32 Facts₀.iota_S32x16_d1_w32 Facts₀.natLt_1_32 := rfl

theorem dot2_eq : dot_S2048x32_S32x16_S2048x16_1_0_0_1_n_n = DotDims.plain 2048 (2 * 16) 16 := rfl

theorem pay_lvl2 (x0 x1 : Vec Ideal S2048x32 .f32) (x2 : Vec Ideal S2048x16 .f32) :
    k2_pay4 x0 x1 x2 = SegStep.pairLvl 2048 16 x0 x1 x2 := by
  unfold k2_pay4 k2_pay3
  simp only [shapeCast_self]
  rw [pay_sel2, dot2_eq]
  exact SegStep.lvl_block (R := 2048) (C := 16) (by norm_num) _ _ _ _ _ x0 x1 x2

theorem pay_msk2 (x1 : Vec Ideal S2048x32 .f32) :
    k2_pay1 (F := Ideal) (k2_pay3 x1) = SegStep.pairMsk 2048 16 x1 := by
  unfold k2_pay1 k2_pay3
  simp only [shapeCast_self]
  rw [pay_sel2, dot2_eq]
  exact SegStep.msk_block (R := 2048) (C := 16) (by norm_num) _ _ _ _ x1

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem iblk2_0_apply (c : Dev nD) (t : Fin cfg2.N) (y : Fin 2048) (k : Fin 32) (r : Fin 65536) (hr : r.val = t.val * 2048 + y.val) :
    (iblk2 V c 0 t : Vec Ideal S2048x32 .f32) (ix2 y k) = (V c (Pipeline.arrRef spec2 0) : S65536x32.Idx → EReal) (ix2 r k) := by
  obtain ⟨e0, e1, -⟩ := idx_facts2 t
  unfold iblk2
  rw [View.read_apply]
  refine congrArg (V c (Pipeline.arrRef spec2 0)) ?_
  funext a
  apply Fin.ext
  match a with
  | ⟨0, _⟩ => show win2_0.index t 0 * 2048 + 1 * y.val = r.val; rw [e0, hr]; omega
  | ⟨1, _⟩ => show win2_0.index t 1 * 32 + 1 * k.val = k.val; rw [e1]; omega

theorem iblk2_1_apply (c : Dev nD) (t : Fin cfg2.N) (y : Fin 2048) (k : Fin 32) (r : Fin 65536) (hr : r.val = t.val * 2048 + y.val) :
    (iblk2 V c 1 t : Vec Ideal S2048x32 .f32) (ix2 y k) = (V c (Pipeline.arrRef spec2 1) : S65536x32.Idx → EReal) (ix2 r k) := by
  obtain ⟨-, -, e0, e1, -⟩ := idx_facts2 t
  unfold iblk2
  rw [View.read_apply]
  refine congrArg (V c (Pipeline.arrRef spec2 1)) ?_
  funext a
  apply Fin.ext
  match a with
  | ⟨0, _⟩ => show win2_1.index t 0 * 2048 + 1 * y.val = r.val; rw [e0, hr]; omega
  | ⟨1, _⟩ => show win2_1.index t 1 * 32 + 1 * k.val = k.val; rw [e1]; omega

theorem iblk2_2_apply (c : Dev nD) (t : Fin cfg2.N) (y : S2048x16.Idx) (i : S65536x16.Idx)
    (h0 : (i 0).val = t.val * 2048 + (y 0).val) (h1 : (i 1).val = (y 1).val) :
    (iblk2 V c 2 t : Vec Ideal S2048x16 .f32) y = (V c (Pipeline.arrRef spec2 2) : S65536x16.Idx → EReal) i := by
  obtain ⟨-, -, -, -, e0, e1, -⟩ := idx_facts2 t
  unfold iblk2
  rw [View.read_apply]
  refine congrArg (V c (Pipeline.arrRef spec2 2)) ?_
  funext a
  apply Fin.ext
  match a with
  | ⟨0, _⟩ => show win2_2.index t 0 * 2048 + 1 * (y 0).val = (i 0).val; rw [e0, h0]; omega
  | ⟨1, _⟩ => show win2_2.index t 1 * 16 + 1 * (y 1).val = (i 1).val; rw [e1, h1]; omega

theorem emb2_3 (t : Fin cfg2.N) (j : S2048x16.Idx) :
    ((((cfg2.win 3).blk t).view.emb j : S65536x16.Idx) 0).val = t.val * 2048 + (j 0).val
    ∧ ((((cfg2.win 3).blk t).view.emb j : S65536x16.Idx) 1).val = (j 1).val := by
  obtain ⟨-, -, -, -, -, -, e0, e1, -⟩ := idx_facts2 t
  constructor
  · show win2_3.index t 0 * 2048 + 1 * (j 0).val = _; rw [e0]; omega
  · show win2_3.index t 1 * 16 + 1 * (j 1).val = _; rw [e1]; omega

theorem emb2_4 (t : Fin cfg2.N) (j : S2048x16.Idx) :
    ((((cfg2.win 4).blk t).view.emb j : S65536x16.Idx) 0).val = t.val * 2048 + (j 0).val
    ∧ ((((cfg2.win 4).blk t).view.emb j : S65536x16.Idx) 1).val = (j 1).val := by
  obtain ⟨-, -, -, -, -, -, -, -, e0, e1⟩ := idx_facts2 t
  constructor
  · show win2_4.index t 0 * 2048 + 1 * (j 0).val = _; rw [e0]; omega
  · show win2_4.index t 1 * 16 + 1 * (j 1).val = _; rw [e1]; omega

theorem flushed2_3_eq (c : Dev nD) (t : Fin cfg2.N) :
    (dat2 V c).flushed 3 t = ((cfg2.win 3).blk t).view.read (Elt Ideal)
      (SegStep.pairLvl 65536 16 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S2048x32) hz2, View.ld_unit_zero (S := S2048x16) hz2]
  rw [pay_lvl2]
  funext j
  obtain ⟨h0, h1⟩ := emb2_3 t j
  show SegStep.pairLvl 2048 16 (iblk2 V c 0 t) (iblk2 V c 1 t) (iblk2 V c 2 t) j
    = SegStep.pairLvl 65536 16 (V c (Pipeline.arrRef spec2 0)) (V c (Pipeline.arrRef spec2 1)) (V c (Pipeline.arrRef spec2 2))
        (((cfg2.win 3).blk t).view.emb j)
  refine SegStep.pairLvl_rows _ _ _ _ _ _ j _ h1 (fun k => ?_) (fun k => ?_) ?_
  · exact iblk2_0_apply V c t (j 0) k _ h0
  · exact iblk2_1_apply V c t (j 0) k _ h0
  · exact iblk2_2_apply V c t j _ h0 h1

theorem flushed2_4_eq (c : Dev nD) (t : Fin cfg2.N) :
    (dat2 V c).flushed 4 t = ((cfg2.win 4).blk t).view.read (Elt Ideal)
      (SegStep.pairMsk 65536 16 (V c (Pipeline.arrRef spec2 1))) := by
  show (cfg2.win 4).cut (grid2.coords t) ((dat2 V c).after 4 t) = _
  rw [after2_4]
  unfold out2_4
  rw [View.canon_unit_zero hz2]
  simp only [View.ld_unit_zero (S := S2048x32) hz2]
  rw [pay_msk2]
  funext j
  obtain ⟨h0, h1⟩ := emb2_4 t j
  show SegStep.pairMsk 2048 16 (iblk2 V c 1 t) j
    = SegStep.pairMsk 65536 16 (V c (Pipeline.arrRef spec2 1)) (((cfg2.win 4).blk t).view.emb j)
  refine SegStep.pairMsk_rows _ _ j _ h1 (fun k => ?_)
  exact iblk2_1_apply V c t (j 0) k _ h0

theorem mem_blk2_3 (t : Fin cfg2.N) (i : S65536x16.Idx) :
    i ∈ ((cfg2.win 3).blk t).view.set ↔ ∀ a : Fin 2, win2_3.index t a * S2048x16.size a ≤ (i a).val ∧ (i a).val < win2_3.index t a * S2048x16.size a + S2048x16.size a := by
  show i ∈ ((View.whole main_v29_0).slice (win2_3.rect t)).set ↔ _
  rw [View.set_slice_whole, Rect.mem_set_unit]
  exact Iff.rfl

theorem mem_blk2_4 (t : Fin cfg2.N) (i : S65536x16.Idx) :
    i ∈ ((cfg2.win 4).blk t).view.set ↔ ∀ a : Fin 2, win2_4.index t a * S2048x16.size a ≤ (i a).val ∧ (i a).val < win2_4.index t a * S2048x16.size a + S2048x16.size a := by
  show i ∈ ((View.whole main_v29_1).slice (win2_4.rect t)).set ↔ _
  rw [View.set_slice_whole, Rect.mem_set_unit]
  exact Iff.rfl

theorem cover2_3 (i : S65536x16.Idx) : ∃ t : Fin cfg2.N, (cfg2.win 3).flush t = true ∧ i ∈ ((cfg2.win 3).blk t).view.set := by
  have hi0 : (i 0).val < 65536 := (i 0).isLt
  have hi1 : (i 1).val < 16 := (i 1).isLt
  refine ⟨⟨(i 0).val / 2048, by show (i 0).val / 2048 < 32; omega⟩, flush2_3 _, ?_⟩
  rw [mem_blk2_3]
  obtain ⟨-, -, -, -, -, -, e0, e1, -⟩ := idx_facts2 ⟨(i 0).val / 2048, by show (i 0).val / 2048 < 32; omega⟩
  intro a
  match a with
  | ⟨0, _⟩ =>
    show win2_3.index _ (0 : Fin 2) * 2048 ≤ (i 0).val ∧ (i 0).val < win2_3.index _ (0 : Fin 2) * 2048 + 2048
    rw [e0]; show (i 0).val / 2048 * 2048 ≤ (i 0).val ∧ (i 0).val < (i 0).val / 2048 * 2048 + 2048; omega
  | ⟨1, _⟩ =>
    show win2_3.index _ (1 : Fin 2) * 16 ≤ (i 1).val ∧ (i 1).val < win2_3.index _ (1 : Fin 2) * 16 + 16
    rw [e1]; omega

theorem cover2_4 (i : S65536x16.Idx) : ∃ t : Fin cfg2.N, (cfg2.win 4).flush t = true ∧ i ∈ ((cfg2.win 4).blk t).view.set := by
  have hi0 : (i 0).val < 65536 := (i 0).isLt
  have hi1 : (i 1).val < 16 := (i 1).isLt
  refine ⟨⟨(i 0).val / 2048, by show (i 0).val / 2048 < 32; omega⟩, flush2_4 _, ?_⟩
  rw [mem_blk2_4]
  obtain ⟨-, -, -, -, -, -, -, -, e0, e1⟩ := idx_facts2 ⟨(i 0).val / 2048, by show (i 0).val / 2048 < 32; omega⟩
  intro a
  match a with
  | ⟨0, _⟩ =>
    show win2_4.index _ (0 : Fin 2) * 2048 ≤ (i 0).val ∧ (i 0).val < win2_4.index _ (0 : Fin 2) * 2048 + 2048
    rw [e0]; show (i 0).val / 2048 * 2048 ≤ (i 0).val ∧ (i 0).val < (i 0).val / 2048 * 2048 + 2048; omega
  | ⟨1, _⟩ =>
    show win2_4.index _ (1 : Fin 2) * 16 ≤ (i 1).val ∧ (i 1).val < win2_4.index _ (1 : Fin 2) * 16 + 16
    rw [e1]; omega

theorem lvl2 (c : Dev nD) :
    (dat2 (F := Ideal) V c).arrAt 3 cfg2.N
      = SegStep.pairLvl 65536 16 (V c (Pipeline.arrRef spec2 0)) (V c (Pipeline.arrRef spec2 1)) (V c (Pipeline.arrRef spec2 2)) :=
  (dat2 V c).arrAt_eq_of_cover 3 _ (fun t _ => flushed2_3_eq V c t) cover2_3

theorem msk2 (c : Dev nD) :
    (dat2 (F := Ideal) V c).arrAt 4 cfg2.N = SegStep.pairMsk 65536 16 (V c (Pipeline.arrRef spec2 1)) :=
  (dat2 V c).arrAt_eq_of_cover 4 _ (fun t _ => flushed2_4_eq V c t) cover2_4

end Lvl2

end Cert.KernelIdeal.Hand

end
-- ==== Proof.KI.Lvl3.lean ====
import proofs.«417949_j89438398972173_1_alg».proof.Proof.KI.Reg3
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl3

variable (V : (c : Dev nD) → (b : Ref sig .tc) → Buf (Elt Ideal) ((c : Thread nD τ).loc b))

theorem hz3 : (![0, 0] : Fin 2 → Nat) = fun _ => 0 := funext fun a => by fin_cases a <;> rfl

theorem pay_sel3 : k3_pay2 (F := Ideal) = SegStep.sel (2 * 8) 8 Facts₀.iota_S16x8_d0_w32 Facts₀.iota_S16x8_d1_w32 Facts₀.natLt_1_32 := rfl

theorem dot3_eq : dot_S2048x16_S16x8_S2048x8_1_0_0_1_n_n = DotDims.plain 2048 (2 * 8) 8 := rfl

theorem pay_lvl3 (x0 x1 : Vec Ideal S2048x16 .f32) (x2 : Vec Ideal S2048x8 .f32) :
    k3_pay4 x0 x1 x2 = SegStep.pairLvl 2048 8 x0 x1 x2 := by
  unfold k3_pay4 k3_pay3
  simp only [shapeCast_self]
  rw [pay_sel3, dot3_eq]
  exact SegStep.lvl_block (R := 2048) (C := 8) (by norm_num) _ _ _ _ _ x0 x1 x2

theorem pay_msk3 (x1 : Vec Ideal S2048x16 .f32) :
    k3_pay1 (F := Ideal) (k3_pay3 x1) = SegStep.pairMsk 2048 8 x1 := by
  unfold k3_pay1 k3_pay3
  simp only [shapeCast_self]
  rw [pay_sel3, dot3_eq]
  exact SegStep.msk_block (R := 2048) (C := 8) (by norm_num) _ _ _ _ x1

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (y : Fin 2048) (k : Fin 16) (r : Fin 65536) (hr : r.val = t.val * 2048 + y.val) :
    (iblk3 V c 0 t : Vec Ideal S2048x16 .f32) (ix2 y k) = (V c (Pipeline.arrRef spec3 0) : S65536x16.Idx → EReal) (ix2 r k) := by
  obtain ⟨e0, e1, -⟩ := idx_facts3 t
  unfold iblk3
  rw [View.read_apply]
  refine congrArg (V c (Pipeline.arrRef spec3 0)) ?_
  funext a
  apply Fin.ext
  match a with
  | ⟨0, _⟩ => show win3_0.index t 0 * 2048 + 1 * y.val = r.val; rw [e0, hr]; omega
  | ⟨1, _⟩ => show win3_0.index t 1 * 16 + 1 * k.val = k.val; rw [e1]; omega

theorem iblk3_1_apply (c : Dev nD) (t : Fin cfg3.N) (y : Fin 2048) (k : Fin 16) (r : Fin 65536) (hr : r.val = t.val * 2048 + y.val) :
    (iblk3 V c 1 t : Vec Ideal S2048x16 .f32) (ix2 y k) = (V c (Pipeline.arrRef spec3 1) : S65536x16.Idx → EReal) (ix2 r k) := by
  obtain ⟨-, -, e0, e1, -⟩ := idx_facts3 t
  unfold iblk3
  rw [View.read_apply]
  refine congrArg (V c (Pipeline.arrRef spec3 1)) ?_
  funext a
  apply Fin.ext
  match a with
  | ⟨0, _⟩ => show win3_1.index t 0 * 2048 + 1 * y.val = r.val; rw [e0, hr]; omega
  | ⟨1, _⟩ => show win3_1.index t 1 * 16 + 1 * k.val = k.val; rw [e1]; omega

theorem iblk3_2_apply (c : Dev nD) (t : Fin cfg3.N) (y : S2048x8.Idx) (i : S65536x8.Idx)
    (h0 : (i 0).val = t.val * 2048 + (y 0).val) (h1 : (i 1).val = (y 1).val) :
    (iblk3 V c 2 t : Vec Ideal S2048x8 .f32) y = (V c (Pipeline.arrRef spec3 2) : S65536x8.Idx → EReal) i := by
  obtain ⟨-, -, -, -, e0, e1, -⟩ := idx_facts3 t
  unfold iblk3
  rw [View.read_apply]
  refine congrArg (V c (Pipeline.arrRef spec3 2)) ?_
  funext a
  apply Fin.ext
  match a with
  | ⟨0, _⟩ => show win3_2.index t 0 * 2048 + 1 * (y 0).val = (i 0).val; rw [e0, h0]; omega
  | ⟨1, _⟩ => show win3_2.index t 1 * 8 + 1 * (y 1).val = (i 1).val; rw [e1, h1]; omega

theorem emb3_3 (t : Fin cfg3.N) (j : S2048x8.Idx) :
    ((((cfg3.win 3).blk t).view.emb j : S65536x8.Idx) 0).val = t.val * 2048 + (j 0).val
    ∧ ((((cfg3.win 3).blk t).view.emb j : S65536x8.Idx) 1).val = (j 1).val := by
  obtain ⟨-, -, -, -, -, -, e0, e1, -⟩ := idx_facts3 t
  constructor
  · show win3_3.index t 0 * 2048 + 1 * (j 0).val = _; rw [e0]; omega
  · show win3_3.index t 1 * 8 + 1 * (j 1).val = _; rw [e1]; omega

theorem emb3_4 (t : Fin cfg3.N) (j : S2048x8.Idx) :
    ((((cfg3.win 4).blk t).view.emb j : S65536x8.Idx) 0).val = t.val * 2048 + (j 0).val
    ∧ ((((cfg3.win 4).blk t).view.emb j : S65536x8.Idx) 1).val = (j 1).val := by
  obtain ⟨-, -, -, -, -, -, -, -, e0, e1⟩ := idx_facts3 t
  constructor
  · show win3_4.index t 0 * 2048 + 1 * (j 0).val = _; rw [e0]; omega
  · show win3_4.index t 1 * 8 + 1 * (j 1).val = _; rw [e1]; omega

theorem flushed3_3_eq (c : Dev nD) (t : Fin cfg3.N) :
    (dat3 V c).flushed 3 t = ((cfg3.win 3).blk t).view.read (Elt Ideal)
      (SegStep.pairLvl 65536 8 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S2048x16) hz3, View.ld_unit_zero (S := S2048x8) hz3]
  rw [pay_lvl3]
  funext j
  obtain ⟨h0, h1⟩ := emb3_3 t j
  show SegStep.pairLvl 2048 8 (iblk3 V c 0 t) (iblk3 V c 1 t) (iblk3 V c 2 t) j
    = SegStep.pairLvl 65536 8 (V c (Pipeline.arrRef spec3 0)) (V c (Pipeline.arrRef spec3 1)) (V c (Pipeline.arrRef spec3 2))
        (((cfg3.win 3).blk t).view.emb j)
  refine SegStep.pairLvl_rows _ _ _ _ _ _ j _ h1 (fun k => ?_) (fun k => ?_) ?_
  · exact iblk3_0_apply V c t (j 0) k _ h0
  · exact iblk3_1_apply V c t (j 0) k _ h0
  · exact iblk3_2_apply V c t j _ h0 h1

theorem flushed3_4_eq (c : Dev nD) (t : Fin cfg3.N) :
    (dat3 V c).flushed 4 t = ((cfg3.win 4).blk t).view.read (Elt Ideal)
      (SegStep.pairMsk 65536 8 (V c (Pipeline.arrRef spec3 1))) := by
  show (cfg3.win 4).cut (grid3.coords t) ((dat3 V c).after 4 t) = _
  rw [after3_4]
  unfold out3_4
  rw [View.canon_unit_zero hz3]
  simp only [View.ld_unit_zero (S := S2048x16) hz3]
  rw [pay_msk3]
  funext j
  obtain ⟨h0, h1⟩ := emb3_4 t j
  show SegStep.pairMsk 2048 8 (iblk3 V c 1 t) j
    = SegStep.pairMsk 65536 8 (V c (Pipeline.arrRef spec3 1)) (((cfg3.win 4).blk t).view.emb j)
  refine SegStep.pairMsk_rows _ _ j _ h1 (fun k => ?_)
  exact iblk3_1_apply V c t (j 0) k _ h0

theorem mem_blk3_3 (t : Fin cfg3.N) (i : S65536x8.Idx) :
    i ∈ ((cfg3.win 3).blk t).view.set ↔ ∀ a : Fin 2, win3_3.index t a * S2048x8.size a ≤ (i a).val ∧ (i a).val < win3_3.index t a * S2048x8.size a + S2048x8.size a := by
  show i ∈ ((View.whole main_v33_0).slice (win3_3.rect t)).set ↔ _
  rw [View.set_slice_whole, Rect.mem_set_unit]
  exact Iff.rfl

theorem mem_blk3_4 (t : Fin cfg3.N) (i : S65536x8.Idx) :
    i ∈ ((cfg3.win 4).blk t).view.set ↔ ∀ a : Fin 2, win3_4.index t a * S2048x8.size a ≤ (i a).val ∧ (i a).val < win3_4.index t a * S2048x8.size a + S2048x8.size a := by
  show i ∈ ((View.whole main_v33_1).slice (win3_4.rect t)).set ↔ _
  rw [View.set_slice_whole, Rect.mem_set_unit]
  exact Iff.rfl

theorem cover3_3 (i : S65536x8.Idx) : ∃ t : Fin cfg3.N, (cfg3.win 3).flush t = true ∧ i ∈ ((cfg3.win 3).blk t).view.set := by
  have hi0 : (i 0).val < 65536 := (i 0).isLt
  have hi1 : (i 1).val < 8 := (i 1).isLt
  refine ⟨⟨(i 0).val / 2048, by show (i 0).val / 2048 < 32; omega⟩, flush3_3 _, ?_⟩
  rw [mem_blk3_3]
  obtain ⟨-, -, -, -, -, -, e0, e1, -⟩ := idx_facts3 ⟨(i 0).val / 2048, by show (i 0).val / 2048 < 32; omega⟩
  intro a
  match a with
  | ⟨0, _⟩ =>
    show win3_3.index _ (0 : Fin 2) * 2048 ≤ (i 0).val ∧ (i 0).val < win3_3.index _ (0 : Fin 2) * 2048 + 2048
    rw [e0]; show (i 0).val / 2048 * 2048 ≤ (i 0).val ∧ (i 0).val < (i 0).val / 2048 * 2048 + 2048; omega
  | ⟨1, _⟩ =>
    show win3_3.index _ (1 : Fin 2) * 8 ≤ (i 1).val ∧ (i 1).val < win3_3.index _ (1 : Fin 2) * 8 + 8
    rw [e1]; omega

theorem cover3_4 (i : S65536x8.Idx) : ∃ t : Fin cfg3.N, (cfg3.win 4).flush t = true ∧ i ∈ ((cfg3.win 4).blk t).view.set := by
  have hi0 : (i 0).val < 65536 := (i 0).isLt
  have hi1 : (i 1).val < 8 := (i 1).isLt
  refine ⟨⟨(i 0).val / 2048, by show (i 0).val / 2048 < 32; omega⟩, flush3_4 _, ?_⟩
  rw [mem_blk3_4]
  obtain ⟨-, -, -, -, -, -, -, -, e0, e1⟩ := idx_facts3 ⟨(i 0).val / 2048, by show (i 0).val / 2048 < 32; omega⟩
  intro a
  match a with
  | ⟨0, _⟩ =>
    show win3_4.index _ (0 : Fin 2) * 2048 ≤ (i 0).val ∧ (i 0).val < win3_4.index _ (0 : Fin 2) * 2048 + 2048
    rw [e0]; show (i 0).val / 2048 * 2048 ≤ (i 0).val ∧ (i 0).val < (i 0).val / 2048 * 2048 + 2048; omega
  | ⟨1, _⟩ =>
    show win3_4.index _ (1 : Fin 2) * 8 ≤ (i 1).val ∧ (i 1).val < win3_4.index _ (1 : Fin 2) * 8 + 8
    rw [e1]; omega

theorem lvl3 (c : Dev nD) :
    (dat3 (F := Ideal) V c).arrAt 3 cfg3.N
      = SegStep.pairLvl 65536 8 (V c (Pipeline.arrRef spec3 0)) (V c (Pipeline.arrRef spec3 1)) (V c (Pipeline.arrRef spec3 2)) :=
  (dat3 V c).arrAt_eq_of_cover 3 _ (fun t _ => flushed3_3_eq V c t) cover3_3

theorem msk3 (c : Dev nD) :
    (dat3 (F := Ideal) V c).arrAt 4 cfg3.N = SegStep.pairMsk 65536 8 (V c (Pipeline.arrRef spec3 1)) :=
  (dat3 V c).arrAt_eq_of_cover 4 _ (fun t _ => flushed3_4_eq V c t) cover3_4

end Lvl3

end Cert.KernelIdeal.Hand

end
-- ==== Proof.KI.Lvl4.lean ====
import proofs.«417949_j89438398972173_1_alg».proof.Proof.KI.Reg4
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl4

variable (V : (c : Dev nD) → (b : Ref sig .tc) → Buf (Elt Ideal) ((c : Thread nD τ).loc b))

theorem hz4 : (![0, 0] : Fin 2 → Nat) = fun _ => 0 := funext fun a => by fin_cases a <;> rfl

theorem pay_sel4 : k4_pay2 (F := Ideal) = SegStep.sel (2 * 4) 4 Facts₀.iota_S8x4_d0_w32 Facts₀.iota_S8x4_d1_w32 Facts₀.natLt_1_32 := rfl

theorem dot4_eq : dot_S2048x8_S8x4_S2048x4_1_0_0_1_n_n = DotDims.plain 2048 (2 * 4) 4 := rfl

theorem pay_lvl4 (x0 x1 : Vec Ideal S2048x8 .f32) (x2 : Vec Ideal S2048x4 .f32) :
    k4_pay4 x0 x1 x2 = SegStep.pairLvl 2048 4 x0 x1 x2 := by
  unfold k4_pay4 k4_pay3
  simp only [shapeCast_self]
  rw [pay_sel4, dot4_eq]
  exact SegStep.lvl_block (R := 2048) (C := 4) (by norm_num) _ _ _ _ _ x0 x1 x2

theorem pay_msk4 (x1 : Vec Ideal S2048x8 .f32) :
    k4_pay1 (F := Ideal) (k4_pay3 x1) = SegStep.pairMsk 2048 4 x1 := by
  unfold k4_pay1 k4_pay3
  simp only [shapeCast_self]
  rw [pay_sel4, dot4_eq]
  exact SegStep.msk_block (R := 2048) (C := 4) (by norm_num) _ _ _ _ x1

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem iblk4_0_apply (c : Dev nD) (t : Fin cfg4.N) (y : Fin 2048) (k : Fin 8) (r : Fin 65536) (hr : r.val = t.val * 2048 + y.val) :
    (iblk4 V c 0 t : Vec Ideal S2048x8 .f32) (ix2 y k) = (V c (Pipeline.arrRef spec4 0) : S65536x8.Idx → EReal) (ix2 r k) := by
  obtain ⟨e0, e1, -⟩ := idx_facts4 t
  unfold iblk4
  rw [View.read_apply]
  refine congrArg (V c (Pipeline.arrRef spec4 0)) ?_
  funext a
  apply Fin.ext
  match a with
  | ⟨0, _⟩ => show win4_0.index t 0 * 2048 + 1 * y.val = r.val; rw [e0, hr]; omega
  | ⟨1, _⟩ => show win4_0.index t 1 * 8 + 1 * k.val = k.val; rw [e1]; omega

theorem iblk4_1_apply (c : Dev nD) (t : Fin cfg4.N) (y : Fin 2048) (k : Fin 8) (r : Fin 65536) (hr : r.val = t.val * 2048 + y.val) :
    (iblk4 V c 1 t : Vec Ideal S2048x8 .f32) (ix2 y k) = (V c (Pipeline.arrRef spec4 1) : S65536x8.Idx → EReal) (ix2 r k) := by
  obtain ⟨-, -, e0, e1, -⟩ := idx_facts4 t
  unfold iblk4
  rw [View.read_apply]
  refine congrArg (V c (Pipeline.arrRef spec4 1)) ?_
  funext a
  apply Fin.ext
  match a with
  | ⟨0, _⟩ => show win4_1.index t 0 * 2048 + 1 * y.val = r.val; rw [e0, hr]; omega
  | ⟨1, _⟩ => show win4_1.index t 1 * 8 + 1 * k.val = k.val; rw [e1]; omega

theorem iblk4_2_apply (c : Dev nD) (t : Fin cfg4.N) (y : S2048x4.Idx) (i : S65536x4.Idx)
    (h0 : (i 0).val = t.val * 2048 + (y 0).val) (h1 : (i 1).val = (y 1).val) :
    (iblk4 V c 2 t : Vec Ideal S2048x4 .f32) y = (V c (Pipeline.arrRef spec4 2) : S65536x4.Idx → EReal) i := by
  obtain ⟨-, -, -, -, e0, e1, -⟩ := idx_facts4 t
  unfold iblk4
  rw [View.read_apply]
  refine congrArg (V c (Pipeline.arrRef spec4 2)) ?_
  funext a
  apply Fin.ext
  match a with
  | ⟨0, _⟩ => show win4_2.index t 0 * 2048 + 1 * (y 0).val = (i 0).val; rw [e0, h0]; omega
  | ⟨1, _⟩ => show win4_2.index t 1 * 4 + 1 * (y 1).val = (i 1).val; rw [e1, h1]; omega

theorem emb4_3 (t : Fin cfg4.N) (j : S2048x4.Idx) :
    ((((cfg4.win 3).blk t).view.emb j : S65536x4.Idx) 0).val = t.val * 2048 + (j 0).val
    ∧ ((((cfg4.win 3).blk t).view.emb j : S65536x4.Idx) 1).val = (j 1).val := by
  obtain ⟨-, -, -, -, -, -, e0, e1, -⟩ := idx_facts4 t
  constructor
  · show win4_3.index t 0 * 2048 + 1 * (j 0).val = _; rw [e0]; omega
  · show win4_3.index t 1 * 4 + 1 * (j 1).val = _; rw [e1]; omega

theorem emb4_4 (t : Fin cfg4.N) (j : S2048x4.Idx) :
    ((((cfg4.win 4).blk t).view.emb j : S65536x4.Idx) 0).val = t.val * 2048 + (j 0).val
    ∧ ((((cfg4.win 4).blk t).view.emb j : S65536x4.Idx) 1).val = (j 1).val := by
  obtain ⟨-, -, -, -, -, -, -, -, e0, e1⟩ := idx_facts4 t
  constructor
  · show win4_4.index t 0 * 2048 + 1 * (j 0).val = _; rw [e0]; omega
  · show win4_4.index t 1 * 4 + 1 * (j 1).val = _; rw [e1]; omega

theorem flushed4_3_eq (c : Dev nD) (t : Fin cfg4.N) :
    (dat4 V c).flushed 3 t = ((cfg4.win 3).blk t).view.read (Elt Ideal)
      (SegStep.pairLvl 65536 4 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4]
  simp only [View.ld_unit_zero (S := S2048x8) hz4, View.ld_unit_zero (S := S2048x4) hz4]
  rw [pay_lvl4]
  funext j
  obtain ⟨h0, h1⟩ := emb4_3 t j
  show SegStep.pairLvl 2048 4 (iblk4 V c 0 t) (iblk4 V c 1 t) (iblk4 V c 2 t) j
    = SegStep.pairLvl 65536 4 (V c (Pipeline.arrRef spec4 0)) (V c (Pipeline.arrRef spec4 1)) (V c (Pipeline.arrRef spec4 2))
        (((cfg4.win 3).blk t).view.emb j)
  refine SegStep.pairLvl_rows _ _ _ _ _ _ j _ h1 (fun k => ?_) (fun k => ?_) ?_
  · exact iblk4_0_apply V c t (j 0) k _ h0
  · exact iblk4_1_apply V c t (j 0) k _ h0
  · exact iblk4_2_apply V c t j _ h0 h1

theorem flushed4_4_eq (c : Dev nD) (t : Fin cfg4.N) :
    (dat4 V c).flushed 4 t = ((cfg4.win 4).blk t).view.read (Elt Ideal)
      (SegStep.pairMsk 65536 4 (V c (Pipeline.arrRef spec4 1))) := by
  show (cfg4.win 4).cut (grid4.coords t) ((dat4 V c).after 4 t) = _
  rw [after4_4]
  unfold out4_4
  rw [View.canon_unit_zero hz4]
  simp only [View.ld_unit_zero (S := S2048x8) hz4]
  rw [pay_msk4]
  funext j
  obtain ⟨h0, h1⟩ := emb4_4 t j
  show SegStep.pairMsk 2048 4 (iblk4 V c 1 t) j
    = SegStep.pairMsk 65536 4 (V c (Pipeline.arrRef spec4 1)) (((cfg4.win 4).blk t).view.emb j)
  refine SegStep.pairMsk_rows _ _ j _ h1 (fun k => ?_)
  exact iblk4_1_apply V c t (j 0) k _ h0

theorem mem_blk4_3 (t : Fin cfg4.N) (i : S65536x4.Idx) :
    i ∈ ((cfg4.win 3).blk t).view.set ↔ ∀ a : Fin 2, win4_3.index t a * S2048x4.size a ≤ (i a).val ∧ (i a).val < win4_3.index t a * S2048x4.size a + S2048x4.size a := by
  show i ∈ ((View.whole main_v37_0).slice (win4_3.rect t)).set ↔ _
  rw [View.set_slice_whole, Rect.mem_set_unit]
  exact Iff.rfl

theorem mem_blk4_4 (t : Fin cfg4.N) (i : S65536x4.Idx) :
    i ∈ ((cfg4.win 4).blk t).view.set ↔ ∀ a : Fin 2, win4_4.index t a * S2048x4.size a ≤ (i a).val ∧ (i a).val < win4_4.index t a * S2048x4.size a + S2048x4.size a := by
  show i ∈ ((View.whole main_v37_1).slice (win4_4.rect t)).set ↔ _
  rw [View.set_slice_whole, Rect.mem_set_unit]
  exact Iff.rfl

theorem cover4_3 (i : S65536x4.Idx) : ∃ t : Fin cfg4.N, (cfg4.win 3).flush t = true ∧ i ∈ ((cfg4.win 3).blk t).view.set := by
  have hi0 : (i 0).val < 65536 := (i 0).isLt
  have hi1 : (i 1).val < 4 := (i 1).isLt
  refine ⟨⟨(i 0).val / 2048, by show (i 0).val / 2048 < 32; omega⟩, flush4_3 _, ?_⟩
  rw [mem_blk4_3]
  obtain ⟨-, -, -, -, -, -, e0, e1, -⟩ := idx_facts4 ⟨(i 0).val / 2048, by show (i 0).val / 2048 < 32; omega⟩
  intro a
  match a with
  | ⟨0, _⟩ =>
    show win4_3.index _ (0 : Fin 2) * 2048 ≤ (i 0).val ∧ (i 0).val < win4_3.index _ (0 : Fin 2) * 2048 + 2048
    rw [e0]; show (i 0).val / 2048 * 2048 ≤ (i 0).val ∧ (i 0).val < (i 0).val / 2048 * 2048 + 2048; omega
  | ⟨1, _⟩ =>
    show win4_3.index _ (1 : Fin 2) * 4 ≤ (i 1).val ∧ (i 1).val < win4_3.index _ (1 : Fin 2) * 4 + 4
    rw [e1]; omega

theorem cover4_4 (i : S65536x4.Idx) : ∃ t : Fin cfg4.N, (cfg4.win 4).flush t = true ∧ i ∈ ((cfg4.win 4).blk t).view.set := by
  have hi0 : (i 0).val < 65536 := (i 0).isLt
  have hi1 : (i 1).val < 4 := (i 1).isLt
  refine ⟨⟨(i 0).val / 2048, by show (i 0).val / 2048 < 32; omega⟩, flush4_4 _, ?_⟩
  rw [mem_blk4_4]
  obtain ⟨-, -, -, -, -, -, -, -, e0, e1⟩ := idx_facts4 ⟨(i 0).val / 2048, by show (i 0).val / 2048 < 32; omega⟩
  intro a
  match a with
  | ⟨0, _⟩ =>
    show win4_4.index _ (0 : Fin 2) * 2048 ≤ (i 0).val ∧ (i 0).val < win4_4.index _ (0 : Fin 2) * 2048 + 2048
    rw [e0]; show (i 0).val / 2048 * 2048 ≤ (i 0).val ∧ (i 0).val < (i 0).val / 2048 * 2048 + 2048; omega
  | ⟨1, _⟩ =>
    show win4_4.index _ (1 : Fin 2) * 4 ≤ (i 1).val ∧ (i 1).val < win4_4.index _ (1 : Fin 2) * 4 + 4
    rw [e1]; omega

theorem lvl4 (c : Dev nD) :
    (dat4 (F := Ideal) V c).arrAt 3 cfg4.N
      = SegStep.pairLvl 65536 4 (V c (Pipeline.arrRef spec4 0)) (V c (Pipeline.arrRef spec4 1)) (V c (Pipeline.arrRef spec4 2)) :=
  (dat4 V c).arrAt_eq_of_cover 3 _ (fun t _ => flushed4_3_eq V c t) cover4_3

theorem msk4 (c : Dev nD) :
    (dat4 (F := Ideal) V c).arrAt 4 cfg4.N = SegStep.pairMsk 65536 4 (V c (Pipeline.arrRef spec4 1)) :=
  (dat4 V c).arrAt_eq_of_cover 4 _ (fun t _ => flushed4_4_eq V c t) cover4_4

end Lvl4

end Cert.KernelIdeal.Hand

end
-- ==== Proof.KI.Lvl5.lean ====
import proofs.«417949_j89438398972173_1_alg».proof.Proof.KI.Reg5
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl5

variable (V : (c : Dev nD) → (b : Ref sig .tc) → Buf (Elt Ideal) ((c : Thread nD τ).loc b))

theorem hz5 : (![0, 0] : Fin 2 → Nat) = fun _ => 0 := funext fun a => by fin_cases a <;> rfl

theorem pay_sel5 : k5_pay2 (F := Ideal) = SegStep.sel (2 * 2) 2 Facts₀.iota_S4x2_d0_w32 Facts₀.iota_S4x2_d1_w32 Facts₀.natLt_1_32 := rfl

theorem dot5_eq : dot_S2048x4_S4x2_S2048x2_1_0_0_1_n_n = DotDims.plain 2048 (2 * 2) 2 := rfl

theorem pay_lvl5 (x0 x1 : Vec Ideal S2048x4 .f32) (x2 : Vec Ideal S2048x2 .f32) :
    k5_pay4 x0 x1 x2 = SegStep.pairLvl 2048 2 x0 x1 x2 := by
  unfold k5_pay4 k5_pay3
  simp only [shapeCast_self]
  rw [pay_sel5, dot5_eq]
  exact SegStep.lvl_block (R := 2048) (C := 2) (by norm_num) _ _ _ _ _ x0 x1 x2

theorem pay_msk5 (x1 : Vec Ideal S2048x4 .f32) :
    k5_pay1 (F := Ideal) (k5_pay3 x1) = SegStep.pairMsk 2048 2 x1 := by
  unfold k5_pay1 k5_pay3
  simp only [shapeCast_self]
  rw [pay_sel5, dot5_eq]
  exact SegStep.msk_block (R := 2048) (C := 2) (by norm_num) _ _ _ _ x1

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

theorem iblk5_0_apply (c : Dev nD) (t : Fin cfg5.N) (y : Fin 2048) (k : Fin 4) (r : Fin 65536) (hr : r.val = t.val * 2048 + y.val) :
    (iblk5 V c 0 t : Vec Ideal S2048x4 .f32) (ix2 y k) = (V c (Pipeline.arrRef spec5 0) : S65536x4.Idx → EReal) (ix2 r k) := by
  obtain ⟨e0, e1, -⟩ := idx_facts5 t
  unfold iblk5
  rw [View.read_apply]
  refine congrArg (V c (Pipeline.arrRef spec5 0)) ?_
  funext a
  apply Fin.ext
  match a with
  | ⟨0, _⟩ => show win5_0.index t 0 * 2048 + 1 * y.val = r.val; rw [e0, hr]; omega
  | ⟨1, _⟩ => show win5_0.index t 1 * 4 + 1 * k.val = k.val; rw [e1]; omega

theorem iblk5_1_apply (c : Dev nD) (t : Fin cfg5.N) (y : Fin 2048) (k : Fin 4) (r : Fin 65536) (hr : r.val = t.val * 2048 + y.val) :
    (iblk5 V c 1 t : Vec Ideal S2048x4 .f32) (ix2 y k) = (V c (Pipeline.arrRef spec5 1) : S65536x4.Idx → EReal) (ix2 r k) := by
  obtain ⟨-, -, e0, e1, -⟩ := idx_facts5 t
  unfold iblk5
  rw [View.read_apply]
  refine congrArg (V c (Pipeline.arrRef spec5 1)) ?_
  funext a
  apply Fin.ext
  match a with
  | ⟨0, _⟩ => show win5_1.index t 0 * 2048 + 1 * y.val = r.val; rw [e0, hr]; omega
  | ⟨1, _⟩ => show win5_1.index t 1 * 4 + 1 * k.val = k.val; rw [e1]; omega

theorem iblk5_2_apply (c : Dev nD) (t : Fin cfg5.N) (y : S2048x2.Idx) (i : S65536x2.Idx)
    (h0 : (i 0).val = t.val * 2048 + (y 0).val) (h1 : (i 1).val = (y 1).val) :
    (iblk5 V c 2 t : Vec Ideal S2048x2 .f32) y = (V c (Pipeline.arrRef spec5 2) : S65536x2.Idx → EReal) i := by
  obtain ⟨-, -, -, -, e0, e1, -⟩ := idx_facts5 t
  unfold iblk5
  rw [View.read_apply]
  refine congrArg (V c (Pipeline.arrRef spec5 2)) ?_
  funext a
  apply Fin.ext
  match a with
  | ⟨0, _⟩ => show win5_2.index t 0 * 2048 + 1 * (y 0).val = (i 0).val; rw [e0, h0]; omega
  | ⟨1, _⟩ => show win5_2.index t 1 * 2 + 1 * (y 1).val = (i 1).val; rw [e1, h1]; omega

theorem emb5_3 (t : Fin cfg5.N) (j : S2048x2.Idx) :
    ((((cfg5.win 3).blk t).view.emb j : S65536x2.Idx) 0).val = t.val * 2048 + (j 0).val
    ∧ ((((cfg5.win 3).blk t).view.emb j : S65536x2.Idx) 1).val = (j 1).val := by
  obtain ⟨-, -, -, -, -, -, e0, e1, -⟩ := idx_facts5 t
  constructor
  · show win5_3.index t 0 * 2048 + 1 * (j 0).val = _; rw [e0]; omega
  · show win5_3.index t 1 * 2 + 1 * (j 1).val = _; rw [e1]; omega

theorem emb5_4 (t : Fin cfg5.N) (j : S2048x2.Idx) :
    ((((cfg5.win 4).blk t).view.emb j : S65536x2.Idx) 0).val = t.val * 2048 + (j 0).val
    ∧ ((((cfg5.win 4).blk t).view.emb j : S65536x2.Idx) 1).val = (j 1).val := by
  obtain ⟨-, -, -, -, -, -, -, -, e0, e1⟩ := idx_facts5 t
  constructor
  · show win5_4.index t 0 * 2048 + 1 * (j 0).val = _; rw [e0]; omega
  · show win5_4.index t 1 * 2 + 1 * (j 1).val = _; rw [e1]; omega

theorem flushed5_3_eq (c : Dev nD) (t : Fin cfg5.N) :
    (dat5 V c).flushed 3 t = ((cfg5.win 3).blk t).view.read (Elt Ideal)
      (SegStep.pairLvl 65536 2 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S2048x4) hz5, View.ld_unit_zero (S := S2048x2) hz5]
  rw [pay_lvl5]
  funext j
  obtain ⟨h0, h1⟩ := emb5_3 t j
  show SegStep.pairLvl 2048 2 (iblk5 V c 0 t) (iblk5 V c 1 t) (iblk5 V c 2 t) j
    = SegStep.pairLvl 65536 2 (V c (Pipeline.arrRef spec5 0)) (V c (Pipeline.arrRef spec5 1)) (V c (Pipeline.arrRef spec5 2))
        (((cfg5.win 3).blk t).view.emb j)
  refine SegStep.pairLvl_rows _ _ _ _ _ _ j _ h1 (fun k => ?_) (fun k => ?_) ?_
  · exact iblk5_0_apply V c t (j 0) k _ h0
  · exact iblk5_1_apply V c t (j 0) k _ h0
  · exact iblk5_2_apply V c t j _ h0 h1

theorem flushed5_4_eq (c : Dev nD) (t : Fin cfg5.N) :
    (dat5 V c).flushed 4 t = ((cfg5.win 4).blk t).view.read (Elt Ideal)
      (SegStep.pairMsk 65536 2 (V c (Pipeline.arrRef spec5 1))) := by
  show (cfg5.win 4).cut (grid5.coords t) ((dat5 V c).after 4 t) = _
  rw [after5_4]
  unfold out5_4
  rw [View.canon_unit_zero hz5]
  simp only [View.ld_unit_zero (S := S2048x4) hz5]
  rw [pay_msk5]
  funext j
  obtain ⟨h0, h1⟩ := emb5_4 t j
  show SegStep.pairMsk 2048 2 (iblk5 V c 1 t) j
    = SegStep.pairMsk 65536 2 (V c (Pipeline.arrRef spec5 1)) (((cfg5.win 4).blk t).view.emb j)
  refine SegStep.pairMsk_rows _ _ j _ h1 (fun k => ?_)
  exact iblk5_1_apply V c t (j 0) k _ h0

theorem mem_blk5_3 (t : Fin cfg5.N) (i : S65536x2.Idx) :
    i ∈ ((cfg5.win 3).blk t).view.set ↔ ∀ a : Fin 2, win5_3.index t a * S2048x2.size a ≤ (i a).val ∧ (i a).val < win5_3.index t a * S2048x2.size a + S2048x2.size a := by
  show i ∈ ((View.whole main_v41_0).slice (win5_3.rect t)).set ↔ _
  rw [View.set_slice_whole, Rect.mem_set_unit]
  exact Iff.rfl

theorem mem_blk5_4 (t : Fin cfg5.N) (i : S65536x2.Idx) :
    i ∈ ((cfg5.win 4).blk t).view.set ↔ ∀ a : Fin 2, win5_4.index t a * S2048x2.size a ≤ (i a).val ∧ (i a).val < win5_4.index t a * S2048x2.size a + S2048x2.size a := by
  show i ∈ ((View.whole main_v41_1).slice (win5_4.rect t)).set ↔ _
  rw [View.set_slice_whole, Rect.mem_set_unit]
  exact Iff.rfl

theorem cover5_3 (i : S65536x2.Idx) : ∃ t : Fin cfg5.N, (cfg5.win 3).flush t = true ∧ i ∈ ((cfg5.win 3).blk t).view.set := by
  have hi0 : (i 0).val < 65536 := (i 0).isLt
  have hi1 : (i 1).val < 2 := (i 1).isLt
  refine ⟨⟨(i 0).val / 2048, by show (i 0).val / 2048 < 32; omega⟩, flush5_3 _, ?_⟩
  rw [mem_blk5_3]
  obtain ⟨-, -, -, -, -, -, e0, e1, -⟩ := idx_facts5 ⟨(i 0).val / 2048, by show (i 0).val / 2048 < 32; omega⟩
  intro a
  match a with
  | ⟨0, _⟩ =>
    show win5_3.index _ (0 : Fin 2) * 2048 ≤ (i 0).val ∧ (i 0).val < win5_3.index _ (0 : Fin 2) * 2048 + 2048
    rw [e0]; show (i 0).val / 2048 * 2048 ≤ (i 0).val ∧ (i 0).val < (i 0).val / 2048 * 2048 + 2048; omega
  | ⟨1, _⟩ =>
    show win5_3.index _ (1 : Fin 2) * 2 ≤ (i 1).val ∧ (i 1).val < win5_3.index _ (1 : Fin 2) * 2 + 2
    rw [e1]; omega

theorem cover5_4 (i : S65536x2.Idx) : ∃ t : Fin cfg5.N, (cfg5.win 4).flush t = true ∧ i ∈ ((cfg5.win 4).blk t).view.set := by
  have hi0 : (i 0).val < 65536 := (i 0).isLt
  have hi1 : (i 1).val < 2 := (i 1).isLt
  refine ⟨⟨(i 0).val / 2048, by show (i 0).val / 2048 < 32; omega⟩, flush5_4 _, ?_⟩
  rw [mem_blk5_4]
  obtain ⟨-, -, -, -, -, -, -, -, e0, e1⟩ := idx_facts5 ⟨(i 0).val / 2048, by show (i 0).val / 2048 < 32; omega⟩
  intro a
  match a with
  | ⟨0, _⟩ =>
    show win5_4.index _ (0 : Fin 2) * 2048 ≤ (i 0).val ∧ (i 0).val < win5_4.index _ (0 : Fin 2) * 2048 + 2048
    rw [e0]; show (i 0).val / 2048 * 2048 ≤ (i 0).val ∧ (i 0).val < (i 0).val / 2048 * 2048 + 2048; omega
  | ⟨1, _⟩ =>
    show win5_4.index _ (1 : Fin 2) * 2 ≤ (i 1).val ∧ (i 1).val < win5_4.index _ (1 : Fin 2) * 2 + 2
    rw [e1]; omega

theorem lvl5 (c : Dev nD) :
    (dat5 (F := Ideal) V c).arrAt 3 cfg5.N
      = SegStep.pairLvl 65536 2 (V c (Pipeline.arrRef spec5 0)) (V c (Pipeline.arrRef spec5 1)) (V c (Pipeline.arrRef spec5 2)) :=
  (dat5 V c).arrAt_eq_of_cover 3 _ (fun t _ => flushed5_3_eq V c t) cover5_3

theorem msk5 (c : Dev nD) :
    (dat5 (F := Ideal) V c).arrAt 4 cfg5.N = SegStep.pairMsk 65536 2 (V c (Pipeline.arrRef spec5 1)) :=
  (dat5 V c).arrAt_eq_of_cover 4 _ (fun t _ => flushed5_4_eq V c t) cover5_4

end Lvl5

end Cert.KernelIdeal.Hand

end
-- ==== Proof.KI.Lvl6.lean ====
import proofs.«417949_j89438398972173_1_alg».proof.Proof.KI.Reg6
import proofs.«417949_j89438398972173_1_alg».proof.Proof.KI.SegStep
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Lvl6

variable (V : (c : Dev nD) → (b : Ref sig .tc) → Buf (Elt Ideal) ((c : Thread nD τ).loc b))

theorem hz6 : (![0, 0] : Fin 2 → Nat) = fun _ => 0 := funext fun a => by fin_cases a <;> rfl

theorem pay_sel6 : k6_pay2 (F := Ideal) = SegStep.sel (2 * 1) 1 Facts₀.iota_S2x1_d0_w32 Facts₀.iota_S2x1_d1_w32 Facts₀.natLt_1_32 := rfl

theorem dot6_eq : dot_S2048x2_S2x1_S2048x1_1_0_0_1_n_n = DotDims.plain 2048 (2 * 1) 1 := rfl

theorem pay_lvl6 (x0 x1 : Vec Ideal S2048x2 .f32) (x2 : Vec Ideal S2048x1 .f32) :
    k6_pay4 x0 x1 x2 = SegStep.pairLvl 2048 1 x0 x1 x2 := by
  unfold k6_pay4 k6_pay3
  simp only [shapeCast_self]
  rw [pay_sel6, dot6_eq]
  exact SegStep.lvl_block (R := 2048) (C := 1) (by norm_num) _ _ _ _ _ x0 x1 x2

theorem pay_msk6 (x1 : Vec Ideal S2048x2 .f32) :
    k6_pay1 (F := Ideal) (k6_pay3 x1) = SegStep.pairMsk 2048 1 x1 := by
  unfold k6_pay1 k6_pay3
  simp only [shapeCast_self]
  rw [pay_sel6, dot6_eq]
  exact SegStep.msk_block (R := 2048) (C := 1) (by norm_num) _ _ _ _ x1

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

theorem iblk6_0_apply (c : Dev nD) (t : Fin cfg6.N) (y : Fin 2048) (k : Fin 2) (r : Fin 65536) (hr : r.val = t.val * 2048 + y.val) :
    (iblk6 V c 0 t : Vec Ideal S2048x2 .f32) (ix2 y k) = (V c (Pipeline.arrRef spec6 0) : S65536x2.Idx → EReal) (ix2 r k) := by
  obtain ⟨e0, e1, -⟩ := idx_facts6 t
  unfold iblk6
  rw [View.read_apply]
  refine congrArg (V c (Pipeline.arrRef spec6 0)) ?_
  funext a
  apply Fin.ext
  match a with
  | ⟨0, _⟩ => show win6_0.index t 0 * 2048 + 1 * y.val = r.val; rw [e0, hr]; omega
  | ⟨1, _⟩ => show win6_0.index t 1 * 2 + 1 * k.val = k.val; rw [e1]; omega

theorem iblk6_1_apply (c : Dev nD) (t : Fin cfg6.N) (y : Fin 2048) (k : Fin 2) (r : Fin 65536) (hr : r.val = t.val * 2048 + y.val) :
    (iblk6 V c 1 t : Vec Ideal S2048x2 .f32) (ix2 y k) = (V c (Pipeline.arrRef spec6 1) : S65536x2.Idx → EReal) (ix2 r k) := by
  obtain ⟨-, -, e0, e1, -⟩ := idx_facts6 t
  unfold iblk6
  rw [View.read_apply]
  refine congrArg (V c (Pipeline.arrRef spec6 1)) ?_
  funext a
  apply Fin.ext
  match a with
  | ⟨0, _⟩ => show win6_1.index t 0 * 2048 + 1 * y.val = r.val; rw [e0, hr]; omega
  | ⟨1, _⟩ => show win6_1.index t 1 * 2 + 1 * k.val = k.val; rw [e1]; omega

theorem iblk6_2_apply (c : Dev nD) (t : Fin cfg6.N) (y : S2048x1.Idx) (i : S65536x1.Idx)
    (h0 : (i 0).val = t.val * 2048 + (y 0).val) (h1 : (i 1).val = (y 1).val) :
    (iblk6 V c 2 t : Vec Ideal S2048x1 .f32) y = (V c (Pipeline.arrRef spec6 2) : S65536x1.Idx → EReal) i := by
  obtain ⟨-, -, -, -, e0, e1, -⟩ := idx_facts6 t
  unfold iblk6
  rw [View.read_apply]
  refine congrArg (V c (Pipeline.arrRef spec6 2)) ?_
  funext a
  apply Fin.ext
  match a with
  | ⟨0, _⟩ => show win6_2.index t 0 * 2048 + 1 * (y 0).val = (i 0).val; rw [e0, h0]; omega
  | ⟨1, _⟩ => show win6_2.index t 1 * 1 + 1 * (y 1).val = (i 1).val; rw [e1, h1]; omega

theorem emb6_3 (t : Fin cfg6.N) (j : S2048x1.Idx) :
    ((((cfg6.win 3).blk t).view.emb j : S65536x1.Idx) 0).val = t.val * 2048 + (j 0).val
    ∧ ((((cfg6.win 3).blk t).view.emb j : S65536x1.Idx) 1).val = (j 1).val := by
  obtain ⟨-, -, -, -, -, -, e0, e1, -⟩ := idx_facts6 t
  constructor
  · show win6_3.index t 0 * 2048 + 1 * (j 0).val = _; rw [e0]; omega
  · show win6_3.index t 1 * 1 + 1 * (j 1).val = _; rw [e1]; omega

theorem emb6_4 (t : Fin cfg6.N) (j : S2048x1.Idx) :
    ((((cfg6.win 4).blk t).view.emb j : S65536x1.Idx) 0).val = t.val * 2048 + (j 0).val
    ∧ ((((cfg6.win 4).blk t).view.emb j : S65536x1.Idx) 1).val = (j 1).val := by
  obtain ⟨-, -, -, -, -, -, -, -, e0, e1⟩ := idx_facts6 t
  constructor
  · show win6_4.index t 0 * 2048 + 1 * (j 0).val = _; rw [e0]; omega
  · show win6_4.index t 1 * 1 + 1 * (j 1).val = _; rw [e1]; omega

theorem flushed6_3_eq (c : Dev nD) (t : Fin cfg6.N) :
    (dat6 V c).flushed 3 t = ((cfg6.win 3).blk t).view.read (Elt Ideal)
      (SegStep.pairLvl 65536 1 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S2048x2) hz6, View.ld_unit_zero (S := S2048x1) hz6]
  rw [pay_lvl6]
  funext j
  obtain ⟨h0, h1⟩ := emb6_3 t j
  show SegStep.pairLvl 2048 1 (iblk6 V c 0 t) (iblk6 V c 1 t) (iblk6 V c 2 t) j
    = SegStep.pairLvl 65536 1 (V c (Pipeline.arrRef spec6 0)) (V c (Pipeline.arrRef spec6 1)) (V c (Pipeline.arrRef spec6 2))
        (((cfg6.win 3).blk t).view.emb j)
  refine SegStep.pairLvl_rows _ _ _ _ _ _ j _ h1 (fun k => ?_) (fun k => ?_) ?_
  · exact iblk6_0_apply V c t (j 0) k _ h0
  · exact iblk6_1_apply V c t (j 0) k _ h0
  · exact iblk6_2_apply V c t j _ h0 h1

theorem flushed6_4_eq (c : Dev nD) (t : Fin cfg6.N) :
    (dat6 V c).flushed 4 t = ((cfg6.win 4).blk t).view.read (Elt Ideal)
      (SegStep.pairMsk 65536 1 (V c (Pipeline.arrRef spec6 1))) := by
  show (cfg6.win 4).cut (grid6.coords t) ((dat6 V c).after 4 t) = _
  rw [after6_4]
  unfold out6_4
  rw [View.canon_unit_zero hz6]
  simp only [View.ld_unit_zero (S := S2048x2) hz6]
  rw [pay_msk6]
  funext j
  obtain ⟨h0, h1⟩ := emb6_4 t j
  show SegStep.pairMsk 2048 1 (iblk6 V c 1 t) j
    = SegStep.pairMsk 65536 1 (V c (Pipeline.arrRef spec6 1)) (((cfg6.win 4).blk t).view.emb j)
  refine SegStep.pairMsk_rows _ _ j _ h1 (fun k => ?_)
  exact iblk6_1_apply V c t (j 0) k _ h0

theorem mem_blk6_3 (t : Fin cfg6.N) (i : S65536x1.Idx) :
    i ∈ ((cfg6.win 3).blk t).view.set ↔ ∀ a : Fin 2, win6_3.index t a * S2048x1.size a ≤ (i a).val ∧ (i a).val < win6_3.index t a * S2048x1.size a + S2048x1.size a := by
  show i ∈ ((View.whole main_v45_0).slice (win6_3.rect t)).set ↔ _
  rw [View.set_slice_whole, Rect.mem_set_unit]
  exact Iff.rfl

theorem mem_blk6_4 (t : Fin cfg6.N) (i : S65536x1.Idx) :
    i ∈ ((cfg6.win 4).blk t).view.set ↔ ∀ a : Fin 2, win6_4.index t a * S2048x1.size a ≤ (i a).val ∧ (i a).val < win6_4.index t a * S2048x1.size a + S2048x1.size a := by
  show i ∈ ((View.whole main_v45_1).slice (win6_4.rect t)).set ↔ _
  rw [View.set_slice_whole, Rect.mem_set_unit]
  exact Iff.rfl

theorem cover6_3 (i : S65536x1.Idx) : ∃ t : Fin cfg6.N, (cfg6.win 3).flush t = true ∧ i ∈ ((cfg6.win 3).blk t).view.set := by
  have hi0 : (i 0).val < 65536 := (i 0).isLt
  have hi1 : (i 1).val < 1 := (i 1).isLt
  refine ⟨⟨(i 0).val / 2048, by show (i 0).val / 2048 < 32; omega⟩, flush6_3 _, ?_⟩
  rw [mem_blk6_3]
  obtain ⟨-, -, -, -, -, -, e0, e1, -⟩ := idx_facts6 ⟨(i 0).val / 2048, by show (i 0).val / 2048 < 32; omega⟩
  intro a
  match a with
  | ⟨0, _⟩ =>
    show win6_3.index _ (0 : Fin 2) * 2048 ≤ (i 0).val ∧ (i 0).val < win6_3.index _ (0 : Fin 2) * 2048 + 2048
    rw [e0]; show (i 0).val / 2048 * 2048 ≤ (i 0).val ∧ (i 0).val < (i 0).val / 2048 * 2048 + 2048; omega
  | ⟨1, _⟩ =>
    show win6_3.index _ (1 : Fin 2) * 1 ≤ (i 1).val ∧ (i 1).val < win6_3.index _ (1 : Fin 2) * 1 + 1
    rw [e1]; omega

theorem cover6_4 (i : S65536x1.Idx) : ∃ t : Fin cfg6.N, (cfg6.win 4).flush t = true ∧ i ∈ ((cfg6.win 4).blk t).view.set := by
  have hi0 : (i 0).val < 65536 := (i 0).isLt
  have hi1 : (i 1).val < 1 := (i 1).isLt
  refine ⟨⟨(i 0).val / 2048, by show (i 0).val / 2048 < 32; omega⟩, flush6_4 _, ?_⟩
  rw [mem_blk6_4]
  obtain ⟨-, -, -, -, -, -, -, -, e0, e1⟩ := idx_facts6 ⟨(i 0).val / 2048, by show (i 0).val / 2048 < 32; omega⟩
  intro a
  match a with
  | ⟨0, _⟩ =>
    show win6_4.index _ (0 : Fin 2) * 2048 ≤ (i 0).val ∧ (i 0).val < win6_4.index _ (0 : Fin 2) * 2048 + 2048
    rw [e0]; show (i 0).val / 2048 * 2048 ≤ (i 0).val ∧ (i 0).val < (i 0).val / 2048 * 2048 + 2048; omega
  | ⟨1, _⟩ =>
    show win6_4.index _ (1 : Fin 2) * 1 ≤ (i 1).val ∧ (i 1).val < win6_4.index _ (1 : Fin 2) * 1 + 1
    rw [e1]; omega

theorem lvl6 (c : Dev nD) :
    (dat6 (F := Ideal) V c).arrAt 3 cfg6.N
      = SegStep.pairLvl 65536 1 (V c (Pipeline.arrRef spec6 0)) (V c (Pipeline.arrRef spec6 1)) (V c (Pipeline.arrRef spec6 2)) :=
  (dat6 V c).arrAt_eq_of_cover 3 _ (fun t _ => flushed6_3_eq V c t) cover6_3

theorem msk6 (c : Dev nD) :
    (dat6 (F := Ideal) V c).arrAt 4 cfg6.N = SegStep.pairMsk 65536 1 (V c (Pipeline.arrRef spec6 1)) :=
  (dat6 V c).arrAt_eq_of_cover 4 _ (fun t _ => flushed6_4_eq V c t) cover6_4

end Lvl6

end Cert.KernelIdeal.Hand

end
-- ==== Proof.KI.HostHead.lean ====
import proofs.«417949_j89438398972173_1_alg».proof.Proof.KernelMath
import proofs.«417949_j89438398972173_1_alg».proof.Proof.Spec
import proofs.«417949_j89438398972173_1_alg».proof.Proof.LibSegOps
import proofs.«417949_j89438398972173_1_alg».proof.Proof.KI.SegStep
import proofs.«417949_j89438398972173_1_alg».proof.Proof.KI.Run
import proofs.«417949_j89438398972173_1_alg».proof.Proof.KI.Persist
import proofs.«417949_j89438398972173_1_alg».proof.Proof.KI.Lvl0
import proofs.«417949_j89438398972173_1_alg».proof.Proof.KI.Lvl1
import proofs.«417949_j89438398972173_1_alg».proof.Proof.KI.Lvl2
import proofs.«417949_j89438398972173_1_alg».proof.Proof.KI.Lvl3
import proofs.«417949_j89438398972173_1_alg».proof.Proof.KI.Lvl4
import proofs.«417949_j89438398972173_1_alg».proof.Proof.KI.Lvl5
import proofs.«417949_j89438398972173_1_alg».proof.Proof.KI.Lvl6
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.IdealHost
import Idealize.ShloMosaic.PureOps.Ideal.Laws
import Mathlib.Tactic.Ring

set_option maxRecDepth 16384

noncomputable section

namespace Cert.KernelIdeal.Hand

open Cert.KernelIdeal Cert.KernelIdeal.Gen
open Idealize.ShloMosaic Idealize.ShloMosaic.TcCoe
open Idealize.ShloMosaic.ValueIdx Idealize.ShloMosaic.StableHlo.Predicate Idealize.ShloMosaic.StableHlo SegTree

theorem pos_lt {R C a b : ℕ} (ha : a < R) (hb : b < C) : a * C + b < R * C :=
  calc a * C + b < a * C + C := by omega
    _ = (a + 1) * C := (Nat.succ_mul a C).symm
    _ ≤ R * C := Nat.mul_le_mul_right C ha

theorem unflat_apply {α : Type} {N R C : ℕ} (hN : R * C = N) (g : ℕ → α)
    (h : (⟨1, ![N]⟩ : Shape).ShapeCasts ⟨2, ![R, C]⟩) :
    shapeCast ⟨2, ![R, C]⟩ (fun i : (⟨1, ![N]⟩ : Shape).Idx => g (i 0).val) h
      = fun i => g ((i 0).val * C + (i 1).val) := by
  funext i
  refine (shapeCast_apply _ h i (ix1 ⟨(i 0).val * C + (i 1).val, hN ▸ pos_lt (i 0).isLt (i 1).isLt⟩) ?_).trans rfl
  rw [Shape.rowMajor_val_one, Shape.rowMajor_val_two]
  rfl

theorem flat_apply {α : Type} {N R C : ℕ} (hN : R * C = N) (hC : 0 < C) (g : ℕ → α)
    (h : (⟨2, ![R, C]⟩ : Shape).ShapeCasts ⟨1, ![N]⟩) :
    shapeCast ⟨1, ![N]⟩ (fun i : (⟨2, ![R, C]⟩ : Shape).Idx => g ((i 0).val * C + (i 1).val)) h
      = fun i => g (i 0).val := by
  funext i
  have hi : (i 0).val < R * C := hN ▸ (i 0).isLt
  have hr : (i 0).val / C < R := Nat.div_lt_of_lt_mul (by rw [Nat.mul_comm]; exact hi)
  refine (shapeCast_apply _ h i (ix2 ⟨(i 0).val / C, hr⟩ ⟨(i 0).val % C, Nat.mod_lt _ hC⟩) ?_).trans ?_
  · rw [Shape.rowMajor_val_one, Shape.rowMajor_val_two]
    exact Nat.div_add_mod' _ _
  · exact congrArg g (Nat.div_add_mod' _ _)

theorem slice_apply {α : Type} [Zero α] {N n off : ℕ} (x : (⟨1, ![N]⟩ : Shape).Idx → α)
    (h : (⟨1, ![N]⟩ : Shape).Slices ![off] ⟨1, ![n]⟩) :
    extractStridedSlice ⟨1, ![n]⟩ ![off] x h = fun j => ofVec x (off + (j 0).val) := by
  funext j
  obtain ⟨hr, hle⟩ := h
  have hle0 : off + n ≤ N := hle 0
  have hj : (j 0).val < n := (j 0).isLt
  have hlt : off + (j 0).val < N := by omega
  refine (extractStridedSlice_apply ![off] x ⟨hr, hle⟩ j (ix1 ⟨off + (j 0).val, hlt⟩) ?_).trans ?_
  · intro a
    have ha : a = 0 := Subsingleton.elim _ _
    subst ha
    rfl
  · unfold ofVec
    rw [dif_pos hlt]

theorem pair_pos_L (a b C : ℕ) : a * (2 * C) + 2 * b = 2 * (a * C + b) := by ring

theorem pair_pos_R (a b C : ℕ) : a * (2 * C) + (2 * b + 1) = 2 * (a * C + b) + 1 := by ring

theorem step_lvl (R C n t : ℕ) (tree : ℕ → EReal) (ind : ℕ → ℕ) (vals : ℕ → EReal)
    (x m : (⟨2, ![R, 2 * C]⟩ : Shape).Idx → EReal) (o : (⟨2, ![R, C]⟩ : Shape).Idx → EReal)
    (hx : x = fun i => kLvl 23 n tree ind vals t ((i 0).val * (2 * C) + (i 1).val))
    (hm : m = fun i => kMsk n ind t ((i 0).val * (2 * C) + (i 1).val))
    (off : ℕ) (hoff : 2 ^ (23 - t - 1) = off)
    (ho : o = fun i => tree (off + ((i 0).val * C + (i 1).val))) :
    SegStep.pairLvl R C x m o = fun i => kLvl 23 n tree ind vals (t + 1) ((i 0).val * C + (i 1).val) := by
  subst hx hm ho hoff
  funext i
  rw [kLvl_succ_apply, ← pair_pos_L]
  rfl

theorem step_msk (R C n t : ℕ) (ind : ℕ → ℕ)
    (m : (⟨2, ![R, 2 * C]⟩ : Shape).Idx → EReal)
    (hm : m = fun i => kMsk n ind t ((i 0).val * (2 * C) + (i 1).val)) :
    SegStep.pairMsk R C m = fun i => kMsk n ind (t + 1) ((i 0).val * C + (i 1).val) := by
  subst hm
  funext i
  rw [kMsk_succ_apply, ← pair_pos_L]
  rfl

theorem foldSet_congr {α : Type} (x : ℕ → α) (tgt tgt' : ℕ → ℕ) (upd upd' : ℕ → α) (len : ℕ)
    (ht : ∀ n, n < len → tgt n = tgt' n) (hu : ∀ n, n < len → upd n = upd' n) :
    foldSet x tgt upd len = foldSet x tgt' upd' len := by
  induction len with
  | zero => rfl
  | succ k ih =>
    rw [foldSet_succ, foldSet_succ, ih (fun n hn => ht n (Nat.lt_succ_of_lt hn)) (fun n hn => hu n (Nat.lt_succ_of_lt hn)),
      ht k (Nat.lt_succ_self k), hu k (Nat.lt_succ_self k)]

theorem ofFin_eq_ix1 {n : ℕ} (k : Fin n) : Shape.Idx.ofFin k = ix1 k := by
  funext a
  have ha : a = 0 := Subsingleton.elim _ _
  subst ha
  rfl

theorem wrapped_col (idx zero len : IVec SUpd 32)
    (hrange : ∀ k : Fin 1048576, (idx (ix1 k)).toNat < 8388608) (hz : ∀ i, zero i = 0#32)
    (hb : SUpd.BroadcastsInDim ⟨2, ![1048576, 1]⟩ ![0]) (k : Fin 1048576) :
    broadcastInDim ⟨2, ![1048576, 1]⟩ ![0] hb (select (cmpi .slt idx zero) (addi idx len) idx) (ixP k) = idx (ix1 k) := by
  rw [bcast_col1, ofFin_eq_ix1]
  exact SegOps.wrap_apply idx zero len (ix1 k) (by have := hrange k; omega) (hz _)

theorem leaves_apply
    (d : ScatterDims ⟨1, ![8388608]⟩ ⟨2, ![1048576, 1]⟩ ⟨1, ![1048576]⟩)
    (huw : d.updateWindowDims = []) (hiw : d.insertedWindowDims = [0]) (hsd : d.scatterDimsToOperandDims = [0])
    (hiv : d.indexVectorDim = 1)
    (tree : FVec Ideal STree .f32) (idx zero len : IVec SUpd 32) (vals : FVec Ideal SUpd .f32)
    (hrange : ∀ k : Fin 1048576, (idx (ix1 k)).toNat < 8388608) (hz : ∀ i, zero i = 0#32)
    (hs : STree.Slices ![8388608] ⟨1, ![8388608]⟩)
    (hb : SUpd.BroadcastsInDim ⟨2, ![1048576, 1]⟩ ![0]) :
    Host.scatter d (fun _ b => b) (extractStridedSlice ⟨1, ![8388608]⟩ ![8388608] tree hs)
        (broadcastInDim ⟨2, ![1048576, 1]⟩ ![0] hb (select (cmpi .slt idx zero) (addi idx len) idx)) vals
      = fun i => kLvl 23 1048576 (ofVec tree) (indOf idx) (ofVec vals) 0 (i 0).val := by
  funext i
  have hcol := wrapped_col idx zero len hrange hz hb
  have hin : ∀ k : Fin 1048576,
      0 ≤ (broadcastInDim ⟨2, ![1048576, 1]⟩ ![0] hb (select (cmpi .slt idx zero) (addi idx len) idx) (ixP k)).toInt ∧
      (broadcastInDim ⟨2, ![1048576, 1]⟩ ![0] hb (select (cmpi .slt idx zero) (addi idx len) idx) (ixP k)).toInt < (8388608 : ℕ) := by
    intro k
    rw [hcol k, SegOps.toInt_of_small _ (by have := hrange k; omega)]
    have := hrange k
    omega
  rw [SegOps.scatterSet_apply d huw hiw hsd hiv _ _ _ hin 0 i]
  show foldSet _ _ _ 1048576 (i 0).val
    = foldSet (fun q => ofVec tree (2 ^ 23 + q)) (indOf idx) (ofVec vals) 1048576 (i 0).val
  have e1 : (fun p => if h : p < 8388608 then
        extractStridedSlice ⟨1, ![8388608]⟩ ![8388608] tree hs (ix1 ⟨p, h⟩) else 0)
      = fun q => ofVec tree (2 ^ 23 + q) := by
    funext p
    by_cases h : p < 8388608
    · rw [dif_pos h, slice_apply]
      rfl
    · rw [dif_neg h]
      unfold ofVec
      rw [dif_neg (by omega)]
  rw [e1]
  refine congrFun (foldSet_congr _ _ _ _ _ _ ?_ ?_) _
  · intro n hn
    unfold indOf
    rw [dif_pos hn, dif_pos hn, hcol]
  · intro n hn
    rfl

theorem mask_apply
    (d : ScatterDims ⟨1, ![8388608]⟩ ⟨2, ![1048576, 1]⟩ ⟨1, ![1048576]⟩)
    (huw : d.updateWindowDims = []) (hiw : d.insertedWindowDims = [0]) (hsd : d.scatterDimsToOperandDims = [0])
    (hiv : d.indexVectorDim = 1)
    (idx zero len : IVec SUpd 32)
    (hrange : ∀ k : Fin 1048576, (idx (ix1 k)).toNat < 8388608) (hz : ∀ i, zero i = 0#32)
    (zeros : FVec Ideal ⟨1, ![8388608]⟩ .f32) (ones : FVec Ideal SUpd .f32)
    (h0 : ∀ i, zeros i = 0) (h1 : ∀ i, ones i = 1)
    (hb : SUpd.BroadcastsInDim ⟨2, ![1048576, 1]⟩ ![0]) :
    Host.scatter d (fun _ b => b) zeros
        (broadcastInDim ⟨2, ![1048576, 1]⟩ ![0] hb (select (cmpi .slt idx zero) (addi idx len) idx)) ones
      = fun i => kMsk 1048576 (indOf idx) 0 (i 0).val := by
  funext i
  have hcol := wrapped_col idx zero len hrange hz hb
  have hin : ∀ k : Fin 1048576,
      0 ≤ (broadcastInDim ⟨2, ![1048576, 1]⟩ ![0] hb (select (cmpi .slt idx zero) (addi idx len) idx) (ixP k)).toInt ∧
      (broadcastInDim ⟨2, ![1048576, 1]⟩ ![0] hb (select (cmpi .slt idx zero) (addi idx len) idx) (ixP k)).toInt < (8388608 : ℕ) := by
    intro k
    rw [hcol k, SegOps.toInt_of_small _ (by have := hrange k; omega)]
    have := hrange k
    omega
  rw [SegOps.scatterSet_apply d huw hiw hsd hiv _ _ _ hin 0 i]
  show foldSet _ _ _ 1048576 (i 0).val
    = foldSet (fun _ => (0 : EReal)) (indOf idx) (fun _ => (1 : EReal)) 1048576 (i 0).val
  have e1 : (fun p => if h : p < 8388608 then zeros (ix1 ⟨p, h⟩) else 0) = fun _ => (0 : EReal) := by
    funext p
    by_cases h : p < 8388608
    · rw [dif_pos h]; exact h0 _
    · rw [dif_neg h]
  rw [e1]
  refine congrFun (foldSet_congr _ _ _ _ _ _ ?_ ?_) _
  · intro n hn
    unfold indOf
    rw [dif_pos hn, dif_pos hn, hcol]
  · intro n hn
    rw [dif_pos hn]
    exact h1 _

section Head

variable (m : (ℓ : Loc nD τ sig) → Buf (Elt Ideal) ℓ)

abbrev hTree (c : Dev nD) : ℕ → EReal := ofVec (m ((c.tc : Thread nD τ).loc main_arg0) : FVec Ideal STree .f32)

abbrev hInd (c : Dev nD) : ℕ → ℕ := indOf (m ((c.tc : Thread nD τ).loc main_arg1))

abbrev hVals (c : Dev nD) : ℕ → EReal := ofVec (m ((c.tc : Thread nD τ).loc main_arg2) : FVec Ideal SUpd .f32)

set_option maxHeartbeats 600000 in

theorem head_leaves (c : Dev nD) (hrange : ∀ k : Fin 1048576, ((m ((c.tc : Thread nD τ).loc main_arg1)) (ValueIdx.ix1 k)).toNat < 8388608) :
    (W1 m c (Proc.devRef .tc main_v7) : S8388608.Idx → EReal)
      = fun i => kLvl 23 1048576 (hTree m c) (hInd m c) (hVals m c) 0 (i 0).val := by
  dsimp only [W1, W0]
  after_results
  exact leaves_apply scatter_S8388608_S1048576x1_S1048576_n_0_0_1 rfl rfl rfl rfl
    (m (c, Proc.devRef .tc main_arg0)) (m (c, Proc.devRef .tc main_arg1)) (broadcastInDim S1048576 ![] bcast_S_S1048576 (constantI S_ 32 0#32))
    (broadcastInDim S1048576 ![] bcast_S_S1048576 (constantI S_ 32 8388608#32)) (m (c, Proc.devRef .tc main_arg2))
    hrange (fun _ => rfl) slices_S16777216_S8388608_8388608 bcast_S1048576_S1048576x1_0

set_option maxHeartbeats 600000 in

theorem head_mask0 (c : Dev nD) (hrange : ∀ k : Fin 1048576, ((m ((c.tc : Thread nD τ).loc main_arg1)) (ValueIdx.ix1 k)).toNat < 8388608) :
    (W1 m c (Proc.devRef .tc main_v16) : S8388608.Idx → EReal)
      = fun i => kMsk 1048576 (hInd m c) 0 (i 0).val := by
  dsimp only [W1, W0]
  after_results
  exact mask_apply scatter_S8388608_S1048576x1_S1048576_n_0_0_1 rfl rfl rfl rfl
    (m (c, Proc.devRef .tc main_arg1)) (broadcastInDim S1048576 ![] bcast_S_S1048576 (constantI S_ 32 0#32))
    (broadcastInDim S1048576 ![] bcast_S_S1048576 (constantI S_ 32 8388608#32)) hrange (fun _ => rfl)
    (broadcastInDim S8388608 ![] bcast_S_S8388608 (constant (F := Ideal) S_ .f32 0x00000000#32))
    (broadcastInDim S1048576 ![] bcast_S_S1048576 (constant (F := Ideal) S_ .f32 0x3F800000#32))
    (fun _ => Ideal.ofBits_zero_f32) (fun _ => Ideal.ofBits_one_f32) bcast_S1048576_S1048576x1_0

set_option maxHeartbeats 600000 in

theorem in_lvl_0 (c : Dev nD) (hrange : ∀ k : Fin 1048576, ((m ((c.tc : Thread nD τ).loc main_arg1)) (ValueIdx.ix1 k)).toNat < 8388608) :
    (W1 m c (Proc.devRef .tc main_v17) : S65536x128.Idx → EReal)
      = fun i => kLvl 23 1048576 (hTree m c) (hInd m c) (hVals m c) 0 ((i 0).val * 128 + (i 1).val) := by
  dsimp only [W1, W0]
  after_results
  rw [leaves_apply scatter_S8388608_S1048576x1_S1048576_n_0_0_1 rfl rfl rfl rfl
    (m (c, Proc.devRef .tc main_arg0)) (m (c, Proc.devRef .tc main_arg1)) (broadcastInDim S1048576 ![] bcast_S_S1048576 (constantI S_ 32 0#32))
    (broadcastInDim S1048576 ![] bcast_S_S1048576 (constantI S_ 32 8388608#32)) (m (c, Proc.devRef .tc main_arg2))
    hrange (fun _ => rfl) slices_S16777216_S8388608_8388608 bcast_S1048576_S1048576x1_0]
  exact unflat_apply (N := 8388608) (R := 65536) (C := 128) rfl (fun p => kLvl 23 1048576 (hTree m c) (hInd m c) (hVals m c) 0 p) _

set_option maxHeartbeats 600000 in

theorem in_msk_0 (c : Dev nD) (hrange : ∀ k : Fin 1048576, ((m ((c.tc : Thread nD τ).loc main_arg1)) (ValueIdx.ix1 k)).toNat < 8388608) :
    (W1 m c (Proc.devRef .tc main_v18) : S65536x128.Idx → EReal)
      = fun i => kMsk 1048576 (hInd m c) 0 ((i 0).val * 128 + (i 1).val) := by
  dsimp only [W1, W0]
  after_results
  rw [mask_apply scatter_S8388608_S1048576x1_S1048576_n_0_0_1 rfl rfl rfl rfl
    (m (c, Proc.devRef .tc main_arg1)) (broadcastInDim S1048576 ![] bcast_S_S1048576 (constantI S_ 32 0#32))
    (broadcastInDim S1048576 ![] bcast_S_S1048576 (constantI S_ 32 8388608#32)) hrange (fun _ => rfl)
    (broadcastInDim S8388608 ![] bcast_S_S8388608 (constant (F := Ideal) S_ .f32 0x00000000#32))
    (broadcastInDim S1048576 ![] bcast_S_S1048576 (constant (F := Ideal) S_ .f32 0x3F800000#32))
    (fun _ => Ideal.ofBits_zero_f32) (fun _ => Ideal.ofBits_one_f32) bcast_S1048576_S1048576x1_0]
  exact unflat_apply (N := 8388608) (R := 65536) (C := 128) rfl (fun p => kMsk 1048576 (hInd m c) 0 p) _

theorem in_orig_0 (c : Dev nD) :
    (W1 m c (Proc.devRef .tc main_v20) : S65536x64.Idx → EReal)
      = fun i => hTree m c (4194304 + ((i 0).val * 64 + (i 1).val)) := by
  dsimp only [W1, W0]
  after_results
  rw [slice_apply]
  exact unflat_apply (N := 4194304) (R := 65536) (C := 64) rfl (fun p => hTree m c (4194304 + p)) _

theorem head_lvl_0 (c : Dev nD) (hrange : ∀ k : Fin 1048576, ((m ((c.tc : Thread nD τ).loc main_arg1)) (ValueIdx.ix1 k)).toNat < 8388608) :
    (W2 m c (Proc.devRef .tc main_v21_0) : S65536x64.Idx → EReal)
      = fun i => kLvl 23 1048576 (hTree m c) (hInd m c) (hVals m c) 1 ((i 0).val * 64 + (i 1).val) := by
  refine (W2_arr m c 3).trans ?_
  rw [lvl0]
  exact step_lvl 65536 64 1048576 0 (hTree m c) (hInd m c) (hVals m c) _ _ _
    (in_lvl_0 m c hrange) (in_msk_0 m c hrange) 4194304 rfl (in_orig_0 m c)

theorem head_msk_0 (c : Dev nD) (hrange : ∀ k : Fin 1048576, ((m ((c.tc : Thread nD τ).loc main_arg1)) (ValueIdx.ix1 k)).toNat < 8388608) :
    (W2 m c (Proc.devRef .tc main_v21_1) : S65536x64.Idx → EReal)
      = fun i => kMsk 1048576 (hInd m c) 1 ((i 0).val * 64 + (i 1).val) := by
  refine (W2_arr m c 4).trans ?_
  rw [msk0]
  exact step_msk 65536 64 1048576 0 (hInd m c) _ (in_msk_0 m c hrange)

theorem head_flat_0 (c : Dev nD) (hrange : ∀ k : Fin 1048576, ((m ((c.tc : Thread nD τ).loc main_arg1)) (ValueIdx.ix1 k)).toNat < 8388608) :
    (W3 m c (Proc.devRef .tc main_v22) : S4194304.Idx → EReal)
      = fun i => kLvl 23 1048576 (hTree m c) (hInd m c) (hVals m c) 1 (i 0).val := by
  dsimp only [W3]
  after_results
  rw [head_lvl_0 m c hrange]
  exact flat_apply (N := 4194304) (R := 65536) (C := 64) rfl (by norm_num) (fun p => kLvl 23 1048576 (hTree m c) (hInd m c) (hVals m c) 1 p) _

theorem in_orig_1 (c : Dev nD) :
    (W3 m c (Proc.devRef .tc main_v24) : S65536x32.Idx → EReal)
      = fun i => hTree m c (2097152 + ((i 0).val * 32 + (i 1).val)) := by
  dsimp only [W3]
  after_results
  rw [arg0_W2 m c]
  rw [slice_apply]
  exact unflat_apply (N := 2097152) (R := 65536) (C := 32) rfl (fun p => hTree m c (2097152 + p)) _

theorem in_lvl_1 (c : Dev nD) (hrange : ∀ k : Fin 1048576, ((m ((c.tc : Thread nD τ).loc main_arg1)) (ValueIdx.ix1 k)).toNat < 8388608) :
    (W3 m c (Proc.devRef .tc main_v21_0) : S65536x64.Idx → EReal)
      = fun i => kLvl 23 1048576 (hTree m c) (hInd m c) (hVals m c) 1 ((i 0).val * 64 + (i 1).val) := by
  dsimp only [W3]
  after_results
  exact head_lvl_0 m c hrange

theorem in_msk_1 (c : Dev nD) (hrange : ∀ k : Fin 1048576, ((m ((c.tc : Thread nD τ).loc main_arg1)) (ValueIdx.ix1 k)).toNat < 8388608) :
    (W3 m c (Proc.devRef .tc main_v21_1) : S65536x64.Idx → EReal)
      = fun i => kMsk 1048576 (hInd m c) 1 ((i 0).val * 64 + (i 1).val) := by
  dsimp only [W3]
  after_results
  exact head_msk_0 m c hrange

theorem head_lvl_1 (c : Dev nD) (hrange : ∀ k : Fin 1048576, ((m ((c.tc : Thread nD τ).loc main_arg1)) (ValueIdx.ix1 k)).toNat < 8388608) :
    (W4 m c (Proc.devRef .tc main_v25_0) : S65536x32.Idx → EReal)
      = fun i => kLvl 23 1048576 (hTree m c) (hInd m c) (hVals m c) 2 ((i 0).val * 32 + (i 1).val) := by
  refine (W4_arr m c 3).trans ?_
  rw [lvl1]
  exact step_lvl 65536 32 1048576 1 (hTree m c) (hInd m c) (hVals m c) _ _ _
    (in_lvl_1 m c hrange) (in_msk_1 m c hrange) 2097152 rfl (in_orig_1 m c)

theorem head_msk_1 (c : Dev nD) (hrange : ∀ k : Fin 1048576, ((m ((c.tc : Thread nD τ).loc main_arg1)) (ValueIdx.ix1 k)).toNat < 8388608) :
    (W4 m c (Proc.devRef .tc main_v25_1) : S65536x32.Idx → EReal)
      = fun i => kMsk 1048576 (hInd m c) 2 ((i 0).val * 32 + (i 1).val) := by
  refine (W4_arr m c 4).trans ?_
  rw [msk1]
  exact step_msk 65536 32 1048576 1 (hInd m c) _ (in_msk_1 m c hrange)

theorem head_flat_1 (c : Dev nD) (hrange : ∀ k : Fin 1048576, ((m ((c.tc : Thread nD τ).loc main_arg1)) (ValueIdx.ix1 k)).toNat < 8388608) :
    (W5 m c (Proc.devRef .tc main_v26) : S2097152.Idx → EReal)
      = fun i => kLvl 23 1048576 (hTree m c) (hInd m c) (hVals m c) 2 (i 0).val := by
  dsimp only [W5]
  after_results
  rw [head_lvl_1 m c hrange]
  exact flat_apply (N := 2097152) (R := 65536) (C := 32) rfl (by norm_num) (fun p => kLvl 23 1048576 (hTree m c) (hInd m c) (hVals m c) 2 p) _

theorem in_orig_2 (c : Dev nD) :
    (W5 m c (Proc.devRef .tc main_v28) : S65536x16.Idx → EReal)
      = fun i => hTree m c (1048576 + ((i 0).val * 16 + (i 1).val)) := by
  dsimp only [W5]
  after_results
  rw [arg0_W4 m c]
  rw [slice_apply]
  exact unflat_apply (N := 1048576) (R := 65536) (C := 16) rfl (fun p => hTree m c (1048576 + p)) _

theorem in_lvl_2 (c : Dev nD) (hrange : ∀ k : Fin 1048576, ((m ((c.tc : Thread nD τ).loc main_arg1)) (ValueIdx.ix1 k)).toNat < 8388608) :
    (W5 m c (Proc.devRef .tc main_v25_0) : S65536x32.Idx → EReal)
      = fun i => kLvl 23 1048576 (hTree m c) (hInd m c) (hVals m c) 2 ((i 0).val * 32 + (i 1).val) := by
  dsimp only [W5]
  after_results
  exact head_lvl_1 m c hrange

theorem in_msk_2 (c : Dev nD) (hrange : ∀ k : Fin 1048576, ((m ((c.tc : Thread nD τ).loc main_arg1)) (ValueIdx.ix1 k)).toNat < 8388608) :
    (W5 m c (Proc.devRef .tc main_v25_1) : S65536x32.Idx → EReal)
      = fun i => kMsk 1048576 (hInd m c) 2 ((i 0).val * 32 + (i 1).val) := by
  dsimp only [W5]
  after_results
  exact head_msk_1 m c hrange

theorem head_lvl_2 (c : Dev nD) (hrange : ∀ k : Fin 1048576, ((m ((c.tc : Thread nD τ).loc main_arg1)) (ValueIdx.ix1 k)).toNat < 8388608) :
    (W6 m c (Proc.devRef .tc main_v29_0) : S65536x16.Idx → EReal)
      = fun i => kLvl 23 1048576 (hTree m c) (hInd m c) (hVals m c) 3 ((i 0).val * 16 + (i 1).val) := by
  refine (W6_arr m c 3).trans ?_
  rw [lvl2]
  exact step_lvl 65536 16 1048576 2 (hTree m c) (hInd m c) (hVals m c) _ _ _
    (in_lvl_2 m c hrange) (in_msk_2 m c hrange) 1048576 rfl (in_orig_2 m c)

theorem head_msk_2 (c : Dev nD) (hrange : ∀ k : Fin 1048576, ((m ((c.tc : Thread nD τ).loc main_arg1)) (ValueIdx.ix1 k)).toNat < 8388608) :
    (W6 m c (Proc.devRef .tc main_v29_1) : S65536x16.Idx → EReal)
      = fun i => kMsk 1048576 (hInd m c) 3 ((i 0).val * 16 + (i 1).val) := by
  refine (W6_arr m c 4).trans ?_
  rw [msk2]
  exact step_msk 65536 16 1048576 2 (hInd m c) _ (in_msk_2 m c hrange)

theorem head_flat_2 (c : Dev nD) (hrange : ∀ k : Fin 1048576, ((m ((c.tc : Thread nD τ).loc main_arg1)) (ValueIdx.ix1 k)).toNat < 8388608) :
    (W7 m c (Proc.devRef .tc main_v30) : S1048576.Idx → EReal)
      = fun i => kLvl 23 1048576 (hTree m c) (hInd m c) (hVals m c) 3 (i 0).val := by
  dsimp only [W7]
  after_results
  rw [head_lvl_2 m c hrange]
  exact flat_apply (N := 1048576) (R := 65536) (C := 16) rfl (by norm_num) (fun p => kLvl 23 1048576 (hTree m c) (hInd m c) (hVals m c) 3 p) _

theorem in_orig_3 (c : Dev nD) :
    (W7 m c (Proc.devRef .tc main_v32) : S65536x8.Idx → EReal)
      = fun i => hTree m c (524288 + ((i 0).val * 8 + (i 1).val)) := by
  dsimp only [W7]
  after_results
  rw [arg0_W6 m c]
  rw [slice_apply]
  exact unflat_apply (N := 524288) (R := 65536) (C := 8) rfl (fun p => hTree m c (524288 + p)) _

theorem in_lvl_3 (c : Dev nD) (hrange : ∀ k : Fin 1048576, ((m ((c.tc : Thread nD τ).loc main_arg1)) (ValueIdx.ix1 k)).toNat < 8388608) :
    (W7 m c (Proc.devRef .tc main_v29_0) : S65536x16.Idx → EReal)
      = fun i => kLvl 23 1048576 (hTree m c) (hInd m c) (hVals m c) 3 ((i 0).val * 16 + (i 1).val) := by
  dsimp only [W7]
  after_results
  exact head_lvl_2 m c hrange

theorem in_msk_3 (c : Dev nD) (hrange : ∀ k : Fin 1048576, ((m ((c.tc : Thread nD τ).loc main_arg1)) (ValueIdx.ix1 k)).toNat < 8388608) :
    (W7 m c (Proc.devRef .tc main_v29_1) : S65536x16.Idx → EReal)
      = fun i => kMsk 1048576 (hInd m c) 3 ((i 0).val * 16 + (i 1).val) := by
  dsimp only [W7]
  after_results
  exact head_msk_2 m c hrange

theorem head_lvl_3 (c : Dev nD) (hrange : ∀ k : Fin 1048576, ((m ((c.tc : Thread nD τ).loc main_arg1)) (ValueIdx.ix1 k)).toNat < 8388608) :
    (W8 m c (Proc.devRef .tc main_v33_0) : S65536x8.Idx → EReal)
      = fun i => kLvl 23 1048576 (hTree m c) (hInd m c) (hVals m c) 4 ((i 0).val * 8 + (i 1).val) := by
  refine (W8_arr m c 3).trans ?_
  rw [lvl3]
  exact step_lvl 65536 8 1048576 3 (hTree m c) (hInd m c) (hVals m c) _ _ _
    (in_lvl_3 m c hrange) (in_msk_3 m c hrange) 524288 rfl (in_orig_3 m c)

theorem head_msk_3 (c : Dev nD) (hrange : ∀ k : Fin 1048576, ((m ((c.tc : Thread nD τ).loc main_arg1)) (ValueIdx.ix1 k)).toNat < 8388608) :
    (W8 m c (Proc.devRef .tc main_v33_1) : S65536x8.Idx → EReal)
      = fun i => kMsk 1048576 (hInd m c) 4 ((i 0).val * 8 + (i 1).val) := by
  refine (W8_arr m c 4).trans ?_
  rw [msk3]
  exact step_msk 65536 8 1048576 3 (hInd m c) _ (in_msk_3 m c hrange)

theorem head_flat_3 (c : Dev nD) (hrange : ∀ k : Fin 1048576, ((m ((c.tc : Thread nD τ).loc main_arg1)) (ValueIdx.ix1 k)).toNat < 8388608) :
    (W9 m c (Proc.devRef .tc main_v34) : S524288.Idx → EReal)
      = fun i => kLvl 23 1048576 (hTree m c) (hInd m c) (hVals m c) 4 (i 0).val := by
  dsimp only [W9]
  after_results
  rw [head_lvl_3 m c hrange]
  exact flat_apply (N := 524288) (R := 65536) (C := 8) rfl (by norm_num) (fun p => kLvl 23 1048576 (hTree m c) (hInd m c) (hVals m c) 4 p) _

theorem in_orig_4 (c : Dev nD) :
    (W9 m c (Proc.devRef .tc main_v36) : S65536x4.Idx → EReal)
      = fun i => hTree m c (262144 + ((i 0).val * 4 + (i 1).val)) := by
  dsimp only [W9]
  after_results
  rw [arg0_W8 m c]
  rw [slice_apply]
  exact unflat_apply (N := 262144) (R := 65536) (C := 4) rfl (fun p => hTree m c (262144 + p)) _

theorem in_lvl_4 (c : Dev nD) (hrange : ∀ k : Fin 1048576, ((m ((c.tc : Thread nD τ).loc main_arg1)) (ValueIdx.ix1 k)).toNat < 8388608) :
    (W9 m c (Proc.devRef .tc main_v33_0) : S65536x8.Idx → EReal)
      = fun i => kLvl 23 1048576 (hTree m c) (hInd m c) (hVals m c) 4 ((i 0).val * 8 + (i 1).val) := by
  dsimp only [W9]
  after_results
  exact head_lvl_3 m c hrange

theorem in_msk_4 (c : Dev nD) (hrange : ∀ k : Fin 1048576, ((m ((c.tc : Thread nD τ).loc main_arg1)) (ValueIdx.ix1 k)).toNat < 8388608) :
    (W9 m c (Proc.devRef .tc main_v33_1) : S65536x8.Idx → EReal)
      = fun i => kMsk 1048576 (hInd m c) 4 ((i 0).val * 8 + (i 1).val) := by
  dsimp only [W9]
  after_results
  exact head_msk_3 m c hrange

theorem head_lvl_4 (c : Dev nD) (hrange : ∀ k : Fin 1048576, ((m ((c.tc : Thread nD τ).loc main_arg1)) (ValueIdx.ix1 k)).toNat < 8388608) :
    (W10 m c (Proc.devRef .tc main_v37_0) : S65536x4.Idx → EReal)
      = fun i => kLvl 23 1048576 (hTree m c) (hInd m c) (hVals m c) 5 ((i 0).val * 4 + (i 1).val) := by
  refine (W10_arr m c 3).trans ?_
  rw [lvl4]
  exact step_lvl 65536 4 1048576 4 (hTree m c) (hInd m c) (hVals m c) _ _ _
    (in_lvl_4 m c hrange) (in_msk_4 m c hrange) 262144 rfl (in_orig_4 m c)

theorem head_msk_4 (c : Dev nD) (hrange : ∀ k : Fin 1048576, ((m ((c.tc : Thread nD τ).loc main_arg1)) (ValueIdx.ix1 k)).toNat < 8388608) :
    (W10 m c (Proc.devRef .tc main_v37_1) : S65536x4.Idx → EReal)
      = fun i => kMsk 1048576 (hInd m c) 5 ((i 0).val * 4 + (i 1).val) := by
  refine (W10_arr m c 4).trans ?_
  rw [msk4]
  exact step_msk 65536 4 1048576 4 (hInd m c) _ (in_msk_4 m c hrange)

theorem head_flat_4 (c : Dev nD) (hrange : ∀ k : Fin 1048576, ((m ((c.tc : Thread nD τ).loc main_arg1)) (ValueIdx.ix1 k)).toNat < 8388608) :
    (W11 m c (Proc.devRef .tc main_v38) : S262144.Idx → EReal)
      = fun i => kLvl 23 1048576 (hTree m c) (hInd m c) (hVals m c) 5 (i 0).val := by
  dsimp only [W11]
  after_results
  rw [head_lvl_4 m c hrange]
  exact flat_apply (N := 262144) (R := 65536) (C := 4) rfl (by norm_num) (fun p => kLvl 23 1048576 (hTree m c) (hInd m c) (hVals m c) 5 p) _

theorem in_orig_5 (c : Dev nD) :
    (W11 m c (Proc.devRef .tc main_v40) : S65536x2.Idx → EReal)
      = fun i => hTree m c (131072 + ((i 0).val * 2 + (i 1).val)) := by
  dsimp only [W11]
  after_results
  rw [arg0_W10 m c]
  rw [slice_apply]
  exact unflat_apply (N := 131072) (R := 65536) (C := 2) rfl (fun p => hTree m c (131072 + p)) _

theorem in_lvl_5 (c : Dev nD) (hrange : ∀ k : Fin 1048576, ((m ((c.tc : Thread nD τ).loc main_arg1)) (ValueIdx.ix1 k)).toNat < 8388608) :
    (W11 m c (Proc.devRef .tc main_v37_0) : S65536x4.Idx → EReal)
      = fun i => kLvl 23 1048576 (hTree m c) (hInd m c) (hVals m c) 5 ((i 0).val * 4 + (i 1).val) := by
  dsimp only [W11]
  after_results
  exact head_lvl_4 m c hrange

theorem in_msk_5 (c : Dev nD) (hrange : ∀ k : Fin 1048576, ((m ((c.tc : Thread nD τ).loc main_arg1)) (ValueIdx.ix1 k)).toNat < 8388608) :
    (W11 m c (Proc.devRef .tc main_v37_1) : S65536x4.Idx → EReal)
      = fun i => kMsk 1048576 (hInd m c) 5 ((i 0).val * 4 + (i 1).val) := by
  dsimp only [W11]
  after_results
  exact head_msk_4 m c hrange

theorem head_lvl_5 (c : Dev nD) (hrange : ∀ k : Fin 1048576, ((m ((c.tc : Thread nD τ).loc main_arg1)) (ValueIdx.ix1 k)).toNat < 8388608) :
    (W12 m c (Proc.devRef .tc main_v41_0) : S65536x2.Idx → EReal)
      = fun i => kLvl 23 1048576 (hTree m c) (hInd m c) (hVals m c) 6 ((i 0).val * 2 + (i 1).val) := by
  refine (W12_arr m c 3).trans ?_
  rw [lvl5]
  exact step_lvl 65536 2 1048576 5 (hTree m c) (hInd m c) (hVals m c) _ _ _
    (in_lvl_5 m c hrange) (in_msk_5 m c hrange) 131072 rfl (in_orig_5 m c)

theorem head_msk_5 (c : Dev nD) (hrange : ∀ k : Fin 1048576, ((m ((c.tc : Thread nD τ).loc main_arg1)) (ValueIdx.ix1 k)).toNat < 8388608) :
    (W12 m c (Proc.devRef .tc main_v41_1) : S65536x2.Idx → EReal)
      = fun i => kMsk 1048576 (hInd m c) 6 ((i 0).val * 2 + (i 1).val) := by
  refine (W12_arr m c 4).trans ?_
  rw [msk5]
  exact step_msk 65536 2 1048576 5 (hInd m c) _ (in_msk_5 m c hrange)

theorem head_flat_5 (c : Dev nD) (hrange : ∀ k : Fin 1048576, ((m ((c.tc : Thread nD τ).loc main_arg1)) (ValueIdx.ix1 k)).toNat < 8388608) :
    (W13 m c (Proc.devRef .tc main_v42) : S131072.Idx → EReal)
      = fun i => kLvl 23 1048576 (hTree m c) (hInd m c) (hVals m c) 6 (i 0).val := by
  dsimp only [W13]
  after_results
  rw [head_lvl_5 m c hrange]
  exact flat_apply (N := 131072) (R := 65536) (C := 2) rfl (by norm_num) (fun p => kLvl 23 1048576 (hTree m c) (hInd m c) (hVals m c) 6 p) _

theorem in_orig_6 (c : Dev nD) :
    (W13 m c (Proc.devRef .tc main_v44) : S65536x1.Idx → EReal)
      = fun i => hTree m c (65536 + ((i 0).val * 1 + (i 1).val)) := by
  dsimp only [W13]
  after_results
  rw [arg0_W12 m c]
  rw [slice_apply]
  exact unflat_apply (N := 65536) (R := 65536) (C := 1) rfl (fun p => hTree m c (65536 + p)) _

theorem in_lvl_6 (c : Dev nD) (hrange : ∀ k : Fin 1048576, ((m ((c.tc : Thread nD τ).loc main_arg1)) (ValueIdx.ix1 k)).toNat < 8388608) :
    (W13 m c (Proc.devRef .tc main_v41_0) : S65536x2.Idx → EReal)
      = fun i => kLvl 23 1048576 (hTree m c) (hInd m c) (hVals m c) 6 ((i 0).val * 2 + (i 1).val) := by
  dsimp only [W13]
  after_results
  exact head_lvl_5 m c hrange

theorem in_msk_6 (c : Dev nD) (hrange : ∀ k : Fin 1048576, ((m ((c.tc : Thread nD τ).loc main_arg1)) (ValueIdx.ix1 k)).toNat < 8388608) :
    (W13 m c (Proc.devRef .tc main_v41_1) : S65536x2.Idx → EReal)
      = fun i => kMsk 1048576 (hInd m c) 6 ((i 0).val * 2 + (i 1).val) := by
  dsimp only [W13]
  after_results
  exact head_msk_5 m c hrange

theorem head_lvl_6 (c : Dev nD) (hrange : ∀ k : Fin 1048576, ((m ((c.tc : Thread nD τ).loc main_arg1)) (ValueIdx.ix1 k)).toNat < 8388608) :
    (W14 m c (Proc.devRef .tc main_v45_0) : S65536x1.Idx → EReal)
      = fun i => kLvl 23 1048576 (hTree m c) (hInd m c) (hVals m c) 7 ((i 0).val * 1 + (i 1).val) := by
  refine (W14_arr m c 3).trans ?_
  rw [lvl6]
  exact step_lvl 65536 1 1048576 6 (hTree m c) (hInd m c) (hVals m c) _ _ _
    (in_lvl_6 m c hrange) (in_msk_6 m c hrange) 65536 rfl (in_orig_6 m c)

theorem head_msk_6 (c : Dev nD) (hrange : ∀ k : Fin 1048576, ((m ((c.tc : Thread nD τ).loc main_arg1)) (ValueIdx.ix1 k)).toNat < 8388608) :
    (W14 m c (Proc.devRef .tc main_v45_1) : S65536x1.Idx → EReal)
      = fun i => kMsk 1048576 (hInd m c) 7 ((i 0).val * 1 + (i 1).val) := by
  refine (W14_arr m c 4).trans ?_
  rw [msk6]
  exact step_msk 65536 1 1048576 6 (hInd m c) _ (in_msk_6 m c hrange)

theorem head_flat_6 (c : Dev nD) (hrange : ∀ k : Fin 1048576, ((m ((c.tc : Thread nD τ).loc main_arg1)) (ValueIdx.ix1 k)).toNat < 8388608) :
    (W15 m c (Proc.devRef .tc main_v46) : S65536.Idx → EReal)
      = fun i => kLvl 23 1048576 (hTree m c) (hInd m c) (hVals m c) 7 (i 0).val := by
  dsimp only [W15]
  after_results
  rw [head_lvl_6 m c hrange]
  exact flat_apply (N := 65536) (R := 65536) (C := 1) rfl (by norm_num) (fun p => kLvl 23 1048576 (hTree m c) (hInd m c) (hVals m c) 7 p) _

theorem head_flat_6' (c : Dev nD) (hrange : ∀ k : Fin 1048576, ((m ((c.tc : Thread nD τ).loc main_arg1)) (ValueIdx.ix1 k)).toNat < 8388608) :
    (W15 m c (Proc.devRef .tc main_v47) : S65536.Idx → EReal)
      = fun i => kLvl 23 1048576 (hTree m c) (hInd m c) (hVals m c) 7 (i 0).val := by
  dsimp only [W15]
  after_results
  rw [head_lvl_6 m c hrange]
  exact flat_apply (N := 65536) (R := 65536) (C := 1) rfl (by norm_num) (fun p => kLvl 23 1048576 (hTree m c) (hInd m c) (hVals m c) 7 p) _

theorem head_flat_msk_6 (c : Dev nD) (hrange : ∀ k : Fin 1048576, ((m ((c.tc : Thread nD τ).loc main_arg1)) (ValueIdx.ix1 k)).toNat < 8388608) :
    (W15 m c (Proc.devRef .tc main_v48) : S65536.Idx → EReal)
      = fun i => kMsk 1048576 (hInd m c) 7 (i 0).val := by
  dsimp only [W15]
  after_results
  rw [head_msk_6 m c hrange]
  exact flat_apply (N := 65536) (R := 65536) (C := 1) rfl (by norm_num) (fun p => kMsk 1048576 (hInd m c) 7 p) _

end Head

end Cert.KernelIdeal.Hand

end
-- ==== Proof.KI.HostStep.lean ====
import proofs.«417949_j89438398972173_1_alg».proof.Proof.KernelMath
import proofs.«417949_j89438398972173_1_alg».proof.Proof.Spec
import Idealize.ShloMosaic.Lib.ValueIdx
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.Hand

open Idealize.ShloMosaic Idealize.ShloMosaic.ValueIdx

section Step
variable {α : Type} {n2 n : ℕ}

theorem col_apply (b : ℕ) (hb : b < 2) (x : (⟨1, ![n2]⟩ : Shape).Idx → α)
    (h1 : (⟨1, ![n2]⟩ : Shape).ShapeCasts ⟨2, ![n, 2]⟩)
    (h2 : (⟨2, ![n, 2]⟩ : Shape).Slices ![0, b] ⟨2, ![n, 1]⟩)
    (h3 : (⟨2, ![n, 1]⟩ : Shape).ShapeCasts ⟨1, ![n]⟩)
    (i : (⟨1, ![n]⟩ : Shape).Idx) (k : Fin n2) (hk : k.val = 2 * (i 0).val + b) :
    shapeCast ⟨1, ![n]⟩ (extractStridedSlice ⟨2, ![n, 1]⟩ ![0, b] (shapeCast ⟨2, ![n, 2]⟩ x h1) h2) h3 i = x (ix1 k) := by
  refine (shapeCast_apply _ h3 i (ix2 (i 0) (0 : Fin 1)) ?_).trans ?_
  · rw [Shape.rowMajor_val_two, Shape.rowMajor_val_one]
    show (i 0).val * 1 + 0 = (i 0).val
    omega
  refine (extractStridedSlice_apply _ _ h2 (ix2 (i 0) (0 : Fin 1)) (ix2 (i 0) ⟨b, hb⟩) ?_).trans ?_
  · intro a
    match a with
    | ⟨0, _⟩ => show (i 0).val = 0 + (i 0).val; omega
    | ⟨1, _⟩ => show b = b + 0; rfl
  refine shapeCast_apply _ h1 (ix2 (i 0) ⟨b, hb⟩) (ix1 k) ?_
  rw [Shape.rowMajor_val_two, Shape.rowMajor_val_one]
  show k.val = (i 0).val * 2 + b
  omega

theorem select_ogt (x y a b : EReal) : Scalar.select (Ideal.cmp .ogt x y) a b = if y < x then a else b := by
  unfold Scalar.select Ideal.cmp
  by_cases h : y < x <;> simp [h]

variable (D nU : ℕ) (tree : ℕ → EReal) (ind : ℕ → ℕ) (vals : ℕ → EReal)

theorem pair_step (t : ℕ) (hn : n2 = 2 * n)
    (lvl msk : FVec Ideal ⟨1, ![n2]⟩ .f32) (orig : FVec Ideal ⟨1, ![n]⟩ .f32)
    (hlvl : lvl = fun i => SegTree.kLvl D nU tree ind vals t (i 0).val)
    (hmsk : msk = fun i => SegTree.kMsk nU ind t (i 0).val)
    (horig : ∀ i, orig i = tree (2 ^ (D - t - 1) + (i 0).val))
    (h1 : (⟨1, ![n2]⟩ : Shape).ShapeCasts ⟨2, ![n, 2]⟩)
    (h20 : (⟨2, ![n, 2]⟩ : Shape).Slices ![0, 0] ⟨2, ![n, 1]⟩)
    (h21 : (⟨2, ![n, 2]⟩ : Shape).Slices ![0, 1] ⟨2, ![n, 1]⟩)
    (h3 : (⟨2, ![n, 1]⟩ : Shape).ShapeCasts ⟨1, ![n]⟩)
    (h5 : (⟨0, ![]⟩ : Shape).BroadcastsInDim ⟨1, ![n]⟩ ![]) :
    (maximumf
        (shapeCast ⟨1, ![n]⟩ (extractStridedSlice ⟨2, ![n, 1]⟩ ![0, 0] (shapeCast ⟨2, ![n, 2]⟩ msk h1) h20) h3)
        (shapeCast ⟨1, ![n]⟩ (extractStridedSlice ⟨2, ![n, 1]⟩ ![0, 1] (shapeCast ⟨2, ![n, 2]⟩ msk h1) h21) h3)
      = fun i => SegTree.kMsk nU ind (t + 1) (i 0).val) ∧
    (select
        (cmpf .ogt
          (maximumf
            (shapeCast ⟨1, ![n]⟩ (extractStridedSlice ⟨2, ![n, 1]⟩ ![0, 0] (shapeCast ⟨2, ![n, 2]⟩ msk h1) h20) h3)
            (shapeCast ⟨1, ![n]⟩ (extractStridedSlice ⟨2, ![n, 1]⟩ ![0, 1] (shapeCast ⟨2, ![n, 2]⟩ msk h1) h21) h3))
          (broadcastInDim ⟨1, ![n]⟩ ![] h5 (constant (F := Ideal) ⟨0, ![]⟩ .f32 0x00000000#32)))
        (addf
          (shapeCast ⟨1, ![n]⟩ (extractStridedSlice ⟨2, ![n, 1]⟩ ![0, 0] (shapeCast ⟨2, ![n, 2]⟩ lvl h1) h20) h3)
          (shapeCast ⟨1, ![n]⟩ (extractStridedSlice ⟨2, ![n, 1]⟩ ![0, 1] (shapeCast ⟨2, ![n, 2]⟩ lvl h1) h21) h3))
        orig
      = fun i => SegTree.kLvl D nU tree ind vals (t + 1) (i 0).val) := by
  have hcol : ∀ (b : ℕ) (hb : b < 2) (x : FVec Ideal ⟨1, ![n2]⟩ .f32) (f : ℕ → EReal) (hx : x = fun i => f (i 0).val)
      (h2 : (⟨2, ![n, 2]⟩ : Shape).Slices ![0, b] ⟨2, ![n, 1]⟩) (i : (⟨1, ![n]⟩ : Shape).Idx),
      shapeCast ⟨1, ![n]⟩ (extractStridedSlice ⟨2, ![n, 1]⟩ ![0, b] (shapeCast ⟨2, ![n, 2]⟩ x h1) h2) h3 i
        = f (2 * (i 0).val + b) := by
    intro b hb x f hx h2 i
    have hi : (i 0).val < n := (i 0).isLt
    rw [col_apply b hb x h1 h2 h3 i ⟨2 * (i 0).val + b, by omega⟩ rfl, hx]
    rfl
  have hM : ∀ i : (⟨1, ![n]⟩ : Shape).Idx, maximumf
        (shapeCast ⟨1, ![n]⟩ (extractStridedSlice ⟨2, ![n, 1]⟩ ![0, 0] (shapeCast ⟨2, ![n, 2]⟩ msk h1) h20) h3)
        (shapeCast ⟨1, ![n]⟩ (extractStridedSlice ⟨2, ![n, 1]⟩ ![0, 1] (shapeCast ⟨2, ![n, 2]⟩ msk h1) h21) h3) i
      = max (SegTree.kMsk nU ind t (2 * (i 0).val)) (SegTree.kMsk nU ind t (2 * (i 0).val + 1)) := by
    intro i
    rw [maximumf_apply, hcol 0 (by omega) msk _ hmsk h20 i, hcol 1 (by omega) msk _ hmsk h21 i]
    rfl
  refine ⟨?_, ?_⟩
  · funext i
    rw [hM i, SegTree.kMsk_succ_eq_max]
  · funext i
    rw [select_apply, cmpf_apply, hM i, addf_apply, hcol 0 (by omega) lvl _ hlvl h20 i, hcol 1 (by omega) lvl _ hlvl h21 i,
      broadcastInDim_scalar_apply, constant_apply, Ideal.ofBits_zero_f32]
    show Scalar.select (Ideal.cmp .ogt _ 0) _ _ = _
    rw [select_ogt, SegTree.kLvl_succ_apply, horig i]
    by_cases hc : 0 < SegTree.kMsk nU ind t (2 * (i 0).val) + SegTree.kMsk nU ind t (2 * (i 0).val + 1)
    · rw [if_pos hc, if_pos ((SegTree.kMsk_max_pos_iff nU ind t (i 0).val).mpr hc)]
      rfl
    · rw [if_neg hc, if_neg (fun h => hc ((SegTree.kMsk_max_pos_iff nU ind t (i 0).val).mp h))]

end Step

section Reads
variable {α : Type}

theorem slice1_apply {N n : ℕ} (o : ℕ) (x : (⟨1, ![N]⟩ : Shape).Idx → α)
    (h : (⟨1, ![N]⟩ : Shape).Slices ![o] ⟨1, ![n]⟩) (i : (⟨1, ![n]⟩ : Shape).Idx) (k : Fin N) (hk : k.val = o + (i 0).val) :
    extractStridedSlice ⟨1, ![n]⟩ ![o] x h i = x (ix1 k) := by
  refine extractStridedSlice_apply _ _ h i (ix1 k) ?_
  intro a
  match a with
  | ⟨0, _⟩ => exact hk

theorem flat_eq {n : ℕ} (x : (⟨2, ![n, 1]⟩ : Shape).Idx → α) (f : ℕ → α)
    (hx : x = fun i => f ((i 0).val * 1 + (i 1).val))
    (h : (⟨2, ![n, 1]⟩ : Shape).ShapeCasts ⟨1, ![n]⟩) :
    shapeCast ⟨1, ![n]⟩ x h = fun i => f (i 0).val := by
  funext i
  rw [shapeCast_apply x h i (ix2 (i 0) (0 : Fin 1)) (by
    rw [Shape.rowMajor_val_two, Shape.rowMajor_val_one]
    show (i 0).val * 1 + 0 = (i 0).val
    omega), hx]
  show f ((i 0).val * 1 + 0) = f (i 0).val
  rw [Nat.mul_one, Nat.add_zero]

theorem orig_apply {n : ℕ} (t : ℕ) (hn : n = 2 ^ (23 - t - 1)) (hN : 2 * n ≤ 16777216)
    (treeArr : FVec Ideal SegTree.STree .f32) (h : SegTree.STree.Slices ![n] ⟨1, ![n]⟩) (i : (⟨1, ![n]⟩ : Shape).Idx) :
    extractStridedSlice ⟨1, ![n]⟩ ![n] treeArr h i = SegTree.ofVec treeArr (2 ^ (23 - t - 1) + (i 0).val) := by
  have hi : (i 0).val < n := (i 0).isLt
  rw [slice1_apply n treeArr h i ⟨n + (i 0).val, by omega⟩ rfl, ← hn]
  unfold SegTree.ofVec
  rw [dif_pos (show n + (i 0).val < 16777216 by omega)]

end Reads

end Cert.KernelIdeal.Hand
end
-- ==== Proof.KI.HostTail1.lean ====
import proofs.«417949_j89438398972173_1_alg».proof.Proof.KI.HostStep
import proofs.«417949_j89438398972173_1_alg».proof.Proof.KernelIdealRegions

noncomputable section

namespace Cert.KernelIdeal.Hand

open Cert.KernelIdeal Cert.KernelIdeal.Gen
open Idealize.ShloMosaic Idealize.ShloMosaic.TcCoe Idealize.ShloMosaic.ValueIdx

set_option maxHeartbeats 4000000 in

theorem step_8 (ind : ℕ → ℕ) (vals : ℕ → EReal) (V : Valuation τ sig (Elt Ideal)) (treeArr : FVec Ideal SegTree.STree .f32)
    (ha : (V main_arg0 : S16777216.Idx → EReal) = treeArr)
    (hl : (V main_v45_0 : S65536x1.Idx → EReal) = fun i => SegTree.kLvl 23 1048576 (SegTree.ofVec treeArr) ind vals 7 ((i 0).val * 1 + (i 1).val))
    (hm : (V main_v45_1 : S65536x1.Idx → EReal) = fun i => SegTree.kMsk 1048576 ind 7 ((i 0).val * 1 + (i 1).val)) :
    ((StableHlo.after hostOps7_1 (StableHlo.after hostOps7 V) main_v64 : S32768.Idx → EReal)
        = fun i => SegTree.kLvl 23 1048576 (SegTree.ofVec treeArr) ind vals 8 (i 0).val) ∧
    ((StableHlo.after hostOps7_1 (StableHlo.after hostOps7 V) main_v61 : S32768.Idx → EReal)
        = fun i => SegTree.kMsk 1048576 ind 8 (i 0).val) ∧
    ((StableHlo.after hostOps7_1 (StableHlo.after hostOps7 V) main_arg0 : S16777216.Idx → EReal) = treeArr) := by
  have horig : ∀ i : S32768.Idx,
      extractStridedSlice S32768 ![32768] (V main_arg0 : S16777216.Idx → EReal) slices_S16777216_S32768_32768 i
        = SegTree.ofVec treeArr (2 ^ (23 - 7 - 1) + (i 0).val) := by
    intro i
    rw [ha]
    exact orig_apply 7 (by norm_num) (by norm_num) treeArr slices_S16777216_S32768_32768 i
  have key := pair_step 23 1048576 (SegTree.ofVec treeArr) ind vals 7 (n2 := 65536) (n := 32768) rfl (shapeCast S65536 (V main_v45_0 : S65536x1.Idx → EReal) shapeCasts_S65536x1_S65536) (shapeCast S65536 (V main_v45_1 : S65536x1.Idx → EReal) shapeCasts_S65536x1_S65536) _ (flat_eq _ (fun p => SegTree.kLvl 23 1048576 (SegTree.ofVec treeArr) ind vals 7 p) hl _) (flat_eq _ (fun p => SegTree.kMsk 1048576 ind 7 p) hm _) horig
    shapeCasts_S65536_S32768x2 slices_S32768x2_S32768x1_0_0 slices_S32768x2_S32768x1_0_1 shapeCasts_S32768x1_S32768 bcast_S_S32768
  refine ⟨?_, ?_, ?_⟩
  · dsimp only [hostOps7, hostOps7_1]
    after_results_simp
    exact key.2
  · dsimp only [hostOps7, hostOps7_1]
    after_results_simp
    exact key.1
  · exact (StableHlo.after_of_writes_sub _ _ (GenP.hostOps7_1_writes (F := Ideal)) (by decide)).trans
      ((StableHlo.after_of_writes_sub _ _ (GenP.hostOps7_writes (F := Ideal)) (by decide)).trans ha)

set_option maxHeartbeats 4000000 in

theorem step_9 (ind : ℕ → ℕ) (vals : ℕ → EReal) (V : Valuation τ sig (Elt Ideal)) (treeArr : FVec Ideal SegTree.STree .f32)
    (ha : (V main_arg0 : S16777216.Idx → EReal) = treeArr)
    (hl : (V main_v64 : S32768.Idx → EReal) = fun i => SegTree.kLvl 23 1048576 (SegTree.ofVec treeArr) ind vals 8 (i 0).val)
    (hm : (V main_v61 : S32768.Idx → EReal) = fun i => SegTree.kMsk 1048576 ind 8 (i 0).val) :
    ((StableHlo.after hostOps7_3 (StableHlo.after hostOps7_2 V) main_v80 : S16384.Idx → EReal)
        = fun i => SegTree.kLvl 23 1048576 (SegTree.ofVec treeArr) ind vals 9 (i 0).val) ∧
    ((StableHlo.after hostOps7_3 (StableHlo.after hostOps7_2 V) main_v77 : S16384.Idx → EReal)
        = fun i => SegTree.kMsk 1048576 ind 9 (i 0).val) ∧
    ((StableHlo.after hostOps7_3 (StableHlo.after hostOps7_2 V) main_arg0 : S16777216.Idx → EReal) = treeArr) := by
  have horig : ∀ i : S16384.Idx,
      extractStridedSlice S16384 ![16384] (V main_arg0 : S16777216.Idx → EReal) slices_S16777216_S16384_16384 i
        = SegTree.ofVec treeArr (2 ^ (23 - 8 - 1) + (i 0).val) := by
    intro i
    rw [ha]
    exact orig_apply 8 (by norm_num) (by norm_num) treeArr slices_S16777216_S16384_16384 i
  have key := pair_step 23 1048576 (SegTree.ofVec treeArr) ind vals 8 (n2 := 32768) (n := 16384) rfl (V main_v64) (V main_v61) _ hl hm horig
    shapeCasts_S32768_S16384x2 slices_S16384x2_S16384x1_0_0 slices_S16384x2_S16384x1_0_1 shapeCasts_S16384x1_S16384 bcast_S_S16384
  refine ⟨?_, ?_, ?_⟩
  · dsimp only [hostOps7_2, hostOps7_3]
    after_results_simp
    exact key.2
  · dsimp only [hostOps7_2, hostOps7_3]
    after_results_simp
    exact key.1
  · exact (StableHlo.after_of_writes_sub _ _ (GenP.hostOps7_3_writes (F := Ideal)) (by decide)).trans
      ((StableHlo.after_of_writes_sub _ _ (GenP.hostOps7_2_writes (F := Ideal)) (by decide)).trans ha)

set_option maxHeartbeats 4000000 in

theorem step_10 (ind : ℕ → ℕ) (vals : ℕ → EReal) (V : Valuation τ sig (Elt Ideal)) (treeArr : FVec Ideal SegTree.STree .f32)
    (ha : (V main_arg0 : S16777216.Idx → EReal) = treeArr)
    (hl : (V main_v80 : S16384.Idx → EReal) = fun i => SegTree.kLvl 23 1048576 (SegTree.ofVec treeArr) ind vals 9 (i 0).val)
    (hm : (V main_v77 : S16384.Idx → EReal) = fun i => SegTree.kMsk 1048576 ind 9 (i 0).val) :
    ((StableHlo.after hostOps7_5 (StableHlo.after hostOps7_4 V) main_v96 : S8192.Idx → EReal)
        = fun i => SegTree.kLvl 23 1048576 (SegTree.ofVec treeArr) ind vals 10 (i 0).val) ∧
    ((StableHlo.after hostOps7_5 (StableHlo.after hostOps7_4 V) main_v93 : S8192.Idx → EReal)
        = fun i => SegTree.kMsk 1048576 ind 10 (i 0).val) ∧
    ((StableHlo.after hostOps7_5 (StableHlo.after hostOps7_4 V) main_arg0 : S16777216.Idx → EReal) = treeArr) := by
  have horig : ∀ i : S8192.Idx,
      extractStridedSlice S8192 ![8192] (V main_arg0 : S16777216.Idx → EReal) slices_S16777216_S8192_8192 i
        = SegTree.ofVec treeArr (2 ^ (23 - 9 - 1) + (i 0).val) := by
    intro i
    rw [ha]
    exact orig_apply 9 (by norm_num) (by norm_num) treeArr slices_S16777216_S8192_8192 i
  have key := pair_step 23 1048576 (SegTree.ofVec treeArr) ind vals 9 (n2 := 16384) (n := 8192) rfl (V main_v80) (V main_v77) _ hl hm horig
    shapeCasts_S16384_S8192x2 slices_S8192x2_S8192x1_0_0 slices_S8192x2_S8192x1_0_1 shapeCasts_S8192x1_S8192 bcast_S_S8192
  refine ⟨?_, ?_, ?_⟩
  · dsimp only [hostOps7_4, hostOps7_5]
    after_results_simp
    exact key.2
  · dsimp only [hostOps7_4, hostOps7_5]
    after_results_simp
    exact key.1
  · exact (StableHlo.after_of_writes_sub _ _ (GenP.hostOps7_5_writes (F := Ideal)) (by decide)).trans
      ((StableHlo.after_of_writes_sub _ _ (GenP.hostOps7_4_writes (F := Ideal)) (by decide)).trans ha)

set_option maxHeartbeats 4000000 in

theorem step_11 (ind : ℕ → ℕ) (vals : ℕ → EReal) (V : Valuation τ sig (Elt Ideal)) (treeArr : FVec Ideal SegTree.STree .f32)
    (ha : (V main_arg0 : S16777216.Idx → EReal) = treeArr)
    (hl : (V main_v96 : S8192.Idx → EReal) = fun i => SegTree.kLvl 23 1048576 (SegTree.ofVec treeArr) ind vals 10 (i 0).val)
    (hm : (V main_v93 : S8192.Idx → EReal) = fun i => SegTree.kMsk 1048576 ind 10 (i 0).val) :
    ((StableHlo.after hostOps7_7 (StableHlo.after hostOps7_6 V) main_v112 : S4096.Idx → EReal)
        = fun i => SegTree.kLvl 23 1048576 (SegTree.ofVec treeArr) ind vals 11 (i 0).val) ∧
    ((StableHlo.after hostOps7_7 (StableHlo.after hostOps7_6 V) main_v109 : S4096.Idx → EReal)
        = fun i => SegTree.kMsk 1048576 ind 11 (i 0).val) ∧
    ((StableHlo.after hostOps7_7 (StableHlo.after hostOps7_6 V) main_arg0 : S16777216.Idx → EReal) = treeArr) := by
  have horig : ∀ i : S4096.Idx,
      extractStridedSlice S4096 ![4096] (V main_arg0 : S16777216.Idx → EReal) slices_S16777216_S4096_4096 i
        = SegTree.ofVec treeArr (2 ^ (23 - 10 - 1) + (i 0).val) := by
    intro i
    rw [ha]
    exact orig_apply 10 (by norm_num) (by norm_num) treeArr slices_S16777216_S4096_4096 i
  have key := pair_step 23 1048576 (SegTree.ofVec treeArr) ind vals 10 (n2 := 8192) (n := 4096) rfl (V main_v96) (V main_v93) _ hl hm horig
    shapeCasts_S8192_S4096x2 slices_S4096x2_S4096x1_0_0 slices_S4096x2_S4096x1_0_1 shapeCasts_S4096x1_S4096 bcast_S_S4096
  refine ⟨?_, ?_, ?_⟩
  · dsimp only [hostOps7_6, hostOps7_7]
    after_results_simp
    exact key.2
  · dsimp only [hostOps7_6, hostOps7_7]
    after_results_simp
    exact key.1
  · exact (StableHlo.after_of_writes_sub _ _ (GenP.hostOps7_7_writes (F := Ideal)) (by decide)).trans
      ((StableHlo.after_of_writes_sub _ _ (GenP.hostOps7_6_writes (F := Ideal)) (by decide)).trans ha)

end Cert.KernelIdeal.Hand
end
-- ==== Proof.KI.HostTail2.lean ====
import proofs.«417949_j89438398972173_1_alg».proof.Proof.KI.HostStep
import proofs.«417949_j89438398972173_1_alg».proof.Proof.KernelIdealRegions

noncomputable section

namespace Cert.KernelIdeal.Hand

open Cert.KernelIdeal Cert.KernelIdeal.Gen
open Idealize.ShloMosaic Idealize.ShloMosaic.TcCoe Idealize.ShloMosaic.ValueIdx

set_option maxHeartbeats 4000000 in

theorem step_12 (ind : ℕ → ℕ) (vals : ℕ → EReal) (V : Valuation τ sig (Elt Ideal)) (treeArr : FVec Ideal SegTree.STree .f32)
    (ha : (V main_arg0 : S16777216.Idx → EReal) = treeArr)
    (hl : (V main_v112 : S4096.Idx → EReal) = fun i => SegTree.kLvl 23 1048576 (SegTree.ofVec treeArr) ind vals 11 (i 0).val)
    (hm : (V main_v109 : S4096.Idx → EReal) = fun i => SegTree.kMsk 1048576 ind 11 (i 0).val) :
    ((StableHlo.after hostOps7_9 (StableHlo.after hostOps7_8 V) main_v128 : S2048.Idx → EReal)
        = fun i => SegTree.kLvl 23 1048576 (SegTree.ofVec treeArr) ind vals 12 (i 0).val) ∧
    ((StableHlo.after hostOps7_9 (StableHlo.after hostOps7_8 V) main_v125 : S2048.Idx → EReal)
        = fun i => SegTree.kMsk 1048576 ind 12 (i 0).val) ∧
    ((StableHlo.after hostOps7_9 (StableHlo.after hostOps7_8 V) main_arg0 : S16777216.Idx → EReal) = treeArr) := by
  have horig : ∀ i : S2048.Idx,
      extractStridedSlice S2048 ![2048] (V main_arg0 : S16777216.Idx → EReal) slices_S16777216_S2048_2048 i
        = SegTree.ofVec treeArr (2 ^ (23 - 11 - 1) + (i 0).val) := by
    intro i
    rw [ha]
    exact orig_apply 11 (by norm_num) (by norm_num) treeArr slices_S16777216_S2048_2048 i
  have key := pair_step 23 1048576 (SegTree.ofVec treeArr) ind vals 11 (n2 := 4096) (n := 2048) rfl (V main_v112) (V main_v109) _ hl hm horig
    shapeCasts_S4096_S2048x2 slices_S2048x2_S2048x1_0_0 slices_S2048x2_S2048x1_0_1 shapeCasts_S2048x1_S2048 bcast_S_S2048
  refine ⟨?_, ?_, ?_⟩
  · dsimp only [hostOps7_8, hostOps7_9]
    after_results_simp
    exact key.2
  · dsimp only [hostOps7_8, hostOps7_9]
    after_results_simp
    exact key.1
  · exact (StableHlo.after_of_writes_sub _ _ (GenP.hostOps7_9_writes (F := Ideal)) (by decide)).trans
      ((StableHlo.after_of_writes_sub _ _ (GenP.hostOps7_8_writes (F := Ideal)) (by decide)).trans ha)

set_option maxHeartbeats 4000000 in

theorem step_13 (ind : ℕ → ℕ) (vals : ℕ → EReal) (V : Valuation τ sig (Elt Ideal)) (treeArr : FVec Ideal SegTree.STree .f32)
    (ha : (V main_arg0 : S16777216.Idx → EReal) = treeArr)
    (hl : (V main_v128 : S2048.Idx → EReal) = fun i => SegTree.kLvl 23 1048576 (SegTree.ofVec treeArr) ind vals 12 (i 0).val)
    (hm : (V main_v125 : S2048.Idx → EReal) = fun i => SegTree.kMsk 1048576 ind 12 (i 0).val) :
    ((StableHlo.after hostOps7_11 (StableHlo.after hostOps7_10 V) main_v144 : S1024.Idx → EReal)
        = fun i => SegTree.kLvl 23 1048576 (SegTree.ofVec treeArr) ind vals 13 (i 0).val) ∧
    ((StableHlo.after hostOps7_11 (StableHlo.after hostOps7_10 V) main_v141 : S1024.Idx → EReal)
        = fun i => SegTree.kMsk 1048576 ind 13 (i 0).val) ∧
    ((StableHlo.after hostOps7_11 (StableHlo.after hostOps7_10 V) main_arg0 : S16777216.Idx → EReal) = treeArr) := by
  have horig : ∀ i : S1024.Idx,
      extractStridedSlice S1024 ![1024] (V main_arg0 : S16777216.Idx → EReal) slices_S16777216_S1024_1024 i
        = SegTree.ofVec treeArr (2 ^ (23 - 12 - 1) + (i 0).val) := by
    intro i
    rw [ha]
    exact orig_apply 12 (by norm_num) (by norm_num) treeArr slices_S16777216_S1024_1024 i
  have key := pair_step 23 1048576 (SegTree.ofVec treeArr) ind vals 12 (n2 := 2048) (n := 1024) rfl (V main_v128) (V main_v125) _ hl hm horig
    shapeCasts_S2048_S1024x2 slices_S1024x2_S1024x1_0_0 slices_S1024x2_S1024x1_0_1 shapeCasts_S1024x1_S1024 bcast_S_S1024
  refine ⟨?_, ?_, ?_⟩
  · dsimp only [hostOps7_10, hostOps7_11]
    after_results_simp
    exact key.2
  · dsimp only [hostOps7_10, hostOps7_11]
    after_results_simp
    exact key.1
  · exact (StableHlo.after_of_writes_sub _ _ (GenP.hostOps7_11_writes (F := Ideal)) (by decide)).trans
      ((StableHlo.after_of_writes_sub _ _ (GenP.hostOps7_10_writes (F := Ideal)) (by decide)).trans ha)

set_option maxHeartbeats 4000000 in

theorem step_14 (ind : ℕ → ℕ) (vals : ℕ → EReal) (V : Valuation τ sig (Elt Ideal)) (treeArr : FVec Ideal SegTree.STree .f32)
    (ha : (V main_arg0 : S16777216.Idx → EReal) = treeArr)
    (hl : (V main_v144 : S1024.Idx → EReal) = fun i => SegTree.kLvl 23 1048576 (SegTree.ofVec treeArr) ind vals 13 (i 0).val)
    (hm : (V main_v141 : S1024.Idx → EReal) = fun i => SegTree.kMsk 1048576 ind 13 (i 0).val) :
    ((StableHlo.after hostOps7_13 (StableHlo.after hostOps7_12 V) main_v160 : S512.Idx → EReal)
        = fun i => SegTree.kLvl 23 1048576 (SegTree.ofVec treeArr) ind vals 14 (i 0).val) ∧
    ((StableHlo.after hostOps7_13 (StableHlo.after hostOps7_12 V) main_v157 : S512.Idx → EReal)
        = fun i => SegTree.kMsk 1048576 ind 14 (i 0).val) ∧
    ((StableHlo.after hostOps7_13 (StableHlo.after hostOps7_12 V) main_arg0 : S16777216.Idx → EReal) = treeArr) := by
  have horig : ∀ i : S512.Idx,
      extractStridedSlice S512 ![512] (V main_arg0 : S16777216.Idx → EReal) slices_S16777216_S512_512 i
        = SegTree.ofVec treeArr (2 ^ (23 - 13 - 1) + (i 0).val) := by
    intro i
    rw [ha]
    exact orig_apply 13 (by norm_num) (by norm_num) treeArr slices_S16777216_S512_512 i
  have key := pair_step 23 1048576 (SegTree.ofVec treeArr) ind vals 13 (n2 := 1024) (n := 512) rfl (V main_v144) (V main_v141) _ hl hm horig
    shapeCasts_S1024_S512x2 slices_S512x2_S512x1_0_0 slices_S512x2_S512x1_0_1 shapeCasts_S512x1_S512 bcast_S_S512
  refine ⟨?_, ?_, ?_⟩
  · dsimp only [hostOps7_12, hostOps7_13]
    after_results_simp
    exact key.2
  · dsimp only [hostOps7_12, hostOps7_13]
    after_results_simp
    exact key.1
  · exact (StableHlo.after_of_writes_sub _ _ (GenP.hostOps7_13_writes (F := Ideal)) (by decide)).trans
      ((StableHlo.after_of_writes_sub _ _ (GenP.hostOps7_12_writes (F := Ideal)) (by decide)).trans ha)

set_option maxHeartbeats 4000000 in

theorem step_15 (ind : ℕ → ℕ) (vals : ℕ → EReal) (V : Valuation τ sig (Elt Ideal)) (treeArr : FVec Ideal SegTree.STree .f32)
    (ha : (V main_arg0 : S16777216.Idx → EReal) = treeArr)
    (hl : (V main_v160 : S512.Idx → EReal) = fun i => SegTree.kLvl 23 1048576 (SegTree.ofVec treeArr) ind vals 14 (i 0).val)
    (hm : (V main_v157 : S512.Idx → EReal) = fun i => SegTree.kMsk 1048576 ind 14 (i 0).val) :
    ((StableHlo.after hostOps7_15 (StableHlo.after hostOps7_14 V) main_v176 : S256.Idx → EReal)
        = fun i => SegTree.kLvl 23 1048576 (SegTree.ofVec treeArr) ind vals 15 (i 0).val) ∧
    ((StableHlo.after hostOps7_15 (StableHlo.after hostOps7_14 V) main_v173 : S256.Idx → EReal)
        = fun i => SegTree.kMsk 1048576 ind 15 (i 0).val) ∧
    ((StableHlo.after hostOps7_15 (StableHlo.after hostOps7_14 V) main_arg0 : S16777216.Idx → EReal) = treeArr) := by
  have horig : ∀ i : S256.Idx,
      extractStridedSlice S256 ![256] (V main_arg0 : S16777216.Idx → EReal) slices_S16777216_S256_256 i
        = SegTree.ofVec treeArr (2 ^ (23 - 14 - 1) + (i 0).val) := by
    intro i
    rw [ha]
    exact orig_apply 14 (by norm_num) (by norm_num) treeArr slices_S16777216_S256_256 i
  have key := pair_step 23 1048576 (SegTree.ofVec treeArr) ind vals 14 (n2 := 512) (n := 256) rfl (V main_v160) (V main_v157) _ hl hm horig
    shapeCasts_S512_S256x2 slices_S256x2_S256x1_0_0 slices_S256x2_S256x1_0_1 shapeCasts_S256x1_S256 bcast_S_S256
  refine ⟨?_, ?_, ?_⟩
  · dsimp only [hostOps7_14, hostOps7_15]
    after_results_simp
    exact key.2
  · dsimp only [hostOps7_14, hostOps7_15]
    after_results_simp
    exact key.1
  · exact (StableHlo.after_of_writes_sub _ _ (GenP.hostOps7_15_writes (F := Ideal)) (by decide)).trans
      ((StableHlo.after_of_writes_sub _ _ (GenP.hostOps7_14_writes (F := Ideal)) (by decide)).trans ha)

end Cert.KernelIdeal.Hand
end
-- ==== Proof.KI.HostTail3.lean ====
import proofs.«417949_j89438398972173_1_alg».proof.Proof.KI.HostStep
import proofs.«417949_j89438398972173_1_alg».proof.Proof.KernelIdealRegions

noncomputable section

namespace Cert.KernelIdeal.Hand

open Cert.KernelIdeal Cert.KernelIdeal.Gen
open Idealize.ShloMosaic Idealize.ShloMosaic.TcCoe Idealize.ShloMosaic.ValueIdx

set_option maxHeartbeats 4000000 in

theorem step_16 (ind : ℕ → ℕ) (vals : ℕ → EReal) (V : Valuation τ sig (Elt Ideal)) (treeArr : FVec Ideal SegTree.STree .f32)
    (ha : (V main_arg0 : S16777216.Idx → EReal) = treeArr)
    (hl : (V main_v176 : S256.Idx → EReal) = fun i => SegTree.kLvl 23 1048576 (SegTree.ofVec treeArr) ind vals 15 (i 0).val)
    (hm : (V main_v173 : S256.Idx → EReal) = fun i => SegTree.kMsk 1048576 ind 15 (i 0).val) :
    ((StableHlo.after hostOps7_17 (StableHlo.after hostOps7_16 V) main_v192 : S128.Idx → EReal)
        = fun i => SegTree.kLvl 23 1048576 (SegTree.ofVec treeArr) ind vals 16 (i 0).val) ∧
    ((StableHlo.after hostOps7_17 (StableHlo.after hostOps7_16 V) main_v189 : S128.Idx → EReal)
        = fun i => SegTree.kMsk 1048576 ind 16 (i 0).val) ∧
    ((StableHlo.after hostOps7_17 (StableHlo.after hostOps7_16 V) main_arg0 : S16777216.Idx → EReal) = treeArr) := by
  have horig : ∀ i : S128.Idx,
      extractStridedSlice S128 ![128] (V main_arg0 : S16777216.Idx → EReal) slices_S16777216_S128_128 i
        = SegTree.ofVec treeArr (2 ^ (23 - 15 - 1) + (i 0).val) := by
    intro i
    rw [ha]
    exact orig_apply 15 (by norm_num) (by norm_num) treeArr slices_S16777216_S128_128 i
  have key := pair_step 23 1048576 (SegTree.ofVec treeArr) ind vals 15 (n2 := 256) (n := 128) rfl (V main_v176) (V main_v173) _ hl hm horig
    shapeCasts_S256_S128x2 slices_S128x2_S128x1_0_0 slices_S128x2_S128x1_0_1 shapeCasts_S128x1_S128 bcast_S_S128
  refine ⟨?_, ?_, ?_⟩
  · dsimp only [hostOps7_16, hostOps7_17]
    after_results_simp
    exact key.2
  · dsimp only [hostOps7_16, hostOps7_17]
    after_results_simp
    exact key.1
  · exact (StableHlo.after_of_writes_sub _ _ (GenP.hostOps7_17_writes (F := Ideal)) (by decide)).trans
      ((StableHlo.after_of_writes_sub _ _ (GenP.hostOps7_16_writes (F := Ideal)) (by decide)).trans ha)

set_option maxHeartbeats 4000000 in

theorem step_17 (ind : ℕ → ℕ) (vals : ℕ → EReal) (V : Valuation τ sig (Elt Ideal)) (treeArr : FVec Ideal SegTree.STree .f32)
    (ha : (V main_arg0 : S16777216.Idx → EReal) = treeArr)
    (hl : (V main_v192 : S128.Idx → EReal) = fun i => SegTree.kLvl 23 1048576 (SegTree.ofVec treeArr) ind vals 16 (i 0).val)
    (hm : (V main_v189 : S128.Idx → EReal) = fun i => SegTree.kMsk 1048576 ind 16 (i 0).val) :
    ((StableHlo.after hostOps7_19 (StableHlo.after hostOps7_18 V) main_v208 : S64.Idx → EReal)
        = fun i => SegTree.kLvl 23 1048576 (SegTree.ofVec treeArr) ind vals 17 (i 0).val) ∧
    ((StableHlo.after hostOps7_19 (StableHlo.after hostOps7_18 V) main_v205 : S64.Idx → EReal)
        = fun i => SegTree.kMsk 1048576 ind 17 (i 0).val) ∧
    ((StableHlo.after hostOps7_19 (StableHlo.after hostOps7_18 V) main_arg0 : S16777216.Idx → EReal) = treeArr) := by
  have horig : ∀ i : S64.Idx,
      extractStridedSlice S64 ![64] (V main_arg0 : S16777216.Idx → EReal) slices_S16777216_S64_64 i
        = SegTree.ofVec treeArr (2 ^ (23 - 16 - 1) + (i 0).val) := by
    intro i
    rw [ha]
    exact orig_apply 16 (by norm_num) (by norm_num) treeArr slices_S16777216_S64_64 i
  have key := pair_step 23 1048576 (SegTree.ofVec treeArr) ind vals 16 (n2 := 128) (n := 64) rfl (V main_v192) (V main_v189) _ hl hm horig
    shapeCasts_S128_S64x2 slices_S64x2_S64x1_0_0 slices_S64x2_S64x1_0_1 shapeCasts_S64x1_S64 bcast_S_S64
  refine ⟨?_, ?_, ?_⟩
  · dsimp only [hostOps7_18, hostOps7_19]
    after_results_simp
    exact key.2
  · dsimp only [hostOps7_18, hostOps7_19]
    after_results_simp
    exact key.1
  · exact (StableHlo.after_of_writes_sub _ _ (GenP.hostOps7_19_writes (F := Ideal)) (by decide)).trans
      ((StableHlo.after_of_writes_sub _ _ (GenP.hostOps7_18_writes (F := Ideal)) (by decide)).trans ha)

set_option maxHeartbeats 4000000 in

theorem step_18 (ind : ℕ → ℕ) (vals : ℕ → EReal) (V : Valuation τ sig (Elt Ideal)) (treeArr : FVec Ideal SegTree.STree .f32)
    (ha : (V main_arg0 : S16777216.Idx → EReal) = treeArr)
    (hl : (V main_v208 : S64.Idx → EReal) = fun i => SegTree.kLvl 23 1048576 (SegTree.ofVec treeArr) ind vals 17 (i 0).val)
    (hm : (V main_v205 : S64.Idx → EReal) = fun i => SegTree.kMsk 1048576 ind 17 (i 0).val) :
    ((StableHlo.after hostOps7_21 (StableHlo.after hostOps7_20 V) main_v224 : S32.Idx → EReal)
        = fun i => SegTree.kLvl 23 1048576 (SegTree.ofVec treeArr) ind vals 18 (i 0).val) ∧
    ((StableHlo.after hostOps7_21 (StableHlo.after hostOps7_20 V) main_v221 : S32.Idx → EReal)
        = fun i => SegTree.kMsk 1048576 ind 18 (i 0).val) ∧
    ((StableHlo.after hostOps7_21 (StableHlo.after hostOps7_20 V) main_arg0 : S16777216.Idx → EReal) = treeArr) := by
  have horig : ∀ i : S32.Idx,
      extractStridedSlice S32 ![32] (V main_arg0 : S16777216.Idx → EReal) slices_S16777216_S32_32 i
        = SegTree.ofVec treeArr (2 ^ (23 - 17 - 1) + (i 0).val) := by
    intro i
    rw [ha]
    exact orig_apply 17 (by norm_num) (by norm_num) treeArr slices_S16777216_S32_32 i
  have key := pair_step 23 1048576 (SegTree.ofVec treeArr) ind vals 17 (n2 := 64) (n := 32) rfl (V main_v208) (V main_v205) _ hl hm horig
    shapeCasts_S64_S32x2 slices_S32x2_S32x1_0_0 slices_S32x2_S32x1_0_1 shapeCasts_S32x1_S32 bcast_S_S32
  refine ⟨?_, ?_, ?_⟩
  · dsimp only [hostOps7_20, hostOps7_21]
    after_results_simp
    exact key.2
  · dsimp only [hostOps7_20, hostOps7_21]
    after_results_simp
    exact key.1
  · exact (StableHlo.after_of_writes_sub _ _ (GenP.hostOps7_21_writes (F := Ideal)) (by decide)).trans
      ((StableHlo.after_of_writes_sub _ _ (GenP.hostOps7_20_writes (F := Ideal)) (by decide)).trans ha)

set_option maxHeartbeats 4000000 in

theorem step_19 (ind : ℕ → ℕ) (vals : ℕ → EReal) (V : Valuation τ sig (Elt Ideal)) (treeArr : FVec Ideal SegTree.STree .f32)
    (ha : (V main_arg0 : S16777216.Idx → EReal) = treeArr)
    (hl : (V main_v224 : S32.Idx → EReal) = fun i => SegTree.kLvl 23 1048576 (SegTree.ofVec treeArr) ind vals 18 (i 0).val)
    (hm : (V main_v221 : S32.Idx → EReal) = fun i => SegTree.kMsk 1048576 ind 18 (i 0).val) :
    ((StableHlo.after hostOps7_23 (StableHlo.after hostOps7_22 V) main_v240 : S16.Idx → EReal)
        = fun i => SegTree.kLvl 23 1048576 (SegTree.ofVec treeArr) ind vals 19 (i 0).val) ∧
    ((StableHlo.after hostOps7_23 (StableHlo.after hostOps7_22 V) main_v237 : S16.Idx → EReal)
        = fun i => SegTree.kMsk 1048576 ind 19 (i 0).val) ∧
    ((StableHlo.after hostOps7_23 (StableHlo.after hostOps7_22 V) main_arg0 : S16777216.Idx → EReal) = treeArr) := by
  have horig : ∀ i : S16.Idx,
      extractStridedSlice S16 ![16] (V main_arg0 : S16777216.Idx → EReal) slices_S16777216_S16_16 i
        = SegTree.ofVec treeArr (2 ^ (23 - 18 - 1) + (i 0).val) := by
    intro i
    rw [ha]
    exact orig_apply 18 (by norm_num) (by norm_num) treeArr slices_S16777216_S16_16 i
  have key := pair_step 23 1048576 (SegTree.ofVec treeArr) ind vals 18 (n2 := 32) (n := 16) rfl (V main_v224) (V main_v221) _ hl hm horig
    shapeCasts_S32_S16x2 slices_S16x2_S16x1_0_0 slices_S16x2_S16x1_0_1 shapeCasts_S16x1_S16 bcast_S_S16
  refine ⟨?_, ?_, ?_⟩
  · dsimp only [hostOps7_22, hostOps7_23]
    after_results_simp
    exact key.2
  · dsimp only [hostOps7_22, hostOps7_23]
    after_results_simp
    exact key.1
  · exact (StableHlo.after_of_writes_sub _ _ (GenP.hostOps7_23_writes (F := Ideal)) (by decide)).trans
      ((StableHlo.after_of_writes_sub _ _ (GenP.hostOps7_22_writes (F := Ideal)) (by decide)).trans ha)

end Cert.KernelIdeal.Hand
end
-- ==== Proof.KI.HostTail4.lean ====
import proofs.«417949_j89438398972173_1_alg».proof.Proof.KI.HostStep
import proofs.«417949_j89438398972173_1_alg».proof.Proof.KernelIdealRegions

noncomputable section

namespace Cert.KernelIdeal.Hand

open Cert.KernelIdeal Cert.KernelIdeal.Gen
open Idealize.ShloMosaic Idealize.ShloMosaic.TcCoe Idealize.ShloMosaic.ValueIdx

set_option maxHeartbeats 4000000 in

theorem step_20 (ind : ℕ → ℕ) (vals : ℕ → EReal) (V : Valuation τ sig (Elt Ideal)) (treeArr : FVec Ideal SegTree.STree .f32)
    (ha : (V main_arg0 : S16777216.Idx → EReal) = treeArr)
    (hl : (V main_v240 : S16.Idx → EReal) = fun i => SegTree.kLvl 23 1048576 (SegTree.ofVec treeArr) ind vals 19 (i 0).val)
    (hm : (V main_v237 : S16.Idx → EReal) = fun i => SegTree.kMsk 1048576 ind 19 (i 0).val) :
    ((StableHlo.after hostOps7_25 (StableHlo.after hostOps7_24 V) main_v256 : S8.Idx → EReal)
        = fun i => SegTree.kLvl 23 1048576 (SegTree.ofVec treeArr) ind vals 20 (i 0).val) ∧
    ((StableHlo.after hostOps7_25 (StableHlo.after hostOps7_24 V) main_v253 : S8.Idx → EReal)
        = fun i => SegTree.kMsk 1048576 ind 20 (i 0).val) ∧
    ((StableHlo.after hostOps7_25 (StableHlo.after hostOps7_24 V) main_arg0 : S16777216.Idx → EReal) = treeArr) := by
  have horig : ∀ i : S8.Idx,
      extractStridedSlice S8 ![8] (V main_arg0 : S16777216.Idx → EReal) slices_S16777216_S8_8 i
        = SegTree.ofVec treeArr (2 ^ (23 - 19 - 1) + (i 0).val) := by
    intro i
    rw [ha]
    exact orig_apply 19 (by norm_num) (by norm_num) treeArr slices_S16777216_S8_8 i
  have key := pair_step 23 1048576 (SegTree.ofVec treeArr) ind vals 19 (n2 := 16) (n := 8) rfl (V main_v240) (V main_v237) _ hl hm horig
    shapeCasts_S16_S8x2 slices_S8x2_S8x1_0_0 slices_S8x2_S8x1_0_1 shapeCasts_S8x1_S8 bcast_S_S8
  refine ⟨?_, ?_, ?_⟩
  · dsimp only [hostOps7_24, hostOps7_25]
    after_results_simp
    exact key.2
  · dsimp only [hostOps7_24, hostOps7_25]
    after_results_simp
    exact key.1
  · exact (StableHlo.after_of_writes_sub _ _ (GenP.hostOps7_25_writes (F := Ideal)) (by decide)).trans
      ((StableHlo.after_of_writes_sub _ _ (GenP.hostOps7_24_writes (F := Ideal)) (by decide)).trans ha)

set_option maxHeartbeats 4000000 in

theorem step_21 (ind : ℕ → ℕ) (vals : ℕ → EReal) (V : Valuation τ sig (Elt Ideal)) (treeArr : FVec Ideal SegTree.STree .f32)
    (ha : (V main_arg0 : S16777216.Idx → EReal) = treeArr)
    (hl : (V main_v256 : S8.Idx → EReal) = fun i => SegTree.kLvl 23 1048576 (SegTree.ofVec treeArr) ind vals 20 (i 0).val)
    (hm : (V main_v253 : S8.Idx → EReal) = fun i => SegTree.kMsk 1048576 ind 20 (i 0).val) :
    ((StableHlo.after hostOps7_27 (StableHlo.after hostOps7_26 V) main_v272 : S4.Idx → EReal)
        = fun i => SegTree.kLvl 23 1048576 (SegTree.ofVec treeArr) ind vals 21 (i 0).val) ∧
    ((StableHlo.after hostOps7_27 (StableHlo.after hostOps7_26 V) main_v269 : S4.Idx → EReal)
        = fun i => SegTree.kMsk 1048576 ind 21 (i 0).val) ∧
    ((StableHlo.after hostOps7_27 (StableHlo.after hostOps7_26 V) main_arg0 : S16777216.Idx → EReal) = treeArr) := by
  have horig : ∀ i : S4.Idx,
      extractStridedSlice S4 ![4] (V main_arg0 : S16777216.Idx → EReal) slices_S16777216_S4_4 i
        = SegTree.ofVec treeArr (2 ^ (23 - 20 - 1) + (i 0).val) := by
    intro i
    rw [ha]
    exact orig_apply 20 (by norm_num) (by norm_num) treeArr slices_S16777216_S4_4 i
  have key := pair_step 23 1048576 (SegTree.ofVec treeArr) ind vals 20 (n2 := 8) (n := 4) rfl (V main_v256) (V main_v253) _ hl hm horig
    shapeCasts_S8_S4x2 slices_S4x2_S4x1_0_0 slices_S4x2_S4x1_0_1 shapeCasts_S4x1_S4 bcast_S_S4
  refine ⟨?_, ?_, ?_⟩
  · dsimp only [hostOps7_26, hostOps7_27]
    after_results_simp
    exact key.2
  · dsimp only [hostOps7_26, hostOps7_27]
    after_results_simp
    exact key.1
  · exact (StableHlo.after_of_writes_sub _ _ (GenP.hostOps7_27_writes (F := Ideal)) (by decide)).trans
      ((StableHlo.after_of_writes_sub _ _ (GenP.hostOps7_26_writes (F := Ideal)) (by decide)).trans ha)

set_option maxHeartbeats 4000000 in

theorem step_22 (ind : ℕ → ℕ) (vals : ℕ → EReal) (V : Valuation τ sig (Elt Ideal)) (treeArr : FVec Ideal SegTree.STree .f32)
    (ha : (V main_arg0 : S16777216.Idx → EReal) = treeArr)
    (hl : (V main_v272 : S4.Idx → EReal) = fun i => SegTree.kLvl 23 1048576 (SegTree.ofVec treeArr) ind vals 21 (i 0).val)
    (hm : (V main_v269 : S4.Idx → EReal) = fun i => SegTree.kMsk 1048576 ind 21 (i 0).val) :
    ((StableHlo.after hostOps7_29 (StableHlo.after hostOps7_28 V) main_v288 : S2.Idx → EReal)
        = fun i => SegTree.kLvl 23 1048576 (SegTree.ofVec treeArr) ind vals 22 (i 0).val) ∧
    ((StableHlo.after hostOps7_29 (StableHlo.after hostOps7_28 V) main_v285 : S2.Idx → EReal)
        = fun i => SegTree.kMsk 1048576 ind 22 (i 0).val) ∧
    ((StableHlo.after hostOps7_29 (StableHlo.after hostOps7_28 V) main_arg0 : S16777216.Idx → EReal) = treeArr) := by
  have horig : ∀ i : S2.Idx,
      extractStridedSlice S2 ![2] (V main_arg0 : S16777216.Idx → EReal) slices_S16777216_S2_2 i
        = SegTree.ofVec treeArr (2 ^ (23 - 21 - 1) + (i 0).val) := by
    intro i
    rw [ha]
    exact orig_apply 21 (by norm_num) (by norm_num) treeArr slices_S16777216_S2_2 i
  have key := pair_step 23 1048576 (SegTree.ofVec treeArr) ind vals 21 (n2 := 4) (n := 2) rfl (V main_v272) (V main_v269) _ hl hm horig
    shapeCasts_S4_S2x2 slices_S2x2_S2x1_0_0 slices_S2x2_S2x1_0_1 shapeCasts_S2x1_S2 bcast_S_S2
  refine ⟨?_, ?_, ?_⟩
  · dsimp only [hostOps7_28, hostOps7_29]
    after_results_simp
    exact key.2
  · dsimp only [hostOps7_28, hostOps7_29]
    after_results_simp
    exact key.1
  · exact (StableHlo.after_of_writes_sub _ _ (GenP.hostOps7_29_writes (F := Ideal)) (by decide)).trans
      ((StableHlo.after_of_writes_sub _ _ (GenP.hostOps7_28_writes (F := Ideal)) (by decide)).trans ha)

set_option maxHeartbeats 4000000 in

theorem step_23 (ind : ℕ → ℕ) (vals : ℕ → EReal) (V : Valuation τ sig (Elt Ideal)) (treeArr : FVec Ideal SegTree.STree .f32)
    (ha : (V main_arg0 : S16777216.Idx → EReal) = treeArr)
    (hl : (V main_v288 : S2.Idx → EReal) = fun i => SegTree.kLvl 23 1048576 (SegTree.ofVec treeArr) ind vals 22 (i 0).val)
    (hm : (V main_v285 : S2.Idx → EReal) = fun i => SegTree.kMsk 1048576 ind 22 (i 0).val) :
    ((StableHlo.after hostOps7_31 (StableHlo.after hostOps7_30 V) main_v304 : S1.Idx → EReal)
        = fun i => SegTree.kLvl 23 1048576 (SegTree.ofVec treeArr) ind vals 23 (i 0).val) ∧
    ((StableHlo.after hostOps7_31 (StableHlo.after hostOps7_30 V) main_v301 : S1.Idx → EReal)
        = fun i => SegTree.kMsk 1048576 ind 23 (i 0).val) ∧
    ((StableHlo.after hostOps7_31 (StableHlo.after hostOps7_30 V) main_arg0 : S16777216.Idx → EReal) = treeArr) := by
  have horig : ∀ i : S1.Idx,
      extractStridedSlice S1 ![1] (V main_arg0 : S16777216.Idx → EReal) slices_S16777216_S1_1 i
        = SegTree.ofVec treeArr (2 ^ (23 - 22 - 1) + (i 0).val) := by
    intro i
    rw [ha]
    exact orig_apply 22 (by norm_num) (by norm_num) treeArr slices_S16777216_S1_1 i
  have key := pair_step 23 1048576 (SegTree.ofVec treeArr) ind vals 22 (n2 := 2) (n := 1) rfl (V main_v288) (V main_v285) _ hl hm horig
    shapeCasts_S2_S1x2 slices_S1x2_S1x1_0_0 slices_S1x2_S1x1_0_1 shapeCasts_S1x1_S1 bcast_S_S1
  refine ⟨?_, ?_, ?_⟩
  · dsimp only [hostOps7_30, hostOps7_31]
    after_results_simp
    exact key.2
  · dsimp only [hostOps7_30, hostOps7_31]
    after_results_simp
    exact key.1
  · exact (StableHlo.after_of_writes_sub _ _ (GenP.hostOps7_31_writes (F := Ideal)) (by decide)).trans
      ((StableHlo.after_of_writes_sub _ _ (GenP.hostOps7_30_writes (F := Ideal)) (by decide)).trans ha)

end Cert.KernelIdeal.Hand
end
-- ==== Proof.KI.HostTail.lean ====
import proofs.«417949_j89438398972173_1_alg».proof.Proof.KI.HostHead
import proofs.«417949_j89438398972173_1_alg».proof.Proof.KI.HostTail1
import proofs.«417949_j89438398972173_1_alg».proof.Proof.KI.HostTail2
import proofs.«417949_j89438398972173_1_alg».proof.Proof.KI.HostTail3
import proofs.«417949_j89438398972173_1_alg».proof.Proof.KI.HostTail4

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

abbrev treeOf (c : Dev nD) : ℕ → EReal := SegTree.ofVec (m ((c.tc : Thread nD τ).loc main_arg0) : FVec Ideal SegTree.STree .f32)

abbrev indsOf (c : Dev nD) : ℕ → ℕ := SegTree.indOf (m ((c.tc : Thread nD τ).loc main_arg1) : IVec SegTree.SUpd 32)

abbrev valsOf (c : Dev nD) : ℕ → EReal := SegTree.ofVec (m ((c.tc : Thread nD τ).loc main_arg2) : FVec Ideal SegTree.SUpd .f32)

theorem keepS_0 (V : Valuation τ sig (Elt Ideal)) (r : Ref sig .tc) (hr : r ∉ GenP.hostOps7_W) :
    StableHlo.after hostOps7 V (Proc.devRef .tc r) = V (Proc.devRef .tc r) :=
  StableHlo.after_of_writes_sub _ V (GenP.hostOps7_writes (F := Ideal)) hr
theorem keepS_1 (V : Valuation τ sig (Elt Ideal)) (r : Ref sig .tc) (hr : r ∉ GenP.hostOps7_1_W) :
    StableHlo.after hostOps7_1 V (Proc.devRef .tc r) = V (Proc.devRef .tc r) :=
  StableHlo.after_of_writes_sub _ V (GenP.hostOps7_1_writes (F := Ideal)) hr
theorem keepS_2 (V : Valuation τ sig (Elt Ideal)) (r : Ref sig .tc) (hr : r ∉ GenP.hostOps7_2_W) :
    StableHlo.after hostOps7_2 V (Proc.devRef .tc r) = V (Proc.devRef .tc r) :=
  StableHlo.after_of_writes_sub _ V (GenP.hostOps7_2_writes (F := Ideal)) hr
theorem keepS_3 (V : Valuation τ sig (Elt Ideal)) (r : Ref sig .tc) (hr : r ∉ GenP.hostOps7_3_W) :
    StableHlo.after hostOps7_3 V (Proc.devRef .tc r) = V (Proc.devRef .tc r) :=
  StableHlo.after_of_writes_sub _ V (GenP.hostOps7_3_writes (F := Ideal)) hr
theorem keepS_4 (V : Valuation τ sig (Elt Ideal)) (r : Ref sig .tc) (hr : r ∉ GenP.hostOps7_4_W) :
    StableHlo.after hostOps7_4 V (Proc.devRef .tc r) = V (Proc.devRef .tc r) :=
  StableHlo.after_of_writes_sub _ V (GenP.hostOps7_4_writes (F := Ideal)) hr
theorem keepS_5 (V : Valuation τ sig (Elt Ideal)) (r : Ref sig .tc) (hr : r ∉ GenP.hostOps7_5_W) :
    StableHlo.after hostOps7_5 V (Proc.devRef .tc r) = V (Proc.devRef .tc r) :=
  StableHlo.after_of_writes_sub _ V (GenP.hostOps7_5_writes (F := Ideal)) hr
theorem keepS_6 (V : Valuation τ sig (Elt Ideal)) (r : Ref sig .tc) (hr : r ∉ GenP.hostOps7_6_W) :
    StableHlo.after hostOps7_6 V (Proc.devRef .tc r) = V (Proc.devRef .tc r) :=
  StableHlo.after_of_writes_sub _ V (GenP.hostOps7_6_writes (F := Ideal)) hr
theorem keepS_7 (V : Valuation τ sig (Elt Ideal)) (r : Ref sig .tc) (hr : r ∉ GenP.hostOps7_7_W) :
    StableHlo.after hostOps7_7 V (Proc.devRef .tc r) = V (Proc.devRef .tc r) :=
  StableHlo.after_of_writes_sub _ V (GenP.hostOps7_7_writes (F := Ideal)) hr
theorem keepS_8 (V : Valuation τ sig (Elt Ideal)) (r : Ref sig .tc) (hr : r ∉ GenP.hostOps7_8_W) :
    StableHlo.after hostOps7_8 V (Proc.devRef .tc r) = V (Proc.devRef .tc r) :=
  StableHlo.after_of_writes_sub _ V (GenP.hostOps7_8_writes (F := Ideal)) hr
theorem keepS_9 (V : Valuation τ sig (Elt Ideal)) (r : Ref sig .tc) (hr : r ∉ GenP.hostOps7_9_W) :
    StableHlo.after hostOps7_9 V (Proc.devRef .tc r) = V (Proc.devRef .tc r) :=
  StableHlo.after_of_writes_sub _ V (GenP.hostOps7_9_writes (F := Ideal)) hr
theorem keepS_10 (V : Valuation τ sig (Elt Ideal)) (r : Ref sig .tc) (hr : r ∉ GenP.hostOps7_10_W) :
    StableHlo.after hostOps7_10 V (Proc.devRef .tc r) = V (Proc.devRef .tc r) :=
  StableHlo.after_of_writes_sub _ V (GenP.hostOps7_10_writes (F := Ideal)) hr
theorem keepS_11 (V : Valuation τ sig (Elt Ideal)) (r : Ref sig .tc) (hr : r ∉ GenP.hostOps7_11_W) :
    StableHlo.after hostOps7_11 V (Proc.devRef .tc r) = V (Proc.devRef .tc r) :=
  StableHlo.after_of_writes_sub _ V (GenP.hostOps7_11_writes (F := Ideal)) hr
theorem keepS_12 (V : Valuation τ sig (Elt Ideal)) (r : Ref sig .tc) (hr : r ∉ GenP.hostOps7_12_W) :
    StableHlo.after hostOps7_12 V (Proc.devRef .tc r) = V (Proc.devRef .tc r) :=
  StableHlo.after_of_writes_sub _ V (GenP.hostOps7_12_writes (F := Ideal)) hr
theorem keepS_13 (V : Valuation τ sig (Elt Ideal)) (r : Ref sig .tc) (hr : r ∉ GenP.hostOps7_13_W) :
    StableHlo.after hostOps7_13 V (Proc.devRef .tc r) = V (Proc.devRef .tc r) :=
  StableHlo.after_of_writes_sub _ V (GenP.hostOps7_13_writes (F := Ideal)) hr
theorem keepS_14 (V : Valuation τ sig (Elt Ideal)) (r : Ref sig .tc) (hr : r ∉ GenP.hostOps7_14_W) :
    StableHlo.after hostOps7_14 V (Proc.devRef .tc r) = V (Proc.devRef .tc r) :=
  StableHlo.after_of_writes_sub _ V (GenP.hostOps7_14_writes (F := Ideal)) hr
theorem keepS_15 (V : Valuation τ sig (Elt Ideal)) (r : Ref sig .tc) (hr : r ∉ GenP.hostOps7_15_W) :
    StableHlo.after hostOps7_15 V (Proc.devRef .tc r) = V (Proc.devRef .tc r) :=
  StableHlo.after_of_writes_sub _ V (GenP.hostOps7_15_writes (F := Ideal)) hr
theorem keepS_16 (V : Valuation τ sig (Elt Ideal)) (r : Ref sig .tc) (hr : r ∉ GenP.hostOps7_16_W) :
    StableHlo.after hostOps7_16 V (Proc.devRef .tc r) = V (Proc.devRef .tc r) :=
  StableHlo.after_of_writes_sub _ V (GenP.hostOps7_16_writes (F := Ideal)) hr
theorem keepS_17 (V : Valuation τ sig (Elt Ideal)) (r : Ref sig .tc) (hr : r ∉ GenP.hostOps7_17_W) :
    StableHlo.after hostOps7_17 V (Proc.devRef .tc r) = V (Proc.devRef .tc r) :=
  StableHlo.after_of_writes_sub _ V (GenP.hostOps7_17_writes (F := Ideal)) hr
theorem keepS_18 (V : Valuation τ sig (Elt Ideal)) (r : Ref sig .tc) (hr : r ∉ GenP.hostOps7_18_W) :
    StableHlo.after hostOps7_18 V (Proc.devRef .tc r) = V (Proc.devRef .tc r) :=
  StableHlo.after_of_writes_sub _ V (GenP.hostOps7_18_writes (F := Ideal)) hr
theorem keepS_19 (V : Valuation τ sig (Elt Ideal)) (r : Ref sig .tc) (hr : r ∉ GenP.hostOps7_19_W) :
    StableHlo.after hostOps7_19 V (Proc.devRef .tc r) = V (Proc.devRef .tc r) :=
  StableHlo.after_of_writes_sub _ V (GenP.hostOps7_19_writes (F := Ideal)) hr
theorem keepS_20 (V : Valuation τ sig (Elt Ideal)) (r : Ref sig .tc) (hr : r ∉ GenP.hostOps7_20_W) :
    StableHlo.after hostOps7_20 V (Proc.devRef .tc r) = V (Proc.devRef .tc r) :=
  StableHlo.after_of_writes_sub _ V (GenP.hostOps7_20_writes (F := Ideal)) hr
theorem keepS_21 (V : Valuation τ sig (Elt Ideal)) (r : Ref sig .tc) (hr : r ∉ GenP.hostOps7_21_W) :
    StableHlo.after hostOps7_21 V (Proc.devRef .tc r) = V (Proc.devRef .tc r) :=
  StableHlo.after_of_writes_sub _ V (GenP.hostOps7_21_writes (F := Ideal)) hr
theorem keepS_22 (V : Valuation τ sig (Elt Ideal)) (r : Ref sig .tc) (hr : r ∉ GenP.hostOps7_22_W) :
    StableHlo.after hostOps7_22 V (Proc.devRef .tc r) = V (Proc.devRef .tc r) :=
  StableHlo.after_of_writes_sub _ V (GenP.hostOps7_22_writes (F := Ideal)) hr
theorem keepS_23 (V : Valuation τ sig (Elt Ideal)) (r : Ref sig .tc) (hr : r ∉ GenP.hostOps7_23_W) :
    StableHlo.after hostOps7_23 V (Proc.devRef .tc r) = V (Proc.devRef .tc r) :=
  StableHlo.after_of_writes_sub _ V (GenP.hostOps7_23_writes (F := Ideal)) hr
theorem keepS_24 (V : Valuation τ sig (Elt Ideal)) (r : Ref sig .tc) (hr : r ∉ GenP.hostOps7_24_W) :
    StableHlo.after hostOps7_24 V (Proc.devRef .tc r) = V (Proc.devRef .tc r) :=
  StableHlo.after_of_writes_sub _ V (GenP.hostOps7_24_writes (F := Ideal)) hr
theorem keepS_25 (V : Valuation τ sig (Elt Ideal)) (r : Ref sig .tc) (hr : r ∉ GenP.hostOps7_25_W) :
    StableHlo.after hostOps7_25 V (Proc.devRef .tc r) = V (Proc.devRef .tc r) :=
  StableHlo.after_of_writes_sub _ V (GenP.hostOps7_25_writes (F := Ideal)) hr
theorem keepS_26 (V : Valuation τ sig (Elt Ideal)) (r : Ref sig .tc) (hr : r ∉ GenP.hostOps7_26_W) :
    StableHlo.after hostOps7_26 V (Proc.devRef .tc r) = V (Proc.devRef .tc r) :=
  StableHlo.after_of_writes_sub _ V (GenP.hostOps7_26_writes (F := Ideal)) hr
theorem keepS_27 (V : Valuation τ sig (Elt Ideal)) (r : Ref sig .tc) (hr : r ∉ GenP.hostOps7_27_W) :
    StableHlo.after hostOps7_27 V (Proc.devRef .tc r) = V (Proc.devRef .tc r) :=
  StableHlo.after_of_writes_sub _ V (GenP.hostOps7_27_writes (F := Ideal)) hr
theorem keepS_28 (V : Valuation τ sig (Elt Ideal)) (r : Ref sig .tc) (hr : r ∉ GenP.hostOps7_28_W) :
    StableHlo.after hostOps7_28 V (Proc.devRef .tc r) = V (Proc.devRef .tc r) :=
  StableHlo.after_of_writes_sub _ V (GenP.hostOps7_28_writes (F := Ideal)) hr
theorem keepS_29 (V : Valuation τ sig (Elt Ideal)) (r : Ref sig .tc) (hr : r ∉ GenP.hostOps7_29_W) :
    StableHlo.after hostOps7_29 V (Proc.devRef .tc r) = V (Proc.devRef .tc r) :=
  StableHlo.after_of_writes_sub _ V (GenP.hostOps7_29_writes (F := Ideal)) hr
theorem keepS_30 (V : Valuation τ sig (Elt Ideal)) (r : Ref sig .tc) (hr : r ∉ GenP.hostOps7_30_W) :
    StableHlo.after hostOps7_30 V (Proc.devRef .tc r) = V (Proc.devRef .tc r) :=
  StableHlo.after_of_writes_sub _ V (GenP.hostOps7_30_writes (F := Ideal)) hr
theorem keepS_31 (V : Valuation τ sig (Elt Ideal)) (r : Ref sig .tc) (hr : r ∉ GenP.hostOps7_31_W) :
    StableHlo.after hostOps7_31 V (Proc.devRef .tc r) = V (Proc.devRef .tc r) :=
  StableHlo.after_of_writes_sub _ V (GenP.hostOps7_31_writes (F := Ideal)) hr
theorem keepS_32 (V : Valuation τ sig (Elt Ideal)) (r : Ref sig .tc) (hr : r ∉ GenP.hostOps7_32_W) :
    StableHlo.after hostOps7_32 V (Proc.devRef .tc r) = V (Proc.devRef .tc r) :=
  StableHlo.after_of_writes_sub _ V (GenP.hostOps7_32_writes (F := Ideal)) hr

theorem chain_8 (c : Dev nD)
    (hrange : ∀ k : Fin 1048576, ((m ((c.tc : Thread nD τ).loc main_arg1)) (ValueIdx.ix1 k)).toNat < 8388608) :
    ((W16 m c main_v64 : S32768.Idx → EReal)
        = fun i => SegTree.kLvl 23 1048576 (treeOf m c) (indsOf m c) (valsOf m c) 8 (i 0).val) ∧
    ((W16 m c main_v61 : S32768.Idx → EReal)
        = fun i => SegTree.kMsk 1048576 (indsOf m c) 8 (i 0).val) ∧
    ((W16 m c main_arg0 : S16777216.Idx → EReal) = m ((c.tc : Thread nD τ).loc main_arg0)) :=
  step_8 (indsOf m c) (valsOf m c) (W14 m c) (m ((c.tc : Thread nD τ).loc main_arg0)) (arg0_W14 m c)
    (head_lvl_6 m c hrange) (head_msk_6 m c hrange)

theorem chain_9 (c : Dev nD)
    (hrange : ∀ k : Fin 1048576, ((m ((c.tc : Thread nD τ).loc main_arg1)) (ValueIdx.ix1 k)).toNat < 8388608) :
    ((W18 m c main_v80 : S16384.Idx → EReal)
        = fun i => SegTree.kLvl 23 1048576 (treeOf m c) (indsOf m c) (valsOf m c) 9 (i 0).val) ∧
    ((W18 m c main_v77 : S16384.Idx → EReal)
        = fun i => SegTree.kMsk 1048576 (indsOf m c) 9 (i 0).val) ∧
    ((W18 m c main_arg0 : S16777216.Idx → EReal) = m ((c.tc : Thread nD τ).loc main_arg0)) :=
  have h := chain_8 m c hrange
  step_9 (indsOf m c) (valsOf m c) (W16 m c) (m ((c.tc : Thread nD τ).loc main_arg0)) h.2.2 h.1 h.2.1

theorem chain_10 (c : Dev nD)
    (hrange : ∀ k : Fin 1048576, ((m ((c.tc : Thread nD τ).loc main_arg1)) (ValueIdx.ix1 k)).toNat < 8388608) :
    ((W20 m c main_v96 : S8192.Idx → EReal)
        = fun i => SegTree.kLvl 23 1048576 (treeOf m c) (indsOf m c) (valsOf m c) 10 (i 0).val) ∧
    ((W20 m c main_v93 : S8192.Idx → EReal)
        = fun i => SegTree.kMsk 1048576 (indsOf m c) 10 (i 0).val) ∧
    ((W20 m c main_arg0 : S16777216.Idx → EReal) = m ((c.tc : Thread nD τ).loc main_arg0)) :=
  have h := chain_9 m c hrange
  step_10 (indsOf m c) (valsOf m c) (W18 m c) (m ((c.tc : Thread nD τ).loc main_arg0)) h.2.2 h.1 h.2.1

theorem chain_11 (c : Dev nD)
    (hrange : ∀ k : Fin 1048576, ((m ((c.tc : Thread nD τ).loc main_arg1)) (ValueIdx.ix1 k)).toNat < 8388608) :
    ((W22 m c main_v112 : S4096.Idx → EReal)
        = fun i => SegTree.kLvl 23 1048576 (treeOf m c) (indsOf m c) (valsOf m c) 11 (i 0).val) ∧
    ((W22 m c main_v109 : S4096.Idx → EReal)
        = fun i => SegTree.kMsk 1048576 (indsOf m c) 11 (i 0).val) ∧
    ((W22 m c main_arg0 : S16777216.Idx → EReal) = m ((c.tc : Thread nD τ).loc main_arg0)) :=
  have h := chain_10 m c hrange
  step_11 (indsOf m c) (valsOf m c) (W20 m c) (m ((c.tc : Thread nD τ).loc main_arg0)) h.2.2 h.1 h.2.1

theorem chain_12 (c : Dev nD)
    (hrange : ∀ k : Fin 1048576, ((m ((c.tc : Thread nD τ).loc main_arg1)) (ValueIdx.ix1 k)).toNat < 8388608) :
    ((W24 m c main_v128 : S2048.Idx → EReal)
        = fun i => SegTree.kLvl 23 1048576 (treeOf m c) (indsOf m c) (valsOf m c) 12 (i 0).val) ∧
    ((W24 m c main_v125 : S2048.Idx → EReal)
        = fun i => SegTree.kMsk 1048576 (indsOf m c) 12 (i 0).val) ∧
    ((W24 m c main_arg0 : S16777216.Idx → EReal) = m ((c.tc : Thread nD τ).loc main_arg0)) :=
  have h := chain_11 m c hrange
  step_12 (indsOf m c) (valsOf m c) (W22 m c) (m ((c.tc : Thread nD τ).loc main_arg0)) h.2.2 h.1 h.2.1

theorem chain_13 (c : Dev nD)
    (hrange : ∀ k : Fin 1048576, ((m ((c.tc : Thread nD τ).loc main_arg1)) (ValueIdx.ix1 k)).toNat < 8388608) :
    ((W26 m c main_v144 : S1024.Idx → EReal)
        = fun i => SegTree.kLvl 23 1048576 (treeOf m c) (indsOf m c) (valsOf m c) 13 (i 0).val) ∧
    ((W26 m c main_v141 : S1024.Idx → EReal)
        = fun i => SegTree.kMsk 1048576 (indsOf m c) 13 (i 0).val) ∧
    ((W26 m c main_arg0 : S16777216.Idx → EReal) = m ((c.tc : Thread nD τ).loc main_arg0)) :=
  have h := chain_12 m c hrange
  step_13 (indsOf m c) (valsOf m c) (W24 m c) (m ((c.tc : Thread nD τ).loc main_arg0)) h.2.2 h.1 h.2.1

theorem chain_14 (c : Dev nD)
    (hrange : ∀ k : Fin 1048576, ((m ((c.tc : Thread nD τ).loc main_arg1)) (ValueIdx.ix1 k)).toNat < 8388608) :
    ((W28 m c main_v160 : S512.Idx → EReal)
        = fun i => SegTree.kLvl 23 1048576 (treeOf m c) (indsOf m c) (valsOf m c) 14 (i 0).val) ∧
    ((W28 m c main_v157 : S512.Idx → EReal)
        = fun i => SegTree.kMsk 1048576 (indsOf m c) 14 (i 0).val) ∧
    ((W28 m c main_arg0 : S16777216.Idx → EReal) = m ((c.tc : Thread nD τ).loc main_arg0)) :=
  have h := chain_13 m c hrange
  step_14 (indsOf m c) (valsOf m c) (W26 m c) (m ((c.tc : Thread nD τ).loc main_arg0)) h.2.2 h.1 h.2.1

theorem chain_15 (c : Dev nD)
    (hrange : ∀ k : Fin 1048576, ((m ((c.tc : Thread nD τ).loc main_arg1)) (ValueIdx.ix1 k)).toNat < 8388608) :
    ((W30 m c main_v176 : S256.Idx → EReal)
        = fun i => SegTree.kLvl 23 1048576 (treeOf m c) (indsOf m c) (valsOf m c) 15 (i 0).val) ∧
    ((W30 m c main_v173 : S256.Idx → EReal)
        = fun i => SegTree.kMsk 1048576 (indsOf m c) 15 (i 0).val) ∧
    ((W30 m c main_arg0 : S16777216.Idx → EReal) = m ((c.tc : Thread nD τ).loc main_arg0)) :=
  have h := chain_14 m c hrange
  step_15 (indsOf m c) (valsOf m c) (W28 m c) (m ((c.tc : Thread nD τ).loc main_arg0)) h.2.2 h.1 h.2.1

theorem chain_16 (c : Dev nD)
    (hrange : ∀ k : Fin 1048576, ((m ((c.tc : Thread nD τ).loc main_arg1)) (ValueIdx.ix1 k)).toNat < 8388608) :
    ((W32 m c main_v192 : S128.Idx → EReal)
        = fun i => SegTree.kLvl 23 1048576 (treeOf m c) (indsOf m c) (valsOf m c) 16 (i 0).val) ∧
    ((W32 m c main_v189 : S128.Idx → EReal)
        = fun i => SegTree.kMsk 1048576 (indsOf m c) 16 (i 0).val) ∧
    ((W32 m c main_arg0 : S16777216.Idx → EReal) = m ((c.tc : Thread nD τ).loc main_arg0)) :=
  have h := chain_15 m c hrange
  step_16 (indsOf m c) (valsOf m c) (W30 m c) (m ((c.tc : Thread nD τ).loc main_arg0)) h.2.2 h.1 h.2.1

theorem chain_17 (c : Dev nD)
    (hrange : ∀ k : Fin 1048576, ((m ((c.tc : Thread nD τ).loc main_arg1)) (ValueIdx.ix1 k)).toNat < 8388608) :
    ((W34 m c main_v208 : S64.Idx → EReal)
        = fun i => SegTree.kLvl 23 1048576 (treeOf m c) (indsOf m c) (valsOf m c) 17 (i 0).val) ∧
    ((W34 m c main_v205 : S64.Idx → EReal)
        = fun i => SegTree.kMsk 1048576 (indsOf m c) 17 (i 0).val) ∧
    ((W34 m c main_arg0 : S16777216.Idx → EReal) = m ((c.tc : Thread nD τ).loc main_arg0)) :=
  have h := chain_16 m c hrange
  step_17 (indsOf m c) (valsOf m c) (W32 m c) (m ((c.tc : Thread nD τ).loc main_arg0)) h.2.2 h.1 h.2.1

theorem chain_18 (c : Dev nD)
    (hrange : ∀ k : Fin 1048576, ((m ((c.tc : Thread nD τ).loc main_arg1)) (ValueIdx.ix1 k)).toNat < 8388608) :
    ((W36 m c main_v224 : S32.Idx → EReal)
        = fun i => SegTree.kLvl 23 1048576 (treeOf m c) (indsOf m c) (valsOf m c) 18 (i 0).val) ∧
    ((W36 m c main_v221 : S32.Idx → EReal)
        = fun i => SegTree.kMsk 1048576 (indsOf m c) 18 (i 0).val) ∧
    ((W36 m c main_arg0 : S16777216.Idx → EReal) = m ((c.tc : Thread nD τ).loc main_arg0)) :=
  have h := chain_17 m c hrange
  step_18 (indsOf m c) (valsOf m c) (W34 m c) (m ((c.tc : Thread nD τ).loc main_arg0)) h.2.2 h.1 h.2.1

theorem chain_19 (c : Dev nD)
    (hrange : ∀ k : Fin 1048576, ((m ((c.tc : Thread nD τ).loc main_arg1)) (ValueIdx.ix1 k)).toNat < 8388608) :
    ((W38 m c main_v240 : S16.Idx → EReal)
        = fun i => SegTree.kLvl 23 1048576 (treeOf m c) (indsOf m c) (valsOf m c) 19 (i 0).val) ∧
    ((W38 m c main_v237 : S16.Idx → EReal)
        = fun i => SegTree.kMsk 1048576 (indsOf m c) 19 (i 0).val) ∧
    ((W38 m c main_arg0 : S16777216.Idx → EReal) = m ((c.tc : Thread nD τ).loc main_arg0)) :=
  have h := chain_18 m c hrange
  step_19 (indsOf m c) (valsOf m c) (W36 m c) (m ((c.tc : Thread nD τ).loc main_arg0)) h.2.2 h.1 h.2.1

theorem chain_20 (c : Dev nD)
    (hrange : ∀ k : Fin 1048576, ((m ((c.tc : Thread nD τ).loc main_arg1)) (ValueIdx.ix1 k)).toNat < 8388608) :
    ((W40 m c main_v256 : S8.Idx → EReal)
        = fun i => SegTree.kLvl 23 1048576 (treeOf m c) (indsOf m c) (valsOf m c) 20 (i 0).val) ∧
    ((W40 m c main_v253 : S8.Idx → EReal)
        = fun i => SegTree.kMsk 1048576 (indsOf m c) 20 (i 0).val) ∧
    ((W40 m c main_arg0 : S16777216.Idx → EReal) = m ((c.tc : Thread nD τ).loc main_arg0)) :=
  have h := chain_19 m c hrange
  step_20 (indsOf m c) (valsOf m c) (W38 m c) (m ((c.tc : Thread nD τ).loc main_arg0)) h.2.2 h.1 h.2.1

theorem chain_21 (c : Dev nD)
    (hrange : ∀ k : Fin 1048576, ((m ((c.tc : Thread nD τ).loc main_arg1)) (ValueIdx.ix1 k)).toNat < 8388608) :
    ((W42 m c main_v272 : S4.Idx → EReal)
        = fun i => SegTree.kLvl 23 1048576 (treeOf m c) (indsOf m c) (valsOf m c) 21 (i 0).val) ∧
    ((W42 m c main_v269 : S4.Idx → EReal)
        = fun i => SegTree.kMsk 1048576 (indsOf m c) 21 (i 0).val) ∧
    ((W42 m c main_arg0 : S16777216.Idx → EReal) = m ((c.tc : Thread nD τ).loc main_arg0)) :=
  have h := chain_20 m c hrange
  step_21 (indsOf m c) (valsOf m c) (W40 m c) (m ((c.tc : Thread nD τ).loc main_arg0)) h.2.2 h.1 h.2.1

theorem chain_22 (c : Dev nD)
    (hrange : ∀ k : Fin 1048576, ((m ((c.tc : Thread nD τ).loc main_arg1)) (ValueIdx.ix1 k)).toNat < 8388608) :
    ((W44 m c main_v288 : S2.Idx → EReal)
        = fun i => SegTree.kLvl 23 1048576 (treeOf m c) (indsOf m c) (valsOf m c) 22 (i 0).val) ∧
    ((W44 m c main_v285 : S2.Idx → EReal)
        = fun i => SegTree.kMsk 1048576 (indsOf m c) 22 (i 0).val) ∧
    ((W44 m c main_arg0 : S16777216.Idx → EReal) = m ((c.tc : Thread nD τ).loc main_arg0)) :=
  have h := chain_21 m c hrange
  step_22 (indsOf m c) (valsOf m c) (W42 m c) (m ((c.tc : Thread nD τ).loc main_arg0)) h.2.2 h.1 h.2.1

theorem chain_23 (c : Dev nD)
    (hrange : ∀ k : Fin 1048576, ((m ((c.tc : Thread nD τ).loc main_arg1)) (ValueIdx.ix1 k)).toNat < 8388608) :
    ((W46 m c main_v304 : S1.Idx → EReal)
        = fun i => SegTree.kLvl 23 1048576 (treeOf m c) (indsOf m c) (valsOf m c) 23 (i 0).val) ∧
    ((W46 m c main_v301 : S1.Idx → EReal)
        = fun i => SegTree.kMsk 1048576 (indsOf m c) 23 (i 0).val) ∧
    ((W46 m c main_arg0 : S16777216.Idx → EReal) = m ((c.tc : Thread nD τ).loc main_arg0)) :=
  have h := chain_22 m c hrange
  step_23 (indsOf m c) (valsOf m c) (W44 m c) (m ((c.tc : Thread nD τ).loc main_arg0)) h.2.2 h.1 h.2.1

theorem keep46_8 (c : Dev nD) : W46 m c (Proc.devRef .tc main_v64) = W16 m c (Proc.devRef .tc main_v64) :=
  (keepS_31 (W45 m c) main_v64 (by decide)).trans
    ((keepS_30 (W44 m c) main_v64 (by decide)).trans
    ((keepS_29 (W43 m c) main_v64 (by decide)).trans
    ((keepS_28 (W42 m c) main_v64 (by decide)).trans
    ((keepS_27 (W41 m c) main_v64 (by decide)).trans
    ((keepS_26 (W40 m c) main_v64 (by decide)).trans
    ((keepS_25 (W39 m c) main_v64 (by decide)).trans
    ((keepS_24 (W38 m c) main_v64 (by decide)).trans
    ((keepS_23 (W37 m c) main_v64 (by decide)).trans
    ((keepS_22 (W36 m c) main_v64 (by decide)).trans
    ((keepS_21 (W35 m c) main_v64 (by decide)).trans
    ((keepS_20 (W34 m c) main_v64 (by decide)).trans
    ((keepS_19 (W33 m c) main_v64 (by decide)).trans
    ((keepS_18 (W32 m c) main_v64 (by decide)).trans
    ((keepS_17 (W31 m c) main_v64 (by decide)).trans
    ((keepS_16 (W30 m c) main_v64 (by decide)).trans
    ((keepS_15 (W29 m c) main_v64 (by decide)).trans
    ((keepS_14 (W28 m c) main_v64 (by decide)).trans
    ((keepS_13 (W27 m c) main_v64 (by decide)).trans
    ((keepS_12 (W26 m c) main_v64 (by decide)).trans
    ((keepS_11 (W25 m c) main_v64 (by decide)).trans
    ((keepS_10 (W24 m c) main_v64 (by decide)).trans
    ((keepS_9 (W23 m c) main_v64 (by decide)).trans
    ((keepS_8 (W22 m c) main_v64 (by decide)).trans
    ((keepS_7 (W21 m c) main_v64 (by decide)).trans
    ((keepS_6 (W20 m c) main_v64 (by decide)).trans
    ((keepS_5 (W19 m c) main_v64 (by decide)).trans
    ((keepS_4 (W18 m c) main_v64 (by decide)).trans
    ((keepS_3 (W17 m c) main_v64 (by decide)).trans
    ((keepS_2 (W16 m c) main_v64 (by decide)))))))))))))))))))))))))))))))

theorem tail46_lvl_8 (c : Dev nD)
    (hrange : ∀ k : Fin 1048576, ((m ((c.tc : Thread nD τ).loc main_arg1)) (ValueIdx.ix1 k)).toNat < 8388608) :
    (W46 m c (Proc.devRef .tc main_v64) : S32768.Idx → EReal)
      = fun i => SegTree.kLvl 23 1048576 (treeOf m c) (indsOf m c) (valsOf m c) 8 (i 0).val :=
  (keep46_8 m c).trans (chain_8 m c hrange).1

theorem tail_lvl_8 (c : Dev nD)
    (hrange : ∀ k : Fin 1048576, ((m ((c.tc : Thread nD τ).loc main_arg1)) (ValueIdx.ix1 k)).toNat < 8388608) :
    (W47 m c (Proc.devRef .tc main_v64) : S32768.Idx → EReal)
      = fun i => SegTree.kLvl 23 1048576 (treeOf m c) (indsOf m c) (valsOf m c) 8 (i 0).val :=
  (keepS_32 (W46 m c) main_v64 (by decide)).trans (tail46_lvl_8 m c hrange)

theorem tail_msk_8 (c : Dev nD)
    (hrange : ∀ k : Fin 1048576, ((m ((c.tc : Thread nD τ).loc main_arg1)) (ValueIdx.ix1 k)).toNat < 8388608) :
    (W16 m c (Proc.devRef .tc main_v61) : S32768.Idx → EReal)
      = fun i => SegTree.kMsk 1048576 (indsOf m c) 8 (i 0).val :=
  (chain_8 m c hrange).2.1

theorem keep46_9 (c : Dev nD) : W46 m c (Proc.devRef .tc main_v80) = W18 m c (Proc.devRef .tc main_v80) :=
  (keepS_31 (W45 m c) main_v80 (by decide)).trans
    ((keepS_30 (W44 m c) main_v80 (by decide)).trans
    ((keepS_29 (W43 m c) main_v80 (by decide)).trans
    ((keepS_28 (W42 m c) main_v80 (by decide)).trans
    ((keepS_27 (W41 m c) main_v80 (by decide)).trans
    ((keepS_26 (W40 m c) main_v80 (by decide)).trans
    ((keepS_25 (W39 m c) main_v80 (by decide)).trans
    ((keepS_24 (W38 m c) main_v80 (by decide)).trans
    ((keepS_23 (W37 m c) main_v80 (by decide)).trans
    ((keepS_22 (W36 m c) main_v80 (by decide)).trans
    ((keepS_21 (W35 m c) main_v80 (by decide)).trans
    ((keepS_20 (W34 m c) main_v80 (by decide)).trans
    ((keepS_19 (W33 m c) main_v80 (by decide)).trans
    ((keepS_18 (W32 m c) main_v80 (by decide)).trans
    ((keepS_17 (W31 m c) main_v80 (by decide)).trans
    ((keepS_16 (W30 m c) main_v80 (by decide)).trans
    ((keepS_15 (W29 m c) main_v80 (by decide)).trans
    ((keepS_14 (W28 m c) main_v80 (by decide)).trans
    ((keepS_13 (W27 m c) main_v80 (by decide)).trans
    ((keepS_12 (W26 m c) main_v80 (by decide)).trans
    ((keepS_11 (W25 m c) main_v80 (by decide)).trans
    ((keepS_10 (W24 m c) main_v80 (by decide)).trans
    ((keepS_9 (W23 m c) main_v80 (by decide)).trans
    ((keepS_8 (W22 m c) main_v80 (by decide)).trans
    ((keepS_7 (W21 m c) main_v80 (by decide)).trans
    ((keepS_6 (W20 m c) main_v80 (by decide)).trans
    ((keepS_5 (W19 m c) main_v80 (by decide)).trans
    ((keepS_4 (W18 m c) main_v80 (by decide)))))))))))))))))))))))))))))

theorem tail46_lvl_9 (c : Dev nD)
    (hrange : ∀ k : Fin 1048576, ((m ((c.tc : Thread nD τ).loc main_arg1)) (ValueIdx.ix1 k)).toNat < 8388608) :
    (W46 m c (Proc.devRef .tc main_v80) : S16384.Idx → EReal)
      = fun i => SegTree.kLvl 23 1048576 (treeOf m c) (indsOf m c) (valsOf m c) 9 (i 0).val :=
  (keep46_9 m c).trans (chain_9 m c hrange).1

theorem tail_lvl_9 (c : Dev nD)
    (hrange : ∀ k : Fin 1048576, ((m ((c.tc : Thread nD τ).loc main_arg1)) (ValueIdx.ix1 k)).toNat < 8388608) :
    (W47 m c (Proc.devRef .tc main_v80) : S16384.Idx → EReal)
      = fun i => SegTree.kLvl 23 1048576 (treeOf m c) (indsOf m c) (valsOf m c) 9 (i 0).val :=
  (keepS_32 (W46 m c) main_v80 (by decide)).trans (tail46_lvl_9 m c hrange)

theorem tail_msk_9 (c : Dev nD)
    (hrange : ∀ k : Fin 1048576, ((m ((c.tc : Thread nD τ).loc main_arg1)) (ValueIdx.ix1 k)).toNat < 8388608) :
    (W18 m c (Proc.devRef .tc main_v77) : S16384.Idx → EReal)
      = fun i => SegTree.kMsk 1048576 (indsOf m c) 9 (i 0).val :=
  (chain_9 m c hrange).2.1

theorem keep46_10 (c : Dev nD) : W46 m c (Proc.devRef .tc main_v96) = W20 m c (Proc.devRef .tc main_v96) :=
  (keepS_31 (W45 m c) main_v96 (by decide)).trans
    ((keepS_30 (W44 m c) main_v96 (by decide)).trans
    ((keepS_29 (W43 m c) main_v96 (by decide)).trans
    ((keepS_28 (W42 m c) main_v96 (by decide)).trans
    ((keepS_27 (W41 m c) main_v96 (by decide)).trans
    ((keepS_26 (W40 m c) main_v96 (by decide)).trans
    ((keepS_25 (W39 m c) main_v96 (by decide)).trans
    ((keepS_24 (W38 m c) main_v96 (by decide)).trans
    ((keepS_23 (W37 m c) main_v96 (by decide)).trans
    ((keepS_22 (W36 m c) main_v96 (by decide)).trans
    ((keepS_21 (W35 m c) main_v96 (by decide)).trans
    ((keepS_20 (W34 m c) main_v96 (by decide)).trans
    ((keepS_19 (W33 m c) main_v96 (by decide)).trans
    ((keepS_18 (W32 m c) main_v96 (by decide)).trans
    ((keepS_17 (W31 m c) main_v96 (by decide)).trans
    ((keepS_16 (W30 m c) main_v96 (by decide)).trans
    ((keepS_15 (W29 m c) main_v96 (by decide)).trans
    ((keepS_14 (W28 m c) main_v96 (by decide)).trans
    ((keepS_13 (W27 m c) main_v96 (by decide)).trans
    ((keepS_12 (W26 m c) main_v96 (by decide)).trans
    ((keepS_11 (W25 m c) main_v96 (by decide)).trans
    ((keepS_10 (W24 m c) main_v96 (by decide)).trans
    ((keepS_9 (W23 m c) main_v96 (by decide)).trans
    ((keepS_8 (W22 m c) main_v96 (by decide)).trans
    ((keepS_7 (W21 m c) main_v96 (by decide)).trans
    ((keepS_6 (W20 m c) main_v96 (by decide)))))))))))))))))))))))))))

theorem tail46_lvl_10 (c : Dev nD)
    (hrange : ∀ k : Fin 1048576, ((m ((c.tc : Thread nD τ).loc main_arg1)) (ValueIdx.ix1 k)).toNat < 8388608) :
    (W46 m c (Proc.devRef .tc main_v96) : S8192.Idx → EReal)
      = fun i => SegTree.kLvl 23 1048576 (treeOf m c) (indsOf m c) (valsOf m c) 10 (i 0).val :=
  (keep46_10 m c).trans (chain_10 m c hrange).1

theorem tail_lvl_10 (c : Dev nD)
    (hrange : ∀ k : Fin 1048576, ((m ((c.tc : Thread nD τ).loc main_arg1)) (ValueIdx.ix1 k)).toNat < 8388608) :
    (W47 m c (Proc.devRef .tc main_v96) : S8192.Idx → EReal)
      = fun i => SegTree.kLvl 23 1048576 (treeOf m c) (indsOf m c) (valsOf m c) 10 (i 0).val :=
  (keepS_32 (W46 m c) main_v96 (by decide)).trans (tail46_lvl_10 m c hrange)

theorem tail_msk_10 (c : Dev nD)
    (hrange : ∀ k : Fin 1048576, ((m ((c.tc : Thread nD τ).loc main_arg1)) (ValueIdx.ix1 k)).toNat < 8388608) :
    (W20 m c (Proc.devRef .tc main_v93) : S8192.Idx → EReal)
      = fun i => SegTree.kMsk 1048576 (indsOf m c) 10 (i 0).val :=
  (chain_10 m c hrange).2.1

theorem keep46_11 (c : Dev nD) : W46 m c (Proc.devRef .tc main_v112) = W22 m c (Proc.devRef .tc main_v112) :=
  (keepS_31 (W45 m c) main_v112 (by decide)).trans
    ((keepS_30 (W44 m c) main_v112 (by decide)).trans
    ((keepS_29 (W43 m c) main_v112 (by decide)).trans
    ((keepS_28 (W42 m c) main_v112 (by decide)).trans
    ((keepS_27 (W41 m c) main_v112 (by decide)).trans
    ((keepS_26 (W40 m c) main_v112 (by decide)).trans
    ((keepS_25 (W39 m c) main_v112 (by decide)).trans
    ((keepS_24 (W38 m c) main_v112 (by decide)).trans
    ((keepS_23 (W37 m c) main_v112 (by decide)).trans
    ((keepS_22 (W36 m c) main_v112 (by decide)).trans
    ((keepS_21 (W35 m c) main_v112 (by decide)).trans
    ((keepS_20 (W34 m c) main_v112 (by decide)).trans
    ((keepS_19 (W33 m c) main_v112 (by decide)).trans
    ((keepS_18 (W32 m c) main_v112 (by decide)).trans
    ((keepS_17 (W31 m c) main_v112 (by decide)).trans
    ((keepS_16 (W30 m c) main_v112 (by decide)).trans
    ((keepS_15 (W29 m c) main_v112 (by decide)).trans
    ((keepS_14 (W28 m c) main_v112 (by decide)).trans
    ((keepS_13 (W27 m c) main_v112 (by decide)).trans
    ((keepS_12 (W26 m c) main_v112 (by decide)).trans
    ((keepS_11 (W25 m c) main_v112 (by decide)).trans
    ((keepS_10 (W24 m c) main_v112 (by decide)).trans
    ((keepS_9 (W23 m c) main_v112 (by decide)).trans
    ((keepS_8 (W22 m c) main_v112 (by decide)))))))))))))))))))))))))

theorem tail46_lvl_11 (c : Dev nD)
    (hrange : ∀ k : Fin 1048576, ((m ((c.tc : Thread nD τ).loc main_arg1)) (ValueIdx.ix1 k)).toNat < 8388608) :
    (W46 m c (Proc.devRef .tc main_v112) : S4096.Idx → EReal)
      = fun i => SegTree.kLvl 23 1048576 (treeOf m c) (indsOf m c) (valsOf m c) 11 (i 0).val :=
  (keep46_11 m c).trans (chain_11 m c hrange).1

theorem tail_lvl_11 (c : Dev nD)
    (hrange : ∀ k : Fin 1048576, ((m ((c.tc : Thread nD τ).loc main_arg1)) (ValueIdx.ix1 k)).toNat < 8388608) :
    (W47 m c (Proc.devRef .tc main_v112) : S4096.Idx → EReal)
      = fun i => SegTree.kLvl 23 1048576 (treeOf m c) (indsOf m c) (valsOf m c) 11 (i 0).val :=
  (keepS_32 (W46 m c) main_v112 (by decide)).trans (tail46_lvl_11 m c hrange)

theorem tail_msk_11 (c : Dev nD)
    (hrange : ∀ k : Fin 1048576, ((m ((c.tc : Thread nD τ).loc main_arg1)) (ValueIdx.ix1 k)).toNat < 8388608) :
    (W22 m c (Proc.devRef .tc main_v109) : S4096.Idx → EReal)
      = fun i => SegTree.kMsk 1048576 (indsOf m c) 11 (i 0).val :=
  (chain_11 m c hrange).2.1

theorem keep46_12 (c : Dev nD) : W46 m c (Proc.devRef .tc main_v128) = W24 m c (Proc.devRef .tc main_v128) :=
  (keepS_31 (W45 m c) main_v128 (by decide)).trans
    ((keepS_30 (W44 m c) main_v128 (by decide)).trans
    ((keepS_29 (W43 m c) main_v128 (by decide)).trans
    ((keepS_28 (W42 m c) main_v128 (by decide)).trans
    ((keepS_27 (W41 m c) main_v128 (by decide)).trans
    ((keepS_26 (W40 m c) main_v128 (by decide)).trans
    ((keepS_25 (W39 m c) main_v128 (by decide)).trans
    ((keepS_24 (W38 m c) main_v128 (by decide)).trans
    ((keepS_23 (W37 m c) main_v128 (by decide)).trans
    ((keepS_22 (W36 m c) main_v128 (by decide)).trans
    ((keepS_21 (W35 m c) main_v128 (by decide)).trans
    ((keepS_20 (W34 m c) main_v128 (by decide)).trans
    ((keepS_19 (W33 m c) main_v128 (by decide)).trans
    ((keepS_18 (W32 m c) main_v128 (by decide)).trans
    ((keepS_17 (W31 m c) main_v128 (by decide)).trans
    ((keepS_16 (W30 m c) main_v128 (by decide)).trans
    ((keepS_15 (W29 m c) main_v128 (by decide)).trans
    ((keepS_14 (W28 m c) main_v128 (by decide)).trans
    ((keepS_13 (W27 m c) main_v128 (by decide)).trans
    ((keepS_12 (W26 m c) main_v128 (by decide)).trans
    ((keepS_11 (W25 m c) main_v128 (by decide)).trans
    ((keepS_10 (W24 m c) main_v128 (by decide)))))))))))))))))))))))

theorem tail46_lvl_12 (c : Dev nD)
    (hrange : ∀ k : Fin 1048576, ((m ((c.tc : Thread nD τ).loc main_arg1)) (ValueIdx.ix1 k)).toNat < 8388608) :
    (W46 m c (Proc.devRef .tc main_v128) : S2048.Idx → EReal)
      = fun i => SegTree.kLvl 23 1048576 (treeOf m c) (indsOf m c) (valsOf m c) 12 (i 0).val :=
  (keep46_12 m c).trans (chain_12 m c hrange).1

theorem tail_lvl_12 (c : Dev nD)
    (hrange : ∀ k : Fin 1048576, ((m ((c.tc : Thread nD τ).loc main_arg1)) (ValueIdx.ix1 k)).toNat < 8388608) :
    (W47 m c (Proc.devRef .tc main_v128) : S2048.Idx → EReal)
      = fun i => SegTree.kLvl 23 1048576 (treeOf m c) (indsOf m c) (valsOf m c) 12 (i 0).val :=
  (keepS_32 (W46 m c) main_v128 (by decide)).trans (tail46_lvl_12 m c hrange)

theorem tail_msk_12 (c : Dev nD)
    (hrange : ∀ k : Fin 1048576, ((m ((c.tc : Thread nD τ).loc main_arg1)) (ValueIdx.ix1 k)).toNat < 8388608) :
    (W24 m c (Proc.devRef .tc main_v125) : S2048.Idx → EReal)
      = fun i => SegTree.kMsk 1048576 (indsOf m c) 12 (i 0).val :=
  (chain_12 m c hrange).2.1

theorem keep46_13 (c : Dev nD) : W46 m c (Proc.devRef .tc main_v144) = W26 m c (Proc.devRef .tc main_v144) :=
  (keepS_31 (W45 m c) main_v144 (by decide)).trans
    ((keepS_30 (W44 m c) main_v144 (by decide)).trans
    ((keepS_29 (W43 m c) main_v144 (by decide)).trans
    ((keepS_28 (W42 m c) main_v144 (by decide)).trans
    ((keepS_27 (W41 m c) main_v144 (by decide)).trans
    ((keepS_26 (W40 m c) main_v144 (by decide)).trans
    ((keepS_25 (W39 m c) main_v144 (by decide)).trans
    ((keepS_24 (W38 m c) main_v144 (by decide)).trans
    ((keepS_23 (W37 m c) main_v144 (by decide)).trans
    ((keepS_22 (W36 m c) main_v144 (by decide)).trans
    ((keepS_21 (W35 m c) main_v144 (by decide)).trans
    ((keepS_20 (W34 m c) main_v144 (by decide)).trans
    ((keepS_19 (W33 m c) main_v144 (by decide)).trans
    ((keepS_18 (W32 m c) main_v144 (by decide)).trans
    ((keepS_17 (W31 m c) main_v144 (by decide)).trans
    ((keepS_16 (W30 m c) main_v144 (by decide)).trans
    ((keepS_15 (W29 m c) main_v144 (by decide)).trans
    ((keepS_14 (W28 m c) main_v144 (by decide)).trans
    ((keepS_13 (W27 m c) main_v144 (by decide)).trans
    ((keepS_12 (W26 m c) main_v144 (by decide)))))))))))))))))))))

theorem tail46_lvl_13 (c : Dev nD)
    (hrange : ∀ k : Fin 1048576, ((m ((c.tc : Thread nD τ).loc main_arg1)) (ValueIdx.ix1 k)).toNat < 8388608) :
    (W46 m c (Proc.devRef .tc main_v144) : S1024.Idx → EReal)
      = fun i => SegTree.kLvl 23 1048576 (treeOf m c) (indsOf m c) (valsOf m c) 13 (i 0).val :=
  (keep46_13 m c).trans (chain_13 m c hrange).1

theorem tail_lvl_13 (c : Dev nD)
    (hrange : ∀ k : Fin 1048576, ((m ((c.tc : Thread nD τ).loc main_arg1)) (ValueIdx.ix1 k)).toNat < 8388608) :
    (W47 m c (Proc.devRef .tc main_v144) : S1024.Idx → EReal)
      = fun i => SegTree.kLvl 23 1048576 (treeOf m c) (indsOf m c) (valsOf m c) 13 (i 0).val :=
  (keepS_32 (W46 m c) main_v144 (by decide)).trans (tail46_lvl_13 m c hrange)

theorem tail_msk_13 (c : Dev nD)
    (hrange : ∀ k : Fin 1048576, ((m ((c.tc : Thread nD τ).loc main_arg1)) (ValueIdx.ix1 k)).toNat < 8388608) :
    (W26 m c (Proc.devRef .tc main_v141) : S1024.Idx → EReal)
      = fun i => SegTree.kMsk 1048576 (indsOf m c) 13 (i 0).val :=
  (chain_13 m c hrange).2.1

theorem keep46_14 (c : Dev nD) : W46 m c (Proc.devRef .tc main_v160) = W28 m c (Proc.devRef .tc main_v160) :=
  (keepS_31 (W45 m c) main_v160 (by decide)).trans
    ((keepS_30 (W44 m c) main_v160 (by decide)).trans
    ((keepS_29 (W43 m c) main_v160 (by decide)).trans
    ((keepS_28 (W42 m c) main_v160 (by decide)).trans
    ((keepS_27 (W41 m c) main_v160 (by decide)).trans
    ((keepS_26 (W40 m c) main_v160 (by decide)).trans
    ((keepS_25 (W39 m c) main_v160 (by decide)).trans
    ((keepS_24 (W38 m c) main_v160 (by decide)).trans
    ((keepS_23 (W37 m c) main_v160 (by decide)).trans
    ((keepS_22 (W36 m c) main_v160 (by decide)).trans
    ((keepS_21 (W35 m c) main_v160 (by decide)).trans
    ((keepS_20 (W34 m c) main_v160 (by decide)).trans
    ((keepS_19 (W33 m c) main_v160 (by decide)).trans
    ((keepS_18 (W32 m c) main_v160 (by decide)).trans
    ((keepS_17 (W31 m c) main_v160 (by decide)).trans
    ((keepS_16 (W30 m c) main_v160 (by decide)).trans
    ((keepS_15 (W29 m c) main_v160 (by decide)).trans
    ((keepS_14 (W28 m c) main_v160 (by decide)))))))))))))))))))

theorem tail46_lvl_14 (c : Dev nD)
    (hrange : ∀ k : Fin 1048576, ((m ((c.tc : Thread nD τ).loc main_arg1)) (ValueIdx.ix1 k)).toNat < 8388608) :
    (W46 m c (Proc.devRef .tc main_v160) : S512.Idx → EReal)
      = fun i => SegTree.kLvl 23 1048576 (treeOf m c) (indsOf m c) (valsOf m c) 14 (i 0).val :=
  (keep46_14 m c).trans (chain_14 m c hrange).1

theorem tail_lvl_14 (c : Dev nD)
    (hrange : ∀ k : Fin 1048576, ((m ((c.tc : Thread nD τ).loc main_arg1)) (ValueIdx.ix1 k)).toNat < 8388608) :
    (W47 m c (Proc.devRef .tc main_v160) : S512.Idx → EReal)
      = fun i => SegTree.kLvl 23 1048576 (treeOf m c) (indsOf m c) (valsOf m c) 14 (i 0).val :=
  (keepS_32 (W46 m c) main_v160 (by decide)).trans (tail46_lvl_14 m c hrange)

theorem tail_msk_14 (c : Dev nD)
    (hrange : ∀ k : Fin 1048576, ((m ((c.tc : Thread nD τ).loc main_arg1)) (ValueIdx.ix1 k)).toNat < 8388608) :
    (W28 m c (Proc.devRef .tc main_v157) : S512.Idx → EReal)
      = fun i => SegTree.kMsk 1048576 (indsOf m c) 14 (i 0).val :=
  (chain_14 m c hrange).2.1

theorem keep46_15 (c : Dev nD) : W46 m c (Proc.devRef .tc main_v176) = W30 m c (Proc.devRef .tc main_v176) :=
  (keepS_31 (W45 m c) main_v176 (by decide)).trans
    ((keepS_30 (W44 m c) main_v176 (by decide)).trans
    ((keepS_29 (W43 m c) main_v176 (by decide)).trans
    ((keepS_28 (W42 m c) main_v176 (by decide)).trans
    ((keepS_27 (W41 m c) main_v176 (by decide)).trans
    ((keepS_26 (W40 m c) main_v176 (by decide)).trans
    ((keepS_25 (W39 m c) main_v176 (by decide)).trans
    ((keepS_24 (W38 m c) main_v176 (by decide)).trans
    ((keepS_23 (W37 m c) main_v176 (by decide)).trans
    ((keepS_22 (W36 m c) main_v176 (by decide)).trans
    ((keepS_21 (W35 m c) main_v176 (by decide)).trans
    ((keepS_20 (W34 m c) main_v176 (by decide)).trans
    ((keepS_19 (W33 m c) main_v176 (by decide)).trans
    ((keepS_18 (W32 m c) main_v176 (by decide)).trans
    ((keepS_17 (W31 m c) main_v176 (by decide)).trans
    ((keepS_16 (W30 m c) main_v176 (by decide)))))))))))))))))

theorem tail46_lvl_15 (c : Dev nD)
    (hrange : ∀ k : Fin 1048576, ((m ((c.tc : Thread nD τ).loc main_arg1)) (ValueIdx.ix1 k)).toNat < 8388608) :
    (W46 m c (Proc.devRef .tc main_v176) : S256.Idx → EReal)
      = fun i => SegTree.kLvl 23 1048576 (treeOf m c) (indsOf m c) (valsOf m c) 15 (i 0).val :=
  (keep46_15 m c).trans (chain_15 m c hrange).1

theorem tail_lvl_15 (c : Dev nD)
    (hrange : ∀ k : Fin 1048576, ((m ((c.tc : Thread nD τ).loc main_arg1)) (ValueIdx.ix1 k)).toNat < 8388608) :
    (W47 m c (Proc.devRef .tc main_v176) : S256.Idx → EReal)
      = fun i => SegTree.kLvl 23 1048576 (treeOf m c) (indsOf m c) (valsOf m c) 15 (i 0).val :=
  (keepS_32 (W46 m c) main_v176 (by decide)).trans (tail46_lvl_15 m c hrange)

theorem tail_msk_15 (c : Dev nD)
    (hrange : ∀ k : Fin 1048576, ((m ((c.tc : Thread nD τ).loc main_arg1)) (ValueIdx.ix1 k)).toNat < 8388608) :
    (W30 m c (Proc.devRef .tc main_v173) : S256.Idx → EReal)
      = fun i => SegTree.kMsk 1048576 (indsOf m c) 15 (i 0).val :=
  (chain_15 m c hrange).2.1

theorem keep46_16 (c : Dev nD) : W46 m c (Proc.devRef .tc main_v192) = W32 m c (Proc.devRef .tc main_v192) :=
  (keepS_31 (W45 m c) main_v192 (by decide)).trans
    ((keepS_30 (W44 m c) main_v192 (by decide)).trans
    ((keepS_29 (W43 m c) main_v192 (by decide)).trans
    ((keepS_28 (W42 m c) main_v192 (by decide)).trans
    ((keepS_27 (W41 m c) main_v192 (by decide)).trans
    ((keepS_26 (W40 m c) main_v192 (by decide)).trans
    ((keepS_25 (W39 m c) main_v192 (by decide)).trans
    ((keepS_24 (W38 m c) main_v192 (by decide)).trans
    ((keepS_23 (W37 m c) main_v192 (by decide)).trans
    ((keepS_22 (W36 m c) main_v192 (by decide)).trans
    ((keepS_21 (W35 m c) main_v192 (by decide)).trans
    ((keepS_20 (W34 m c) main_v192 (by decide)).trans
    ((keepS_19 (W33 m c) main_v192 (by decide)).trans
    ((keepS_18 (W32 m c) main_v192 (by decide)))))))))))))))

theorem tail46_lvl_16 (c : Dev nD)
    (hrange : ∀ k : Fin 1048576, ((m ((c.tc : Thread nD τ).loc main_arg1)) (ValueIdx.ix1 k)).toNat < 8388608) :
    (W46 m c (Proc.devRef .tc main_v192) : S128.Idx → EReal)
      = fun i => SegTree.kLvl 23 1048576 (treeOf m c) (indsOf m c) (valsOf m c) 16 (i 0).val :=
  (keep46_16 m c).trans (chain_16 m c hrange).1

theorem tail_lvl_16 (c : Dev nD)
    (hrange : ∀ k : Fin 1048576, ((m ((c.tc : Thread nD τ).loc main_arg1)) (ValueIdx.ix1 k)).toNat < 8388608) :
    (W47 m c (Proc.devRef .tc main_v192) : S128.Idx → EReal)
      = fun i => SegTree.kLvl 23 1048576 (treeOf m c) (indsOf m c) (valsOf m c) 16 (i 0).val :=
  (keepS_32 (W46 m c) main_v192 (by decide)).trans (tail46_lvl_16 m c hrange)

theorem tail_msk_16 (c : Dev nD)
    (hrange : ∀ k : Fin 1048576, ((m ((c.tc : Thread nD τ).loc main_arg1)) (ValueIdx.ix1 k)).toNat < 8388608) :
    (W32 m c (Proc.devRef .tc main_v189) : S128.Idx → EReal)
      = fun i => SegTree.kMsk 1048576 (indsOf m c) 16 (i 0).val :=
  (chain_16 m c hrange).2.1

theorem keep46_17 (c : Dev nD) : W46 m c (Proc.devRef .tc main_v208) = W34 m c (Proc.devRef .tc main_v208) :=
  (keepS_31 (W45 m c) main_v208 (by decide)).trans
    ((keepS_30 (W44 m c) main_v208 (by decide)).trans
    ((keepS_29 (W43 m c) main_v208 (by decide)).trans
    ((keepS_28 (W42 m c) main_v208 (by decide)).trans
    ((keepS_27 (W41 m c) main_v208 (by decide)).trans
    ((keepS_26 (W40 m c) main_v208 (by decide)).trans
    ((keepS_25 (W39 m c) main_v208 (by decide)).trans
    ((keepS_24 (W38 m c) main_v208 (by decide)).trans
    ((keepS_23 (W37 m c) main_v208 (by decide)).trans
    ((keepS_22 (W36 m c) main_v208 (by decide)).trans
    ((keepS_21 (W35 m c) main_v208 (by decide)).trans
    ((keepS_20 (W34 m c) main_v208 (by decide)))))))))))))

theorem tail46_lvl_17 (c : Dev nD)
    (hrange : ∀ k : Fin 1048576, ((m ((c.tc : Thread nD τ).loc main_arg1)) (ValueIdx.ix1 k)).toNat < 8388608) :
    (W46 m c (Proc.devRef .tc main_v208) : S64.Idx → EReal)
      = fun i => SegTree.kLvl 23 1048576 (treeOf m c) (indsOf m c) (valsOf m c) 17 (i 0).val :=
  (keep46_17 m c).trans (chain_17 m c hrange).1

theorem tail_lvl_17 (c : Dev nD)
    (hrange : ∀ k : Fin 1048576, ((m ((c.tc : Thread nD τ).loc main_arg1)) (ValueIdx.ix1 k)).toNat < 8388608) :
    (W47 m c (Proc.devRef .tc main_v208) : S64.Idx → EReal)
      = fun i => SegTree.kLvl 23 1048576 (treeOf m c) (indsOf m c) (valsOf m c) 17 (i 0).val :=
  (keepS_32 (W46 m c) main_v208 (by decide)).trans (tail46_lvl_17 m c hrange)

theorem tail_msk_17 (c : Dev nD)
    (hrange : ∀ k : Fin 1048576, ((m ((c.tc : Thread nD τ).loc main_arg1)) (ValueIdx.ix1 k)).toNat < 8388608) :
    (W34 m c (Proc.devRef .tc main_v205) : S64.Idx → EReal)
      = fun i => SegTree.kMsk 1048576 (indsOf m c) 17 (i 0).val :=
  (chain_17 m c hrange).2.1

theorem keep46_18 (c : Dev nD) : W46 m c (Proc.devRef .tc main_v224) = W36 m c (Proc.devRef .tc main_v224) :=
  (keepS_31 (W45 m c) main_v224 (by decide)).trans
    ((keepS_30 (W44 m c) main_v224 (by decide)).trans
    ((keepS_29 (W43 m c) main_v224 (by decide)).trans
    ((keepS_28 (W42 m c) main_v224 (by decide)).trans
    ((keepS_27 (W41 m c) main_v224 (by decide)).trans
    ((keepS_26 (W40 m c) main_v224 (by decide)).trans
    ((keepS_25 (W39 m c) main_v224 (by decide)).trans
    ((keepS_24 (W38 m c) main_v224 (by decide)).trans
    ((keepS_23 (W37 m c) main_v224 (by decide)).trans
    ((keepS_22 (W36 m c) main_v224 (by decide)))))))))))

theorem tail46_lvl_18 (c : Dev nD)
    (hrange : ∀ k : Fin 1048576, ((m ((c.tc : Thread nD τ).loc main_arg1)) (ValueIdx.ix1 k)).toNat < 8388608) :
    (W46 m c (Proc.devRef .tc main_v224) : S32.Idx → EReal)
      = fun i => SegTree.kLvl 23 1048576 (treeOf m c) (indsOf m c) (valsOf m c) 18 (i 0).val :=
  (keep46_18 m c).trans (chain_18 m c hrange).1

theorem tail_lvl_18 (c : Dev nD)
    (hrange : ∀ k : Fin 1048576, ((m ((c.tc : Thread nD τ).loc main_arg1)) (ValueIdx.ix1 k)).toNat < 8388608) :
    (W47 m c (Proc.devRef .tc main_v224) : S32.Idx → EReal)
      = fun i => SegTree.kLvl 23 1048576 (treeOf m c) (indsOf m c) (valsOf m c) 18 (i 0).val :=
  (keepS_32 (W46 m c) main_v224 (by decide)).trans (tail46_lvl_18 m c hrange)

theorem tail_msk_18 (c : Dev nD)
    (hrange : ∀ k : Fin 1048576, ((m ((c.tc : Thread nD τ).loc main_arg1)) (ValueIdx.ix1 k)).toNat < 8388608) :
    (W36 m c (Proc.devRef .tc main_v221) : S32.Idx → EReal)
      = fun i => SegTree.kMsk 1048576 (indsOf m c) 18 (i 0).val :=
  (chain_18 m c hrange).2.1

theorem keep46_19 (c : Dev nD) : W46 m c (Proc.devRef .tc main_v240) = W38 m c (Proc.devRef .tc main_v240) :=
  (keepS_31 (W45 m c) main_v240 (by decide)).trans
    ((keepS_30 (W44 m c) main_v240 (by decide)).trans
    ((keepS_29 (W43 m c) main_v240 (by decide)).trans
    ((keepS_28 (W42 m c) main_v240 (by decide)).trans
    ((keepS_27 (W41 m c) main_v240 (by decide)).trans
    ((keepS_26 (W40 m c) main_v240 (by decide)).trans
    ((keepS_25 (W39 m c) main_v240 (by decide)).trans
    ((keepS_24 (W38 m c) main_v240 (by decide)))))))))

theorem tail46_lvl_19 (c : Dev nD)
    (hrange : ∀ k : Fin 1048576, ((m ((c.tc : Thread nD τ).loc main_arg1)) (ValueIdx.ix1 k)).toNat < 8388608) :
    (W46 m c (Proc.devRef .tc main_v240) : S16.Idx → EReal)
      = fun i => SegTree.kLvl 23 1048576 (treeOf m c) (indsOf m c) (valsOf m c) 19 (i 0).val :=
  (keep46_19 m c).trans (chain_19 m c hrange).1

theorem tail_lvl_19 (c : Dev nD)
    (hrange : ∀ k : Fin 1048576, ((m ((c.tc : Thread nD τ).loc main_arg1)) (ValueIdx.ix1 k)).toNat < 8388608) :
    (W47 m c (Proc.devRef .tc main_v240) : S16.Idx → EReal)
      = fun i => SegTree.kLvl 23 1048576 (treeOf m c) (indsOf m c) (valsOf m c) 19 (i 0).val :=
  (keepS_32 (W46 m c) main_v240 (by decide)).trans (tail46_lvl_19 m c hrange)

theorem tail_msk_19 (c : Dev nD)
    (hrange : ∀ k : Fin 1048576, ((m ((c.tc : Thread nD τ).loc main_arg1)) (ValueIdx.ix1 k)).toNat < 8388608) :
    (W38 m c (Proc.devRef .tc main_v237) : S16.Idx → EReal)
      = fun i => SegTree.kMsk 1048576 (indsOf m c) 19 (i 0).val :=
  (chain_19 m c hrange).2.1

theorem keep46_20 (c : Dev nD) : W46 m c (Proc.devRef .tc main_v256) = W40 m c (Proc.devRef .tc main_v256) :=
  (keepS_31 (W45 m c) main_v256 (by decide)).trans
    ((keepS_30 (W44 m c) main_v256 (by decide)).trans
    ((keepS_29 (W43 m c) main_v256 (by decide)).trans
    ((keepS_28 (W42 m c) main_v256 (by decide)).trans
    ((keepS_27 (W41 m c) main_v256 (by decide)).trans
    ((keepS_26 (W40 m c) main_v256 (by decide)))))))

theorem tail46_lvl_20 (c : Dev nD)
    (hrange : ∀ k : Fin 1048576, ((m ((c.tc : Thread nD τ).loc main_arg1)) (ValueIdx.ix1 k)).toNat < 8388608) :
    (W46 m c (Proc.devRef .tc main_v256) : S8.Idx → EReal)
      = fun i => SegTree.kLvl 23 1048576 (treeOf m c) (indsOf m c) (valsOf m c) 20 (i 0).val :=
  (keep46_20 m c).trans (chain_20 m c hrange).1

theorem tail_lvl_20 (c : Dev nD)
    (hrange : ∀ k : Fin 1048576, ((m ((c.tc : Thread nD τ).loc main_arg1)) (ValueIdx.ix1 k)).toNat < 8388608) :
    (W47 m c (Proc.devRef .tc main_v256) : S8.Idx → EReal)
      = fun i => SegTree.kLvl 23 1048576 (treeOf m c) (indsOf m c) (valsOf m c) 20 (i 0).val :=
  (keepS_32 (W46 m c) main_v256 (by decide)).trans (tail46_lvl_20 m c hrange)

theorem tail_msk_20 (c : Dev nD)
    (hrange : ∀ k : Fin 1048576, ((m ((c.tc : Thread nD τ).loc main_arg1)) (ValueIdx.ix1 k)).toNat < 8388608) :
    (W40 m c (Proc.devRef .tc main_v253) : S8.Idx → EReal)
      = fun i => SegTree.kMsk 1048576 (indsOf m c) 20 (i 0).val :=
  (chain_20 m c hrange).2.1

theorem keep46_21 (c : Dev nD) : W46 m c (Proc.devRef .tc main_v272) = W42 m c (Proc.devRef .tc main_v272) :=
  (keepS_31 (W45 m c) main_v272 (by decide)).trans
    ((keepS_30 (W44 m c) main_v272 (by decide)).trans
    ((keepS_29 (W43 m c) main_v272 (by decide)).trans
    ((keepS_28 (W42 m c) main_v272 (by decide)))))

theorem tail46_lvl_21 (c : Dev nD)
    (hrange : ∀ k : Fin 1048576, ((m ((c.tc : Thread nD τ).loc main_arg1)) (ValueIdx.ix1 k)).toNat < 8388608) :
    (W46 m c (Proc.devRef .tc main_v272) : S4.Idx → EReal)
      = fun i => SegTree.kLvl 23 1048576 (treeOf m c) (indsOf m c) (valsOf m c) 21 (i 0).val :=
  (keep46_21 m c).trans (chain_21 m c hrange).1

theorem tail_lvl_21 (c : Dev nD)
    (hrange : ∀ k : Fin 1048576, ((m ((c.tc : Thread nD τ).loc main_arg1)) (ValueIdx.ix1 k)).toNat < 8388608) :
    (W47 m c (Proc.devRef .tc main_v272) : S4.Idx → EReal)
      = fun i => SegTree.kLvl 23 1048576 (treeOf m c) (indsOf m c) (valsOf m c) 21 (i 0).val :=
  (keepS_32 (W46 m c) main_v272 (by decide)).trans (tail46_lvl_21 m c hrange)

theorem tail_msk_21 (c : Dev nD)
    (hrange : ∀ k : Fin 1048576, ((m ((c.tc : Thread nD τ).loc main_arg1)) (ValueIdx.ix1 k)).toNat < 8388608) :
    (W42 m c (Proc.devRef .tc main_v269) : S4.Idx → EReal)
      = fun i => SegTree.kMsk 1048576 (indsOf m c) 21 (i 0).val :=
  (chain_21 m c hrange).2.1

theorem keep46_22 (c : Dev nD) : W46 m c (Proc.devRef .tc main_v288) = W44 m c (Proc.devRef .tc main_v288) :=
  (keepS_31 (W45 m c) main_v288 (by decide)).trans
    ((keepS_30 (W44 m c) main_v288 (by decide)))

theorem tail46_lvl_22 (c : Dev nD)
    (hrange : ∀ k : Fin 1048576, ((m ((c.tc : Thread nD τ).loc main_arg1)) (ValueIdx.ix1 k)).toNat < 8388608) :
    (W46 m c (Proc.devRef .tc main_v288) : S2.Idx → EReal)
      = fun i => SegTree.kLvl 23 1048576 (treeOf m c) (indsOf m c) (valsOf m c) 22 (i 0).val :=
  (keep46_22 m c).trans (chain_22 m c hrange).1

theorem tail_lvl_22 (c : Dev nD)
    (hrange : ∀ k : Fin 1048576, ((m ((c.tc : Thread nD τ).loc main_arg1)) (ValueIdx.ix1 k)).toNat < 8388608) :
    (W47 m c (Proc.devRef .tc main_v288) : S2.Idx → EReal)
      = fun i => SegTree.kLvl 23 1048576 (treeOf m c) (indsOf m c) (valsOf m c) 22 (i 0).val :=
  (keepS_32 (W46 m c) main_v288 (by decide)).trans (tail46_lvl_22 m c hrange)

theorem tail_msk_22 (c : Dev nD)
    (hrange : ∀ k : Fin 1048576, ((m ((c.tc : Thread nD τ).loc main_arg1)) (ValueIdx.ix1 k)).toNat < 8388608) :
    (W44 m c (Proc.devRef .tc main_v285) : S2.Idx → EReal)
      = fun i => SegTree.kMsk 1048576 (indsOf m c) 22 (i 0).val :=
  (chain_22 m c hrange).2.1

theorem keep46_23 (c : Dev nD) : W46 m c (Proc.devRef .tc main_v304) = W46 m c (Proc.devRef .tc main_v304) :=
  rfl

theorem tail46_lvl_23 (c : Dev nD)
    (hrange : ∀ k : Fin 1048576, ((m ((c.tc : Thread nD τ).loc main_arg1)) (ValueIdx.ix1 k)).toNat < 8388608) :
    (W46 m c (Proc.devRef .tc main_v304) : S1.Idx → EReal)
      = fun i => SegTree.kLvl 23 1048576 (treeOf m c) (indsOf m c) (valsOf m c) 23 (i 0).val :=
  (keep46_23 m c).trans (chain_23 m c hrange).1

theorem tail_lvl_23 (c : Dev nD)
    (hrange : ∀ k : Fin 1048576, ((m ((c.tc : Thread nD τ).loc main_arg1)) (ValueIdx.ix1 k)).toNat < 8388608) :
    (W47 m c (Proc.devRef .tc main_v304) : S1.Idx → EReal)
      = fun i => SegTree.kLvl 23 1048576 (treeOf m c) (indsOf m c) (valsOf m c) 23 (i 0).val :=
  (keepS_32 (W46 m c) main_v304 (by decide)).trans (tail46_lvl_23 m c hrange)

theorem tail_msk_23 (c : Dev nD)
    (hrange : ∀ k : Fin 1048576, ((m ((c.tc : Thread nD τ).loc main_arg1)) (ValueIdx.ix1 k)).toNat < 8388608) :
    (W46 m c (Proc.devRef .tc main_v301) : S1.Idx → EReal)
      = fun i => SegTree.kMsk 1048576 (indsOf m c) 23 (i 0).val :=
  (chain_23 m c hrange).2.1

end Cert.KernelIdeal.Hand
end
-- ==== Proof.LibConcat.lean ====
import Idealize.ShloMosaic.Lib.Pipeline.Value
import Idealize.ShloMosaic.Lib.ValueIdx
import Mathlib.Tactic.IntervalCases

namespace SegOps

open Idealize.ShloMosaic Idealize.ShloMosaic.ValueIdx

variable {α : Type}

abbrev V1 (n : Nat) : Shape := ⟨1, ![n]⟩

abbrev extents1 (N : Nat) (ss : List Shape) : List Nat :=
  ss.map fun s => if h : s.rank = (V1 N).rank then s.size ((0 : Fin (V1 N).rank).cast h.symm) else 0

theorem concatenate1_apply {N : Nat} (xs : List ((s : Shape) × (s.Idx → α)))
    (h : Shape.Concatenates (xs.map (·.1)) (V1 N) 0)
    (k : Nat) (hk : k < xs.length) (n : Nat) (x : (V1 n).Idx → α) (hxk : xs[k] = ⟨V1 n, x⟩)
    (o : Nat) (ho : (extents1 N ((xs.take k).map (·.1))).sum = o)
    (p : Nat) (hp : p < N) (hlo : o ≤ p) (hhi : p < o + n) :
    concatenate (V1 N) 0 xs h (ix1 ⟨p, hp⟩) = x (ix1 ⟨p - o, by omega⟩) :=
  concatenate_apply_piece (0 : Fin (V1 N).rank) xs h (ix1 ⟨p, hp⟩) k hk (V1 n) x hxk rfl o ho (ix1 ⟨p - o, by omega⟩)
    (fun b hb => absurd (Subsingleton.elim _ _) hb) (by show o + (p - o) = p; omega)

theorem concatenate1_apply_shapes {N : Nat} (xs : List ((s : Shape) × (s.Idx → α)))
    (h : Shape.Concatenates (xs.map (·.1)) (V1 N) 0) (ss : List Shape) (hss : xs.map (·.1) = ss)
    (k : Nat) (hk : k < xs.length) (n : Nat) (x : (V1 n).Idx → α) (hxk : xs[k] = ⟨V1 n, x⟩)
    (o : Nat) (ho : (extents1 N (ss.take k)).sum = o)
    (p : Nat) (hp : p < N) (hlo : o ≤ p) (hhi : p < o + n) :
    concatenate (V1 N) 0 xs h (ix1 ⟨p, hp⟩) = x (ix1 ⟨p - o, by omega⟩) :=
  concatenate1_apply xs h k hk n x hxk o (by rw [List.map_take, hss]; exact ho) p hp hlo hhi

abbrev treeShapesA : List Shape := [V1 1, V1 1, V1 2, V1 4, V1 8, V1 16, V1 32, V1 64, V1 128, V1 256, V1 512, V1 1024, V1 2048, V1 4096, V1 8192, V1 16384]
abbrev treeShapesB : List Shape := [V1 32768, V1 65536, V1 131072, V1 262144, V1 524288, V1 1048576, V1 2097152, V1 4194304, V1 8388608]
abbrev treeShapesC : List Shape := [V1 32768, V1 16744448]

section TreeJoin

variable
  (hA : Shape.Concatenates treeShapesA (V1 32768) 0)
  (hB : Shape.Concatenates treeShapesB (V1 16744448) 0)
  (hC : Shape.Concatenates treeShapesC (V1 16777216) 0)
  (p0 : (V1 1).Idx → α)
  (l0 : (V1 1).Idx → α) (l1 : (V1 2).Idx → α) (l2 : (V1 4).Idx → α) (l3 : (V1 8).Idx → α) (l4 : (V1 16).Idx → α) (l5 : (V1 32).Idx → α) (l6 : (V1 64).Idx → α) (l7 : (V1 128).Idx → α)
  (l8 : (V1 256).Idx → α) (l9 : (V1 512).Idx → α) (l10 : (V1 1024).Idx → α) (l11 : (V1 2048).Idx → α) (l12 : (V1 4096).Idx → α) (l13 : (V1 8192).Idx → α) (l14 : (V1 16384).Idx → α) (l15 : (V1 32768).Idx → α)
  (l16 : (V1 65536).Idx → α) (l17 : (V1 131072).Idx → α) (l18 : (V1 262144).Idx → α) (l19 : (V1 524288).Idx → α) (l20 : (V1 1048576).Idx → α) (l21 : (V1 2097152).Idx → α) (l22 : (V1 4194304).Idx → α) (l23 : (V1 8388608).Idx → α)

abbrev treeListA : List ((s : Shape) × (s.Idx → α)) :=
  [⟨V1 1, p0⟩, ⟨V1 1, l0⟩, ⟨V1 2, l1⟩, ⟨V1 4, l2⟩, ⟨V1 8, l3⟩, ⟨V1 16, l4⟩, ⟨V1 32, l5⟩, ⟨V1 64, l6⟩, ⟨V1 128, l7⟩, ⟨V1 256, l8⟩, ⟨V1 512, l9⟩, ⟨V1 1024, l10⟩, ⟨V1 2048, l11⟩, ⟨V1 4096, l12⟩, ⟨V1 8192, l13⟩, ⟨V1 16384, l14⟩]

abbrev treeListB : List ((s : Shape) × (s.Idx → α)) :=
  [⟨V1 32768, l15⟩, ⟨V1 65536, l16⟩, ⟨V1 131072, l17⟩, ⟨V1 262144, l18⟩, ⟨V1 524288, l19⟩, ⟨V1 1048576, l20⟩, ⟨V1 2097152, l21⟩, ⟨V1 4194304, l22⟩, ⟨V1 8388608, l23⟩]

abbrev treeJoinA : (V1 32768).Idx → α := concatenate (V1 32768) 0 (treeListA p0 l0 l1 l2 l3 l4 l5 l6 l7 l8 l9 l10 l11 l12 l13 l14) hA

abbrev treeJoinB : (V1 16744448).Idx → α := concatenate (V1 16744448) 0 (treeListB l15 l16 l17 l18 l19 l20 l21 l22 l23) hB

abbrev treeListC : List ((s : Shape) × (s.Idx → α)) :=
  [⟨V1 32768, treeJoinA hA p0 l0 l1 l2 l3 l4 l5 l6 l7 l8 l9 l10 l11 l12 l13 l14⟩, ⟨V1 16744448, treeJoinB hB l15 l16 l17 l18 l19 l20 l21 l22 l23⟩]

abbrev treeJoin : (V1 16777216).Idx → α := concatenate (V1 16777216) 0 (treeListC hA hB p0 l0 l1 l2 l3 l4 l5 l6 l7 l8 l9 l10 l11 l12 l13 l14 l15 l16 l17 l18 l19 l20 l21 l22 l23) hC

theorem treeJoin_zero : treeJoin hA hB hC p0 l0 l1 l2 l3 l4 l5 l6 l7 l8 l9 l10 l11 l12 l13 l14 l15 l16 l17 l18 l19 l20 l21 l22 l23 (ix1 ⟨0, by decide⟩) = p0 (ix1 ⟨0, by decide⟩) :=
  (concatenate1_apply_shapes (treeListC hA hB p0 l0 l1 l2 l3 l4 l5 l6 l7 l8 l9 l10 l11 l12 l13 l14 l15 l16 l17 l18 l19 l20 l21 l22 l23) hC treeShapesC rfl 0 (by simp) 32768 _ rfl 0 rfl 0 (by decide) (by decide) (by decide)).trans
    (concatenate1_apply_shapes (treeListA p0 l0 l1 l2 l3 l4 l5 l6 l7 l8 l9 l10 l11 l12 l13 l14) hA treeShapesA rfl 0 (by simp) 1 p0 rfl 0 rfl 0 (by decide) (by decide) (by decide))

local macro "lvA" k:num o:num : tactic =>
  `(tactic| exact
    (concatenate1_apply_shapes (treeListC hA hB p0 l0 l1 l2 l3 l4 l5 l6 l7 l8 l9 l10 l11 l12 l13 l14 l15 l16 l17 l18 l19 l20 l21 l22 l23) hC treeShapesC rfl 0 (by simp) 32768 _ rfl 0 rfl _ _ (Nat.zero_le _) (by omega)).trans
      ((concatenate1_apply_shapes (treeListA p0 l0 l1 l2 l3 l4 l5 l6 l7 l8 l9 l10 l11 l12 l13 l14) hA treeShapesA rfl $k (by simp) _ _ rfl $o (by decide +kernel) _ (by omega) (by omega) (by omega)).trans
        (congrArg _ (congrArg ix1 (Fin.ext (by dsimp only; omega))))))

local macro "lvB" k:num o:num : tactic =>
  `(tactic| exact
    (concatenate1_apply_shapes (treeListC hA hB p0 l0 l1 l2 l3 l4 l5 l6 l7 l8 l9 l10 l11 l12 l13 l14 l15 l16 l17 l18 l19 l20 l21 l22 l23) hC treeShapesC rfl 1 (by simp) 16744448 _ rfl 32768 (by decide +kernel) _ _ (by omega) (by omega)).trans
      ((concatenate1_apply_shapes (treeListB l15 l16 l17 l18 l19 l20 l21 l22 l23) hB treeShapesB rfl $k (by simp) _ _ rfl $o (by decide +kernel) _ (by omega) (by omega) (by omega)).trans
        (congrArg _ (congrArg ix1 (Fin.ext (by dsimp only; omega))))))

theorem treeJoin_level_0 (j : Nat) (hj : j < 1) :
    treeJoin hA hB hC p0 l0 l1 l2 l3 l4 l5 l6 l7 l8 l9 l10 l11 l12 l13 l14 l15 l16 l17 l18 l19 l20 l21 l22 l23 (ix1 ⟨1 + j, by omega⟩) = l0 (ix1 ⟨j, hj⟩) := by lvA 1 1
theorem treeJoin_level_1 (j : Nat) (hj : j < 2) :
    treeJoin hA hB hC p0 l0 l1 l2 l3 l4 l5 l6 l7 l8 l9 l10 l11 l12 l13 l14 l15 l16 l17 l18 l19 l20 l21 l22 l23 (ix1 ⟨2 + j, by omega⟩) = l1 (ix1 ⟨j, hj⟩) := by lvA 2 2
theorem treeJoin_level_2 (j : Nat) (hj : j < 4) :
    treeJoin hA hB hC p0 l0 l1 l2 l3 l4 l5 l6 l7 l8 l9 l10 l11 l12 l13 l14 l15 l16 l17 l18 l19 l20 l21 l22 l23 (ix1 ⟨4 + j, by omega⟩) = l2 (ix1 ⟨j, hj⟩) := by lvA 3 4
theorem treeJoin_level_3 (j : Nat) (hj : j < 8) :
    treeJoin hA hB hC p0 l0 l1 l2 l3 l4 l5 l6 l7 l8 l9 l10 l11 l12 l13 l14 l15 l16 l17 l18 l19 l20 l21 l22 l23 (ix1 ⟨8 + j, by omega⟩) = l3 (ix1 ⟨j, hj⟩) := by lvA 4 8
theorem treeJoin_level_4 (j : Nat) (hj : j < 16) :
    treeJoin hA hB hC p0 l0 l1 l2 l3 l4 l5 l6 l7 l8 l9 l10 l11 l12 l13 l14 l15 l16 l17 l18 l19 l20 l21 l22 l23 (ix1 ⟨16 + j, by omega⟩) = l4 (ix1 ⟨j, hj⟩) := by lvA 5 16
theorem treeJoin_level_5 (j : Nat) (hj : j < 32) :
    treeJoin hA hB hC p0 l0 l1 l2 l3 l4 l5 l6 l7 l8 l9 l10 l11 l12 l13 l14 l15 l16 l17 l18 l19 l20 l21 l22 l23 (ix1 ⟨32 + j, by omega⟩) = l5 (ix1 ⟨j, hj⟩) := by lvA 6 32
theorem treeJoin_level_6 (j : Nat) (hj : j < 64) :
    treeJoin hA hB hC p0 l0 l1 l2 l3 l4 l5 l6 l7 l8 l9 l10 l11 l12 l13 l14 l15 l16 l17 l18 l19 l20 l21 l22 l23 (ix1 ⟨64 + j, by omega⟩) = l6 (ix1 ⟨j, hj⟩) := by lvA 7 64
theorem treeJoin_level_7 (j : Nat) (hj : j < 128) :
    treeJoin hA hB hC p0 l0 l1 l2 l3 l4 l5 l6 l7 l8 l9 l10 l11 l12 l13 l14 l15 l16 l17 l18 l19 l20 l21 l22 l23 (ix1 ⟨128 + j, by omega⟩) = l7 (ix1 ⟨j, hj⟩) := by lvA 8 128
theorem treeJoin_level_8 (j : Nat) (hj : j < 256) :
    treeJoin hA hB hC p0 l0 l1 l2 l3 l4 l5 l6 l7 l8 l9 l10 l11 l12 l13 l14 l15 l16 l17 l18 l19 l20 l21 l22 l23 (ix1 ⟨256 + j, by omega⟩) = l8 (ix1 ⟨j, hj⟩) := by lvA 9 256
theorem treeJoin_level_9 (j : Nat) (hj : j < 512) :
    treeJoin hA hB hC p0 l0 l1 l2 l3 l4 l5 l6 l7 l8 l9 l10 l11 l12 l13 l14 l15 l16 l17 l18 l19 l20 l21 l22 l23 (ix1 ⟨512 + j, by omega⟩) = l9 (ix1 ⟨j, hj⟩) := by lvA 10 512
theorem treeJoin_level_10 (j : Nat) (hj : j < 1024) :
    treeJoin hA hB hC p0 l0 l1 l2 l3 l4 l5 l6 l7 l8 l9 l10 l11 l12 l13 l14 l15 l16 l17 l18 l19 l20 l21 l22 l23 (ix1 ⟨1024 + j, by omega⟩) = l10 (ix1 ⟨j, hj⟩) := by lvA 11 1024
theorem treeJoin_level_11 (j : Nat) (hj : j < 2048) :
    treeJoin hA hB hC p0 l0 l1 l2 l3 l4 l5 l6 l7 l8 l9 l10 l11 l12 l13 l14 l15 l16 l17 l18 l19 l20 l21 l22 l23 (ix1 ⟨2048 + j, by omega⟩) = l11 (ix1 ⟨j, hj⟩) := by lvA 12 2048
theorem treeJoin_level_12 (j : Nat) (hj : j < 4096) :
    treeJoin hA hB hC p0 l0 l1 l2 l3 l4 l5 l6 l7 l8 l9 l10 l11 l12 l13 l14 l15 l16 l17 l18 l19 l20 l21 l22 l23 (ix1 ⟨4096 + j, by omega⟩) = l12 (ix1 ⟨j, hj⟩) := by lvA 13 4096
theorem treeJoin_level_13 (j : Nat) (hj : j < 8192) :
    treeJoin hA hB hC p0 l0 l1 l2 l3 l4 l5 l6 l7 l8 l9 l10 l11 l12 l13 l14 l15 l16 l17 l18 l19 l20 l21 l22 l23 (ix1 ⟨8192 + j, by omega⟩) = l13 (ix1 ⟨j, hj⟩) := by lvA 14 8192
theorem treeJoin_level_14 (j : Nat) (hj : j < 16384) :
    treeJoin hA hB hC p0 l0 l1 l2 l3 l4 l5 l6 l7 l8 l9 l10 l11 l12 l13 l14 l15 l16 l17 l18 l19 l20 l21 l22 l23 (ix1 ⟨16384 + j, by omega⟩) = l14 (ix1 ⟨j, hj⟩) := by lvA 15 16384
theorem treeJoin_level_15 (j : Nat) (hj : j < 32768) :
    treeJoin hA hB hC p0 l0 l1 l2 l3 l4 l5 l6 l7 l8 l9 l10 l11 l12 l13 l14 l15 l16 l17 l18 l19 l20 l21 l22 l23 (ix1 ⟨32768 + j, by omega⟩) = l15 (ix1 ⟨j, hj⟩) := by lvB 0 0
theorem treeJoin_level_16 (j : Nat) (hj : j < 65536) :
    treeJoin hA hB hC p0 l0 l1 l2 l3 l4 l5 l6 l7 l8 l9 l10 l11 l12 l13 l14 l15 l16 l17 l18 l19 l20 l21 l22 l23 (ix1 ⟨65536 + j, by omega⟩) = l16 (ix1 ⟨j, hj⟩) := by lvB 1 32768
theorem treeJoin_level_17 (j : Nat) (hj : j < 131072) :
    treeJoin hA hB hC p0 l0 l1 l2 l3 l4 l5 l6 l7 l8 l9 l10 l11 l12 l13 l14 l15 l16 l17 l18 l19 l20 l21 l22 l23 (ix1 ⟨131072 + j, by omega⟩) = l17 (ix1 ⟨j, hj⟩) := by lvB 2 98304
theorem treeJoin_level_18 (j : Nat) (hj : j < 262144) :
    treeJoin hA hB hC p0 l0 l1 l2 l3 l4 l5 l6 l7 l8 l9 l10 l11 l12 l13 l14 l15 l16 l17 l18 l19 l20 l21 l22 l23 (ix1 ⟨262144 + j, by omega⟩) = l18 (ix1 ⟨j, hj⟩) := by lvB 3 229376
theorem treeJoin_level_19 (j : Nat) (hj : j < 524288) :
    treeJoin hA hB hC p0 l0 l1 l2 l3 l4 l5 l6 l7 l8 l9 l10 l11 l12 l13 l14 l15 l16 l17 l18 l19 l20 l21 l22 l23 (ix1 ⟨524288 + j, by omega⟩) = l19 (ix1 ⟨j, hj⟩) := by lvB 4 491520
theorem treeJoin_level_20 (j : Nat) (hj : j < 1048576) :
    treeJoin hA hB hC p0 l0 l1 l2 l3 l4 l5 l6 l7 l8 l9 l10 l11 l12 l13 l14 l15 l16 l17 l18 l19 l20 l21 l22 l23 (ix1 ⟨1048576 + j, by omega⟩) = l20 (ix1 ⟨j, hj⟩) := by lvB 5 1015808
theorem treeJoin_level_21 (j : Nat) (hj : j < 2097152) :
    treeJoin hA hB hC p0 l0 l1 l2 l3 l4 l5 l6 l7 l8 l9 l10 l11 l12 l13 l14 l15 l16 l17 l18 l19 l20 l21 l22 l23 (ix1 ⟨2097152 + j, by omega⟩) = l21 (ix1 ⟨j, hj⟩) := by lvB 6 2064384
theorem treeJoin_level_22 (j : Nat) (hj : j < 4194304) :
    treeJoin hA hB hC p0 l0 l1 l2 l3 l4 l5 l6 l7 l8 l9 l10 l11 l12 l13 l14 l15 l16 l17 l18 l19 l20 l21 l22 l23 (ix1 ⟨4194304 + j, by omega⟩) = l22 (ix1 ⟨j, hj⟩) := by lvB 7 4161536
theorem treeJoin_level_23 (j : Nat) (hj : j < 8388608) :
    treeJoin hA hB hC p0 l0 l1 l2 l3 l4 l5 l6 l7 l8 l9 l10 l11 l12 l13 l14 l15 l16 l17 l18 l19 l20 l21 l22 l23 (ix1 ⟨8388608 + j, by omega⟩) = l23 (ix1 ⟨j, hj⟩) := by lvB 8 8355840

def treeLevel (e : Fin 24) : (V1 (2 ^ e.val)).Idx → α :=
  match e with
    | ⟨0, _⟩ => l0
    | ⟨1, _⟩ => l1
    | ⟨2, _⟩ => l2
    | ⟨3, _⟩ => l3
    | ⟨4, _⟩ => l4
    | ⟨5, _⟩ => l5
    | ⟨6, _⟩ => l6
    | ⟨7, _⟩ => l7
    | ⟨8, _⟩ => l8
    | ⟨9, _⟩ => l9
    | ⟨10, _⟩ => l10
    | ⟨11, _⟩ => l11
    | ⟨12, _⟩ => l12
    | ⟨13, _⟩ => l13
    | ⟨14, _⟩ => l14
    | ⟨15, _⟩ => l15
    | ⟨16, _⟩ => l16
    | ⟨17, _⟩ => l17
    | ⟨18, _⟩ => l18
    | ⟨19, _⟩ => l19
    | ⟨20, _⟩ => l20
    | ⟨21, _⟩ => l21
    | ⟨22, _⟩ => l22
    | ⟨23, _⟩ => l23
    | ⟨_ + 24, h⟩ => absurd h (Nat.not_lt.2 (Nat.le_add_left _ _))

theorem treeJoin_level_nat (e : Nat) (he : e < 24) (j : Nat) (hj : j < 2 ^ e) (hp : 2 ^ e + j < 16777216) :
    treeJoin hA hB hC p0 l0 l1 l2 l3 l4 l5 l6 l7 l8 l9 l10 l11 l12 l13 l14 l15 l16 l17 l18 l19 l20 l21 l22 l23 (ix1 ⟨2 ^ e + j, hp⟩) = treeLevel l0 l1 l2 l3 l4 l5 l6 l7 l8 l9 l10 l11 l12 l13 l14 l15 l16 l17 l18 l19 l20 l21 l22 l23 ⟨e, he⟩ (ix1 ⟨j, hj⟩) := by
  interval_cases e
  · exact treeJoin_level_0 hA hB hC p0 l0 l1 l2 l3 l4 l5 l6 l7 l8 l9 l10 l11 l12 l13 l14 l15 l16 l17 l18 l19 l20 l21 l22 l23 j hj
  · exact treeJoin_level_1 hA hB hC p0 l0 l1 l2 l3 l4 l5 l6 l7 l8 l9 l10 l11 l12 l13 l14 l15 l16 l17 l18 l19 l20 l21 l22 l23 j hj
  · exact treeJoin_level_2 hA hB hC p0 l0 l1 l2 l3 l4 l5 l6 l7 l8 l9 l10 l11 l12 l13 l14 l15 l16 l17 l18 l19 l20 l21 l22 l23 j hj
  · exact treeJoin_level_3 hA hB hC p0 l0 l1 l2 l3 l4 l5 l6 l7 l8 l9 l10 l11 l12 l13 l14 l15 l16 l17 l18 l19 l20 l21 l22 l23 j hj
  · exact treeJoin_level_4 hA hB hC p0 l0 l1 l2 l3 l4 l5 l6 l7 l8 l9 l10 l11 l12 l13 l14 l15 l16 l17 l18 l19 l20 l21 l22 l23 j hj
  · exact treeJoin_level_5 hA hB hC p0 l0 l1 l2 l3 l4 l5 l6 l7 l8 l9 l10 l11 l12 l13 l14 l15 l16 l17 l18 l19 l20 l21 l22 l23 j hj
  · exact treeJoin_level_6 hA hB hC p0 l0 l1 l2 l3 l4 l5 l6 l7 l8 l9 l10 l11 l12 l13 l14 l15 l16 l17 l18 l19 l20 l21 l22 l23 j hj
  · exact treeJoin_level_7 hA hB hC p0 l0 l1 l2 l3 l4 l5 l6 l7 l8 l9 l10 l11 l12 l13 l14 l15 l16 l17 l18 l19 l20 l21 l22 l23 j hj
  · exact treeJoin_level_8 hA hB hC p0 l0 l1 l2 l3 l4 l5 l6 l7 l8 l9 l10 l11 l12 l13 l14 l15 l16 l17 l18 l19 l20 l21 l22 l23 j hj
  · exact treeJoin_level_9 hA hB hC p0 l0 l1 l2 l3 l4 l5 l6 l7 l8 l9 l10 l11 l12 l13 l14 l15 l16 l17 l18 l19 l20 l21 l22 l23 j hj
  · exact treeJoin_level_10 hA hB hC p0 l0 l1 l2 l3 l4 l5 l6 l7 l8 l9 l10 l11 l12 l13 l14 l15 l16 l17 l18 l19 l20 l21 l22 l23 j hj
  · exact treeJoin_level_11 hA hB hC p0 l0 l1 l2 l3 l4 l5 l6 l7 l8 l9 l10 l11 l12 l13 l14 l15 l16 l17 l18 l19 l20 l21 l22 l23 j hj
  · exact treeJoin_level_12 hA hB hC p0 l0 l1 l2 l3 l4 l5 l6 l7 l8 l9 l10 l11 l12 l13 l14 l15 l16 l17 l18 l19 l20 l21 l22 l23 j hj
  · exact treeJoin_level_13 hA hB hC p0 l0 l1 l2 l3 l4 l5 l6 l7 l8 l9 l10 l11 l12 l13 l14 l15 l16 l17 l18 l19 l20 l21 l22 l23 j hj
  · exact treeJoin_level_14 hA hB hC p0 l0 l1 l2 l3 l4 l5 l6 l7 l8 l9 l10 l11 l12 l13 l14 l15 l16 l17 l18 l19 l20 l21 l22 l23 j hj
  · exact treeJoin_level_15 hA hB hC p0 l0 l1 l2 l3 l4 l5 l6 l7 l8 l9 l10 l11 l12 l13 l14 l15 l16 l17 l18 l19 l20 l21 l22 l23 j hj
  · exact treeJoin_level_16 hA hB hC p0 l0 l1 l2 l3 l4 l5 l6 l7 l8 l9 l10 l11 l12 l13 l14 l15 l16 l17 l18 l19 l20 l21 l22 l23 j hj
  · exact treeJoin_level_17 hA hB hC p0 l0 l1 l2 l3 l4 l5 l6 l7 l8 l9 l10 l11 l12 l13 l14 l15 l16 l17 l18 l19 l20 l21 l22 l23 j hj
  · exact treeJoin_level_18 hA hB hC p0 l0 l1 l2 l3 l4 l5 l6 l7 l8 l9 l10 l11 l12 l13 l14 l15 l16 l17 l18 l19 l20 l21 l22 l23 j hj
  · exact treeJoin_level_19 hA hB hC p0 l0 l1 l2 l3 l4 l5 l6 l7 l8 l9 l10 l11 l12 l13 l14 l15 l16 l17 l18 l19 l20 l21 l22 l23 j hj
  · exact treeJoin_level_20 hA hB hC p0 l0 l1 l2 l3 l4 l5 l6 l7 l8 l9 l10 l11 l12 l13 l14 l15 l16 l17 l18 l19 l20 l21 l22 l23 j hj
  · exact treeJoin_level_21 hA hB hC p0 l0 l1 l2 l3 l4 l5 l6 l7 l8 l9 l10 l11 l12 l13 l14 l15 l16 l17 l18 l19 l20 l21 l22 l23 j hj
  · exact treeJoin_level_22 hA hB hC p0 l0 l1 l2 l3 l4 l5 l6 l7 l8 l9 l10 l11 l12 l13 l14 l15 l16 l17 l18 l19 l20 l21 l22 l23 j hj
  · exact treeJoin_level_23 hA hB hC p0 l0 l1 l2 l3 l4 l5 l6 l7 l8 l9 l10 l11 l12 l13 l14 l15 l16 l17 l18 l19 l20 l21 l22 l23 j hj

theorem treeJoin_level (e : Fin 24) (j : Fin (2 ^ e.val)) (hp : 2 ^ e.val + j.val < 16777216) :
    treeJoin hA hB hC p0 l0 l1 l2 l3 l4 l5 l6 l7 l8 l9 l10 l11 l12 l13 l14 l15 l16 l17 l18 l19 l20 l21 l22 l23 (ix1 ⟨2 ^ e.val + j.val, hp⟩) = treeLevel l0 l1 l2 l3 l4 l5 l6 l7 l8 l9 l10 l11 l12 l13 l14 l15 l16 l17 l18 l19 l20 l21 l22 l23 e (ix1 j) :=
  treeJoin_level_nat hA hB hC p0 l0 l1 l2 l3 l4 l5 l6 l7 l8 l9 l10 l11 l12 l13 l14 l15 l16 l17 l18 l19 l20 l21 l22 l23 e.val e.isLt j.val j.isLt hp

end TreeJoin

end SegOps
-- ==== Proof.KI.Value.lean ====
import proofs.«417949_j89438398972173_1_alg».proof.Proof.KI.HostTail
import proofs.«417949_j89438398972173_1_alg».proof.Proof.KI.HostHead
import proofs.«417949_j89438398972173_1_alg».proof.Proof.KI.Persist
import proofs.«417949_j89438398972173_1_alg».proof.Proof.LibConcat

noncomputable section

namespace Cert.KernelIdeal.Hand

open Cert.KernelIdeal Cert.KernelIdeal.Gen
open Idealize.ShloMosaic Idealize.ShloMosaic.TcCoe Idealize.ShloMosaic.ValueIdx Idealize.ShloMosaic.StableHlo SegTree

theorem join_read (V : Valuation τ sig (Elt Ideal)) :
    StableHlo.after (hostOps7_32 (F := Ideal)) V (Proc.devRef .tc main_v308)
      = SegOps.treeJoin concatenates_S1_S1_S2_S4_S8_S16_S32_S64_S128_S256_S512_S1024_S2048_S4096_S8192_S16384_S32768_d0
          concatenates_S32768_S65536_S131072_S262144_S524288_S1048576_S2097152_S4194304_S8388608_S16744448_d0
          concatenates_S32768_S16744448_S16777216_d0
          (extractStridedSlice S1 ![0] (V (Proc.devRef .tc main_arg0)) slices_S16777216_S1_0)
          (V (Proc.devRef .tc main_v304)) (V (Proc.devRef .tc main_v288)) (V (Proc.devRef .tc main_v272))
          (V (Proc.devRef .tc main_v256)) (V (Proc.devRef .tc main_v240)) (V (Proc.devRef .tc main_v224))
          (V (Proc.devRef .tc main_v208)) (V (Proc.devRef .tc main_v192)) (V (Proc.devRef .tc main_v176))
          (V (Proc.devRef .tc main_v160)) (V (Proc.devRef .tc main_v144)) (V (Proc.devRef .tc main_v128))
          (V (Proc.devRef .tc main_v112)) (V (Proc.devRef .tc main_v96)) (V (Proc.devRef .tc main_v80))
          (V (Proc.devRef .tc main_v64)) (V (Proc.devRef .tc main_v46)) (V (Proc.devRef .tc main_v42))
          (V (Proc.devRef .tc main_v38)) (V (Proc.devRef .tc main_v34)) (V (Proc.devRef .tc main_v30))
          (V (Proc.devRef .tc main_v26)) (V (Proc.devRef .tc main_v22)) (V (Proc.devRef .tc main_v7)) := by
  unfold hostOps7_32
  after_results_simp
  rfl

variable (m : (ℓ : Loc nD τ sig) → Buf (Elt Ideal) ℓ)

theorem inds_lt (c : Dev nD)
    (hrange : ∀ k : Fin 1048576, ((m ((c.tc : Thread nD τ).loc main_arg1)) (ValueIdx.ix1 k)).toNat < 8388608) :
    ∀ n, n < 1048576 → indsOf m c n < 2 ^ 23 := by
  intro n hn
  unfold indsOf indOf
  rw [dif_pos hn]
  have := hrange ⟨n, hn⟩
  omega

theorem spec_level (c : Dev nD)
    (hrange : ∀ k : Fin 1048576, ((m ((c.tc : Thread nD τ).loc main_arg1)) (ValueIdx.ix1 k)).toNat < 8388608)
    (P t : ℕ) (hP : P = 2 ^ (23 - t)) (ht : t ≤ 23) (j : ℕ) (hj : j < P) (hp : P + j < 16777216) :
    specOut (m ((c.tc : Thread nD τ).loc main_arg0)) (m ((c.tc : Thread nD τ).loc main_arg1))
        (m ((c.tc : Thread nD τ).loc main_arg2)) (ix1 ⟨P + j, hp⟩)
      = kLvl 23 1048576 (treeOf m c) (indsOf m c) (valsOf m c) t j := by
  subst hP
  exact T_final_eq_kLvl 23 1048576 (treeOf m c) (indsOf m c) (valsOf m c) (inds_lt m c hrange) t ht j hj

theorem level_case (c : Dev nD)
    (hrange : ∀ k : Fin 1048576, ((m ((c.tc : Thread nD τ).loc main_arg1)) (ValueIdx.ix1 k)).toNat < 8388608)
    (P t : ℕ) (hP : P = 2 ^ (23 - t)) (ht : t ≤ 23)
    (J : (⟨1, ![16777216]⟩ : Shape).Idx → EReal) (l : (⟨1, ![P]⟩ : Shape).Idx → EReal)
    (hl : l = fun i => kLvl 23 1048576 (treeOf m c) (indsOf m c) (valsOf m c) t (i 0).val)
    (j : ℕ) (hj : j < P) (hp : P + j < 16777216)
    (hJ : J (ix1 ⟨P + j, hp⟩) = l (ix1 ⟨j, hj⟩)) :
    J (ix1 ⟨P + j, hp⟩)
      = specOut (m ((c.tc : Thread nD τ).loc main_arg0)) (m ((c.tc : Thread nD τ).loc main_arg1))
          (m ((c.tc : Thread nD τ).loc main_arg2)) (ix1 ⟨P + j, hp⟩) := by
  rw [hJ, hl]
  exact (spec_level m c hrange P t hP ht j hj hp).symm

section Levels

variable (c : Dev nD)
  (hrange : ∀ k : Fin 1048576, ((m ((c.tc : Thread nD τ).loc main_arg1)) (ValueIdx.ix1 k)).toNat < 8388608)
include hrange

theorem lev_23 : (W46 m c (Proc.devRef .tc main_v304) : S1.Idx → EReal)
    = fun i => kLvl 23 1048576 (treeOf m c) (indsOf m c) (valsOf m c) 23 (i 0).val :=
  (W47_keep m c main_v304 (by decide)).symm.trans (tail_lvl_23 m c hrange)
theorem lev_22 : (W46 m c (Proc.devRef .tc main_v288) : S2.Idx → EReal)
    = fun i => kLvl 23 1048576 (treeOf m c) (indsOf m c) (valsOf m c) 22 (i 0).val :=
  (W47_keep m c main_v288 (by decide)).symm.trans (tail_lvl_22 m c hrange)
theorem lev_21 : (W46 m c (Proc.devRef .tc main_v272) : S4.Idx → EReal)
    = fun i => kLvl 23 1048576 (treeOf m c) (indsOf m c) (valsOf m c) 21 (i 0).val :=
  (W47_keep m c main_v272 (by decide)).symm.trans (tail_lvl_21 m c hrange)
theorem lev_20 : (W46 m c (Proc.devRef .tc main_v256) : S8.Idx → EReal)
    = fun i => kLvl 23 1048576 (treeOf m c) (indsOf m c) (valsOf m c) 20 (i 0).val :=
  (W47_keep m c main_v256 (by decide)).symm.trans (tail_lvl_20 m c hrange)
theorem lev_19 : (W46 m c (Proc.devRef .tc main_v240) : S16.Idx → EReal)
    = fun i => kLvl 23 1048576 (treeOf m c) (indsOf m c) (valsOf m c) 19 (i 0).val :=
  (W47_keep m c main_v240 (by decide)).symm.trans (tail_lvl_19 m c hrange)
theorem lev_18 : (W46 m c (Proc.devRef .tc main_v224) : S32.Idx → EReal)
    = fun i => kLvl 23 1048576 (treeOf m c) (indsOf m c) (valsOf m c) 18 (i 0).val :=
  (W47_keep m c main_v224 (by decide)).symm.trans (tail_lvl_18 m c hrange)
theorem lev_17 : (W46 m c (Proc.devRef .tc main_v208) : S64.Idx → EReal)
    = fun i => kLvl 23 1048576 (treeOf m c) (indsOf m c) (valsOf m c) 17 (i 0).val :=
  (W47_keep m c main_v208 (by decide)).symm.trans (tail_lvl_17 m c hrange)
theorem lev_16 : (W46 m c (Proc.devRef .tc main_v192) : S128.Idx → EReal)
    = fun i => kLvl 23 1048576 (treeOf m c) (indsOf m c) (valsOf m c) 16 (i 0).val :=
  (W47_keep m c main_v192 (by decide)).symm.trans (tail_lvl_16 m c hrange)
theorem lev_15 : (W46 m c (Proc.devRef .tc main_v176) : S256.Idx → EReal)
    = fun i => kLvl 23 1048576 (treeOf m c) (indsOf m c) (valsOf m c) 15 (i 0).val :=
  (W47_keep m c main_v176 (by decide)).symm.trans (tail_lvl_15 m c hrange)
theorem lev_14 : (W46 m c (Proc.devRef .tc main_v160) : S512.Idx → EReal)
    = fun i => kLvl 23 1048576 (treeOf m c) (indsOf m c) (valsOf m c) 14 (i 0).val :=
  (W47_keep m c main_v160 (by decide)).symm.trans (tail_lvl_14 m c hrange)
theorem lev_13 : (W46 m c (Proc.devRef .tc main_v144) : S1024.Idx → EReal)
    = fun i => kLvl 23 1048576 (treeOf m c) (indsOf m c) (valsOf m c) 13 (i 0).val :=
  (W47_keep m c main_v144 (by decide)).symm.trans (tail_lvl_13 m c hrange)
theorem lev_12 : (W46 m c (Proc.devRef .tc main_v128) : S2048.Idx → EReal)
    = fun i => kLvl 23 1048576 (treeOf m c) (indsOf m c) (valsOf m c) 12 (i 0).val :=
  (W47_keep m c main_v128 (by decide)).symm.trans (tail_lvl_12 m c hrange)
theorem lev_11 : (W46 m c (Proc.devRef .tc main_v112) : S4096.Idx → EReal)
    = fun i => kLvl 23 1048576 (treeOf m c) (indsOf m c) (valsOf m c) 11 (i 0).val :=
  (W47_keep m c main_v112 (by decide)).symm.trans (tail_lvl_11 m c hrange)
theorem lev_10 : (W46 m c (Proc.devRef .tc main_v96) : S8192.Idx → EReal)
    = fun i => kLvl 23 1048576 (treeOf m c) (indsOf m c) (valsOf m c) 10 (i 0).val :=
  (W47_keep m c main_v96 (by decide)).symm.trans (tail_lvl_10 m c hrange)
theorem lev_9 : (W46 m c (Proc.devRef .tc main_v80) : S16384.Idx → EReal)
    = fun i => kLvl 23 1048576 (treeOf m c) (indsOf m c) (valsOf m c) 9 (i 0).val :=
  (W47_keep m c main_v80 (by decide)).symm.trans (tail_lvl_9 m c hrange)
theorem lev_8 : (W46 m c (Proc.devRef .tc main_v64) : S32768.Idx → EReal)
    = fun i => kLvl 23 1048576 (treeOf m c) (indsOf m c) (valsOf m c) 8 (i 0).val :=
  (W47_keep m c main_v64 (by decide)).symm.trans (tail_lvl_8 m c hrange)
theorem lev_7 : (W46 m c (Proc.devRef .tc main_v46) : S65536.Idx → EReal)
    = fun i => kLvl 23 1048576 (treeOf m c) (indsOf m c) (valsOf m c) 7 (i 0).val :=
  (keep_main_v46 m c).trans (head_flat_6 m c hrange)
theorem lev_6 : (W46 m c (Proc.devRef .tc main_v42) : S131072.Idx → EReal)
    = fun i => kLvl 23 1048576 (treeOf m c) (indsOf m c) (valsOf m c) 6 (i 0).val :=
  (keep_main_v42 m c).trans (head_flat_5 m c hrange)
theorem lev_5 : (W46 m c (Proc.devRef .tc main_v38) : S262144.Idx → EReal)
    = fun i => kLvl 23 1048576 (treeOf m c) (indsOf m c) (valsOf m c) 5 (i 0).val :=
  (keep_main_v38 m c).trans (head_flat_4 m c hrange)
theorem lev_4 : (W46 m c (Proc.devRef .tc main_v34) : S524288.Idx → EReal)
    = fun i => kLvl 23 1048576 (treeOf m c) (indsOf m c) (valsOf m c) 4 (i 0).val :=
  (keep_main_v34 m c).trans (head_flat_3 m c hrange)
theorem lev_3 : (W46 m c (Proc.devRef .tc main_v30) : S1048576.Idx → EReal)
    = fun i => kLvl 23 1048576 (treeOf m c) (indsOf m c) (valsOf m c) 3 (i 0).val :=
  (keep_main_v30 m c).trans (head_flat_2 m c hrange)
theorem lev_2 : (W46 m c (Proc.devRef .tc main_v26) : S2097152.Idx → EReal)
    = fun i => kLvl 23 1048576 (treeOf m c) (indsOf m c) (valsOf m c) 2 (i 0).val :=
  (keep_main_v26 m c).trans (head_flat_1 m c hrange)
theorem lev_1 : (W46 m c (Proc.devRef .tc main_v22) : S4194304.Idx → EReal)
    = fun i => kLvl 23 1048576 (treeOf m c) (indsOf m c) (valsOf m c) 1 (i 0).val :=
  (keep_main_v22 m c).trans (head_flat_0 m c hrange)
theorem lev_0 : (W46 m c (Proc.devRef .tc main_v7) : S8388608.Idx → EReal)
    = fun i => kLvl 23 1048576 (treeOf m c) (indsOf m c) (valsOf m c) 0 (i 0).val :=
  (keep_main_v7 m c).trans (head_leaves m c hrange)

end Levels

theorem zero_case (c : Dev nD)
    (hrange : ∀ k : Fin 1048576, ((m ((c.tc : Thread nD τ).loc main_arg1)) (ValueIdx.ix1 k)).toNat < 8388608)
    (hp : 0 < 16777216) :
    extractStridedSlice S1 ![0] (W46 m c (Proc.devRef .tc main_arg0)) slices_S16777216_S1_0 (ix1 ⟨0, by decide⟩)
      = specOut (m ((c.tc : Thread nD τ).loc main_arg0)) (m ((c.tc : Thread nD τ).loc main_arg1))
          (m ((c.tc : Thread nD τ).loc main_arg2)) (ix1 ⟨0, hp⟩) := by
  have hz : specOut (m ((c.tc : Thread nD τ).loc main_arg0)) (m ((c.tc : Thread nD τ).loc main_arg1))
      (m ((c.tc : Thread nD τ).loc main_arg2)) (ix1 ⟨0, hp⟩) = treeOf m c 0 :=
    T_final_zero 23 1048576 (treeOf m c) (indsOf m c) (valsOf m c) (inds_lt m c hrange)
  rw [hz, arg0_W46 m c]
  unfold treeOf ofVec
  rw [dif_pos hp]
  unfold extractStridedSlice
  refine congrArg (m ((c.tc : Thread nD τ).loc main_arg0) : S16777216.Idx → EReal) ?_
  funext a
  match a with
  | ⟨0, _⟩ => exact Fin.ext rfl

set_option hygiene false in

local macro "lvl_case" J:ident L:ident P:num t:num : tactic =>
  `(tactic| (refine ($J _ _ _ _ _ _ _ _ _ _ _ _ _ _ _ _ _ _ _ _ _ _ _ _ _ _ _ _ j (by omega)).trans ?_
             rw [$L m c hrange]
             exact (spec_level m c hrange $P $t (by norm_num) (by norm_num) j (by omega) hp).symm))

set_option maxHeartbeats 4000000 in

theorem kernel_result (c : Dev nD)
    (hrange : ∀ k : Fin 1048576, ((m ((c.tc : Thread nD τ).loc main_arg1)) (ValueIdx.ix1 k)).toNat < 8388608) :
    W47 m c (Proc.devRef .tc main_v308)
      = SegTree.specOut (m ((c.tc : Thread nD τ).loc main_arg0)) (m ((c.tc : Thread nD τ).loc main_arg1)) (m ((c.tc : Thread nD τ).loc main_arg2)) := by
  refine (join_read (W46 m c)).trans ?_
  funext i
  rw [eq_ix1 i]
  generalize i 0 = q
  obtain ⟨p, hp⟩ := q
  have hp' : p < 16777216 := hp
  rcases Nat.eq_zero_or_pos p with h0 | h0
  · subst h0
    exact (SegOps.treeJoin_zero _ _ _ _ _ _ _ _ _ _ _ _ _ _ _ _ _ _ _ _ _ _ _ _ _ _ _ _).trans (zero_case m c hrange hp)
  by_cases h1 : p < 2
  · obtain ⟨j, rfl⟩ : ∃ j, p = 1 + j := ⟨p - 1, by omega⟩
    lvl_case SegOps.treeJoin_level_0 lev_23 1 23
  by_cases h2 : p < 4
  · obtain ⟨j, rfl⟩ : ∃ j, p = 2 + j := ⟨p - 2, by omega⟩
    lvl_case SegOps.treeJoin_level_1 lev_22 2 22
  by_cases h3 : p < 8
  · obtain ⟨j, rfl⟩ : ∃ j, p = 4 + j := ⟨p - 4, by omega⟩
    lvl_case SegOps.treeJoin_level_2 lev_21 4 21
  by_cases h4 : p < 16
  · obtain ⟨j, rfl⟩ : ∃ j, p = 8 + j := ⟨p - 8, by omega⟩
    lvl_case SegOps.treeJoin_level_3 lev_20 8 20
  by_cases h5 : p < 32
  · obtain ⟨j, rfl⟩ : ∃ j, p = 16 + j := ⟨p - 16, by omega⟩
    lvl_case SegOps.treeJoin_level_4 lev_19 16 19
  by_cases h6 : p < 64
  · obtain ⟨j, rfl⟩ : ∃ j, p = 32 + j := ⟨p - 32, by omega⟩
    lvl_case SegOps.treeJoin_level_5 lev_18 32 18
  by_cases h7 : p < 128
  · obtain ⟨j, rfl⟩ : ∃ j, p = 64 + j := ⟨p - 64, by omega⟩
    lvl_case SegOps.treeJoin_level_6 lev_17 64 17
  by_cases h8 : p < 256
  · obtain ⟨j, rfl⟩ : ∃ j, p = 128 + j := ⟨p - 128, by omega⟩
    lvl_case SegOps.treeJoin_level_7 lev_16 128 16
  by_cases h9 : p < 512
  · obtain ⟨j, rfl⟩ : ∃ j, p = 256 + j := ⟨p - 256, by omega⟩
    lvl_case SegOps.treeJoin_level_8 lev_15 256 15
  by_cases h10 : p < 1024
  · obtain ⟨j, rfl⟩ : ∃ j, p = 512 + j := ⟨p - 512, by omega⟩
    lvl_case SegOps.treeJoin_level_9 lev_14 512 14
  by_cases h11 : p < 2048
  · obtain ⟨j, rfl⟩ : ∃ j, p = 1024 + j := ⟨p - 1024, by omega⟩
    lvl_case SegOps.treeJoin_level_10 lev_13 1024 13
  by_cases h12 : p < 4096
  · obtain ⟨j, rfl⟩ : ∃ j, p = 2048 + j := ⟨p - 2048, by omega⟩
    lvl_case SegOps.treeJoin_level_11 lev_12 2048 12
  by_cases h13 : p < 8192
  · obtain ⟨j, rfl⟩ : ∃ j, p = 4096 + j := ⟨p - 4096, by omega⟩
    lvl_case SegOps.treeJoin_level_12 lev_11 4096 11
  by_cases h14 : p < 16384
  · obtain ⟨j, rfl⟩ : ∃ j, p = 8192 + j := ⟨p - 8192, by omega⟩
    lvl_case SegOps.treeJoin_level_13 lev_10 8192 10
  by_cases h15 : p < 32768
  · obtain ⟨j, rfl⟩ : ∃ j, p = 16384 + j := ⟨p - 16384, by omega⟩
    lvl_case SegOps.treeJoin_level_14 lev_9 16384 9
  by_cases h16 : p < 65536
  · obtain ⟨j, rfl⟩ : ∃ j, p = 32768 + j := ⟨p - 32768, by omega⟩
    lvl_case SegOps.treeJoin_level_15 lev_8 32768 8
  by_cases h17 : p < 131072
  · obtain ⟨j, rfl⟩ : ∃ j, p = 65536 + j := ⟨p - 65536, by omega⟩
    lvl_case SegOps.treeJoin_level_16 lev_7 65536 7
  by_cases h18 : p < 262144
  · obtain ⟨j, rfl⟩ : ∃ j, p = 131072 + j := ⟨p - 131072, by omega⟩
    lvl_case SegOps.treeJoin_level_17 lev_6 131072 6
  by_cases h19 : p < 524288
  · obtain ⟨j, rfl⟩ : ∃ j, p = 262144 + j := ⟨p - 262144, by omega⟩
    lvl_case SegOps.treeJoin_level_18 lev_5 262144 5
  by_cases h20 : p < 1048576
  · obtain ⟨j, rfl⟩ : ∃ j, p = 524288 + j := ⟨p - 524288, by omega⟩
    lvl_case SegOps.treeJoin_level_19 lev_4 524288 4
  by_cases h21 : p < 2097152
  · obtain ⟨j, rfl⟩ : ∃ j, p = 1048576 + j := ⟨p - 1048576, by omega⟩
    lvl_case SegOps.treeJoin_level_20 lev_3 1048576 3
  by_cases h22 : p < 4194304
  · obtain ⟨j, rfl⟩ : ∃ j, p = 2097152 + j := ⟨p - 2097152, by omega⟩
    lvl_case SegOps.treeJoin_level_21 lev_2 2097152 2
  by_cases h23 : p < 8388608
  · obtain ⟨j, rfl⟩ : ∃ j, p = 4194304 + j := ⟨p - 4194304, by omega⟩
    lvl_case SegOps.treeJoin_level_22 lev_1 4194304 1
  · obtain ⟨j, rfl⟩ : ∃ j, p = 8388608 + j := ⟨p - 8388608, by omega⟩
    lvl_case SegOps.treeJoin_level_23 lev_0 8388608 0

end Cert.KernelIdeal.Hand
end
-- ==== Proof.Ref.Types.lean ====
import proofs.«417949_j89438398972173_1_alg».proof.Proof.Gen.ReferenceIdeal

namespace Cert.ReferenceIdeal.Hand

open Cert.ReferenceIdeal Idealize.ShloMosaic

/-- The six buffer types of the reference's operations: a scalar word; 2^20 position words, flags, and the same words
    as a column; 2^20 values; the tree of 2^24 values. -/
abbrev TScal (F : FTy → Type) := (⟨S_, .i32⟩ : BufTy).Contents (Elt F)
abbrev TPos (F : FTy → Type) := (⟨S1048576, .i32⟩ : BufTy).Contents (Elt F)
abbrev TFlag (F : FTy → Type) := (⟨S1048576, .i1⟩ : BufTy).Contents (Elt F)
abbrev TCol (F : FTy → Type) := (⟨S1048576x1, .i32⟩ : BufTy).Contents (Elt F)
abbrev TVals (F : FTy → Type) := (⟨S1048576, .f32⟩ : BufTy).Contents (Elt F)
abbrev TTree (F : FTy → Type) := (⟨S16777216, .f32⟩ : BufTy).Contents (Elt F)

end Cert.ReferenceIdeal.Hand
-- ==== Proof.Ref.Regroup.Leaf.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The leaf stage of the reference: @main's operations 1 … 12. -/
abbrev opsLeaf : List (HloOp τ sig (Elt F)) :=
  [ StableHlo.nullary main_c (constantI S_ 32 8388608#32),
    StableHlo.unary main_c main_v0 (broadcastInDim S1048576 ![] bcast_S_S1048576 : TScal F → TPos F),
    StableHlo.binary main_arg1 main_v0 main_v1 (addi : TPos F → TPos F → TPos F),
    StableHlo.nullary main_c_0 (constantI S_ 32 0#32),
    StableHlo.unary main_c_0 main_v2 (broadcastInDim S1048576 ![] bcast_S_S1048576 : TScal F → TPos F),
    StableHlo.binary main_v1 main_v2 main_v3 (cmpi .slt : TPos F → TPos F → TFlag F),
    StableHlo.nullary main_c_1 (constantI S_ 32 16777216#32),
    StableHlo.unary main_c_1 main_v4 (broadcastInDim S1048576 ![] bcast_S_S1048576 : TScal F → TPos F),
    StableHlo.binary main_v1 main_v4 main_v5 (addi : TPos F → TPos F → TPos F),
    StableHlo.ternary main_v3 main_v5 main_v1 main_v6 (select : TFlag F → TPos F → TPos F → TPos F),
    StableHlo.unary main_v6 main_v7 (broadcastInDim S1048576x1 ![0] bcast_S1048576_S1048576x1_0 : TPos F → TCol F),
    StableHlo.ternary main_arg0 main_v7 main_arg2 main_v8 ((fun x i u => Host.scatter scatter_S16777216_S1048576x1_S1048576_n_0_0_1 (fun _ b => b) x i u) : TTree F → TCol F → TVals F → TTree F) ]

abbrev opsLeaf_W : List (Ref sig .tc) :=
  [main_c, main_v0, main_v1, main_c_0, main_v2, main_v3, main_c_1, main_v4, main_v5, main_v6, main_v7, main_v8]
theorem opsLeaf_writes : (opsLeaf : List (HloOp τ sig (Elt F))).Forall fun op => op.writes ⊆ (opsLeaf_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsLeaf_keep (V : Valuation τ sig (Elt F)) (b : Ref sig .tc) (h : b ∉ opsLeaf_W) :
    after (opsLeaf : List (HloOp τ sig (Elt F))) V (Proc.devRef .tc b) = V (Proc.devRef .tc b) :=
  after_of_writes_sub opsLeaf V opsLeaf_writes h

theorem opsLeaf_sub : (opsLeaf : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsLeaf_fresh : (opsLeaf : List (HloOp τ sig (Elt F))).Forall fun op => op.fresh = ∅ := by
  simp only [List.Forall]
  and_intros <;> exact rfl

end Cert.ReferenceIdeal.Hand

end
-- ==== Proof.Ref.Regroup.Rd1.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 1 of the reference: @main's operations 13 … 67. -/
abbrev opsRd1 : List (HloOp τ sig (Elt F)) :=
  [ StableHlo.nullary main_c_2 (constantI S_ 32 2#32),
    StableHlo.TRef.unary (.of main_c_2 : StableHlo.TRef sig ⟨S_, .i32⟩) main_call0.v0 id,
    StableHlo.TRef.unary main_call0.v0 main_call0.v1 (broadcastInDim S1048576 ![] bcast_S_S1048576),
    StableHlo.TRef.binary (.of main_v1 : StableHlo.TRef sig ⟨S1048576, .i32⟩) main_call0.v1 main_call0.v2 Host.divsi,
    StableHlo.TRef.unary (.of main_v1 : StableHlo.TRef sig ⟨S1048576, .i32⟩) main_call0.v3 signi,
    StableHlo.TRef.unary main_call0.v0 main_call0.v4 signi,
    StableHlo.TRef.unary main_call0.v4 main_call0.v5 (broadcastInDim S1048576 ![] bcast_S_S1048576),
    StableHlo.TRef.binary main_call0.v3 main_call0.v5 main_call0.v6 (cmpi .ne),
    StableHlo.TRef.unary main_call0.v0 main_call0.v7 (broadcastInDim S1048576 ![] bcast_S_S1048576),
    StableHlo.TRef.binary (.of main_v1 : StableHlo.TRef sig ⟨S1048576, .i32⟩) main_call0.v7 main_call0.v8 Host.remsi,
    StableHlo.TRef.nullary main_call0.c (constantI S_ 32 0#32),
    StableHlo.TRef.unary main_call0.c main_call0.v9 (broadcastInDim S1048576 ![] bcast_S_S1048576),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1048576 ![] bcast_S_S1048576),
    StableHlo.TRef.binary main_call0.v2 main_call0.v12 main_call0.v13 subi,
    StableHlo.TRef.ternary main_call0.v11 main_call0.v13 main_call0.v2 main_call0.call0.v0 select,
    StableHlo.nullary main_c_3 (constantI S_ 32 2#32),
    StableHlo.unary main_c_3 main_v10 (broadcastInDim S1048576 ![] bcast_S_S1048576 : TScal F → TPos F),
    StableHlo.binary main_v10 main_v9 main_v11 (muli : TPos F → TPos F → TPos F),
    StableHlo.nullary main_c_4 (constantI S_ 32 0#32),
    StableHlo.unary main_c_4 main_v12 (broadcastInDim S1048576 ![] bcast_S_S1048576 : TScal F → TPos F),
    StableHlo.binary main_v11 main_v12 main_v13 (cmpi .slt : TPos F → TPos F → TFlag F),
    StableHlo.nullary main_c_5 (constantI S_ 32 16777216#32),
    StableHlo.unary main_c_5 main_v14 (broadcastInDim S1048576 ![] bcast_S_S1048576 : TScal F → TPos F),
    StableHlo.binary main_v11 main_v14 main_v15 (addi : TPos F → TPos F → TPos F),
    StableHlo.ternary main_v13 main_v15 main_v11 main_v16 (select : TFlag F → TPos F → TPos F → TPos F),
    StableHlo.unary main_v16 main_v17 (broadcastInDim S1048576x1 ![0] bcast_S1048576_S1048576x1_0 : TPos F → TCol F),
    StableHlo.binary main_v8 main_v17 main_v18 ((fun x i => Host.gather gather_S16777216_S1048576x1_S1048576_n_0_n_n_0_1_1 x i) : TTree F → TCol F → TVals F),
    StableHlo.nullary main_c_6 (constantI S_ 32 2#32),
    StableHlo.unary main_c_6 main_v19 (broadcastInDim S1048576 ![] bcast_S_S1048576 : TScal F → TPos F),
    StableHlo.binary main_v19 main_v9 main_v20 (muli : TPos F → TPos F → TPos F),
    StableHlo.nullary main_c_7 (constantI S_ 32 1#32),
    StableHlo.unary main_c_7 main_v21 (broadcastInDim S1048576 ![] bcast_S_S1048576 : TScal F → TPos F),
    StableHlo.binary main_v20 main_v21 main_v22 (addi : TPos F → TPos F → TPos F),
    StableHlo.nullary main_c_8 (constantI S_ 32 0#32),
    StableHlo.unary main_c_8 main_v23 (broadcastInDim S1048576 ![] bcast_S_S1048576 : TScal F → TPos F),
    StableHlo.binary main_v22 main_v23 main_v24 (cmpi .slt : TPos F → TPos F → TFlag F),
    StableHlo.nullary main_c_9 (constantI S_ 32 16777216#32),
    StableHlo.unary main_c_9 main_v25 (broadcastInDim S1048576 ![] bcast_S_S1048576 : TScal F → TPos F),
    StableHlo.binary main_v22 main_v25 main_v26 (addi : TPos F → TPos F → TPos F),
    StableHlo.ternary main_v24 main_v26 main_v22 main_v27 (select : TFlag F → TPos F → TPos F → TPos F),
    StableHlo.unary main_v27 main_v28 (broadcastInDim S1048576x1 ![0] bcast_S1048576_S1048576x1_0 : TPos F → TCol F),
    StableHlo.binary main_v8 main_v28 main_v29 ((fun x i => Host.gather gather_S16777216_S1048576x1_S1048576_n_0_n_n_0_1_1 x i) : TTree F → TCol F → TVals F),
    StableHlo.binary main_v18 main_v29 main_v30 (addf : TVals F → TVals F → TVals F),
    StableHlo.nullary main_c_10 (constantI S_ 32 0#32),
    StableHlo.unary main_c_10 main_v31 (broadcastInDim S1048576 ![] bcast_S_S1048576 : TScal F → TPos F),
    StableHlo.binary main_v9 main_v31 main_v32 (cmpi .slt : TPos F → TPos F → TFlag F),
    StableHlo.nullary main_c_11 (constantI S_ 32 16777216#32),
    StableHlo.unary main_c_11 main_v33 (broadcastInDim S1048576 ![] bcast_S_S1048576 : TScal F → TPos F),
    StableHlo.binary main_v9 main_v33 main_v34 (addi : TPos F → TPos F → TPos F),
    StableHlo.ternary main_v32 main_v34 main_v9 main_v35 (select : TFlag F → TPos F → TPos F → TPos F),
    StableHlo.unary main_v35 main_v36 (broadcastInDim S1048576x1 ![0] bcast_S1048576_S1048576x1_0 : TPos F → TCol F),
    StableHlo.ternary main_v8 main_v36 main_v30 main_v37 ((fun x i u => Host.scatter scatter_S16777216_S1048576x1_S1048576_n_0_0_1 (fun _ b => b) x i u) : TTree F → TCol F → TVals F → TTree F) ]

abbrev opsRd1_W : List (Ref sig .tc) :=
  [main_c_2, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v9, main_c_3, main_v10, main_v11, main_c_4, main_v12, main_v13, main_c_5, main_v14, main_v15, main_v16, main_v17, main_v18, main_c_6, main_v19, main_v20, main_c_7, main_v21, main_v22, main_c_8, main_v23, main_v24, main_c_9, main_v25, main_v26, main_v27, main_v28, main_v29, main_v30, main_c_10, main_v31, main_v32, main_c_11, main_v33, main_v34, main_v35, main_v36, main_v37]
theorem opsRd1_writes : (opsRd1 : List (HloOp τ sig (Elt F))).Forall fun op => op.writes ⊆ (opsRd1_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd1_keep (V : Valuation τ sig (Elt F)) (b : Ref sig .tc) (h : b ∉ opsRd1_W) :
    after (opsRd1 : List (HloOp τ sig (Elt F))) V (Proc.devRef .tc b) = V (Proc.devRef .tc b) :=
  after_of_writes_sub opsRd1 V opsRd1_writes h

theorem opsRd1_sub : (opsRd1 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd1_fresh : (opsRd1 : List (HloOp τ sig (Elt F))).Forall fun op => op.fresh = ∅ := by
  simp only [List.Forall]
  and_intros <;> exact rfl

end Cert.ReferenceIdeal.Hand

end
-- ==== Proof.Ref.Regroup.Rd2.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 2 of the reference: @main's operations 68 … 122. -/
abbrev opsRd2 : List (HloOp τ sig (Elt F)) :=
  [ StableHlo.nullary main_c_12 (constantI S_ 32 2#32),
    StableHlo.TRef.unary (.of main_c_12 : StableHlo.TRef sig ⟨S_, .i32⟩) main_call1.v0 id,
    StableHlo.TRef.unary main_call1.v0 main_call1.v1 (broadcastInDim S1048576 ![] bcast_S_S1048576),
    StableHlo.TRef.binary (.of main_v9 : StableHlo.TRef sig ⟨S1048576, .i32⟩) main_call1.v1 main_call1.v2 Host.divsi,
    StableHlo.TRef.unary (.of main_v9 : StableHlo.TRef sig ⟨S1048576, .i32⟩) main_call1.v3 signi,
    StableHlo.TRef.unary main_call1.v0 main_call1.v4 signi,
    StableHlo.TRef.unary main_call1.v4 main_call1.v5 (broadcastInDim S1048576 ![] bcast_S_S1048576),
    StableHlo.TRef.binary main_call1.v3 main_call1.v5 main_call1.v6 (cmpi .ne),
    StableHlo.TRef.unary main_call1.v0 main_call1.v7 (broadcastInDim S1048576 ![] bcast_S_S1048576),
    StableHlo.TRef.binary (.of main_v9 : StableHlo.TRef sig ⟨S1048576, .i32⟩) main_call1.v7 main_call1.v8 Host.remsi,
    StableHlo.TRef.nullary main_call1.c (constantI S_ 32 0#32),
    StableHlo.TRef.unary main_call1.c main_call1.v9 (broadcastInDim S1048576 ![] bcast_S_S1048576),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1048576 ![] bcast_S_S1048576),
    StableHlo.TRef.binary main_call1.v2 main_call1.v12 main_call1.v13 subi,
    StableHlo.TRef.ternary main_call1.v11 main_call1.v13 main_call1.v2 main_call1.call0.v0 select,
    StableHlo.nullary main_c_13 (constantI S_ 32 2#32),
    StableHlo.unary main_c_13 main_v39 (broadcastInDim S1048576 ![] bcast_S_S1048576 : TScal F → TPos F),
    StableHlo.binary main_v39 main_v38 main_v40 (muli : TPos F → TPos F → TPos F),
    StableHlo.nullary main_c_14 (constantI S_ 32 0#32),
    StableHlo.unary main_c_14 main_v41 (broadcastInDim S1048576 ![] bcast_S_S1048576 : TScal F → TPos F),
    StableHlo.binary main_v40 main_v41 main_v42 (cmpi .slt : TPos F → TPos F → TFlag F),
    StableHlo.nullary main_c_15 (constantI S_ 32 16777216#32),
    StableHlo.unary main_c_15 main_v43 (broadcastInDim S1048576 ![] bcast_S_S1048576 : TScal F → TPos F),
    StableHlo.binary main_v40 main_v43 main_v44 (addi : TPos F → TPos F → TPos F),
    StableHlo.ternary main_v42 main_v44 main_v40 main_v45 (select : TFlag F → TPos F → TPos F → TPos F),
    StableHlo.unary main_v45 main_v46 (broadcastInDim S1048576x1 ![0] bcast_S1048576_S1048576x1_0 : TPos F → TCol F),
    StableHlo.binary main_v37 main_v46 main_v47 ((fun x i => Host.gather gather_S16777216_S1048576x1_S1048576_n_0_n_n_0_1_1 x i) : TTree F → TCol F → TVals F),
    StableHlo.nullary main_c_16 (constantI S_ 32 2#32),
    StableHlo.unary main_c_16 main_v48 (broadcastInDim S1048576 ![] bcast_S_S1048576 : TScal F → TPos F),
    StableHlo.binary main_v48 main_v38 main_v49 (muli : TPos F → TPos F → TPos F),
    StableHlo.nullary main_c_17 (constantI S_ 32 1#32),
    StableHlo.unary main_c_17 main_v50 (broadcastInDim S1048576 ![] bcast_S_S1048576 : TScal F → TPos F),
    StableHlo.binary main_v49 main_v50 main_v51 (addi : TPos F → TPos F → TPos F),
    StableHlo.nullary main_c_18 (constantI S_ 32 0#32),
    StableHlo.unary main_c_18 main_v52 (broadcastInDim S1048576 ![] bcast_S_S1048576 : TScal F → TPos F),
    StableHlo.binary main_v51 main_v52 main_v53 (cmpi .slt : TPos F → TPos F → TFlag F),
    StableHlo.nullary main_c_19 (constantI S_ 32 16777216#32),
    StableHlo.unary main_c_19 main_v54 (broadcastInDim S1048576 ![] bcast_S_S1048576 : TScal F → TPos F),
    StableHlo.binary main_v51 main_v54 main_v55 (addi : TPos F → TPos F → TPos F),
    StableHlo.ternary main_v53 main_v55 main_v51 main_v56 (select : TFlag F → TPos F → TPos F → TPos F),
    StableHlo.unary main_v56 main_v57 (broadcastInDim S1048576x1 ![0] bcast_S1048576_S1048576x1_0 : TPos F → TCol F),
    StableHlo.binary main_v37 main_v57 main_v58 ((fun x i => Host.gather gather_S16777216_S1048576x1_S1048576_n_0_n_n_0_1_1 x i) : TTree F → TCol F → TVals F),
    StableHlo.binary main_v47 main_v58 main_v59 (addf : TVals F → TVals F → TVals F),
    StableHlo.nullary main_c_20 (constantI S_ 32 0#32),
    StableHlo.unary main_c_20 main_v60 (broadcastInDim S1048576 ![] bcast_S_S1048576 : TScal F → TPos F),
    StableHlo.binary main_v38 main_v60 main_v61 (cmpi .slt : TPos F → TPos F → TFlag F),
    StableHlo.nullary main_c_21 (constantI S_ 32 16777216#32),
    StableHlo.unary main_c_21 main_v62 (broadcastInDim S1048576 ![] bcast_S_S1048576 : TScal F → TPos F),
    StableHlo.binary main_v38 main_v62 main_v63 (addi : TPos F → TPos F → TPos F),
    StableHlo.ternary main_v61 main_v63 main_v38 main_v64 (select : TFlag F → TPos F → TPos F → TPos F),
    StableHlo.unary main_v64 main_v65 (broadcastInDim S1048576x1 ![0] bcast_S1048576_S1048576x1_0 : TPos F → TCol F),
    StableHlo.ternary main_v37 main_v65 main_v59 main_v66 ((fun x i u => Host.scatter scatter_S16777216_S1048576x1_S1048576_n_0_0_1 (fun _ b => b) x i u) : TTree F → TCol F → TVals F → TTree F) ]

abbrev opsRd2_W : List (Ref sig .tc) :=
  [main_c_12, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v38, main_c_13, main_v39, main_v40, main_c_14, main_v41, main_v42, main_c_15, main_v43, main_v44, main_v45, main_v46, main_v47, main_c_16, main_v48, main_v49, main_c_17, main_v50, main_v51, main_c_18, main_v52, main_v53, main_c_19, main_v54, main_v55, main_v56, main_v57, main_v58, main_v59, main_c_20, main_v60, main_v61, main_c_21, main_v62, main_v63, main_v64, main_v65, main_v66]
theorem opsRd2_writes : (opsRd2 : List (HloOp τ sig (Elt F))).Forall fun op => op.writes ⊆ (opsRd2_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd2_keep (V : Valuation τ sig (Elt F)) (b : Ref sig .tc) (h : b ∉ opsRd2_W) :
    after (opsRd2 : List (HloOp τ sig (Elt F))) V (Proc.devRef .tc b) = V (Proc.devRef .tc b) :=
  after_of_writes_sub opsRd2 V opsRd2_writes h

theorem opsRd2_sub : (opsRd2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd2_fresh : (opsRd2 : List (HloOp τ sig (Elt F))).Forall fun op => op.fresh = ∅ := by
  simp only [List.Forall]
  and_intros <;> exact rfl

end Cert.ReferenceIdeal.Hand

end
-- ==== Proof.Ref.Regroup.Rd3.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 3 of the reference: @main's operations 123 … 177. -/
abbrev opsRd3 : List (HloOp τ sig (Elt F)) :=
  [ StableHlo.nullary main_c_22 (constantI S_ 32 2#32),
    StableHlo.TRef.unary (.of main_c_22 : StableHlo.TRef sig ⟨S_, .i32⟩) main_call2.v0 id,
    StableHlo.TRef.unary main_call2.v0 main_call2.v1 (broadcastInDim S1048576 ![] bcast_S_S1048576),
    StableHlo.TRef.binary (.of main_v38 : StableHlo.TRef sig ⟨S1048576, .i32⟩) main_call2.v1 main_call2.v2 Host.divsi,
    StableHlo.TRef.unary (.of main_v38 : StableHlo.TRef sig ⟨S1048576, .i32⟩) main_call2.v3 signi,
    StableHlo.TRef.unary main_call2.v0 main_call2.v4 signi,
    StableHlo.TRef.unary main_call2.v4 main_call2.v5 (broadcastInDim S1048576 ![] bcast_S_S1048576),
    StableHlo.TRef.binary main_call2.v3 main_call2.v5 main_call2.v6 (cmpi .ne),
    StableHlo.TRef.unary main_call2.v0 main_call2.v7 (broadcastInDim S1048576 ![] bcast_S_S1048576),
    StableHlo.TRef.binary (.of main_v38 : StableHlo.TRef sig ⟨S1048576, .i32⟩) main_call2.v7 main_call2.v8 Host.remsi,
    StableHlo.TRef.nullary main_call2.c (constantI S_ 32 0#32),
    StableHlo.TRef.unary main_call2.c main_call2.v9 (broadcastInDim S1048576 ![] bcast_S_S1048576),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S1048576 ![] bcast_S_S1048576),
    StableHlo.TRef.binary main_call2.v2 main_call2.v12 main_call2.v13 subi,
    StableHlo.TRef.ternary main_call2.v11 main_call2.v13 main_call2.v2 main_call2.call0.v0 select,
    StableHlo.nullary main_c_23 (constantI S_ 32 2#32),
    StableHlo.unary main_c_23 main_v68 (broadcastInDim S1048576 ![] bcast_S_S1048576 : TScal F → TPos F),
    StableHlo.binary main_v68 main_v67 main_v69 (muli : TPos F → TPos F → TPos F),
    StableHlo.nullary main_c_24 (constantI S_ 32 0#32),
    StableHlo.unary main_c_24 main_v70 (broadcastInDim S1048576 ![] bcast_S_S1048576 : TScal F → TPos F),
    StableHlo.binary main_v69 main_v70 main_v71 (cmpi .slt : TPos F → TPos F → TFlag F),
    StableHlo.nullary main_c_25 (constantI S_ 32 16777216#32),
    StableHlo.unary main_c_25 main_v72 (broadcastInDim S1048576 ![] bcast_S_S1048576 : TScal F → TPos F),
    StableHlo.binary main_v69 main_v72 main_v73 (addi : TPos F → TPos F → TPos F),
    StableHlo.ternary main_v71 main_v73 main_v69 main_v74 (select : TFlag F → TPos F → TPos F → TPos F),
    StableHlo.unary main_v74 main_v75 (broadcastInDim S1048576x1 ![0] bcast_S1048576_S1048576x1_0 : TPos F → TCol F),
    StableHlo.binary main_v66 main_v75 main_v76 ((fun x i => Host.gather gather_S16777216_S1048576x1_S1048576_n_0_n_n_0_1_1 x i) : TTree F → TCol F → TVals F),
    StableHlo.nullary main_c_26 (constantI S_ 32 2#32),
    StableHlo.unary main_c_26 main_v77 (broadcastInDim S1048576 ![] bcast_S_S1048576 : TScal F → TPos F),
    StableHlo.binary main_v77 main_v67 main_v78 (muli : TPos F → TPos F → TPos F),
    StableHlo.nullary main_c_27 (constantI S_ 32 1#32),
    StableHlo.unary main_c_27 main_v79 (broadcastInDim S1048576 ![] bcast_S_S1048576 : TScal F → TPos F),
    StableHlo.binary main_v78 main_v79 main_v80 (addi : TPos F → TPos F → TPos F),
    StableHlo.nullary main_c_28 (constantI S_ 32 0#32),
    StableHlo.unary main_c_28 main_v81 (broadcastInDim S1048576 ![] bcast_S_S1048576 : TScal F → TPos F),
    StableHlo.binary main_v80 main_v81 main_v82 (cmpi .slt : TPos F → TPos F → TFlag F),
    StableHlo.nullary main_c_29 (constantI S_ 32 16777216#32),
    StableHlo.unary main_c_29 main_v83 (broadcastInDim S1048576 ![] bcast_S_S1048576 : TScal F → TPos F),
    StableHlo.binary main_v80 main_v83 main_v84 (addi : TPos F → TPos F → TPos F),
    StableHlo.ternary main_v82 main_v84 main_v80 main_v85 (select : TFlag F → TPos F → TPos F → TPos F),
    StableHlo.unary main_v85 main_v86 (broadcastInDim S1048576x1 ![0] bcast_S1048576_S1048576x1_0 : TPos F → TCol F),
    StableHlo.binary main_v66 main_v86 main_v87 ((fun x i => Host.gather gather_S16777216_S1048576x1_S1048576_n_0_n_n_0_1_1 x i) : TTree F → TCol F → TVals F),
    StableHlo.binary main_v76 main_v87 main_v88 (addf : TVals F → TVals F → TVals F),
    StableHlo.nullary main_c_30 (constantI S_ 32 0#32),
    StableHlo.unary main_c_30 main_v89 (broadcastInDim S1048576 ![] bcast_S_S1048576 : TScal F → TPos F),
    StableHlo.binary main_v67 main_v89 main_v90 (cmpi .slt : TPos F → TPos F → TFlag F),
    StableHlo.nullary main_c_31 (constantI S_ 32 16777216#32),
    StableHlo.unary main_c_31 main_v91 (broadcastInDim S1048576 ![] bcast_S_S1048576 : TScal F → TPos F),
    StableHlo.binary main_v67 main_v91 main_v92 (addi : TPos F → TPos F → TPos F),
    StableHlo.ternary main_v90 main_v92 main_v67 main_v93 (select : TFlag F → TPos F → TPos F → TPos F),
    StableHlo.unary main_v93 main_v94 (broadcastInDim S1048576x1 ![0] bcast_S1048576_S1048576x1_0 : TPos F → TCol F),
    StableHlo.ternary main_v66 main_v94 main_v88 main_v95 ((fun x i u => Host.scatter scatter_S16777216_S1048576x1_S1048576_n_0_0_1 (fun _ b => b) x i u) : TTree F → TCol F → TVals F → TTree F) ]

abbrev opsRd3_W : List (Ref sig .tc) :=
  [main_c_22, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v67, main_c_23, main_v68, main_v69, main_c_24, main_v70, main_v71, main_c_25, main_v72, main_v73, main_v74, main_v75, main_v76, main_c_26, main_v77, main_v78, main_c_27, main_v79, main_v80, main_c_28, main_v81, main_v82, main_c_29, main_v83, main_v84, main_v85, main_v86, main_v87, main_v88, main_c_30, main_v89, main_v90, main_c_31, main_v91, main_v92, main_v93, main_v94, main_v95]
theorem opsRd3_writes : (opsRd3 : List (HloOp τ sig (Elt F))).Forall fun op => op.writes ⊆ (opsRd3_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd3_keep (V : Valuation τ sig (Elt F)) (b : Ref sig .tc) (h : b ∉ opsRd3_W) :
    after (opsRd3 : List (HloOp τ sig (Elt F))) V (Proc.devRef .tc b) = V (Proc.devRef .tc b) :=
  after_of_writes_sub opsRd3 V opsRd3_writes h

theorem opsRd3_sub : (opsRd3 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd3_fresh : (opsRd3 : List (HloOp τ sig (Elt F))).Forall fun op => op.fresh = ∅ := by
  simp only [List.Forall]
  and_intros <;> exact rfl

end Cert.ReferenceIdeal.Hand

end
-- ==== Proof.Ref.Regroup.Rd4.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 4 of the reference: @main's operations 178 … 232. -/
abbrev opsRd4 : List (HloOp τ sig (Elt F)) :=
  [ StableHlo.nullary main_c_32 (constantI S_ 32 2#32),
    StableHlo.TRef.unary (.of main_c_32 : StableHlo.TRef sig ⟨S_, .i32⟩) main_call3.v0 id,
    StableHlo.TRef.unary main_call3.v0 main_call3.v1 (broadcastInDim S1048576 ![] bcast_S_S1048576),
    StableHlo.TRef.binary (.of main_v67 : StableHlo.TRef sig ⟨S1048576, .i32⟩) main_call3.v1 main_call3.v2 Host.divsi,
    StableHlo.TRef.unary (.of main_v67 : StableHlo.TRef sig ⟨S1048576, .i32⟩) main_call3.v3 signi,
    StableHlo.TRef.unary main_call3.v0 main_call3.v4 signi,
    StableHlo.TRef.unary main_call3.v4 main_call3.v5 (broadcastInDim S1048576 ![] bcast_S_S1048576),
    StableHlo.TRef.binary main_call3.v3 main_call3.v5 main_call3.v6 (cmpi .ne),
    StableHlo.TRef.unary main_call3.v0 main_call3.v7 (broadcastInDim S1048576 ![] bcast_S_S1048576),
    StableHlo.TRef.binary (.of main_v67 : StableHlo.TRef sig ⟨S1048576, .i32⟩) main_call3.v7 main_call3.v8 Host.remsi,
    StableHlo.TRef.nullary main_call3.c (constantI S_ 32 0#32),
    StableHlo.TRef.unary main_call3.c main_call3.v9 (broadcastInDim S1048576 ![] bcast_S_S1048576),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S1048576 ![] bcast_S_S1048576),
    StableHlo.TRef.binary main_call3.v2 main_call3.v12 main_call3.v13 subi,
    StableHlo.TRef.ternary main_call3.v11 main_call3.v13 main_call3.v2 main_call3.call0.v0 select,
    StableHlo.nullary main_c_33 (constantI S_ 32 2#32),
    StableHlo.unary main_c_33 main_v97 (broadcastInDim S1048576 ![] bcast_S_S1048576 : TScal F → TPos F),
    StableHlo.binary main_v97 main_v96 main_v98 (muli : TPos F → TPos F → TPos F),
    StableHlo.nullary main_c_34 (constantI S_ 32 0#32),
    StableHlo.unary main_c_34 main_v99 (broadcastInDim S1048576 ![] bcast_S_S1048576 : TScal F → TPos F),
    StableHlo.binary main_v98 main_v99 main_v100 (cmpi .slt : TPos F → TPos F → TFlag F),
    StableHlo.nullary main_c_35 (constantI S_ 32 16777216#32),
    StableHlo.unary main_c_35 main_v101 (broadcastInDim S1048576 ![] bcast_S_S1048576 : TScal F → TPos F),
    StableHlo.binary main_v98 main_v101 main_v102 (addi : TPos F → TPos F → TPos F),
    StableHlo.ternary main_v100 main_v102 main_v98 main_v103 (select : TFlag F → TPos F → TPos F → TPos F),
    StableHlo.unary main_v103 main_v104 (broadcastInDim S1048576x1 ![0] bcast_S1048576_S1048576x1_0 : TPos F → TCol F),
    StableHlo.binary main_v95 main_v104 main_v105 ((fun x i => Host.gather gather_S16777216_S1048576x1_S1048576_n_0_n_n_0_1_1 x i) : TTree F → TCol F → TVals F),
    StableHlo.nullary main_c_36 (constantI S_ 32 2#32),
    StableHlo.unary main_c_36 main_v106 (broadcastInDim S1048576 ![] bcast_S_S1048576 : TScal F → TPos F),
    StableHlo.binary main_v106 main_v96 main_v107 (muli : TPos F → TPos F → TPos F),
    StableHlo.nullary main_c_37 (constantI S_ 32 1#32),
    StableHlo.unary main_c_37 main_v108 (broadcastInDim S1048576 ![] bcast_S_S1048576 : TScal F → TPos F),
    StableHlo.binary main_v107 main_v108 main_v109 (addi : TPos F → TPos F → TPos F),
    StableHlo.nullary main_c_38 (constantI S_ 32 0#32),
    StableHlo.unary main_c_38 main_v110 (broadcastInDim S1048576 ![] bcast_S_S1048576 : TScal F → TPos F),
    StableHlo.binary main_v109 main_v110 main_v111 (cmpi .slt : TPos F → TPos F → TFlag F),
    StableHlo.nullary main_c_39 (constantI S_ 32 16777216#32),
    StableHlo.unary main_c_39 main_v112 (broadcastInDim S1048576 ![] bcast_S_S1048576 : TScal F → TPos F),
    StableHlo.binary main_v109 main_v112 main_v113 (addi : TPos F → TPos F → TPos F),
    StableHlo.ternary main_v111 main_v113 main_v109 main_v114 (select : TFlag F → TPos F → TPos F → TPos F),
    StableHlo.unary main_v114 main_v115 (broadcastInDim S1048576x1 ![0] bcast_S1048576_S1048576x1_0 : TPos F → TCol F),
    StableHlo.binary main_v95 main_v115 main_v116 ((fun x i => Host.gather gather_S16777216_S1048576x1_S1048576_n_0_n_n_0_1_1 x i) : TTree F → TCol F → TVals F),
    StableHlo.binary main_v105 main_v116 main_v117 (addf : TVals F → TVals F → TVals F),
    StableHlo.nullary main_c_40 (constantI S_ 32 0#32),
    StableHlo.unary main_c_40 main_v118 (broadcastInDim S1048576 ![] bcast_S_S1048576 : TScal F → TPos F),
    StableHlo.binary main_v96 main_v118 main_v119 (cmpi .slt : TPos F → TPos F → TFlag F),
    StableHlo.nullary main_c_41 (constantI S_ 32 16777216#32),
    StableHlo.unary main_c_41 main_v120 (broadcastInDim S1048576 ![] bcast_S_S1048576 : TScal F → TPos F),
    StableHlo.binary main_v96 main_v120 main_v121 (addi : TPos F → TPos F → TPos F),
    StableHlo.ternary main_v119 main_v121 main_v96 main_v122 (select : TFlag F → TPos F → TPos F → TPos F),
    StableHlo.unary main_v122 main_v123 (broadcastInDim S1048576x1 ![0] bcast_S1048576_S1048576x1_0 : TPos F → TCol F),
    StableHlo.ternary main_v95 main_v123 main_v117 main_v124 ((fun x i u => Host.scatter scatter_S16777216_S1048576x1_S1048576_n_0_0_1 (fun _ b => b) x i u) : TTree F → TCol F → TVals F → TTree F) ]

abbrev opsRd4_W : List (Ref sig .tc) :=
  [main_c_32, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v96, main_c_33, main_v97, main_v98, main_c_34, main_v99, main_v100, main_c_35, main_v101, main_v102, main_v103, main_v104, main_v105, main_c_36, main_v106, main_v107, main_c_37, main_v108, main_v109, main_c_38, main_v110, main_v111, main_c_39, main_v112, main_v113, main_v114, main_v115, main_v116, main_v117, main_c_40, main_v118, main_v119, main_c_41, main_v120, main_v121, main_v122, main_v123, main_v124]
theorem opsRd4_writes : (opsRd4 : List (HloOp τ sig (Elt F))).Forall fun op => op.writes ⊆ (opsRd4_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd4_keep (V : Valuation τ sig (Elt F)) (b : Ref sig .tc) (h : b ∉ opsRd4_W) :
    after (opsRd4 : List (HloOp τ sig (Elt F))) V (Proc.devRef .tc b) = V (Proc.devRef .tc b) :=
  after_of_writes_sub opsRd4 V opsRd4_writes h

theorem opsRd4_sub : (opsRd4 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd4_fresh : (opsRd4 : List (HloOp τ sig (Elt F))).Forall fun op => op.fresh = ∅ := by
  simp only [List.Forall]
  and_intros <;> exact rfl

end Cert.ReferenceIdeal.Hand

end
-- ==== Proof.Ref.Regroup.Rd5.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 5 of the reference: @main's operations 233 … 287. -/
abbrev opsRd5 : List (HloOp τ sig (Elt F)) :=
  [ StableHlo.nullary main_c_42 (constantI S_ 32 2#32),
    StableHlo.TRef.unary (.of main_c_42 : StableHlo.TRef sig ⟨S_, .i32⟩) main_call4.v0 id,
    StableHlo.TRef.unary main_call4.v0 main_call4.v1 (broadcastInDim S1048576 ![] bcast_S_S1048576),
    StableHlo.TRef.binary (.of main_v96 : StableHlo.TRef sig ⟨S1048576, .i32⟩) main_call4.v1 main_call4.v2 Host.divsi,
    StableHlo.TRef.unary (.of main_v96 : StableHlo.TRef sig ⟨S1048576, .i32⟩) main_call4.v3 signi,
    StableHlo.TRef.unary main_call4.v0 main_call4.v4 signi,
    StableHlo.TRef.unary main_call4.v4 main_call4.v5 (broadcastInDim S1048576 ![] bcast_S_S1048576),
    StableHlo.TRef.binary main_call4.v3 main_call4.v5 main_call4.v6 (cmpi .ne),
    StableHlo.TRef.unary main_call4.v0 main_call4.v7 (broadcastInDim S1048576 ![] bcast_S_S1048576),
    StableHlo.TRef.binary (.of main_v96 : StableHlo.TRef sig ⟨S1048576, .i32⟩) main_call4.v7 main_call4.v8 Host.remsi,
    StableHlo.TRef.nullary main_call4.c (constantI S_ 32 0#32),
    StableHlo.TRef.unary main_call4.c main_call4.v9 (broadcastInDim S1048576 ![] bcast_S_S1048576),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S1048576 ![] bcast_S_S1048576),
    StableHlo.TRef.binary main_call4.v2 main_call4.v12 main_call4.v13 subi,
    StableHlo.TRef.ternary main_call4.v11 main_call4.v13 main_call4.v2 main_call4.call0.v0 select,
    StableHlo.nullary main_c_43 (constantI S_ 32 2#32),
    StableHlo.unary main_c_43 main_v126 (broadcastInDim S1048576 ![] bcast_S_S1048576 : TScal F → TPos F),
    StableHlo.binary main_v126 main_v125 main_v127 (muli : TPos F → TPos F → TPos F),
    StableHlo.nullary main_c_44 (constantI S_ 32 0#32),
    StableHlo.unary main_c_44 main_v128 (broadcastInDim S1048576 ![] bcast_S_S1048576 : TScal F → TPos F),
    StableHlo.binary main_v127 main_v128 main_v129 (cmpi .slt : TPos F → TPos F → TFlag F),
    StableHlo.nullary main_c_45 (constantI S_ 32 16777216#32),
    StableHlo.unary main_c_45 main_v130 (broadcastInDim S1048576 ![] bcast_S_S1048576 : TScal F → TPos F),
    StableHlo.binary main_v127 main_v130 main_v131 (addi : TPos F → TPos F → TPos F),
    StableHlo.ternary main_v129 main_v131 main_v127 main_v132 (select : TFlag F → TPos F → TPos F → TPos F),
    StableHlo.unary main_v132 main_v133 (broadcastInDim S1048576x1 ![0] bcast_S1048576_S1048576x1_0 : TPos F → TCol F),
    StableHlo.binary main_v124 main_v133 main_v134 ((fun x i => Host.gather gather_S16777216_S1048576x1_S1048576_n_0_n_n_0_1_1 x i) : TTree F → TCol F → TVals F),
    StableHlo.nullary main_c_46 (constantI S_ 32 2#32),
    StableHlo.unary main_c_46 main_v135 (broadcastInDim S1048576 ![] bcast_S_S1048576 : TScal F → TPos F),
    StableHlo.binary main_v135 main_v125 main_v136 (muli : TPos F → TPos F → TPos F),
    StableHlo.nullary main_c_47 (constantI S_ 32 1#32),
    StableHlo.unary main_c_47 main_v137 (broadcastInDim S1048576 ![] bcast_S_S1048576 : TScal F → TPos F),
    StableHlo.binary main_v136 main_v137 main_v138 (addi : TPos F → TPos F → TPos F),
    StableHlo.nullary main_c_48 (constantI S_ 32 0#32),
    StableHlo.unary main_c_48 main_v139 (broadcastInDim S1048576 ![] bcast_S_S1048576 : TScal F → TPos F),
    StableHlo.binary main_v138 main_v139 main_v140 (cmpi .slt : TPos F → TPos F → TFlag F),
    StableHlo.nullary main_c_49 (constantI S_ 32 16777216#32),
    StableHlo.unary main_c_49 main_v141 (broadcastInDim S1048576 ![] bcast_S_S1048576 : TScal F → TPos F),
    StableHlo.binary main_v138 main_v141 main_v142 (addi : TPos F → TPos F → TPos F),
    StableHlo.ternary main_v140 main_v142 main_v138 main_v143 (select : TFlag F → TPos F → TPos F → TPos F),
    StableHlo.unary main_v143 main_v144 (broadcastInDim S1048576x1 ![0] bcast_S1048576_S1048576x1_0 : TPos F → TCol F),
    StableHlo.binary main_v124 main_v144 main_v145 ((fun x i => Host.gather gather_S16777216_S1048576x1_S1048576_n_0_n_n_0_1_1 x i) : TTree F → TCol F → TVals F),
    StableHlo.binary main_v134 main_v145 main_v146 (addf : TVals F → TVals F → TVals F),
    StableHlo.nullary main_c_50 (constantI S_ 32 0#32),
    StableHlo.unary main_c_50 main_v147 (broadcastInDim S1048576 ![] bcast_S_S1048576 : TScal F → TPos F),
    StableHlo.binary main_v125 main_v147 main_v148 (cmpi .slt : TPos F → TPos F → TFlag F),
    StableHlo.nullary main_c_51 (constantI S_ 32 16777216#32),
    StableHlo.unary main_c_51 main_v149 (broadcastInDim S1048576 ![] bcast_S_S1048576 : TScal F → TPos F),
    StableHlo.binary main_v125 main_v149 main_v150 (addi : TPos F → TPos F → TPos F),
    StableHlo.ternary main_v148 main_v150 main_v125 main_v151 (select : TFlag F → TPos F → TPos F → TPos F),
    StableHlo.unary main_v151 main_v152 (broadcastInDim S1048576x1 ![0] bcast_S1048576_S1048576x1_0 : TPos F → TCol F),
    StableHlo.ternary main_v124 main_v152 main_v146 main_v153 ((fun x i u => Host.scatter scatter_S16777216_S1048576x1_S1048576_n_0_0_1 (fun _ b => b) x i u) : TTree F → TCol F → TVals F → TTree F) ]

abbrev opsRd5_W : List (Ref sig .tc) :=
  [main_c_42, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v125, main_c_43, main_v126, main_v127, main_c_44, main_v128, main_v129, main_c_45, main_v130, main_v131, main_v132, main_v133, main_v134, main_c_46, main_v135, main_v136, main_c_47, main_v137, main_v138, main_c_48, main_v139, main_v140, main_c_49, main_v141, main_v142, main_v143, main_v144, main_v145, main_v146, main_c_50, main_v147, main_v148, main_c_51, main_v149, main_v150, main_v151, main_v152, main_v153]
theorem opsRd5_writes : (opsRd5 : List (HloOp τ sig (Elt F))).Forall fun op => op.writes ⊆ (opsRd5_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd5_keep (V : Valuation τ sig (Elt F)) (b : Ref sig .tc) (h : b ∉ opsRd5_W) :
    after (opsRd5 : List (HloOp τ sig (Elt F))) V (Proc.devRef .tc b) = V (Proc.devRef .tc b) :=
  after_of_writes_sub opsRd5 V opsRd5_writes h

theorem opsRd5_sub : (opsRd5 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd5_fresh : (opsRd5 : List (HloOp τ sig (Elt F))).Forall fun op => op.fresh = ∅ := by
  simp only [List.Forall]
  and_intros <;> exact rfl

end Cert.ReferenceIdeal.Hand

end
-- ==== Proof.Ref.Regroup.Rd6.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 6 of the reference: @main's operations 288 … 342. -/
abbrev opsRd6 : List (HloOp τ sig (Elt F)) :=
  [ StableHlo.nullary main_c_52 (constantI S_ 32 2#32),
    StableHlo.TRef.unary (.of main_c_52 : StableHlo.TRef sig ⟨S_, .i32⟩) main_call5.v0 id,
    StableHlo.TRef.unary main_call5.v0 main_call5.v1 (broadcastInDim S1048576 ![] bcast_S_S1048576),
    StableHlo.TRef.binary (.of main_v125 : StableHlo.TRef sig ⟨S1048576, .i32⟩) main_call5.v1 main_call5.v2 Host.divsi,
    StableHlo.TRef.unary (.of main_v125 : StableHlo.TRef sig ⟨S1048576, .i32⟩) main_call5.v3 signi,
    StableHlo.TRef.unary main_call5.v0 main_call5.v4 signi,
    StableHlo.TRef.unary main_call5.v4 main_call5.v5 (broadcastInDim S1048576 ![] bcast_S_S1048576),
    StableHlo.TRef.binary main_call5.v3 main_call5.v5 main_call5.v6 (cmpi .ne),
    StableHlo.TRef.unary main_call5.v0 main_call5.v7 (broadcastInDim S1048576 ![] bcast_S_S1048576),
    StableHlo.TRef.binary (.of main_v125 : StableHlo.TRef sig ⟨S1048576, .i32⟩) main_call5.v7 main_call5.v8 Host.remsi,
    StableHlo.TRef.nullary main_call5.c (constantI S_ 32 0#32),
    StableHlo.TRef.unary main_call5.c main_call5.v9 (broadcastInDim S1048576 ![] bcast_S_S1048576),
    StableHlo.TRef.binary main_call5.v8 main_call5.v9 main_call5.v10 (cmpi .ne),
    StableHlo.TRef.binary main_call5.v6 main_call5.v10 main_call5.v11 andi,
    StableHlo.TRef.nullary main_call5.c_0 (constantI S_ 32 1#32),
    StableHlo.TRef.unary main_call5.c_0 main_call5.v12 (broadcastInDim S1048576 ![] bcast_S_S1048576),
    StableHlo.TRef.binary main_call5.v2 main_call5.v12 main_call5.v13 subi,
    StableHlo.TRef.ternary main_call5.v11 main_call5.v13 main_call5.v2 main_call5.call0.v0 select,
    StableHlo.nullary main_c_53 (constantI S_ 32 2#32),
    StableHlo.unary main_c_53 main_v155 (broadcastInDim S1048576 ![] bcast_S_S1048576 : TScal F → TPos F),
    StableHlo.binary main_v155 main_v154 main_v156 (muli : TPos F → TPos F → TPos F),
    StableHlo.nullary main_c_54 (constantI S_ 32 0#32),
    StableHlo.unary main_c_54 main_v157 (broadcastInDim S1048576 ![] bcast_S_S1048576 : TScal F → TPos F),
    StableHlo.binary main_v156 main_v157 main_v158 (cmpi .slt : TPos F → TPos F → TFlag F),
    StableHlo.nullary main_c_55 (constantI S_ 32 16777216#32),
    StableHlo.unary main_c_55 main_v159 (broadcastInDim S1048576 ![] bcast_S_S1048576 : TScal F → TPos F),
    StableHlo.binary main_v156 main_v159 main_v160 (addi : TPos F → TPos F → TPos F),
    StableHlo.ternary main_v158 main_v160 main_v156 main_v161 (select : TFlag F → TPos F → TPos F → TPos F),
    StableHlo.unary main_v161 main_v162 (broadcastInDim S1048576x1 ![0] bcast_S1048576_S1048576x1_0 : TPos F → TCol F),
    StableHlo.binary main_v153 main_v162 main_v163 ((fun x i => Host.gather gather_S16777216_S1048576x1_S1048576_n_0_n_n_0_1_1 x i) : TTree F → TCol F → TVals F),
    StableHlo.nullary main_c_56 (constantI S_ 32 2#32),
    StableHlo.unary main_c_56 main_v164 (broadcastInDim S1048576 ![] bcast_S_S1048576 : TScal F → TPos F),
    StableHlo.binary main_v164 main_v154 main_v165 (muli : TPos F → TPos F → TPos F),
    StableHlo.nullary main_c_57 (constantI S_ 32 1#32),
    StableHlo.unary main_c_57 main_v166 (broadcastInDim S1048576 ![] bcast_S_S1048576 : TScal F → TPos F),
    StableHlo.binary main_v165 main_v166 main_v167 (addi : TPos F → TPos F → TPos F),
    StableHlo.nullary main_c_58 (constantI S_ 32 0#32),
    StableHlo.unary main_c_58 main_v168 (broadcastInDim S1048576 ![] bcast_S_S1048576 : TScal F → TPos F),
    StableHlo.binary main_v167 main_v168 main_v169 (cmpi .slt : TPos F → TPos F → TFlag F),
    StableHlo.nullary main_c_59 (constantI S_ 32 16777216#32),
    StableHlo.unary main_c_59 main_v170 (broadcastInDim S1048576 ![] bcast_S_S1048576 : TScal F → TPos F),
    StableHlo.binary main_v167 main_v170 main_v171 (addi : TPos F → TPos F → TPos F),
    StableHlo.ternary main_v169 main_v171 main_v167 main_v172 (select : TFlag F → TPos F → TPos F → TPos F),
    StableHlo.unary main_v172 main_v173 (broadcastInDim S1048576x1 ![0] bcast_S1048576_S1048576x1_0 : TPos F → TCol F),
    StableHlo.binary main_v153 main_v173 main_v174 ((fun x i => Host.gather gather_S16777216_S1048576x1_S1048576_n_0_n_n_0_1_1 x i) : TTree F → TCol F → TVals F),
    StableHlo.binary main_v163 main_v174 main_v175 (addf : TVals F → TVals F → TVals F),
    StableHlo.nullary main_c_60 (constantI S_ 32 0#32),
    StableHlo.unary main_c_60 main_v176 (broadcastInDim S1048576 ![] bcast_S_S1048576 : TScal F → TPos F),
    StableHlo.binary main_v154 main_v176 main_v177 (cmpi .slt : TPos F → TPos F → TFlag F),
    StableHlo.nullary main_c_61 (constantI S_ 32 16777216#32),
    StableHlo.unary main_c_61 main_v178 (broadcastInDim S1048576 ![] bcast_S_S1048576 : TScal F → TPos F),
    StableHlo.binary main_v154 main_v178 main_v179 (addi : TPos F → TPos F → TPos F),
    StableHlo.ternary main_v177 main_v179 main_v154 main_v180 (select : TFlag F → TPos F → TPos F → TPos F),
    StableHlo.unary main_v180 main_v181 (broadcastInDim S1048576x1 ![0] bcast_S1048576_S1048576x1_0 : TPos F → TCol F),
    StableHlo.ternary main_v153 main_v181 main_v175 main_v182 ((fun x i u => Host.scatter scatter_S16777216_S1048576x1_S1048576_n_0_0_1 (fun _ b => b) x i u) : TTree F → TCol F → TVals F → TTree F) ]

abbrev opsRd6_W : List (Ref sig .tc) :=
  [main_c_52, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v154, main_c_53, main_v155, main_v156, main_c_54, main_v157, main_v158, main_c_55, main_v159, main_v160, main_v161, main_v162, main_v163, main_c_56, main_v164, main_v165, main_c_57, main_v166, main_v167, main_c_58, main_v168, main_v169, main_c_59, main_v170, main_v171, main_v172, main_v173, main_v174, main_v175, main_c_60, main_v176, main_v177, main_c_61, main_v178, main_v179, main_v180, main_v181, main_v182]
theorem opsRd6_writes : (opsRd6 : List (HloOp τ sig (Elt F))).Forall fun op => op.writes ⊆ (opsRd6_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd6_keep (V : Valuation τ sig (Elt F)) (b : Ref sig .tc) (h : b ∉ opsRd6_W) :
    after (opsRd6 : List (HloOp τ sig (Elt F))) V (Proc.devRef .tc b) = V (Proc.devRef .tc b) :=
  after_of_writes_sub opsRd6 V opsRd6_writes h

theorem opsRd6_sub : (opsRd6 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd6_fresh : (opsRd6 : List (HloOp τ sig (Elt F))).Forall fun op => op.fresh = ∅ := by
  simp only [List.Forall]
  and_intros <;> exact rfl

end Cert.ReferenceIdeal.Hand

end
-- ==== Proof.Ref.Regroup.Rd7.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 7 of the reference: @main's operations 343 … 397. -/
abbrev opsRd7 : List (HloOp τ sig (Elt F)) :=
  [ StableHlo.nullary main_c_62 (constantI S_ 32 2#32),
    StableHlo.TRef.unary (.of main_c_62 : StableHlo.TRef sig ⟨S_, .i32⟩) main_call6.v0 id,
    StableHlo.TRef.unary main_call6.v0 main_call6.v1 (broadcastInDim S1048576 ![] bcast_S_S1048576),
    StableHlo.TRef.binary (.of main_v154 : StableHlo.TRef sig ⟨S1048576, .i32⟩) main_call6.v1 main_call6.v2 Host.divsi,
    StableHlo.TRef.unary (.of main_v154 : StableHlo.TRef sig ⟨S1048576, .i32⟩) main_call6.v3 signi,
    StableHlo.TRef.unary main_call6.v0 main_call6.v4 signi,
    StableHlo.TRef.unary main_call6.v4 main_call6.v5 (broadcastInDim S1048576 ![] bcast_S_S1048576),
    StableHlo.TRef.binary main_call6.v3 main_call6.v5 main_call6.v6 (cmpi .ne),
    StableHlo.TRef.unary main_call6.v0 main_call6.v7 (broadcastInDim S1048576 ![] bcast_S_S1048576),
    StableHlo.TRef.binary (.of main_v154 : StableHlo.TRef sig ⟨S1048576, .i32⟩) main_call6.v7 main_call6.v8 Host.remsi,
    StableHlo.TRef.nullary main_call6.c (constantI S_ 32 0#32),
    StableHlo.TRef.unary main_call6.c main_call6.v9 (broadcastInDim S1048576 ![] bcast_S_S1048576),
    StableHlo.TRef.binary main_call6.v8 main_call6.v9 main_call6.v10 (cmpi .ne),
    StableHlo.TRef.binary main_call6.v6 main_call6.v10 main_call6.v11 andi,
    StableHlo.TRef.nullary main_call6.c_0 (constantI S_ 32 1#32),
    StableHlo.TRef.unary main_call6.c_0 main_call6.v12 (broadcastInDim S1048576 ![] bcast_S_S1048576),
    StableHlo.TRef.binary main_call6.v2 main_call6.v12 main_call6.v13 subi,
    StableHlo.TRef.ternary main_call6.v11 main_call6.v13 main_call6.v2 main_call6.call0.v0 select,
    StableHlo.nullary main_c_63 (constantI S_ 32 2#32),
    StableHlo.unary main_c_63 main_v184 (broadcastInDim S1048576 ![] bcast_S_S1048576 : TScal F → TPos F),
    StableHlo.binary main_v184 main_v183 main_v185 (muli : TPos F → TPos F → TPos F),
    StableHlo.nullary main_c_64 (constantI S_ 32 0#32),
    StableHlo.unary main_c_64 main_v186 (broadcastInDim S1048576 ![] bcast_S_S1048576 : TScal F → TPos F),
    StableHlo.binary main_v185 main_v186 main_v187 (cmpi .slt : TPos F → TPos F → TFlag F),
    StableHlo.nullary main_c_65 (constantI S_ 32 16777216#32),
    StableHlo.unary main_c_65 main_v188 (broadcastInDim S1048576 ![] bcast_S_S1048576 : TScal F → TPos F),
    StableHlo.binary main_v185 main_v188 main_v189 (addi : TPos F → TPos F → TPos F),
    StableHlo.ternary main_v187 main_v189 main_v185 main_v190 (select : TFlag F → TPos F → TPos F → TPos F),
    StableHlo.unary main_v190 main_v191 (broadcastInDim S1048576x1 ![0] bcast_S1048576_S1048576x1_0 : TPos F → TCol F),
    StableHlo.binary main_v182 main_v191 main_v192 ((fun x i => Host.gather gather_S16777216_S1048576x1_S1048576_n_0_n_n_0_1_1 x i) : TTree F → TCol F → TVals F),
    StableHlo.nullary main_c_66 (constantI S_ 32 2#32),
    StableHlo.unary main_c_66 main_v193 (broadcastInDim S1048576 ![] bcast_S_S1048576 : TScal F → TPos F),
    StableHlo.binary main_v193 main_v183 main_v194 (muli : TPos F → TPos F → TPos F),
    StableHlo.nullary main_c_67 (constantI S_ 32 1#32),
    StableHlo.unary main_c_67 main_v195 (broadcastInDim S1048576 ![] bcast_S_S1048576 : TScal F → TPos F),
    StableHlo.binary main_v194 main_v195 main_v196 (addi : TPos F → TPos F → TPos F),
    StableHlo.nullary main_c_68 (constantI S_ 32 0#32),
    StableHlo.unary main_c_68 main_v197 (broadcastInDim S1048576 ![] bcast_S_S1048576 : TScal F → TPos F),
    StableHlo.binary main_v196 main_v197 main_v198 (cmpi .slt : TPos F → TPos F → TFlag F),
    StableHlo.nullary main_c_69 (constantI S_ 32 16777216#32),
    StableHlo.unary main_c_69 main_v199 (broadcastInDim S1048576 ![] bcast_S_S1048576 : TScal F → TPos F),
    StableHlo.binary main_v196 main_v199 main_v200 (addi : TPos F → TPos F → TPos F),
    StableHlo.ternary main_v198 main_v200 main_v196 main_v201 (select : TFlag F → TPos F → TPos F → TPos F),
    StableHlo.unary main_v201 main_v202 (broadcastInDim S1048576x1 ![0] bcast_S1048576_S1048576x1_0 : TPos F → TCol F),
    StableHlo.binary main_v182 main_v202 main_v203 ((fun x i => Host.gather gather_S16777216_S1048576x1_S1048576_n_0_n_n_0_1_1 x i) : TTree F → TCol F → TVals F),
    StableHlo.binary main_v192 main_v203 main_v204 (addf : TVals F → TVals F → TVals F),
    StableHlo.nullary main_c_70 (constantI S_ 32 0#32),
    StableHlo.unary main_c_70 main_v205 (broadcastInDim S1048576 ![] bcast_S_S1048576 : TScal F → TPos F),
    StableHlo.binary main_v183 main_v205 main_v206 (cmpi .slt : TPos F → TPos F → TFlag F),
    StableHlo.nullary main_c_71 (constantI S_ 32 16777216#32),
    StableHlo.unary main_c_71 main_v207 (broadcastInDim S1048576 ![] bcast_S_S1048576 : TScal F → TPos F),
    StableHlo.binary main_v183 main_v207 main_v208 (addi : TPos F → TPos F → TPos F),
    StableHlo.ternary main_v206 main_v208 main_v183 main_v209 (select : TFlag F → TPos F → TPos F → TPos F),
    StableHlo.unary main_v209 main_v210 (broadcastInDim S1048576x1 ![0] bcast_S1048576_S1048576x1_0 : TPos F → TCol F),
    StableHlo.ternary main_v182 main_v210 main_v204 main_v211 ((fun x i u => Host.scatter scatter_S16777216_S1048576x1_S1048576_n_0_0_1 (fun _ b => b) x i u) : TTree F → TCol F → TVals F → TTree F) ]

abbrev opsRd7_W : List (Ref sig .tc) :=
  [main_c_62, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v183, main_c_63, main_v184, main_v185, main_c_64, main_v186, main_v187, main_c_65, main_v188, main_v189, main_v190, main_v191, main_v192, main_c_66, main_v193, main_v194, main_c_67, main_v195, main_v196, main_c_68, main_v197, main_v198, main_c_69, main_v199, main_v200, main_v201, main_v202, main_v203, main_v204, main_c_70, main_v205, main_v206, main_c_71, main_v207, main_v208, main_v209, main_v210, main_v211]
theorem opsRd7_writes : (opsRd7 : List (HloOp τ sig (Elt F))).Forall fun op => op.writes ⊆ (opsRd7_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd7_keep (V : Valuation τ sig (Elt F)) (b : Ref sig .tc) (h : b ∉ opsRd7_W) :
    after (opsRd7 : List (HloOp τ sig (Elt F))) V (Proc.devRef .tc b) = V (Proc.devRef .tc b) :=
  after_of_writes_sub opsRd7 V opsRd7_writes h

theorem opsRd7_sub : (opsRd7 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd7_fresh : (opsRd7 : List (HloOp τ sig (Elt F))).Forall fun op => op.fresh = ∅ := by
  simp only [List.Forall]
  and_intros <;> exact rfl

end Cert.ReferenceIdeal.Hand

end
-- ==== Proof.Ref.Regroup.Rd8.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 8 of the reference: @main's operations 398 … 452. -/
abbrev opsRd8 : List (HloOp τ sig (Elt F)) :=
  [ StableHlo.nullary main_c_72 (constantI S_ 32 2#32),
    StableHlo.TRef.unary (.of main_c_72 : StableHlo.TRef sig ⟨S_, .i32⟩) main_call7.v0 id,
    StableHlo.TRef.unary main_call7.v0 main_call7.v1 (broadcastInDim S1048576 ![] bcast_S_S1048576),
    StableHlo.TRef.binary (.of main_v183 : StableHlo.TRef sig ⟨S1048576, .i32⟩) main_call7.v1 main_call7.v2 Host.divsi,
    StableHlo.TRef.unary (.of main_v183 : StableHlo.TRef sig ⟨S1048576, .i32⟩) main_call7.v3 signi,
    StableHlo.TRef.unary main_call7.v0 main_call7.v4 signi,
    StableHlo.TRef.unary main_call7.v4 main_call7.v5 (broadcastInDim S1048576 ![] bcast_S_S1048576),
    StableHlo.TRef.binary main_call7.v3 main_call7.v5 main_call7.v6 (cmpi .ne),
    StableHlo.TRef.unary main_call7.v0 main_call7.v7 (broadcastInDim S1048576 ![] bcast_S_S1048576),
    StableHlo.TRef.binary (.of main_v183 : StableHlo.TRef sig ⟨S1048576, .i32⟩) main_call7.v7 main_call7.v8 Host.remsi,
    StableHlo.TRef.nullary main_call7.c (constantI S_ 32 0#32),
    StableHlo.TRef.unary main_call7.c main_call7.v9 (broadcastInDim S1048576 ![] bcast_S_S1048576),
    StableHlo.TRef.binary main_call7.v8 main_call7.v9 main_call7.v10 (cmpi .ne),
    StableHlo.TRef.binary main_call7.v6 main_call7.v10 main_call7.v11 andi,
    StableHlo.TRef.nullary main_call7.c_0 (constantI S_ 32 1#32),
    StableHlo.TRef.unary main_call7.c_0 main_call7.v12 (broadcastInDim S1048576 ![] bcast_S_S1048576),
    StableHlo.TRef.binary main_call7.v2 main_call7.v12 main_call7.v13 subi,
    StableHlo.TRef.ternary main_call7.v11 main_call7.v13 main_call7.v2 main_call7.call0.v0 select,
    StableHlo.nullary main_c_73 (constantI S_ 32 2#32),
    StableHlo.unary main_c_73 main_v213 (broadcastInDim S1048576 ![] bcast_S_S1048576 : TScal F → TPos F),
    StableHlo.binary main_v213 main_v212 main_v214 (muli : TPos F → TPos F → TPos F),
    StableHlo.nullary main_c_74 (constantI S_ 32 0#32),
    StableHlo.unary main_c_74 main_v215 (broadcastInDim S1048576 ![] bcast_S_S1048576 : TScal F → TPos F),
    StableHlo.binary main_v214 main_v215 main_v216 (cmpi .slt : TPos F → TPos F → TFlag F),
    StableHlo.nullary main_c_75 (constantI S_ 32 16777216#32),
    StableHlo.unary main_c_75 main_v217 (broadcastInDim S1048576 ![] bcast_S_S1048576 : TScal F → TPos F),
    StableHlo.binary main_v214 main_v217 main_v218 (addi : TPos F → TPos F → TPos F),
    StableHlo.ternary main_v216 main_v218 main_v214 main_v219 (select : TFlag F → TPos F → TPos F → TPos F),
    StableHlo.unary main_v219 main_v220 (broadcastInDim S1048576x1 ![0] bcast_S1048576_S1048576x1_0 : TPos F → TCol F),
    StableHlo.binary main_v211 main_v220 main_v221 ((fun x i => Host.gather gather_S16777216_S1048576x1_S1048576_n_0_n_n_0_1_1 x i) : TTree F → TCol F → TVals F),
    StableHlo.nullary main_c_76 (constantI S_ 32 2#32),
    StableHlo.unary main_c_76 main_v222 (broadcastInDim S1048576 ![] bcast_S_S1048576 : TScal F → TPos F),
    StableHlo.binary main_v222 main_v212 main_v223 (muli : TPos F → TPos F → TPos F),
    StableHlo.nullary main_c_77 (constantI S_ 32 1#32),
    StableHlo.unary main_c_77 main_v224 (broadcastInDim S1048576 ![] bcast_S_S1048576 : TScal F → TPos F),
    StableHlo.binary main_v223 main_v224 main_v225 (addi : TPos F → TPos F → TPos F),
    StableHlo.nullary main_c_78 (constantI S_ 32 0#32),
    StableHlo.unary main_c_78 main_v226 (broadcastInDim S1048576 ![] bcast_S_S1048576 : TScal F → TPos F),
    StableHlo.binary main_v225 main_v226 main_v227 (cmpi .slt : TPos F → TPos F → TFlag F),
    StableHlo.nullary main_c_79 (constantI S_ 32 16777216#32),
    StableHlo.unary main_c_79 main_v228 (broadcastInDim S1048576 ![] bcast_S_S1048576 : TScal F → TPos F),
    StableHlo.binary main_v225 main_v228 main_v229 (addi : TPos F → TPos F → TPos F),
    StableHlo.ternary main_v227 main_v229 main_v225 main_v230 (select : TFlag F → TPos F → TPos F → TPos F),
    StableHlo.unary main_v230 main_v231 (broadcastInDim S1048576x1 ![0] bcast_S1048576_S1048576x1_0 : TPos F → TCol F),
    StableHlo.binary main_v211 main_v231 main_v232 ((fun x i => Host.gather gather_S16777216_S1048576x1_S1048576_n_0_n_n_0_1_1 x i) : TTree F → TCol F → TVals F),
    StableHlo.binary main_v221 main_v232 main_v233 (addf : TVals F → TVals F → TVals F),
    StableHlo.nullary main_c_80 (constantI S_ 32 0#32),
    StableHlo.unary main_c_80 main_v234 (broadcastInDim S1048576 ![] bcast_S_S1048576 : TScal F → TPos F),
    StableHlo.binary main_v212 main_v234 main_v235 (cmpi .slt : TPos F → TPos F → TFlag F),
    StableHlo.nullary main_c_81 (constantI S_ 32 16777216#32),
    StableHlo.unary main_c_81 main_v236 (broadcastInDim S1048576 ![] bcast_S_S1048576 : TScal F → TPos F),
    StableHlo.binary main_v212 main_v236 main_v237 (addi : TPos F → TPos F → TPos F),
    StableHlo.ternary main_v235 main_v237 main_v212 main_v238 (select : TFlag F → TPos F → TPos F → TPos F),
    StableHlo.unary main_v238 main_v239 (broadcastInDim S1048576x1 ![0] bcast_S1048576_S1048576x1_0 : TPos F → TCol F),
    StableHlo.ternary main_v211 main_v239 main_v233 main_v240 ((fun x i u => Host.scatter scatter_S16777216_S1048576x1_S1048576_n_0_0_1 (fun _ b => b) x i u) : TTree F → TCol F → TVals F → TTree F) ]

abbrev opsRd8_W : List (Ref sig .tc) :=
  [main_c_72, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v212, main_c_73, main_v213, main_v214, main_c_74, main_v215, main_v216, main_c_75, main_v217, main_v218, main_v219, main_v220, main_v221, main_c_76, main_v222, main_v223, main_c_77, main_v224, main_v225, main_c_78, main_v226, main_v227, main_c_79, main_v228, main_v229, main_v230, main_v231, main_v232, main_v233, main_c_80, main_v234, main_v235, main_c_81, main_v236, main_v237, main_v238, main_v239, main_v240]
theorem opsRd8_writes : (opsRd8 : List (HloOp τ sig (Elt F))).Forall fun op => op.writes ⊆ (opsRd8_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd8_keep (V : Valuation τ sig (Elt F)) (b : Ref sig .tc) (h : b ∉ opsRd8_W) :
    after (opsRd8 : List (HloOp τ sig (Elt F))) V (Proc.devRef .tc b) = V (Proc.devRef .tc b) :=
  after_of_writes_sub opsRd8 V opsRd8_writes h

theorem opsRd8_sub : (opsRd8 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd8_fresh : (opsRd8 : List (HloOp τ sig (Elt F))).Forall fun op => op.fresh = ∅ := by
  simp only [List.Forall]
  and_intros <;> exact rfl

end Cert.ReferenceIdeal.Hand

end
-- ==== Proof.Ref.Regroup.Rd9.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 9 of the reference: @main's operations 453 … 507. -/
abbrev opsRd9 : List (HloOp τ sig (Elt F)) :=
  [ StableHlo.nullary main_c_82 (constantI S_ 32 2#32),
    StableHlo.TRef.unary (.of main_c_82 : StableHlo.TRef sig ⟨S_, .i32⟩) main_call8.v0 id,
    StableHlo.TRef.unary main_call8.v0 main_call8.v1 (broadcastInDim S1048576 ![] bcast_S_S1048576),
    StableHlo.TRef.binary (.of main_v212 : StableHlo.TRef sig ⟨S1048576, .i32⟩) main_call8.v1 main_call8.v2 Host.divsi,
    StableHlo.TRef.unary (.of main_v212 : StableHlo.TRef sig ⟨S1048576, .i32⟩) main_call8.v3 signi,
    StableHlo.TRef.unary main_call8.v0 main_call8.v4 signi,
    StableHlo.TRef.unary main_call8.v4 main_call8.v5 (broadcastInDim S1048576 ![] bcast_S_S1048576),
    StableHlo.TRef.binary main_call8.v3 main_call8.v5 main_call8.v6 (cmpi .ne),
    StableHlo.TRef.unary main_call8.v0 main_call8.v7 (broadcastInDim S1048576 ![] bcast_S_S1048576),
    StableHlo.TRef.binary (.of main_v212 : StableHlo.TRef sig ⟨S1048576, .i32⟩) main_call8.v7 main_call8.v8 Host.remsi,
    StableHlo.TRef.nullary main_call8.c (constantI S_ 32 0#32),
    StableHlo.TRef.unary main_call8.c main_call8.v9 (broadcastInDim S1048576 ![] bcast_S_S1048576),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S1048576 ![] bcast_S_S1048576),
    StableHlo.TRef.binary main_call8.v2 main_call8.v12 main_call8.v13 subi,
    StableHlo.TRef.ternary main_call8.v11 main_call8.v13 main_call8.v2 main_call8.call0.v0 select,
    StableHlo.nullary main_c_83 (constantI S_ 32 2#32),
    StableHlo.unary main_c_83 main_v242 (broadcastInDim S1048576 ![] bcast_S_S1048576 : TScal F → TPos F),
    StableHlo.binary main_v242 main_v241 main_v243 (muli : TPos F → TPos F → TPos F),
    StableHlo.nullary main_c_84 (constantI S_ 32 0#32),
    StableHlo.unary main_c_84 main_v244 (broadcastInDim S1048576 ![] bcast_S_S1048576 : TScal F → TPos F),
    StableHlo.binary main_v243 main_v244 main_v245 (cmpi .slt : TPos F → TPos F → TFlag F),
    StableHlo.nullary main_c_85 (constantI S_ 32 16777216#32),
    StableHlo.unary main_c_85 main_v246 (broadcastInDim S1048576 ![] bcast_S_S1048576 : TScal F → TPos F),
    StableHlo.binary main_v243 main_v246 main_v247 (addi : TPos F → TPos F → TPos F),
    StableHlo.ternary main_v245 main_v247 main_v243 main_v248 (select : TFlag F → TPos F → TPos F → TPos F),
    StableHlo.unary main_v248 main_v249 (broadcastInDim S1048576x1 ![0] bcast_S1048576_S1048576x1_0 : TPos F → TCol F),
    StableHlo.binary main_v240 main_v249 main_v250 ((fun x i => Host.gather gather_S16777216_S1048576x1_S1048576_n_0_n_n_0_1_1 x i) : TTree F → TCol F → TVals F),
    StableHlo.nullary main_c_86 (constantI S_ 32 2#32),
    StableHlo.unary main_c_86 main_v251 (broadcastInDim S1048576 ![] bcast_S_S1048576 : TScal F → TPos F),
    StableHlo.binary main_v251 main_v241 main_v252 (muli : TPos F → TPos F → TPos F),
    StableHlo.nullary main_c_87 (constantI S_ 32 1#32),
    StableHlo.unary main_c_87 main_v253 (broadcastInDim S1048576 ![] bcast_S_S1048576 : TScal F → TPos F),
    StableHlo.binary main_v252 main_v253 main_v254 (addi : TPos F → TPos F → TPos F),
    StableHlo.nullary main_c_88 (constantI S_ 32 0#32),
    StableHlo.unary main_c_88 main_v255 (broadcastInDim S1048576 ![] bcast_S_S1048576 : TScal F → TPos F),
    StableHlo.binary main_v254 main_v255 main_v256 (cmpi .slt : TPos F → TPos F → TFlag F),
    StableHlo.nullary main_c_89 (constantI S_ 32 16777216#32),
    StableHlo.unary main_c_89 main_v257 (broadcastInDim S1048576 ![] bcast_S_S1048576 : TScal F → TPos F),
    StableHlo.binary main_v254 main_v257 main_v258 (addi : TPos F → TPos F → TPos F),
    StableHlo.ternary main_v256 main_v258 main_v254 main_v259 (select : TFlag F → TPos F → TPos F → TPos F),
    StableHlo.unary main_v259 main_v260 (broadcastInDim S1048576x1 ![0] bcast_S1048576_S1048576x1_0 : TPos F → TCol F),
    StableHlo.binary main_v240 main_v260 main_v261 ((fun x i => Host.gather gather_S16777216_S1048576x1_S1048576_n_0_n_n_0_1_1 x i) : TTree F → TCol F → TVals F),
    StableHlo.binary main_v250 main_v261 main_v262 (addf : TVals F → TVals F → TVals F),
    StableHlo.nullary main_c_90 (constantI S_ 32 0#32),
    StableHlo.unary main_c_90 main_v263 (broadcastInDim S1048576 ![] bcast_S_S1048576 : TScal F → TPos F),
    StableHlo.binary main_v241 main_v263 main_v264 (cmpi .slt : TPos F → TPos F → TFlag F),
    StableHlo.nullary main_c_91 (constantI S_ 32 16777216#32),
    StableHlo.unary main_c_91 main_v265 (broadcastInDim S1048576 ![] bcast_S_S1048576 : TScal F → TPos F),
    StableHlo.binary main_v241 main_v265 main_v266 (addi : TPos F → TPos F → TPos F),
    StableHlo.ternary main_v264 main_v266 main_v241 main_v267 (select : TFlag F → TPos F → TPos F → TPos F),
    StableHlo.unary main_v267 main_v268 (broadcastInDim S1048576x1 ![0] bcast_S1048576_S1048576x1_0 : TPos F → TCol F),
    StableHlo.ternary main_v240 main_v268 main_v262 main_v269 ((fun x i u => Host.scatter scatter_S16777216_S1048576x1_S1048576_n_0_0_1 (fun _ b => b) x i u) : TTree F → TCol F → TVals F → TTree F) ]

abbrev opsRd9_W : List (Ref sig .tc) :=
  [main_c_82, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v241, main_c_83, main_v242, main_v243, main_c_84, main_v244, main_v245, main_c_85, main_v246, main_v247, main_v248, main_v249, main_v250, main_c_86, main_v251, main_v252, main_c_87, main_v253, main_v254, main_c_88, main_v255, main_v256, main_c_89, main_v257, main_v258, main_v259, main_v260, main_v261, main_v262, main_c_90, main_v263, main_v264, main_c_91, main_v265, main_v266, main_v267, main_v268, main_v269]
theorem opsRd9_writes : (opsRd9 : List (HloOp τ sig (Elt F))).Forall fun op => op.writes ⊆ (opsRd9_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd9_keep (V : Valuation τ sig (Elt F)) (b : Ref sig .tc) (h : b ∉ opsRd9_W) :
    after (opsRd9 : List (HloOp τ sig (Elt F))) V (Proc.devRef .tc b) = V (Proc.devRef .tc b) :=
  after_of_writes_sub opsRd9 V opsRd9_writes h

theorem opsRd9_sub : (opsRd9 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd9_fresh : (opsRd9 : List (HloOp τ sig (Elt F))).Forall fun op => op.fresh = ∅ := by
  simp only [List.Forall]
  and_intros <;> exact rfl

end Cert.ReferenceIdeal.Hand

end
-- ==== Proof.Ref.Regroup.Rd10.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 10 of the reference: @main's operations 508 … 562. -/
abbrev opsRd10 : List (HloOp τ sig (Elt F)) :=
  [ StableHlo.nullary main_c_92 (constantI S_ 32 2#32),
    StableHlo.TRef.unary (.of main_c_92 : StableHlo.TRef sig ⟨S_, .i32⟩) main_call9.v0 id,
    StableHlo.TRef.unary main_call9.v0 main_call9.v1 (broadcastInDim S1048576 ![] bcast_S_S1048576),
    StableHlo.TRef.binary (.of main_v241 : StableHlo.TRef sig ⟨S1048576, .i32⟩) main_call9.v1 main_call9.v2 Host.divsi,
    StableHlo.TRef.unary (.of main_v241 : StableHlo.TRef sig ⟨S1048576, .i32⟩) main_call9.v3 signi,
    StableHlo.TRef.unary main_call9.v0 main_call9.v4 signi,
    StableHlo.TRef.unary main_call9.v4 main_call9.v5 (broadcastInDim S1048576 ![] bcast_S_S1048576),
    StableHlo.TRef.binary main_call9.v3 main_call9.v5 main_call9.v6 (cmpi .ne),
    StableHlo.TRef.unary main_call9.v0 main_call9.v7 (broadcastInDim S1048576 ![] bcast_S_S1048576),
    StableHlo.TRef.binary (.of main_v241 : StableHlo.TRef sig ⟨S1048576, .i32⟩) main_call9.v7 main_call9.v8 Host.remsi,
    StableHlo.TRef.nullary main_call9.c (constantI S_ 32 0#32),
    StableHlo.TRef.unary main_call9.c main_call9.v9 (broadcastInDim S1048576 ![] bcast_S_S1048576),
    StableHlo.TRef.binary main_call9.v8 main_call9.v9 main_call9.v10 (cmpi .ne),
    StableHlo.TRef.binary main_call9.v6 main_call9.v10 main_call9.v11 andi,
    StableHlo.TRef.nullary main_call9.c_0 (constantI S_ 32 1#32),
    StableHlo.TRef.unary main_call9.c_0 main_call9.v12 (broadcastInDim S1048576 ![] bcast_S_S1048576),
    StableHlo.TRef.binary main_call9.v2 main_call9.v12 main_call9.v13 subi,
    StableHlo.TRef.ternary main_call9.v11 main_call9.v13 main_call9.v2 main_call9.call0.v0 select,
    StableHlo.nullary main_c_93 (constantI S_ 32 2#32),
    StableHlo.unary main_c_93 main_v271 (broadcastInDim S1048576 ![] bcast_S_S1048576 : TScal F → TPos F),
    StableHlo.binary main_v271 main_v270 main_v272 (muli : TPos F → TPos F → TPos F),
    StableHlo.nullary main_c_94 (constantI S_ 32 0#32),
    StableHlo.unary main_c_94 main_v273 (broadcastInDim S1048576 ![] bcast_S_S1048576 : TScal F → TPos F),
    StableHlo.binary main_v272 main_v273 main_v274 (cmpi .slt : TPos F → TPos F → TFlag F),
    StableHlo.nullary main_c_95 (constantI S_ 32 16777216#32),
    StableHlo.unary main_c_95 main_v275 (broadcastInDim S1048576 ![] bcast_S_S1048576 : TScal F → TPos F),
    StableHlo.binary main_v272 main_v275 main_v276 (addi : TPos F → TPos F → TPos F),
    StableHlo.ternary main_v274 main_v276 main_v272 main_v277 (select : TFlag F → TPos F → TPos F → TPos F),
    StableHlo.unary main_v277 main_v278 (broadcastInDim S1048576x1 ![0] bcast_S1048576_S1048576x1_0 : TPos F → TCol F),
    StableHlo.binary main_v269 main_v278 main_v279 ((fun x i => Host.gather gather_S16777216_S1048576x1_S1048576_n_0_n_n_0_1_1 x i) : TTree F → TCol F → TVals F),
    StableHlo.nullary main_c_96 (constantI S_ 32 2#32),
    StableHlo.unary main_c_96 main_v280 (broadcastInDim S1048576 ![] bcast_S_S1048576 : TScal F → TPos F),
    StableHlo.binary main_v280 main_v270 main_v281 (muli : TPos F → TPos F → TPos F),
    StableHlo.nullary main_c_97 (constantI S_ 32 1#32),
    StableHlo.unary main_c_97 main_v282 (broadcastInDim S1048576 ![] bcast_S_S1048576 : TScal F → TPos F),
    StableHlo.binary main_v281 main_v282 main_v283 (addi : TPos F → TPos F → TPos F),
    StableHlo.nullary main_c_98 (constantI S_ 32 0#32),
    StableHlo.unary main_c_98 main_v284 (broadcastInDim S1048576 ![] bcast_S_S1048576 : TScal F → TPos F),
    StableHlo.binary main_v283 main_v284 main_v285 (cmpi .slt : TPos F → TPos F → TFlag F),
    StableHlo.nullary main_c_99 (constantI S_ 32 16777216#32),
    StableHlo.unary main_c_99 main_v286 (broadcastInDim S1048576 ![] bcast_S_S1048576 : TScal F → TPos F),
    StableHlo.binary main_v283 main_v286 main_v287 (addi : TPos F → TPos F → TPos F),
    StableHlo.ternary main_v285 main_v287 main_v283 main_v288 (select : TFlag F → TPos F → TPos F → TPos F),
    StableHlo.unary main_v288 main_v289 (broadcastInDim S1048576x1 ![0] bcast_S1048576_S1048576x1_0 : TPos F → TCol F),
    StableHlo.binary main_v269 main_v289 main_v290 ((fun x i => Host.gather gather_S16777216_S1048576x1_S1048576_n_0_n_n_0_1_1 x i) : TTree F → TCol F → TVals F),
    StableHlo.binary main_v279 main_v290 main_v291 (addf : TVals F → TVals F → TVals F),
    StableHlo.nullary main_c_100 (constantI S_ 32 0#32),
    StableHlo.unary main_c_100 main_v292 (broadcastInDim S1048576 ![] bcast_S_S1048576 : TScal F → TPos F),
    StableHlo.binary main_v270 main_v292 main_v293 (cmpi .slt : TPos F → TPos F → TFlag F),
    StableHlo.nullary main_c_101 (constantI S_ 32 16777216#32),
    StableHlo.unary main_c_101 main_v294 (broadcastInDim S1048576 ![] bcast_S_S1048576 : TScal F → TPos F),
    StableHlo.binary main_v270 main_v294 main_v295 (addi : TPos F → TPos F → TPos F),
    StableHlo.ternary main_v293 main_v295 main_v270 main_v296 (select : TFlag F → TPos F → TPos F → TPos F),
    StableHlo.unary main_v296 main_v297 (broadcastInDim S1048576x1 ![0] bcast_S1048576_S1048576x1_0 : TPos F → TCol F),
    StableHlo.ternary main_v269 main_v297 main_v291 main_v298 ((fun x i u => Host.scatter scatter_S16777216_S1048576x1_S1048576_n_0_0_1 (fun _ b => b) x i u) : TTree F → TCol F → TVals F → TTree F) ]

abbrev opsRd10_W : List (Ref sig .tc) :=
  [main_c_92, main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v270, main_c_93, main_v271, main_v272, main_c_94, main_v273, main_v274, main_c_95, main_v275, main_v276, main_v277, main_v278, main_v279, main_c_96, main_v280, main_v281, main_c_97, main_v282, main_v283, main_c_98, main_v284, main_v285, main_c_99, main_v286, main_v287, main_v288, main_v289, main_v290, main_v291, main_c_100, main_v292, main_v293, main_c_101, main_v294, main_v295, main_v296, main_v297, main_v298]
theorem opsRd10_writes : (opsRd10 : List (HloOp τ sig (Elt F))).Forall fun op => op.writes ⊆ (opsRd10_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd10_keep (V : Valuation τ sig (Elt F)) (b : Ref sig .tc) (h : b ∉ opsRd10_W) :
    after (opsRd10 : List (HloOp τ sig (Elt F))) V (Proc.devRef .tc b) = V (Proc.devRef .tc b) :=
  after_of_writes_sub opsRd10 V opsRd10_writes h

theorem opsRd10_sub : (opsRd10 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd10_fresh : (opsRd10 : List (HloOp τ sig (Elt F))).Forall fun op => op.fresh = ∅ := by
  simp only [List.Forall]
  and_intros <;> exact rfl

end Cert.ReferenceIdeal.Hand

end
-- ==== Proof.Ref.Regroup.Rd11.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 11 of the reference: @main's operations 563 … 617. -/
abbrev opsRd11 : List (HloOp τ sig (Elt F)) :=
  [ StableHlo.nullary main_c_102 (constantI S_ 32 2#32),
    StableHlo.TRef.unary (.of main_c_102 : StableHlo.TRef sig ⟨S_, .i32⟩) main_call10.v0 id,
    StableHlo.TRef.unary main_call10.v0 main_call10.v1 (broadcastInDim S1048576 ![] bcast_S_S1048576),
    StableHlo.TRef.binary (.of main_v270 : StableHlo.TRef sig ⟨S1048576, .i32⟩) main_call10.v1 main_call10.v2 Host.divsi,
    StableHlo.TRef.unary (.of main_v270 : StableHlo.TRef sig ⟨S1048576, .i32⟩) main_call10.v3 signi,
    StableHlo.TRef.unary main_call10.v0 main_call10.v4 signi,
    StableHlo.TRef.unary main_call10.v4 main_call10.v5 (broadcastInDim S1048576 ![] bcast_S_S1048576),
    StableHlo.TRef.binary main_call10.v3 main_call10.v5 main_call10.v6 (cmpi .ne),
    StableHlo.TRef.unary main_call10.v0 main_call10.v7 (broadcastInDim S1048576 ![] bcast_S_S1048576),
    StableHlo.TRef.binary (.of main_v270 : StableHlo.TRef sig ⟨S1048576, .i32⟩) main_call10.v7 main_call10.v8 Host.remsi,
    StableHlo.TRef.nullary main_call10.c (constantI S_ 32 0#32),
    StableHlo.TRef.unary main_call10.c main_call10.v9 (broadcastInDim S1048576 ![] bcast_S_S1048576),
    StableHlo.TRef.binary main_call10.v8 main_call10.v9 main_call10.v10 (cmpi .ne),
    StableHlo.TRef.binary main_call10.v6 main_call10.v10 main_call10.v11 andi,
    StableHlo.TRef.nullary main_call10.c_0 (constantI S_ 32 1#32),
    StableHlo.TRef.unary main_call10.c_0 main_call10.v12 (broadcastInDim S1048576 ![] bcast_S_S1048576),
    StableHlo.TRef.binary main_call10.v2 main_call10.v12 main_call10.v13 subi,
    StableHlo.TRef.ternary main_call10.v11 main_call10.v13 main_call10.v2 main_call10.call0.v0 select,
    StableHlo.nullary main_c_103 (constantI S_ 32 2#32),
    StableHlo.unary main_c_103 main_v300 (broadcastInDim S1048576 ![] bcast_S_S1048576 : TScal F → TPos F),
    StableHlo.binary main_v300 main_v299 main_v301 (muli : TPos F → TPos F → TPos F),
    StableHlo.nullary main_c_104 (constantI S_ 32 0#32),
    StableHlo.unary main_c_104 main_v302 (broadcastInDim S1048576 ![] bcast_S_S1048576 : TScal F → TPos F),
    StableHlo.binary main_v301 main_v302 main_v303 (cmpi .slt : TPos F → TPos F → TFlag F),
    StableHlo.nullary main_c_105 (constantI S_ 32 16777216#32),
    StableHlo.unary main_c_105 main_v304 (broadcastInDim S1048576 ![] bcast_S_S1048576 : TScal F → TPos F),
    StableHlo.binary main_v301 main_v304 main_v305 (addi : TPos F → TPos F → TPos F),
    StableHlo.ternary main_v303 main_v305 main_v301 main_v306 (select : TFlag F → TPos F → TPos F → TPos F),
    StableHlo.unary main_v306 main_v307 (broadcastInDim S1048576x1 ![0] bcast_S1048576_S1048576x1_0 : TPos F → TCol F),
    StableHlo.binary main_v298 main_v307 main_v308 ((fun x i => Host.gather gather_S16777216_S1048576x1_S1048576_n_0_n_n_0_1_1 x i) : TTree F → TCol F → TVals F),
    StableHlo.nullary main_c_106 (constantI S_ 32 2#32),
    StableHlo.unary main_c_106 main_v309 (broadcastInDim S1048576 ![] bcast_S_S1048576 : TScal F → TPos F),
    StableHlo.binary main_v309 main_v299 main_v310 (muli : TPos F → TPos F → TPos F),
    StableHlo.nullary main_c_107 (constantI S_ 32 1#32),
    StableHlo.unary main_c_107 main_v311 (broadcastInDim S1048576 ![] bcast_S_S1048576 : TScal F → TPos F),
    StableHlo.binary main_v310 main_v311 main_v312 (addi : TPos F → TPos F → TPos F),
    StableHlo.nullary main_c_108 (constantI S_ 32 0#32),
    StableHlo.unary main_c_108 main_v313 (broadcastInDim S1048576 ![] bcast_S_S1048576 : TScal F → TPos F),
    StableHlo.binary main_v312 main_v313 main_v314 (cmpi .slt : TPos F → TPos F → TFlag F),
    StableHlo.nullary main_c_109 (constantI S_ 32 16777216#32),
    StableHlo.unary main_c_109 main_v315 (broadcastInDim S1048576 ![] bcast_S_S1048576 : TScal F → TPos F),
    StableHlo.binary main_v312 main_v315 main_v316 (addi : TPos F → TPos F → TPos F),
    StableHlo.ternary main_v314 main_v316 main_v312 main_v317 (select : TFlag F → TPos F → TPos F → TPos F),
    StableHlo.unary main_v317 main_v318 (broadcastInDim S1048576x1 ![0] bcast_S1048576_S1048576x1_0 : TPos F → TCol F),
    StableHlo.binary main_v298 main_v318 main_v319 ((fun x i => Host.gather gather_S16777216_S1048576x1_S1048576_n_0_n_n_0_1_1 x i) : TTree F → TCol F → TVals F),
    StableHlo.binary main_v308 main_v319 main_v320 (addf : TVals F → TVals F → TVals F),
    StableHlo.nullary main_c_110 (constantI S_ 32 0#32),
    StableHlo.unary main_c_110 main_v321 (broadcastInDim S1048576 ![] bcast_S_S1048576 : TScal F → TPos F),
    StableHlo.binary main_v299 main_v321 main_v322 (cmpi .slt : TPos F → TPos F → TFlag F),
    StableHlo.nullary main_c_111 (constantI S_ 32 16777216#32),
    StableHlo.unary main_c_111 main_v323 (broadcastInDim S1048576 ![] bcast_S_S1048576 : TScal F → TPos F),
    StableHlo.binary main_v299 main_v323 main_v324 (addi : TPos F → TPos F → TPos F),
    StableHlo.ternary main_v322 main_v324 main_v299 main_v325 (select : TFlag F → TPos F → TPos F → TPos F),
    StableHlo.unary main_v325 main_v326 (broadcastInDim S1048576x1 ![0] bcast_S1048576_S1048576x1_0 : TPos F → TCol F),
    StableHlo.ternary main_v298 main_v326 main_v320 main_v327 ((fun x i u => Host.scatter scatter_S16777216_S1048576x1_S1048576_n_0_0_1 (fun _ b => b) x i u) : TTree F → TCol F → TVals F → TTree F) ]

abbrev opsRd11_W : List (Ref sig .tc) :=
  [main_c_102, main_call10_v0, main_call10_v1, main_call10_v2, main_call10_v3, main_call10_v4, main_call10_v5, main_call10_v6, main_call10_v7, main_call10_v8, main_call10_c, main_call10_v9, main_call10_v10, main_call10_v11, main_call10_c_0, main_call10_v12, main_call10_v13, main_v299, main_c_103, main_v300, main_v301, main_c_104, main_v302, main_v303, main_c_105, main_v304, main_v305, main_v306, main_v307, main_v308, main_c_106, main_v309, main_v310, main_c_107, main_v311, main_v312, main_c_108, main_v313, main_v314, main_c_109, main_v315, main_v316, main_v317, main_v318, main_v319, main_v320, main_c_110, main_v321, main_v322, main_c_111, main_v323, main_v324, main_v325, main_v326, main_v327]
theorem opsRd11_writes : (opsRd11 : List (HloOp τ sig (Elt F))).Forall fun op => op.writes ⊆ (opsRd11_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd11_keep (V : Valuation τ sig (Elt F)) (b : Ref sig .tc) (h : b ∉ opsRd11_W) :
    after (opsRd11 : List (HloOp τ sig (Elt F))) V (Proc.devRef .tc b) = V (Proc.devRef .tc b) :=
  after_of_writes_sub opsRd11 V opsRd11_writes h

theorem opsRd11_sub : (opsRd11 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd11_fresh : (opsRd11 : List (HloOp τ sig (Elt F))).Forall fun op => op.fresh = ∅ := by
  simp only [List.Forall]
  and_intros <;> exact rfl

end Cert.ReferenceIdeal.Hand

end
-- ==== Proof.Ref.Regroup.Rd12.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 12 of the reference: @main's operations 618 … 672. -/
abbrev opsRd12 : List (HloOp τ sig (Elt F)) :=
  [ StableHlo.nullary main_c_112 (constantI S_ 32 2#32),
    StableHlo.TRef.unary (.of main_c_112 : StableHlo.TRef sig ⟨S_, .i32⟩) main_call11.v0 id,
    StableHlo.TRef.unary main_call11.v0 main_call11.v1 (broadcastInDim S1048576 ![] bcast_S_S1048576),
    StableHlo.TRef.binary (.of main_v299 : StableHlo.TRef sig ⟨S1048576, .i32⟩) main_call11.v1 main_call11.v2 Host.divsi,
    StableHlo.TRef.unary (.of main_v299 : StableHlo.TRef sig ⟨S1048576, .i32⟩) main_call11.v3 signi,
    StableHlo.TRef.unary main_call11.v0 main_call11.v4 signi,
    StableHlo.TRef.unary main_call11.v4 main_call11.v5 (broadcastInDim S1048576 ![] bcast_S_S1048576),
    StableHlo.TRef.binary main_call11.v3 main_call11.v5 main_call11.v6 (cmpi .ne),
    StableHlo.TRef.unary main_call11.v0 main_call11.v7 (broadcastInDim S1048576 ![] bcast_S_S1048576),
    StableHlo.TRef.binary (.of main_v299 : StableHlo.TRef sig ⟨S1048576, .i32⟩) main_call11.v7 main_call11.v8 Host.remsi,
    StableHlo.TRef.nullary main_call11.c (constantI S_ 32 0#32),
    StableHlo.TRef.unary main_call11.c main_call11.v9 (broadcastInDim S1048576 ![] bcast_S_S1048576),
    StableHlo.TRef.binary main_call11.v8 main_call11.v9 main_call11.v10 (cmpi .ne),
    StableHlo.TRef.binary main_call11.v6 main_call11.v10 main_call11.v11 andi,
    StableHlo.TRef.nullary main_call11.c_0 (constantI S_ 32 1#32),
    StableHlo.TRef.unary main_call11.c_0 main_call11.v12 (broadcastInDim S1048576 ![] bcast_S_S1048576),
    StableHlo.TRef.binary main_call11.v2 main_call11.v12 main_call11.v13 subi,
    StableHlo.TRef.ternary main_call11.v11 main_call11.v13 main_call11.v2 main_call11.call0.v0 select,
    StableHlo.nullary main_c_113 (constantI S_ 32 2#32),
    StableHlo.unary main_c_113 main_v329 (broadcastInDim S1048576 ![] bcast_S_S1048576 : TScal F → TPos F),
    StableHlo.binary main_v329 main_v328 main_v330 (muli : TPos F → TPos F → TPos F),
    StableHlo.nullary main_c_114 (constantI S_ 32 0#32),
    StableHlo.unary main_c_114 main_v331 (broadcastInDim S1048576 ![] bcast_S_S1048576 : TScal F → TPos F),
    StableHlo.binary main_v330 main_v331 main_v332 (cmpi .slt : TPos F → TPos F → TFlag F),
    StableHlo.nullary main_c_115 (constantI S_ 32 16777216#32),
    StableHlo.unary main_c_115 main_v333 (broadcastInDim S1048576 ![] bcast_S_S1048576 : TScal F → TPos F),
    StableHlo.binary main_v330 main_v333 main_v334 (addi : TPos F → TPos F → TPos F),
    StableHlo.ternary main_v332 main_v334 main_v330 main_v335 (select : TFlag F → TPos F → TPos F → TPos F),
    StableHlo.unary main_v335 main_v336 (broadcastInDim S1048576x1 ![0] bcast_S1048576_S1048576x1_0 : TPos F → TCol F),
    StableHlo.binary main_v327 main_v336 main_v337 ((fun x i => Host.gather gather_S16777216_S1048576x1_S1048576_n_0_n_n_0_1_1 x i) : TTree F → TCol F → TVals F),
    StableHlo.nullary main_c_116 (constantI S_ 32 2#32),
    StableHlo.unary main_c_116 main_v338 (broadcastInDim S1048576 ![] bcast_S_S1048576 : TScal F → TPos F),
    StableHlo.binary main_v338 main_v328 main_v339 (muli : TPos F → TPos F → TPos F),
    StableHlo.nullary main_c_117 (constantI S_ 32 1#32),
    StableHlo.unary main_c_117 main_v340 (broadcastInDim S1048576 ![] bcast_S_S1048576 : TScal F → TPos F),
    StableHlo.binary main_v339 main_v340 main_v341 (addi : TPos F → TPos F → TPos F),
    StableHlo.nullary main_c_118 (constantI S_ 32 0#32),
    StableHlo.unary main_c_118 main_v342 (broadcastInDim S1048576 ![] bcast_S_S1048576 : TScal F → TPos F),
    StableHlo.binary main_v341 main_v342 main_v343 (cmpi .slt : TPos F → TPos F → TFlag F),
    StableHlo.nullary main_c_119 (constantI S_ 32 16777216#32),
    StableHlo.unary main_c_119 main_v344 (broadcastInDim S1048576 ![] bcast_S_S1048576 : TScal F → TPos F),
    StableHlo.binary main_v341 main_v344 main_v345 (addi : TPos F → TPos F → TPos F),
    StableHlo.ternary main_v343 main_v345 main_v341 main_v346 (select : TFlag F → TPos F → TPos F → TPos F),
    StableHlo.unary main_v346 main_v347 (broadcastInDim S1048576x1 ![0] bcast_S1048576_S1048576x1_0 : TPos F → TCol F),
    StableHlo.binary main_v327 main_v347 main_v348 ((fun x i => Host.gather gather_S16777216_S1048576x1_S1048576_n_0_n_n_0_1_1 x i) : TTree F → TCol F → TVals F),
    StableHlo.binary main_v337 main_v348 main_v349 (addf : TVals F → TVals F → TVals F),
    StableHlo.nullary main_c_120 (constantI S_ 32 0#32),
    StableHlo.unary main_c_120 main_v350 (broadcastInDim S1048576 ![] bcast_S_S1048576 : TScal F → TPos F),
    StableHlo.binary main_v328 main_v350 main_v351 (cmpi .slt : TPos F → TPos F → TFlag F),
    StableHlo.nullary main_c_121 (constantI S_ 32 16777216#32),
    StableHlo.unary main_c_121 main_v352 (broadcastInDim S1048576 ![] bcast_S_S1048576 : TScal F → TPos F),
    StableHlo.binary main_v328 main_v352 main_v353 (addi : TPos F → TPos F → TPos F),
    StableHlo.ternary main_v351 main_v353 main_v328 main_v354 (select : TFlag F → TPos F → TPos F → TPos F),
    StableHlo.unary main_v354 main_v355 (broadcastInDim S1048576x1 ![0] bcast_S1048576_S1048576x1_0 : TPos F → TCol F),
    StableHlo.ternary main_v327 main_v355 main_v349 main_v356 ((fun x i u => Host.scatter scatter_S16777216_S1048576x1_S1048576_n_0_0_1 (fun _ b => b) x i u) : TTree F → TCol F → TVals F → TTree F) ]

abbrev opsRd12_W : List (Ref sig .tc) :=
  [main_c_112, main_call11_v0, main_call11_v1, main_call11_v2, main_call11_v3, main_call11_v4, main_call11_v5, main_call11_v6, main_call11_v7, main_call11_v8, main_call11_c, main_call11_v9, main_call11_v10, main_call11_v11, main_call11_c_0, main_call11_v12, main_call11_v13, main_v328, main_c_113, main_v329, main_v330, main_c_114, main_v331, main_v332, main_c_115, main_v333, main_v334, main_v335, main_v336, main_v337, main_c_116, main_v338, main_v339, main_c_117, main_v340, main_v341, main_c_118, main_v342, main_v343, main_c_119, main_v344, main_v345, main_v346, main_v347, main_v348, main_v349, main_c_120, main_v350, main_v351, main_c_121, main_v352, main_v353, main_v354, main_v355, main_v356]
theorem opsRd12_writes : (opsRd12 : List (HloOp τ sig (Elt F))).Forall fun op => op.writes ⊆ (opsRd12_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd12_keep (V : Valuation τ sig (Elt F)) (b : Ref sig .tc) (h : b ∉ opsRd12_W) :
    after (opsRd12 : List (HloOp τ sig (Elt F))) V (Proc.devRef .tc b) = V (Proc.devRef .tc b) :=
  after_of_writes_sub opsRd12 V opsRd12_writes h

theorem opsRd12_sub : (opsRd12 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd12_fresh : (opsRd12 : List (HloOp τ sig (Elt F))).Forall fun op => op.fresh = ∅ := by
  simp only [List.Forall]
  and_intros <;> exact rfl

end Cert.ReferenceIdeal.Hand

end
-- ==== Proof.Ref.Regroup.Rd13.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 13 of the reference: @main's operations 673 … 727. -/
abbrev opsRd13 : List (HloOp τ sig (Elt F)) :=
  [ StableHlo.nullary main_c_122 (constantI S_ 32 2#32),
    StableHlo.TRef.unary (.of main_c_122 : StableHlo.TRef sig ⟨S_, .i32⟩) main_call12.v0 id,
    StableHlo.TRef.unary main_call12.v0 main_call12.v1 (broadcastInDim S1048576 ![] bcast_S_S1048576),
    StableHlo.TRef.binary (.of main_v328 : StableHlo.TRef sig ⟨S1048576, .i32⟩) main_call12.v1 main_call12.v2 Host.divsi,
    StableHlo.TRef.unary (.of main_v328 : StableHlo.TRef sig ⟨S1048576, .i32⟩) main_call12.v3 signi,
    StableHlo.TRef.unary main_call12.v0 main_call12.v4 signi,
    StableHlo.TRef.unary main_call12.v4 main_call12.v5 (broadcastInDim S1048576 ![] bcast_S_S1048576),
    StableHlo.TRef.binary main_call12.v3 main_call12.v5 main_call12.v6 (cmpi .ne),
    StableHlo.TRef.unary main_call12.v0 main_call12.v7 (broadcastInDim S1048576 ![] bcast_S_S1048576),
    StableHlo.TRef.binary (.of main_v328 : StableHlo.TRef sig ⟨S1048576, .i32⟩) main_call12.v7 main_call12.v8 Host.remsi,
    StableHlo.TRef.nullary main_call12.c (constantI S_ 32 0#32),
    StableHlo.TRef.unary main_call12.c main_call12.v9 (broadcastInDim S1048576 ![] bcast_S_S1048576),
    StableHlo.TRef.binary main_call12.v8 main_call12.v9 main_call12.v10 (cmpi .ne),
    StableHlo.TRef.binary main_call12.v6 main_call12.v10 main_call12.v11 andi,
    StableHlo.TRef.nullary main_call12.c_0 (constantI S_ 32 1#32),
    StableHlo.TRef.unary main_call12.c_0 main_call12.v12 (broadcastInDim S1048576 ![] bcast_S_S1048576),
    StableHlo.TRef.binary main_call12.v2 main_call12.v12 main_call12.v13 subi,
    StableHlo.TRef.ternary main_call12.v11 main_call12.v13 main_call12.v2 main_call12.call0.v0 select,
    StableHlo.nullary main_c_123 (constantI S_ 32 2#32),
    StableHlo.unary main_c_123 main_v358 (broadcastInDim S1048576 ![] bcast_S_S1048576 : TScal F → TPos F),
    StableHlo.binary main_v358 main_v357 main_v359 (muli : TPos F → TPos F → TPos F),
    StableHlo.nullary main_c_124 (constantI S_ 32 0#32),
    StableHlo.unary main_c_124 main_v360 (broadcastInDim S1048576 ![] bcast_S_S1048576 : TScal F → TPos F),
    StableHlo.binary main_v359 main_v360 main_v361 (cmpi .slt : TPos F → TPos F → TFlag F),
    StableHlo.nullary main_c_125 (constantI S_ 32 16777216#32),
    StableHlo.unary main_c_125 main_v362 (broadcastInDim S1048576 ![] bcast_S_S1048576 : TScal F → TPos F),
    StableHlo.binary main_v359 main_v362 main_v363 (addi : TPos F → TPos F → TPos F),
    StableHlo.ternary main_v361 main_v363 main_v359 main_v364 (select : TFlag F → TPos F → TPos F → TPos F),
    StableHlo.unary main_v364 main_v365 (broadcastInDim S1048576x1 ![0] bcast_S1048576_S1048576x1_0 : TPos F → TCol F),
    StableHlo.binary main_v356 main_v365 main_v366 ((fun x i => Host.gather gather_S16777216_S1048576x1_S1048576_n_0_n_n_0_1_1 x i) : TTree F → TCol F → TVals F),
    StableHlo.nullary main_c_126 (constantI S_ 32 2#32),
    StableHlo.unary main_c_126 main_v367 (broadcastInDim S1048576 ![] bcast_S_S1048576 : TScal F → TPos F),
    StableHlo.binary main_v367 main_v357 main_v368 (muli : TPos F → TPos F → TPos F),
    StableHlo.nullary main_c_127 (constantI S_ 32 1#32),
    StableHlo.unary main_c_127 main_v369 (broadcastInDim S1048576 ![] bcast_S_S1048576 : TScal F → TPos F),
    StableHlo.binary main_v368 main_v369 main_v370 (addi : TPos F → TPos F → TPos F),
    StableHlo.nullary main_c_128 (constantI S_ 32 0#32),
    StableHlo.unary main_c_128 main_v371 (broadcastInDim S1048576 ![] bcast_S_S1048576 : TScal F → TPos F),
    StableHlo.binary main_v370 main_v371 main_v372 (cmpi .slt : TPos F → TPos F → TFlag F),
    StableHlo.nullary main_c_129 (constantI S_ 32 16777216#32),
    StableHlo.unary main_c_129 main_v373 (broadcastInDim S1048576 ![] bcast_S_S1048576 : TScal F → TPos F),
    StableHlo.binary main_v370 main_v373 main_v374 (addi : TPos F → TPos F → TPos F),
    StableHlo.ternary main_v372 main_v374 main_v370 main_v375 (select : TFlag F → TPos F → TPos F → TPos F),
    StableHlo.unary main_v375 main_v376 (broadcastInDim S1048576x1 ![0] bcast_S1048576_S1048576x1_0 : TPos F → TCol F),
    StableHlo.binary main_v356 main_v376 main_v377 ((fun x i => Host.gather gather_S16777216_S1048576x1_S1048576_n_0_n_n_0_1_1 x i) : TTree F → TCol F → TVals F),
    StableHlo.binary main_v366 main_v377 main_v378 (addf : TVals F → TVals F → TVals F),
    StableHlo.nullary main_c_130 (constantI S_ 32 0#32),
    StableHlo.unary main_c_130 main_v379 (broadcastInDim S1048576 ![] bcast_S_S1048576 : TScal F → TPos F),
    StableHlo.binary main_v357 main_v379 main_v380 (cmpi .slt : TPos F → TPos F → TFlag F),
    StableHlo.nullary main_c_131 (constantI S_ 32 16777216#32),
    StableHlo.unary main_c_131 main_v381 (broadcastInDim S1048576 ![] bcast_S_S1048576 : TScal F → TPos F),
    StableHlo.binary main_v357 main_v381 main_v382 (addi : TPos F → TPos F → TPos F),
    StableHlo.ternary main_v380 main_v382 main_v357 main_v383 (select : TFlag F → TPos F → TPos F → TPos F),
    StableHlo.unary main_v383 main_v384 (broadcastInDim S1048576x1 ![0] bcast_S1048576_S1048576x1_0 : TPos F → TCol F),
    StableHlo.ternary main_v356 main_v384 main_v378 main_v385 ((fun x i u => Host.scatter scatter_S16777216_S1048576x1_S1048576_n_0_0_1 (fun _ b => b) x i u) : TTree F → TCol F → TVals F → TTree F) ]

abbrev opsRd13_W : List (Ref sig .tc) :=
  [main_c_122, main_call12_v0, main_call12_v1, main_call12_v2, main_call12_v3, main_call12_v4, main_call12_v5, main_call12_v6, main_call12_v7, main_call12_v8, main_call12_c, main_call12_v9, main_call12_v10, main_call12_v11, main_call12_c_0, main_call12_v12, main_call12_v13, main_v357, main_c_123, main_v358, main_v359, main_c_124, main_v360, main_v361, main_c_125, main_v362, main_v363, main_v364, main_v365, main_v366, main_c_126, main_v367, main_v368, main_c_127, main_v369, main_v370, main_c_128, main_v371, main_v372, main_c_129, main_v373, main_v374, main_v375, main_v376, main_v377, main_v378, main_c_130, main_v379, main_v380, main_c_131, main_v381, main_v382, main_v383, main_v384, main_v385]
theorem opsRd13_writes : (opsRd13 : List (HloOp τ sig (Elt F))).Forall fun op => op.writes ⊆ (opsRd13_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd13_keep (V : Valuation τ sig (Elt F)) (b : Ref sig .tc) (h : b ∉ opsRd13_W) :
    after (opsRd13 : List (HloOp τ sig (Elt F))) V (Proc.devRef .tc b) = V (Proc.devRef .tc b) :=
  after_of_writes_sub opsRd13 V opsRd13_writes h

theorem opsRd13_sub : (opsRd13 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd13_fresh : (opsRd13 : List (HloOp τ sig (Elt F))).Forall fun op => op.fresh = ∅ := by
  simp only [List.Forall]
  and_intros <;> exact rfl

end Cert.ReferenceIdeal.Hand

end
-- ==== Proof.Ref.Regroup.Rd14.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 14 of the reference: @main's operations 728 … 782. -/
abbrev opsRd14 : List (HloOp τ sig (Elt F)) :=
  [ StableHlo.nullary main_c_132 (constantI S_ 32 2#32),
    StableHlo.TRef.unary (.of main_c_132 : StableHlo.TRef sig ⟨S_, .i32⟩) main_call13.v0 id,
    StableHlo.TRef.unary main_call13.v0 main_call13.v1 (broadcastInDim S1048576 ![] bcast_S_S1048576),
    StableHlo.TRef.binary (.of main_v357 : StableHlo.TRef sig ⟨S1048576, .i32⟩) main_call13.v1 main_call13.v2 Host.divsi,
    StableHlo.TRef.unary (.of main_v357 : StableHlo.TRef sig ⟨S1048576, .i32⟩) main_call13.v3 signi,
    StableHlo.TRef.unary main_call13.v0 main_call13.v4 signi,
    StableHlo.TRef.unary main_call13.v4 main_call13.v5 (broadcastInDim S1048576 ![] bcast_S_S1048576),
    StableHlo.TRef.binary main_call13.v3 main_call13.v5 main_call13.v6 (cmpi .ne),
    StableHlo.TRef.unary main_call13.v0 main_call13.v7 (broadcastInDim S1048576 ![] bcast_S_S1048576),
    StableHlo.TRef.binary (.of main_v357 : StableHlo.TRef sig ⟨S1048576, .i32⟩) main_call13.v7 main_call13.v8 Host.remsi,
    StableHlo.TRef.nullary main_call13.c (constantI S_ 32 0#32),
    StableHlo.TRef.unary main_call13.c main_call13.v9 (broadcastInDim S1048576 ![] bcast_S_S1048576),
    StableHlo.TRef.binary main_call13.v8 main_call13.v9 main_call13.v10 (cmpi .ne),
    StableHlo.TRef.binary main_call13.v6 main_call13.v10 main_call13.v11 andi,
    StableHlo.TRef.nullary main_call13.c_0 (constantI S_ 32 1#32),
    StableHlo.TRef.unary main_call13.c_0 main_call13.v12 (broadcastInDim S1048576 ![] bcast_S_S1048576),
    StableHlo.TRef.binary main_call13.v2 main_call13.v12 main_call13.v13 subi,
    StableHlo.TRef.ternary main_call13.v11 main_call13.v13 main_call13.v2 main_call13.call0.v0 select,
    StableHlo.nullary main_c_133 (constantI S_ 32 2#32),
    StableHlo.unary main_c_133 main_v387 (broadcastInDim S1048576 ![] bcast_S_S1048576 : TScal F → TPos F),
    StableHlo.binary main_v387 main_v386 main_v388 (muli : TPos F → TPos F → TPos F),
    StableHlo.nullary main_c_134 (constantI S_ 32 0#32),
    StableHlo.unary main_c_134 main_v389 (broadcastInDim S1048576 ![] bcast_S_S1048576 : TScal F → TPos F),
    StableHlo.binary main_v388 main_v389 main_v390 (cmpi .slt : TPos F → TPos F → TFlag F),
    StableHlo.nullary main_c_135 (constantI S_ 32 16777216#32),
    StableHlo.unary main_c_135 main_v391 (broadcastInDim S1048576 ![] bcast_S_S1048576 : TScal F → TPos F),
    StableHlo.binary main_v388 main_v391 main_v392 (addi : TPos F → TPos F → TPos F),
    StableHlo.ternary main_v390 main_v392 main_v388 main_v393 (select : TFlag F → TPos F → TPos F → TPos F),
    StableHlo.unary main_v393 main_v394 (broadcastInDim S1048576x1 ![0] bcast_S1048576_S1048576x1_0 : TPos F → TCol F),
    StableHlo.binary main_v385 main_v394 main_v395 ((fun x i => Host.gather gather_S16777216_S1048576x1_S1048576_n_0_n_n_0_1_1 x i) : TTree F → TCol F → TVals F),
    StableHlo.nullary main_c_136 (constantI S_ 32 2#32),
    StableHlo.unary main_c_136 main_v396 (broadcastInDim S1048576 ![] bcast_S_S1048576 : TScal F → TPos F),
    StableHlo.binary main_v396 main_v386 main_v397 (muli : TPos F → TPos F → TPos F),
    StableHlo.nullary main_c_137 (constantI S_ 32 1#32),
    StableHlo.unary main_c_137 main_v398 (broadcastInDim S1048576 ![] bcast_S_S1048576 : TScal F → TPos F),
    StableHlo.binary main_v397 main_v398 main_v399 (addi : TPos F → TPos F → TPos F),
    StableHlo.nullary main_c_138 (constantI S_ 32 0#32),
    StableHlo.unary main_c_138 main_v400 (broadcastInDim S1048576 ![] bcast_S_S1048576 : TScal F → TPos F),
    StableHlo.binary main_v399 main_v400 main_v401 (cmpi .slt : TPos F → TPos F → TFlag F),
    StableHlo.nullary main_c_139 (constantI S_ 32 16777216#32),
    StableHlo.unary main_c_139 main_v402 (broadcastInDim S1048576 ![] bcast_S_S1048576 : TScal F → TPos F),
    StableHlo.binary main_v399 main_v402 main_v403 (addi : TPos F → TPos F → TPos F),
    StableHlo.ternary main_v401 main_v403 main_v399 main_v404 (select : TFlag F → TPos F → TPos F → TPos F),
    StableHlo.unary main_v404 main_v405 (broadcastInDim S1048576x1 ![0] bcast_S1048576_S1048576x1_0 : TPos F → TCol F),
    StableHlo.binary main_v385 main_v405 main_v406 ((fun x i => Host.gather gather_S16777216_S1048576x1_S1048576_n_0_n_n_0_1_1 x i) : TTree F → TCol F → TVals F),
    StableHlo.binary main_v395 main_v406 main_v407 (addf : TVals F → TVals F → TVals F),
    StableHlo.nullary main_c_140 (constantI S_ 32 0#32),
    StableHlo.unary main_c_140 main_v408 (broadcastInDim S1048576 ![] bcast_S_S1048576 : TScal F → TPos F),
    StableHlo.binary main_v386 main_v408 main_v409 (cmpi .slt : TPos F → TPos F → TFlag F),
    StableHlo.nullary main_c_141 (constantI S_ 32 16777216#32),
    StableHlo.unary main_c_141 main_v410 (broadcastInDim S1048576 ![] bcast_S_S1048576 : TScal F → TPos F),
    StableHlo.binary main_v386 main_v410 main_v411 (addi : TPos F → TPos F → TPos F),
    StableHlo.ternary main_v409 main_v411 main_v386 main_v412 (select : TFlag F → TPos F → TPos F → TPos F),
    StableHlo.unary main_v412 main_v413 (broadcastInDim S1048576x1 ![0] bcast_S1048576_S1048576x1_0 : TPos F → TCol F),
    StableHlo.ternary main_v385 main_v413 main_v407 main_v414 ((fun x i u => Host.scatter scatter_S16777216_S1048576x1_S1048576_n_0_0_1 (fun _ b => b) x i u) : TTree F → TCol F → TVals F → TTree F) ]

abbrev opsRd14_W : List (Ref sig .tc) :=
  [main_c_132, main_call13_v0, main_call13_v1, main_call13_v2, main_call13_v3, main_call13_v4, main_call13_v5, main_call13_v6, main_call13_v7, main_call13_v8, main_call13_c, main_call13_v9, main_call13_v10, main_call13_v11, main_call13_c_0, main_call13_v12, main_call13_v13, main_v386, main_c_133, main_v387, main_v388, main_c_134, main_v389, main_v390, main_c_135, main_v391, main_v392, main_v393, main_v394, main_v395, main_c_136, main_v396, main_v397, main_c_137, main_v398, main_v399, main_c_138, main_v400, main_v401, main_c_139, main_v402, main_v403, main_v404, main_v405, main_v406, main_v407, main_c_140, main_v408, main_v409, main_c_141, main_v410, main_v411, main_v412, main_v413, main_v414]
theorem opsRd14_writes : (opsRd14 : List (HloOp τ sig (Elt F))).Forall fun op => op.writes ⊆ (opsRd14_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd14_keep (V : Valuation τ sig (Elt F)) (b : Ref sig .tc) (h : b ∉ opsRd14_W) :
    after (opsRd14 : List (HloOp τ sig (Elt F))) V (Proc.devRef .tc b) = V (Proc.devRef .tc b) :=
  after_of_writes_sub opsRd14 V opsRd14_writes h

theorem opsRd14_sub : (opsRd14 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd14_fresh : (opsRd14 : List (HloOp τ sig (Elt F))).Forall fun op => op.fresh = ∅ := by
  simp only [List.Forall]
  and_intros <;> exact rfl

end Cert.ReferenceIdeal.Hand

end
-- ==== Proof.Ref.Regroup.Rd15.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 15 of the reference: @main's operations 783 … 837. -/
abbrev opsRd15 : List (HloOp τ sig (Elt F)) :=
  [ StableHlo.nullary main_c_142 (constantI S_ 32 2#32),
    StableHlo.TRef.unary (.of main_c_142 : StableHlo.TRef sig ⟨S_, .i32⟩) main_call14.v0 id,
    StableHlo.TRef.unary main_call14.v0 main_call14.v1 (broadcastInDim S1048576 ![] bcast_S_S1048576),
    StableHlo.TRef.binary (.of main_v386 : StableHlo.TRef sig ⟨S1048576, .i32⟩) main_call14.v1 main_call14.v2 Host.divsi,
    StableHlo.TRef.unary (.of main_v386 : StableHlo.TRef sig ⟨S1048576, .i32⟩) main_call14.v3 signi,
    StableHlo.TRef.unary main_call14.v0 main_call14.v4 signi,
    StableHlo.TRef.unary main_call14.v4 main_call14.v5 (broadcastInDim S1048576 ![] bcast_S_S1048576),
    StableHlo.TRef.binary main_call14.v3 main_call14.v5 main_call14.v6 (cmpi .ne),
    StableHlo.TRef.unary main_call14.v0 main_call14.v7 (broadcastInDim S1048576 ![] bcast_S_S1048576),
    StableHlo.TRef.binary (.of main_v386 : StableHlo.TRef sig ⟨S1048576, .i32⟩) main_call14.v7 main_call14.v8 Host.remsi,
    StableHlo.TRef.nullary main_call14.c (constantI S_ 32 0#32),
    StableHlo.TRef.unary main_call14.c main_call14.v9 (broadcastInDim S1048576 ![] bcast_S_S1048576),
    StableHlo.TRef.binary main_call14.v8 main_call14.v9 main_call14.v10 (cmpi .ne),
    StableHlo.TRef.binary main_call14.v6 main_call14.v10 main_call14.v11 andi,
    StableHlo.TRef.nullary main_call14.c_0 (constantI S_ 32 1#32),
    StableHlo.TRef.unary main_call14.c_0 main_call14.v12 (broadcastInDim S1048576 ![] bcast_S_S1048576),
    StableHlo.TRef.binary main_call14.v2 main_call14.v12 main_call14.v13 subi,
    StableHlo.TRef.ternary main_call14.v11 main_call14.v13 main_call14.v2 main_call14.call0.v0 select,
    StableHlo.nullary main_c_143 (constantI S_ 32 2#32),
    StableHlo.unary main_c_143 main_v416 (broadcastInDim S1048576 ![] bcast_S_S1048576 : TScal F → TPos F),
    StableHlo.binary main_v416 main_v415 main_v417 (muli : TPos F → TPos F → TPos F),
    StableHlo.nullary main_c_144 (constantI S_ 32 0#32),
    StableHlo.unary main_c_144 main_v418 (broadcastInDim S1048576 ![] bcast_S_S1048576 : TScal F → TPos F),
    StableHlo.binary main_v417 main_v418 main_v419 (cmpi .slt : TPos F → TPos F → TFlag F),
    StableHlo.nullary main_c_145 (constantI S_ 32 16777216#32),
    StableHlo.unary main_c_145 main_v420 (broadcastInDim S1048576 ![] bcast_S_S1048576 : TScal F → TPos F),
    StableHlo.binary main_v417 main_v420 main_v421 (addi : TPos F → TPos F → TPos F),
    StableHlo.ternary main_v419 main_v421 main_v417 main_v422 (select : TFlag F → TPos F → TPos F → TPos F),
    StableHlo.unary main_v422 main_v423 (broadcastInDim S1048576x1 ![0] bcast_S1048576_S1048576x1_0 : TPos F → TCol F),
    StableHlo.binary main_v414 main_v423 main_v424 ((fun x i => Host.gather gather_S16777216_S1048576x1_S1048576_n_0_n_n_0_1_1 x i) : TTree F → TCol F → TVals F),
    StableHlo.nullary main_c_146 (constantI S_ 32 2#32),
    StableHlo.unary main_c_146 main_v425 (broadcastInDim S1048576 ![] bcast_S_S1048576 : TScal F → TPos F),
    StableHlo.binary main_v425 main_v415 main_v426 (muli : TPos F → TPos F → TPos F),
    StableHlo.nullary main_c_147 (constantI S_ 32 1#32),
    StableHlo.unary main_c_147 main_v427 (broadcastInDim S1048576 ![] bcast_S_S1048576 : TScal F → TPos F),
    StableHlo.binary main_v426 main_v427 main_v428 (addi : TPos F → TPos F → TPos F),
    StableHlo.nullary main_c_148 (constantI S_ 32 0#32),
    StableHlo.unary main_c_148 main_v429 (broadcastInDim S1048576 ![] bcast_S_S1048576 : TScal F → TPos F),
    StableHlo.binary main_v428 main_v429 main_v430 (cmpi .slt : TPos F → TPos F → TFlag F),
    StableHlo.nullary main_c_149 (constantI S_ 32 16777216#32),
    StableHlo.unary main_c_149 main_v431 (broadcastInDim S1048576 ![] bcast_S_S1048576 : TScal F → TPos F),
    StableHlo.binary main_v428 main_v431 main_v432 (addi : TPos F → TPos F → TPos F),
    StableHlo.ternary main_v430 main_v432 main_v428 main_v433 (select : TFlag F → TPos F → TPos F → TPos F),
    StableHlo.unary main_v433 main_v434 (broadcastInDim S1048576x1 ![0] bcast_S1048576_S1048576x1_0 : TPos F → TCol F),
    StableHlo.binary main_v414 main_v434 main_v435 ((fun x i => Host.gather gather_S16777216_S1048576x1_S1048576_n_0_n_n_0_1_1 x i) : TTree F → TCol F → TVals F),
    StableHlo.binary main_v424 main_v435 main_v436 (addf : TVals F → TVals F → TVals F),
    StableHlo.nullary main_c_150 (constantI S_ 32 0#32),
    StableHlo.unary main_c_150 main_v437 (broadcastInDim S1048576 ![] bcast_S_S1048576 : TScal F → TPos F),
    StableHlo.binary main_v415 main_v437 main_v438 (cmpi .slt : TPos F → TPos F → TFlag F),
    StableHlo.nullary main_c_151 (constantI S_ 32 16777216#32),
    StableHlo.unary main_c_151 main_v439 (broadcastInDim S1048576 ![] bcast_S_S1048576 : TScal F → TPos F),
    StableHlo.binary main_v415 main_v439 main_v440 (addi : TPos F → TPos F → TPos F),
    StableHlo.ternary main_v438 main_v440 main_v415 main_v441 (select : TFlag F → TPos F → TPos F → TPos F),
    StableHlo.unary main_v441 main_v442 (broadcastInDim S1048576x1 ![0] bcast_S1048576_S1048576x1_0 : TPos F → TCol F),
    StableHlo.ternary main_v414 main_v442 main_v436 main_v443 ((fun x i u => Host.scatter scatter_S16777216_S1048576x1_S1048576_n_0_0_1 (fun _ b => b) x i u) : TTree F → TCol F → TVals F → TTree F) ]

abbrev opsRd15_W : List (Ref sig .tc) :=
  [main_c_142, main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v415, main_c_143, main_v416, main_v417, main_c_144, main_v418, main_v419, main_c_145, main_v420, main_v421, main_v422, main_v423, main_v424, main_c_146, main_v425, main_v426, main_c_147, main_v427, main_v428, main_c_148, main_v429, main_v430, main_c_149, main_v431, main_v432, main_v433, main_v434, main_v435, main_v436, main_c_150, main_v437, main_v438, main_c_151, main_v439, main_v440, main_v441, main_v442, main_v443]
theorem opsRd15_writes : (opsRd15 : List (HloOp τ sig (Elt F))).Forall fun op => op.writes ⊆ (opsRd15_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd15_keep (V : Valuation τ sig (Elt F)) (b : Ref sig .tc) (h : b ∉ opsRd15_W) :
    after (opsRd15 : List (HloOp τ sig (Elt F))) V (Proc.devRef .tc b) = V (Proc.devRef .tc b) :=
  after_of_writes_sub opsRd15 V opsRd15_writes h

theorem opsRd15_sub : (opsRd15 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd15_fresh : (opsRd15 : List (HloOp τ sig (Elt F))).Forall fun op => op.fresh = ∅ := by
  simp only [List.Forall]
  and_intros <;> exact rfl

end Cert.ReferenceIdeal.Hand

end
-- ==== Proof.Ref.Regroup.Rd16.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 16 of the reference: @main's operations 838 … 892. -/
abbrev opsRd16 : List (HloOp τ sig (Elt F)) :=
  [ StableHlo.nullary main_c_152 (constantI S_ 32 2#32),
    StableHlo.TRef.unary (.of main_c_152 : StableHlo.TRef sig ⟨S_, .i32⟩) main_call15.v0 id,
    StableHlo.TRef.unary main_call15.v0 main_call15.v1 (broadcastInDim S1048576 ![] bcast_S_S1048576),
    StableHlo.TRef.binary (.of main_v415 : StableHlo.TRef sig ⟨S1048576, .i32⟩) main_call15.v1 main_call15.v2 Host.divsi,
    StableHlo.TRef.unary (.of main_v415 : StableHlo.TRef sig ⟨S1048576, .i32⟩) main_call15.v3 signi,
    StableHlo.TRef.unary main_call15.v0 main_call15.v4 signi,
    StableHlo.TRef.unary main_call15.v4 main_call15.v5 (broadcastInDim S1048576 ![] bcast_S_S1048576),
    StableHlo.TRef.binary main_call15.v3 main_call15.v5 main_call15.v6 (cmpi .ne),
    StableHlo.TRef.unary main_call15.v0 main_call15.v7 (broadcastInDim S1048576 ![] bcast_S_S1048576),
    StableHlo.TRef.binary (.of main_v415 : StableHlo.TRef sig ⟨S1048576, .i32⟩) main_call15.v7 main_call15.v8 Host.remsi,
    StableHlo.TRef.nullary main_call15.c (constantI S_ 32 0#32),
    StableHlo.TRef.unary main_call15.c main_call15.v9 (broadcastInDim S1048576 ![] bcast_S_S1048576),
    StableHlo.TRef.binary main_call15.v8 main_call15.v9 main_call15.v10 (cmpi .ne),
    StableHlo.TRef.binary main_call15.v6 main_call15.v10 main_call15.v11 andi,
    StableHlo.TRef.nullary main_call15.c_0 (constantI S_ 32 1#32),
    StableHlo.TRef.unary main_call15.c_0 main_call15.v12 (broadcastInDim S1048576 ![] bcast_S_S1048576),
    StableHlo.TRef.binary main_call15.v2 main_call15.v12 main_call15.v13 subi,
    StableHlo.TRef.ternary main_call15.v11 main_call15.v13 main_call15.v2 main_call15.call0.v0 select,
    StableHlo.nullary main_c_153 (constantI S_ 32 2#32),
    StableHlo.unary main_c_153 main_v445 (broadcastInDim S1048576 ![] bcast_S_S1048576 : TScal F → TPos F),
    StableHlo.binary main_v445 main_v444 main_v446 (muli : TPos F → TPos F → TPos F),
    StableHlo.nullary main_c_154 (constantI S_ 32 0#32),
    StableHlo.unary main_c_154 main_v447 (broadcastInDim S1048576 ![] bcast_S_S1048576 : TScal F → TPos F),
    StableHlo.binary main_v446 main_v447 main_v448 (cmpi .slt : TPos F → TPos F → TFlag F),
    StableHlo.nullary main_c_155 (constantI S_ 32 16777216#32),
    StableHlo.unary main_c_155 main_v449 (broadcastInDim S1048576 ![] bcast_S_S1048576 : TScal F → TPos F),
    StableHlo.binary main_v446 main_v449 main_v450 (addi : TPos F → TPos F → TPos F),
    StableHlo.ternary main_v448 main_v450 main_v446 main_v451 (select : TFlag F → TPos F → TPos F → TPos F),
    StableHlo.unary main_v451 main_v452 (broadcastInDim S1048576x1 ![0] bcast_S1048576_S1048576x1_0 : TPos F → TCol F),
    StableHlo.binary main_v443 main_v452 main_v453 ((fun x i => Host.gather gather_S16777216_S1048576x1_S1048576_n_0_n_n_0_1_1 x i) : TTree F → TCol F → TVals F),
    StableHlo.nullary main_c_156 (constantI S_ 32 2#32),
    StableHlo.unary main_c_156 main_v454 (broadcastInDim S1048576 ![] bcast_S_S1048576 : TScal F → TPos F),
    StableHlo.binary main_v454 main_v444 main_v455 (muli : TPos F → TPos F → TPos F),
    StableHlo.nullary main_c_157 (constantI S_ 32 1#32),
    StableHlo.unary main_c_157 main_v456 (broadcastInDim S1048576 ![] bcast_S_S1048576 : TScal F → TPos F),
    StableHlo.binary main_v455 main_v456 main_v457 (addi : TPos F → TPos F → TPos F),
    StableHlo.nullary main_c_158 (constantI S_ 32 0#32),
    StableHlo.unary main_c_158 main_v458 (broadcastInDim S1048576 ![] bcast_S_S1048576 : TScal F → TPos F),
    StableHlo.binary main_v457 main_v458 main_v459 (cmpi .slt : TPos F → TPos F → TFlag F),
    StableHlo.nullary main_c_159 (constantI S_ 32 16777216#32),
    StableHlo.unary main_c_159 main_v460 (broadcastInDim S1048576 ![] bcast_S_S1048576 : TScal F → TPos F),
    StableHlo.binary main_v457 main_v460 main_v461 (addi : TPos F → TPos F → TPos F),
    StableHlo.ternary main_v459 main_v461 main_v457 main_v462 (select : TFlag F → TPos F → TPos F → TPos F),
    StableHlo.unary main_v462 main_v463 (broadcastInDim S1048576x1 ![0] bcast_S1048576_S1048576x1_0 : TPos F → TCol F),
    StableHlo.binary main_v443 main_v463 main_v464 ((fun x i => Host.gather gather_S16777216_S1048576x1_S1048576_n_0_n_n_0_1_1 x i) : TTree F → TCol F → TVals F),
    StableHlo.binary main_v453 main_v464 main_v465 (addf : TVals F → TVals F → TVals F),
    StableHlo.nullary main_c_160 (constantI S_ 32 0#32),
    StableHlo.unary main_c_160 main_v466 (broadcastInDim S1048576 ![] bcast_S_S1048576 : TScal F → TPos F),
    StableHlo.binary main_v444 main_v466 main_v467 (cmpi .slt : TPos F → TPos F → TFlag F),
    StableHlo.nullary main_c_161 (constantI S_ 32 16777216#32),
    StableHlo.unary main_c_161 main_v468 (broadcastInDim S1048576 ![] bcast_S_S1048576 : TScal F → TPos F),
    StableHlo.binary main_v444 main_v468 main_v469 (addi : TPos F → TPos F → TPos F),
    StableHlo.ternary main_v467 main_v469 main_v444 main_v470 (select : TFlag F → TPos F → TPos F → TPos F),
    StableHlo.unary main_v470 main_v471 (broadcastInDim S1048576x1 ![0] bcast_S1048576_S1048576x1_0 : TPos F → TCol F),
    StableHlo.ternary main_v443 main_v471 main_v465 main_v472 ((fun x i u => Host.scatter scatter_S16777216_S1048576x1_S1048576_n_0_0_1 (fun _ b => b) x i u) : TTree F → TCol F → TVals F → TTree F) ]

abbrev opsRd16_W : List (Ref sig .tc) :=
  [main_c_152, main_call15_v0, main_call15_v1, main_call15_v2, main_call15_v3, main_call15_v4, main_call15_v5, main_call15_v6, main_call15_v7, main_call15_v8, main_call15_c, main_call15_v9, main_call15_v10, main_call15_v11, main_call15_c_0, main_call15_v12, main_call15_v13, main_v444, main_c_153, main_v445, main_v446, main_c_154, main_v447, main_v448, main_c_155, main_v449, main_v450, main_v451, main_v452, main_v453, main_c_156, main_v454, main_v455, main_c_157, main_v456, main_v457, main_c_158, main_v458, main_v459, main_c_159, main_v460, main_v461, main_v462, main_v463, main_v464, main_v465, main_c_160, main_v466, main_v467, main_c_161, main_v468, main_v469, main_v470, main_v471, main_v472]
theorem opsRd16_writes : (opsRd16 : List (HloOp τ sig (Elt F))).Forall fun op => op.writes ⊆ (opsRd16_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd16_keep (V : Valuation τ sig (Elt F)) (b : Ref sig .tc) (h : b ∉ opsRd16_W) :
    after (opsRd16 : List (HloOp τ sig (Elt F))) V (Proc.devRef .tc b) = V (Proc.devRef .tc b) :=
  after_of_writes_sub opsRd16 V opsRd16_writes h

theorem opsRd16_sub : (opsRd16 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd16_fresh : (opsRd16 : List (HloOp τ sig (Elt F))).Forall fun op => op.fresh = ∅ := by
  simp only [List.Forall]
  and_intros <;> exact rfl

end Cert.ReferenceIdeal.Hand

end
-- ==== Proof.Ref.Regroup.Rd17.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 17 of the reference: @main's operations 893 … 947. -/
abbrev opsRd17 : List (HloOp τ sig (Elt F)) :=
  [ StableHlo.nullary main_c_162 (constantI S_ 32 2#32),
    StableHlo.TRef.unary (.of main_c_162 : StableHlo.TRef sig ⟨S_, .i32⟩) main_call16.v0 id,
    StableHlo.TRef.unary main_call16.v0 main_call16.v1 (broadcastInDim S1048576 ![] bcast_S_S1048576),
    StableHlo.TRef.binary (.of main_v444 : StableHlo.TRef sig ⟨S1048576, .i32⟩) main_call16.v1 main_call16.v2 Host.divsi,
    StableHlo.TRef.unary (.of main_v444 : StableHlo.TRef sig ⟨S1048576, .i32⟩) main_call16.v3 signi,
    StableHlo.TRef.unary main_call16.v0 main_call16.v4 signi,
    StableHlo.TRef.unary main_call16.v4 main_call16.v5 (broadcastInDim S1048576 ![] bcast_S_S1048576),
    StableHlo.TRef.binary main_call16.v3 main_call16.v5 main_call16.v6 (cmpi .ne),
    StableHlo.TRef.unary main_call16.v0 main_call16.v7 (broadcastInDim S1048576 ![] bcast_S_S1048576),
    StableHlo.TRef.binary (.of main_v444 : StableHlo.TRef sig ⟨S1048576, .i32⟩) main_call16.v7 main_call16.v8 Host.remsi,
    StableHlo.TRef.nullary main_call16.c (constantI S_ 32 0#32),
    StableHlo.TRef.unary main_call16.c main_call16.v9 (broadcastInDim S1048576 ![] bcast_S_S1048576),
    StableHlo.TRef.binary main_call16.v8 main_call16.v9 main_call16.v10 (cmpi .ne),
    StableHlo.TRef.binary main_call16.v6 main_call16.v10 main_call16.v11 andi,
    StableHlo.TRef.nullary main_call16.c_0 (constantI S_ 32 1#32),
    StableHlo.TRef.unary main_call16.c_0 main_call16.v12 (broadcastInDim S1048576 ![] bcast_S_S1048576),
    StableHlo.TRef.binary main_call16.v2 main_call16.v12 main_call16.v13 subi,
    StableHlo.TRef.ternary main_call16.v11 main_call16.v13 main_call16.v2 main_call16.call0.v0 select,
    StableHlo.nullary main_c_163 (constantI S_ 32 2#32),
    StableHlo.unary main_c_163 main_v474 (broadcastInDim S1048576 ![] bcast_S_S1048576 : TScal F → TPos F),
    StableHlo.binary main_v474 main_v473 main_v475 (muli : TPos F → TPos F → TPos F),
    StableHlo.nullary main_c_164 (constantI S_ 32 0#32),
    StableHlo.unary main_c_164 main_v476 (broadcastInDim S1048576 ![] bcast_S_S1048576 : TScal F → TPos F),
    StableHlo.binary main_v475 main_v476 main_v477 (cmpi .slt : TPos F → TPos F → TFlag F),
    StableHlo.nullary main_c_165 (constantI S_ 32 16777216#32),
    StableHlo.unary main_c_165 main_v478 (broadcastInDim S1048576 ![] bcast_S_S1048576 : TScal F → TPos F),
    StableHlo.binary main_v475 main_v478 main_v479 (addi : TPos F → TPos F → TPos F),
    StableHlo.ternary main_v477 main_v479 main_v475 main_v480 (select : TFlag F → TPos F → TPos F → TPos F),
    StableHlo.unary main_v480 main_v481 (broadcastInDim S1048576x1 ![0] bcast_S1048576_S1048576x1_0 : TPos F → TCol F),
    StableHlo.binary main_v472 main_v481 main_v482 ((fun x i => Host.gather gather_S16777216_S1048576x1_S1048576_n_0_n_n_0_1_1 x i) : TTree F → TCol F → TVals F),
    StableHlo.nullary main_c_166 (constantI S_ 32 2#32),
    StableHlo.unary main_c_166 main_v483 (broadcastInDim S1048576 ![] bcast_S_S1048576 : TScal F → TPos F),
    StableHlo.binary main_v483 main_v473 main_v484 (muli : TPos F → TPos F → TPos F),
    StableHlo.nullary main_c_167 (constantI S_ 32 1#32),
    StableHlo.unary main_c_167 main_v485 (broadcastInDim S1048576 ![] bcast_S_S1048576 : TScal F → TPos F),
    StableHlo.binary main_v484 main_v485 main_v486 (addi : TPos F → TPos F → TPos F),
    StableHlo.nullary main_c_168 (constantI S_ 32 0#32),
    StableHlo.unary main_c_168 main_v487 (broadcastInDim S1048576 ![] bcast_S_S1048576 : TScal F → TPos F),
    StableHlo.binary main_v486 main_v487 main_v488 (cmpi .slt : TPos F → TPos F → TFlag F),
    StableHlo.nullary main_c_169 (constantI S_ 32 16777216#32),
    StableHlo.unary main_c_169 main_v489 (broadcastInDim S1048576 ![] bcast_S_S1048576 : TScal F → TPos F),
    StableHlo.binary main_v486 main_v489 main_v490 (addi : TPos F → TPos F → TPos F),
    StableHlo.ternary main_v488 main_v490 main_v486 main_v491 (select : TFlag F → TPos F → TPos F → TPos F),
    StableHlo.unary main_v491 main_v492 (broadcastInDim S1048576x1 ![0] bcast_S1048576_S1048576x1_0 : TPos F → TCol F),
    StableHlo.binary main_v472 main_v492 main_v493 ((fun x i => Host.gather gather_S16777216_S1048576x1_S1048576_n_0_n_n_0_1_1 x i) : TTree F → TCol F → TVals F),
    StableHlo.binary main_v482 main_v493 main_v494 (addf : TVals F → TVals F → TVals F),
    StableHlo.nullary main_c_170 (constantI S_ 32 0#32),
    StableHlo.unary main_c_170 main_v495 (broadcastInDim S1048576 ![] bcast_S_S1048576 : TScal F → TPos F),
    StableHlo.binary main_v473 main_v495 main_v496 (cmpi .slt : TPos F → TPos F → TFlag F),
    StableHlo.nullary main_c_171 (constantI S_ 32 16777216#32),
    StableHlo.unary main_c_171 main_v497 (broadcastInDim S1048576 ![] bcast_S_S1048576 : TScal F → TPos F),
    StableHlo.binary main_v473 main_v497 main_v498 (addi : TPos F → TPos F → TPos F),
    StableHlo.ternary main_v496 main_v498 main_v473 main_v499 (select : TFlag F → TPos F → TPos F → TPos F),
    StableHlo.unary main_v499 main_v500 (broadcastInDim S1048576x1 ![0] bcast_S1048576_S1048576x1_0 : TPos F → TCol F),
    StableHlo.ternary main_v472 main_v500 main_v494 main_v501 ((fun x i u => Host.scatter scatter_S16777216_S1048576x1_S1048576_n_0_0_1 (fun _ b => b) x i u) : TTree F → TCol F → TVals F → TTree F) ]

abbrev opsRd17_W : List (Ref sig .tc) :=
  [main_c_162, main_call16_v0, main_call16_v1, main_call16_v2, main_call16_v3, main_call16_v4, main_call16_v5, main_call16_v6, main_call16_v7, main_call16_v8, main_call16_c, main_call16_v9, main_call16_v10, main_call16_v11, main_call16_c_0, main_call16_v12, main_call16_v13, main_v473, main_c_163, main_v474, main_v475, main_c_164, main_v476, main_v477, main_c_165, main_v478, main_v479, main_v480, main_v481, main_v482, main_c_166, main_v483, main_v484, main_c_167, main_v485, main_v486, main_c_168, main_v487, main_v488, main_c_169, main_v489, main_v490, main_v491, main_v492, main_v493, main_v494, main_c_170, main_v495, main_v496, main_c_171, main_v497, main_v498, main_v499, main_v500, main_v501]
theorem opsRd17_writes : (opsRd17 : List (HloOp τ sig (Elt F))).Forall fun op => op.writes ⊆ (opsRd17_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd17_keep (V : Valuation τ sig (Elt F)) (b : Ref sig .tc) (h : b ∉ opsRd17_W) :
    after (opsRd17 : List (HloOp τ sig (Elt F))) V (Proc.devRef .tc b) = V (Proc.devRef .tc b) :=
  after_of_writes_sub opsRd17 V opsRd17_writes h

theorem opsRd17_sub : (opsRd17 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd17_fresh : (opsRd17 : List (HloOp τ sig (Elt F))).Forall fun op => op.fresh = ∅ := by
  simp only [List.Forall]
  and_intros <;> exact rfl

end Cert.ReferenceIdeal.Hand

end
-- ==== Proof.Ref.Regroup.Rd18.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 18 of the reference: @main's operations 948 … 1002. -/
abbrev opsRd18 : List (HloOp τ sig (Elt F)) :=
  [ StableHlo.nullary main_c_172 (constantI S_ 32 2#32),
    StableHlo.TRef.unary (.of main_c_172 : StableHlo.TRef sig ⟨S_, .i32⟩) main_call17.v0 id,
    StableHlo.TRef.unary main_call17.v0 main_call17.v1 (broadcastInDim S1048576 ![] bcast_S_S1048576),
    StableHlo.TRef.binary (.of main_v473 : StableHlo.TRef sig ⟨S1048576, .i32⟩) main_call17.v1 main_call17.v2 Host.divsi,
    StableHlo.TRef.unary (.of main_v473 : StableHlo.TRef sig ⟨S1048576, .i32⟩) main_call17.v3 signi,
    StableHlo.TRef.unary main_call17.v0 main_call17.v4 signi,
    StableHlo.TRef.unary main_call17.v4 main_call17.v5 (broadcastInDim S1048576 ![] bcast_S_S1048576),
    StableHlo.TRef.binary main_call17.v3 main_call17.v5 main_call17.v6 (cmpi .ne),
    StableHlo.TRef.unary main_call17.v0 main_call17.v7 (broadcastInDim S1048576 ![] bcast_S_S1048576),
    StableHlo.TRef.binary (.of main_v473 : StableHlo.TRef sig ⟨S1048576, .i32⟩) main_call17.v7 main_call17.v8 Host.remsi,
    StableHlo.TRef.nullary main_call17.c (constantI S_ 32 0#32),
    StableHlo.TRef.unary main_call17.c main_call17.v9 (broadcastInDim S1048576 ![] bcast_S_S1048576),
    StableHlo.TRef.binary main_call17.v8 main_call17.v9 main_call17.v10 (cmpi .ne),
    StableHlo.TRef.binary main_call17.v6 main_call17.v10 main_call17.v11 andi,
    StableHlo.TRef.nullary main_call17.c_0 (constantI S_ 32 1#32),
    StableHlo.TRef.unary main_call17.c_0 main_call17.v12 (broadcastInDim S1048576 ![] bcast_S_S1048576),
    StableHlo.TRef.binary main_call17.v2 main_call17.v12 main_call17.v13 subi,
    StableHlo.TRef.ternary main_call17.v11 main_call17.v13 main_call17.v2 main_call17.call0.v0 select,
    StableHlo.nullary main_c_173 (constantI S_ 32 2#32),
    StableHlo.unary main_c_173 main_v503 (broadcastInDim S1048576 ![] bcast_S_S1048576 : TScal F → TPos F),
    StableHlo.binary main_v503 main_v502 main_v504 (muli : TPos F → TPos F → TPos F),
    StableHlo.nullary main_c_174 (constantI S_ 32 0#32),
    StableHlo.unary main_c_174 main_v505 (broadcastInDim S1048576 ![] bcast_S_S1048576 : TScal F → TPos F),
    StableHlo.binary main_v504 main_v505 main_v506 (cmpi .slt : TPos F → TPos F → TFlag F),
    StableHlo.nullary main_c_175 (constantI S_ 32 16777216#32),
    StableHlo.unary main_c_175 main_v507 (broadcastInDim S1048576 ![] bcast_S_S1048576 : TScal F → TPos F),
    StableHlo.binary main_v504 main_v507 main_v508 (addi : TPos F → TPos F → TPos F),
    StableHlo.ternary main_v506 main_v508 main_v504 main_v509 (select : TFlag F → TPos F → TPos F → TPos F),
    StableHlo.unary main_v509 main_v510 (broadcastInDim S1048576x1 ![0] bcast_S1048576_S1048576x1_0 : TPos F → TCol F),
    StableHlo.binary main_v501 main_v510 main_v511 ((fun x i => Host.gather gather_S16777216_S1048576x1_S1048576_n_0_n_n_0_1_1 x i) : TTree F → TCol F → TVals F),
    StableHlo.nullary main_c_176 (constantI S_ 32 2#32),
    StableHlo.unary main_c_176 main_v512 (broadcastInDim S1048576 ![] bcast_S_S1048576 : TScal F → TPos F),
    StableHlo.binary main_v512 main_v502 main_v513 (muli : TPos F → TPos F → TPos F),
    StableHlo.nullary main_c_177 (constantI S_ 32 1#32),
    StableHlo.unary main_c_177 main_v514 (broadcastInDim S1048576 ![] bcast_S_S1048576 : TScal F → TPos F),
    StableHlo.binary main_v513 main_v514 main_v515 (addi : TPos F → TPos F → TPos F),
    StableHlo.nullary main_c_178 (constantI S_ 32 0#32),
    StableHlo.unary main_c_178 main_v516 (broadcastInDim S1048576 ![] bcast_S_S1048576 : TScal F → TPos F),
    StableHlo.binary main_v515 main_v516 main_v517 (cmpi .slt : TPos F → TPos F → TFlag F),
    StableHlo.nullary main_c_179 (constantI S_ 32 16777216#32),
    StableHlo.unary main_c_179 main_v518 (broadcastInDim S1048576 ![] bcast_S_S1048576 : TScal F → TPos F),
    StableHlo.binary main_v515 main_v518 main_v519 (addi : TPos F → TPos F → TPos F),
    StableHlo.ternary main_v517 main_v519 main_v515 main_v520 (select : TFlag F → TPos F → TPos F → TPos F),
    StableHlo.unary main_v520 main_v521 (broadcastInDim S1048576x1 ![0] bcast_S1048576_S1048576x1_0 : TPos F → TCol F),
    StableHlo.binary main_v501 main_v521 main_v522 ((fun x i => Host.gather gather_S16777216_S1048576x1_S1048576_n_0_n_n_0_1_1 x i) : TTree F → TCol F → TVals F),
    StableHlo.binary main_v511 main_v522 main_v523 (addf : TVals F → TVals F → TVals F),
    StableHlo.nullary main_c_180 (constantI S_ 32 0#32),
    StableHlo.unary main_c_180 main_v524 (broadcastInDim S1048576 ![] bcast_S_S1048576 : TScal F → TPos F),
    StableHlo.binary main_v502 main_v524 main_v525 (cmpi .slt : TPos F → TPos F → TFlag F),
    StableHlo.nullary main_c_181 (constantI S_ 32 16777216#32),
    StableHlo.unary main_c_181 main_v526 (broadcastInDim S1048576 ![] bcast_S_S1048576 : TScal F → TPos F),
    StableHlo.binary main_v502 main_v526 main_v527 (addi : TPos F → TPos F → TPos F),
    StableHlo.ternary main_v525 main_v527 main_v502 main_v528 (select : TFlag F → TPos F → TPos F → TPos F),
    StableHlo.unary main_v528 main_v529 (broadcastInDim S1048576x1 ![0] bcast_S1048576_S1048576x1_0 : TPos F → TCol F),
    StableHlo.ternary main_v501 main_v529 main_v523 main_v530 ((fun x i u => Host.scatter scatter_S16777216_S1048576x1_S1048576_n_0_0_1 (fun _ b => b) x i u) : TTree F → TCol F → TVals F → TTree F) ]

abbrev opsRd18_W : List (Ref sig .tc) :=
  [main_c_172, main_call17_v0, main_call17_v1, main_call17_v2, main_call17_v3, main_call17_v4, main_call17_v5, main_call17_v6, main_call17_v7, main_call17_v8, main_call17_c, main_call17_v9, main_call17_v10, main_call17_v11, main_call17_c_0, main_call17_v12, main_call17_v13, main_v502, main_c_173, main_v503, main_v504, main_c_174, main_v505, main_v506, main_c_175, main_v507, main_v508, main_v509, main_v510, main_v511, main_c_176, main_v512, main_v513, main_c_177, main_v514, main_v515, main_c_178, main_v516, main_v517, main_c_179, main_v518, main_v519, main_v520, main_v521, main_v522, main_v523, main_c_180, main_v524, main_v525, main_c_181, main_v526, main_v527, main_v528, main_v529, main_v530]
theorem opsRd18_writes : (opsRd18 : List (HloOp τ sig (Elt F))).Forall fun op => op.writes ⊆ (opsRd18_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd18_keep (V : Valuation τ sig (Elt F)) (b : Ref sig .tc) (h : b ∉ opsRd18_W) :
    after (opsRd18 : List (HloOp τ sig (Elt F))) V (Proc.devRef .tc b) = V (Proc.devRef .tc b) :=
  after_of_writes_sub opsRd18 V opsRd18_writes h

theorem opsRd18_sub : (opsRd18 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd18_fresh : (opsRd18 : List (HloOp τ sig (Elt F))).Forall fun op => op.fresh = ∅ := by
  simp only [List.Forall]
  and_intros <;> exact rfl

end Cert.ReferenceIdeal.Hand

end
-- ==== Proof.Ref.Regroup.Rd19.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 19 of the reference: @main's operations 1003 … 1057. -/
abbrev opsRd19 : List (HloOp τ sig (Elt F)) :=
  [ StableHlo.nullary main_c_182 (constantI S_ 32 2#32),
    StableHlo.TRef.unary (.of main_c_182 : StableHlo.TRef sig ⟨S_, .i32⟩) main_call18.v0 id,
    StableHlo.TRef.unary main_call18.v0 main_call18.v1 (broadcastInDim S1048576 ![] bcast_S_S1048576),
    StableHlo.TRef.binary (.of main_v502 : StableHlo.TRef sig ⟨S1048576, .i32⟩) main_call18.v1 main_call18.v2 Host.divsi,
    StableHlo.TRef.unary (.of main_v502 : StableHlo.TRef sig ⟨S1048576, .i32⟩) main_call18.v3 signi,
    StableHlo.TRef.unary main_call18.v0 main_call18.v4 signi,
    StableHlo.TRef.unary main_call18.v4 main_call18.v5 (broadcastInDim S1048576 ![] bcast_S_S1048576),
    StableHlo.TRef.binary main_call18.v3 main_call18.v5 main_call18.v6 (cmpi .ne),
    StableHlo.TRef.unary main_call18.v0 main_call18.v7 (broadcastInDim S1048576 ![] bcast_S_S1048576),
    StableHlo.TRef.binary (.of main_v502 : StableHlo.TRef sig ⟨S1048576, .i32⟩) main_call18.v7 main_call18.v8 Host.remsi,
    StableHlo.TRef.nullary main_call18.c (constantI S_ 32 0#32),
    StableHlo.TRef.unary main_call18.c main_call18.v9 (broadcastInDim S1048576 ![] bcast_S_S1048576),
    StableHlo.TRef.binary main_call18.v8 main_call18.v9 main_call18.v10 (cmpi .ne),
    StableHlo.TRef.binary main_call18.v6 main_call18.v10 main_call18.v11 andi,
    StableHlo.TRef.nullary main_call18.c_0 (constantI S_ 32 1#32),
    StableHlo.TRef.unary main_call18.c_0 main_call18.v12 (broadcastInDim S1048576 ![] bcast_S_S1048576),
    StableHlo.TRef.binary main_call18.v2 main_call18.v12 main_call18.v13 subi,
    StableHlo.TRef.ternary main_call18.v11 main_call18.v13 main_call18.v2 main_call18.call0.v0 select,
    StableHlo.nullary main_c_183 (constantI S_ 32 2#32),
    StableHlo.unary main_c_183 main_v532 (broadcastInDim S1048576 ![] bcast_S_S1048576 : TScal F → TPos F),
    StableHlo.binary main_v532 main_v531 main_v533 (muli : TPos F → TPos F → TPos F),
    StableHlo.nullary main_c_184 (constantI S_ 32 0#32),
    StableHlo.unary main_c_184 main_v534 (broadcastInDim S1048576 ![] bcast_S_S1048576 : TScal F → TPos F),
    StableHlo.binary main_v533 main_v534 main_v535 (cmpi .slt : TPos F → TPos F → TFlag F),
    StableHlo.nullary main_c_185 (constantI S_ 32 16777216#32),
    StableHlo.unary main_c_185 main_v536 (broadcastInDim S1048576 ![] bcast_S_S1048576 : TScal F → TPos F),
    StableHlo.binary main_v533 main_v536 main_v537 (addi : TPos F → TPos F → TPos F),
    StableHlo.ternary main_v535 main_v537 main_v533 main_v538 (select : TFlag F → TPos F → TPos F → TPos F),
    StableHlo.unary main_v538 main_v539 (broadcastInDim S1048576x1 ![0] bcast_S1048576_S1048576x1_0 : TPos F → TCol F),
    StableHlo.binary main_v530 main_v539 main_v540 ((fun x i => Host.gather gather_S16777216_S1048576x1_S1048576_n_0_n_n_0_1_1 x i) : TTree F → TCol F → TVals F),
    StableHlo.nullary main_c_186 (constantI S_ 32 2#32),
    StableHlo.unary main_c_186 main_v541 (broadcastInDim S1048576 ![] bcast_S_S1048576 : TScal F → TPos F),
    StableHlo.binary main_v541 main_v531 main_v542 (muli : TPos F → TPos F → TPos F),
    StableHlo.nullary main_c_187 (constantI S_ 32 1#32),
    StableHlo.unary main_c_187 main_v543 (broadcastInDim S1048576 ![] bcast_S_S1048576 : TScal F → TPos F),
    StableHlo.binary main_v542 main_v543 main_v544 (addi : TPos F → TPos F → TPos F),
    StableHlo.nullary main_c_188 (constantI S_ 32 0#32),
    StableHlo.unary main_c_188 main_v545 (broadcastInDim S1048576 ![] bcast_S_S1048576 : TScal F → TPos F),
    StableHlo.binary main_v544 main_v545 main_v546 (cmpi .slt : TPos F → TPos F → TFlag F),
    StableHlo.nullary main_c_189 (constantI S_ 32 16777216#32),
    StableHlo.unary main_c_189 main_v547 (broadcastInDim S1048576 ![] bcast_S_S1048576 : TScal F → TPos F),
    StableHlo.binary main_v544 main_v547 main_v548 (addi : TPos F → TPos F → TPos F),
    StableHlo.ternary main_v546 main_v548 main_v544 main_v549 (select : TFlag F → TPos F → TPos F → TPos F),
    StableHlo.unary main_v549 main_v550 (broadcastInDim S1048576x1 ![0] bcast_S1048576_S1048576x1_0 : TPos F → TCol F),
    StableHlo.binary main_v530 main_v550 main_v551 ((fun x i => Host.gather gather_S16777216_S1048576x1_S1048576_n_0_n_n_0_1_1 x i) : TTree F → TCol F → TVals F),
    StableHlo.binary main_v540 main_v551 main_v552 (addf : TVals F → TVals F → TVals F),
    StableHlo.nullary main_c_190 (constantI S_ 32 0#32),
    StableHlo.unary main_c_190 main_v553 (broadcastInDim S1048576 ![] bcast_S_S1048576 : TScal F → TPos F),
    StableHlo.binary main_v531 main_v553 main_v554 (cmpi .slt : TPos F → TPos F → TFlag F),
    StableHlo.nullary main_c_191 (constantI S_ 32 16777216#32),
    StableHlo.unary main_c_191 main_v555 (broadcastInDim S1048576 ![] bcast_S_S1048576 : TScal F → TPos F),
    StableHlo.binary main_v531 main_v555 main_v556 (addi : TPos F → TPos F → TPos F),
    StableHlo.ternary main_v554 main_v556 main_v531 main_v557 (select : TFlag F → TPos F → TPos F → TPos F),
    StableHlo.unary main_v557 main_v558 (broadcastInDim S1048576x1 ![0] bcast_S1048576_S1048576x1_0 : TPos F → TCol F),
    StableHlo.ternary main_v530 main_v558 main_v552 main_v559 ((fun x i u => Host.scatter scatter_S16777216_S1048576x1_S1048576_n_0_0_1 (fun _ b => b) x i u) : TTree F → TCol F → TVals F → TTree F) ]

abbrev opsRd19_W : List (Ref sig .tc) :=
  [main_c_182, main_call18_v0, main_call18_v1, main_call18_v2, main_call18_v3, main_call18_v4, main_call18_v5, main_call18_v6, main_call18_v7, main_call18_v8, main_call18_c, main_call18_v9, main_call18_v10, main_call18_v11, main_call18_c_0, main_call18_v12, main_call18_v13, main_v531, main_c_183, main_v532, main_v533, main_c_184, main_v534, main_v535, main_c_185, main_v536, main_v537, main_v538, main_v539, main_v540, main_c_186, main_v541, main_v542, main_c_187, main_v543, main_v544, main_c_188, main_v545, main_v546, main_c_189, main_v547, main_v548, main_v549, main_v550, main_v551, main_v552, main_c_190, main_v553, main_v554, main_c_191, main_v555, main_v556, main_v557, main_v558, main_v559]
theorem opsRd19_writes : (opsRd19 : List (HloOp τ sig (Elt F))).Forall fun op => op.writes ⊆ (opsRd19_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd19_keep (V : Valuation τ sig (Elt F)) (b : Ref sig .tc) (h : b ∉ opsRd19_W) :
    after (opsRd19 : List (HloOp τ sig (Elt F))) V (Proc.devRef .tc b) = V (Proc.devRef .tc b) :=
  after_of_writes_sub opsRd19 V opsRd19_writes h

theorem opsRd19_sub : (opsRd19 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd19_fresh : (opsRd19 : List (HloOp τ sig (Elt F))).Forall fun op => op.fresh = ∅ := by
  simp only [List.Forall]
  and_intros <;> exact rfl

end Cert.ReferenceIdeal.Hand

end
-- ==== Proof.Ref.Regroup.Rd20.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 20 of the reference: @main's operations 1058 … 1112. -/
abbrev opsRd20 : List (HloOp τ sig (Elt F)) :=
  [ StableHlo.nullary main_c_192 (constantI S_ 32 2#32),
    StableHlo.TRef.unary (.of main_c_192 : StableHlo.TRef sig ⟨S_, .i32⟩) main_call19.v0 id,
    StableHlo.TRef.unary main_call19.v0 main_call19.v1 (broadcastInDim S1048576 ![] bcast_S_S1048576),
    StableHlo.TRef.binary (.of main_v531 : StableHlo.TRef sig ⟨S1048576, .i32⟩) main_call19.v1 main_call19.v2 Host.divsi,
    StableHlo.TRef.unary (.of main_v531 : StableHlo.TRef sig ⟨S1048576, .i32⟩) main_call19.v3 signi,
    StableHlo.TRef.unary main_call19.v0 main_call19.v4 signi,
    StableHlo.TRef.unary main_call19.v4 main_call19.v5 (broadcastInDim S1048576 ![] bcast_S_S1048576),
    StableHlo.TRef.binary main_call19.v3 main_call19.v5 main_call19.v6 (cmpi .ne),
    StableHlo.TRef.unary main_call19.v0 main_call19.v7 (broadcastInDim S1048576 ![] bcast_S_S1048576),
    StableHlo.TRef.binary (.of main_v531 : StableHlo.TRef sig ⟨S1048576, .i32⟩) main_call19.v7 main_call19.v8 Host.remsi,
    StableHlo.TRef.nullary main_call19.c (constantI S_ 32 0#32),
    StableHlo.TRef.unary main_call19.c main_call19.v9 (broadcastInDim S1048576 ![] bcast_S_S1048576),
    StableHlo.TRef.binary main_call19.v8 main_call19.v9 main_call19.v10 (cmpi .ne),
    StableHlo.TRef.binary main_call19.v6 main_call19.v10 main_call19.v11 andi,
    StableHlo.TRef.nullary main_call19.c_0 (constantI S_ 32 1#32),
    StableHlo.TRef.unary main_call19.c_0 main_call19.v12 (broadcastInDim S1048576 ![] bcast_S_S1048576),
    StableHlo.TRef.binary main_call19.v2 main_call19.v12 main_call19.v13 subi,
    StableHlo.TRef.ternary main_call19.v11 main_call19.v13 main_call19.v2 main_call19.call0.v0 select,
    StableHlo.nullary main_c_193 (constantI S_ 32 2#32),
    StableHlo.unary main_c_193 main_v561 (broadcastInDim S1048576 ![] bcast_S_S1048576 : TScal F → TPos F),
    StableHlo.binary main_v561 main_v560 main_v562 (muli : TPos F → TPos F → TPos F),
    StableHlo.nullary main_c_194 (constantI S_ 32 0#32),
    StableHlo.unary main_c_194 main_v563 (broadcastInDim S1048576 ![] bcast_S_S1048576 : TScal F → TPos F),
    StableHlo.binary main_v562 main_v563 main_v564 (cmpi .slt : TPos F → TPos F → TFlag F),
    StableHlo.nullary main_c_195 (constantI S_ 32 16777216#32),
    StableHlo.unary main_c_195 main_v565 (broadcastInDim S1048576 ![] bcast_S_S1048576 : TScal F → TPos F),
    StableHlo.binary main_v562 main_v565 main_v566 (addi : TPos F → TPos F → TPos F),
    StableHlo.ternary main_v564 main_v566 main_v562 main_v567 (select : TFlag F → TPos F → TPos F → TPos F),
    StableHlo.unary main_v567 main_v568 (broadcastInDim S1048576x1 ![0] bcast_S1048576_S1048576x1_0 : TPos F → TCol F),
    StableHlo.binary main_v559 main_v568 main_v569 ((fun x i => Host.gather gather_S16777216_S1048576x1_S1048576_n_0_n_n_0_1_1 x i) : TTree F → TCol F → TVals F),
    StableHlo.nullary main_c_196 (constantI S_ 32 2#32),
    StableHlo.unary main_c_196 main_v570 (broadcastInDim S1048576 ![] bcast_S_S1048576 : TScal F → TPos F),
    StableHlo.binary main_v570 main_v560 main_v571 (muli : TPos F → TPos F → TPos F),
    StableHlo.nullary main_c_197 (constantI S_ 32 1#32),
    StableHlo.unary main_c_197 main_v572 (broadcastInDim S1048576 ![] bcast_S_S1048576 : TScal F → TPos F),
    StableHlo.binary main_v571 main_v572 main_v573 (addi : TPos F → TPos F → TPos F),
    StableHlo.nullary main_c_198 (constantI S_ 32 0#32),
    StableHlo.unary main_c_198 main_v574 (broadcastInDim S1048576 ![] bcast_S_S1048576 : TScal F → TPos F),
    StableHlo.binary main_v573 main_v574 main_v575 (cmpi .slt : TPos F → TPos F → TFlag F),
    StableHlo.nullary main_c_199 (constantI S_ 32 16777216#32),
    StableHlo.unary main_c_199 main_v576 (broadcastInDim S1048576 ![] bcast_S_S1048576 : TScal F → TPos F),
    StableHlo.binary main_v573 main_v576 main_v577 (addi : TPos F → TPos F → TPos F),
    StableHlo.ternary main_v575 main_v577 main_v573 main_v578 (select : TFlag F → TPos F → TPos F → TPos F),
    StableHlo.unary main_v578 main_v579 (broadcastInDim S1048576x1 ![0] bcast_S1048576_S1048576x1_0 : TPos F → TCol F),
    StableHlo.binary main_v559 main_v579 main_v580 ((fun x i => Host.gather gather_S16777216_S1048576x1_S1048576_n_0_n_n_0_1_1 x i) : TTree F → TCol F → TVals F),
    StableHlo.binary main_v569 main_v580 main_v581 (addf : TVals F → TVals F → TVals F),
    StableHlo.nullary main_c_200 (constantI S_ 32 0#32),
    StableHlo.unary main_c_200 main_v582 (broadcastInDim S1048576 ![] bcast_S_S1048576 : TScal F → TPos F),
    StableHlo.binary main_v560 main_v582 main_v583 (cmpi .slt : TPos F → TPos F → TFlag F),
    StableHlo.nullary main_c_201 (constantI S_ 32 16777216#32),
    StableHlo.unary main_c_201 main_v584 (broadcastInDim S1048576 ![] bcast_S_S1048576 : TScal F → TPos F),
    StableHlo.binary main_v560 main_v584 main_v585 (addi : TPos F → TPos F → TPos F),
    StableHlo.ternary main_v583 main_v585 main_v560 main_v586 (select : TFlag F → TPos F → TPos F → TPos F),
    StableHlo.unary main_v586 main_v587 (broadcastInDim S1048576x1 ![0] bcast_S1048576_S1048576x1_0 : TPos F → TCol F),
    StableHlo.ternary main_v559 main_v587 main_v581 main_v588 ((fun x i u => Host.scatter scatter_S16777216_S1048576x1_S1048576_n_0_0_1 (fun _ b => b) x i u) : TTree F → TCol F → TVals F → TTree F) ]

abbrev opsRd20_W : List (Ref sig .tc) :=
  [main_c_192, main_call19_v0, main_call19_v1, main_call19_v2, main_call19_v3, main_call19_v4, main_call19_v5, main_call19_v6, main_call19_v7, main_call19_v8, main_call19_c, main_call19_v9, main_call19_v10, main_call19_v11, main_call19_c_0, main_call19_v12, main_call19_v13, main_v560, main_c_193, main_v561, main_v562, main_c_194, main_v563, main_v564, main_c_195, main_v565, main_v566, main_v567, main_v568, main_v569, main_c_196, main_v570, main_v571, main_c_197, main_v572, main_v573, main_c_198, main_v574, main_v575, main_c_199, main_v576, main_v577, main_v578, main_v579, main_v580, main_v581, main_c_200, main_v582, main_v583, main_c_201, main_v584, main_v585, main_v586, main_v587, main_v588]
theorem opsRd20_writes : (opsRd20 : List (HloOp τ sig (Elt F))).Forall fun op => op.writes ⊆ (opsRd20_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd20_keep (V : Valuation τ sig (Elt F)) (b : Ref sig .tc) (h : b ∉ opsRd20_W) :
    after (opsRd20 : List (HloOp τ sig (Elt F))) V (Proc.devRef .tc b) = V (Proc.devRef .tc b) :=
  after_of_writes_sub opsRd20 V opsRd20_writes h

theorem opsRd20_sub : (opsRd20 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd20_fresh : (opsRd20 : List (HloOp τ sig (Elt F))).Forall fun op => op.fresh = ∅ := by
  simp only [List.Forall]
  and_intros <;> exact rfl

end Cert.ReferenceIdeal.Hand

end
-- ==== Proof.Ref.Regroup.Rd21.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 21 of the reference: @main's operations 1113 … 1167. -/
abbrev opsRd21 : List (HloOp τ sig (Elt F)) :=
  [ StableHlo.nullary main_c_202 (constantI S_ 32 2#32),
    StableHlo.TRef.unary (.of main_c_202 : StableHlo.TRef sig ⟨S_, .i32⟩) main_call20.v0 id,
    StableHlo.TRef.unary main_call20.v0 main_call20.v1 (broadcastInDim S1048576 ![] bcast_S_S1048576),
    StableHlo.TRef.binary (.of main_v560 : StableHlo.TRef sig ⟨S1048576, .i32⟩) main_call20.v1 main_call20.v2 Host.divsi,
    StableHlo.TRef.unary (.of main_v560 : StableHlo.TRef sig ⟨S1048576, .i32⟩) main_call20.v3 signi,
    StableHlo.TRef.unary main_call20.v0 main_call20.v4 signi,
    StableHlo.TRef.unary main_call20.v4 main_call20.v5 (broadcastInDim S1048576 ![] bcast_S_S1048576),
    StableHlo.TRef.binary main_call20.v3 main_call20.v5 main_call20.v6 (cmpi .ne),
    StableHlo.TRef.unary main_call20.v0 main_call20.v7 (broadcastInDim S1048576 ![] bcast_S_S1048576),
    StableHlo.TRef.binary (.of main_v560 : StableHlo.TRef sig ⟨S1048576, .i32⟩) main_call20.v7 main_call20.v8 Host.remsi,
    StableHlo.TRef.nullary main_call20.c (constantI S_ 32 0#32),
    StableHlo.TRef.unary main_call20.c main_call20.v9 (broadcastInDim S1048576 ![] bcast_S_S1048576),
    StableHlo.TRef.binary main_call20.v8 main_call20.v9 main_call20.v10 (cmpi .ne),
    StableHlo.TRef.binary main_call20.v6 main_call20.v10 main_call20.v11 andi,
    StableHlo.TRef.nullary main_call20.c_0 (constantI S_ 32 1#32),
    StableHlo.TRef.unary main_call20.c_0 main_call20.v12 (broadcastInDim S1048576 ![] bcast_S_S1048576),
    StableHlo.TRef.binary main_call20.v2 main_call20.v12 main_call20.v13 subi,
    StableHlo.TRef.ternary main_call20.v11 main_call20.v13 main_call20.v2 main_call20.call0.v0 select,
    StableHlo.nullary main_c_203 (constantI S_ 32 2#32),
    StableHlo.unary main_c_203 main_v590 (broadcastInDim S1048576 ![] bcast_S_S1048576 : TScal F → TPos F),
    StableHlo.binary main_v590 main_v589 main_v591 (muli : TPos F → TPos F → TPos F),
    StableHlo.nullary main_c_204 (constantI S_ 32 0#32),
    StableHlo.unary main_c_204 main_v592 (broadcastInDim S1048576 ![] bcast_S_S1048576 : TScal F → TPos F),
    StableHlo.binary main_v591 main_v592 main_v593 (cmpi .slt : TPos F → TPos F → TFlag F),
    StableHlo.nullary main_c_205 (constantI S_ 32 16777216#32),
    StableHlo.unary main_c_205 main_v594 (broadcastInDim S1048576 ![] bcast_S_S1048576 : TScal F → TPos F),
    StableHlo.binary main_v591 main_v594 main_v595 (addi : TPos F → TPos F → TPos F),
    StableHlo.ternary main_v593 main_v595 main_v591 main_v596 (select : TFlag F → TPos F → TPos F → TPos F),
    StableHlo.unary main_v596 main_v597 (broadcastInDim S1048576x1 ![0] bcast_S1048576_S1048576x1_0 : TPos F → TCol F),
    StableHlo.binary main_v588 main_v597 main_v598 ((fun x i => Host.gather gather_S16777216_S1048576x1_S1048576_n_0_n_n_0_1_1 x i) : TTree F → TCol F → TVals F),
    StableHlo.nullary main_c_206 (constantI S_ 32 2#32),
    StableHlo.unary main_c_206 main_v599 (broadcastInDim S1048576 ![] bcast_S_S1048576 : TScal F → TPos F),
    StableHlo.binary main_v599 main_v589 main_v600 (muli : TPos F → TPos F → TPos F),
    StableHlo.nullary main_c_207 (constantI S_ 32 1#32),
    StableHlo.unary main_c_207 main_v601 (broadcastInDim S1048576 ![] bcast_S_S1048576 : TScal F → TPos F),
    StableHlo.binary main_v600 main_v601 main_v602 (addi : TPos F → TPos F → TPos F),
    StableHlo.nullary main_c_208 (constantI S_ 32 0#32),
    StableHlo.unary main_c_208 main_v603 (broadcastInDim S1048576 ![] bcast_S_S1048576 : TScal F → TPos F),
    StableHlo.binary main_v602 main_v603 main_v604 (cmpi .slt : TPos F → TPos F → TFlag F),
    StableHlo.nullary main_c_209 (constantI S_ 32 16777216#32),
    StableHlo.unary main_c_209 main_v605 (broadcastInDim S1048576 ![] bcast_S_S1048576 : TScal F → TPos F),
    StableHlo.binary main_v602 main_v605 main_v606 (addi : TPos F → TPos F → TPos F),
    StableHlo.ternary main_v604 main_v606 main_v602 main_v607 (select : TFlag F → TPos F → TPos F → TPos F),
    StableHlo.unary main_v607 main_v608 (broadcastInDim S1048576x1 ![0] bcast_S1048576_S1048576x1_0 : TPos F → TCol F),
    StableHlo.binary main_v588 main_v608 main_v609 ((fun x i => Host.gather gather_S16777216_S1048576x1_S1048576_n_0_n_n_0_1_1 x i) : TTree F → TCol F → TVals F),
    StableHlo.binary main_v598 main_v609 main_v610 (addf : TVals F → TVals F → TVals F),
    StableHlo.nullary main_c_210 (constantI S_ 32 0#32),
    StableHlo.unary main_c_210 main_v611 (broadcastInDim S1048576 ![] bcast_S_S1048576 : TScal F → TPos F),
    StableHlo.binary main_v589 main_v611 main_v612 (cmpi .slt : TPos F → TPos F → TFlag F),
    StableHlo.nullary main_c_211 (constantI S_ 32 16777216#32),
    StableHlo.unary main_c_211 main_v613 (broadcastInDim S1048576 ![] bcast_S_S1048576 : TScal F → TPos F),
    StableHlo.binary main_v589 main_v613 main_v614 (addi : TPos F → TPos F → TPos F),
    StableHlo.ternary main_v612 main_v614 main_v589 main_v615 (select : TFlag F → TPos F → TPos F → TPos F),
    StableHlo.unary main_v615 main_v616 (broadcastInDim S1048576x1 ![0] bcast_S1048576_S1048576x1_0 : TPos F → TCol F),
    StableHlo.ternary main_v588 main_v616 main_v610 main_v617 ((fun x i u => Host.scatter scatter_S16777216_S1048576x1_S1048576_n_0_0_1 (fun _ b => b) x i u) : TTree F → TCol F → TVals F → TTree F) ]

abbrev opsRd21_W : List (Ref sig .tc) :=
  [main_c_202, main_call20_v0, main_call20_v1, main_call20_v2, main_call20_v3, main_call20_v4, main_call20_v5, main_call20_v6, main_call20_v7, main_call20_v8, main_call20_c, main_call20_v9, main_call20_v10, main_call20_v11, main_call20_c_0, main_call20_v12, main_call20_v13, main_v589, main_c_203, main_v590, main_v591, main_c_204, main_v592, main_v593, main_c_205, main_v594, main_v595, main_v596, main_v597, main_v598, main_c_206, main_v599, main_v600, main_c_207, main_v601, main_v602, main_c_208, main_v603, main_v604, main_c_209, main_v605, main_v606, main_v607, main_v608, main_v609, main_v610, main_c_210, main_v611, main_v612, main_c_211, main_v613, main_v614, main_v615, main_v616, main_v617]
theorem opsRd21_writes : (opsRd21 : List (HloOp τ sig (Elt F))).Forall fun op => op.writes ⊆ (opsRd21_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd21_keep (V : Valuation τ sig (Elt F)) (b : Ref sig .tc) (h : b ∉ opsRd21_W) :
    after (opsRd21 : List (HloOp τ sig (Elt F))) V (Proc.devRef .tc b) = V (Proc.devRef .tc b) :=
  after_of_writes_sub opsRd21 V opsRd21_writes h

theorem opsRd21_sub : (opsRd21 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd21_fresh : (opsRd21 : List (HloOp τ sig (Elt F))).Forall fun op => op.fresh = ∅ := by
  simp only [List.Forall]
  and_intros <;> exact rfl

end Cert.ReferenceIdeal.Hand

end
-- ==== Proof.Ref.Regroup.Rd22.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 22 of the reference: @main's operations 1168 … 1222. -/
abbrev opsRd22 : List (HloOp τ sig (Elt F)) :=
  [ StableHlo.nullary main_c_212 (constantI S_ 32 2#32),
    StableHlo.TRef.unary (.of main_c_212 : StableHlo.TRef sig ⟨S_, .i32⟩) main_call21.v0 id,
    StableHlo.TRef.unary main_call21.v0 main_call21.v1 (broadcastInDim S1048576 ![] bcast_S_S1048576),
    StableHlo.TRef.binary (.of main_v589 : StableHlo.TRef sig ⟨S1048576, .i32⟩) main_call21.v1 main_call21.v2 Host.divsi,
    StableHlo.TRef.unary (.of main_v589 : StableHlo.TRef sig ⟨S1048576, .i32⟩) main_call21.v3 signi,
    StableHlo.TRef.unary main_call21.v0 main_call21.v4 signi,
    StableHlo.TRef.unary main_call21.v4 main_call21.v5 (broadcastInDim S1048576 ![] bcast_S_S1048576),
    StableHlo.TRef.binary main_call21.v3 main_call21.v5 main_call21.v6 (cmpi .ne),
    StableHlo.TRef.unary main_call21.v0 main_call21.v7 (broadcastInDim S1048576 ![] bcast_S_S1048576),
    StableHlo.TRef.binary (.of main_v589 : StableHlo.TRef sig ⟨S1048576, .i32⟩) main_call21.v7 main_call21.v8 Host.remsi,
    StableHlo.TRef.nullary main_call21.c (constantI S_ 32 0#32),
    StableHlo.TRef.unary main_call21.c main_call21.v9 (broadcastInDim S1048576 ![] bcast_S_S1048576),
    StableHlo.TRef.binary main_call21.v8 main_call21.v9 main_call21.v10 (cmpi .ne),
    StableHlo.TRef.binary main_call21.v6 main_call21.v10 main_call21.v11 andi,
    StableHlo.TRef.nullary main_call21.c_0 (constantI S_ 32 1#32),
    StableHlo.TRef.unary main_call21.c_0 main_call21.v12 (broadcastInDim S1048576 ![] bcast_S_S1048576),
    StableHlo.TRef.binary main_call21.v2 main_call21.v12 main_call21.v13 subi,
    StableHlo.TRef.ternary main_call21.v11 main_call21.v13 main_call21.v2 main_call21.call0.v0 select,
    StableHlo.nullary main_c_213 (constantI S_ 32 2#32),
    StableHlo.unary main_c_213 main_v619 (broadcastInDim S1048576 ![] bcast_S_S1048576 : TScal F → TPos F),
    StableHlo.binary main_v619 main_v618 main_v620 (muli : TPos F → TPos F → TPos F),
    StableHlo.nullary main_c_214 (constantI S_ 32 0#32),
    StableHlo.unary main_c_214 main_v621 (broadcastInDim S1048576 ![] bcast_S_S1048576 : TScal F → TPos F),
    StableHlo.binary main_v620 main_v621 main_v622 (cmpi .slt : TPos F → TPos F → TFlag F),
    StableHlo.nullary main_c_215 (constantI S_ 32 16777216#32),
    StableHlo.unary main_c_215 main_v623 (broadcastInDim S1048576 ![] bcast_S_S1048576 : TScal F → TPos F),
    StableHlo.binary main_v620 main_v623 main_v624 (addi : TPos F → TPos F → TPos F),
    StableHlo.ternary main_v622 main_v624 main_v620 main_v625 (select : TFlag F → TPos F → TPos F → TPos F),
    StableHlo.unary main_v625 main_v626 (broadcastInDim S1048576x1 ![0] bcast_S1048576_S1048576x1_0 : TPos F → TCol F),
    StableHlo.binary main_v617 main_v626 main_v627 ((fun x i => Host.gather gather_S16777216_S1048576x1_S1048576_n_0_n_n_0_1_1 x i) : TTree F → TCol F → TVals F),
    StableHlo.nullary main_c_216 (constantI S_ 32 2#32),
    StableHlo.unary main_c_216 main_v628 (broadcastInDim S1048576 ![] bcast_S_S1048576 : TScal F → TPos F),
    StableHlo.binary main_v628 main_v618 main_v629 (muli : TPos F → TPos F → TPos F),
    StableHlo.nullary main_c_217 (constantI S_ 32 1#32),
    StableHlo.unary main_c_217 main_v630 (broadcastInDim S1048576 ![] bcast_S_S1048576 : TScal F → TPos F),
    StableHlo.binary main_v629 main_v630 main_v631 (addi : TPos F → TPos F → TPos F),
    StableHlo.nullary main_c_218 (constantI S_ 32 0#32),
    StableHlo.unary main_c_218 main_v632 (broadcastInDim S1048576 ![] bcast_S_S1048576 : TScal F → TPos F),
    StableHlo.binary main_v631 main_v632 main_v633 (cmpi .slt : TPos F → TPos F → TFlag F),
    StableHlo.nullary main_c_219 (constantI S_ 32 16777216#32),
    StableHlo.unary main_c_219 main_v634 (broadcastInDim S1048576 ![] bcast_S_S1048576 : TScal F → TPos F),
    StableHlo.binary main_v631 main_v634 main_v635 (addi : TPos F → TPos F → TPos F),
    StableHlo.ternary main_v633 main_v635 main_v631 main_v636 (select : TFlag F → TPos F → TPos F → TPos F),
    StableHlo.unary main_v636 main_v637 (broadcastInDim S1048576x1 ![0] bcast_S1048576_S1048576x1_0 : TPos F → TCol F),
    StableHlo.binary main_v617 main_v637 main_v638 ((fun x i => Host.gather gather_S16777216_S1048576x1_S1048576_n_0_n_n_0_1_1 x i) : TTree F → TCol F → TVals F),
    StableHlo.binary main_v627 main_v638 main_v639 (addf : TVals F → TVals F → TVals F),
    StableHlo.nullary main_c_220 (constantI S_ 32 0#32),
    StableHlo.unary main_c_220 main_v640 (broadcastInDim S1048576 ![] bcast_S_S1048576 : TScal F → TPos F),
    StableHlo.binary main_v618 main_v640 main_v641 (cmpi .slt : TPos F → TPos F → TFlag F),
    StableHlo.nullary main_c_221 (constantI S_ 32 16777216#32),
    StableHlo.unary main_c_221 main_v642 (broadcastInDim S1048576 ![] bcast_S_S1048576 : TScal F → TPos F),
    StableHlo.binary main_v618 main_v642 main_v643 (addi : TPos F → TPos F → TPos F),
    StableHlo.ternary main_v641 main_v643 main_v618 main_v644 (select : TFlag F → TPos F → TPos F → TPos F),
    StableHlo.unary main_v644 main_v645 (broadcastInDim S1048576x1 ![0] bcast_S1048576_S1048576x1_0 : TPos F → TCol F),
    StableHlo.ternary main_v617 main_v645 main_v639 main_v646 ((fun x i u => Host.scatter scatter_S16777216_S1048576x1_S1048576_n_0_0_1 (fun _ b => b) x i u) : TTree F → TCol F → TVals F → TTree F) ]

abbrev opsRd22_W : List (Ref sig .tc) :=
  [main_c_212, main_call21_v0, main_call21_v1, main_call21_v2, main_call21_v3, main_call21_v4, main_call21_v5, main_call21_v6, main_call21_v7, main_call21_v8, main_call21_c, main_call21_v9, main_call21_v10, main_call21_v11, main_call21_c_0, main_call21_v12, main_call21_v13, main_v618, main_c_213, main_v619, main_v620, main_c_214, main_v621, main_v622, main_c_215, main_v623, main_v624, main_v625, main_v626, main_v627, main_c_216, main_v628, main_v629, main_c_217, main_v630, main_v631, main_c_218, main_v632, main_v633, main_c_219, main_v634, main_v635, main_v636, main_v637, main_v638, main_v639, main_c_220, main_v640, main_v641, main_c_221, main_v642, main_v643, main_v644, main_v645, main_v646]
theorem opsRd22_writes : (opsRd22 : List (HloOp τ sig (Elt F))).Forall fun op => op.writes ⊆ (opsRd22_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd22_keep (V : Valuation τ sig (Elt F)) (b : Ref sig .tc) (h : b ∉ opsRd22_W) :
    after (opsRd22 : List (HloOp τ sig (Elt F))) V (Proc.devRef .tc b) = V (Proc.devRef .tc b) :=
  after_of_writes_sub opsRd22 V opsRd22_writes h

theorem opsRd22_sub : (opsRd22 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd22_fresh : (opsRd22 : List (HloOp τ sig (Elt F))).Forall fun op => op.fresh = ∅ := by
  simp only [List.Forall]
  and_intros <;> exact rfl

end Cert.ReferenceIdeal.Hand

end
-- ==== Proof.Ref.Regroup.Rd23.lean ====
import proofs.«417949_j89438398972173_1_alg».proof.Proof.Gen.ReferenceIdeal
import proofs.«417949_j89438398972173_1_alg».proof.Proof.Ref.Types
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Round 23 of the reference: @main's operations 1223 … 1277. -/
abbrev opsRd23 : List (HloOp τ sig (Elt F)) :=
  [ StableHlo.nullary main_c_222 (constantI S_ 32 2#32),
    StableHlo.TRef.unary (.of main_c_222 : StableHlo.TRef sig ⟨S_, .i32⟩) main_call22.v0 id,
    StableHlo.TRef.unary main_call22.v0 main_call22.v1 (broadcastInDim S1048576 ![] bcast_S_S1048576),
    StableHlo.TRef.binary (.of main_v618 : StableHlo.TRef sig ⟨S1048576, .i32⟩) main_call22.v1 main_call22.v2 Host.divsi,
    StableHlo.TRef.unary (.of main_v618 : StableHlo.TRef sig ⟨S1048576, .i32⟩) main_call22.v3 signi,
    StableHlo.TRef.unary main_call22.v0 main_call22.v4 signi,
    StableHlo.TRef.unary main_call22.v4 main_call22.v5 (broadcastInDim S1048576 ![] bcast_S_S1048576),
    StableHlo.TRef.binary main_call22.v3 main_call22.v5 main_call22.v6 (cmpi .ne),
    StableHlo.TRef.unary main_call22.v0 main_call22.v7 (broadcastInDim S1048576 ![] bcast_S_S1048576),
    StableHlo.TRef.binary (.of main_v618 : StableHlo.TRef sig ⟨S1048576, .i32⟩) main_call22.v7 main_call22.v8 Host.remsi,
    StableHlo.TRef.nullary main_call22.c (constantI S_ 32 0#32),
    StableHlo.TRef.unary main_call22.c main_call22.v9 (broadcastInDim S1048576 ![] bcast_S_S1048576),
    StableHlo.TRef.binary main_call22.v8 main_call22.v9 main_call22.v10 (cmpi .ne),
    StableHlo.TRef.binary main_call22.v6 main_call22.v10 main_call22.v11 andi,
    StableHlo.TRef.nullary main_call22.c_0 (constantI S_ 32 1#32),
    StableHlo.TRef.unary main_call22.c_0 main_call22.v12 (broadcastInDim S1048576 ![] bcast_S_S1048576),
    StableHlo.TRef.binary main_call22.v2 main_call22.v12 main_call22.v13 subi,
    StableHlo.TRef.ternary main_call22.v11 main_call22.v13 main_call22.v2 main_call22.call0.v0 select,
    StableHlo.nullary main_c_223 (constantI S_ 32 2#32),
    StableHlo.unary main_c_223 main_v648 (broadcastInDim S1048576 ![] bcast_S_S1048576 : TScal F → TPos F),
    StableHlo.binary main_v648 main_v647 main_v649 (muli : TPos F → TPos F → TPos F),
    StableHlo.nullary main_c_224 (constantI S_ 32 0#32),
    StableHlo.unary main_c_224 main_v650 (broadcastInDim S1048576 ![] bcast_S_S1048576 : TScal F → TPos F),
    StableHlo.binary main_v649 main_v650 main_v651 (cmpi .slt : TPos F → TPos F → TFlag F),
    StableHlo.nullary main_c_225 (constantI S_ 32 16777216#32),
    StableHlo.unary main_c_225 main_v652 (broadcastInDim S1048576 ![] bcast_S_S1048576 : TScal F → TPos F),
    StableHlo.binary main_v649 main_v652 main_v653 (addi : TPos F → TPos F → TPos F),
    StableHlo.ternary main_v651 main_v653 main_v649 main_v654 (select : TFlag F → TPos F → TPos F → TPos F),
    StableHlo.unary main_v654 main_v655 (broadcastInDim S1048576x1 ![0] bcast_S1048576_S1048576x1_0 : TPos F → TCol F),
    StableHlo.binary main_v646 main_v655 main_v656 ((fun x i => Host.gather gather_S16777216_S1048576x1_S1048576_n_0_n_n_0_1_1 x i) : TTree F → TCol F → TVals F),
    StableHlo.nullary main_c_226 (constantI S_ 32 2#32),
    StableHlo.unary main_c_226 main_v657 (broadcastInDim S1048576 ![] bcast_S_S1048576 : TScal F → TPos F),
    StableHlo.binary main_v657 main_v647 main_v658 (muli : TPos F → TPos F → TPos F),
    StableHlo.nullary main_c_227 (constantI S_ 32 1#32),
    StableHlo.unary main_c_227 main_v659 (broadcastInDim S1048576 ![] bcast_S_S1048576 : TScal F → TPos F),
    StableHlo.binary main_v658 main_v659 main_v660 (addi : TPos F → TPos F → TPos F),
    StableHlo.nullary main_c_228 (constantI S_ 32 0#32),
    StableHlo.unary main_c_228 main_v661 (broadcastInDim S1048576 ![] bcast_S_S1048576 : TScal F → TPos F),
    StableHlo.binary main_v660 main_v661 main_v662 (cmpi .slt : TPos F → TPos F → TFlag F),
    StableHlo.nullary main_c_229 (constantI S_ 32 16777216#32),
    StableHlo.unary main_c_229 main_v663 (broadcastInDim S1048576 ![] bcast_S_S1048576 : TScal F → TPos F),
    StableHlo.binary main_v660 main_v663 main_v664 (addi : TPos F → TPos F → TPos F),
    StableHlo.ternary main_v662 main_v664 main_v660 main_v665 (select : TFlag F → TPos F → TPos F → TPos F),
    StableHlo.unary main_v665 main_v666 (broadcastInDim S1048576x1 ![0] bcast_S1048576_S1048576x1_0 : TPos F → TCol F),
    StableHlo.binary main_v646 main_v666 main_v667 ((fun x i => Host.gather gather_S16777216_S1048576x1_S1048576_n_0_n_n_0_1_1 x i) : TTree F → TCol F → TVals F),
    StableHlo.binary main_v656 main_v667 main_v668 (addf : TVals F → TVals F → TVals F),
    StableHlo.nullary main_c_230 (constantI S_ 32 0#32),
    StableHlo.unary main_c_230 main_v669 (broadcastInDim S1048576 ![] bcast_S_S1048576 : TScal F → TPos F),
    StableHlo.binary main_v647 main_v669 main_v670 (cmpi .slt : TPos F → TPos F → TFlag F),
    StableHlo.nullary main_c_231 (constantI S_ 32 16777216#32),
    StableHlo.unary main_c_231 main_v671 (broadcastInDim S1048576 ![] bcast_S_S1048576 : TScal F → TPos F),
    StableHlo.binary main_v647 main_v671 main_v672 (addi : TPos F → TPos F → TPos F),
    StableHlo.ternary main_v670 main_v672 main_v647 main_v673 (select : TFlag F → TPos F → TPos F → TPos F),
    StableHlo.unary main_v673 main_v674 (broadcastInDim S1048576x1 ![0] bcast_S1048576_S1048576x1_0 : TPos F → TCol F),
    StableHlo.ternary main_v646 main_v674 main_v668 main_v675 ((fun x i u => Host.scatter scatter_S16777216_S1048576x1_S1048576_n_0_0_1 (fun _ b => b) x i u) : TTree F → TCol F → TVals F → TTree F) ]

abbrev opsRd23_W : List (Ref sig .tc) :=
  [main_c_222, main_call22_v0, main_call22_v1, main_call22_v2, main_call22_v3, main_call22_v4, main_call22_v5, main_call22_v6, main_call22_v7, main_call22_v8, main_call22_c, main_call22_v9, main_call22_v10, main_call22_v11, main_call22_c_0, main_call22_v12, main_call22_v13, main_v647, main_c_223, main_v648, main_v649, main_c_224, main_v650, main_v651, main_c_225, main_v652, main_v653, main_v654, main_v655, main_v656, main_c_226, main_v657, main_v658, main_c_227, main_v659, main_v660, main_c_228, main_v661, main_v662, main_c_229, main_v663, main_v664, main_v665, main_v666, main_v667, main_v668, main_c_230, main_v669, main_v670, main_c_231, main_v671, main_v672, main_v673, main_v674, main_v675]
theorem opsRd23_writes : (opsRd23 : List (HloOp τ sig (Elt F))).Forall fun op => op.writes ⊆ (opsRd23_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

theorem opsRd23_keep (V : Valuation τ sig (Elt F)) (b : Ref sig .tc) (h : b ∉ opsRd23_W) :
    after (opsRd23 : List (HloOp τ sig (Elt F))) V (Proc.devRef .tc b) = V (Proc.devRef .tc b) :=
  after_of_writes_sub opsRd23 V opsRd23_writes h

theorem opsRd23_sub : (opsRd23 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem opsRd23_fresh : (opsRd23 : List (HloOp τ sig (Elt F))).Forall fun op => op.fresh = ∅ := by
  simp only [List.Forall]
  and_intros <;> exact rfl

end Cert.ReferenceIdeal.Hand

end
-- ==== Proof.Ref.Run.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Leaf
import proofs.«417949_j89438398972173_1_alg».proof.Proof.Ref.Regroup.Rd1
import proofs.«417949_j89438398972173_1_alg».proof.Proof.Ref.Regroup.Rd2
import proofs.«417949_j89438398972173_1_alg».proof.Proof.Ref.Regroup.Rd3
import proofs.«417949_j89438398972173_1_alg».proof.Proof.Ref.Regroup.Rd4
import proofs.«417949_j89438398972173_1_alg».proof.Proof.Ref.Regroup.Rd5
import proofs.«417949_j89438398972173_1_alg».proof.Proof.Ref.Regroup.Rd6
import proofs.«417949_j89438398972173_1_alg».proof.Proof.Ref.Regroup.Rd7
import proofs.«417949_j89438398972173_1_alg».proof.Proof.Ref.Regroup.Rd8
import proofs.«417949_j89438398972173_1_alg».proof.Proof.Ref.Regroup.Rd9
import proofs.«417949_j89438398972173_1_alg».proof.Proof.Ref.Regroup.Rd10
import proofs.«417949_j89438398972173_1_alg».proof.Proof.Ref.Regroup.Rd11
import proofs.«417949_j89438398972173_1_alg».proof.Proof.Ref.Regroup.Rd12
import proofs.«417949_j89438398972173_1_alg».proof.Proof.Ref.Regroup.Rd13
import proofs.«417949_j89438398972173_1_alg».proof.Proof.Ref.Regroup.Rd14
import proofs.«417949_j89438398972173_1_alg».proof.Proof.Ref.Regroup.Rd15
import proofs.«417949_j89438398972173_1_alg».proof.Proof.Ref.Regroup.Rd16
import proofs.«417949_j89438398972173_1_alg».proof.Proof.Ref.Regroup.Rd17
import proofs.«417949_j89438398972173_1_alg».proof.Proof.Ref.Regroup.Rd18
import proofs.«417949_j89438398972173_1_alg».proof.Proof.Ref.Regroup.Rd19
import proofs.«417949_j89438398972173_1_alg».proof.Proof.Ref.Regroup.Rd20
import proofs.«417949_j89438398972173_1_alg».proof.Proof.Ref.Regroup.Rd21
import proofs.«417949_j89438398972173_1_alg».proof.Proof.Ref.Regroup.Rd22
import proofs.«417949_j89438398972173_1_alg».proof.Proof.Ref.Regroup.Rd23

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 1277 operations in order: the leaf stage, then the 23 rounds. -/
abbrev ops : List (HloOp τ sig (Elt F)) :=
  opsLeaf ++ (opsRd1 ++ (opsRd2 ++ (opsRd3 ++ (opsRd4 ++ (opsRd5 ++ (opsRd6 ++ (opsRd7 ++ (opsRd8 ++ (opsRd9 ++ (opsRd10 ++ (opsRd11 ++ (opsRd12 ++ (opsRd13 ++ (opsRd14 ++ (opsRd15 ++ (opsRd16 ++ (opsRd17 ++ (opsRd18 ++ (opsRd19 ++ (opsRd20 ++ (opsRd21 ++ (opsRd22 ++ (opsRd23)))))))))))))))))))))))

/-- The n operations after the first a: @main is printed in sixteen windows that do not end where the rounds do. -/
abbrev win (a n : ℕ) : List (HloOp τ sig (Elt F)) := ((ops (F := F)).drop a).take n

theorem seq_join {n : Nat} {t : Topo} {s : RefSig} {Val : EltTy → Type} {Λ : Labels}
    {p q : Prog (TpuEff n t s Val Λ .tc) PUnit} {l₁ l₂ : List (HloOp t s Val)}
    (hp : p = seq l₁) (hq : q = seq l₂) : (p >>= fun _ => q) = seq (l₁ ++ l₂) := by
  rw [seq_append, hp, hq]

theorem main_part0_eq (c : Dev nD) : main_part0 (F := F) c = seq (win (F := F) 0 92) := by chain_rfl
theorem main_part1_eq (c : Dev nD) : main_part1 (F := F) c = seq (win (F := F) 92 76) := by chain_rfl
theorem main_part2_eq (c : Dev nD) : main_part2 (F := F) c = seq (win (F := F) 168 92) := by chain_rfl
theorem main_part3_eq (c : Dev nD) : main_part3 (F := F) c = seq (win (F := F) 260 76) := by chain_rfl
theorem main_part4_eq (c : Dev nD) : main_part4 (F := F) c = seq (win (F := F) 336 92) := by chain_rfl
theorem main_part5_eq (c : Dev nD) : main_part5 (F := F) c = seq (win (F := F) 428 76) := by chain_rfl
theorem main_part6_eq (c : Dev nD) : main_part6 (F := F) c = seq (win (F := F) 504 92) := by chain_rfl
theorem main_part7_eq (c : Dev nD) : main_part7 (F := F) c = seq (win (F := F) 596 76) := by chain_rfl
theorem main_part8_eq (c : Dev nD) : main_part8 (F := F) c = seq (win (F := F) 672 92) := by chain_rfl
theorem main_part9_eq (c : Dev nD) : main_part9 (F := F) c = seq (win (F := F) 764 92) := by chain_rfl
theorem main_part10_eq (c : Dev nD) : main_part10 (F := F) c = seq (win (F := F) 856 76) := by chain_rfl
theorem main_part11_eq (c : Dev nD) : main_part11 (F := F) c = seq (win (F := F) 932 92) := by chain_rfl
theorem main_part12_eq (c : Dev nD) : main_part12 (F := F) c = seq (win (F := F) 1024 76) := by chain_rfl
theorem main_part13_eq (c : Dev nD) : main_part13 (F := F) c = seq (win (F := F) 1100 92) := by chain_rfl
theorem main_part14_eq (c : Dev nD) : main_part14 (F := F) c = seq (win (F := F) 1192 76) := by chain_rfl
theorem main_part15_eq (c : Dev nD) : main_part15 (F := F) c = seq (win (F := F) 1268 9) := by chain_rfl

/-- The sixteen windows, joined, are the whole list: both sides compute to the same operations. -/
theorem wins_eq : (win 0 92) ++ ((win 92 76) ++ ((win 168 92) ++ ((win 260 76) ++ ((win 336 92) ++ ((win 428 76) ++ ((win 504 92) ++ ((win 596 76) ++ ((win 672 92) ++ ((win 764 92) ++ ((win 856 76) ++ ((win 932 92) ++ ((win 1024 76) ++ ((win 1100 92) ++ ((win 1192 76) ++ ((win 1268 9)))))))))))))))) = (ops : List (HloOp τ sig (Elt F))) := by chain_rfl

theorem main_eq (c : Dev nD) : main (F := F) c = seq ops :=
  (seq_join (main_part0_eq c) (seq_join (main_part1_eq c) (seq_join (main_part2_eq c) (seq_join (main_part3_eq c) (seq_join (main_part4_eq c) (seq_join (main_part5_eq c) (seq_join (main_part6_eq c) (seq_join (main_part7_eq c) (seq_join (main_part8_eq c) (seq_join (main_part9_eq c) (seq_join (main_part10_eq c) (seq_join (main_part11_eq c) (seq_join (main_part12_eq c) (seq_join (main_part13_eq c) (seq_join (main_part14_eq c) (main_part15_eq c)))))))))))))))).trans (congrArg seq wins_eq)

theorem scopedRefs_eq : (Finset.univ.filter fun b : Ref sig .tc => b.isScoped) = ∅ :=
  Finset.filter_eq_empty_iff.mpr fun b _ => by
    obtain ⟨sp, i, h⟩ := b
    cases sp <;> simp [Ref.isScoped, RefSig.isScoped]
    exact i.elim0
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsLeaf_sub, List.forall_append.mpr ⟨opsRd1_sub, List.forall_append.mpr ⟨opsRd2_sub, List.forall_append.mpr ⟨opsRd3_sub, List.forall_append.mpr ⟨opsRd4_sub, List.forall_append.mpr ⟨opsRd5_sub, List.forall_append.mpr ⟨opsRd6_sub, List.forall_append.mpr ⟨opsRd7_sub, List.forall_append.mpr ⟨opsRd8_sub, List.forall_append.mpr ⟨opsRd9_sub, List.forall_append.mpr ⟨opsRd10_sub, List.forall_append.mpr ⟨opsRd11_sub, List.forall_append.mpr ⟨opsRd12_sub, List.forall_append.mpr ⟨opsRd13_sub, List.forall_append.mpr ⟨opsRd14_sub, List.forall_append.mpr ⟨opsRd15_sub, List.forall_append.mpr ⟨opsRd16_sub, List.forall_append.mpr ⟨opsRd17_sub, List.forall_append.mpr ⟨opsRd18_sub, List.forall_append.mpr ⟨opsRd19_sub, List.forall_append.mpr ⟨opsRd20_sub, List.forall_append.mpr ⟨opsRd21_sub, List.forall_append.mpr ⟨opsRd22_sub, opsRd23_sub⟩⟩⟩⟩⟩⟩⟩⟩⟩⟩⟩⟩⟩⟩⟩⟩⟩⟩⟩⟩⟩⟩⟩
theorem ops_fresh : (ops : List (HloOp τ sig (Elt F))).Forall fun op => op.fresh = ∅ :=
  List.forall_append.mpr ⟨opsLeaf_fresh, List.forall_append.mpr ⟨opsRd1_fresh, List.forall_append.mpr ⟨opsRd2_fresh, List.forall_append.mpr ⟨opsRd3_fresh, List.forall_append.mpr ⟨opsRd4_fresh, List.forall_append.mpr ⟨opsRd5_fresh, List.forall_append.mpr ⟨opsRd6_fresh, List.forall_append.mpr ⟨opsRd7_fresh, List.forall_append.mpr ⟨opsRd8_fresh, List.forall_append.mpr ⟨opsRd9_fresh, List.forall_append.mpr ⟨opsRd10_fresh, List.forall_append.mpr ⟨opsRd11_fresh, List.forall_append.mpr ⟨opsRd12_fresh, List.forall_append.mpr ⟨opsRd13_fresh, List.forall_append.mpr ⟨opsRd14_fresh, List.forall_append.mpr ⟨opsRd15_fresh, List.forall_append.mpr ⟨opsRd16_fresh, List.forall_append.mpr ⟨opsRd17_fresh, List.forall_append.mpr ⟨opsRd18_fresh, List.forall_append.mpr ⟨opsRd19_fresh, List.forall_append.mpr ⟨opsRd20_fresh, List.forall_append.mpr ⟨opsRd21_fresh, List.forall_append.mpr ⟨opsRd22_fresh, opsRd23_fresh⟩⟩⟩⟩⟩⟩⟩⟩⟩⟩⟩⟩⟩⟩⟩⟩⟩⟩⟩⟩⟩⟩⟩

/-- Every weakly fair execution of @main terminates with each buffer at the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Hand

end
-- ==== Proof.Ref.Round.lean ====
import proofs.«417949_j89438398972173_1_alg».proof.ReferenceIdeal
import proofs.«417949_j89438398972173_1_alg».proof.Proof.Spec
import proofs.«417949_j89438398972173_1_alg».proof.Proof.LibSegOps

noncomputable section

namespace SegTree

variable {α : Type}

theorem foldSet_congr (x x' : ℕ → α) (tgt tgt' : ℕ → ℕ) (upd upd' : ℕ → α) (len p : ℕ) (hx : x p = x' p)
    (ht : ∀ n, n < len → tgt n = tgt' n) (hu : ∀ n, n < len → upd n = upd' n) :
    foldSet x tgt upd len p = foldSet x' tgt' upd' len p := by
  induction len with
  | zero => exact hx
  | succ k ih =>
    rw [foldSet_succ, foldSet_succ, ← ht k (Nat.lt_succ_self k), ← hu k (Nat.lt_succ_self k)]
    by_cases h : tgt k = p
    · rw [← h, Function.update_self, Function.update_self]
    · rw [Function.update_of_ne (Ne.symm h), Function.update_of_ne (Ne.symm h)]
      exact ih (fun n hn => ht n (Nat.lt_succ_of_lt hn)) (fun n hn => hu n (Nat.lt_succ_of_lt hn))

end SegTree

namespace Cert.ReferenceIdeal.Hand

open Idealize.ShloMosaic Idealize.ShloMosaic.ValueIdx Idealize.ShloMosaic.StableHlo.Predicate
open Cert.ReferenceIdeal Cert.ReferenceIdeal.Facts₀ SegTree

variable [Facts]

def bc (c : IVec S_ 32) : IVec S1048576 32 := broadcastInDim S1048576 ![] bcast_S_S1048576 c

def col (x : IVec S1048576 32) : IVec S1048576x1 32 := broadcastInDim S1048576x1 ![0] bcast_S1048576_S1048576x1_0 x

def wrapIdx (x : IVec S1048576 32) : IVec S1048576 32 :=
  select (cmpi .slt x (bc (constantI S_ 32 0#32))) (addi x (bc (constantI S_ 32 16777216#32))) x

def fdiv2 (x : IVec S1048576 32) : IVec S1048576 32 :=
  select
    (andi (cmpi .ne (signi x) (bc (signi (id (constantI S_ 32 2#32)))))
      (cmpi .ne (Host.remsi x (bc (id (constantI S_ 32 2#32)))) (bc (constantI S_ 32 0#32))))
    (subi (Host.divsi x (bc (id (constantI S_ 32 2#32)))) (bc (constantI S_ 32 1#32)))
    (Host.divsi x (bc (id (constantI S_ 32 2#32))))

def take (tree : FVec Ideal S16777216 .f32) (x : IVec S1048576 32) : FVec Ideal S1048576 .f32 :=
  Host.gather gather_S16777216_S1048576x1_S1048576_n_0_n_n_0_1_1 tree (col (wrapIdx x))

def put (tree : FVec Ideal S16777216 .f32) (x : IVec S1048576 32) (u : FVec Ideal S1048576 .f32) : FVec Ideal S16777216 .f32 :=
  Host.scatter scatter_S16777216_S1048576x1_S1048576_n_0_0_1 (fun _ b => b) tree (col (wrapIdx x)) u

def roundFn (p : FVec Ideal S16777216 .f32 × IVec S1048576 32) : FVec Ideal S16777216 .f32 × IVec S1048576 32 :=
  (put p.1 (fdiv2 p.2)
      (addf (take p.1 (muli (bc (constantI S_ 32 2#32)) (fdiv2 p.2)))
        (take p.1 (addi (muli (bc (constantI S_ 32 2#32)) (fdiv2 p.2)) (bc (constantI S_ 32 1#32))))),
    fdiv2 p.2)

def leafStage (tree0 : FVec Ideal S16777216 .f32) (idx0 : IVec S1048576 32) (vals0 : FVec Ideal S1048576 .f32) :
    FVec Ideal S16777216 .f32 × IVec S1048576 32 :=
  (put tree0 (addi idx0 (bc (constantI S_ 32 8388608#32))) vals0, addi idx0 (bc (constantI S_ 32 8388608#32)))

def StageAt (tree0 : FVec Ideal S16777216 .f32) (idx0 : IVec S1048576 32) (vals0 : FVec Ideal S1048576 .f32) (t : ℕ)
    (p : FVec Ideal S16777216 .f32 × IVec S1048576 32) : Prop :=
  (p.1 = fun i => T 23 1048576 (ofVec tree0) (indOf idx0) (ofVec vals0) t (i 0).val) ∧
    ∀ k : Fin 1048576, p.2 (ix1 k) = BitVec.ofNat 32 ((indOf idx0 k.val + 2 ^ 23) / 2 ^ t)

theorem ofFin_eq_ix1 {n : ℕ} (k : Fin n) : Shape.Idx.ofFin k = ix1 k := by
  funext a
  have ha : a = 0 := Subsingleton.elim _ _
  subst ha
  exact Fin.ext rfl

theorem bc_const (v : BitVec 32) (i : S1048576.Idx) : bc (constantI S_ 32 v) i = v := rfl

theorem bc_id_const (v : BitVec 32) (i : S1048576.Idx) : bc (id (constantI S_ 32 v)) i = v := rfl

theorem bc_sign_two (i : S1048576.Idx) : bc (signi (id (constantI S_ 32 2#32))) i = 1#32 := by
  unfold bc broadcastInDim
  exact SegOps.signi_two (id (constantI S_ 32 2#32)) _ rfl

theorem col_apply (x : IVec S1048576 32) (k : Fin 1048576) : col x (ixP k) = x (ix1 k) := by
  unfold col
  rw [bcast_col1, ofFin_eq_ix1]

theorem wrapIdx_apply (x : IVec S1048576 32) (i : S1048576.Idx) (hx : (x i).toNat < 2 ^ 24) : wrapIdx x i = x i :=
  SegOps.wrap_apply x _ _ i hx (bc_const _ _)

theorem fdiv2_apply (x : IVec S1048576 32) (i : S1048576.Idx) (hx : (x i).toNat < 2 ^ 24) :
    fdiv2 x i = BitVec.ofNat 32 ((x i).toNat / 2) :=
  SegOps.floorDiv2_apply x _ _ _ _ _ i hx (bc_id_const _ _) (bc_id_const _ _) (bc_sign_two _) (bc_const _ _) (bc_const _ _)

theorem apply_ofFin_eq_ofVec {n : ℕ} {α : Type} [Zero α] (x : (⟨1, ![n]⟩ : Shape).Idx → α) (a : ℕ) (h : a < n) :
    x (Shape.Idx.ofFin ⟨a, h⟩) = ofVec x a := by
  unfold ofVec
  rw [dif_pos h, ofFin_eq_ix1]

theorem take_apply (tree : FVec Ideal S16777216 .f32) (x : IVec S1048576 32) (k : Fin 1048576)
    (hx : (x (ix1 k)).toNat < 2 ^ 24) : take tree x (ix1 k) = ofVec tree (x (ix1 k)).toNat := by
  have e : col (wrapIdx x) (ixP k) = x (ix1 k) := by rw [col_apply, wrapIdx_apply x _ hx]
  have hi : (col (wrapIdx x) (ixP k)).toInt = ((x (ix1 k)).toNat : Int) := by
    rw [e]; exact SegOps.toInt_of_small _ hx
  have hg := SegOps.gather_take_inrange gather_S16777216_S1048576x1_S1048576_n_0_n_n_0_1_1 rfl rfl rfl rfl tree
    (col (wrapIdx x)) k (by rw [hi]; exact Int.natCast_nonneg _)
    (by rw [hi]; exact_mod_cast (by omega : (x (ix1 k)).toNat < 16777216))
  rw [ofFin_eq_ix1 k] at hg
  unfold take
  rw [hg, apply_ofFin_eq_ofVec tree, e]

theorem put_apply (tree : FVec Ideal S16777216 .f32) (x : IVec S1048576 32) (u : FVec Ideal S1048576 .f32)
    (hx : ∀ k : Fin 1048576, (x (ix1 k)).toNat < 2 ^ 24) (i : S16777216.Idx) :
    put tree x u i
      = foldSet (ofVec tree) (fun k => if h : k < 1048576 then (x (ix1 ⟨k, h⟩)).toNat else 0) (ofVec u) 1048576 (i 0).val := by
  have e : ∀ k : Fin 1048576, col (wrapIdx x) (ixP k) = x (ix1 k) := fun k => by
    rw [col_apply, wrapIdx_apply x _ (hx k)]
  have hi : ∀ k : Fin 1048576, (col (wrapIdx x) (ixP k)).toInt = ((x (ix1 k)).toNat : Int) := fun k => by
    rw [e]; exact SegOps.toInt_of_small _ (hx k)
  unfold put
  rw [SegOps.scatterSet_apply scatter_S16777216_S1048576x1_S1048576_n_0_0_1 rfl rfl rfl rfl tree (col (wrapIdx x)) u
    (fun k => ⟨by rw [hi]; exact Int.natCast_nonneg _, by
      rw [hi]; exact_mod_cast (by have := hx k; omega : (x (ix1 k)).toNat < 16777216)⟩) 0 i]
  apply foldSet_congr
  · rfl
  · intro n hn
    show (if h : n < 1048576 then (col (wrapIdx x) (ixP ⟨n, h⟩)).toNat else 0) = if h : n < 1048576 then (x (ix1 ⟨n, h⟩)).toNat else 0
    rw [dif_pos hn, dif_pos hn, e]
  · intro n _
    rfl

theorem leafPos_lt (idx0 : IVec S1048576 32) (hrange : ∀ k : Fin 1048576, (idx0 (ix1 k)).toNat < 8388608)
    (k : Fin 1048576) : indOf idx0 k.val + 2 ^ 23 < 2 ^ 24 := by
  unfold indOf
  rw [dif_pos k.isLt]
  have := hrange ⟨k.val, k.isLt⟩
  omega

theorem ofVec_of_fun {n : ℕ} {α : Type} [Zero α] (f : ℕ → α) (a : ℕ) (h : a < n) :
    ofVec (n := n) (fun i => f (i 0).val) a = f a := by
  unfold ofVec
  rw [dif_pos h]
  rfl

theorem ofVec_apply {n : ℕ} {α : Type} [Zero α] (x : (⟨1, ![n]⟩ : Shape).Idx → α) (a : ℕ) (h : a < n) :
    ofVec x a = x (ix1 ⟨a, h⟩) := by
  unfold ofVec
  rw [dif_pos h]

theorem leaf_spec (tree0 : FVec Ideal S16777216 .f32) (idx0 : IVec S1048576 32) (vals0 : FVec Ideal S1048576 .f32)
    (hrange : ∀ k : Fin 1048576, (idx0 (ix1 k)).toNat < 8388608) :
    StageAt tree0 idx0 vals0 0 (leafStage tree0 idx0 vals0) := by
  have hadd : ∀ k : Fin 1048576,
      (addi idx0 (bc (constantI S_ 32 8388608#32)) (ix1 k)).toNat = indOf idx0 k.val + 2 ^ 23 := fun k => by
    show (IntOp.addi (idx0 (ix1 k)) 8388608#32).toNat = _
    rw [SegOps.toNat_addi_half _ (by have := hrange k; omega)]
    unfold indOf
    rw [dif_pos k.isLt]
    rfl
  simp only [StageAt, leafStage]
  constructor
  · funext i
    rw [put_apply _ _ _ (fun k => by rw [hadd k]; exact leafPos_lt idx0 hrange k)]
    show _ = foldSet (ofVec tree0) (fun n => indOf idx0 n + 2 ^ 23) (ofVec vals0) 1048576 (i 0).val
    apply foldSet_congr
    · rfl
    · intro n hn
      show (if h : n < 1048576 then _ else 0) = _
      rw [dif_pos hn]
      exact hadd ⟨n, hn⟩
    · intro n _
      rfl
  · intro k
    apply BitVec.eq_of_toNat_eq
    rw [hadd k, BitVec.toNat_ofNat, Nat.pow_zero, Nat.div_one]
    have := leafPos_lt idx0 hrange k
    omega

theorem round_spec (tree0 : FVec Ideal S16777216 .f32) (idx0 : IVec S1048576 32) (vals0 : FVec Ideal S1048576 .f32)
    (hrange : ∀ k : Fin 1048576, (idx0 (ix1 k)).toNat < 8388608) (t : ℕ) (ht : t < 23)
    (p : FVec Ideal S16777216 .f32 × IVec S1048576 32) (hp : StageAt tree0 idx0 vals0 t p) :
    StageAt tree0 idx0 vals0 (t + 1) (roundFn p) := by
  obtain ⟨tree, idx⟩ := p
  simp only [StageAt] at hp
  obtain ⟨h1, h2⟩ := hp

  have hidx : ∀ k : Fin 1048576, (idx (ix1 k)).toNat = (indOf idx0 k.val + 2 ^ 23) / 2 ^ t := fun k => by
    rw [h2 k, BitVec.toNat_ofNat]
    apply Nat.mod_eq_of_lt
    have := leafPos_lt idx0 hrange k
    have := Nat.div_le_self (indOf idx0 k.val + 2 ^ 23) (2 ^ t)
    omega
  have hidx24 : ∀ k : Fin 1048576, (idx (ix1 k)).toNat < 2 ^ 24 := fun k => by
    rw [hidx k]
    have := leafPos_lt idx0 hrange k
    have := Nat.div_le_self (indOf idx0 k.val + 2 ^ 23) (2 ^ t)
    omega

  have hdiv : ∀ a : ℕ, a / 2 ^ t / 2 = a / 2 ^ (t + 1) := fun a => by
    rw [Nat.div_div_eq_div_mul, ← Nat.pow_succ]
  have hq : ∀ k : Fin 1048576, fdiv2 idx (ix1 k) = BitVec.ofNat 32 ((indOf idx0 k.val + 2 ^ 23) / 2 ^ (t + 1)) := fun k => by
    rw [fdiv2_apply idx _ (hidx24 k), hidx k, hdiv]
  have hw : ∀ k : Fin 1048576, (indOf idx0 k.val + 2 ^ 23) / 2 ^ (t + 1) < 2 ^ 23 := fun k => by
    have h24 := leafPos_lt idx0 hrange k
    rw [← hdiv]
    have := Nat.div_le_self (indOf idx0 k.val + 2 ^ 23) (2 ^ t)
    omega
  have hqn : ∀ k : Fin 1048576, (fdiv2 idx (ix1 k)).toNat = (indOf idx0 k.val + 2 ^ 23) / 2 ^ (t + 1) := fun k => by
    rw [hq k, BitVec.toNat_ofNat]
    apply Nat.mod_eq_of_lt
    have := hw k
    omega

  have hl : ∀ k : Fin 1048576, (muli (bc (constantI S_ 32 2#32)) (fdiv2 idx) (ix1 k)).toNat
      = 2 * ((indOf idx0 k.val + 2 ^ 23) / 2 ^ (t + 1)) := fun k => by
    show (IntOp.muli 2#32 (fdiv2 idx (ix1 k))).toNat = _
    rw [SegOps.toNat_muli_two _ (by rw [hqn k]; exact hw k), hqn k]
  have hr : ∀ k : Fin 1048576,
      (addi (muli (bc (constantI S_ 32 2#32)) (fdiv2 idx)) (bc (constantI S_ 32 1#32)) (ix1 k)).toNat
      = 2 * ((indOf idx0 k.val + 2 ^ 23) / 2 ^ (t + 1)) + 1 := fun k => by
    show (IntOp.addi (IntOp.muli 2#32 (fdiv2 idx (ix1 k))) 1#32).toNat = _
    rw [SegOps.toNat_muli_two_add_one _ (by rw [hqn k]; exact hw k), hqn k]
  have htree : ∀ a : ℕ, a < 16777216 →
      ofVec tree a = T 23 1048576 (ofVec tree0) (indOf idx0) (ofVec vals0) t a := fun a ha => by
    rw [h1]
    exact ofVec_of_fun _ a ha
  simp only [StageAt, roundFn]
  constructor
  · funext i
    rw [put_apply _ _ _ (fun k => by rw [hqn k]; have := hw k; omega), T_succ_eq_foldSet]
    apply foldSet_congr
    · exact htree _ (i 0).isLt
    · intro n hn
      show (if h : n < 1048576 then _ else 0) = _
      rw [dif_pos hn]
      exact hqn ⟨n, hn⟩
    · intro n hn
      have hwn := hw ⟨n, hn⟩
      change (indOf idx0 n + 2 ^ 23) / 2 ^ (t + 1) < 2 ^ 23 at hwn
      rw [ofVec_apply _ n hn]
      simp only [addf, Ideal.addf_def]
      rw [take_apply tree _ ⟨n, hn⟩ (by rw [hl ⟨n, hn⟩]; show 2 * ((indOf idx0 n + 2 ^ 23) / 2 ^ (t + 1)) < 2 ^ 24; omega),
        take_apply tree _ ⟨n, hn⟩ (by rw [hr ⟨n, hn⟩]; show 2 * ((indOf idx0 n + 2 ^ 23) / 2 ^ (t + 1)) + 1 < 2 ^ 24; omega),
        hl ⟨n, hn⟩, hr ⟨n, hn⟩]
      simp only []
      rw [htree _ (by omega), htree _ (by omega)]
  · intro k
    exact hq k

theorem iterate_spec (tree0 : FVec Ideal S16777216 .f32) (idx0 : IVec S1048576 32) (vals0 : FVec Ideal S1048576 .f32)
    (hrange : ∀ k : Fin 1048576, (idx0 (ix1 k)).toNat < 8388608) (t : ℕ) (ht : t ≤ 23) :
    StageAt tree0 idx0 vals0 t (roundFn^[t] (leafStage tree0 idx0 vals0)) := by
  induction t with
  | zero => exact leaf_spec tree0 idx0 vals0 hrange
  | succ s ih =>
    rw [Function.iterate_succ_apply']
    exact round_spec tree0 idx0 vals0 hrange s (by omega) _ (ih (by omega))

theorem rounds_result (tree0 : FVec Ideal S16777216 .f32) (idx0 : IVec S1048576 32) (vals0 : FVec Ideal S1048576 .f32)
    (hrange : ∀ k : Fin 1048576, (idx0 (ix1 k)).toNat < 8388608) :
    (roundFn^[23] (leafStage tree0 idx0 vals0)).1 = specOut tree0 idx0 vals0 :=
  (iterate_spec tree0 idx0 vals0 hrange 23 (Nat.le_refl 23)).1

end Cert.ReferenceIdeal.Hand

end
-- ==== Proof.Ref.Rounds.Leaf.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Leaf
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem leaf_tree (V : Valuation τ sig (Elt Ideal)) :
    after (opsLeaf (F := Ideal)) V (Proc.devRef .tc main_v8) = (leafStage (V (Proc.devRef .tc main_arg0)) (V (Proc.devRef .tc main_arg1)) (V (Proc.devRef .tc main_arg2))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem leaf_idx (V : Valuation τ sig (Elt Ideal)) :
    after (opsLeaf (F := Ideal)) V (Proc.devRef .tc main_v1) = (leafStage (V (Proc.devRef .tc main_arg0)) (V (Proc.devRef .tc main_arg1)) (V (Proc.devRef .tc main_arg2))).2 := by
  after_results_simp
  simp only [roundFn, leafStage, put, take, col, wrapIdx, fdiv2, bc, TRef.ofBuf, TRef.toBuf, cast_eq]
  first | done | with_reducible rfl

theorem leaf_arg0 (V : Valuation τ sig (Elt Ideal)) :
    after (opsLeaf (F := Ideal)) V (Proc.devRef .tc main_arg0) = V (Proc.devRef .tc main_arg0) :=
  opsLeaf_keep V main_arg0 (by decide)

theorem leaf_arg1 (V : Valuation τ sig (Elt Ideal)) :
    after (opsLeaf (F := Ideal)) V (Proc.devRef .tc main_arg1) = V (Proc.devRef .tc main_arg1) :=
  opsLeaf_keep V main_arg1 (by decide)

theorem leaf_arg2 (V : Valuation τ sig (Elt Ideal)) :
    after (opsLeaf (F := Ideal)) V (Proc.devRef .tc main_arg2) = V (Proc.devRef .tc main_arg2) :=
  opsLeaf_keep V main_arg2 (by decide)

end Cert.ReferenceIdeal.Hand

end
-- ==== Proof.Ref.Rounds.Rd1.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd1
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd1_tree (V : Valuation τ sig (Elt Ideal)) :
    after (opsRd1 (F := Ideal)) V (Proc.devRef .tc main_v37) = (roundFn (V (Proc.devRef .tc main_v8), V (Proc.devRef .tc main_v1))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd1_idx (V : Valuation τ sig (Elt Ideal)) :
    after (opsRd1 (F := Ideal)) V (Proc.devRef .tc main_v9) = (roundFn (V (Proc.devRef .tc main_v8), V (Proc.devRef .tc main_v1))).2 := by
  after_results_simp
  simp only [roundFn, leafStage, put, take, col, wrapIdx, fdiv2, bc, TRef.ofBuf, TRef.toBuf, cast_eq]
  first | done | with_reducible rfl

theorem rd1_arg0 (V : Valuation τ sig (Elt Ideal)) :
    after (opsRd1 (F := Ideal)) V (Proc.devRef .tc main_arg0) = V (Proc.devRef .tc main_arg0) :=
  opsRd1_keep V main_arg0 (by decide)

theorem rd1_arg1 (V : Valuation τ sig (Elt Ideal)) :
    after (opsRd1 (F := Ideal)) V (Proc.devRef .tc main_arg1) = V (Proc.devRef .tc main_arg1) :=
  opsRd1_keep V main_arg1 (by decide)

theorem rd1_arg2 (V : Valuation τ sig (Elt Ideal)) :
    after (opsRd1 (F := Ideal)) V (Proc.devRef .tc main_arg2) = V (Proc.devRef .tc main_arg2) :=
  opsRd1_keep V main_arg2 (by decide)

end Cert.ReferenceIdeal.Hand

end
-- ==== Proof.Ref.Rounds.Rd2.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd2
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd2_tree (V : Valuation τ sig (Elt Ideal)) :
    after (opsRd2 (F := Ideal)) V (Proc.devRef .tc main_v66) = (roundFn (V (Proc.devRef .tc main_v37), V (Proc.devRef .tc main_v9))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd2_idx (V : Valuation τ sig (Elt Ideal)) :
    after (opsRd2 (F := Ideal)) V (Proc.devRef .tc main_v38) = (roundFn (V (Proc.devRef .tc main_v37), V (Proc.devRef .tc main_v9))).2 := by
  after_results_simp
  simp only [roundFn, leafStage, put, take, col, wrapIdx, fdiv2, bc, TRef.ofBuf, TRef.toBuf, cast_eq]
  first | done | with_reducible rfl

theorem rd2_arg0 (V : Valuation τ sig (Elt Ideal)) :
    after (opsRd2 (F := Ideal)) V (Proc.devRef .tc main_arg0) = V (Proc.devRef .tc main_arg0) :=
  opsRd2_keep V main_arg0 (by decide)

theorem rd2_arg1 (V : Valuation τ sig (Elt Ideal)) :
    after (opsRd2 (F := Ideal)) V (Proc.devRef .tc main_arg1) = V (Proc.devRef .tc main_arg1) :=
  opsRd2_keep V main_arg1 (by decide)

theorem rd2_arg2 (V : Valuation τ sig (Elt Ideal)) :
    after (opsRd2 (F := Ideal)) V (Proc.devRef .tc main_arg2) = V (Proc.devRef .tc main_arg2) :=
  opsRd2_keep V main_arg2 (by decide)

end Cert.ReferenceIdeal.Hand

end
-- ==== Proof.Ref.Rounds.Rd3.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd3
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd3_tree (V : Valuation τ sig (Elt Ideal)) :
    after (opsRd3 (F := Ideal)) V (Proc.devRef .tc main_v95) = (roundFn (V (Proc.devRef .tc main_v66), V (Proc.devRef .tc main_v38))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd3_idx (V : Valuation τ sig (Elt Ideal)) :
    after (opsRd3 (F := Ideal)) V (Proc.devRef .tc main_v67) = (roundFn (V (Proc.devRef .tc main_v66), V (Proc.devRef .tc main_v38))).2 := by
  after_results_simp
  simp only [roundFn, leafStage, put, take, col, wrapIdx, fdiv2, bc, TRef.ofBuf, TRef.toBuf, cast_eq]
  first | done | with_reducible rfl

theorem rd3_arg0 (V : Valuation τ sig (Elt Ideal)) :
    after (opsRd3 (F := Ideal)) V (Proc.devRef .tc main_arg0) = V (Proc.devRef .tc main_arg0) :=
  opsRd3_keep V main_arg0 (by decide)

theorem rd3_arg1 (V : Valuation τ sig (Elt Ideal)) :
    after (opsRd3 (F := Ideal)) V (Proc.devRef .tc main_arg1) = V (Proc.devRef .tc main_arg1) :=
  opsRd3_keep V main_arg1 (by decide)

theorem rd3_arg2 (V : Valuation τ sig (Elt Ideal)) :
    after (opsRd3 (F := Ideal)) V (Proc.devRef .tc main_arg2) = V (Proc.devRef .tc main_arg2) :=
  opsRd3_keep V main_arg2 (by decide)

end Cert.ReferenceIdeal.Hand

end
-- ==== Proof.Ref.Rounds.Rd4.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd4
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd4_tree (V : Valuation τ sig (Elt Ideal)) :
    after (opsRd4 (F := Ideal)) V (Proc.devRef .tc main_v124) = (roundFn (V (Proc.devRef .tc main_v95), V (Proc.devRef .tc main_v67))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd4_idx (V : Valuation τ sig (Elt Ideal)) :
    after (opsRd4 (F := Ideal)) V (Proc.devRef .tc main_v96) = (roundFn (V (Proc.devRef .tc main_v95), V (Proc.devRef .tc main_v67))).2 := by
  after_results_simp
  simp only [roundFn, leafStage, put, take, col, wrapIdx, fdiv2, bc, TRef.ofBuf, TRef.toBuf, cast_eq]
  first | done | with_reducible rfl

theorem rd4_arg0 (V : Valuation τ sig (Elt Ideal)) :
    after (opsRd4 (F := Ideal)) V (Proc.devRef .tc main_arg0) = V (Proc.devRef .tc main_arg0) :=
  opsRd4_keep V main_arg0 (by decide)

theorem rd4_arg1 (V : Valuation τ sig (Elt Ideal)) :
    after (opsRd4 (F := Ideal)) V (Proc.devRef .tc main_arg1) = V (Proc.devRef .tc main_arg1) :=
  opsRd4_keep V main_arg1 (by decide)

theorem rd4_arg2 (V : Valuation τ sig (Elt Ideal)) :
    after (opsRd4 (F := Ideal)) V (Proc.devRef .tc main_arg2) = V (Proc.devRef .tc main_arg2) :=
  opsRd4_keep V main_arg2 (by decide)

end Cert.ReferenceIdeal.Hand

end
-- ==== Proof.Ref.Rounds.Rd5.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd5
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd5_tree (V : Valuation τ sig (Elt Ideal)) :
    after (opsRd5 (F := Ideal)) V (Proc.devRef .tc main_v153) = (roundFn (V (Proc.devRef .tc main_v124), V (Proc.devRef .tc main_v96))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd5_idx (V : Valuation τ sig (Elt Ideal)) :
    after (opsRd5 (F := Ideal)) V (Proc.devRef .tc main_v125) = (roundFn (V (Proc.devRef .tc main_v124), V (Proc.devRef .tc main_v96))).2 := by
  after_results_simp
  simp only [roundFn, leafStage, put, take, col, wrapIdx, fdiv2, bc, TRef.ofBuf, TRef.toBuf, cast_eq]
  first | done | with_reducible rfl

theorem rd5_arg0 (V : Valuation τ sig (Elt Ideal)) :
    after (opsRd5 (F := Ideal)) V (Proc.devRef .tc main_arg0) = V (Proc.devRef .tc main_arg0) :=
  opsRd5_keep V main_arg0 (by decide)

theorem rd5_arg1 (V : Valuation τ sig (Elt Ideal)) :
    after (opsRd5 (F := Ideal)) V (Proc.devRef .tc main_arg1) = V (Proc.devRef .tc main_arg1) :=
  opsRd5_keep V main_arg1 (by decide)

theorem rd5_arg2 (V : Valuation τ sig (Elt Ideal)) :
    after (opsRd5 (F := Ideal)) V (Proc.devRef .tc main_arg2) = V (Proc.devRef .tc main_arg2) :=
  opsRd5_keep V main_arg2 (by decide)

end Cert.ReferenceIdeal.Hand

end
-- ==== Proof.Ref.Rounds.Rd6.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd6
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd6_tree (V : Valuation τ sig (Elt Ideal)) :
    after (opsRd6 (F := Ideal)) V (Proc.devRef .tc main_v182) = (roundFn (V (Proc.devRef .tc main_v153), V (Proc.devRef .tc main_v125))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd6_idx (V : Valuation τ sig (Elt Ideal)) :
    after (opsRd6 (F := Ideal)) V (Proc.devRef .tc main_v154) = (roundFn (V (Proc.devRef .tc main_v153), V (Proc.devRef .tc main_v125))).2 := by
  after_results_simp
  simp only [roundFn, leafStage, put, take, col, wrapIdx, fdiv2, bc, TRef.ofBuf, TRef.toBuf, cast_eq]
  first | done | with_reducible rfl

theorem rd6_arg0 (V : Valuation τ sig (Elt Ideal)) :
    after (opsRd6 (F := Ideal)) V (Proc.devRef .tc main_arg0) = V (Proc.devRef .tc main_arg0) :=
  opsRd6_keep V main_arg0 (by decide)

theorem rd6_arg1 (V : Valuation τ sig (Elt Ideal)) :
    after (opsRd6 (F := Ideal)) V (Proc.devRef .tc main_arg1) = V (Proc.devRef .tc main_arg1) :=
  opsRd6_keep V main_arg1 (by decide)

theorem rd6_arg2 (V : Valuation τ sig (Elt Ideal)) :
    after (opsRd6 (F := Ideal)) V (Proc.devRef .tc main_arg2) = V (Proc.devRef .tc main_arg2) :=
  opsRd6_keep V main_arg2 (by decide)

end Cert.ReferenceIdeal.Hand

end
-- ==== Proof.Ref.Rounds.Rd7.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd7
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd7_tree (V : Valuation τ sig (Elt Ideal)) :
    after (opsRd7 (F := Ideal)) V (Proc.devRef .tc main_v211) = (roundFn (V (Proc.devRef .tc main_v182), V (Proc.devRef .tc main_v154))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd7_idx (V : Valuation τ sig (Elt Ideal)) :
    after (opsRd7 (F := Ideal)) V (Proc.devRef .tc main_v183) = (roundFn (V (Proc.devRef .tc main_v182), V (Proc.devRef .tc main_v154))).2 := by
  after_results_simp
  simp only [roundFn, leafStage, put, take, col, wrapIdx, fdiv2, bc, TRef.ofBuf, TRef.toBuf, cast_eq]
  first | done | with_reducible rfl

theorem rd7_arg0 (V : Valuation τ sig (Elt Ideal)) :
    after (opsRd7 (F := Ideal)) V (Proc.devRef .tc main_arg0) = V (Proc.devRef .tc main_arg0) :=
  opsRd7_keep V main_arg0 (by decide)

theorem rd7_arg1 (V : Valuation τ sig (Elt Ideal)) :
    after (opsRd7 (F := Ideal)) V (Proc.devRef .tc main_arg1) = V (Proc.devRef .tc main_arg1) :=
  opsRd7_keep V main_arg1 (by decide)

theorem rd7_arg2 (V : Valuation τ sig (Elt Ideal)) :
    after (opsRd7 (F := Ideal)) V (Proc.devRef .tc main_arg2) = V (Proc.devRef .tc main_arg2) :=
  opsRd7_keep V main_arg2 (by decide)

end Cert.ReferenceIdeal.Hand

end
-- ==== Proof.Ref.Rounds.Rd8.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd8
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd8_tree (V : Valuation τ sig (Elt Ideal)) :
    after (opsRd8 (F := Ideal)) V (Proc.devRef .tc main_v240) = (roundFn (V (Proc.devRef .tc main_v211), V (Proc.devRef .tc main_v183))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd8_idx (V : Valuation τ sig (Elt Ideal)) :
    after (opsRd8 (F := Ideal)) V (Proc.devRef .tc main_v212) = (roundFn (V (Proc.devRef .tc main_v211), V (Proc.devRef .tc main_v183))).2 := by
  after_results_simp
  simp only [roundFn, leafStage, put, take, col, wrapIdx, fdiv2, bc, TRef.ofBuf, TRef.toBuf, cast_eq]
  first | done | with_reducible rfl

theorem rd8_arg0 (V : Valuation τ sig (Elt Ideal)) :
    after (opsRd8 (F := Ideal)) V (Proc.devRef .tc main_arg0) = V (Proc.devRef .tc main_arg0) :=
  opsRd8_keep V main_arg0 (by decide)

theorem rd8_arg1 (V : Valuation τ sig (Elt Ideal)) :
    after (opsRd8 (F := Ideal)) V (Proc.devRef .tc main_arg1) = V (Proc.devRef .tc main_arg1) :=
  opsRd8_keep V main_arg1 (by decide)

theorem rd8_arg2 (V : Valuation τ sig (Elt Ideal)) :
    after (opsRd8 (F := Ideal)) V (Proc.devRef .tc main_arg2) = V (Proc.devRef .tc main_arg2) :=
  opsRd8_keep V main_arg2 (by decide)

end Cert.ReferenceIdeal.Hand

end
-- ==== Proof.Ref.Rounds.Rd9.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd9
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd9_tree (V : Valuation τ sig (Elt Ideal)) :
    after (opsRd9 (F := Ideal)) V (Proc.devRef .tc main_v269) = (roundFn (V (Proc.devRef .tc main_v240), V (Proc.devRef .tc main_v212))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd9_idx (V : Valuation τ sig (Elt Ideal)) :
    after (opsRd9 (F := Ideal)) V (Proc.devRef .tc main_v241) = (roundFn (V (Proc.devRef .tc main_v240), V (Proc.devRef .tc main_v212))).2 := by
  after_results_simp
  simp only [roundFn, leafStage, put, take, col, wrapIdx, fdiv2, bc, TRef.ofBuf, TRef.toBuf, cast_eq]
  first | done | with_reducible rfl

theorem rd9_arg0 (V : Valuation τ sig (Elt Ideal)) :
    after (opsRd9 (F := Ideal)) V (Proc.devRef .tc main_arg0) = V (Proc.devRef .tc main_arg0) :=
  opsRd9_keep V main_arg0 (by decide)

theorem rd9_arg1 (V : Valuation τ sig (Elt Ideal)) :
    after (opsRd9 (F := Ideal)) V (Proc.devRef .tc main_arg1) = V (Proc.devRef .tc main_arg1) :=
  opsRd9_keep V main_arg1 (by decide)

theorem rd9_arg2 (V : Valuation τ sig (Elt Ideal)) :
    after (opsRd9 (F := Ideal)) V (Proc.devRef .tc main_arg2) = V (Proc.devRef .tc main_arg2) :=
  opsRd9_keep V main_arg2 (by decide)

end Cert.ReferenceIdeal.Hand

end
-- ==== Proof.Ref.Rounds.Rd10.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd10
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd10_tree (V : Valuation τ sig (Elt Ideal)) :
    after (opsRd10 (F := Ideal)) V (Proc.devRef .tc main_v298) = (roundFn (V (Proc.devRef .tc main_v269), V (Proc.devRef .tc main_v241))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd10_idx (V : Valuation τ sig (Elt Ideal)) :
    after (opsRd10 (F := Ideal)) V (Proc.devRef .tc main_v270) = (roundFn (V (Proc.devRef .tc main_v269), V (Proc.devRef .tc main_v241))).2 := by
  after_results_simp
  simp only [roundFn, leafStage, put, take, col, wrapIdx, fdiv2, bc, TRef.ofBuf, TRef.toBuf, cast_eq]
  first | done | with_reducible rfl

theorem rd10_arg0 (V : Valuation τ sig (Elt Ideal)) :
    after (opsRd10 (F := Ideal)) V (Proc.devRef .tc main_arg0) = V (Proc.devRef .tc main_arg0) :=
  opsRd10_keep V main_arg0 (by decide)

theorem rd10_arg1 (V : Valuation τ sig (Elt Ideal)) :
    after (opsRd10 (F := Ideal)) V (Proc.devRef .tc main_arg1) = V (Proc.devRef .tc main_arg1) :=
  opsRd10_keep V main_arg1 (by decide)

theorem rd10_arg2 (V : Valuation τ sig (Elt Ideal)) :
    after (opsRd10 (F := Ideal)) V (Proc.devRef .tc main_arg2) = V (Proc.devRef .tc main_arg2) :=
  opsRd10_keep V main_arg2 (by decide)

end Cert.ReferenceIdeal.Hand

end
-- ==== Proof.Ref.Rounds.Rd11.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd11
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd11_tree (V : Valuation τ sig (Elt Ideal)) :
    after (opsRd11 (F := Ideal)) V (Proc.devRef .tc main_v327) = (roundFn (V (Proc.devRef .tc main_v298), V (Proc.devRef .tc main_v270))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd11_idx (V : Valuation τ sig (Elt Ideal)) :
    after (opsRd11 (F := Ideal)) V (Proc.devRef .tc main_v299) = (roundFn (V (Proc.devRef .tc main_v298), V (Proc.devRef .tc main_v270))).2 := by
  after_results_simp
  simp only [roundFn, leafStage, put, take, col, wrapIdx, fdiv2, bc, TRef.ofBuf, TRef.toBuf, cast_eq]
  first | done | with_reducible rfl

theorem rd11_arg0 (V : Valuation τ sig (Elt Ideal)) :
    after (opsRd11 (F := Ideal)) V (Proc.devRef .tc main_arg0) = V (Proc.devRef .tc main_arg0) :=
  opsRd11_keep V main_arg0 (by decide)

theorem rd11_arg1 (V : Valuation τ sig (Elt Ideal)) :
    after (opsRd11 (F := Ideal)) V (Proc.devRef .tc main_arg1) = V (Proc.devRef .tc main_arg1) :=
  opsRd11_keep V main_arg1 (by decide)

theorem rd11_arg2 (V : Valuation τ sig (Elt Ideal)) :
    after (opsRd11 (F := Ideal)) V (Proc.devRef .tc main_arg2) = V (Proc.devRef .tc main_arg2) :=
  opsRd11_keep V main_arg2 (by decide)

end Cert.ReferenceIdeal.Hand

end
-- ==== Proof.Ref.Rounds.Rd12.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd12
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd12_tree (V : Valuation τ sig (Elt Ideal)) :
    after (opsRd12 (F := Ideal)) V (Proc.devRef .tc main_v356) = (roundFn (V (Proc.devRef .tc main_v327), V (Proc.devRef .tc main_v299))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd12_idx (V : Valuation τ sig (Elt Ideal)) :
    after (opsRd12 (F := Ideal)) V (Proc.devRef .tc main_v328) = (roundFn (V (Proc.devRef .tc main_v327), V (Proc.devRef .tc main_v299))).2 := by
  after_results_simp
  simp only [roundFn, leafStage, put, take, col, wrapIdx, fdiv2, bc, TRef.ofBuf, TRef.toBuf, cast_eq]
  first | done | with_reducible rfl

theorem rd12_arg0 (V : Valuation τ sig (Elt Ideal)) :
    after (opsRd12 (F := Ideal)) V (Proc.devRef .tc main_arg0) = V (Proc.devRef .tc main_arg0) :=
  opsRd12_keep V main_arg0 (by decide)

theorem rd12_arg1 (V : Valuation τ sig (Elt Ideal)) :
    after (opsRd12 (F := Ideal)) V (Proc.devRef .tc main_arg1) = V (Proc.devRef .tc main_arg1) :=
  opsRd12_keep V main_arg1 (by decide)

theorem rd12_arg2 (V : Valuation τ sig (Elt Ideal)) :
    after (opsRd12 (F := Ideal)) V (Proc.devRef .tc main_arg2) = V (Proc.devRef .tc main_arg2) :=
  opsRd12_keep V main_arg2 (by decide)

end Cert.ReferenceIdeal.Hand

end
-- ==== Proof.Ref.Rounds.Rd13.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd13
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd13_tree (V : Valuation τ sig (Elt Ideal)) :
    after (opsRd13 (F := Ideal)) V (Proc.devRef .tc main_v385) = (roundFn (V (Proc.devRef .tc main_v356), V (Proc.devRef .tc main_v328))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd13_idx (V : Valuation τ sig (Elt Ideal)) :
    after (opsRd13 (F := Ideal)) V (Proc.devRef .tc main_v357) = (roundFn (V (Proc.devRef .tc main_v356), V (Proc.devRef .tc main_v328))).2 := by
  after_results_simp
  simp only [roundFn, leafStage, put, take, col, wrapIdx, fdiv2, bc, TRef.ofBuf, TRef.toBuf, cast_eq]
  first | done | with_reducible rfl

theorem rd13_arg0 (V : Valuation τ sig (Elt Ideal)) :
    after (opsRd13 (F := Ideal)) V (Proc.devRef .tc main_arg0) = V (Proc.devRef .tc main_arg0) :=
  opsRd13_keep V main_arg0 (by decide)

theorem rd13_arg1 (V : Valuation τ sig (Elt Ideal)) :
    after (opsRd13 (F := Ideal)) V (Proc.devRef .tc main_arg1) = V (Proc.devRef .tc main_arg1) :=
  opsRd13_keep V main_arg1 (by decide)

theorem rd13_arg2 (V : Valuation τ sig (Elt Ideal)) :
    after (opsRd13 (F := Ideal)) V (Proc.devRef .tc main_arg2) = V (Proc.devRef .tc main_arg2) :=
  opsRd13_keep V main_arg2 (by decide)

end Cert.ReferenceIdeal.Hand

end
-- ==== Proof.Ref.Rounds.Rd14.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd14
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd14_tree (V : Valuation τ sig (Elt Ideal)) :
    after (opsRd14 (F := Ideal)) V (Proc.devRef .tc main_v414) = (roundFn (V (Proc.devRef .tc main_v385), V (Proc.devRef .tc main_v357))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd14_idx (V : Valuation τ sig (Elt Ideal)) :
    after (opsRd14 (F := Ideal)) V (Proc.devRef .tc main_v386) = (roundFn (V (Proc.devRef .tc main_v385), V (Proc.devRef .tc main_v357))).2 := by
  after_results_simp
  simp only [roundFn, leafStage, put, take, col, wrapIdx, fdiv2, bc, TRef.ofBuf, TRef.toBuf, cast_eq]
  first | done | with_reducible rfl

theorem rd14_arg0 (V : Valuation τ sig (Elt Ideal)) :
    after (opsRd14 (F := Ideal)) V (Proc.devRef .tc main_arg0) = V (Proc.devRef .tc main_arg0) :=
  opsRd14_keep V main_arg0 (by decide)

theorem rd14_arg1 (V : Valuation τ sig (Elt Ideal)) :
    after (opsRd14 (F := Ideal)) V (Proc.devRef .tc main_arg1) = V (Proc.devRef .tc main_arg1) :=
  opsRd14_keep V main_arg1 (by decide)

theorem rd14_arg2 (V : Valuation τ sig (Elt Ideal)) :
    after (opsRd14 (F := Ideal)) V (Proc.devRef .tc main_arg2) = V (Proc.devRef .tc main_arg2) :=
  opsRd14_keep V main_arg2 (by decide)

end Cert.ReferenceIdeal.Hand

end
-- ==== Proof.Ref.Rounds.Rd15.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd15
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd15_tree (V : Valuation τ sig (Elt Ideal)) :
    after (opsRd15 (F := Ideal)) V (Proc.devRef .tc main_v443) = (roundFn (V (Proc.devRef .tc main_v414), V (Proc.devRef .tc main_v386))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd15_idx (V : Valuation τ sig (Elt Ideal)) :
    after (opsRd15 (F := Ideal)) V (Proc.devRef .tc main_v415) = (roundFn (V (Proc.devRef .tc main_v414), V (Proc.devRef .tc main_v386))).2 := by
  after_results_simp
  simp only [roundFn, leafStage, put, take, col, wrapIdx, fdiv2, bc, TRef.ofBuf, TRef.toBuf, cast_eq]
  first | done | with_reducible rfl

theorem rd15_arg0 (V : Valuation τ sig (Elt Ideal)) :
    after (opsRd15 (F := Ideal)) V (Proc.devRef .tc main_arg0) = V (Proc.devRef .tc main_arg0) :=
  opsRd15_keep V main_arg0 (by decide)

theorem rd15_arg1 (V : Valuation τ sig (Elt Ideal)) :
    after (opsRd15 (F := Ideal)) V (Proc.devRef .tc main_arg1) = V (Proc.devRef .tc main_arg1) :=
  opsRd15_keep V main_arg1 (by decide)

theorem rd15_arg2 (V : Valuation τ sig (Elt Ideal)) :
    after (opsRd15 (F := Ideal)) V (Proc.devRef .tc main_arg2) = V (Proc.devRef .tc main_arg2) :=
  opsRd15_keep V main_arg2 (by decide)

end Cert.ReferenceIdeal.Hand

end
-- ==== Proof.Ref.Rounds.Rd16.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd16
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd16_tree (V : Valuation τ sig (Elt Ideal)) :
    after (opsRd16 (F := Ideal)) V (Proc.devRef .tc main_v472) = (roundFn (V (Proc.devRef .tc main_v443), V (Proc.devRef .tc main_v415))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd16_idx (V : Valuation τ sig (Elt Ideal)) :
    after (opsRd16 (F := Ideal)) V (Proc.devRef .tc main_v444) = (roundFn (V (Proc.devRef .tc main_v443), V (Proc.devRef .tc main_v415))).2 := by
  after_results_simp
  simp only [roundFn, leafStage, put, take, col, wrapIdx, fdiv2, bc, TRef.ofBuf, TRef.toBuf, cast_eq]
  first | done | with_reducible rfl

theorem rd16_arg0 (V : Valuation τ sig (Elt Ideal)) :
    after (opsRd16 (F := Ideal)) V (Proc.devRef .tc main_arg0) = V (Proc.devRef .tc main_arg0) :=
  opsRd16_keep V main_arg0 (by decide)

theorem rd16_arg1 (V : Valuation τ sig (Elt Ideal)) :
    after (opsRd16 (F := Ideal)) V (Proc.devRef .tc main_arg1) = V (Proc.devRef .tc main_arg1) :=
  opsRd16_keep V main_arg1 (by decide)

theorem rd16_arg2 (V : Valuation τ sig (Elt Ideal)) :
    after (opsRd16 (F := Ideal)) V (Proc.devRef .tc main_arg2) = V (Proc.devRef .tc main_arg2) :=
  opsRd16_keep V main_arg2 (by decide)

end Cert.ReferenceIdeal.Hand

end
-- ==== Proof.Ref.Rounds.Rd17.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd17
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd17_tree (V : Valuation τ sig (Elt Ideal)) :
    after (opsRd17 (F := Ideal)) V (Proc.devRef .tc main_v501) = (roundFn (V (Proc.devRef .tc main_v472), V (Proc.devRef .tc main_v444))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd17_idx (V : Valuation τ sig (Elt Ideal)) :
    after (opsRd17 (F := Ideal)) V (Proc.devRef .tc main_v473) = (roundFn (V (Proc.devRef .tc main_v472), V (Proc.devRef .tc main_v444))).2 := by
  after_results_simp
  simp only [roundFn, leafStage, put, take, col, wrapIdx, fdiv2, bc, TRef.ofBuf, TRef.toBuf, cast_eq]
  first | done | with_reducible rfl

theorem rd17_arg0 (V : Valuation τ sig (Elt Ideal)) :
    after (opsRd17 (F := Ideal)) V (Proc.devRef .tc main_arg0) = V (Proc.devRef .tc main_arg0) :=
  opsRd17_keep V main_arg0 (by decide)

theorem rd17_arg1 (V : Valuation τ sig (Elt Ideal)) :
    after (opsRd17 (F := Ideal)) V (Proc.devRef .tc main_arg1) = V (Proc.devRef .tc main_arg1) :=
  opsRd17_keep V main_arg1 (by decide)

theorem rd17_arg2 (V : Valuation τ sig (Elt Ideal)) :
    after (opsRd17 (F := Ideal)) V (Proc.devRef .tc main_arg2) = V (Proc.devRef .tc main_arg2) :=
  opsRd17_keep V main_arg2 (by decide)

end Cert.ReferenceIdeal.Hand

end
-- ==== Proof.Ref.Rounds.Rd18.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd18
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd18_tree (V : Valuation τ sig (Elt Ideal)) :
    after (opsRd18 (F := Ideal)) V (Proc.devRef .tc main_v530) = (roundFn (V (Proc.devRef .tc main_v501), V (Proc.devRef .tc main_v473))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd18_idx (V : Valuation τ sig (Elt Ideal)) :
    after (opsRd18 (F := Ideal)) V (Proc.devRef .tc main_v502) = (roundFn (V (Proc.devRef .tc main_v501), V (Proc.devRef .tc main_v473))).2 := by
  after_results_simp
  simp only [roundFn, leafStage, put, take, col, wrapIdx, fdiv2, bc, TRef.ofBuf, TRef.toBuf, cast_eq]
  first | done | with_reducible rfl

theorem rd18_arg0 (V : Valuation τ sig (Elt Ideal)) :
    after (opsRd18 (F := Ideal)) V (Proc.devRef .tc main_arg0) = V (Proc.devRef .tc main_arg0) :=
  opsRd18_keep V main_arg0 (by decide)

theorem rd18_arg1 (V : Valuation τ sig (Elt Ideal)) :
    after (opsRd18 (F := Ideal)) V (Proc.devRef .tc main_arg1) = V (Proc.devRef .tc main_arg1) :=
  opsRd18_keep V main_arg1 (by decide)

theorem rd18_arg2 (V : Valuation τ sig (Elt Ideal)) :
    after (opsRd18 (F := Ideal)) V (Proc.devRef .tc main_arg2) = V (Proc.devRef .tc main_arg2) :=
  opsRd18_keep V main_arg2 (by decide)

end Cert.ReferenceIdeal.Hand

end
-- ==== Proof.Ref.Rounds.Rd19.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd19
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd19_tree (V : Valuation τ sig (Elt Ideal)) :
    after (opsRd19 (F := Ideal)) V (Proc.devRef .tc main_v559) = (roundFn (V (Proc.devRef .tc main_v530), V (Proc.devRef .tc main_v502))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd19_idx (V : Valuation τ sig (Elt Ideal)) :
    after (opsRd19 (F := Ideal)) V (Proc.devRef .tc main_v531) = (roundFn (V (Proc.devRef .tc main_v530), V (Proc.devRef .tc main_v502))).2 := by
  after_results_simp
  simp only [roundFn, leafStage, put, take, col, wrapIdx, fdiv2, bc, TRef.ofBuf, TRef.toBuf, cast_eq]
  first | done | with_reducible rfl

theorem rd19_arg0 (V : Valuation τ sig (Elt Ideal)) :
    after (opsRd19 (F := Ideal)) V (Proc.devRef .tc main_arg0) = V (Proc.devRef .tc main_arg0) :=
  opsRd19_keep V main_arg0 (by decide)

theorem rd19_arg1 (V : Valuation τ sig (Elt Ideal)) :
    after (opsRd19 (F := Ideal)) V (Proc.devRef .tc main_arg1) = V (Proc.devRef .tc main_arg1) :=
  opsRd19_keep V main_arg1 (by decide)

theorem rd19_arg2 (V : Valuation τ sig (Elt Ideal)) :
    after (opsRd19 (F := Ideal)) V (Proc.devRef .tc main_arg2) = V (Proc.devRef .tc main_arg2) :=
  opsRd19_keep V main_arg2 (by decide)

end Cert.ReferenceIdeal.Hand

end
-- ==== Proof.Ref.Rounds.Rd20.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd20
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd20_tree (V : Valuation τ sig (Elt Ideal)) :
    after (opsRd20 (F := Ideal)) V (Proc.devRef .tc main_v588) = (roundFn (V (Proc.devRef .tc main_v559), V (Proc.devRef .tc main_v531))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd20_idx (V : Valuation τ sig (Elt Ideal)) :
    after (opsRd20 (F := Ideal)) V (Proc.devRef .tc main_v560) = (roundFn (V (Proc.devRef .tc main_v559), V (Proc.devRef .tc main_v531))).2 := by
  after_results_simp
  simp only [roundFn, leafStage, put, take, col, wrapIdx, fdiv2, bc, TRef.ofBuf, TRef.toBuf, cast_eq]
  first | done | with_reducible rfl

theorem rd20_arg0 (V : Valuation τ sig (Elt Ideal)) :
    after (opsRd20 (F := Ideal)) V (Proc.devRef .tc main_arg0) = V (Proc.devRef .tc main_arg0) :=
  opsRd20_keep V main_arg0 (by decide)

theorem rd20_arg1 (V : Valuation τ sig (Elt Ideal)) :
    after (opsRd20 (F := Ideal)) V (Proc.devRef .tc main_arg1) = V (Proc.devRef .tc main_arg1) :=
  opsRd20_keep V main_arg1 (by decide)

theorem rd20_arg2 (V : Valuation τ sig (Elt Ideal)) :
    after (opsRd20 (F := Ideal)) V (Proc.devRef .tc main_arg2) = V (Proc.devRef .tc main_arg2) :=
  opsRd20_keep V main_arg2 (by decide)

end Cert.ReferenceIdeal.Hand

end
-- ==== Proof.Ref.Rounds.Rd21.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd21
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd21_tree (V : Valuation τ sig (Elt Ideal)) :
    after (opsRd21 (F := Ideal)) V (Proc.devRef .tc main_v617) = (roundFn (V (Proc.devRef .tc main_v588), V (Proc.devRef .tc main_v560))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd21_idx (V : Valuation τ sig (Elt Ideal)) :
    after (opsRd21 (F := Ideal)) V (Proc.devRef .tc main_v589) = (roundFn (V (Proc.devRef .tc main_v588), V (Proc.devRef .tc main_v560))).2 := by
  after_results_simp
  simp only [roundFn, leafStage, put, take, col, wrapIdx, fdiv2, bc, TRef.ofBuf, TRef.toBuf, cast_eq]
  first | done | with_reducible rfl

theorem rd21_arg0 (V : Valuation τ sig (Elt Ideal)) :
    after (opsRd21 (F := Ideal)) V (Proc.devRef .tc main_arg0) = V (Proc.devRef .tc main_arg0) :=
  opsRd21_keep V main_arg0 (by decide)

theorem rd21_arg1 (V : Valuation τ sig (Elt Ideal)) :
    after (opsRd21 (F := Ideal)) V (Proc.devRef .tc main_arg1) = V (Proc.devRef .tc main_arg1) :=
  opsRd21_keep V main_arg1 (by decide)

theorem rd21_arg2 (V : Valuation τ sig (Elt Ideal)) :
    after (opsRd21 (F := Ideal)) V (Proc.devRef .tc main_arg2) = V (Proc.devRef .tc main_arg2) :=
  opsRd21_keep V main_arg2 (by decide)

end Cert.ReferenceIdeal.Hand

end
-- ==== Proof.Ref.Rounds.Rd22.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd22
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd22_tree (V : Valuation τ sig (Elt Ideal)) :
    after (opsRd22 (F := Ideal)) V (Proc.devRef .tc main_v646) = (roundFn (V (Proc.devRef .tc main_v617), V (Proc.devRef .tc main_v589))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd22_idx (V : Valuation τ sig (Elt Ideal)) :
    after (opsRd22 (F := Ideal)) V (Proc.devRef .tc main_v618) = (roundFn (V (Proc.devRef .tc main_v617), V (Proc.devRef .tc main_v589))).2 := by
  after_results_simp
  simp only [roundFn, leafStage, put, take, col, wrapIdx, fdiv2, bc, TRef.ofBuf, TRef.toBuf, cast_eq]
  first | done | with_reducible rfl

theorem rd22_arg0 (V : Valuation τ sig (Elt Ideal)) :
    after (opsRd22 (F := Ideal)) V (Proc.devRef .tc main_arg0) = V (Proc.devRef .tc main_arg0) :=
  opsRd22_keep V main_arg0 (by decide)

theorem rd22_arg1 (V : Valuation τ sig (Elt Ideal)) :
    after (opsRd22 (F := Ideal)) V (Proc.devRef .tc main_arg1) = V (Proc.devRef .tc main_arg1) :=
  opsRd22_keep V main_arg1 (by decide)

theorem rd22_arg2 (V : Valuation τ sig (Elt Ideal)) :
    after (opsRd22 (F := Ideal)) V (Proc.devRef .tc main_arg2) = V (Proc.devRef .tc main_arg2) :=
  opsRd22_keep V main_arg2 (by decide)

end Cert.ReferenceIdeal.Hand

end
-- ==== Proof.Ref.Rounds.Rd23.lean ====
import proofs.«417949_j89438398972173_1_alg».proof.Proof.Gen.ReferenceIdeal
import Idealize.ShloMosaic.Lib.StableHlo.Run
import Idealize.ShloMosaic.Lib.Pipeline.Regions
import proofs.«417949_j89438398972173_1_alg».proof.Proof.Ref.Regroup.Rd23
import proofs.«417949_j89438398972173_1_alg».proof.Proof.Ref.Round

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxHeartbeats 4000000 in
set_option maxRecDepth 8192 in

theorem rd23_tree (V : Valuation τ sig (Elt Ideal)) :
    after (opsRd23 (F := Ideal)) V (Proc.devRef .tc main_v675) = (roundFn (V (Proc.devRef .tc main_v646), V (Proc.devRef .tc main_v618))).1 := by
  after_results_simp
  simp only [roundFn, leafStage, put, take, col, wrapIdx, fdiv2, bc, TRef.ofBuf, TRef.toBuf, cast_eq]
  first | done | with_reducible rfl

set_option maxHeartbeats 4000000 in
set_option maxRecDepth 8192 in

theorem rd23_idx (V : Valuation τ sig (Elt Ideal)) :
    after (opsRd23 (F := Ideal)) V (Proc.devRef .tc main_v647) = (roundFn (V (Proc.devRef .tc main_v646), V (Proc.devRef .tc main_v618))).2 := by
  after_results_simp
  simp only [roundFn, leafStage, put, take, col, wrapIdx, fdiv2, bc, TRef.ofBuf, TRef.toBuf, cast_eq]
  first | done | with_reducible rfl

theorem rd23_arg0 (V : Valuation τ sig (Elt Ideal)) :
    after (opsRd23 (F := Ideal)) V (Proc.devRef .tc main_arg0) = V (Proc.devRef .tc main_arg0) :=
  opsRd23_keep V main_arg0 (by decide)

theorem rd23_arg1 (V : Valuation τ sig (Elt Ideal)) :
    after (opsRd23 (F := Ideal)) V (Proc.devRef .tc main_arg1) = V (Proc.devRef .tc main_arg1) :=
  opsRd23_keep V main_arg1 (by decide)

theorem rd23_arg2 (V : Valuation τ sig (Elt Ideal)) :
    after (opsRd23 (F := Ideal)) V (Proc.devRef .tc main_arg2) = V (Proc.devRef .tc main_arg2) :=
  opsRd23_keep V main_arg2 (by decide)

end Cert.ReferenceIdeal.Hand

end
-- ==== Proof.Ref.Value.lean ====
import proofs.«417949_j89438398972173_1_alg».proof.Proof.Ref.Run
import proofs.«417949_j89438398972173_1_alg».proof.Proof.Ref.Rounds.Leaf
import proofs.«417949_j89438398972173_1_alg».proof.Proof.Ref.Rounds.Rd1
import proofs.«417949_j89438398972173_1_alg».proof.Proof.Ref.Rounds.Rd2
import proofs.«417949_j89438398972173_1_alg».proof.Proof.Ref.Rounds.Rd3
import proofs.«417949_j89438398972173_1_alg».proof.Proof.Ref.Rounds.Rd4
import proofs.«417949_j89438398972173_1_alg».proof.Proof.Ref.Rounds.Rd5
import proofs.«417949_j89438398972173_1_alg».proof.Proof.Ref.Rounds.Rd6
import proofs.«417949_j89438398972173_1_alg».proof.Proof.Ref.Rounds.Rd7
import proofs.«417949_j89438398972173_1_alg».proof.Proof.Ref.Rounds.Rd8
import proofs.«417949_j89438398972173_1_alg».proof.Proof.Ref.Rounds.Rd9
import proofs.«417949_j89438398972173_1_alg».proof.Proof.Ref.Rounds.Rd10
import proofs.«417949_j89438398972173_1_alg».proof.Proof.Ref.Rounds.Rd11
import proofs.«417949_j89438398972173_1_alg».proof.Proof.Ref.Rounds.Rd12
import proofs.«417949_j89438398972173_1_alg».proof.Proof.Ref.Rounds.Rd13
import proofs.«417949_j89438398972173_1_alg».proof.Proof.Ref.Rounds.Rd14
import proofs.«417949_j89438398972173_1_alg».proof.Proof.Ref.Rounds.Rd15
import proofs.«417949_j89438398972173_1_alg».proof.Proof.Ref.Rounds.Rd16
import proofs.«417949_j89438398972173_1_alg».proof.Proof.Ref.Rounds.Rd17
import proofs.«417949_j89438398972173_1_alg».proof.Proof.Ref.Rounds.Rd18
import proofs.«417949_j89438398972173_1_alg».proof.Proof.Ref.Rounds.Rd19
import proofs.«417949_j89438398972173_1_alg».proof.Proof.Ref.Rounds.Rd20
import proofs.«417949_j89438398972173_1_alg».proof.Proof.Ref.Rounds.Rd21
import proofs.«417949_j89438398972173_1_alg».proof.Proof.Ref.Rounds.Rd22
import proofs.«417949_j89438398972173_1_alg».proof.Proof.Ref.Rounds.Rd23
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx SegTree

theorem stage_step {L : FVec Ideal S16777216 .f32 × IVec S1048576 32} {r : ℕ}
    {a a' : FVec Ideal S16777216 .f32} {b b' : IVec S1048576 32}
    (hp : (a, b) = roundFn^[r] L) (ha : a' = (roundFn (a, b)).1) (hb : b' = (roundFn (a, b)).2) :
    (a', b') = roundFn^[r + 1] L := by
  rw [Function.iterate_succ_apply', ← hp]
  exact Prod.ext ha hb

theorem stage_zero {L : FVec Ideal S16777216 .f32 × IVec S1048576 32}
    {a : FVec Ideal S16777216 .f32} {b : IVec S1048576 32} (ha : a = L.1) (hb : b = L.2) :
    (a, b) = roundFn^[0] L := by
  rw [Function.iterate_zero_apply]
  exact Prod.ext ha hb

theorem ref_result (m : (ℓ : Loc nD τ sig) → Buf (Elt Ideal) ℓ) (c : Dev nD)
    (hrange : ∀ k : Fin 1048576, ((m ((c.tc : Thread nD τ).loc main_arg1)) (ValueIdx.ix1 k)).toNat < 8388608) :
    StableHlo.after (ops (F := Ideal)) (launchContents m c) (Proc.devRef .tc main_v675)
      = SegTree.specOut (m ((c.tc : Thread nD τ).loc main_arg0)) (m ((c.tc : Thread nD τ).loc main_arg1))
          (m ((c.tc : Thread nD τ).loc main_arg2)) := by
  unfold ops
  repeat rw [StableHlo.after_append]

  generalize hW0 : StableHlo.after (opsLeaf (F := Ideal)) (launchContents m c) = W0
  generalize hW1 : StableHlo.after (opsRd1 (F := Ideal)) W0 = W1
  generalize hW2 : StableHlo.after (opsRd2 (F := Ideal)) W1 = W2
  generalize hW3 : StableHlo.after (opsRd3 (F := Ideal)) W2 = W3
  generalize hW4 : StableHlo.after (opsRd4 (F := Ideal)) W3 = W4
  generalize hW5 : StableHlo.after (opsRd5 (F := Ideal)) W4 = W5
  generalize hW6 : StableHlo.after (opsRd6 (F := Ideal)) W5 = W6
  generalize hW7 : StableHlo.after (opsRd7 (F := Ideal)) W6 = W7
  generalize hW8 : StableHlo.after (opsRd8 (F := Ideal)) W7 = W8
  generalize hW9 : StableHlo.after (opsRd9 (F := Ideal)) W8 = W9
  generalize hW10 : StableHlo.after (opsRd10 (F := Ideal)) W9 = W10
  generalize hW11 : StableHlo.after (opsRd11 (F := Ideal)) W10 = W11
  generalize hW12 : StableHlo.after (opsRd12 (F := Ideal)) W11 = W12
  generalize hW13 : StableHlo.after (opsRd13 (F := Ideal)) W12 = W13
  generalize hW14 : StableHlo.after (opsRd14 (F := Ideal)) W13 = W14
  generalize hW15 : StableHlo.after (opsRd15 (F := Ideal)) W14 = W15
  generalize hW16 : StableHlo.after (opsRd16 (F := Ideal)) W15 = W16
  generalize hW17 : StableHlo.after (opsRd17 (F := Ideal)) W16 = W17
  generalize hW18 : StableHlo.after (opsRd18 (F := Ideal)) W17 = W18
  generalize hW19 : StableHlo.after (opsRd19 (F := Ideal)) W18 = W19
  generalize hW20 : StableHlo.after (opsRd20 (F := Ideal)) W19 = W20
  generalize hW21 : StableHlo.after (opsRd21 (F := Ideal)) W20 = W21
  generalize hW22 : StableHlo.after (opsRd22 (F := Ideal)) W21 = W22
  generalize hW23 : StableHlo.after (opsRd23 (F := Ideal)) W22 = W23

  generalize hL : leafStage (launchContents m c (Proc.devRef .tc main_arg0)) (launchContents m c (Proc.devRef .tc main_arg1))
      (launchContents m c (Proc.devRef .tc main_arg2)) = L
  have h0 : (W0 (Proc.devRef .tc main_v8), W0 (Proc.devRef .tc main_v1)) = roundFn^[0] L := by
    rw [← hW0, ← hL]
    exact stage_zero (leaf_tree (launchContents m c)) (leaf_idx (launchContents m c))
  have h1 : (W1 (Proc.devRef .tc main_v37), W1 (Proc.devRef .tc main_v9)) = roundFn^[1] L := by
    rw [← hW1]; exact stage_step h0 (rd1_tree W0) (rd1_idx W0)
  have h2 : (W2 (Proc.devRef .tc main_v66), W2 (Proc.devRef .tc main_v38)) = roundFn^[2] L := by
    rw [← hW2]; exact stage_step h1 (rd2_tree W1) (rd2_idx W1)
  have h3 : (W3 (Proc.devRef .tc main_v95), W3 (Proc.devRef .tc main_v67)) = roundFn^[3] L := by
    rw [← hW3]; exact stage_step h2 (rd3_tree W2) (rd3_idx W2)
  have h4 : (W4 (Proc.devRef .tc main_v124), W4 (Proc.devRef .tc main_v96)) = roundFn^[4] L := by
    rw [← hW4]; exact stage_step h3 (rd4_tree W3) (rd4_idx W3)
  have h5 : (W5 (Proc.devRef .tc main_v153), W5 (Proc.devRef .tc main_v125)) = roundFn^[5] L := by
    rw [← hW5]; exact stage_step h4 (rd5_tree W4) (rd5_idx W4)
  have h6 : (W6 (Proc.devRef .tc main_v182), W6 (Proc.devRef .tc main_v154)) = roundFn^[6] L := by
    rw [← hW6]; exact stage_step h5 (rd6_tree W5) (rd6_idx W5)
  have h7 : (W7 (Proc.devRef .tc main_v211), W7 (Proc.devRef .tc main_v183)) = roundFn^[7] L := by
    rw [← hW7]; exact stage_step h6 (rd7_tree W6) (rd7_idx W6)
  have h8 : (W8 (Proc.devRef .tc main_v240), W8 (Proc.devRef .tc main_v212)) = roundFn^[8] L := by
    rw [← hW8]; exact stage_step h7 (rd8_tree W7) (rd8_idx W7)
  have h9 : (W9 (Proc.devRef .tc main_v269), W9 (Proc.devRef .tc main_v241)) = roundFn^[9] L := by
    rw [← hW9]; exact stage_step h8 (rd9_tree W8) (rd9_idx W8)
  have h10 : (W10 (Proc.devRef .tc main_v298), W10 (Proc.devRef .tc main_v270)) = roundFn^[10] L := by
    rw [← hW10]; exact stage_step h9 (rd10_tree W9) (rd10_idx W9)
  have h11 : (W11 (Proc.devRef .tc main_v327), W11 (Proc.devRef .tc main_v299)) = roundFn^[11] L := by
    rw [← hW11]; exact stage_step h10 (rd11_tree W10) (rd11_idx W10)
  have h12 : (W12 (Proc.devRef .tc main_v356), W12 (Proc.devRef .tc main_v328)) = roundFn^[12] L := by
    rw [← hW12]; exact stage_step h11 (rd12_tree W11) (rd12_idx W11)
  have h13 : (W13 (Proc.devRef .tc main_v385), W13 (Proc.devRef .tc main_v357)) = roundFn^[13] L := by
    rw [← hW13]; exact stage_step h12 (rd13_tree W12) (rd13_idx W12)
  have h14 : (W14 (Proc.devRef .tc main_v414), W14 (Proc.devRef .tc main_v386)) = roundFn^[14] L := by
    rw [← hW14]; exact stage_step h13 (rd14_tree W13) (rd14_idx W13)
  have h15 : (W15 (Proc.devRef .tc main_v443), W15 (Proc.devRef .tc main_v415)) = roundFn^[15] L := by
    rw [← hW15]; exact stage_step h14 (rd15_tree W14) (rd15_idx W14)
  have h16 : (W16 (Proc.devRef .tc main_v472), W16 (Proc.devRef .tc main_v444)) = roundFn^[16] L := by
    rw [← hW16]; exact stage_step h15 (rd16_tree W15) (rd16_idx W15)
  have h17 : (W17 (Proc.devRef .tc main_v501), W17 (Proc.devRef .tc main_v473)) = roundFn^[17] L := by
    rw [← hW17]; exact stage_step h16 (rd17_tree W16) (rd17_idx W16)
  have h18 : (W18 (Proc.devRef .tc main_v530), W18 (Proc.devRef .tc main_v502)) = roundFn^[18] L := by
    rw [← hW18]; exact stage_step h17 (rd18_tree W17) (rd18_idx W17)
  have h19 : (W19 (Proc.devRef .tc main_v559), W19 (Proc.devRef .tc main_v531)) = roundFn^[19] L := by
    rw [← hW19]; exact stage_step h18 (rd19_tree W18) (rd19_idx W18)
  have h20 : (W20 (Proc.devRef .tc main_v588), W20 (Proc.devRef .tc main_v560)) = roundFn^[20] L := by
    rw [← hW20]; exact stage_step h19 (rd20_tree W19) (rd20_idx W19)
  have h21 : (W21 (Proc.devRef .tc main_v617), W21 (Proc.devRef .tc main_v589)) = roundFn^[21] L := by
    rw [← hW21]; exact stage_step h20 (rd21_tree W20) (rd21_idx W20)
  have h22 : (W22 (Proc.devRef .tc main_v646), W22 (Proc.devRef .tc main_v618)) = roundFn^[22] L := by
    rw [← hW22]; exact stage_step h21 (rd22_tree W21) (rd22_idx W21)
  have h23 : (W23 (Proc.devRef .tc main_v675), W23 (Proc.devRef .tc main_v647)) = roundFn^[23] L := by
    rw [← hW23]; exact stage_step h22 (rd23_tree W22) (rd23_idx W22)

  have hfin : W23 (Proc.devRef .tc main_v675) = (roundFn^[23] L).1 := congrArg Prod.fst h23
  rw [hfin, ← hL]
  exact rounds_result (launchContents m c (Proc.devRef .tc main_arg0)) (launchContents m c (Proc.devRef .tc main_arg1))
    (launchContents m c (Proc.devRef .tc main_arg2)) hrange

theorem ref_arg0 (m : (ℓ : Loc nD τ sig) → Buf (Elt Ideal) ℓ) (c : Dev nD) :
    StableHlo.after (ops (F := Ideal)) (launchContents m c) (Proc.devRef .tc main_arg0) = m ((c.tc : Thread nD τ).loc main_arg0) := by
  unfold ops
  repeat rw [StableHlo.after_append]
  rw [rd23_arg0, rd22_arg0, rd21_arg0, rd20_arg0, rd19_arg0, rd18_arg0, rd17_arg0, rd16_arg0, rd15_arg0, rd14_arg0, rd13_arg0, rd12_arg0, rd11_arg0, rd10_arg0, rd9_arg0, rd8_arg0, rd7_arg0, rd6_arg0, rd5_arg0, rd4_arg0, rd3_arg0, rd2_arg0, rd1_arg0, leaf_arg0]

theorem ref_arg1 (m : (ℓ : Loc nD τ sig) → Buf (Elt Ideal) ℓ) (c : Dev nD) :
    StableHlo.after (ops (F := Ideal)) (launchContents m c) (Proc.devRef .tc main_arg1) = m ((c.tc : Thread nD τ).loc main_arg1) := by
  unfold ops
  repeat rw [StableHlo.after_append]
  rw [rd23_arg1, rd22_arg1, rd21_arg1, rd20_arg1, rd19_arg1, rd18_arg1, rd17_arg1, rd16_arg1, rd15_arg1, rd14_arg1, rd13_arg1, rd12_arg1, rd11_arg1, rd10_arg1, rd9_arg1, rd8_arg1, rd7_arg1, rd6_arg1, rd5_arg1, rd4_arg1, rd3_arg1, rd2_arg1, rd1_arg1, leaf_arg1]

theorem ref_arg2 (m : (ℓ : Loc nD τ sig) → Buf (Elt Ideal) ℓ) (c : Dev nD) :
    StableHlo.after (ops (F := Ideal)) (launchContents m c) (Proc.devRef .tc main_arg2) = m ((c.tc : Thread nD τ).loc main_arg2) := by
  unfold ops
  repeat rw [StableHlo.after_append]
  rw [rd23_arg2, rd22_arg2, rd21_arg2, rd20_arg2, rd19_arg2, rd18_arg2, rd17_arg2, rd16_arg2, rd15_arg2, rd14_arg2, rd13_arg2, rd12_arg2, rd11_arg2, rd10_arg2, rd9_arg2, rd8_arg2, rd7_arg2, rd6_arg2, rd5_arg2, rd4_arg2, rd3_arg2, rd2_arg2, rd1_arg2, leaf_arg2]

end Cert.ReferenceIdeal.Hand

end
-- ==== Proof.PreRange.lean ====
import Idealize.ShloMosaic.PureOps
import Idealize.ShloMosaic.Lib.ValueIdx
import Idealize.ShloMosaic.Lib.ReduceAll
import Idealize.ShloMosaic.Lib.StableHlo.Predicate
import proofs.«417949_j89438398972173_1_alg».proof.Pre_finite_inputs
import proofs.«417949_j89438398972173_1_alg».proof.Proof.Gen.Pre_finite_inputs

namespace SegOps

open Idealize.ShloMosaic Idealize.ShloMosaic.ValueIdx Idealize.ShloMosaic.StableHlo.Predicate

theorem toNat_lt_of_signed_range (a : BitVec 32) (hge : IntOp.cmpi .sge a 0#32 = 1#1)
    (hlt : IntOp.cmpi .slt a 8388608#32 = 1#1) : a.toNat < 8388608 := by
  have e0 : (0#32 : BitVec 32).toInt = 0 := by decide
  have e1 : (8388608#32 : BitVec 32).toInt = 8388608 := by decide
  simp only [IntOp.cmpi, ofBool_eq_one_iff, BitVec.sle, BitVec.slt, decide_eq_true_eq, e0, e1] at hge hlt
  have hcond := @BitVec.toInt_eq_toNat_cond 32 a
  split at hcond <;> omega

theorem range_of_pre (a0 : FVec Ideal Cert.Pre_finite_inputs.S16777216 .f32) (a1 : IVec Cert.Pre_finite_inputs.S1048576 32)
    (a2 : FVec Ideal Cert.Pre_finite_inputs.S1048576 .f32)
    (h : Cert.Pre_finite_inputs.fn (F := Ideal) a0 a1 a2 = (fun _ => 1#1)) :
    ∀ k : Fin 1048576, (a1 (ix1 k)).toNat < 8388608 := by
  intro k

  have h0 : Cert.Pre_finite_inputs.fn (F := Ideal) a0 a1 a2 ix0 = 1#1 := congrFun h ix0
  obtain ⟨h12, h15⟩ := IntOp.andi_eq_one.1 h0
  obtain ⟨_, h11⟩ := IntOp.andi_eq_one.1 h12

  have hge := Host.reduce_andi_all _ _ _ _ ix0 h11 (ix1 k)
  have hlt := Host.reduce_andi_all _ _ _ _ ix0 h15 (ix1 k)
  exact toNat_lt_of_signed_range (a1 (ix1 k)) hge hlt

end SegOps
-- ==== Proof.lean ====
/-
  A segment tree on 2^23 leaves in one buffer of 2^24 numbers (the root at position 1, the children of p at 2p and
  2p+1): 2^20 leaves are overwritten, a later write to a leaf winning, and then, level by level, every ancestor of an
  overwritten leaf becomes the sum of its two children. One program walks the written paths round by round, the
  other recomputes each level whole under a mask of the touched nodes; both end at `SegTree.specOut` of the three
  arguments when every leaf index lies in [0, 2^23).
-/
import proofs.«417949_j89438398972173_1_alg».proof.Defs
import proofs.«417949_j89438398972173_1_alg».proof.Proof.Gen.Kernel
import proofs.«417949_j89438398972173_1_alg».proof.Proof.Gen.KernelIdeal
import proofs.«417949_j89438398972173_1_alg».proof.Proof.Gen.ReferenceIdeal
import proofs.«417949_j89438398972173_1_alg».proof.Proof.Gen.Pre_finite_inputs
import proofs.«417949_j89438398972173_1_alg».proof.Proof.K.Run
import proofs.«417949_j89438398972173_1_alg».proof.Proof.KI.Run
import proofs.«417949_j89438398972173_1_alg».proof.Proof.KI.Value
import proofs.«417949_j89438398972173_1_alg».proof.Proof.Ref.Run
import proofs.«417949_j89438398972173_1_alg».proof.Proof.Ref.Value
import proofs.«417949_j89438398972173_1_alg».proof.Proof.PreRange

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono
    (fun _ h c => ⟨(h c _).trans (Cert.ReferenceIdeal.Hand.ref_arg0 m c), (h c _).trans (Cert.ReferenceIdeal.Hand.ref_arg1 m c),
      (h c _).trans (Cert.ReferenceIdeal.Hand.ref_arg2 m c)⟩)
    (Cert.ReferenceIdeal.Hand.run (F := Ideal) m ρ)

theorem range_ki (m : (ℓ : Loc Cert.KernelIdeal.nD Cert.KernelIdeal.τ Cert.KernelIdeal.sig) → Buf (Elt Ideal) ℓ)
    (h : Cert.Pre_KernelIdeal m) (c : Dev Cert.KernelIdeal.nD) :
    ∀ k : Fin 1048576, ((m ((c.tc : Thread Cert.KernelIdeal.nD Cert.KernelIdeal.τ).loc Cert.KernelIdeal.main_arg1)) (ValueIdx.ix1 k)).toNat < 8388608 :=
  SegOps.range_of_pre _ _ _ (h c)

theorem algebraic : Cert.algebraic_KernelIdeal_ReferenceIdeal := by
  intro m ρ m' ρ' hpre hagree
  refine ⟨fun c => SegTree.specOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_result m c (range_ki m hpre c)), (h c).2⟩)
      (Cert.KernelIdeal.Hand.run_value (F := Ideal) m ρ)
  · have hr' : ∀ c : Dev Cert.ReferenceIdeal.nD, ∀ k : Fin 1048576,
        ((m' ((c.tc : Thread Cert.ReferenceIdeal.nD Cert.ReferenceIdeal.τ).loc Cert.ReferenceIdeal.main_arg1)) (ValueIdx.ix1 k)).toNat < 8388608 := by
      intro c k
      rw [(hagree c).2.1]
      exact range_ki m hpre c k
    refine (θ_run Cert.ReferenceIdeal.defs _ _).mono (fun _ h c => ⟨?_, (h c _).trans (Cert.ReferenceIdeal.Hand.ref_arg0 m' c),
      (h c _).trans (Cert.ReferenceIdeal.Hand.ref_arg1 m' c), (h c _).trans (Cert.ReferenceIdeal.Hand.ref_arg2 m' c)⟩)
      (Cert.ReferenceIdeal.Hand.run (F := Ideal) m' ρ')
    refine ((h c _).trans (Cert.ReferenceIdeal.Hand.ref_result m' c (hr' c))).trans ?_
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
